-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v174)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v174) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128x10 .f32) (main_arg10 : FVec F S10 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S4x128 .f32) (main_arg7 : FVec F S4x128 .f32) (main_arg8 : FVec F S4x128 .f32) (main_arg9 : FVec F S128x10 .f32) (main_arg10 : FVec F S10 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S4x128x128 .f32) (main_arg6 : FVec F S4x128 .f32) (main_arg7 : FVec F S4x128 .f32) (main_arg8 : FVec F S4x128 .f32) (main_arg9 : FVec F S128x10 .f32) (main_arg10 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x10 : Shape := ⟨2, ![128, 10]⟩
abbrev S10 : Shape := ⟨1, ![10]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S1x128 : Shape := ⟨2, ![1, 128]⟩
abbrev S5000x128 : Shape := ⟨2, ![5000, 128]⟩
abbrev S1x128x128 : Shape := ⟨3, ![1, 128, 128]⟩
abbrev S650000x128 : Shape := ⟨2, ![650000, 128]⟩
abbrev S50000x1 : Shape := ⟨2, ![50000, 1]⟩
abbrev S1x10 : Shape := ⟨2, ![1, 10]⟩
abbrev S256x10 : Shape := ⟨2, ![256, 10]⟩
abbrev S5000x1 : Shape := ⟨2, ![5000, 1]⟩
abbrev S256x128 : Shape := ⟨2, ![256, 128]⟩
abbrev S256x1 : Shape := ⟨2, ![256, 1]⟩
abbrev S1x256 : Shape := ⟨2, ![1, 256]⟩
abbrev S5000x256 : Shape := ⟨2, ![5000, 256]⟩

abbrev nBuf : Space → Nat
  | .hbm => 228
  | .vmem => 107
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S4x128x128, .f32⟩
  | 6 => ⟨S4x128, .f32⟩
  | 7 => ⟨S4x128, .f32⟩
  | 8 => ⟨S4x128, .f32⟩
  | 9 => ⟨S128x10, .f32⟩
  | 10 => ⟨S10, .f32⟩
  | 11 => ⟨S50000, .i32⟩
  | 12 => ⟨S1x600000, .i32⟩
  | 13 => ⟨S600000, .i32⟩
  | 14 => ⟨S650000, .i32⟩
  | 15 => ⟨S1x600000, .i32⟩
  | 16 => ⟨S600000, .i32⟩
  | 17 => ⟨S650000, .i32⟩
  | 18 => ⟨S_, .f32⟩
  | 19 => ⟨S650000, .f32⟩
  | 20 => ⟨S_, .f32⟩
  | 21 => ⟨S50000, .f32⟩
  | 22 => ⟨S650000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S650000, .i32⟩
  | 34 => ⟨S650000, .i1⟩
  | 35 => ⟨S_, .i32⟩
  | 36 => ⟨S650000, .i32⟩
  | 37 => ⟨S650000, .i32⟩
  | 38 => ⟨S650000, .i32⟩
  | 39 => ⟨S650000x1, .i32⟩
  | 40 => ⟨S650000, .f32⟩
  | 41 => ⟨S_, .i32⟩
  | 42 => ⟨S650000, .i32⟩
  | 43 => ⟨S650000, .i1⟩
  | 44 => ⟨S_, .i32⟩
  | 45 => ⟨S650000, .i32⟩
  | 46 => ⟨S650000, .i32⟩
  | 47 => ⟨S650000, .i32⟩
  | 48 => ⟨S650000x1, .i32⟩
  | 49 => ⟨S650000, .f32⟩
  | 50 => ⟨S650000, .f32⟩
  | 51 => ⟨S1x128, .f32⟩
  | 52 => ⟨S50000x128, .f32⟩
  | 53 => ⟨S1x128x128, .f32⟩
  | 54 => ⟨S128x128, .f32⟩
  | 55 => ⟨S_, .f32⟩
  | 56 => ⟨S128, .f32⟩
  | 57 => ⟨S1x128, .f32⟩
  | 58 => ⟨S50000x128, .f32⟩
  | 59 => ⟨S650000x1, .f32⟩
  | 60 => ⟨S_, .i32⟩
  | 61 => ⟨S650000, .i32⟩
  | 62 => ⟨S650000, .i1⟩
  | 63 => ⟨S_, .i32⟩
  | 64 => ⟨S650000, .i32⟩
  | 65 => ⟨S650000, .i32⟩
  | 66 => ⟨S650000, .i32⟩
  | 67 => ⟨S650000x1, .i32⟩
  | 68 => ⟨S650000x128, .f32⟩
  | 69 => ⟨S650000x128, .f32⟩
  | 70 => ⟨S650000x128, .f32⟩
  | 71 => ⟨S_, .f32⟩
  | 72 => ⟨S50000x128, .f32⟩
  | 73 => ⟨S650000x1, .i32⟩
  | 74 => ⟨S50000x128, .f32⟩
  | 75 => ⟨S1x128, .f32⟩
  | 76 => ⟨S128, .f32⟩
  | 77 => ⟨S1x128, .f32⟩
  | 78 => ⟨S50000x128, .f32⟩
  | 79 => ⟨S1x128, .f32⟩
  | 80 => ⟨S1x128, .f32⟩
  | 81 => ⟨S_, .f32⟩
  | 82 => ⟨S1x128, .f32⟩
  | 83 => ⟨S1x128, .f32⟩
  | 84 => ⟨S_, .f32⟩
  | 85 => ⟨S1x128, .f32⟩
  | 86 => ⟨S1x128, .f32⟩
  | 87 => ⟨S1x128, .f32⟩
  | 88 => ⟨S1x128, .f32⟩
  | 89 => ⟨S1x128, .f32⟩
  | 90 => ⟨S128, .f32⟩
  | 91 => ⟨S1x128, .f32⟩
  | 92 => ⟨S128, .f32⟩
  | 93 => ⟨S1x128, .f32⟩
  | 94 => ⟨S1x128, .f32⟩
  | 95 => ⟨S50000x128, .f32⟩
  | 96 => ⟨S1x128x128, .f32⟩
  | 97 => ⟨S128x128, .f32⟩
  | 98 => ⟨S_, .f32⟩
  | 99 => ⟨S128, .f32⟩
  | 100 => ⟨S1x128, .f32⟩
  | 101 => ⟨S50000x128, .f32⟩
  | 102 => ⟨S650000x1, .f32⟩
  | 103 => ⟨S_, .i32⟩
  | 104 => ⟨S650000, .i32⟩
  | 105 => ⟨S650000, .i1⟩
  | 106 => ⟨S_, .i32⟩
  | 107 => ⟨S650000, .i32⟩
  | 108 => ⟨S650000, .i32⟩
  | 109 => ⟨S650000, .i32⟩
  | 110 => ⟨S650000x1, .i32⟩
  | 111 => ⟨S650000x128, .f32⟩
  | 112 => ⟨S650000x128, .f32⟩
  | 113 => ⟨S650000x128, .f32⟩
  | 114 => ⟨S_, .f32⟩
  | 115 => ⟨S50000x128, .f32⟩
  | 116 => ⟨S650000x1, .i32⟩
  | 117 => ⟨S50000x128, .f32⟩
  | 118 => ⟨S1x128, .f32⟩
  | 119 => ⟨S128, .f32⟩
  | 120 => ⟨S1x128, .f32⟩
  | 121 => ⟨S50000x128, .f32⟩
  | 122 => ⟨S1x128, .f32⟩
  | 123 => ⟨S1x128, .f32⟩
  | 124 => ⟨S_, .f32⟩
  | 125 => ⟨S1x128, .f32⟩
  | 126 => ⟨S1x128, .f32⟩
  | 127 => ⟨S_, .f32⟩
  | _ => ⟨S50000x128, .f32⟩

abbrev hbmTy0_1 (i : Nat) : BufTy := match i % 128 with
  | 0 => ⟨S1x128, .f32⟩
  | 1 => ⟨S1x128, .f32⟩
  | 2 => ⟨S1x128, .f32⟩
  | 3 => ⟨S1x128, .f32⟩
  | 4 => ⟨S1x128, .f32⟩
  | 5 => ⟨S128, .f32⟩
  | 6 => ⟨S1x128, .f32⟩
  | 7 => ⟨S128, .f32⟩
  | 8 => ⟨S1x128, .f32⟩
  | 9 => ⟨S1x128, .f32⟩
  | 10 => ⟨S50000x128, .f32⟩
  | 11 => ⟨S1x128x128, .f32⟩
  | 12 => ⟨S128x128, .f32⟩
  | 13 => ⟨S_, .f32⟩
  | 14 => ⟨S128, .f32⟩
  | 15 => ⟨S1x128, .f32⟩
  | 16 => ⟨S50000x128, .f32⟩
  | 17 => ⟨S650000x1, .f32⟩
  | 18 => ⟨S_, .i32⟩
  | 19 => ⟨S650000, .i32⟩
  | 20 => ⟨S650000, .i1⟩
  | 21 => ⟨S_, .i32⟩
  | 22 => ⟨S650000, .i32⟩
  | 23 => ⟨S650000, .i32⟩
  | 24 => ⟨S650000, .i32⟩
  | 25 => ⟨S650000x1, .i32⟩
  | 26 => ⟨S650000x128, .f32⟩
  | 27 => ⟨S650000x128, .f32⟩
  | 28 => ⟨S650000x128, .f32⟩
  | 29 => ⟨S_, .f32⟩
  | 30 => ⟨S50000x128, .f32⟩
  | 31 => ⟨S650000x1, .i32⟩
  | 32 => ⟨S50000x128, .f32⟩
  | 33 => ⟨S1x128, .f32⟩
  | 34 => ⟨S128, .f32⟩
  | 35 => ⟨S1x128, .f32⟩
  | 36 => ⟨S50000x128, .f32⟩
  | 37 => ⟨S1x128, .f32⟩
  | 38 => ⟨S1x128, .f32⟩
  | 39 => ⟨S_, .f32⟩
  | 40 => ⟨S1x128, .f32⟩
  | 41 => ⟨S1x128, .f32⟩
  | 42 => ⟨S_, .f32⟩
  | 43 => ⟨S1x128, .f32⟩
  | 44 => ⟨S1x128, .f32⟩
  | 45 => ⟨S1x128, .f32⟩
  | 46 => ⟨S1x128, .f32⟩
  | 47 => ⟨S1x128, .f32⟩
  | 48 => ⟨S128, .f32⟩
  | 49 => ⟨S1x128, .f32⟩
  | 50 => ⟨S128, .f32⟩
  | 51 => ⟨S1x128, .f32⟩
  | 52 => ⟨S1x128, .f32⟩
  | 53 => ⟨S50000x128, .f32⟩
  | 54 => ⟨S1x128x128, .f32⟩
  | 55 => ⟨S128x128, .f32⟩
  | 56 => ⟨S_, .f32⟩
  | 57 => ⟨S128, .f32⟩
  | 58 => ⟨S1x128, .f32⟩
  | 59 => ⟨S50000x128, .f32⟩
  | 60 => ⟨S650000x1, .f32⟩
  | 61 => ⟨S_, .i32⟩
  | 62 => ⟨S650000, .i32⟩
  | 63 => ⟨S650000, .i1⟩
  | 64 => ⟨S_, .i32⟩
  | 65 => ⟨S650000, .i32⟩
  | 66 => ⟨S650000, .i32⟩
  | 67 => ⟨S650000, .i32⟩
  | 68 => ⟨S650000x1, .i32⟩
  | 69 => ⟨S650000x128, .f32⟩
  | 70 => ⟨S650000x128, .f32⟩
  | 71 => ⟨S650000x128, .f32⟩
  | 72 => ⟨S_, .f32⟩
  | 73 => ⟨S50000x128, .f32⟩
  | 74 => ⟨S650000x1, .i32⟩
  | 75 => ⟨S50000x128, .f32⟩
  | 76 => ⟨S1x128, .f32⟩
  | 77 => ⟨S128, .f32⟩
  | 78 => ⟨S1x128, .f32⟩
  | 79 => ⟨S50000x128, .f32⟩
  | 80 => ⟨S1x128, .f32⟩
  | 81 => ⟨S1x128, .f32⟩
  | 82 => ⟨S_, .f32⟩
  | 83 => ⟨S1x128, .f32⟩
  | 84 => ⟨S1x128, .f32⟩
  | 85 => ⟨S_, .f32⟩
  | 86 => ⟨S1x128, .f32⟩
  | 87 => ⟨S1x128, .f32⟩
  | 88 => ⟨S1x128, .f32⟩
  | 89 => ⟨S1x128, .f32⟩
  | 90 => ⟨S1x128, .f32⟩
  | 91 => ⟨S128, .f32⟩
  | 92 => ⟨S1x128, .f32⟩
  | 93 => ⟨S128, .f32⟩
  | 94 => ⟨S1x128, .f32⟩
  | 95 => ⟨S1x128, .f32⟩
  | 96 => ⟨S50000x128, .f32⟩
  | 97 => ⟨S50000x1, .i32⟩
  | 98 => ⟨S1x10, .f32⟩
  | 99 => ⟨S256x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S128x128, .f32⟩
  | .local _ .vmem, ⟨55, _⟩ => ⟨S1x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S1x128, .f32⟩
  | .local _ .vmem, ⟨61, _⟩ => ⟨S5000x128, .f32⟩
  | .local _ .vmem, ⟨62, _⟩ => ⟨S5000x128, .f32⟩
  | .local _ .vmem, ⟨63, _⟩ => ⟨S1x128, .f32⟩
  | .local _ .vmem, ⟨64, _⟩ => ⟨S1x128, .f32⟩
  | .local _ .vmem, ⟨65, _⟩ => ⟨S1x128, .f32⟩
  | .local _ .vmem, ⟨66, _⟩ => ⟨S1x128, .f32⟩
  | .local _ .vmem, ⟨67, _⟩ => ⟨S5000x128, .f32⟩
  | .local _ .vmem, ⟨68, _⟩ => ⟨S5000x128, .f32⟩
  | .local _ .vmem, ⟨69, _⟩ => ⟨S1x128, .f32⟩
  | .local _ .vmem, ⟨70, _⟩ => ⟨S1x128, .f32⟩
  | .local _ .vmem, ⟨71, _⟩ => ⟨S1x128, .f32⟩
  | .local _ .vmem, ⟨72, _⟩ => ⟨S1x128, .f32⟩
  | .local _ .vmem, ⟨73, _⟩ => ⟨S5000x128, .f32⟩
  | .local _ .vmem, ⟨74, _⟩ => ⟨S5000x128, .f32⟩
  | .local _ .vmem, ⟨75, _⟩ => ⟨S5000x128, .f32⟩
  | .local _ .vmem, ⟨76, _⟩ => ⟨S5000x128, .f32⟩
  | .local _ .vmem, ⟨77, _⟩ => ⟨S128x128, .f32⟩
  | .local _ .vmem, ⟨78, _⟩ => ⟨S1x128, .f32⟩
  | .local _ .vmem, ⟨79, _⟩ => ⟨S5000x128, .f32⟩
  | .local _ .vmem, ⟨80, _⟩ => ⟨S5000x128, .f32⟩
  | .local _ .vmem, ⟨81, _⟩ => ⟨S5000x128, .f32⟩
  | .local _ .vmem, ⟨82, _⟩ => ⟨S5000x128, .f32⟩
  | .local _ .vmem, ⟨83, _⟩ => ⟨S1x128, .f32⟩
  | .local _ .vmem, ⟨84, _⟩ => ⟨S5000x128, .f32⟩
  | .local _ .vmem, ⟨85, _⟩ => ⟨S5000x128, .f32⟩
  | .local _ .vmem, ⟨86, _⟩ => ⟨S1x128, .f32⟩
  | .local _ .vmem, ⟨87, _⟩ => ⟨S1x128, .f32⟩
  | .local _ .vmem, ⟨88, _⟩ => ⟨S1x128, .f32⟩
  | .local _ .vmem, ⟨89, _⟩ => ⟨S1x128, .f32⟩
  | .local _ .vmem, ⟨90, _⟩ => ⟨S5000x128, .f32⟩
  | .local _ .vmem, ⟨91, _⟩ => ⟨S5000x128, .f32⟩
  | .local _ .vmem, ⟨92, _⟩ => ⟨S1x128, .f32⟩
  | .local _ .vmem, ⟨93, _⟩ => ⟨S1x128, .f32⟩
  | .local _ .vmem, ⟨94, _⟩ => ⟨S1x128, .f32⟩
  | .local _ .vmem, ⟨95, _⟩ => ⟨S1x128, .f32⟩
  | .local _ .vmem, ⟨96, _⟩ => ⟨S5000x128, .f32⟩
  | .local _ .vmem, ⟨97, _⟩ => ⟨S5000x128, .f32⟩
  | .local _ .vmem, ⟨98, _⟩ => ⟨S5000x128, .f32⟩
  | .local _ .vmem, ⟨99, _⟩ => ⟨S5000x128, .f32⟩
  | .local _ .vmem, ⟨100, _⟩ => ⟨S5000x1, .i32⟩
  | .local _ .vmem, ⟨101, _⟩ => ⟨S5000x1, .i32⟩
  | .local _ .vmem, ⟨102, _⟩ => ⟨S128x10, .f32⟩
  | .local _ .vmem, ⟨103, _⟩ => ⟨S1x10, .f32⟩
  | .local _ .vmem, ⟨104, _⟩ => ⟨S256x10, .f32⟩
  | .local _ .vmem, ⟨105, _⟩ => ⟨S256x128, .f32⟩
  | .local _ .vmem, ⟨106, _⟩ => ⟨S256x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | _, _ => false

abbrev semScoped : Fin 0 → Bool
  | ⟨_, h⟩ => absurd h (Nat.not_lt_zero _)

abbrev dmaSemScoped : Fin 97 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | _ => false

abbrev sig : RefSig :=
  ofTc nBuf bufTy 0 97 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53_0 : Ref sig .tc := ⟨.hbm, 78, rfl⟩
abbrev main_v53_1 : Ref sig .tc := ⟨.hbm, 79, rfl⟩
abbrev main_v53_2 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_12 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_13 : Ref sig .tc := ⟨.hbm, 103, rfl⟩
abbrev main_v73 : Ref sig .tc := ⟨.hbm, 104, rfl⟩
abbrev main_v74 : Ref sig .tc := ⟨.hbm, 105, rfl⟩
abbrev main_c_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_15 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88_0 : Ref sig .tc := ⟨.hbm, 121, rfl⟩
abbrev main_v88_1 : Ref sig .tc := ⟨.hbm, 122, rfl⟩
abbrev main_v88_2 : Ref sig .tc := ⟨.hbm, 123, rfl⟩
abbrev main_cst_16 : Ref sig .tc := ⟨.hbm, 124, rfl⟩
abbrev main_v89 : Ref sig .tc := ⟨.hbm, 125, rfl⟩
abbrev main_v90 : Ref sig .tc := ⟨.hbm, 126, rfl⟩
abbrev main_cst_17 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_18 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_c_19 : Ref sig .tc := ⟨.hbm, 146, rfl⟩
abbrev main_v108 : Ref sig .tc := ⟨.hbm, 147, rfl⟩
abbrev main_v109 : Ref sig .tc := ⟨.hbm, 148, rfl⟩
abbrev main_c_20 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_21 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123_0 : Ref sig .tc := ⟨.hbm, 164, rfl⟩
abbrev main_v123_1 : Ref sig .tc := ⟨.hbm, 165, rfl⟩
abbrev main_v123_2 : Ref sig .tc := ⟨.hbm, 166, rfl⟩
abbrev main_cst_22 : Ref sig .tc := ⟨.hbm, 167, rfl⟩
abbrev main_v124 : Ref sig .tc := ⟨.hbm, 168, rfl⟩
abbrev main_v125 : Ref sig .tc := ⟨.hbm, 169, rfl⟩
abbrev main_cst_23 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_cst_24 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_c_25 : Ref sig .tc := ⟨.hbm, 189, rfl⟩
abbrev main_v143 : Ref sig .tc := ⟨.hbm, 190, rfl⟩
abbrev main_v144 : Ref sig .tc := ⟨.hbm, 191, rfl⟩
abbrev main_c_26 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_cst_27 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158_0 : Ref sig .tc := ⟨.hbm, 207, rfl⟩
abbrev main_v158_1 : Ref sig .tc := ⟨.hbm, 208, rfl⟩
abbrev main_v158_2 : Ref sig .tc := ⟨.hbm, 209, rfl⟩
abbrev main_cst_28 : Ref sig .tc := ⟨.hbm, 210, rfl⟩
abbrev main_v159 : Ref sig .tc := ⟨.hbm, 211, rfl⟩
abbrev main_v160 : Ref sig .tc := ⟨.hbm, 212, rfl⟩
abbrev main_cst_29 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_scratch0 : Ref sig .tc := ⟨.vmem, 19, rfl⟩
abbrev cc2_scratch1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg5_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg4_0 : Ref sig .tc := ⟨.vmem, 41, rfl⟩
abbrev cc5_scratch0 : Ref sig .tc := ⟨.vmem, 42, rfl⟩
abbrev cc5_scratch1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg4_0 : Ref sig .tc := ⟨.vmem, 49, rfl⟩
abbrev cc6_stg5_0 : Ref sig .tc := ⟨.vmem, 50, rfl⟩
abbrev cc6_stg5_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg2_0 : Ref sig .tc := ⟨.vmem, 55, rfl⟩
abbrev cc7_stg3_0 : Ref sig .tc := ⟨.vmem, 56, rfl⟩
abbrev cc7_stg3_1 : Ref sig .tc := ⟨.vmem, 57, rfl⟩
abbrev cc8_stg0_0 : Ref sig .tc := ⟨.vmem, 58, rfl⟩
abbrev cc8_stg0_1 : Ref sig .tc := ⟨.vmem, 59, rfl⟩
abbrev cc8_stg1_0 : Ref sig .tc := ⟨.vmem, 60, rfl⟩
abbrev cc8_stg2_0 : Ref sig .tc := ⟨.vmem, 61, rfl⟩
abbrev cc8_stg2_1 : Ref sig .tc := ⟨.vmem, 62, rfl⟩
abbrev cc8_stg3_0 : Ref sig .tc := ⟨.vmem, 63, rfl⟩
abbrev cc8_stg4_0 : Ref sig .tc := ⟨.vmem, 64, rfl⟩
abbrev cc8_scratch0 : Ref sig .tc := ⟨.vmem, 65, rfl⟩
abbrev cc8_scratch1 : Ref sig .tc := ⟨.vmem, 66, rfl⟩
abbrev cc9_stg0_0 : Ref sig .tc := ⟨.vmem, 67, rfl⟩
abbrev cc9_stg0_1 : Ref sig .tc := ⟨.vmem, 68, rfl⟩
abbrev cc9_stg1_0 : Ref sig .tc := ⟨.vmem, 69, rfl⟩
abbrev cc9_stg2_0 : Ref sig .tc := ⟨.vmem, 70, rfl⟩
abbrev cc9_stg3_0 : Ref sig .tc := ⟨.vmem, 71, rfl⟩
abbrev cc9_stg4_0 : Ref sig .tc := ⟨.vmem, 72, rfl⟩
abbrev cc9_stg5_0 : Ref sig .tc := ⟨.vmem, 73, rfl⟩
abbrev cc9_stg5_1 : Ref sig .tc := ⟨.vmem, 74, rfl⟩
abbrev cc10_stg0_0 : Ref sig .tc := ⟨.vmem, 75, rfl⟩
abbrev cc10_stg0_1 : Ref sig .tc := ⟨.vmem, 76, rfl⟩
abbrev cc10_stg1_0 : Ref sig .tc := ⟨.vmem, 77, rfl⟩
abbrev cc10_stg2_0 : Ref sig .tc := ⟨.vmem, 78, rfl⟩
abbrev cc10_stg3_0 : Ref sig .tc := ⟨.vmem, 79, rfl⟩
abbrev cc10_stg3_1 : Ref sig .tc := ⟨.vmem, 80, rfl⟩
abbrev cc11_stg0_0 : Ref sig .tc := ⟨.vmem, 81, rfl⟩
abbrev cc11_stg0_1 : Ref sig .tc := ⟨.vmem, 82, rfl⟩
abbrev cc11_stg1_0 : Ref sig .tc := ⟨.vmem, 83, rfl⟩
abbrev cc11_stg2_0 : Ref sig .tc := ⟨.vmem, 84, rfl⟩
abbrev cc11_stg2_1 : Ref sig .tc := ⟨.vmem, 85, rfl⟩
abbrev cc11_stg3_0 : Ref sig .tc := ⟨.vmem, 86, rfl⟩
abbrev cc11_stg4_0 : Ref sig .tc := ⟨.vmem, 87, rfl⟩
abbrev cc11_scratch0 : Ref sig .tc := ⟨.vmem, 88, rfl⟩
abbrev cc11_scratch1 : Ref sig .tc := ⟨.vmem, 89, rfl⟩
abbrev cc12_stg0_0 : Ref sig .tc := ⟨.vmem, 90, rfl⟩
abbrev cc12_stg0_1 : Ref sig .tc := ⟨.vmem, 91, rfl⟩
abbrev cc12_stg1_0 : Ref sig .tc := ⟨.vmem, 92, rfl⟩
abbrev cc12_stg2_0 : Ref sig .tc := ⟨.vmem, 93, rfl⟩
abbrev cc12_stg3_0 : Ref sig .tc := ⟨.vmem, 94, rfl⟩
abbrev cc12_stg4_0 : Ref sig .tc := ⟨.vmem, 95, rfl⟩
abbrev cc12_stg5_0 : Ref sig .tc := ⟨.vmem, 96, rfl⟩
abbrev cc12_stg5_1 : Ref sig .tc := ⟨.vmem, 97, rfl⟩
abbrev cc13_stg0_0 : Ref sig .tc := ⟨.vmem, 98, rfl⟩
abbrev cc13_stg0_1 : Ref sig .tc := ⟨.vmem, 99, rfl⟩
abbrev cc13_stg1_0 : Ref sig .tc := ⟨.vmem, 100, rfl⟩
abbrev cc13_stg1_1 : Ref sig .tc := ⟨.vmem, 101, rfl⟩
abbrev cc13_stg2_0 : Ref sig .tc := ⟨.vmem, 102, rfl⟩
abbrev cc13_stg3_0 : Ref sig .tc := ⟨.vmem, 103, rfl⟩
abbrev cc13_stg4_0 : Ref sig .tc := ⟨.vmem, 104, rfl⟩
abbrev cc13_scratch0 : Ref sig .tc := ⟨.vmem, 105, rfl⟩
abbrev cc13_scratch1 : Ref sig .tc := ⟨.vmem, 106, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem4_0 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem5_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc5_sem3_0 : DmaSem sig := 38
abbrev cc5_sem4_0 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem4_0 : DmaSem sig := 45
abbrev cc6_sem5_0 : DmaSem sig := 46
abbrev cc6_sem5_1 : DmaSem sig := 47
abbrev cc7_sem0_0 : DmaSem sig := 48
abbrev cc7_sem0_1 : DmaSem sig := 49
abbrev cc7_sem1_0 : DmaSem sig := 50
abbrev cc7_sem2_0 : DmaSem sig := 51
abbrev cc7_sem3_0 : DmaSem sig := 52
abbrev cc7_sem3_1 : DmaSem sig := 53
abbrev cc8_sem0_0 : DmaSem sig := 54
abbrev cc8_sem0_1 : DmaSem sig := 55
abbrev cc8_sem1_0 : DmaSem sig := 56
abbrev cc8_sem2_0 : DmaSem sig := 57
abbrev cc8_sem2_1 : DmaSem sig := 58
abbrev cc8_sem3_0 : DmaSem sig := 59
abbrev cc8_sem4_0 : DmaSem sig := 60
abbrev cc9_sem0_0 : DmaSem sig := 61
abbrev cc9_sem0_1 : DmaSem sig := 62
abbrev cc9_sem1_0 : DmaSem sig := 63
abbrev cc9_sem2_0 : DmaSem sig := 64
abbrev cc9_sem3_0 : DmaSem sig := 65
abbrev cc9_sem4_0 : DmaSem sig := 66
abbrev cc9_sem5_0 : DmaSem sig := 67
abbrev cc9_sem5_1 : DmaSem sig := 68
abbrev cc10_sem0_0 : DmaSem sig := 69
abbrev cc10_sem0_1 : DmaSem sig := 70
abbrev cc10_sem1_0 : DmaSem sig := 71
abbrev cc10_sem2_0 : DmaSem sig := 72
abbrev cc10_sem3_0 : DmaSem sig := 73
abbrev cc10_sem3_1 : DmaSem sig := 74
abbrev cc11_sem0_0 : DmaSem sig := 75
abbrev cc11_sem0_1 : DmaSem sig := 76
abbrev cc11_sem1_0 : DmaSem sig := 77
abbrev cc11_sem2_0 : DmaSem sig := 78
abbrev cc11_sem2_1 : DmaSem sig := 79
abbrev cc11_sem3_0 : DmaSem sig := 80
abbrev cc11_sem4_0 : DmaSem sig := 81
abbrev cc12_sem0_0 : DmaSem sig := 82
abbrev cc12_sem0_1 : DmaSem sig := 83
abbrev cc12_sem1_0 : DmaSem sig := 84
abbrev cc12_sem2_0 : DmaSem sig := 85
abbrev cc12_sem3_0 : DmaSem sig := 86
abbrev cc12_sem4_0 : DmaSem sig := 87
abbrev cc12_sem5_0 : DmaSem sig := 88
abbrev cc12_sem5_1 : DmaSem sig := 89
abbrev cc13_sem0_0 : DmaSem sig := 90
abbrev cc13_sem0_1 : DmaSem sig := 91
abbrev cc13_sem1_0 : DmaSem sig := 92
abbrev cc13_sem1_1 : DmaSem sig := 93
abbrev cc13_sem2_0 : DmaSem sig := 94
abbrev cc13_sem3_0 : DmaSem sig := 95
abbrev cc13_sem4_0 : DmaSem sig := 96

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_15 : BitVec 32 := 0#32
  let v27 : BitVec 1 := Scalar.cmpi .ne v26 c0_i32_15
  v27

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def k5_cond2 (i : grid5.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_15 : BitVec 32 := 0#32
  let v27 : BitVec 1 := Scalar.cmpi .ne v26 c0_i32_15
  v27

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def k8_cond2 (i : grid8.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_15 : BitVec 32 := 0#32
  let v27 : BitVec 1 := Scalar.cmpi .ne v26 c0_i32_15
  v27

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S5000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![10], ![false]⟩

def k11_cond2 (i : grid11.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_15 : BitVec 32 := 0#32
  let v27 : BitVec 1 := Scalar.cmpi .ne v26 c0_i32_15
  v27

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S5000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S5000x128 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![10], ![false]⟩

def k13_cond2 (i : grid13.Coords) : BitVec 1 :=
  let arg0 : BitVec 32 := BitVec.ofNat 32 (i 0).val
  let c9_i32 : BitVec 32 := 9#32
  let v28 : BitVec 1 := Scalar.cmpi .eq arg0 c9_i32
  let v29 : BitVec 32 := Scalar.extui v28
  let c0_i32_14 : BitVec 32 := 0#32
  let v30 : BitVec 1 := Scalar.cmpi .ne v29 c0_i32_14
  v30

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x1 .i32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S128x10 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x10 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S256x10 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S4x128x128_S1x128x128_0_0_0 : S4x128x128.Slices ![0, 0, 0] S1x128x128
  shapeCasts_S1x128x128_S128x128 : S1x128x128.ShapeCasts S128x128
  bcast_S_S128 : S_.BroadcastsInDim S128 (![] : Fin 0 → Fin S128.rank)
  shapeCasts_S5000x128_S5000x128 : S5000x128.ShapeCasts S5000x128
  shapeCasts_S128x128_S128x128 : S128x128.ShapeCasts S128x128
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  slices_S4x128_S1x128_0_0 : S4x128.Slices ![0, 0] S1x128
  shapeCasts_S1x128_S128 : S1x128.ShapeCasts S128
  reduces_S5000x128_S128 : S5000x128.Reduces [0] S128
  bcast_S_S1x128 : S_.BroadcastsInDim S1x128 (![] : Fin 0 → Fin S1x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  shapeCasts_S50000_S50000x1 : S50000.ShapeCasts S50000x1
  shapeCasts_S10_S1x10 : S10.ShapeCasts S1x10
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S1x256_d1_w32 : S1x256.Iotas .tc 32 [1]
  broadcasts_S5000x1_S5000x256 : S5000x1.Broadcasts S5000x256
  broadcasts_S1x256_S5000x256 : S1x256.Broadcasts S5000x256
  natLt_1_32 : 1 < 32
  broadcasts_S256x1_S256x128 : S256x1.Broadcasts S256x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  inb_S256x10_S256x10_0_0 : ∀ a, (![0, 0] : Fin 2 → Nat) a + S256x10.size a ≤ S256x10.size a
  h_S256x10 : 0 < S256x10.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x256_S5000x128_S256x128_0_0_1_1_n_n_wf : DotDims.WF S5000x256 S5000x128 S256x128 [0] [0] [1] [1] [] []
  dot_S5000x256_S5000x1_S256x1_0_0_1_1_n_n_wf : DotDims.WF S5000x256 S5000x1 S256x1 [0] [0] [1] [1] [] []
  dot_S256x128_S128x10_S256x10_1_0_0_1_n_n_wf : DotDims.WF S256x128 S128x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S50000x128.size a
  hwx6_5 : ∀ i : grid6.Coords, EltTy.bits .f32 = 32 ∨ (Rect.block (s := S50000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S50000x128.size a
  hwx7_3 : ∀ i : grid7.Coords, EltTy.bits .f32 = 32 ∨ (Rect.block (s := S50000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S50000x128.size a
  hwx8_2 : ∀ i : grid8.Coords, EltTy.bits .f32 = 32 ∨ (Rect.block (s := S50000x128) S5000x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S50000x128.size a
  hwx9_5 : ∀ i : grid9.Coords, EltTy.bits .f32 = 32 ∨ (Rect.block (s := S50000x128) S5000x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x128.size a ≤ S50000x128.size a
  hwx10_3 : ∀ i : grid10.Coords, EltTy.bits .f32 = 32 ∨ (Rect.block (s := S50000x128) S5000x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x128.size a ≤ S50000x128.size a
  hwx11_2 : ∀ i : grid11.Coords, EltTy.bits .f32 = 32 ∨ (Rect.block (s := S50000x128) S5000x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S50000x128.size a
  hwx12_0 : ∀ i : grid12.Coords, EltTy.bits .f32 = 32 ∨ (Rect.block (s := S50000x128) S5000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x128.size a ≤ S1x128.size a
  hwx12_1 : ∀ i : grid12.Coords, EltTy.bits .f32 = 32 ∨ (Rect.block (s := S1x128) S1x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x128.size a ≤ S1x128.size a
  hwx12_4 : ∀ i : grid12.Coords, EltTy.bits .f32 = 32 ∨ (Rect.block (s := S1x128) S1x128.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S5000x128.size a ≤ S50000x128.size a
  hwx12_5 : ∀ i : grid12.Coords, EltTy.bits .f32 = 32 ∨ (Rect.block (s := S50000x128) S5000x128.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S50000x128.size a
  hwx13_0 : ∀ i : grid13.Coords, EltTy.bits .f32 = 32 ∨ (Rect.block (s := S50000x128) S5000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x1.size a ≤ S50000x1.size a
  hwx13_1 : ∀ i : grid13.Coords, EltTy.bits .i32 = 32 ∨ (Rect.block (s := S50000x1) S5000x1.size (cc13_transform_1 i) (hinb13_1 i)).WholeWords (EltTy.packing .i32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S128x10.size a ≤ S128x10.size a
  hwx13_2 : ∀ i : grid13.Coords, EltTy.bits .f32 = 32 ∨ (Rect.block (s := S128x10) S128x10.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x10.size a ≤ S1x10.size a
  hwx13_3 : ∀ i : grid13.Coords, EltTy.bits .f32 = 32 ∨ (Rect.block (s := S1x10) S1x10.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S256x10.size a ≤ S256x10.size a
  hwx13_4 : ∀ i : grid13.Coords, EltTy.bits .f32 = 32 ∨ (Rect.block (s := S256x10) S256x10.size (cc13_transform_4 i) (hinb13_4 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x256_S5000x128_S256x128_0_0_1_1_n_n : DotDims S5000x256 S5000x128 S256x128 where
  lhsContracting := [0]
  rhsContracting := [0]
  lhsNonContracting := [1]
  rhsNonContracting := [1]
  lhsBatch := []
  rhsBatch := []
  wf := dot_S5000x256_S5000x128_S256x128_0_0_1_1_n_n_wf
def dot_S5000x256_S5000x1_S256x1_0_0_1_1_n_n : DotDims S5000x256 S5000x1 S256x1 where
  lhsContracting := [0]
  rhsContracting := [0]
  lhsNonContracting := [1]
  rhsNonContracting := [1]
  lhsBatch := []
  rhsBatch := []
  wf := dot_S5000x256_S5000x1_S256x1_0_0_1_1_n_n_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53_0) S5000x128.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v53_1) S1x128.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53_2) S1x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond2 i == 1#1) | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v53_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v66) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v66) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v71) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v84) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v87) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v88_0) S5000x128.size cc5_transform_2 reads5_2 true false 2 stage5_2 sem5_2
    hrank5 hreads5_2 hinb5_2 nbuf5_2 (Memref.isWhole_whole _) hwx5_2 hstage5_2

abbrev win5_3 : Pipeline.Window sig grid5 :=
  Pipeline.Window.ofSpec (Memref.whole main_v88_1) S1x128.size cc5_transform_3 reads5_3 true true 1 stage5_3 sem5_3
    hrank5 hreads5_3 hinb5_3 nbuf5_3 (Memref.isWhole_whole _) hwx5_3 hstage5_3

abbrev win5_4 : Pipeline.Window sig grid5 :=
  Pipeline.Window.ofSpec (Memref.whole main_v88_2) S1x128.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun i => !(k5_cond2 i == 1#1) | 4 => fun i => !(k5_cond2 i == 1#1) | ⟨_ + 5, h⟩ => absurd h (Nat.not_lt.2 (Nat.le_add_left _ _))

abbrev win6_0 : Pipeline.Window sig grid6 :=
  Pipeline.Window.ofSpec (Memref.whole main_v88_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v90) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v94) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v99) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v100) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v101) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v101) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v103) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v105) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v106) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v119) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v122) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v123_0) S5000x128.size cc8_transform_2 reads8_2 true false 2 stage8_2 sem8_2
    hrank8 hreads8_2 hinb8_2 nbuf8_2 (Memref.isWhole_whole _) hwx8_2 hstage8_2

abbrev win8_3 : Pipeline.Window sig grid8 :=
  Pipeline.Window.ofSpec (Memref.whole main_v123_1) S1x128.size cc8_transform_3 reads8_3 true true 1 stage8_3 sem8_3
    hrank8 hreads8_3 hinb8_3 nbuf8_3 (Memref.isWhole_whole _) hwx8_3 hstage8_3

abbrev win8_4 : Pipeline.Window sig grid8 :=
  Pipeline.Window.ofSpec (Memref.whole main_v123_2) S1x128.size cc8_transform_4 reads8_4 true true 1 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev idle8 : Fin 5 → grid8.Coords → Bool := fun | 0 => fun _ => false | 1 => fun _ => false | 2 => fun _ => false | 3 => fun i => !(k8_cond2 i == 1#1) | 4 => fun i => !(k8_cond2 i == 1#1) | ⟨_ + 5, h⟩ => absurd h (Nat.not_lt.2 (Nat.le_add_left _ _))

abbrev win9_0 : Pipeline.Window sig grid9 :=
  Pipeline.Window.ofSpec (Memref.whole main_v123_0) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v125) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v129) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v134) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v135) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v136) S5000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v136) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v138) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v140) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v141) S5000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v154) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v157) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v158_0) S5000x128.size cc11_transform_2 reads11_2 true false 2 stage11_2 sem11_2
    hrank11 hreads11_2 hinb11_2 nbuf11_2 (Memref.isWhole_whole _) hwx11_2 hstage11_2

abbrev win11_3 : Pipeline.Window sig grid11 :=
  Pipeline.Window.ofSpec (Memref.whole main_v158_1) S1x128.size cc11_transform_3 reads11_3 true true 1 stage11_3 sem11_3
    hrank11 hreads11_3 hinb11_3 nbuf11_3 (Memref.isWhole_whole _) hwx11_3 hstage11_3

abbrev win11_4 : Pipeline.Window sig grid11 :=
  Pipeline.Window.ofSpec (Memref.whole main_v158_2) S1x128.size cc11_transform_4 reads11_4 true true 1 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev idle11 : Fin 5 → grid11.Coords → Bool := fun | 0 => fun _ => false | 1 => fun _ => false | 2 => fun _ => false | 3 => fun i => !(k11_cond2 i == 1#1) | 4 => fun i => !(k11_cond2 i == 1#1) | ⟨_ + 5, h⟩ => absurd h (Nat.not_lt.2 (Nat.le_add_left _ _))

abbrev win12_0 : Pipeline.Window sig grid12 :=
  Pipeline.Window.ofSpec (Memref.whole main_v158_0) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v160) S1x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v164) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v169) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v170) S1x128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v171) S5000x128.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v171) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v172) S5000x1.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_arg9) S128x10.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v173) S1x10.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v174) S256x10.size cc13_transform_4 reads13_4 true true 1 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

abbrev idle13 : Fin 5 → grid13.Coords → Bool := fun | 0 => fun _ => false | 1 => fun _ => false | 2 => fun _ => false | 3 => fun _ => false | 4 => fun i => !(k13_cond2 i == 1#1) | ⟨_ + 5, h⟩ => absurd h (Nat.not_lt.2 (Nat.le_add_left _ _))

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x10 : Shape := ⟨2, ![128, 10]⟩
abbrev S10 : Shape := ⟨1, ![10]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S1x128 : Shape := ⟨2, ![1, 128]⟩
abbrev S1x128x128 : Shape := ⟨3, ![1, 128, 128]⟩
abbrev S650000x128 : Shape := ⟨2, ![650000, 128]⟩
abbrev S256x128 : Shape := ⟨2, ![256, 128]⟩
abbrev S50000x1 : Shape := ⟨2, ![50000, 1]⟩
abbrev S256 : Shape := ⟨1, ![256]⟩
abbrev S256x1 : Shape := ⟨2, ![256, 1]⟩
abbrev S256x10 : Shape := ⟨2, ![256, 10]⟩
abbrev S1x10 : Shape := ⟨2, ![1, 10]⟩

abbrev nBuf : Space → Nat
  | .hbm => 375
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S4x128x128, .f32⟩
  | 6 => ⟨S4x128, .f32⟩
  | 7 => ⟨S4x128, .f32⟩
  | 8 => ⟨S4x128, .f32⟩
  | 9 => ⟨S128x10, .f32⟩
  | 10 => ⟨S10, .f32⟩
  | 11 => ⟨S50000, .i32⟩
  | 12 => ⟨S1x600000, .i32⟩
  | 13 => ⟨S600000, .i32⟩
  | 14 => ⟨S650000, .i32⟩
  | 15 => ⟨S1x600000, .i32⟩
  | 16 => ⟨S600000, .i32⟩
  | 17 => ⟨S650000, .i32⟩
  | 18 => ⟨S_, .f32⟩
  | 19 => ⟨S650000, .f32⟩
  | 20 => ⟨S_, .f32⟩
  | 21 => ⟨S50000, .f32⟩
  | 22 => ⟨S650000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S650000, .i32⟩
  | 34 => ⟨S650000, .i1⟩
  | 35 => ⟨S_, .i32⟩
  | 36 => ⟨S650000, .i32⟩
  | 37 => ⟨S650000, .i32⟩
  | 38 => ⟨S650000, .i32⟩
  | 39 => ⟨S650000x1, .i32⟩
  | 40 => ⟨S650000, .f32⟩
  | 41 => ⟨S_, .i32⟩
  | 42 => ⟨S650000, .i32⟩
  | 43 => ⟨S650000, .i1⟩
  | 44 => ⟨S_, .i32⟩
  | 45 => ⟨S650000, .i32⟩
  | 46 => ⟨S650000, .i32⟩
  | 47 => ⟨S650000, .i32⟩
  | 48 => ⟨S650000x1, .i32⟩
  | 49 => ⟨S650000, .f32⟩
  | 50 => ⟨S650000, .f32⟩
  | 51 => ⟨S50000x128, .f32⟩
  | 52 => ⟨S1x128, .f32⟩
  | 53 => ⟨S50000x128, .f32⟩
  | 54 => ⟨S50000x128, .f32⟩
  | 55 => ⟨S1x128x128, .f32⟩
  | 56 => ⟨S128x128, .f32⟩
  | 57 => ⟨S50000x128, .f32⟩
  | 58 => ⟨S650000x1, .f32⟩
  | 59 => ⟨S_, .i32⟩
  | 60 => ⟨S650000, .i32⟩
  | 61 => ⟨S650000, .i1⟩
  | 62 => ⟨S_, .i32⟩
  | 63 => ⟨S650000, .i32⟩
  | 64 => ⟨S650000, .i32⟩
  | 65 => ⟨S650000, .i32⟩
  | 66 => ⟨S650000x1, .i32⟩
  | 67 => ⟨S650000x128, .f32⟩
  | 68 => ⟨S650000x128, .f32⟩
  | 69 => ⟨S650000x128, .f32⟩
  | 70 => ⟨S_, .f32⟩
  | 71 => ⟨S50000x128, .f32⟩
  | 72 => ⟨S650000x1, .i32⟩
  | 73 => ⟨S50000x128, .f32⟩
  | 74 => ⟨S1x128, .f32⟩
  | 75 => ⟨S128, .f32⟩
  | 76 => ⟨S1x128, .f32⟩
  | 77 => ⟨S50000x128, .f32⟩
  | 78 => ⟨S50000x128, .f32⟩
  | 79 => ⟨S_, .f32⟩
  | 80 => ⟨S128, .f32⟩
  | 81 => ⟨S_, .f32⟩
  | 82 => ⟨S128, .f32⟩
  | 83 => ⟨S128, .f32⟩
  | 84 => ⟨S_, .i32⟩
  | 85 => ⟨S_, .f32⟩
  | 86 => ⟨S128, .f32⟩
  | 87 => ⟨S1x128, .f32⟩
  | 88 => ⟨S_, .f32⟩
  | 89 => ⟨S1x128, .f32⟩
  | 90 => ⟨S1x128, .f32⟩
  | 91 => ⟨S50000x128, .f32⟩
  | 92 => ⟨S50000x128, .f32⟩
  | 93 => ⟨S50000x128, .f32⟩
  | 94 => ⟨S_, .f32⟩
  | 95 => ⟨S_, .f32⟩
  | 96 => ⟨S_, .f32⟩
  | 97 => ⟨S_, .f32⟩
  | 98 => ⟨S128, .f32⟩
  | 99 => ⟨S128, .f32⟩
  | 100 => ⟨S128, .f32⟩
  | 101 => ⟨S_, .f32⟩
  | 102 => ⟨S_, .i1⟩
  | 103 => ⟨S_, .f32⟩
  | 104 => ⟨S_, .f32⟩
  | 105 => ⟨S128, .f32⟩
  | 106 => ⟨S128, .f32⟩
  | 107 => ⟨S1x128, .f32⟩
  | 108 => ⟨S50000x128, .f32⟩
  | 109 => ⟨S50000x128, .f32⟩
  | 110 => ⟨S_, .f32⟩
  | 111 => ⟨S128, .f32⟩
  | 112 => ⟨S128, .f32⟩
  | 113 => ⟨S128, .f32⟩
  | 114 => ⟨S1x128, .f32⟩
  | 115 => ⟨S50000x128, .f32⟩
  | 116 => ⟨S50000x128, .f32⟩
  | 117 => ⟨S1x128, .f32⟩
  | 118 => ⟨S128, .f32⟩
  | 119 => ⟨S1x128, .f32⟩
  | 120 => ⟨S50000x128, .f32⟩
  | 121 => ⟨S50000x128, .f32⟩
  | 122 => ⟨S1x128, .f32⟩
  | 123 => ⟨S128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S1x128x128, .f32⟩
  | 3 => ⟨S128x128, .f32⟩
  | 4 => ⟨S50000x128, .f32⟩
  | 5 => ⟨S650000x1, .f32⟩
  | 6 => ⟨S_, .i32⟩
  | 7 => ⟨S650000, .i32⟩
  | 8 => ⟨S650000, .i1⟩
  | 9 => ⟨S_, .i32⟩
  | 10 => ⟨S650000, .i32⟩
  | 11 => ⟨S650000, .i32⟩
  | 12 => ⟨S650000, .i32⟩
  | 13 => ⟨S650000x1, .i32⟩
  | 14 => ⟨S650000x128, .f32⟩
  | 15 => ⟨S650000x128, .f32⟩
  | 16 => ⟨S650000x128, .f32⟩
  | 17 => ⟨S_, .f32⟩
  | 18 => ⟨S50000x128, .f32⟩
  | 19 => ⟨S650000x1, .i32⟩
  | 20 => ⟨S50000x128, .f32⟩
  | 21 => ⟨S1x128, .f32⟩
  | 22 => ⟨S128, .f32⟩
  | 23 => ⟨S1x128, .f32⟩
  | 24 => ⟨S50000x128, .f32⟩
  | 25 => ⟨S50000x128, .f32⟩
  | 26 => ⟨S_, .f32⟩
  | 27 => ⟨S128, .f32⟩
  | 28 => ⟨S_, .f32⟩
  | 29 => ⟨S128, .f32⟩
  | 30 => ⟨S128, .f32⟩
  | 31 => ⟨S_, .i32⟩
  | 32 => ⟨S_, .f32⟩
  | 33 => ⟨S128, .f32⟩
  | 34 => ⟨S1x128, .f32⟩
  | 35 => ⟨S_, .f32⟩
  | 36 => ⟨S1x128, .f32⟩
  | 37 => ⟨S1x128, .f32⟩
  | 38 => ⟨S50000x128, .f32⟩
  | 39 => ⟨S50000x128, .f32⟩
  | 40 => ⟨S50000x128, .f32⟩
  | 41 => ⟨S_, .f32⟩
  | 42 => ⟨S_, .f32⟩
  | 43 => ⟨S_, .f32⟩
  | 44 => ⟨S_, .f32⟩
  | 45 => ⟨S128, .f32⟩
  | 46 => ⟨S128, .f32⟩
  | 47 => ⟨S128, .f32⟩
  | 48 => ⟨S_, .f32⟩
  | 49 => ⟨S_, .i1⟩
  | 50 => ⟨S_, .f32⟩
  | 51 => ⟨S_, .f32⟩
  | 52 => ⟨S128, .f32⟩
  | 53 => ⟨S128, .f32⟩
  | 54 => ⟨S1x128, .f32⟩
  | 55 => ⟨S50000x128, .f32⟩
  | 56 => ⟨S50000x128, .f32⟩
  | 57 => ⟨S_, .f32⟩
  | 58 => ⟨S128, .f32⟩
  | 59 => ⟨S128, .f32⟩
  | 60 => ⟨S128, .f32⟩
  | 61 => ⟨S1x128, .f32⟩
  | 62 => ⟨S50000x128, .f32⟩
  | 63 => ⟨S50000x128, .f32⟩
  | 64 => ⟨S1x128, .f32⟩
  | 65 => ⟨S128, .f32⟩
  | 66 => ⟨S1x128, .f32⟩
  | 67 => ⟨S50000x128, .f32⟩
  | 68 => ⟨S50000x128, .f32⟩
  | 69 => ⟨S1x128, .f32⟩
  | 70 => ⟨S128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S1x128x128, .f32⟩
  | 78 => ⟨S128x128, .f32⟩
  | 79 => ⟨S50000x128, .f32⟩
  | 80 => ⟨S650000x1, .f32⟩
  | 81 => ⟨S_, .i32⟩
  | 82 => ⟨S650000, .i32⟩
  | 83 => ⟨S650000, .i1⟩
  | 84 => ⟨S_, .i32⟩
  | 85 => ⟨S650000, .i32⟩
  | 86 => ⟨S650000, .i32⟩
  | 87 => ⟨S650000, .i32⟩
  | 88 => ⟨S650000x1, .i32⟩
  | 89 => ⟨S650000x128, .f32⟩
  | 90 => ⟨S650000x128, .f32⟩
  | 91 => ⟨S650000x128, .f32⟩
  | 92 => ⟨S_, .f32⟩
  | 93 => ⟨S50000x128, .f32⟩
  | 94 => ⟨S650000x1, .i32⟩
  | 95 => ⟨S50000x128, .f32⟩
  | 96 => ⟨S1x128, .f32⟩
  | 97 => ⟨S128, .f32⟩
  | 98 => ⟨S1x128, .f32⟩
  | 99 => ⟨S50000x128, .f32⟩
  | 100 => ⟨S50000x128, .f32⟩
  | 101 => ⟨S_, .f32⟩
  | 102 => ⟨S128, .f32⟩
  | 103 => ⟨S_, .f32⟩
  | 104 => ⟨S128, .f32⟩
  | 105 => ⟨S128, .f32⟩
  | 106 => ⟨S_, .i32⟩
  | 107 => ⟨S_, .f32⟩
  | 108 => ⟨S128, .f32⟩
  | 109 => ⟨S1x128, .f32⟩
  | 110 => ⟨S_, .f32⟩
  | 111 => ⟨S1x128, .f32⟩
  | 112 => ⟨S1x128, .f32⟩
  | 113 => ⟨S50000x128, .f32⟩
  | 114 => ⟨S50000x128, .f32⟩
  | 115 => ⟨S50000x128, .f32⟩
  | 116 => ⟨S_, .f32⟩
  | 117 => ⟨S_, .f32⟩
  | 118 => ⟨S_, .f32⟩
  | 119 => ⟨S_, .f32⟩
  | 120 => ⟨S128, .f32⟩
  | 121 => ⟨S128, .f32⟩
  | 122 => ⟨S128, .f32⟩
  | 123 => ⟨S_, .f32⟩
  | 124 => ⟨S_, .i1⟩
  | 125 => ⟨S_, .f32⟩
  | 126 => ⟨S_, .f32⟩
  | 127 => ⟨S128, .f32⟩
  | _ => ⟨S50000x128, .f32⟩

abbrev hbmTy0_2 (i : Nat) : BufTy := match i % 128 with
  | 0 => ⟨S128, .f32⟩
  | 1 => ⟨S1x128, .f32⟩
  | 2 => ⟨S50000x128, .f32⟩
  | 3 => ⟨S50000x128, .f32⟩
  | 4 => ⟨S_, .f32⟩
  | 5 => ⟨S128, .f32⟩
  | 6 => ⟨S128, .f32⟩
  | 7 => ⟨S128, .f32⟩
  | 8 => ⟨S1x128, .f32⟩
  | 9 => ⟨S50000x128, .f32⟩
  | 10 => ⟨S50000x128, .f32⟩
  | 11 => ⟨S1x128, .f32⟩
  | 12 => ⟨S128, .f32⟩
  | 13 => ⟨S1x128, .f32⟩
  | 14 => ⟨S50000x128, .f32⟩
  | 15 => ⟨S50000x128, .f32⟩
  | 16 => ⟨S1x128, .f32⟩
  | 17 => ⟨S128, .f32⟩
  | 18 => ⟨S1x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S1x128x128, .f32⟩
  | 25 => ⟨S128x128, .f32⟩
  | 26 => ⟨S50000x128, .f32⟩
  | 27 => ⟨S650000x1, .f32⟩
  | 28 => ⟨S_, .i32⟩
  | 29 => ⟨S650000, .i32⟩
  | 30 => ⟨S650000, .i1⟩
  | 31 => ⟨S_, .i32⟩
  | 32 => ⟨S650000, .i32⟩
  | 33 => ⟨S650000, .i32⟩
  | 34 => ⟨S650000, .i32⟩
  | 35 => ⟨S650000x1, .i32⟩
  | 36 => ⟨S650000x128, .f32⟩
  | 37 => ⟨S650000x128, .f32⟩
  | 38 => ⟨S650000x128, .f32⟩
  | 39 => ⟨S_, .f32⟩
  | 40 => ⟨S50000x128, .f32⟩
  | 41 => ⟨S650000x1, .i32⟩
  | 42 => ⟨S50000x128, .f32⟩
  | 43 => ⟨S1x128, .f32⟩
  | 44 => ⟨S128, .f32⟩
  | 45 => ⟨S1x128, .f32⟩
  | 46 => ⟨S50000x128, .f32⟩
  | 47 => ⟨S50000x128, .f32⟩
  | 48 => ⟨S_, .f32⟩
  | 49 => ⟨S128, .f32⟩
  | 50 => ⟨S_, .f32⟩
  | 51 => ⟨S128, .f32⟩
  | 52 => ⟨S128, .f32⟩
  | 53 => ⟨S_, .i32⟩
  | 54 => ⟨S_, .f32⟩
  | 55 => ⟨S128, .f32⟩
  | 56 => ⟨S1x128, .f32⟩
  | 57 => ⟨S_, .f32⟩
  | 58 => ⟨S1x128, .f32⟩
  | 59 => ⟨S1x128, .f32⟩
  | 60 => ⟨S50000x128, .f32⟩
  | 61 => ⟨S50000x128, .f32⟩
  | 62 => ⟨S50000x128, .f32⟩
  | 63 => ⟨S_, .f32⟩
  | 64 => ⟨S_, .f32⟩
  | 65 => ⟨S_, .f32⟩
  | 66 => ⟨S_, .f32⟩
  | 67 => ⟨S128, .f32⟩
  | 68 => ⟨S128, .f32⟩
  | 69 => ⟨S128, .f32⟩
  | 70 => ⟨S_, .f32⟩
  | 71 => ⟨S_, .i1⟩
  | 72 => ⟨S_, .f32⟩
  | 73 => ⟨S_, .f32⟩
  | 74 => ⟨S128, .f32⟩
  | 75 => ⟨S128, .f32⟩
  | 76 => ⟨S1x128, .f32⟩
  | 77 => ⟨S50000x128, .f32⟩
  | 78 => ⟨S50000x128, .f32⟩
  | 79 => ⟨S_, .f32⟩
  | 80 => ⟨S128, .f32⟩
  | 81 => ⟨S128, .f32⟩
  | 82 => ⟨S128, .f32⟩
  | 83 => ⟨S1x128, .f32⟩
  | 84 => ⟨S50000x128, .f32⟩
  | 85 => ⟨S50000x128, .f32⟩
  | 86 => ⟨S1x128, .f32⟩
  | 87 => ⟨S128, .f32⟩
  | 88 => ⟨S1x128, .f32⟩
  | 89 => ⟨S50000x128, .f32⟩
  | 90 => ⟨S50000x128, .f32⟩
  | 91 => ⟨S1x128, .f32⟩
  | 92 => ⟨S128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S_, .f32⟩
  | 100 => ⟨S256x128, .f32⟩
  | 101 => ⟨S50000x1, .i32⟩
  | 102 => ⟨S256x128, .f32⟩
  | 103 => ⟨S_, .f32⟩
  | 104 => ⟨S50000, .f32⟩
  | 105 => ⟨S_, .f32⟩
  | 106 => ⟨S256, .f32⟩
  | 107 => ⟨S50000x1, .i32⟩
  | 108 => ⟨S256, .f32⟩
  | 109 => ⟨S_, .f32⟩
  | 110 => ⟨S256, .f32⟩
  | 111 => ⟨S256, .f32⟩
  | 112 => ⟨S256x1, .f32⟩
  | 113 => ⟨S256x128, .f32⟩
  | 114 => ⟨S256x128, .f32⟩
  | 115 => ⟨S256x10, .f32⟩
  | 116 => ⟨S1x10, .f32⟩
  | 117 => ⟨S256x10, .f32⟩
  | 118 => ⟨S256x10, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_6 : Ref sig .tc := ⟨.hbm, 59, rfl⟩
abbrev main_v38 : Ref sig .tc := ⟨.hbm, 60, rfl⟩
abbrev main_v39 : Ref sig .tc := ⟨.hbm, 61, rfl⟩
abbrev main_c_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_c_11 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_cst_0 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_cst_1 : Ref sig .tc := ⟨.hbm, 95, rfl⟩
abbrev main_call1_v8 : Ref sig .tc := ⟨.hbm, 96, rfl⟩
abbrev main_call1_cst_2 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_cst_3 : Ref sig .tc := ⟨.hbm, 101, rfl⟩
abbrev main_call1_v12 : Ref sig .tc := ⟨.hbm, 102, rfl⟩
abbrev main_call1_cst_4 : Ref sig .tc := ⟨.hbm, 103, rfl⟩
abbrev main_call1_call0_v0 : Ref sig .tc := ⟨.hbm, 104, rfl⟩
abbrev main_call1_call0_v1 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_cst_12 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_call2_cst : Ref sig .tc := ⟨.hbm, 127, rfl⟩
abbrev main_call2_v0 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_c_13 : Ref sig .tc := ⟨.hbm, 134, rfl⟩
abbrev main_v83 : Ref sig .tc := ⟨.hbm, 135, rfl⟩
abbrev main_v84 : Ref sig .tc := ⟨.hbm, 136, rfl⟩
abbrev main_c_14 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_cst_15 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_cst_16 : Ref sig .tc := ⟨.hbm, 154, rfl⟩
abbrev main_v100 : Ref sig .tc := ⟨.hbm, 155, rfl⟩
abbrev main_cst_17 : Ref sig .tc := ⟨.hbm, 156, rfl⟩
abbrev main_v101 : Ref sig .tc := ⟨.hbm, 157, rfl⟩
abbrev main_v102 : Ref sig .tc := ⟨.hbm, 158, rfl⟩
abbrev main_c_18 : Ref sig .tc := ⟨.hbm, 159, rfl⟩
abbrev main_call3_cst : Ref sig .tc := ⟨.hbm, 160, rfl⟩
abbrev main_call3_v0 : Ref sig .tc := ⟨.hbm, 161, rfl⟩
abbrev main_call3_v1 : Ref sig .tc := ⟨.hbm, 162, rfl⟩
abbrev main_call3_cst_0 : Ref sig .tc := ⟨.hbm, 163, rfl⟩
abbrev main_call3_v2 : Ref sig .tc := ⟨.hbm, 164, rfl⟩
abbrev main_call3_v3 : Ref sig .tc := ⟨.hbm, 165, rfl⟩
abbrev main_call3_v4 : Ref sig .tc := ⟨.hbm, 166, rfl⟩
abbrev main_call3_v5 : Ref sig .tc := ⟨.hbm, 167, rfl⟩
abbrev main_call3_v6 : Ref sig .tc := ⟨.hbm, 168, rfl⟩
abbrev main_call3_v7 : Ref sig .tc := ⟨.hbm, 169, rfl⟩
abbrev main_call3_cst_1 : Ref sig .tc := ⟨.hbm, 170, rfl⟩
abbrev main_call3_v8 : Ref sig .tc := ⟨.hbm, 171, rfl⟩
abbrev main_call3_cst_2 : Ref sig .tc := ⟨.hbm, 172, rfl⟩
abbrev main_call3_v9 : Ref sig .tc := ⟨.hbm, 173, rfl⟩
abbrev main_call3_v10 : Ref sig .tc := ⟨.hbm, 174, rfl⟩
abbrev main_call3_v11 : Ref sig .tc := ⟨.hbm, 175, rfl⟩
abbrev main_call3_cst_3 : Ref sig .tc := ⟨.hbm, 176, rfl⟩
abbrev main_call3_v12 : Ref sig .tc := ⟨.hbm, 177, rfl⟩
abbrev main_call3_cst_4 : Ref sig .tc := ⟨.hbm, 178, rfl⟩
abbrev main_call3_call0_v0 : Ref sig .tc := ⟨.hbm, 179, rfl⟩
abbrev main_call3_call0_v1 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_cst_19 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_call4_cst : Ref sig .tc := ⟨.hbm, 202, rfl⟩
abbrev main_call4_v0 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_c_20 : Ref sig .tc := ⟨.hbm, 209, rfl⟩
abbrev main_v128 : Ref sig .tc := ⟨.hbm, 210, rfl⟩
abbrev main_v129 : Ref sig .tc := ⟨.hbm, 211, rfl⟩
abbrev main_c_21 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_cst_22 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_cst_23 : Ref sig .tc := ⟨.hbm, 229, rfl⟩
abbrev main_v145 : Ref sig .tc := ⟨.hbm, 230, rfl⟩
abbrev main_cst_24 : Ref sig .tc := ⟨.hbm, 231, rfl⟩
abbrev main_v146 : Ref sig .tc := ⟨.hbm, 232, rfl⟩
abbrev main_v147 : Ref sig .tc := ⟨.hbm, 233, rfl⟩
abbrev main_c_25 : Ref sig .tc := ⟨.hbm, 234, rfl⟩
abbrev main_call5_cst : Ref sig .tc := ⟨.hbm, 235, rfl⟩
abbrev main_call5_v0 : Ref sig .tc := ⟨.hbm, 236, rfl⟩
abbrev main_call5_v1 : Ref sig .tc := ⟨.hbm, 237, rfl⟩
abbrev main_call5_cst_0 : Ref sig .tc := ⟨.hbm, 238, rfl⟩
abbrev main_call5_v2 : Ref sig .tc := ⟨.hbm, 239, rfl⟩
abbrev main_call5_v3 : Ref sig .tc := ⟨.hbm, 240, rfl⟩
abbrev main_call5_v4 : Ref sig .tc := ⟨.hbm, 241, rfl⟩
abbrev main_call5_v5 : Ref sig .tc := ⟨.hbm, 242, rfl⟩
abbrev main_call5_v6 : Ref sig .tc := ⟨.hbm, 243, rfl⟩
abbrev main_call5_v7 : Ref sig .tc := ⟨.hbm, 244, rfl⟩
abbrev main_call5_cst_1 : Ref sig .tc := ⟨.hbm, 245, rfl⟩
abbrev main_call5_v8 : Ref sig .tc := ⟨.hbm, 246, rfl⟩
abbrev main_call5_cst_2 : Ref sig .tc := ⟨.hbm, 247, rfl⟩
abbrev main_call5_v9 : Ref sig .tc := ⟨.hbm, 248, rfl⟩
abbrev main_call5_v10 : Ref sig .tc := ⟨.hbm, 249, rfl⟩
abbrev main_call5_v11 : Ref sig .tc := ⟨.hbm, 250, rfl⟩
abbrev main_call5_cst_3 : Ref sig .tc := ⟨.hbm, 251, rfl⟩
abbrev main_call5_v12 : Ref sig .tc := ⟨.hbm, 252, rfl⟩
abbrev main_call5_cst_4 : Ref sig .tc := ⟨.hbm, 253, rfl⟩
abbrev main_call5_call0_v0 : Ref sig .tc := ⟨.hbm, 254, rfl⟩
abbrev main_call5_call0_v1 : Ref sig .tc := ⟨.hbm, 255, rfl⟩
abbrev main_v148 : Ref sig .tc := ⟨.hbm, 256, rfl⟩
abbrev main_v149 : Ref sig .tc := ⟨.hbm, 257, rfl⟩
abbrev main_v150 : Ref sig .tc := ⟨.hbm, 258, rfl⟩
abbrev main_v151 : Ref sig .tc := ⟨.hbm, 259, rfl⟩
abbrev main_cst_26 : Ref sig .tc := ⟨.hbm, 260, rfl⟩
abbrev main_v152 : Ref sig .tc := ⟨.hbm, 261, rfl⟩
abbrev main_v153 : Ref sig .tc := ⟨.hbm, 262, rfl⟩
abbrev main_v154 : Ref sig .tc := ⟨.hbm, 263, rfl⟩
abbrev main_v155 : Ref sig .tc := ⟨.hbm, 264, rfl⟩
abbrev main_v156 : Ref sig .tc := ⟨.hbm, 265, rfl⟩
abbrev main_v157 : Ref sig .tc := ⟨.hbm, 266, rfl⟩
abbrev main_v158 : Ref sig .tc := ⟨.hbm, 267, rfl⟩
abbrev main_v159 : Ref sig .tc := ⟨.hbm, 268, rfl⟩
abbrev main_v160 : Ref sig .tc := ⟨.hbm, 269, rfl⟩
abbrev main_v161 : Ref sig .tc := ⟨.hbm, 270, rfl⟩
abbrev main_v162 : Ref sig .tc := ⟨.hbm, 271, rfl⟩
abbrev main_v163 : Ref sig .tc := ⟨.hbm, 272, rfl⟩
abbrev main_v164 : Ref sig .tc := ⟨.hbm, 273, rfl⟩
abbrev main_v165 : Ref sig .tc := ⟨.hbm, 274, rfl⟩
abbrev main_v166 : Ref sig .tc := ⟨.hbm, 275, rfl⟩
abbrev main_v167 : Ref sig .tc := ⟨.hbm, 276, rfl⟩
abbrev main_call6_cst : Ref sig .tc := ⟨.hbm, 277, rfl⟩
abbrev main_call6_v0 : Ref sig .tc := ⟨.hbm, 278, rfl⟩
abbrev main_v168 : Ref sig .tc := ⟨.hbm, 279, rfl⟩
abbrev main_v169 : Ref sig .tc := ⟨.hbm, 280, rfl⟩
abbrev main_v170 : Ref sig .tc := ⟨.hbm, 281, rfl⟩
abbrev main_v171 : Ref sig .tc := ⟨.hbm, 282, rfl⟩
abbrev main_v172 : Ref sig .tc := ⟨.hbm, 283, rfl⟩
abbrev main_c_27 : Ref sig .tc := ⟨.hbm, 284, rfl⟩
abbrev main_v173 : Ref sig .tc := ⟨.hbm, 285, rfl⟩
abbrev main_v174 : Ref sig .tc := ⟨.hbm, 286, rfl⟩
abbrev main_c_28 : Ref sig .tc := ⟨.hbm, 287, rfl⟩
abbrev main_v175 : Ref sig .tc := ⟨.hbm, 288, rfl⟩
abbrev main_v176 : Ref sig .tc := ⟨.hbm, 289, rfl⟩
abbrev main_v177 : Ref sig .tc := ⟨.hbm, 290, rfl⟩
abbrev main_v178 : Ref sig .tc := ⟨.hbm, 291, rfl⟩
abbrev main_v179 : Ref sig .tc := ⟨.hbm, 292, rfl⟩
abbrev main_v180 : Ref sig .tc := ⟨.hbm, 293, rfl⟩
abbrev main_v181 : Ref sig .tc := ⟨.hbm, 294, rfl⟩
abbrev main_cst_29 : Ref sig .tc := ⟨.hbm, 295, rfl⟩
abbrev main_v182 : Ref sig .tc := ⟨.hbm, 296, rfl⟩
abbrev main_v183 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_v187 : Ref sig .tc := ⟨.hbm, 301, rfl⟩
abbrev main_v188 : Ref sig .tc := ⟨.hbm, 302, rfl⟩
abbrev main_v189 : Ref sig .tc := ⟨.hbm, 303, rfl⟩
abbrev main_cst_30 : Ref sig .tc := ⟨.hbm, 304, rfl⟩
abbrev main_v190 : Ref sig .tc := ⟨.hbm, 305, rfl⟩
abbrev main_cst_31 : Ref sig .tc := ⟨.hbm, 306, rfl⟩
abbrev main_v191 : Ref sig .tc := ⟨.hbm, 307, rfl⟩
abbrev main_v192 : Ref sig .tc := ⟨.hbm, 308, rfl⟩
abbrev main_c_32 : Ref sig .tc := ⟨.hbm, 309, rfl⟩
abbrev main_call7_cst : Ref sig .tc := ⟨.hbm, 310, rfl⟩
abbrev main_call7_v0 : Ref sig .tc := ⟨.hbm, 311, rfl⟩
abbrev main_call7_v1 : Ref sig .tc := ⟨.hbm, 312, rfl⟩
abbrev main_call7_cst_0 : Ref sig .tc := ⟨.hbm, 313, rfl⟩
abbrev main_call7_v2 : Ref sig .tc := ⟨.hbm, 314, rfl⟩
abbrev main_call7_v3 : Ref sig .tc := ⟨.hbm, 315, rfl⟩
abbrev main_call7_v4 : Ref sig .tc := ⟨.hbm, 316, rfl⟩
abbrev main_call7_v5 : Ref sig .tc := ⟨.hbm, 317, rfl⟩
abbrev main_call7_v6 : Ref sig .tc := ⟨.hbm, 318, rfl⟩
abbrev main_call7_v7 : Ref sig .tc := ⟨.hbm, 319, rfl⟩
abbrev main_call7_cst_1 : Ref sig .tc := ⟨.hbm, 320, rfl⟩
abbrev main_call7_v8 : Ref sig .tc := ⟨.hbm, 321, rfl⟩
abbrev main_call7_cst_2 : Ref sig .tc := ⟨.hbm, 322, rfl⟩
abbrev main_call7_v9 : Ref sig .tc := ⟨.hbm, 323, rfl⟩
abbrev main_call7_v10 : Ref sig .tc := ⟨.hbm, 324, rfl⟩
abbrev main_call7_v11 : Ref sig .tc := ⟨.hbm, 325, rfl⟩
abbrev main_call7_cst_3 : Ref sig .tc := ⟨.hbm, 326, rfl⟩
abbrev main_call7_v12 : Ref sig .tc := ⟨.hbm, 327, rfl⟩
abbrev main_call7_cst_4 : Ref sig .tc := ⟨.hbm, 328, rfl⟩
abbrev main_call7_call0_v0 : Ref sig .tc := ⟨.hbm, 329, rfl⟩
abbrev main_call7_call0_v1 : Ref sig .tc := ⟨.hbm, 330, rfl⟩
abbrev main_v193 : Ref sig .tc := ⟨.hbm, 331, rfl⟩
abbrev main_v194 : Ref sig .tc := ⟨.hbm, 332, rfl⟩
abbrev main_v195 : Ref sig .tc := ⟨.hbm, 333, rfl⟩
abbrev main_v196 : Ref sig .tc := ⟨.hbm, 334, rfl⟩
abbrev main_cst_33 : Ref sig .tc := ⟨.hbm, 335, rfl⟩
abbrev main_v197 : Ref sig .tc := ⟨.hbm, 336, rfl⟩
abbrev main_v198 : Ref sig .tc := ⟨.hbm, 337, rfl⟩
abbrev main_v199 : Ref sig .tc := ⟨.hbm, 338, rfl⟩
abbrev main_v200 : Ref sig .tc := ⟨.hbm, 339, rfl⟩
abbrev main_v201 : Ref sig .tc := ⟨.hbm, 340, rfl⟩
abbrev main_v202 : Ref sig .tc := ⟨.hbm, 341, rfl⟩
abbrev main_v203 : Ref sig .tc := ⟨.hbm, 342, rfl⟩
abbrev main_v204 : Ref sig .tc := ⟨.hbm, 343, rfl⟩
abbrev main_v205 : Ref sig .tc := ⟨.hbm, 344, rfl⟩
abbrev main_v206 : Ref sig .tc := ⟨.hbm, 345, rfl⟩
abbrev main_v207 : Ref sig .tc := ⟨.hbm, 346, rfl⟩
abbrev main_v208 : Ref sig .tc := ⟨.hbm, 347, rfl⟩
abbrev main_v209 : Ref sig .tc := ⟨.hbm, 348, rfl⟩
abbrev main_v210 : Ref sig .tc := ⟨.hbm, 349, rfl⟩
abbrev main_v211 : Ref sig .tc := ⟨.hbm, 350, rfl⟩
abbrev main_v212 : Ref sig .tc := ⟨.hbm, 351, rfl⟩
abbrev main_call8_cst : Ref sig .tc := ⟨.hbm, 352, rfl⟩
abbrev main_call8_v0 : Ref sig .tc := ⟨.hbm, 353, rfl⟩
abbrev main_v213 : Ref sig .tc := ⟨.hbm, 354, rfl⟩
abbrev main_cst_34 : Ref sig .tc := ⟨.hbm, 355, rfl⟩
abbrev main_v214 : Ref sig .tc := ⟨.hbm, 356, rfl⟩
abbrev main_v215 : Ref sig .tc := ⟨.hbm, 357, rfl⟩
abbrev main_v216 : Ref sig .tc := ⟨.hbm, 358, rfl⟩
abbrev main_cst_35 : Ref sig .tc := ⟨.hbm, 359, rfl⟩
abbrev main_v217 : Ref sig .tc := ⟨.hbm, 360, rfl⟩
abbrev main_cst_36 : Ref sig .tc := ⟨.hbm, 361, rfl⟩
abbrev main_v218 : Ref sig .tc := ⟨.hbm, 362, rfl⟩
abbrev main_v219 : Ref sig .tc := ⟨.hbm, 363, rfl⟩
abbrev main_v220 : Ref sig .tc := ⟨.hbm, 364, rfl⟩
abbrev main_cst_37 : Ref sig .tc := ⟨.hbm, 365, rfl⟩
abbrev main_v221 : Ref sig .tc := ⟨.hbm, 366, rfl⟩
abbrev main_v222 : Ref sig .tc := ⟨.hbm, 367, rfl⟩
abbrev main_v223 : Ref sig .tc := ⟨.hbm, 368, rfl⟩
abbrev main_v224 : Ref sig .tc := ⟨.hbm, 369, rfl⟩
abbrev main_v225 : Ref sig .tc := ⟨.hbm, 370, rfl⟩
abbrev main_v226 : Ref sig .tc := ⟨.hbm, 371, rfl⟩
abbrev main_v227 : Ref sig .tc := ⟨.hbm, 372, rfl⟩
abbrev main_v228 : Ref sig .tc := ⟨.hbm, 373, rfl⟩
abbrev main_v229 : Ref sig .tc := ⟨.hbm, 374, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x128x128_S1x128x128_0_0_0 : S4x128x128.Slices ![0, 0, 0] S1x128x128
  shapeCasts_S1x128x128_S128x128 : S1x128x128.ShapeCasts S128x128
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  slices_S4x128_S1x128_0_0 : S4x128.Slices ![0, 0] S1x128
  shapeCasts_S1x128_S128 : S1x128.ShapeCasts S128
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S256x128 : S_.BroadcastsInDim S256x128 (![] : Fin 0 → Fin S256x128.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x10_S256x10_1_0_0_1_n_n_wf : DotDims.WF S256x128 S128x10 S256x10 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

class Facts : Prop extends Facts₀ where

variable [Facts]
-- ==== Proof.K.R00.lean ====
import proofs.«408439_j66932770341395_1_alg».proof.Proof.Gen.Kernel.Launch
import proofs.«408439_j66932770341395_1_alg».proof.Proof.Gen.Kernel.Skeleton
import proofs.«408439_j66932770341395_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

def out0_3 (x : Vec F S5000x128 .f32) (y : Vec F S128x128 .f32) (z : Vec F S1x128 .f32) : Vec F S5000x128 .f32 :=
  View.canon [⟨r0_0, k0_pay1 (View.ld x r0_0) (View.ld y r0_1) (View.ld z r0_2)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

theorem before0_in (c : Dev nD) (w : Fin cfg0.W) (hw : w.val < 3 := by decide) (t : Fin cfg0.N) (d) :
    (dat0 V c).before w t d = (dat0 V c).after w t :=
  match w with
  | ⟨0, _⟩ | ⟨1, _⟩ | ⟨2, _⟩ =>
    ((dat0 V c).before_in_eq_fetched _ rfl (fun _ => rfl) (fun _ _ _ => rfl) (fun _ => rfl) t d).trans rfl
  | ⟨3, _⟩ => absurd hw (Nat.lt_irrefl 3)

set_option maxHeartbeats 4000000 in
theorem sound_kernel0 (c : Dev nD) {E : Set ℕ} {i : grid0.Coords}
    {a : Memref sig .tc .vmem S5000x128 .f32} {ha : a.IsWhole} {b : Memref sig .tc .vmem S128x128 .f32} {hb : b.IsWhole}
    {u : Memref sig .tc .vmem S1x128 .f32} {hu : u.IsWhole} {v : Memref sig .tc .vmem S5000x128 .f32} {hv : v.IsWhole}
    {x s : Vec F S5000x128 .f32} {y : Vec F S128x128 .f32} {z : Vec F S1x128 .f32} {K : PUnit → sProp 𝕄} :
    iprop(owns c a fullShare x ∗ owns c b fullShare y ∗ owns c u fullShare z ∗ owns c v fullShare s
        ∗ (owns c a fullShare x ∗ owns c b fullShare y ∗ owns c u fullShare z ∗ owns c v fullShare (out0_3 x y z) -∗ K ⟨⟩))
      ⊢ wp frame (wpE (defs₀ (F := F)) Variants.none c none) E (cc0__linear_kernel i a ha b hb u hu v hv) K := by
  simp only [cc0__linear_kernel_eq_skeleton]; unfold cc0__linear_kernel_skel owns
  iintro ⟨⟨%f, %hf, Hx⟩, ⟨%g, %hg, Hy⟩, ⟨%h, %hh, Hz⟩, ⟨%k, -, Hv⟩, Hk⟩
  subst hf hg hh
  sl_exec
  sl_step
  iapply Hk
  isplitl [Hx]
  · iexists f; isplitr; · ipureintro; rfl
    iexact Hx
  isplitl [Hy]
  · iexists g; isplitr; · ipureintro; rfl
    iexact Hy
  isplitl [Hz]
  · iexists h; isplitr; · ipureintro; rfl
    iexact Hz
  iexists _; isplitr
  swap; · iexact Hv
  ipureintro
  exact View.read_writes_eq_canon _ _ _ (View.cover_of_tiled _ S5000x128.size (by rfl))

theorem body_obligation0 (c : Dev nD) : BodyObligation (dat0 (F := F) V c) (defs₀ (F := F)) Variants.none () Set.univ := fun t => by
  rw [bigSep_W0, bigSep_W0]
  simp only [before0_in V c 0, before0_in V c 1, before0_in V c 2]
  rw [show (dat0 V c).Φ t.succ = (dat0 V c).Φ t.castSucc from rfl,
    show (dat0 V c).owesAt () t.succ = (dat0 V c).owesAt () t.castSucc from rfl,
    show (dat0 V c).after 3 t = out0_3 ((dat0 V c).after 0 t) ((dat0 V c).after 1 t) ((dat0 V c).after 2 t) from by dsimp only [dat0]]
  show _ ⊢ wp _ _ _ (bodyAt0 t) _
  iintro ⟨HΦ, Ho, ⟨%d, Hx⟩, ⟨%d, Hy⟩, ⟨%d, Hz⟩, ⟨%d, Hv⟩⟩
  iapply (sound_kernel0 c)
  iframe Hx Hy Hz Hv
  iintro ⟨Hx, Hy, Hz, Hv⟩
  iframe

theorem hin0 (c : Dev nD) : (Pipeline.ΦA spec0 c : sProp 𝕄) ⊢ (dat0 V c).Φ 0 := .rfl
theorem hout0 (c : Dev nD) : (dat0 V c).Φ (Fin.last cfg0.N) ⊢ (Pipeline.ΦA spec0 c : sProp 𝕄) := .rfl

end Cert.Kernel.Reg
end
-- ==== Proof.K.R01.lean ====
import proofs.«408439_j66932770341395_1_alg».proof.Proof.Gen.Kernel.Launch
import proofs.«408439_j66932770341395_1_alg».proof.Proof.Gen.Kernel.Skeleton
import proofs.«408439_j66932770341395_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

def out1_3 (x : Vec F S5000x128 .f32) (y : Vec F S128x128 .f32) (z : Vec F S1x128 .f32) : Vec F S5000x128 .f32 :=
  View.canon [⟨r1_0, k1_pay1 (View.ld x r1_0) (View.ld y r1_1) (View.ld z r1_2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) :
    (dat1 V c).after 3 t = out1_3 (iblk1 V c 0 t) (iblk1 V c 1 t) (iblk1 V c 2 t) := by dsimp only [dat1]

theorem before1_in (c : Dev nD) (w : Fin cfg1.W) (hw : w.val < 3 := by decide) (t : Fin cfg1.N) (d) :
    (dat1 V c).before w t d = (dat1 V c).after w t :=
  match w with
  | ⟨0, _⟩ | ⟨1, _⟩ | ⟨2, _⟩ =>
    ((dat1 V c).before_in_eq_fetched _ rfl (fun _ => rfl) (fun _ _ _ => rfl) (fun _ => rfl) t d).trans rfl
  | ⟨3, _⟩ => absurd hw (Nat.lt_irrefl 3)

set_option maxHeartbeats 4000000 in
theorem sound_kernel1 (c : Dev nD) {E : Set ℕ} {i : grid1.Coords}
    {a : Memref sig .tc .vmem S5000x128 .f32} {ha : a.IsWhole} {b : Memref sig .tc .vmem S128x128 .f32} {hb : b.IsWhole}
    {u : Memref sig .tc .vmem S1x128 .f32} {hu : u.IsWhole} {v : Memref sig .tc .vmem S5000x128 .f32} {hv : v.IsWhole}
    {x s : Vec F S5000x128 .f32} {y : Vec F S128x128 .f32} {z : Vec F S1x128 .f32} {K : PUnit → sProp 𝕄} :
    iprop(owns c a fullShare x ∗ owns c b fullShare y ∗ owns c u fullShare z ∗ owns c v fullShare s
        ∗ (owns c a fullShare x ∗ owns c b fullShare y ∗ owns c u fullShare z ∗ owns c v fullShare (out1_3 x y z) -∗ K ⟨⟩))
      ⊢ wp frame (wpE (defs₀ (F := F)) Variants.none c none) E (cc1__linear_kernel i a ha b hb u hu v hv) K := by
  simp only [cc1__linear_kernel_eq_skeleton]; unfold cc1__linear_kernel_skel owns
  iintro ⟨⟨%f, %hf, Hx⟩, ⟨%g, %hg, Hy⟩, ⟨%h, %hh, Hz⟩, ⟨%k, -, Hv⟩, Hk⟩
  subst hf hg hh
  sl_exec
  sl_step
  iapply Hk
  isplitl [Hx]
  · iexists f; isplitr; · ipureintro; rfl
    iexact Hx
  isplitl [Hy]
  · iexists g; isplitr; · ipureintro; rfl
    iexact Hy
  isplitl [Hz]
  · iexists h; isplitr; · ipureintro; rfl
    iexact Hz
  iexists _; isplitr
  swap; · iexact Hv
  ipureintro
  exact View.read_writes_eq_canon _ _ _ (View.cover_of_tiled _ S5000x128.size (by rfl))

theorem body_obligation1 (c : Dev nD) : BodyObligation (dat1 (F := F) V c) (defs₀ (F := F)) Variants.none () Set.univ := fun t => by
  rw [bigSep_W1, bigSep_W1]
  simp only [before1_in V c 0, before1_in V c 1, before1_in V c 2]
  rw [show (dat1 V c).Φ t.succ = (dat1 V c).Φ t.castSucc from rfl,
    show (dat1 V c).owesAt () t.succ = (dat1 V c).owesAt () t.castSucc from rfl,
    show (dat1 V c).after 3 t = out1_3 ((dat1 V c).after 0 t) ((dat1 V c).after 1 t) ((dat1 V c).after 2 t) from by dsimp only [dat1]]
  show _ ⊢ wp _ _ _ (bodyAt1 t) _
  iintro ⟨HΦ, Ho, ⟨%d, Hx⟩, ⟨%d, Hy⟩, ⟨%d, Hz⟩, ⟨%d, Hv⟩⟩
  iapply (sound_kernel1 c)
  iframe Hx Hy Hz Hv
  iintro ⟨Hx, Hy, Hz, Hv⟩
  iframe

theorem hin1 (c : Dev nD) : (Pipeline.ΦA spec1 c : sProp 𝕄) ⊢ (dat1 V c).Φ 0 := .rfl
theorem hout1 (c : Dev nD) : (dat1 V c).Φ (Fin.last cfg1.N) ⊢ (Pipeline.ΦA spec1 c : sProp 𝕄) := .rfl

end Cert.Kernel.Reg
end
-- ==== Proof.K.R02.lean ====
import proofs.«408439_j66932770341395_1_alg».proof.Proof.Gen.Kernel.Launch
import proofs.«408439_j66932770341395_1_alg».proof.Proof.Gen.Kernel.Skeleton
import proofs.«408439_j66932770341395_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

noncomputable abbrev condF2 (i : grid2.Coords) : Prop := (Scalar.cmpi .ne (Scalar.extui (Scalar.cmpi .eq (BitVec.ofNat 32 (i 0).val) 0#32)) 0#32) = 1#1
noncomputable abbrev condL2 (i : grid2.Coords) : Prop := k2_cond2 i = 1#1
theorem hcondF2 : ∀ t : Fin cfg2.N, condF2 (grid2.coords t) ↔ t.val = 0 :=
  (by decide +kernel : ∀ t : Fin grid2.N, condF2 (grid2.coords t) ↔ t.val = 0)
theorem hcondL2 : ∀ t : Fin cfg2.N, condL2 (grid2.coords t) ↔ t.val = 9 :=
  (by decide +kernel : ∀ t : Fin grid2.N, condL2 (grid2.coords t) ↔ t.val = 9)
theorem live2 : ∀ (t : Fin cfg2.N) (w : Fin cfg2.W), w.val < 3 ∨ t.val = 9 → cfg2.idle w (grid2.coords t) = false := by decide +kernel
theorem idle2 : ∀ (t : Fin cfg2.N) (w : Fin cfg2.W), 3 ≤ w.val → t.val ≠ 9 → cfg2.idle w (grid2.coords t) = true ∧ (cfg2.win w).flush t = false := by decide +kernel

theorem hzero2 : (![0, 0] : Fin 2 → Nat) = fun _ => 0 := funext fun a => by fin_cases a <;> rfl
noncomputable abbrev rT2 : Rect S5000x128 := Rect.unit (s := S5000x128) ![0, 0] S5000x128.size inb_S5000x128_S5000x128_0_0
noncomputable abbrev rR2 : Rect S1x128 := Rect.unit (s := S1x128) ![0, 0] S1x128.size inb_S1x128_S1x128_0_0

noncomputable def out2_2 (x : Vec F S5000x128 .f32) (y : Vec F S1x128 .f32) : Vec F S5000x128 .f32 :=
  View.canon [⟨rT2, k2_pay3 (View.ld x rT2) (View.ld y rR2)⟩]
noncomputable def acc2_0 (x : Vec F S5000x128 .f32) (y s : Vec F S1x128 .f32) : Vec F S1x128 .f32 :=
  View.canon [⟨rR2, k2_pay4 (View.ld x rT2) (View.ld y rR2) (View.ld s rR2)⟩]
noncomputable def acc2_1 (x : Vec F S5000x128 .f32) (y s : Vec F S1x128 .f32) : Vec F S1x128 .f32 :=
  View.canon [⟨rR2, k2_pay5 (View.ld x rT2) (View.ld y rR2) (View.ld s rR2)⟩]
noncomputable def zero2_0 : Vec F S1x128 .f32 := View.canon [⟨rR2, k2_pay1 (F := F)⟩]
noncomputable def zero2_1 : Vec F S1x128 .f32 := View.canon [⟨rR2, k2_pay2 (F := F)⟩]

theorem out2_2_eq (x : Vec F S5000x128 .f32) (y : Vec F S1x128 .f32) : out2_2 x y = k2_pay3 x y := by
  unfold out2_2; rw [View.canon_unit_zero hzero2, View.ld_unit_zero (S := S5000x128) hzero2, View.ld_unit_zero (S := S1x128) hzero2]
theorem acc2_0_eq (x : Vec F S5000x128 .f32) (y s : Vec F S1x128 .f32) : acc2_0 x y s = k2_pay4 x y s := by
  unfold acc2_0; rw [View.canon_unit_zero hzero2, View.ld_unit_zero (S := S5000x128) hzero2, View.ld_unit_zero (S := S1x128) hzero2, View.ld_unit_zero (S := S1x128) hzero2]
theorem acc2_1_eq (x : Vec F S5000x128 .f32) (y s : Vec F S1x128 .f32) : acc2_1 x y s = k2_pay5 x y s := by
  unfold acc2_1; rw [View.canon_unit_zero hzero2, View.ld_unit_zero (S := S5000x128) hzero2, View.ld_unit_zero (S := S1x128) hzero2, View.ld_unit_zero (S := S1x128) hzero2]
theorem zero2_0_eq : (zero2_0 : Vec F S1x128 .f32) = k2_pay1 := View.canon_unit_zero hzero2 _ _
theorem zero2_1_eq : (zero2_1 : Vec F S1x128 .f32) = k2_pay2 := View.canon_unit_zero hzero2 _ _

/-- A buffer whose last store covers it whole reads that store's payload. -/
theorem rd2 {S : Shape} {κ : Kind} {sp : Space} (v : View sig κ sp S .f32) (f : v.ty.Contents (Elt F)) {off : Fin S.rank → Nat} (h : off = fun _ => 0)
    (inb : ∀ a, off a + S.size a ≤ S.size a) (w : S.Idx → Elt F .f32) (L : List (View.Piece (Elt F) S .f32)) :
    v.read (Elt F) (v.writes (Elt F) f (⟨Rect.unit off S.size inb, w⟩ :: L)) = w :=
  (View.read_writes_eq_canon v f _ fun y => ⟨_, List.mem_cons_self, View.mem_set_unit_zero h inb y⟩).trans (View.canon_cons_unit_zero h inb w L)

section
variable (c : Dev nD) (i : grid2.Coords) {a p : Memref sig .tc .vmem S5000x128 .f32} {b q r u v : Memref sig .tc .vmem S1x128 .f32}
  {ha : a.IsWhole} {hb : b.IsWhole} {hp : p.IsWhole} {hq : q.IsWhole} {hr : r.IsWhole} {hu : u.IsWhole} {hv : v.IsWhole}
  (x : Vec F S5000x128 .f32) (y s z e w : Vec F S1x128 .f32) (E : Set ℕ) (K : PUnit → sProp (MT nD τ sig Unit (Elt F) ℕ (UR sig nD τ) ℕ))

set_option maxHeartbeats 4000000 in
/-- One tile: the running sums restart from zero at the first tile, the tile is stored and added to both, and at the last tile both are copied out. -/
theorem run2 (s' z' e' w' : Vec F S1x128 .f32)
    (hs : condF2 i ∧ ¬condL2 i ∧ s' = zero2_0 ∧ z' = zero2_1 ∨ ¬condF2 i ∧ s' = s ∧ z' = z)
    (he : condL2 i ∧ e' = acc2_0 x y s' ∧ w' = acc2_1 x y z' ∨ ¬condL2 i ∧ e' = e ∧ w' = w) :
    iprop(owns (c : Thread nD τ) a fullShare x ∗ owns (c : Thread nD τ) b fullShare y ∗ (∃ d, owns (c : Thread nD τ) p fullShare d) ∗ owns (c : Thread nD τ) q fullShare e ∗ owns (c : Thread nD τ) r fullShare w ∗ owns (c : Thread nD τ) u fullShare s ∗ owns (c : Thread nD τ) v fullShare z
        ∗ (iprop(owns (c : Thread nD τ) a fullShare x ∗ owns (c : Thread nD τ) b fullShare y ∗ owns (c : Thread nD τ) p fullShare (out2_2 x y) ∗ owns (c : Thread nD τ) q fullShare e' ∗ owns (c : Thread nD τ) r fullShare w'
            ∗ owns (c : Thread nD τ) u fullShare (acc2_0 x y s') ∗ owns (c : Thread nD τ) v fullShare (acc2_1 x y z')) -∗ K ⟨⟩))
      ⊢ wp frame (wpE (defs₀ (F := F)) Variants.none c none) E (cc2__stats_bias_kernel i a ha b hb p hp q hq r hr u hu v hv) K := by
  simp only [cc2__stats_bias_kernel_eq_skeleton]; unfold cc2__stats_bias_kernel_skel owns
  rcases hs with ⟨hc, hn, rfl, rfl⟩ | ⟨hc, rfl, rfl⟩ <;> rcases he with ⟨hd, rfl, rfl⟩ | ⟨hd, rfl, rfl⟩ <;> first | exact absurd hd hn | skip
  all_goals
    iintro ⟨⟨%fa, %ea, Ha⟩, ⟨%fb, %eb, Hb⟩, ⟨%d, %fp, -, Hp⟩, ⟨%fq, %eq, Hq⟩, ⟨%fr, %er, Hr⟩, ⟨%fu, %eu, Hu⟩, ⟨%fv, %ev, Hv⟩, Hk⟩
    subst ea eb eq er eu ev
    sl_exec (disch := first | exact hc | exact hd)
    sl_step
    iapply Hk
    isplitl [Ha]; iexists _; isplitr; rotate_left; iexact Ha
    isplitl [Hb]; iexists _; isplitr; rotate_left; iexact Hb
    isplitl [Hp]; iexists _; isplitr; rotate_left; iexact Hp
    isplitl [Hq]; iexists _; isplitr; rotate_left; iexact Hq
    isplitl [Hr]; iexists _; isplitr; rotate_left; iexact Hr
    isplitl [Hu]; iexists _; isplitr; rotate_left; iexact Hu
    iexists _; isplitr; rotate_left; iexact Hv
    all_goals
      ipureintro
      first
      | with_reducible rfl
      | (try sl_unfold_words)
        simp only [rd2 (S := S5000x128) _ _ hzero2, rd2 (S := S1x128) _ _ hzero2, out2_2_eq, acc2_0_eq, acc2_1_eq, zero2_0_eq, zero2_1_eq, View.readAt_eq_ld,
          View.ld_unit_zero (S := S5000x128) hzero2, View.ld_unit_zero (S := S1x128) hzero2, View.readCov_unit_zero (S := S1x128) _ hzero2]

end

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

noncomputable def sAt2 (c : Dev nD) : (n : ℕ) → n < cfg2.N → Vec F S1x128 .f32 × Vec F S1x128 .f32
  | 0, hn => (acc2_0 (iblk2 V c 0 ⟨0, hn⟩) (iblk2 V c 1 ⟨0, hn⟩) zero2_0, acc2_1 (iblk2 V c 0 ⟨0, hn⟩) (iblk2 V c 1 ⟨0, hn⟩) zero2_1)
  | n + 1, hn => (acc2_0 (iblk2 V c 0 ⟨n + 1, hn⟩) (iblk2 V c 1 ⟨n + 1, hn⟩) (sAt2 c n (Nat.lt_of_succ_lt hn)).1,
      acc2_1 (iblk2 V c 0 ⟨n + 1, hn⟩) (iblk2 V c 1 ⟨n + 1, hn⟩) (sAt2 c n (Nat.lt_of_succ_lt hn)).2)

theorem sAt2_zero (c : Dev nD) (t : Fin cfg2.N) (h : t.val = 0) :
    sAt2 V c t.val t.isLt = (acc2_0 (iblk2 V c 0 t) (iblk2 V c 1 t) zero2_0, acc2_1 (iblk2 V c 0 t) (iblk2 V c 1 t) zero2_1) := by
  obtain ⟨_ | n, hn⟩ := t
  · rfl
  · exact absurd h (Nat.succ_ne_zero n)

theorem sAt2_pos (c : Dev nD) (t : Fin cfg2.N) (h : t.val ≠ 0) :
    sAt2 V c t.val t.isLt = (acc2_0 (iblk2 V c 0 t) (iblk2 V c 1 t) (sAt2 V c (t.val - 1) (Nat.lt_of_le_of_lt (Nat.sub_le _ _) t.isLt)).1,
      acc2_1 (iblk2 V c 0 t) (iblk2 V c 1 t) (sAt2 V c (t.val - 1) (Nat.lt_of_le_of_lt (Nat.sub_le _ _) t.isLt)).2) := by
  obtain ⟨_ | n, hn⟩ := t
  · exact absurd rfl h
  · rfl

noncomputable abbrev scM2_0 : Memref sig .tc .vmem S1x128 .f32 := Memref.whole cc2_scratch0
noncomputable abbrev scM2_1 : Memref sig .tc .vmem S1x128 .f32 := Memref.whole cc2_scratch1

/-- The region's own buffers with the two running sums at given contents. -/
noncomputable abbrev PhiN2 (c : Dev nD) (s z : Vec F S1x128 .f32) : sProp 𝕄 :=
  iprop(iprop(iprop(owns (c : Thread nD τ) scM2_0 fullShare s ∗ owns (c : Thread nD τ) scM2_1 fullShare z)
    ∗ Pipeline.scopedRestBut spec2 c [cc2_scratch0, cc2_scratch1]) ∗ (∃ r, prngReg c r))

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut spec2 c [cc2_scratch0, cc2_scratch1]) ∗ (∃ r, prngReg c r)) := by
  unfold Pipeline.ΦA; rw [scopedRest2_split]; simp only [scM2_0, scM2_1, owns_whole]; try rfl

noncomputable def PhiS2 (c : Dev nD) : (n : ℕ) → n ≤ cfg2.N → sProp 𝕄
  | 0, _ => Pipeline.ΦA spec2 c
  | n + 1, hn => PhiN2 c (sAt2 V c n hn).1 (sAt2 V c n hn).2

theorem PhiS2_zero (c : Dev nD) (n : ℕ) (h : n ≤ cfg2.N) (hz : n = 0) : PhiS2 V c n h = Pipeline.ΦA spec2 c := by
  subst hz; rfl

theorem PhiS2_pos (c : Dev nD) (n : ℕ) (h : n ≤ cfg2.N) (hz : n ≠ 0) :
    PhiS2 V c n h = PhiN2 c (sAt2 V c (n - 1) (by omega)).1 (sAt2 V c (n - 1) (by omega)).2 := by
  cases n with
  | zero => exact absurd rfl hz
  | succ n => rfl

noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => (sAt2 V c t.val t.isLt).1
    | ⟨4, _⟩ => (sAt2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem after2_2 (c : Dev nD) (t : Fin cfg2.N) : (dat2 V c).after 2 t = out2_2 (iblk2 V c 0 t) (iblk2 V c 1 t) := by dsimp only [dat2]
theorem after2_3_last (c : Dev nD) (t : Fin cfg2.N) (h : t.val = 9) : (dat2 V c).after 3 t = (sAt2 V c 9 (by rw [show cfg2.N = 10 from N_2]; decide)).1 := by
  obtain ⟨n, hn⟩ := t; obtain rfl : n = 9 := h; rfl
theorem after2_4_last (c : Dev nD) (t : Fin cfg2.N) (h : t.val = 9) : (dat2 V c).after 4 t = (sAt2 V c 9 (by rw [show cfg2.N = 10 from N_2]; decide)).2 := by
  obtain ⟨n, hn⟩ := t; obtain rfl : n = 9 := h; rfl

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

theorem lvA2 {c : Dev nD} (D : Dat τ (Elt F) Unit ℕ (UR sig nD τ) ℕ cfg2 c) {w : Fin cfg2.W} {t : Fin cfg2.N} (h : cfg2.idle w (grid2.coords t) = false) :
    D.leavesExact w t = owns (c : Thread nD τ) ((cfg2.win w).stage (cfg2.slots t w)) fullShare (D.after w t) := by
  unfold Dat.leavesExact; rw [h]

theorem sound_body2 (c : Dev nD) (t : Fin cfg2.N) :
    iprop((dat2 V c).Φ t.castSucc ∗ (dat2 V c).owesAt () t.castSucc
      ∗ (∃ d, owns (c : Thread nD τ) (win2_0.stage (cfg2.slots t 0)) fullShare ((dat2 V c).before 0 t d))
      ∗ (∃ d, owns (c : Thread nD τ) (win2_1.stage (cfg2.slots t 1)) fullShare ((dat2 V c).before 1 t d))
      ∗ (∃ d, owns (c : Thread nD τ) (win2_2.stage (cfg2.slots t 2)) fullShare ((dat2 V c).before 2 t d))
      ∗ (∃ d, owns (c : Thread nD τ) (win2_3.stage (cfg2.slots t 3)) fullShare ((dat2 V c).before 3 t d))
      ∗ (∃ d, owns (c : Thread nD τ) (win2_4.stage (cfg2.slots t 4)) fullShare ((dat2 V c).before 4 t d)))
    ⊢ wp frame (wpE (defs₀ (F := F)) Variants.none c none) Set.univ (bodyAt2 t) (fun _ => iprop((dat2 V c).Φ t.succ ∗ (dat2 V c).owesAt () t.succ
      ∗ (dat2 V c).leavesExact 0 t ∗ (dat2 V c).leavesExact 1 t ∗ (dat2 V c).leavesExact 2 t ∗ (dat2 V c).leavesExact 3 t ∗ (dat2 V c).leavesExact 4 t)) := by
  unfold bodyAt2
  simp only [before2_0, before2_1]
  rw [show (dat2 V c).owesAt () t.succ = (dat2 V c).owesAt () t.castSucc from rfl,
    show (dat2 V c).Φ t.succ = PhiN2 c (sAt2 V c t.val t.isLt).1 (sAt2 V c t.val t.isLt).2 from rfl,
    show (dat2 V c).Φ t.castSucc = PhiS2 V c t.val (Nat.le_of_lt t.isLt) from rfl,
    lvA2 _ (live2 t 0 (.inl (by decide))), lvA2 _ (live2 t 1 (.inl (by decide))), lvA2 _ (live2 t 2 (.inl (by decide))), after2_2,
    show (dat2 V c).after 0 t = iblk2 V c 0 t from rfl, show (dat2 V c).after 1 t = iblk2 V c 1 t from rfl]
  by_cases hz : t.val = 0
  · have hL : t.val ≠ 9 := by omega
    rw [Dat.leavesExact_idle _ 3 t (idle2 t 3 (by decide) hL).1 (idle2 t 3 (by decide) hL).2,
      Dat.leavesExact_idle _ 4 t (idle2 t 4 (by decide) hL).1 (idle2 t 4 (by decide) hL).2,
      sAt2_zero V c t hz, PhiS2_zero V c _ _ hz, PhiA2_eq]
    dsimp only [PhiN2]
    iintro ⟨⟨⟨⟨⟨%s, Hu⟩, ⟨%z, Hv⟩⟩, HR⟩, Hg⟩, Ho, ⟨%da, Ha⟩, ⟨%db, Hb⟩, ⟨%dp, Hp⟩, ⟨%dq, Hq⟩, ⟨%dr, Hr⟩⟩
    iapply (run2 c (grid2.coords t) (iblk2 V c 0 t) (iblk2 V c 1 t) s z ((dat2 V c).before 3 t dq) ((dat2 V c).before 4 t dr) Set.univ _ _ _ _ _
      (.inl ⟨(hcondF2 t).mpr hz, fun k => hL ((hcondL2 t).mp k), rfl, rfl⟩) (.inr ⟨fun k => hL ((hcondL2 t).mp k), rfl, rfl⟩))
    iframe Ha Hb Hq Hr Hu Hv
    isplitl [Hp]; · iexists _; iexact Hp
    iintro ⟨Ha, Hb, Hp, Hq, Hr, Hu, Hv⟩
    iframe Ha Hb Hp Hu Hv HR Hg Ho
    isplitl [Hq] <;> iexists _ <;> iassumption
  · have hF : ¬condF2 (grid2.coords t) := fun k => hz ((hcondF2 t).mp k)
    rw [PhiS2_pos V c _ _ hz, sAt2_pos V c t hz]
    by_cases hL : t.val = 9
    · rw [lvA2 _ (live2 t 3 (.inr hL)), lvA2 _ (live2 t 4 (.inr hL)), show (dat2 V c).after 3 t = (sAt2 V c t.val t.isLt).1 from rfl,
        show (dat2 V c).after 4 t = (sAt2 V c t.val t.isLt).2 from rfl, sAt2_pos V c t hz]
      dsimp only [PhiN2]
      iintro ⟨⟨⟨⟨Hu, Hv⟩, HR⟩, Hg⟩, Ho, ⟨%da, Ha⟩, ⟨%db, Hb⟩, ⟨%dp, Hp⟩, ⟨%dq, Hq⟩, ⟨%dr, Hr⟩⟩
      iapply (run2 c (grid2.coords t) (iblk2 V c 0 t) (iblk2 V c 1 t) _ _ ((dat2 V c).before 3 t dq) ((dat2 V c).before 4 t dr) Set.univ _ _ _ _ _
        (.inr ⟨hF, rfl, rfl⟩) (.inl ⟨(hcondL2 t).mpr hL, rfl, rfl⟩))
      iframe Ha Hb Hq Hr Hu Hv
      isplitl [Hp]; · iexists _; iexact Hp
      iintro ⟨Ha, Hb, Hp, Hq, Hr, Hu, Hv⟩
      iframe
    · rw [Dat.leavesExact_idle _ 3 t (idle2 t 3 (by decide) hL).1 (idle2 t 3 (by decide) hL).2,
        Dat.leavesExact_idle _ 4 t (idle2 t 4 (by decide) hL).1 (idle2 t 4 (by decide) hL).2]
      dsimp only [PhiN2]
      iintro ⟨⟨⟨⟨Hu, Hv⟩, HR⟩, Hg⟩, Ho, ⟨%da, Ha⟩, ⟨%db, Hb⟩, ⟨%dp, Hp⟩, ⟨%dq, Hq⟩, ⟨%dr, Hr⟩⟩
      iapply (run2 c (grid2.coords t) (iblk2 V c 0 t) (iblk2 V c 1 t) _ _ ((dat2 V c).before 3 t dq) ((dat2 V c).before 4 t dr) Set.univ _ _ _ _ _
        (.inr ⟨hF, rfl, rfl⟩) (.inr ⟨fun k => hL ((hcondL2 t).mp k), rfl, rfl⟩))
      iframe Ha Hb Hq Hr Hu Hv
      isplitl [Hp]; · iexists _; iexact Hp
      iintro ⟨Ha, Hb, Hp, Hq, Hr, Hu, Hv⟩
      iframe Ha Hb Hp Hu Hv HR Hg Ho
      isplitl [Hq] <;> iexists _ <;> iassumption

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := Idealize.SL.BI.Entails.refl _

/-- After the last tile the running sums' contents are forgotten. -/
theorem hout2 (c : Dev nD) : (dat2 V c).Φ (Fin.last cfg2.N) ⊢ (Pipeline.ΦA spec2 c : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last, show cfg2.N = 10 from N_2]; decide), PhiA2_eq]
  iintro ⟨⟨⟨Hu, Hv⟩, HR⟩, Hg⟩
  iframe HR Hg
  isplitl [Hu] <;> iexists _ <;> iassumption

end Cert.Kernel.Reg
end
-- ==== Proof.K.R03.lean ====
import proofs.«408439_j66932770341395_1_alg».proof.Proof.Gen.Kernel.Launch
import proofs.«408439_j66932770341395_1_alg».proof.Proof.Gen.Kernel.Skeleton
import proofs.«408439_j66932770341395_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0

def out3_5 (x : Vec F S5000x128 .f32) (y z s r : Vec F S1x128 .f32) : Vec F S5000x128 .f32 :=
  View.canon [⟨r3_0, k3_pay1 (View.ld x r3_0) (View.ld z r3_1) (View.ld y r3_1) (View.ld s r3_1) (View.ld r r3_1)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_in (c : Dev nD) (w : Fin cfg3.W) (hw : w.val < 5 := by decide) (t : Fin cfg3.N) (d) :
    (dat3 V c).before w t d = (dat3 V c).after w t :=
  match w with
  | ⟨0, _⟩ | ⟨1, _⟩ | ⟨2, _⟩ | ⟨3, _⟩ | ⟨4, _⟩ =>
    ((dat3 V c).before_in_eq_fetched _ rfl (fun _ => rfl) (fun _ _ _ => rfl) (fun _ => rfl) t d).trans rfl
  | ⟨5, _⟩ => absurd hw (Nat.lt_irrefl 5)

set_option maxHeartbeats 1000000 in
theorem sound_kernel3 (c : Dev nD) {E : Set ℕ} {i : grid3.Coords}
    {a : Memref sig .tc .vmem S5000x128 .f32} {ha : a.IsWhole} {b : Memref sig .tc .vmem S1x128 .f32} {hb : b.IsWhole}
    {u : Memref sig .tc .vmem S1x128 .f32} {hu : u.IsWhole} {v : Memref sig .tc .vmem S1x128 .f32} {hv : v.IsWhole}
    {p : Memref sig .tc .vmem S1x128 .f32} {hp : p.IsWhole} {o : Memref sig .tc .vmem S5000x128 .f32} {ho : o.IsWhole}
    {x e : Vec F S5000x128 .f32} {y z s r : Vec F S1x128 .f32} {K : PUnit → sProp 𝕄} :
    iprop(owns c a fullShare x ∗ owns c b fullShare y ∗ owns c u fullShare z ∗ owns c v fullShare s ∗ owns c p fullShare r
        ∗ owns c o fullShare e
        ∗ (owns c a fullShare x ∗ owns c b fullShare y ∗ owns c u fullShare z ∗ owns c v fullShare s ∗ owns c p fullShare r
            ∗ owns c o fullShare (out3_5 x y z s r) -∗ K ⟨⟩))
      ⊢ wp frame (wpE (defs₀ (F := F)) Variants.none c none) E (cc3__bn_relu_kernel i a ha b hb u hu v hv p hp o ho) K := by
  simp only [cc3__bn_relu_kernel_eq_skeleton]; unfold cc3__bn_relu_kernel_skel owns
  iintro ⟨⟨%f, %hf, Hx⟩, ⟨%g, %hg, Hy⟩, ⟨%h, %hh, Hz⟩, ⟨%j, %hj, Hs⟩, ⟨%l, %hl, Hr⟩, ⟨%k, -, He⟩, Hk⟩
  subst hf hg hh hj hl
  sl_exec
  sl_step
  iapply Hk
  isplitl [Hx]
  · iexists f; isplitr; · ipureintro; rfl
    iexact Hx
  isplitl [Hy]
  · iexists g; isplitr; · ipureintro; rfl
    iexact Hy
  isplitl [Hz]
  · iexists h; isplitr; · ipureintro; rfl
    iexact Hz
  isplitl [Hs]
  · iexists j; isplitr; · ipureintro; rfl
    iexact Hs
  isplitl [Hr]
  · iexists l; isplitr; · ipureintro; rfl
    iexact Hr
  iexists _; isplitr
  swap; · iexact He
  ipureintro
  exact View.read_writes_eq_canon _ _ _ (View.cover_of_tiled _ S5000x128.size (by rfl))

theorem body_obligation3 (c : Dev nD) : BodyObligation (dat3 (F := F) V c) (defs₀ (F := F)) Variants.none () Set.univ := fun t => by
  rw [bigSep_W3, bigSep_W3]
  simp only [before3_in V c 0, before3_in V c 1, before3_in V c 2, before3_in V c 3, before3_in V c 4]
  rw [show (dat3 V c).Φ t.succ = (dat3 V c).Φ t.castSucc from rfl,
    show (dat3 V c).owesAt () t.succ = (dat3 V c).owesAt () t.castSucc from rfl,
    show (dat3 V c).after 5 t = out3_5 ((dat3 V c).after 0 t) ((dat3 V c).after 1 t) ((dat3 V c).after 2 t)
      ((dat3 V c).after 3 t) ((dat3 V c).after 4 t) from by dsimp only [dat3]]
  show _ ⊢ wp _ _ _ (bodyAt3 t) _
  iintro ⟨HΦ, Ho, ⟨%d, Hx⟩, ⟨%d, Hy⟩, ⟨%d, Hz⟩, ⟨%d, Hs⟩, ⟨%d, Hr⟩, ⟨%d, He⟩⟩
  iapply (sound_kernel3 c)
  iframe Hx Hy Hz Hs Hr He
  iintro ⟨Hx, Hy, Hz, Hs, Hr, He⟩
  iframe

theorem hin3 (c : Dev nD) : (Pipeline.ΦA spec3 c : sProp 𝕄) ⊢ (dat3 V c).Φ 0 := .rfl
theorem hout3 (c : Dev nD) : (dat3 V c).Φ (Fin.last cfg3.N) ⊢ (Pipeline.ΦA spec3 c : sProp 𝕄) := .rfl

end Cert.Kernel.Reg
end
-- ==== Proof.K.R04.lean ====
import proofs.«408439_j66932770341395_1_alg».proof.Proof.Gen.Kernel.Launch
import proofs.«408439_j66932770341395_1_alg».proof.Proof.Gen.Kernel.Skeleton
import proofs.«408439_j66932770341395_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x128 := Rect.unit (s := S5000x128) ![0, 0] S5000x128.size inb_S5000x128_S5000x128_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0

def out4_3 (x : Vec F S5000x128 .f32) (y : Vec F S128x128 .f32) (z : Vec F S1x128 .f32) : Vec F S5000x128 .f32 :=
  View.canon [⟨r4_0, k4_pay1 (View.ld x r4_0) (View.ld y r4_1) (View.ld z r4_2)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) :
    (dat4 V c).after 3 t = out4_3 (iblk4 V c 0 t) (iblk4 V c 1 t) (iblk4 V c 2 t) := by dsimp only [dat4]

theorem before4_in (c : Dev nD) (w : Fin cfg4.W) (hw : w.val < 3 := by decide) (t : Fin cfg4.N) (d) :
    (dat4 V c).before w t d = (dat4 V c).after w t :=
  match w with
  | ⟨0, _⟩ | ⟨1, _⟩ | ⟨2, _⟩ =>
    ((dat4 V c).before_in_eq_fetched _ rfl (fun _ => rfl) (fun _ _ _ => rfl) (fun _ => rfl) t d).trans rfl
  | ⟨3, _⟩ => absurd hw (Nat.lt_irrefl 3)

set_option maxHeartbeats 4000000 in
theorem sound_kernel4 (c : Dev nD) {E : Set ℕ} {i : grid4.Coords}
    {a : Memref sig .tc .vmem S5000x128 .f32} {ha : a.IsWhole} {b : Memref sig .tc .vmem S128x128 .f32} {hb : b.IsWhole}
    {u : Memref sig .tc .vmem S1x128 .f32} {hu : u.IsWhole} {v : Memref sig .tc .vmem S5000x128 .f32} {hv : v.IsWhole}
    {x s : Vec F S5000x128 .f32} {y : Vec F S128x128 .f32} {z : Vec F S1x128 .f32} {K : PUnit → sProp 𝕄} :
    iprop(owns c a fullShare x ∗ owns c b fullShare y ∗ owns c u fullShare z ∗ owns c v fullShare s
        ∗ (owns c a fullShare x ∗ owns c b fullShare y ∗ owns c u fullShare z ∗ owns c v fullShare (out4_3 x y z) -∗ K ⟨⟩))
      ⊢ wp frame (wpE (defs₀ (F := F)) Variants.none c none) E (cc4__linear_kernel i a ha b hb u hu v hv) K := by
  simp only [cc4__linear_kernel_eq_skeleton]; unfold cc4__linear_kernel_skel owns
  iintro ⟨⟨%f, %hf, Hx⟩, ⟨%g, %hg, Hy⟩, ⟨%h, %hh, Hz⟩, ⟨%k, -, Hv⟩, Hk⟩
  subst hf hg hh
  sl_exec
  sl_step
  iapply Hk
  isplitl [Hx]
  · iexists f; isplitr; · ipureintro; rfl
    iexact Hx
  isplitl [Hy]
  · iexists g; isplitr; · ipureintro; rfl
    iexact Hy
  isplitl [Hz]
  · iexists h; isplitr; · ipureintro; rfl
    iexact Hz
  iexists _; isplitr
  swap; · iexact Hv
  ipureintro
  exact View.read_writes_eq_canon _ _ _ (View.cover_of_tiled _ S5000x128.size (by rfl))

theorem body_obligation4 (c : Dev nD) : BodyObligation (dat4 (F := F) V c) (defs₀ (F := F)) Variants.none () Set.univ := fun t => by
  rw [bigSep_W4, bigSep_W4]
  simp only [before4_in V c 0, before4_in V c 1, before4_in V c 2]
  rw [show (dat4 V c).Φ t.succ = (dat4 V c).Φ t.castSucc from rfl,
    show (dat4 V c).owesAt () t.succ = (dat4 V c).owesAt () t.castSucc from rfl,
    show (dat4 V c).after 3 t = out4_3 ((dat4 V c).after 0 t) ((dat4 V c).after 1 t) ((dat4 V c).after 2 t) from by dsimp only [dat4]]
  show _ ⊢ wp _ _ _ (bodyAt4 t) _
  iintro ⟨HΦ, Ho, ⟨%d, Hx⟩, ⟨%d, Hy⟩, ⟨%d, Hz⟩, ⟨%d, Hv⟩⟩
  iapply (sound_kernel4 c)
  iframe Hx Hy Hz Hv
  iintro ⟨Hx, Hy, Hz, Hv⟩
  iframe

theorem hin4 (c : Dev nD) : (Pipeline.ΦA spec4 c : sProp 𝕄) ⊢ (dat4 V c).Φ 0 := .rfl
theorem hout4 (c : Dev nD) : (dat4 V c).Φ (Fin.last cfg4.N) ⊢ (Pipeline.ΦA spec4 c : sProp 𝕄) := .rfl

end Cert.Kernel.Reg
end
-- ==== Proof.K.R05.lean ====
import proofs.«408439_j66932770341395_1_alg».proof.Proof.Gen.Kernel.Launch
import proofs.«408439_j66932770341395_1_alg».proof.Proof.Gen.Kernel.Skeleton
import proofs.«408439_j66932770341395_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

noncomputable abbrev condF5 (i : grid5.Coords) : Prop := (Scalar.cmpi .ne (Scalar.extui (Scalar.cmpi .eq (BitVec.ofNat 32 (i 0).val) 0#32)) 0#32) = 1#1
noncomputable abbrev condL5 (i : grid5.Coords) : Prop := k5_cond2 i = 1#1
theorem hcondF5 : ∀ t : Fin cfg5.N, condF5 (grid5.coords t) ↔ t.val = 0 :=
  (by decide +kernel : ∀ t : Fin grid5.N, condF5 (grid5.coords t) ↔ t.val = 0)
theorem hcondL5 : ∀ t : Fin cfg5.N, condL5 (grid5.coords t) ↔ t.val = 9 :=
  (by decide +kernel : ∀ t : Fin grid5.N, condL5 (grid5.coords t) ↔ t.val = 9)
theorem live5 : ∀ (t : Fin cfg5.N) (w : Fin cfg5.W), w.val < 3 ∨ t.val = 9 → cfg5.idle w (grid5.coords t) = false := by decide +kernel
theorem idle5 : ∀ (t : Fin cfg5.N) (w : Fin cfg5.W), 3 ≤ w.val → t.val ≠ 9 → cfg5.idle w (grid5.coords t) = true ∧ (cfg5.win w).flush t = false := by decide +kernel

theorem hzero5 : (![0, 0] : Fin 2 → Nat) = fun _ => 0 := funext fun a => by fin_cases a <;> rfl
noncomputable abbrev rT5 : Rect S5000x128 := Rect.unit (s := S5000x128) ![0, 0] S5000x128.size inb_S5000x128_S5000x128_0_0
noncomputable abbrev rR5 : Rect S1x128 := Rect.unit (s := S1x128) ![0, 0] S1x128.size inb_S1x128_S1x128_0_0

noncomputable def out5_2 (x : Vec F S5000x128 .f32) (y : Vec F S1x128 .f32) : Vec F S5000x128 .f32 :=
  View.canon [⟨rT5, k5_pay3 (View.ld x rT5) (View.ld y rR5)⟩]
noncomputable def acc5_0 (x : Vec F S5000x128 .f32) (y s : Vec F S1x128 .f32) : Vec F S1x128 .f32 :=
  View.canon [⟨rR5, k5_pay4 (View.ld x rT5) (View.ld y rR5) (View.ld s rR5)⟩]
noncomputable def acc5_1 (x : Vec F S5000x128 .f32) (y s : Vec F S1x128 .f32) : Vec F S1x128 .f32 :=
  View.canon [⟨rR5, k5_pay5 (View.ld x rT5) (View.ld y rR5) (View.ld s rR5)⟩]
noncomputable def zero5_0 : Vec F S1x128 .f32 := View.canon [⟨rR5, k5_pay1 (F := F)⟩]
noncomputable def zero5_1 : Vec F S1x128 .f32 := View.canon [⟨rR5, k5_pay2 (F := F)⟩]

theorem out5_2_eq (x : Vec F S5000x128 .f32) (y : Vec F S1x128 .f32) : out5_2 x y = k5_pay3 x y := by
  unfold out5_2; rw [View.canon_unit_zero hzero5, View.ld_unit_zero (S := S5000x128) hzero5, View.ld_unit_zero (S := S1x128) hzero5]
theorem acc5_0_eq (x : Vec F S5000x128 .f32) (y s : Vec F S1x128 .f32) : acc5_0 x y s = k5_pay4 x y s := by
  unfold acc5_0; rw [View.canon_unit_zero hzero5, View.ld_unit_zero (S := S5000x128) hzero5, View.ld_unit_zero (S := S1x128) hzero5, View.ld_unit_zero (S := S1x128) hzero5]
theorem acc5_1_eq (x : Vec F S5000x128 .f32) (y s : Vec F S1x128 .f32) : acc5_1 x y s = k5_pay5 x y s := by
  unfold acc5_1; rw [View.canon_unit_zero hzero5, View.ld_unit_zero (S := S5000x128) hzero5, View.ld_unit_zero (S := S1x128) hzero5, View.ld_unit_zero (S := S1x128) hzero5]
theorem zero5_0_eq : (zero5_0 : Vec F S1x128 .f32) = k5_pay1 := View.canon_unit_zero hzero5 _ _
theorem zero5_1_eq : (zero5_1 : Vec F S1x128 .f32) = k5_pay2 := View.canon_unit_zero hzero5 _ _

/-- A buffer whose last store covers it whole reads that store's payload. -/
theorem rd5 {S : Shape} {κ : Kind} {sp : Space} (v : View sig κ sp S .f32) (f : v.ty.Contents (Elt F)) {off : Fin S.rank → Nat} (h : off = fun _ => 0)
    (inb : ∀ a, off a + S.size a ≤ S.size a) (w : S.Idx → Elt F .f32) (L : List (View.Piece (Elt F) S .f32)) :
    v.read (Elt F) (v.writes (Elt F) f (⟨Rect.unit off S.size inb, w⟩ :: L)) = w :=
  (View.read_writes_eq_canon v f _ fun y => ⟨_, List.mem_cons_self, View.mem_set_unit_zero h inb y⟩).trans (View.canon_cons_unit_zero h inb w L)

section
variable (c : Dev nD) (i : grid5.Coords) {a p : Memref sig .tc .vmem S5000x128 .f32} {b q r u v : Memref sig .tc .vmem S1x128 .f32}
  {ha : a.IsWhole} {hb : b.IsWhole} {hp : p.IsWhole} {hq : q.IsWhole} {hr : r.IsWhole} {hu : u.IsWhole} {hv : v.IsWhole}
  (x : Vec F S5000x128 .f32) (y s z e w : Vec F S1x128 .f32) (E : Set ℕ) (K : PUnit → sProp (MT nD τ sig Unit (Elt F) ℕ (UR sig nD τ) ℕ))

set_option maxHeartbeats 4000000 in
/-- One tile: the running sums restart from zero at the first tile, the tile is stored and added to both, and at the last tile both are copied out. -/
theorem run5 (s' z' e' w' : Vec F S1x128 .f32)
    (hs : condF5 i ∧ ¬condL5 i ∧ s' = zero5_0 ∧ z' = zero5_1 ∨ ¬condF5 i ∧ s' = s ∧ z' = z)
    (he : condL5 i ∧ e' = acc5_0 x y s' ∧ w' = acc5_1 x y z' ∨ ¬condL5 i ∧ e' = e ∧ w' = w) :
    iprop(owns (c : Thread nD τ) a fullShare x ∗ owns (c : Thread nD τ) b fullShare y ∗ (∃ d, owns (c : Thread nD τ) p fullShare d) ∗ owns (c : Thread nD τ) q fullShare e ∗ owns (c : Thread nD τ) r fullShare w ∗ owns (c : Thread nD τ) u fullShare s ∗ owns (c : Thread nD τ) v fullShare z
        ∗ (iprop(owns (c : Thread nD τ) a fullShare x ∗ owns (c : Thread nD τ) b fullShare y ∗ owns (c : Thread nD τ) p fullShare (out5_2 x y) ∗ owns (c : Thread nD τ) q fullShare e' ∗ owns (c : Thread nD τ) r fullShare w'
            ∗ owns (c : Thread nD τ) u fullShare (acc5_0 x y s') ∗ owns (c : Thread nD τ) v fullShare (acc5_1 x y z')) -∗ K ⟨⟩))
      ⊢ wp frame (wpE (defs₀ (F := F)) Variants.none c none) E (cc5__stats_bias_kernel i a ha b hb p hp q hq r hr u hu v hv) K := by
  simp only [cc5__stats_bias_kernel_eq_skeleton]; unfold cc5__stats_bias_kernel_skel owns
  rcases hs with ⟨hc, hn, rfl, rfl⟩ | ⟨hc, rfl, rfl⟩ <;> rcases he with ⟨hd, rfl, rfl⟩ | ⟨hd, rfl, rfl⟩ <;> first | exact absurd hd hn | skip
  all_goals
    iintro ⟨⟨%fa, %ea, Ha⟩, ⟨%fb, %eb, Hb⟩, ⟨%d, %fp, -, Hp⟩, ⟨%fq, %eq, Hq⟩, ⟨%fr, %er, Hr⟩, ⟨%fu, %eu, Hu⟩, ⟨%fv, %ev, Hv⟩, Hk⟩
    subst ea eb eq er eu ev
    sl_exec (disch := first | exact hc | exact hd)
    sl_step
    iapply Hk
    isplitl [Ha]; iexists _; isplitr; rotate_left; iexact Ha
    isplitl [Hb]; iexists _; isplitr; rotate_left; iexact Hb
    isplitl [Hp]; iexists _; isplitr; rotate_left; iexact Hp
    isplitl [Hq]; iexists _; isplitr; rotate_left; iexact Hq
    isplitl [Hr]; iexists _; isplitr; rotate_left; iexact Hr
    isplitl [Hu]; iexists _; isplitr; rotate_left; iexact Hu
    iexists _; isplitr; rotate_left; iexact Hv
    all_goals
      ipureintro
      first
      | with_reducible rfl
      | (try sl_unfold_words)
        simp only [rd5 (S := S5000x128) _ _ hzero5, rd5 (S := S1x128) _ _ hzero5, out5_2_eq, acc5_0_eq, acc5_1_eq, zero5_0_eq, zero5_1_eq, View.readAt_eq_ld,
          View.ld_unit_zero (S := S5000x128) hzero5, View.ld_unit_zero (S := S1x128) hzero5, View.readCov_unit_zero (S := S1x128) _ hzero5]

end

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

noncomputable def sAt5 (c : Dev nD) : (n : ℕ) → n < cfg5.N → Vec F S1x128 .f32 × Vec F S1x128 .f32
  | 0, hn => (acc5_0 (iblk5 V c 0 ⟨0, hn⟩) (iblk5 V c 1 ⟨0, hn⟩) zero5_0, acc5_1 (iblk5 V c 0 ⟨0, hn⟩) (iblk5 V c 1 ⟨0, hn⟩) zero5_1)
  | n + 1, hn => (acc5_0 (iblk5 V c 0 ⟨n + 1, hn⟩) (iblk5 V c 1 ⟨n + 1, hn⟩) (sAt5 c n (Nat.lt_of_succ_lt hn)).1,
      acc5_1 (iblk5 V c 0 ⟨n + 1, hn⟩) (iblk5 V c 1 ⟨n + 1, hn⟩) (sAt5 c n (Nat.lt_of_succ_lt hn)).2)

theorem sAt5_zero (c : Dev nD) (t : Fin cfg5.N) (h : t.val = 0) :
    sAt5 V c t.val t.isLt = (acc5_0 (iblk5 V c 0 t) (iblk5 V c 1 t) zero5_0, acc5_1 (iblk5 V c 0 t) (iblk5 V c 1 t) zero5_1) := by
  obtain ⟨_ | n, hn⟩ := t
  · rfl
  · exact absurd h (Nat.succ_ne_zero n)

theorem sAt5_pos (c : Dev nD) (t : Fin cfg5.N) (h : t.val ≠ 0) :
    sAt5 V c t.val t.isLt = (acc5_0 (iblk5 V c 0 t) (iblk5 V c 1 t) (sAt5 V c (t.val - 1) (Nat.lt_of_le_of_lt (Nat.sub_le _ _) t.isLt)).1,
      acc5_1 (iblk5 V c 0 t) (iblk5 V c 1 t) (sAt5 V c (t.val - 1) (Nat.lt_of_le_of_lt (Nat.sub_le _ _) t.isLt)).2) := by
  obtain ⟨_ | n, hn⟩ := t
  · exact absurd rfl h
  · rfl

noncomputable abbrev scM5_0 : Memref sig .tc .vmem S1x128 .f32 := Memref.whole cc5_scratch0
noncomputable abbrev scM5_1 : Memref sig .tc .vmem S1x128 .f32 := Memref.whole cc5_scratch1

/-- The region's own buffers with the two running sums at given contents. -/
noncomputable abbrev PhiN5 (c : Dev nD) (s z : Vec F S1x128 .f32) : sProp 𝕄 :=
  iprop(iprop(iprop(owns (c : Thread nD τ) scM5_0 fullShare s ∗ owns (c : Thread nD τ) scM5_1 fullShare z)
    ∗ Pipeline.scopedRestBut spec5 c [cc5_scratch0, cc5_scratch1]) ∗ (∃ r, prngReg c r))

theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut spec5 c [cc5_scratch0, cc5_scratch1]) ∗ (∃ r, prngReg c r)) := by
  unfold Pipeline.ΦA; rw [scopedRest5_split]; simp only [scM5_0, scM5_1, owns_whole]; try rfl

noncomputable def PhiS5 (c : Dev nD) : (n : ℕ) → n ≤ cfg5.N → sProp 𝕄
  | 0, _ => Pipeline.ΦA spec5 c
  | n + 1, hn => PhiN5 c (sAt5 V c n hn).1 (sAt5 V c n hn).2

theorem PhiS5_zero (c : Dev nD) (n : ℕ) (h : n ≤ cfg5.N) (hz : n = 0) : PhiS5 V c n h = Pipeline.ΦA spec5 c := by
  subst hz; rfl

theorem PhiS5_pos (c : Dev nD) (n : ℕ) (h : n ≤ cfg5.N) (hz : n ≠ 0) :
    PhiS5 V c n h = PhiN5 c (sAt5 V c (n - 1) (by omega)).1 (sAt5 V c (n - 1) (by omega)).2 := by
  cases n with
  | zero => exact absurd rfl hz
  | succ n => rfl

noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
    | ⟨3, _⟩ => (sAt5 V c t.val t.isLt).1
    | ⟨4, _⟩ => (sAt5 V c t.val t.isLt).2
  Φ t := PhiS5 V c t.val (Nat.le_of_lt_succ t.isLt)
  q _ := fullShare
  owed _ := 0

theorem A_eq5 (c : Dev nD) (w : Fin cfg5.W) : (dat5 V c).A w = V c (Pipeline.arrRef spec5 w) := rfl

theorem after5_2 (c : Dev nD) (t : Fin cfg5.N) : (dat5 V c).after 2 t = out5_2 (iblk5 V c 0 t) (iblk5 V c 1 t) := by dsimp only [dat5]
theorem after5_3_last (c : Dev nD) (t : Fin cfg5.N) (h : t.val = 9) : (dat5 V c).after 3 t = (sAt5 V c 9 (by rw [show cfg5.N = 10 from N_5]; decide)).1 := by
  obtain ⟨n, hn⟩ := t; obtain rfl : n = 9 := h; rfl
theorem after5_4_last (c : Dev nD) (t : Fin cfg5.N) (h : t.val = 9) : (dat5 V c).after 4 t = (sAt5 V c 9 (by rw [show cfg5.N = 10 from N_5]; decide)).2 := by
  obtain ⟨n, hn⟩ := t; obtain rfl : n = 9 := h; rfl

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl

theorem lvA5 {c : Dev nD} (D : Dat τ (Elt F) Unit ℕ (UR sig nD τ) ℕ cfg5 c) {w : Fin cfg5.W} {t : Fin cfg5.N} (h : cfg5.idle w (grid5.coords t) = false) :
    D.leavesExact w t = owns (c : Thread nD τ) ((cfg5.win w).stage (cfg5.slots t w)) fullShare (D.after w t) := by
  unfold Dat.leavesExact; rw [h]

theorem sound_body5 (c : Dev nD) (t : Fin cfg5.N) :
    iprop((dat5 V c).Φ t.castSucc ∗ (dat5 V c).owesAt () t.castSucc
      ∗ (∃ d, owns (c : Thread nD τ) (win5_0.stage (cfg5.slots t 0)) fullShare ((dat5 V c).before 0 t d))
      ∗ (∃ d, owns (c : Thread nD τ) (win5_1.stage (cfg5.slots t 1)) fullShare ((dat5 V c).before 1 t d))
      ∗ (∃ d, owns (c : Thread nD τ) (win5_2.stage (cfg5.slots t 2)) fullShare ((dat5 V c).before 2 t d))
      ∗ (∃ d, owns (c : Thread nD τ) (win5_3.stage (cfg5.slots t 3)) fullShare ((dat5 V c).before 3 t d))
      ∗ (∃ d, owns (c : Thread nD τ) (win5_4.stage (cfg5.slots t 4)) fullShare ((dat5 V c).before 4 t d)))
    ⊢ wp frame (wpE (defs₀ (F := F)) Variants.none c none) Set.univ (bodyAt5 t) (fun _ => iprop((dat5 V c).Φ t.succ ∗ (dat5 V c).owesAt () t.succ
      ∗ (dat5 V c).leavesExact 0 t ∗ (dat5 V c).leavesExact 1 t ∗ (dat5 V c).leavesExact 2 t ∗ (dat5 V c).leavesExact 3 t ∗ (dat5 V c).leavesExact 4 t)) := by
  unfold bodyAt5
  simp only [before5_0, before5_1]
  rw [show (dat5 V c).owesAt () t.succ = (dat5 V c).owesAt () t.castSucc from rfl,
    show (dat5 V c).Φ t.succ = PhiN5 c (sAt5 V c t.val t.isLt).1 (sAt5 V c t.val t.isLt).2 from rfl,
    show (dat5 V c).Φ t.castSucc = PhiS5 V c t.val (Nat.le_of_lt t.isLt) from rfl,
    lvA5 _ (live5 t 0 (.inl (by decide))), lvA5 _ (live5 t 1 (.inl (by decide))), lvA5 _ (live5 t 2 (.inl (by decide))), after5_2,
    show (dat5 V c).after 0 t = iblk5 V c 0 t from rfl, show (dat5 V c).after 1 t = iblk5 V c 1 t from rfl]
  by_cases hz : t.val = 0
  · have hL : t.val ≠ 9 := by omega
    rw [Dat.leavesExact_idle _ 3 t (idle5 t 3 (by decide) hL).1 (idle5 t 3 (by decide) hL).2,
      Dat.leavesExact_idle _ 4 t (idle5 t 4 (by decide) hL).1 (idle5 t 4 (by decide) hL).2,
      sAt5_zero V c t hz, PhiS5_zero V c _ _ hz, PhiA5_eq]
    dsimp only [PhiN5]
    iintro ⟨⟨⟨⟨⟨%s, Hu⟩, ⟨%z, Hv⟩⟩, HR⟩, Hg⟩, Ho, ⟨%da, Ha⟩, ⟨%db, Hb⟩, ⟨%dp, Hp⟩, ⟨%dq, Hq⟩, ⟨%dr, Hr⟩⟩
    iapply (run5 c (grid5.coords t) (iblk5 V c 0 t) (iblk5 V c 1 t) s z ((dat5 V c).before 3 t dq) ((dat5 V c).before 4 t dr) Set.univ _ _ _ _ _
      (.inl ⟨(hcondF5 t).mpr hz, fun k => hL ((hcondL5 t).mp k), rfl, rfl⟩) (.inr ⟨fun k => hL ((hcondL5 t).mp k), rfl, rfl⟩))
    iframe Ha Hb Hq Hr Hu Hv
    isplitl [Hp]; · iexists _; iexact Hp
    iintro ⟨Ha, Hb, Hp, Hq, Hr, Hu, Hv⟩
    iframe Ha Hb Hp Hu Hv HR Hg Ho
    isplitl [Hq] <;> iexists _ <;> iassumption
  · have hF : ¬condF5 (grid5.coords t) := fun k => hz ((hcondF5 t).mp k)
    rw [PhiS5_pos V c _ _ hz, sAt5_pos V c t hz]
    by_cases hL : t.val = 9
    · rw [lvA5 _ (live5 t 3 (.inr hL)), lvA5 _ (live5 t 4 (.inr hL)), show (dat5 V c).after 3 t = (sAt5 V c t.val t.isLt).1 from rfl,
        show (dat5 V c).after 4 t = (sAt5 V c t.val t.isLt).2 from rfl, sAt5_pos V c t hz]
      dsimp only [PhiN5]
      iintro ⟨⟨⟨⟨Hu, Hv⟩, HR⟩, Hg⟩, Ho, ⟨%da, Ha⟩, ⟨%db, Hb⟩, ⟨%dp, Hp⟩, ⟨%dq, Hq⟩, ⟨%dr, Hr⟩⟩
      iapply (run5 c (grid5.coords t) (iblk5 V c 0 t) (iblk5 V c 1 t) _ _ ((dat5 V c).before 3 t dq) ((dat5 V c).before 4 t dr) Set.univ _ _ _ _ _
        (.inr ⟨hF, rfl, rfl⟩) (.inl ⟨(hcondL5 t).mpr hL, rfl, rfl⟩))
      iframe Ha Hb Hq Hr Hu Hv
      isplitl [Hp]; · iexists _; iexact Hp
      iintro ⟨Ha, Hb, Hp, Hq, Hr, Hu, Hv⟩
      iframe
    · rw [Dat.leavesExact_idle _ 3 t (idle5 t 3 (by decide) hL).1 (idle5 t 3 (by decide) hL).2,
        Dat.leavesExact_idle _ 4 t (idle5 t 4 (by decide) hL).1 (idle5 t 4 (by decide) hL).2]
      dsimp only [PhiN5]
      iintro ⟨⟨⟨⟨Hu, Hv⟩, HR⟩, Hg⟩, Ho, ⟨%da, Ha⟩, ⟨%db, Hb⟩, ⟨%dp, Hp⟩, ⟨%dq, Hq⟩, ⟨%dr, Hr⟩⟩
      iapply (run5 c (grid5.coords t) (iblk5 V c 0 t) (iblk5 V c 1 t) _ _ ((dat5 V c).before 3 t dq) ((dat5 V c).before 4 t dr) Set.univ _ _ _ _ _
        (.inr ⟨hF, rfl, rfl⟩) (.inr ⟨fun k => hL ((hcondL5 t).mp k), rfl, rfl⟩))
      iframe Ha Hb Hq Hr Hu Hv
      isplitl [Hp]; · iexists _; iexact Hp
      iintro ⟨Ha, Hb, Hp, Hq, Hr, Hu, Hv⟩
      iframe Ha Hb Hp Hu Hv HR Hg Ho
      isplitl [Hq] <;> iexists _ <;> iassumption

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := Idealize.SL.BI.Entails.refl _

/-- After the last tile the running sums' contents are forgotten. -/
theorem hout5 (c : Dev nD) : (dat5 V c).Φ (Fin.last cfg5.N) ⊢ (Pipeline.ΦA spec5 c : sProp 𝕄) := by
  rw [show (dat5 V c).Φ (Fin.last cfg5.N) = PhiS5 V c (Fin.last cfg5.N).val (Nat.le_of_lt_succ (Fin.last cfg5.N).isLt) from rfl,
    PhiS5_pos V c _ _ (by rw [Fin.val_last, show cfg5.N = 10 from N_5]; decide), PhiA5_eq]
  iintro ⟨⟨⟨Hu, Hv⟩, HR⟩, Hg⟩
  iframe HR Hg
  isplitl [Hu] <;> iexists _ <;> iassumption

end Cert.Kernel.Reg
end
-- ==== Proof.K.R06.lean ====
import proofs.«408439_j66932770341395_1_alg».proof.Proof.Gen.Kernel.Launch
import proofs.«408439_j66932770341395_1_alg».proof.Proof.Gen.Kernel.Skeleton
import proofs.«408439_j66932770341395_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S5000x128 := Rect.unit (s := S5000x128) ![0, 0] S5000x128.size inb_S5000x128_S5000x128_0_0
abbrev r6_1 : Rect S1x128 := Rect.unit (s := S1x128) ![0, 0] S1x128.size inb_S1x128_S1x128_0_0

def out6_5 (x : Vec F S5000x128 .f32) (y z s r : Vec F S1x128 .f32) : Vec F S5000x128 .f32 :=
  View.canon [⟨r6_0, k6_pay1 (View.ld x r6_0) (View.ld z r6_1) (View.ld y r6_1) (View.ld s r6_1) (View.ld r r6_1)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_5 (c : Dev nD) (t : Fin cfg6.N) : (dat6 V c).after 5 t
    = out6_5 (iblk6 V c 0 t) (iblk6 V c 1 t) (iblk6 V c 2 t) (iblk6 V c 3 t) (iblk6 V c 4 t) := by dsimp only [dat6]

theorem before6_in (c : Dev nD) (w : Fin cfg6.W) (hw : w.val < 5 := by decide) (t : Fin cfg6.N) (d) :
    (dat6 V c).before w t d = (dat6 V c).after w t :=
  match w with
  | ⟨0, _⟩ | ⟨1, _⟩ | ⟨2, _⟩ | ⟨3, _⟩ | ⟨4, _⟩ =>
    ((dat6 V c).before_in_eq_fetched _ rfl (fun _ => rfl) (fun _ _ _ => rfl) (fun _ => rfl) t d).trans rfl
  | ⟨5, _⟩ => absurd hw (Nat.lt_irrefl 5)

set_option maxHeartbeats 1000000 in
theorem sound_kernel6 (c : Dev nD) {E : Set ℕ} {i : grid6.Coords}
    {a : Memref sig .tc .vmem S5000x128 .f32} {ha : a.IsWhole} {b : Memref sig .tc .vmem S1x128 .f32} {hb : b.IsWhole}
    {u : Memref sig .tc .vmem S1x128 .f32} {hu : u.IsWhole} {v : Memref sig .tc .vmem S1x128 .f32} {hv : v.IsWhole}
    {p : Memref sig .tc .vmem S1x128 .f32} {hp : p.IsWhole} {o : Memref sig .tc .vmem S5000x128 .f32} {ho : o.IsWhole}
    {x e : Vec F S5000x128 .f32} {y z s r : Vec F S1x128 .f32} {K : PUnit → sProp 𝕄} :
    iprop(owns c a fullShare x ∗ owns c b fullShare y ∗ owns c u fullShare z ∗ owns c v fullShare s ∗ owns c p fullShare r
        ∗ owns c o fullShare e
        ∗ (owns c a fullShare x ∗ owns c b fullShare y ∗ owns c u fullShare z ∗ owns c v fullShare s ∗ owns c p fullShare r
            ∗ owns c o fullShare (out6_5 x y z s r) -∗ K ⟨⟩))
      ⊢ wp frame (wpE (defs₀ (F := F)) Variants.none c none) E (cc6__bn_relu_kernel i a ha b hb u hu v hv p hp o ho) K := by
  simp only [cc6__bn_relu_kernel_eq_skeleton]; unfold cc6__bn_relu_kernel_skel owns
  iintro ⟨⟨%f, %hf, Hx⟩, ⟨%g, %hg, Hy⟩, ⟨%h, %hh, Hz⟩, ⟨%j, %hj, Hs⟩, ⟨%l, %hl, Hr⟩, ⟨%k, -, He⟩, Hk⟩
  subst hf hg hh hj hl
  sl_exec
  sl_step
  iapply Hk
  isplitl [Hx]
  · iexists f; isplitr; · ipureintro; rfl
    iexact Hx
  isplitl [Hy]
  · iexists g; isplitr; · ipureintro; rfl
    iexact Hy
  isplitl [Hz]
  · iexists h; isplitr; · ipureintro; rfl
    iexact Hz
  isplitl [Hs]
  · iexists j; isplitr; · ipureintro; rfl
    iexact Hs
  isplitl [Hr]
  · iexists l; isplitr; · ipureintro; rfl
    iexact Hr
  iexists _; isplitr
  swap; · iexact He
  ipureintro
  exact View.read_writes_eq_canon _ _ _ (View.cover_of_tiled _ S5000x128.size (by rfl))

theorem body_obligation6 (c : Dev nD) : BodyObligation (dat6 (F := F) V c) (defs₀ (F := F)) Variants.none () Set.univ := fun t => by
  rw [bigSep_W6, bigSep_W6]
  simp only [before6_in V c 0, before6_in V c 1, before6_in V c 2, before6_in V c 3, before6_in V c 4]
  rw [show (dat6 V c).Φ t.succ = (dat6 V c).Φ t.castSucc from rfl,
    show (dat6 V c).owesAt () t.succ = (dat6 V c).owesAt () t.castSucc from rfl,
    show (dat6 V c).after 5 t = out6_5 ((dat6 V c).after 0 t) ((dat6 V c).after 1 t) ((dat6 V c).after 2 t)
      ((dat6 V c).after 3 t) ((dat6 V c).after 4 t) from by dsimp only [dat6]]
  show _ ⊢ wp _ _ _ (bodyAt6 t) _
  iintro ⟨HΦ, Ho, ⟨%d, Hx⟩, ⟨%d, Hy⟩, ⟨%d, Hz⟩, ⟨%d, Hs⟩, ⟨%d, Hr⟩, ⟨%d, He⟩⟩
  iapply (sound_kernel6 c)
  iframe Hx Hy Hz Hs Hr He
  iintro ⟨Hx, Hy, Hz, Hs, Hr, He⟩
  iframe

theorem hin6 (c : Dev nD) : (Pipeline.ΦA spec6 c : sProp 𝕄) ⊢ (dat6 V c).Φ 0 := .rfl
theorem hout6 (c : Dev nD) : (dat6 V c).Φ (Fin.last cfg6.N) ⊢ (Pipeline.ΦA spec6 c : sProp 𝕄) := .rfl

end Cert.Kernel.Reg
end
-- ==== Proof.K.R07.lean ====
import proofs.«408439_j66932770341395_1_alg».proof.Proof.Gen.Kernel.Launch
import proofs.«408439_j66932770341395_1_alg».proof.Proof.Gen.Kernel.Skeleton
import proofs.«408439_j66932770341395_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S5000x128 := Rect.unit (s := S5000x128) ![0, 0] S5000x128.size inb_S5000x128_S5000x128_0_0
abbrev r7_1 : Rect S128x128 := Rect.unit (s := S128x128) ![0, 0] S128x128.size inb_S128x128_S128x128_0_0
abbrev r7_2 : Rect S1x128 := Rect.unit (s := S1x128) ![0, 0] S1x128.size inb_S1x128_S1x128_0_0

def out7_3 (x : Vec F S5000x128 .f32) (y : Vec F S128x128 .f32) (z : Vec F S1x128 .f32) : Vec F S5000x128 .f32 :=
  View.canon [⟨r7_0, k7_pay1 (View.ld x r7_0) (View.ld y r7_1) (View.ld z r7_2)⟩]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_3 (c : Dev nD) (t : Fin cfg7.N) :
    (dat7 V c).after 3 t = out7_3 (iblk7 V c 0 t) (iblk7 V c 1 t) (iblk7 V c 2 t) := by dsimp only [dat7]

theorem before7_in (c : Dev nD) (w : Fin cfg7.W) (hw : w.val < 3 := by decide) (t : Fin cfg7.N) (d) :
    (dat7 V c).before w t d = (dat7 V c).after w t :=
  match w with
  | ⟨0, _⟩ | ⟨1, _⟩ | ⟨2, _⟩ =>
    ((dat7 V c).before_in_eq_fetched _ rfl (fun _ => rfl) (fun _ _ _ => rfl) (fun _ => rfl) t d).trans rfl
  | ⟨3, _⟩ => absurd hw (Nat.lt_irrefl 3)

set_option maxHeartbeats 4000000 in
theorem sound_kernel7 (c : Dev nD) {E : Set ℕ} {i : grid7.Coords}
    {a : Memref sig .tc .vmem S5000x128 .f32} {ha : a.IsWhole} {b : Memref sig .tc .vmem S128x128 .f32} {hb : b.IsWhole}
    {u : Memref sig .tc .vmem S1x128 .f32} {hu : u.IsWhole} {v : Memref sig .tc .vmem S5000x128 .f32} {hv : v.IsWhole}
    {x s : Vec F S5000x128 .f32} {y : Vec F S128x128 .f32} {z : Vec F S1x128 .f32} {K : PUnit → sProp 𝕄} :
    iprop(owns c a fullShare x ∗ owns c b fullShare y ∗ owns c u fullShare z ∗ owns c v fullShare s
        ∗ (owns c a fullShare x ∗ owns c b fullShare y ∗ owns c u fullShare z ∗ owns c v fullShare (out7_3 x y z) -∗ K ⟨⟩))
      ⊢ wp frame (wpE (defs₀ (F := F)) Variants.none c none) E (cc7__linear_kernel i a ha b hb u hu v hv) K := by
  simp only [cc7__linear_kernel_eq_skeleton]; unfold cc7__linear_kernel_skel owns
  iintro ⟨⟨%f, %hf, Hx⟩, ⟨%g, %hg, Hy⟩, ⟨%h, %hh, Hz⟩, ⟨%k, -, Hv⟩, Hk⟩
  subst hf hg hh
  sl_exec
  sl_step
  iapply Hk
  isplitl [Hx]
  · iexists f; isplitr; · ipureintro; rfl
    iexact Hx
  isplitl [Hy]
  · iexists g; isplitr; · ipureintro; rfl
    iexact Hy
  isplitl [Hz]
  · iexists h; isplitr; · ipureintro; rfl
    iexact Hz
  iexists _; isplitr
  swap; · iexact Hv
  ipureintro
  exact View.read_writes_eq_canon _ _ _ (View.cover_of_tiled _ S5000x128.size (by rfl))

theorem body_obligation7 (c : Dev nD) : BodyObligation (dat7 (F := F) V c) (defs₀ (F := F)) Variants.none () Set.univ := fun t => by
  rw [bigSep_W7, bigSep_W7]
  simp only [before7_in V c 0, before7_in V c 1, before7_in V c 2]
  rw [show (dat7 V c).Φ t.succ = (dat7 V c).Φ t.castSucc from rfl,
    show (dat7 V c).owesAt () t.succ = (dat7 V c).owesAt () t.castSucc from rfl,
    show (dat7 V c).after 3 t = out7_3 ((dat7 V c).after 0 t) ((dat7 V c).after 1 t) ((dat7 V c).after 2 t) from by dsimp only [dat7]]
  show _ ⊢ wp _ _ _ (bodyAt7 t) _
  iintro ⟨HΦ, Ho, ⟨%d, Hx⟩, ⟨%d, Hy⟩, ⟨%d, Hz⟩, ⟨%d, Hv⟩⟩
  iapply (sound_kernel7 c)
  iframe Hx Hy Hz Hv
  iintro ⟨Hx, Hy, Hz, Hv⟩
  iframe

theorem hin7 (c : Dev nD) : (Pipeline.ΦA spec7 c : sProp 𝕄) ⊢ (dat7 V c).Φ 0 := .rfl
theorem hout7 (c : Dev nD) : (dat7 V c).Φ (Fin.last cfg7.N) ⊢ (Pipeline.ΦA spec7 c : sProp 𝕄) := .rfl

end Cert.Kernel.Reg
end
-- ==== Proof.K.R08.lean ====
import proofs.«408439_j66932770341395_1_alg».proof.Proof.Gen.Kernel.Launch
import proofs.«408439_j66932770341395_1_alg».proof.Proof.Gen.Kernel.Skeleton
import proofs.«408439_j66932770341395_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

noncomputable abbrev condF8 (i : grid8.Coords) : Prop := (Scalar.cmpi .ne (Scalar.extui (Scalar.cmpi .eq (BitVec.ofNat 32 (i 0).val) 0#32)) 0#32) = 1#1
noncomputable abbrev condL8 (i : grid8.Coords) : Prop := k8_cond2 i = 1#1
theorem hcondF8 : ∀ t : Fin cfg8.N, condF8 (grid8.coords t) ↔ t.val = 0 :=
  (by decide +kernel : ∀ t : Fin grid8.N, condF8 (grid8.coords t) ↔ t.val = 0)
theorem hcondL8 : ∀ t : Fin cfg8.N, condL8 (grid8.coords t) ↔ t.val = 9 :=
  (by decide +kernel : ∀ t : Fin grid8.N, condL8 (grid8.coords t) ↔ t.val = 9)
theorem live8 : ∀ (t : Fin cfg8.N) (w : Fin cfg8.W), w.val < 3 ∨ t.val = 9 → cfg8.idle w (grid8.coords t) = false := by decide +kernel
theorem idle8 : ∀ (t : Fin cfg8.N) (w : Fin cfg8.W), 3 ≤ w.val → t.val ≠ 9 → cfg8.idle w (grid8.coords t) = true ∧ (cfg8.win w).flush t = false := by decide +kernel

theorem hzero8 : (![0, 0] : Fin 2 → Nat) = fun _ => 0 := funext fun a => by fin_cases a <;> rfl
noncomputable abbrev rT8 : Rect S5000x128 := Rect.unit (s := S5000x128) ![0, 0] S5000x128.size inb_S5000x128_S5000x128_0_0
noncomputable abbrev rR8 : Rect S1x128 := Rect.unit (s := S1x128) ![0, 0] S1x128.size inb_S1x128_S1x128_0_0

noncomputable def out8_2 (x : Vec F S5000x128 .f32) (y : Vec F S1x128 .f32) : Vec F S5000x128 .f32 :=
  View.canon [⟨rT8, k8_pay3 (View.ld x rT8) (View.ld y rR8)⟩]
noncomputable def acc8_0 (x : Vec F S5000x128 .f32) (y s : Vec F S1x128 .f32) : Vec F S1x128 .f32 :=
  View.canon [⟨rR8, k8_pay4 (View.ld x rT8) (View.ld y rR8) (View.ld s rR8)⟩]
noncomputable def acc8_1 (x : Vec F S5000x128 .f32) (y s : Vec F S1x128 .f32) : Vec F S1x128 .f32 :=
  View.canon [⟨rR8, k8_pay5 (View.ld x rT8) (View.ld y rR8) (View.ld s rR8)⟩]
noncomputable def zero8_0 : Vec F S1x128 .f32 := View.canon [⟨rR8, k8_pay1 (F := F)⟩]
noncomputable def zero8_1 : Vec F S1x128 .f32 := View.canon [⟨rR8, k8_pay2 (F := F)⟩]

theorem out8_2_eq (x : Vec F S5000x128 .f32) (y : Vec F S1x128 .f32) : out8_2 x y = k8_pay3 x y := by
  unfold out8_2; rw [View.canon_unit_zero hzero8, View.ld_unit_zero (S := S5000x128) hzero8, View.ld_unit_zero (S := S1x128) hzero8]
theorem acc8_0_eq (x : Vec F S5000x128 .f32) (y s : Vec F S1x128 .f32) : acc8_0 x y s = k8_pay4 x y s := by
  unfold acc8_0; rw [View.canon_unit_zero hzero8, View.ld_unit_zero (S := S5000x128) hzero8, View.ld_unit_zero (S := S1x128) hzero8, View.ld_unit_zero (S := S1x128) hzero8]
theorem acc8_1_eq (x : Vec F S5000x128 .f32) (y s : Vec F S1x128 .f32) : acc8_1 x y s = k8_pay5 x y s := by
  unfold acc8_1; rw [View.canon_unit_zero hzero8, View.ld_unit_zero (S := S5000x128) hzero8, View.ld_unit_zero (S := S1x128) hzero8, View.ld_unit_zero (S := S1x128) hzero8]
theorem zero8_0_eq : (zero8_0 : Vec F S1x128 .f32) = k8_pay1 := View.canon_unit_zero hzero8 _ _
theorem zero8_1_eq : (zero8_1 : Vec F S1x128 .f32) = k8_pay2 := View.canon_unit_zero hzero8 _ _

/-- A buffer whose last store covers it whole reads that store's payload. -/
theorem rd8 {S : Shape} {κ : Kind} {sp : Space} (v : View sig κ sp S .f32) (f : v.ty.Contents (Elt F)) {off : Fin S.rank → Nat} (h : off = fun _ => 0)
    (inb : ∀ a, off a + S.size a ≤ S.size a) (w : S.Idx → Elt F .f32) (L : List (View.Piece (Elt F) S .f32)) :
    v.read (Elt F) (v.writes (Elt F) f (⟨Rect.unit off S.size inb, w⟩ :: L)) = w :=
  (View.read_writes_eq_canon v f _ fun y => ⟨_, List.mem_cons_self, View.mem_set_unit_zero h inb y⟩).trans (View.canon_cons_unit_zero h inb w L)

section
variable (c : Dev nD) (i : grid8.Coords) {a p : Memref sig .tc .vmem S5000x128 .f32} {b q r u v : Memref sig .tc .vmem S1x128 .f32}
  {ha : a.IsWhole} {hb : b.IsWhole} {hp : p.IsWhole} {hq : q.IsWhole} {hr : r.IsWhole} {hu : u.IsWhole} {hv : v.IsWhole}
  (x : Vec F S5000x128 .f32) (y s z e w : Vec F S1x128 .f32) (E : Set ℕ) (K : PUnit → sProp (MT nD τ sig Unit (Elt F) ℕ (UR sig nD τ) ℕ))

set_option maxHeartbeats 4000000 in
/-- One tile: the running sums restart from zero at the first tile, the tile is stored and added to both, and at the last tile both are copied out. -/
theorem run8 (s' z' e' w' : Vec F S1x128 .f32)
    (hs : condF8 i ∧ ¬condL8 i ∧ s' = zero8_0 ∧ z' = zero8_1 ∨ ¬condF8 i ∧ s' = s ∧ z' = z)
    (he : condL8 i ∧ e' = acc8_0 x y s' ∧ w' = acc8_1 x y z' ∨ ¬condL8 i ∧ e' = e ∧ w' = w) :
    iprop(owns (c : Thread nD τ) a fullShare x ∗ owns (c : Thread nD τ) b fullShare y ∗ (∃ d, owns (c : Thread nD τ) p fullShare d) ∗ owns (c : Thread nD τ) q fullShare e ∗ owns (c : Thread nD τ) r fullShare w ∗ owns (c : Thread nD τ) u fullShare s ∗ owns (c : Thread nD τ) v fullShare z
        ∗ (iprop(owns (c : Thread nD τ) a fullShare x ∗ owns (c : Thread nD τ) b fullShare y ∗ owns (c : Thread nD τ) p fullShare (out8_2 x y) ∗ owns (c : Thread nD τ) q fullShare e' ∗ owns (c : Thread nD τ) r fullShare w'
            ∗ owns (c : Thread nD τ) u fullShare (acc8_0 x y s') ∗ owns (c : Thread nD τ) v fullShare (acc8_1 x y z')) -∗ K ⟨⟩))
      ⊢ wp frame (wpE (defs₀ (F := F)) Variants.none c none) E (cc8__stats_bias_kernel i a ha b hb p hp q hq r hr u hu v hv) K := by
  simp only [cc8__stats_bias_kernel_eq_skeleton]; unfold cc8__stats_bias_kernel_skel owns
  rcases hs with ⟨hc, hn, rfl, rfl⟩ | ⟨hc, rfl, rfl⟩ <;> rcases he with ⟨hd, rfl, rfl⟩ | ⟨hd, rfl, rfl⟩ <;> first | exact absurd hd hn | skip
  all_goals
    iintro ⟨⟨%fa, %ea, Ha⟩, ⟨%fb, %eb, Hb⟩, ⟨%d, %fp, -, Hp⟩, ⟨%fq, %eq, Hq⟩, ⟨%fr, %er, Hr⟩, ⟨%fu, %eu, Hu⟩, ⟨%fv, %ev, Hv⟩, Hk⟩
    subst ea eb eq er eu ev
    sl_exec (disch := first | exact hc | exact hd)
    sl_step
    iapply Hk
    isplitl [Ha]; iexists _; isplitr; rotate_left; iexact Ha
    isplitl [Hb]; iexists _; isplitr; rotate_left; iexact Hb
    isplitl [Hp]; iexists _; isplitr; rotate_left; iexact Hp
    isplitl [Hq]; iexists _; isplitr; rotate_left; iexact Hq
    isplitl [Hr]; iexists _; isplitr; rotate_left; iexact Hr
    isplitl [Hu]; iexists _; isplitr; rotate_left; iexact Hu
    iexists _; isplitr; rotate_left; iexact Hv
    all_goals
      ipureintro
      first
      | with_reducible rfl
      | (try sl_unfold_words)
        simp only [rd8 (S := S5000x128) _ _ hzero8, rd8 (S := S1x128) _ _ hzero8, out8_2_eq, acc8_0_eq, acc8_1_eq, zero8_0_eq, zero8_1_eq, View.readAt_eq_ld,
          View.ld_unit_zero (S := S5000x128) hzero8, View.ld_unit_zero (S := S1x128) hzero8, View.readCov_unit_zero (S := S1x128) _ hzero8]

end

noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

noncomputable def sAt8 (c : Dev nD) : (n : ℕ) → n < cfg8.N → Vec F S1x128 .f32 × Vec F S1x128 .f32
  | 0, hn => (acc8_0 (iblk8 V c 0 ⟨0, hn⟩) (iblk8 V c 1 ⟨0, hn⟩) zero8_0, acc8_1 (iblk8 V c 0 ⟨0, hn⟩) (iblk8 V c 1 ⟨0, hn⟩) zero8_1)
  | n + 1, hn => (acc8_0 (iblk8 V c 0 ⟨n + 1, hn⟩) (iblk8 V c 1 ⟨n + 1, hn⟩) (sAt8 c n (Nat.lt_of_succ_lt hn)).1,
      acc8_1 (iblk8 V c 0 ⟨n + 1, hn⟩) (iblk8 V c 1 ⟨n + 1, hn⟩) (sAt8 c n (Nat.lt_of_succ_lt hn)).2)

theorem sAt8_zero (c : Dev nD) (t : Fin cfg8.N) (h : t.val = 0) :
    sAt8 V c t.val t.isLt = (acc8_0 (iblk8 V c 0 t) (iblk8 V c 1 t) zero8_0, acc8_1 (iblk8 V c 0 t) (iblk8 V c 1 t) zero8_1) := by
  obtain ⟨_ | n, hn⟩ := t
  · rfl
  · exact absurd h (Nat.succ_ne_zero n)

theorem sAt8_pos (c : Dev nD) (t : Fin cfg8.N) (h : t.val ≠ 0) :
    sAt8 V c t.val t.isLt = (acc8_0 (iblk8 V c 0 t) (iblk8 V c 1 t) (sAt8 V c (t.val - 1) (Nat.lt_of_le_of_lt (Nat.sub_le _ _) t.isLt)).1,
      acc8_1 (iblk8 V c 0 t) (iblk8 V c 1 t) (sAt8 V c (t.val - 1) (Nat.lt_of_le_of_lt (Nat.sub_le _ _) t.isLt)).2) := by
  obtain ⟨_ | n, hn⟩ := t
  · exact absurd rfl h
  · rfl

noncomputable abbrev scM8_0 : Memref sig .tc .vmem S1x128 .f32 := Memref.whole cc8_scratch0
noncomputable abbrev scM8_1 : Memref sig .tc .vmem S1x128 .f32 := Memref.whole cc8_scratch1

/-- The region's own buffers with the two running sums at given contents. -/
noncomputable abbrev PhiN8 (c : Dev nD) (s z : Vec F S1x128 .f32) : sProp 𝕄 :=
  iprop(iprop(iprop(owns (c : Thread nD τ) scM8_0 fullShare s ∗ owns (c : Thread nD τ) scM8_1 fullShare z)
    ∗ Pipeline.scopedRestBut spec8 c [cc8_scratch0, cc8_scratch1]) ∗ (∃ r, prngReg c r))

theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d))
          ∗ Pipeline.scopedRestBut spec8 c [cc8_scratch0, cc8_scratch1]) ∗ (∃ r, prngReg c r)) := by
  unfold Pipeline.ΦA; rw [scopedRest8_split]; simp only [scM8_0, scM8_1, owns_whole]; try rfl

noncomputable def PhiS8 (c : Dev nD) : (n : ℕ) → n ≤ cfg8.N → sProp 𝕄
  | 0, _ => Pipeline.ΦA spec8 c
  | n + 1, hn => PhiN8 c (sAt8 V c n hn).1 (sAt8 V c n hn).2

theorem PhiS8_zero (c : Dev nD) (n : ℕ) (h : n ≤ cfg8.N) (hz : n = 0) : PhiS8 V c n h = Pipeline.ΦA spec8 c := by
  subst hz; rfl

theorem PhiS8_pos (c : Dev nD) (n : ℕ) (h : n ≤ cfg8.N) (hz : n ≠ 0) :
    PhiS8 V c n h = PhiN8 c (sAt8 V c (n - 1) (by omega)).1 (sAt8 V c (n - 1) (by omega)).2 := by
  cases n with
  | zero => exact absurd rfl hz
  | succ n => rfl

noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
    | ⟨3, _⟩ => (sAt8 V c t.val t.isLt).1
    | ⟨4, _⟩ => (sAt8 V c t.val t.isLt).2
  Φ t := PhiS8 V c t.val (Nat.le_of_lt_succ t.isLt)
  q _ := fullShare
  owed _ := 0

theorem A_eq8 (c : Dev nD) (w : Fin cfg8.W) : (dat8 V c).A w = V c (Pipeline.arrRef spec8 w) := rfl

theorem after8_2 (c : Dev nD) (t : Fin cfg8.N) : (dat8 V c).after 2 t = out8_2 (iblk8 V c 0 t) (iblk8 V c 1 t) := by dsimp only [dat8]
theorem after8_3_last (c : Dev nD) (t : Fin cfg8.N) (h : t.val = 9) : (dat8 V c).after 3 t = (sAt8 V c 9 (by rw [show cfg8.N = 10 from N_8]; decide)).1 := by
  obtain ⟨n, hn⟩ := t; obtain rfl : n = 9 := h; rfl
theorem after8_4_last (c : Dev nD) (t : Fin cfg8.N) (h : t.val = 9) : (dat8 V c).after 4 t = (sAt8 V c 9 (by rw [show cfg8.N = 10 from N_8]; decide)).2 := by
  obtain ⟨n, hn⟩ := t; obtain rfl : n = 9 := h; rfl

theorem before8_0 (c : Dev nD) (t : Fin cfg8.N) (d) : (dat8 V c).before 0 t d = iblk8 V c 0 t :=
  ((dat8 V c).before_in_eq_fetched 0 rfl (fun _ => rfl) (fun _ _ _ => rfl) (fun _ => rfl) t d).trans rfl
theorem before8_1 (c : Dev nD) (t : Fin cfg8.N) (d) : (dat8 V c).before 1 t d = iblk8 V c 1 t :=
  ((dat8 V c).before_in_eq_fetched 1 rfl (fun _ => rfl) (fun _ _ _ => rfl) (fun _ => rfl) t d).trans rfl

theorem lvA8 {c : Dev nD} (D : Dat τ (Elt F) Unit ℕ (UR sig nD τ) ℕ cfg8 c) {w : Fin cfg8.W} {t : Fin cfg8.N} (h : cfg8.idle w (grid8.coords t) = false) :
    D.leavesExact w t = owns (c : Thread nD τ) ((cfg8.win w).stage (cfg8.slots t w)) fullShare (D.after w t) := by
  unfold Dat.leavesExact; rw [h]

theorem sound_body8 (c : Dev nD) (t : Fin cfg8.N) :
    iprop((dat8 V c).Φ t.castSucc ∗ (dat8 V c).owesAt () t.castSucc
      ∗ (∃ d, owns (c : Thread nD τ) (win8_0.stage (cfg8.slots t 0)) fullShare ((dat8 V c).before 0 t d))
      ∗ (∃ d, owns (c : Thread nD τ) (win8_1.stage (cfg8.slots t 1)) fullShare ((dat8 V c).before 1 t d))
      ∗ (∃ d, owns (c : Thread nD τ) (win8_2.stage (cfg8.slots t 2)) fullShare ((dat8 V c).before 2 t d))
      ∗ (∃ d, owns (c : Thread nD τ) (win8_3.stage (cfg8.slots t 3)) fullShare ((dat8 V c).before 3 t d))
      ∗ (∃ d, owns (c : Thread nD τ) (win8_4.stage (cfg8.slots t 4)) fullShare ((dat8 V c).before 4 t d)))
    ⊢ wp frame (wpE (defs₀ (F := F)) Variants.none c none) Set.univ (bodyAt8 t) (fun _ => iprop((dat8 V c).Φ t.succ ∗ (dat8 V c).owesAt () t.succ
      ∗ (dat8 V c).leavesExact 0 t ∗ (dat8 V c).leavesExact 1 t ∗ (dat8 V c).leavesExact 2 t ∗ (dat8 V c).leavesExact 3 t ∗ (dat8 V c).leavesExact 4 t)) := by
  unfold bodyAt8
  simp only [before8_0, before8_1]
  rw [show (dat8 V c).owesAt () t.succ = (dat8 V c).owesAt () t.castSucc from rfl,
    show (dat8 V c).Φ t.succ = PhiN8 c (sAt8 V c t.val t.isLt).1 (sAt8 V c t.val t.isLt).2 from rfl,
    show (dat8 V c).Φ t.castSucc = PhiS8 V c t.val (Nat.le_of_lt t.isLt) from rfl,
    lvA8 _ (live8 t 0 (.inl (by decide))), lvA8 _ (live8 t 1 (.inl (by decide))), lvA8 _ (live8 t 2 (.inl (by decide))), after8_2,
    show (dat8 V c).after 0 t = iblk8 V c 0 t from rfl, show (dat8 V c).after 1 t = iblk8 V c 1 t from rfl]
  by_cases hz : t.val = 0
  · have hL : t.val ≠ 9 := by omega
    rw [Dat.leavesExact_idle _ 3 t (idle8 t 3 (by decide) hL).1 (idle8 t 3 (by decide) hL).2,
      Dat.leavesExact_idle _ 4 t (idle8 t 4 (by decide) hL).1 (idle8 t 4 (by decide) hL).2,
      sAt8_zero V c t hz, PhiS8_zero V c _ _ hz, PhiA8_eq]
    dsimp only [PhiN8]
    iintro ⟨⟨⟨⟨⟨%s, Hu⟩, ⟨%z, Hv⟩⟩, HR⟩, Hg⟩, Ho, ⟨%da, Ha⟩, ⟨%db, Hb⟩, ⟨%dp, Hp⟩, ⟨%dq, Hq⟩, ⟨%dr, Hr⟩⟩
    iapply (run8 c (grid8.coords t) (iblk8 V c 0 t) (iblk8 V c 1 t) s z ((dat8 V c).before 3 t dq) ((dat8 V c).before 4 t dr) Set.univ _ _ _ _ _
      (.inl ⟨(hcondF8 t).mpr hz, fun k => hL ((hcondL8 t).mp k), rfl, rfl⟩) (.inr ⟨fun k => hL ((hcondL8 t).mp k), rfl, rfl⟩))
    iframe Ha Hb Hq Hr Hu Hv
    isplitl [Hp]; · iexists _; iexact Hp
    iintro ⟨Ha, Hb, Hp, Hq, Hr, Hu, Hv⟩
    iframe Ha Hb Hp Hu Hv HR Hg Ho
    isplitl [Hq] <;> iexists _ <;> iassumption
  · have hF : ¬condF8 (grid8.coords t) := fun k => hz ((hcondF8 t).mp k)
    rw [PhiS8_pos V c _ _ hz, sAt8_pos V c t hz]
    by_cases hL : t.val = 9
    · rw [lvA8 _ (live8 t 3 (.inr hL)), lvA8 _ (live8 t 4 (.inr hL)), show (dat8 V c).after 3 t = (sAt8 V c t.val t.isLt).1 from rfl,
        show (dat8 V c).after 4 t = (sAt8 V c t.val t.isLt).2 from rfl, sAt8_pos V c t hz]
      dsimp only [PhiN8]
      iintro ⟨⟨⟨⟨Hu, Hv⟩, HR⟩, Hg⟩, Ho, ⟨%da, Ha⟩, ⟨%db, Hb⟩, ⟨%dp, Hp⟩, ⟨%dq, Hq⟩, ⟨%dr, Hr⟩⟩
      iapply (run8 c (grid8.coords t) (iblk8 V c 0 t) (iblk8 V c 1 t) _ _ ((dat8 V c).before 3 t dq) ((dat8 V c).before 4 t dr) Set.univ _ _ _ _ _
        (.inr ⟨hF, rfl, rfl⟩) (.inl ⟨(hcondL8 t).mpr hL, rfl, rfl⟩))
      iframe Ha Hb Hq Hr Hu Hv
      isplitl [Hp]; · iexists _; iexact Hp
      iintro ⟨Ha, Hb, Hp, Hq, Hr, Hu, Hv⟩
      iframe
    · rw [Dat.leavesExact_idle _ 3 t (idle8 t 3 (by decide) hL).1 (idle8 t 3 (by decide) hL).2,
        Dat.leavesExact_idle _ 4 t (idle8 t 4 (by decide) hL).1 (idle8 t 4 (by decide) hL).2]
      dsimp only [PhiN8]
      iintro ⟨⟨⟨⟨Hu, Hv⟩, HR⟩, Hg⟩, Ho, ⟨%da, Ha⟩, ⟨%db, Hb⟩, ⟨%dp, Hp⟩, ⟨%dq, Hq⟩, ⟨%dr, Hr⟩⟩
      iapply (run8 c (grid8.coords t) (iblk8 V c 0 t) (iblk8 V c 1 t) _ _ ((dat8 V c).before 3 t dq) ((dat8 V c).before 4 t dr) Set.univ _ _ _ _ _
        (.inr ⟨hF, rfl, rfl⟩) (.inr ⟨fun k => hL ((hcondL8 t).mp k), rfl, rfl⟩))
      iframe Ha Hb Hq Hr Hu Hv
      isplitl [Hp]; · iexists _; iexact Hp
      iintro ⟨Ha, Hb, Hp, Hq, Hr, Hu, Hv⟩
      iframe Ha Hb Hp Hu Hv HR Hg Ho
      isplitl [Hq] <;> iexists _ <;> iassumption

theorem body_obligation8 (c : Dev nD) : BodyObligation (dat8 (F := F) V c) (defs₀ (F := F)) Variants.none () Set.univ := fun t => by
  rw [bigSep_W8, bigSep_W8]
  exact sound_body8 V c t

theorem hin8 (c : Dev nD) : (Pipeline.ΦA spec8 c : sProp 𝕄) ⊢ (dat8 V c).Φ 0 := Idealize.SL.BI.Entails.refl _

/-- After the last tile the running sums' contents are forgotten. -/
theorem hout8 (c : Dev nD) : (dat8 V c).Φ (Fin.last cfg8.N) ⊢ (Pipeline.ΦA spec8 c : sProp 𝕄) := by
  rw [show (dat8 V c).Φ (Fin.last cfg8.N) = PhiS8 V c (Fin.last cfg8.N).val (Nat.le_of_lt_succ (Fin.last cfg8.N).isLt) from rfl,
    PhiS8_pos V c _ _ (by rw [Fin.val_last, show cfg8.N = 10 from N_8]; decide), PhiA8_eq]
  iintro ⟨⟨⟨Hu, Hv⟩, HR⟩, Hg⟩
  iframe HR Hg
  isplitl [Hu] <;> iexists _ <;> iassumption

end Cert.Kernel.Reg
end
-- ==== Proof.K.R09.lean ====
import proofs.«408439_j66932770341395_1_alg».proof.Proof.Gen.Kernel.Launch
import proofs.«408439_j66932770341395_1_alg».proof.Proof.Gen.Kernel.Skeleton
import proofs.«408439_j66932770341395_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_0 : Rect S5000x128 := Rect.unit (s := S5000x128) ![0, 0] S5000x128.size inb_S5000x128_S5000x128_0_0
abbrev r9_1 : Rect S1x128 := Rect.unit (s := S1x128) ![0, 0] S1x128.size inb_S1x128_S1x128_0_0

def out9_5 (x : Vec F S5000x128 .f32) (y z s r : Vec F S1x128 .f32) : Vec F S5000x128 .f32 :=
  View.canon [⟨r9_0, k9_pay1 (View.ld x r9_0) (View.ld z r9_1) (View.ld y r9_1) (View.ld s r9_1) (View.ld r r9_1)⟩]

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_5 (c : Dev nD) (t : Fin cfg9.N) : (dat9 V c).after 5 t
    = out9_5 (iblk9 V c 0 t) (iblk9 V c 1 t) (iblk9 V c 2 t) (iblk9 V c 3 t) (iblk9 V c 4 t) := by dsimp only [dat9]

theorem before9_in (c : Dev nD) (w : Fin cfg9.W) (hw : w.val < 5 := by decide) (t : Fin cfg9.N) (d) :
    (dat9 V c).before w t d = (dat9 V c).after w t :=
  match w with
  | ⟨0, _⟩ | ⟨1, _⟩ | ⟨2, _⟩ | ⟨3, _⟩ | ⟨4, _⟩ =>
    ((dat9 V c).before_in_eq_fetched _ rfl (fun _ => rfl) (fun _ _ _ => rfl) (fun _ => rfl) t d).trans rfl
  | ⟨5, _⟩ => absurd hw (Nat.lt_irrefl 5)

set_option maxHeartbeats 1000000 in
theorem sound_kernel9 (c : Dev nD) {E : Set ℕ} {i : grid9.Coords}
    {a : Memref sig .tc .vmem S5000x128 .f32} {ha : a.IsWhole} {b : Memref sig .tc .vmem S1x128 .f32} {hb : b.IsWhole}
    {u : Memref sig .tc .vmem S1x128 .f32} {hu : u.IsWhole} {v : Memref sig .tc .vmem S1x128 .f32} {hv : v.IsWhole}
    {p : Memref sig .tc .vmem S1x128 .f32} {hp : p.IsWhole} {o : Memref sig .tc .vmem S5000x128 .f32} {ho : o.IsWhole}
    {x e : Vec F S5000x128 .f32} {y z s r : Vec F S1x128 .f32} {K : PUnit → sProp 𝕄} :
    iprop(owns c a fullShare x ∗ owns c b fullShare y ∗ owns c u fullShare z ∗ owns c v fullShare s ∗ owns c p fullShare r
        ∗ owns c o fullShare e
        ∗ (owns c a fullShare x ∗ owns c b fullShare y ∗ owns c u fullShare z ∗ owns c v fullShare s ∗ owns c p fullShare r
            ∗ owns c o fullShare (out9_5 x y z s r) -∗ K ⟨⟩))
      ⊢ wp frame (wpE (defs₀ (F := F)) Variants.none c none) E (cc9__bn_relu_kernel i a ha b hb u hu v hv p hp o ho) K := by
  simp only [cc9__bn_relu_kernel_eq_skeleton]; unfold cc9__bn_relu_kernel_skel owns
  iintro ⟨⟨%f, %hf, Hx⟩, ⟨%g, %hg, Hy⟩, ⟨%h, %hh, Hz⟩, ⟨%j, %hj, Hs⟩, ⟨%l, %hl, Hr⟩, ⟨%k, -, He⟩, Hk⟩
  subst hf hg hh hj hl
  sl_exec
  sl_step
  iapply Hk
  isplitl [Hx]
  · iexists f; isplitr; · ipureintro; rfl
    iexact Hx
  isplitl [Hy]
  · iexists g; isplitr; · ipureintro; rfl
    iexact Hy
  isplitl [Hz]
  · iexists h; isplitr; · ipureintro; rfl
    iexact Hz
  isplitl [Hs]
  · iexists j; isplitr; · ipureintro; rfl
    iexact Hs
  isplitl [Hr]
  · iexists l; isplitr; · ipureintro; rfl
    iexact Hr
  iexists _; isplitr
  swap; · iexact He
  ipureintro
  exact View.read_writes_eq_canon _ _ _ (View.cover_of_tiled _ S5000x128.size (by rfl))

theorem body_obligation9 (c : Dev nD) : BodyObligation (dat9 (F := F) V c) (defs₀ (F := F)) Variants.none () Set.univ := fun t => by
  rw [bigSep_W9, bigSep_W9]
  simp only [before9_in V c 0, before9_in V c 1, before9_in V c 2, before9_in V c 3, before9_in V c 4]
  rw [show (dat9 V c).Φ t.succ = (dat9 V c).Φ t.castSucc from rfl,
    show (dat9 V c).owesAt () t.succ = (dat9 V c).owesAt () t.castSucc from rfl,
    show (dat9 V c).after 5 t = out9_5 ((dat9 V c).after 0 t) ((dat9 V c).after 1 t) ((dat9 V c).after 2 t)
      ((dat9 V c).after 3 t) ((dat9 V c).after 4 t) from by dsimp only [dat9]]
  show _ ⊢ wp _ _ _ (bodyAt9 t) _
  iintro ⟨HΦ, Ho, ⟨%d, Hx⟩, ⟨%d, Hy⟩, ⟨%d, Hz⟩, ⟨%d, Hs⟩, ⟨%d, Hr⟩, ⟨%d, He⟩⟩
  iapply (sound_kernel9 c)
  iframe Hx Hy Hz Hs Hr He
  iintro ⟨Hx, Hy, Hz, Hs, Hr, He⟩
  iframe

theorem hin9 (c : Dev nD) : (Pipeline.ΦA spec9 c : sProp 𝕄) ⊢ (dat9 V c).Φ 0 := .rfl
theorem hout9 (c : Dev nD) : (dat9 V c).Φ (Fin.last cfg9.N) ⊢ (Pipeline.ΦA spec9 c : sProp 𝕄) := .rfl

end Cert.Kernel.Reg
end
-- ==== Proof.K.R10.lean ====
import proofs.«408439_j66932770341395_1_alg».proof.Proof.Gen.Kernel.Launch
import proofs.«408439_j66932770341395_1_alg».proof.Proof.Gen.Kernel.Skeleton
import proofs.«408439_j66932770341395_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev r10_0 : Rect S5000x128 := Rect.unit (s := S5000x128) ![0, 0] S5000x128.size inb_S5000x128_S5000x128_0_0
abbrev r10_1 : Rect S128x128 := Rect.unit (s := S128x128) ![0, 0] S128x128.size inb_S128x128_S128x128_0_0
abbrev r10_2 : Rect S1x128 := Rect.unit (s := S1x128) ![0, 0] S1x128.size inb_S1x128_S1x128_0_0

def out10_3 (x : Vec F S5000x128 .f32) (y : Vec F S128x128 .f32) (z : Vec F S1x128 .f32) : Vec F S5000x128 .f32 :=
  View.canon [⟨r10_0, k10_pay1 (View.ld x r10_0) (View.ld y r10_1) (View.ld z r10_2)⟩]

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_3 (c : Dev nD) (t : Fin cfg10.N) :
    (dat10 V c).after 3 t = out10_3 (iblk10 V c 0 t) (iblk10 V c 1 t) (iblk10 V c 2 t) := by dsimp only [dat10]

theorem before10_in (c : Dev nD) (w : Fin cfg10.W) (hw : w.val < 3 := by decide) (t : Fin cfg10.N) (d) :
    (dat10 V c).before w t d = (dat10 V c).after w t :=
  match w with
  | ⟨0, _⟩ | ⟨1, _⟩ | ⟨2, _⟩ =>
    ((dat10 V c).before_in_eq_fetched _ rfl (fun _ => rfl) (fun _ _ _ => rfl) (fun _ => rfl) t d).trans rfl
  | ⟨3, _⟩ => absurd hw (Nat.lt_irrefl 3)

set_option maxHeartbeats 4000000 in
theorem sound_kernel10 (c : Dev nD) {E : Set ℕ} {i : grid10.Coords}
    {a : Memref sig .tc .vmem S5000x128 .f32} {ha : a.IsWhole} {b : Memref sig .tc .vmem S128x128 .f32} {hb : b.IsWhole}
    {u : Memref sig .tc .vmem S1x128 .f32} {hu : u.IsWhole} {v : Memref sig .tc .vmem S5000x128 .f32} {hv : v.IsWhole}
    {x s : Vec F S5000x128 .f32} {y : Vec F S128x128 .f32} {z : Vec F S1x128 .f32} {K : PUnit → sProp 𝕄} :
    iprop(owns c a fullShare x ∗ owns c b fullShare y ∗ owns c u fullShare z ∗ owns c v fullShare s
        ∗ (owns c a fullShare x ∗ owns c b fullShare y ∗ owns c u fullShare z ∗ owns c v fullShare (out10_3 x y z) -∗ K ⟨⟩))
      ⊢ wp frame (wpE (defs₀ (F := F)) Variants.none c none) E (cc10__linear_kernel i a ha b hb u hu v hv) K := by
  simp only [cc10__linear_kernel_eq_skeleton]; unfold cc10__linear_kernel_skel owns
  iintro ⟨⟨%f, %hf, Hx⟩, ⟨%g, %hg, Hy⟩, ⟨%h, %hh, Hz⟩, ⟨%k, -, Hv⟩, Hk⟩
  subst hf hg hh
  sl_exec
  sl_step
  iapply Hk
  isplitl [Hx]
  · iexists f; isplitr; · ipureintro; rfl
    iexact Hx
  isplitl [Hy]
  · iexists g; isplitr; · ipureintro; rfl
    iexact Hy
  isplitl [Hz]
  · iexists h; isplitr; · ipureintro; rfl
    iexact Hz
  iexists _; isplitr
  swap; · iexact Hv
  ipureintro
  exact View.read_writes_eq_canon _ _ _ (View.cover_of_tiled _ S5000x128.size (by rfl))

theorem body_obligation10 (c : Dev nD) : BodyObligation (dat10 (F := F) V c) (defs₀ (F := F)) Variants.none () Set.univ := fun t => by
  rw [bigSep_W10, bigSep_W10]
  simp only [before10_in V c 0, before10_in V c 1, before10_in V c 2]
  rw [show (dat10 V c).Φ t.succ = (dat10 V c).Φ t.castSucc from rfl,
    show (dat10 V c).owesAt () t.succ = (dat10 V c).owesAt () t.castSucc from rfl,
    show (dat10 V c).after 3 t = out10_3 ((dat10 V c).after 0 t) ((dat10 V c).after 1 t) ((dat10 V c).after 2 t) from by dsimp only [dat10]]
  show _ ⊢ wp _ _ _ (bodyAt10 t) _
  iintro ⟨HΦ, Ho, ⟨%d, Hx⟩, ⟨%d, Hy⟩, ⟨%d, Hz⟩, ⟨%d, Hv⟩⟩
  iapply (sound_kernel10 c)
  iframe Hx Hy Hz Hv
  iintro ⟨Hx, Hy, Hz, Hv⟩
  iframe

theorem hin10 (c : Dev nD) : (Pipeline.ΦA spec10 c : sProp 𝕄) ⊢ (dat10 V c).Φ 0 := .rfl
theorem hout10 (c : Dev nD) : (dat10 V c).Φ (Fin.last cfg10.N) ⊢ (Pipeline.ΦA spec10 c : sProp 𝕄) := .rfl

end Cert.Kernel.Reg
end
-- ==== Proof.K.R11.lean ====
import proofs.«408439_j66932770341395_1_alg».proof.Proof.Gen.Kernel.Launch
import proofs.«408439_j66932770341395_1_alg».proof.Proof.Gen.Kernel.Skeleton
import proofs.«408439_j66932770341395_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

noncomputable abbrev condF11 (i : grid11.Coords) : Prop := (Scalar.cmpi .ne (Scalar.extui (Scalar.cmpi .eq (BitVec.ofNat 32 (i 0).val) 0#32)) 0#32) = 1#1
noncomputable abbrev condL11 (i : grid11.Coords) : Prop := k11_cond2 i = 1#1
theorem hcondF11 : ∀ t : Fin cfg11.N, condF11 (grid11.coords t) ↔ t.val = 0 :=
  (by decide +kernel : ∀ t : Fin grid11.N, condF11 (grid11.coords t) ↔ t.val = 0)
theorem hcondL11 : ∀ t : Fin cfg11.N, condL11 (grid11.coords t) ↔ t.val = 9 :=
  (by decide +kernel : ∀ t : Fin grid11.N, condL11 (grid11.coords t) ↔ t.val = 9)
theorem live11 : ∀ (t : Fin cfg11.N) (w : Fin cfg11.W), w.val < 3 ∨ t.val = 9 → cfg11.idle w (grid11.coords t) = false := by decide +kernel
theorem idle11 : ∀ (t : Fin cfg11.N) (w : Fin cfg11.W), 3 ≤ w.val → t.val ≠ 9 → cfg11.idle w (grid11.coords t) = true ∧ (cfg11.win w).flush t = false := by decide +kernel

theorem hzero11 : (![0, 0] : Fin 2 → Nat) = fun _ => 0 := funext fun a => by fin_cases a <;> rfl
noncomputable abbrev rT11 : Rect S5000x128 := Rect.unit (s := S5000x128) ![0, 0] S5000x128.size inb_S5000x128_S5000x128_0_0
noncomputable abbrev rR11 : Rect S1x128 := Rect.unit (s := S1x128) ![0, 0] S1x128.size inb_S1x128_S1x128_0_0

noncomputable def out11_2 (x : Vec F S5000x128 .f32) (y : Vec F S1x128 .f32) : Vec F S5000x128 .f32 :=
  View.canon [⟨rT11, k11_pay3 (View.ld x rT11) (View.ld y rR11)⟩]
noncomputable def acc11_0 (x : Vec F S5000x128 .f32) (y s : Vec F S1x128 .f32) : Vec F S1x128 .f32 :=
  View.canon [⟨rR11, k11_pay4 (View.ld x rT11) (View.ld y rR11) (View.ld s rR11)⟩]
noncomputable def acc11_1 (x : Vec F S5000x128 .f32) (y s : Vec F S1x128 .f32) : Vec F S1x128 .f32 :=
  View.canon [⟨rR11, k11_pay5 (View.ld x rT11) (View.ld y rR11) (View.ld s rR11)⟩]
noncomputable def zero11_0 : Vec F S1x128 .f32 := View.canon [⟨rR11, k11_pay1 (F := F)⟩]
noncomputable def zero11_1 : Vec F S1x128 .f32 := View.canon [⟨rR11, k11_pay2 (F := F)⟩]

theorem out11_2_eq (x : Vec F S5000x128 .f32) (y : Vec F S1x128 .f32) : out11_2 x y = k11_pay3 x y := by
  unfold out11_2; rw [View.canon_unit_zero hzero11, View.ld_unit_zero (S := S5000x128) hzero11, View.ld_unit_zero (S := S1x128) hzero11]
theorem acc11_0_eq (x : Vec F S5000x128 .f32) (y s : Vec F S1x128 .f32) : acc11_0 x y s = k11_pay4 x y s := by
  unfold acc11_0; rw [View.canon_unit_zero hzero11, View.ld_unit_zero (S := S5000x128) hzero11, View.ld_unit_zero (S := S1x128) hzero11, View.ld_unit_zero (S := S1x128) hzero11]
theorem acc11_1_eq (x : Vec F S5000x128 .f32) (y s : Vec F S1x128 .f32) : acc11_1 x y s = k11_pay5 x y s := by
  unfold acc11_1; rw [View.canon_unit_zero hzero11, View.ld_unit_zero (S := S5000x128) hzero11, View.ld_unit_zero (S := S1x128) hzero11, View.ld_unit_zero (S := S1x128) hzero11]
theorem zero11_0_eq : (zero11_0 : Vec F S1x128 .f32) = k11_pay1 := View.canon_unit_zero hzero11 _ _
theorem zero11_1_eq : (zero11_1 : Vec F S1x128 .f32) = k11_pay2 := View.canon_unit_zero hzero11 _ _

/-- A buffer whose last store covers it whole reads that store's payload. -/
theorem rd11 {S : Shape} {κ : Kind} {sp : Space} (v : View sig κ sp S .f32) (f : v.ty.Contents (Elt F)) {off : Fin S.rank → Nat} (h : off = fun _ => 0)
    (inb : ∀ a, off a + S.size a ≤ S.size a) (w : S.Idx → Elt F .f32) (L : List (View.Piece (Elt F) S .f32)) :
    v.read (Elt F) (v.writes (Elt F) f (⟨Rect.unit off S.size inb, w⟩ :: L)) = w :=
  (View.read_writes_eq_canon v f _ fun y => ⟨_, List.mem_cons_self, View.mem_set_unit_zero h inb y⟩).trans (View.canon_cons_unit_zero h inb w L)

section
variable (c : Dev nD) (i : grid11.Coords) {a p : Memref sig .tc .vmem S5000x128 .f32} {b q r u v : Memref sig .tc .vmem S1x128 .f32}
  {ha : a.IsWhole} {hb : b.IsWhole} {hp : p.IsWhole} {hq : q.IsWhole} {hr : r.IsWhole} {hu : u.IsWhole} {hv : v.IsWhole}
  (x : Vec F S5000x128 .f32) (y s z e w : Vec F S1x128 .f32) (E : Set ℕ) (K : PUnit → sProp (MT nD τ sig Unit (Elt F) ℕ (UR sig nD τ) ℕ))

set_option maxHeartbeats 4000000 in
/-- One tile: the running sums restart from zero at the first tile, the tile is stored and added to both, and at the last tile both are copied out. -/
theorem run11 (s' z' e' w' : Vec F S1x128 .f32)
    (hs : condF11 i ∧ ¬condL11 i ∧ s' = zero11_0 ∧ z' = zero11_1 ∨ ¬condF11 i ∧ s' = s ∧ z' = z)
    (he : condL11 i ∧ e' = acc11_0 x y s' ∧ w' = acc11_1 x y z' ∨ ¬condL11 i ∧ e' = e ∧ w' = w) :
    iprop(owns (c : Thread nD τ) a fullShare x ∗ owns (c : Thread nD τ) b fullShare y ∗ (∃ d, owns (c : Thread nD τ) p fullShare d) ∗ owns (c : Thread nD τ) q fullShare e ∗ owns (c : Thread nD τ) r fullShare w ∗ owns (c : Thread nD τ) u fullShare s ∗ owns (c : Thread nD τ) v fullShare z
        ∗ (iprop(owns (c : Thread nD τ) a fullShare x ∗ owns (c : Thread nD τ) b fullShare y ∗ owns (c : Thread nD τ) p fullShare (out11_2 x y) ∗ owns (c : Thread nD τ) q fullShare e' ∗ owns (c : Thread nD τ) r fullShare w'
            ∗ owns (c : Thread nD τ) u fullShare (acc11_0 x y s') ∗ owns (c : Thread nD τ) v fullShare (acc11_1 x y z')) -∗ K ⟨⟩))
      ⊢ wp frame (wpE (defs₀ (F := F)) Variants.none c none) E (cc11__stats_bias_kernel i a ha b hb p hp q hq r hr u hu v hv) K := by
  simp only [cc11__stats_bias_kernel_eq_skeleton]; unfold cc11__stats_bias_kernel_skel owns
  rcases hs with ⟨hc, hn, rfl, rfl⟩ | ⟨hc, rfl, rfl⟩ <;> rcases he with ⟨hd, rfl, rfl⟩ | ⟨hd, rfl, rfl⟩ <;> first | exact absurd hd hn | skip
  all_goals
    iintro ⟨⟨%fa, %ea, Ha⟩, ⟨%fb, %eb, Hb⟩, ⟨%d, %fp, -, Hp⟩, ⟨%fq, %eq, Hq⟩, ⟨%fr, %er, Hr⟩, ⟨%fu, %eu, Hu⟩, ⟨%fv, %ev, Hv⟩, Hk⟩
    subst ea eb eq er eu ev
    sl_exec (disch := first | exact hc | exact hd)
    sl_step
    iapply Hk
    isplitl [Ha]; iexists _; isplitr; rotate_left; iexact Ha
    isplitl [Hb]; iexists _; isplitr; rotate_left; iexact Hb
    isplitl [Hp]; iexists _; isplitr; rotate_left; iexact Hp
    isplitl [Hq]; iexists _; isplitr; rotate_left; iexact Hq
    isplitl [Hr]; iexists _; isplitr; rotate_left; iexact Hr
    isplitl [Hu]; iexists _; isplitr; rotate_left; iexact Hu
    iexists _; isplitr; rotate_left; iexact Hv
    all_goals
      ipureintro
      first
      | with_reducible rfl
      | (try sl_unfold_words)
        simp only [rd11 (S := S5000x128) _ _ hzero11, rd11 (S := S1x128) _ _ hzero11, out11_2_eq, acc11_0_eq, acc11_1_eq, zero11_0_eq, zero11_1_eq, View.readAt_eq_ld,
          View.ld_unit_zero (S := S5000x128) hzero11, View.ld_unit_zero (S := S1x128) hzero11, View.readCov_unit_zero (S := S1x128) _ hzero11]

end

noncomputable def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

noncomputable def sAt11 (c : Dev nD) : (n : ℕ) → n < cfg11.N → Vec F S1x128 .f32 × Vec F S1x128 .f32
  | 0, hn => (acc11_0 (iblk11 V c 0 ⟨0, hn⟩) (iblk11 V c 1 ⟨0, hn⟩) zero11_0, acc11_1 (iblk11 V c 0 ⟨0, hn⟩) (iblk11 V c 1 ⟨0, hn⟩) zero11_1)
  | n + 1, hn => (acc11_0 (iblk11 V c 0 ⟨n + 1, hn⟩) (iblk11 V c 1 ⟨n + 1, hn⟩) (sAt11 c n (Nat.lt_of_succ_lt hn)).1,
      acc11_1 (iblk11 V c 0 ⟨n + 1, hn⟩) (iblk11 V c 1 ⟨n + 1, hn⟩) (sAt11 c n (Nat.lt_of_succ_lt hn)).2)

theorem sAt11_zero (c : Dev nD) (t : Fin cfg11.N) (h : t.val = 0) :
    sAt11 V c t.val t.isLt = (acc11_0 (iblk11 V c 0 t) (iblk11 V c 1 t) zero11_0, acc11_1 (iblk11 V c 0 t) (iblk11 V c 1 t) zero11_1) := by
  obtain ⟨_ | n, hn⟩ := t
  · rfl
  · exact absurd h (Nat.succ_ne_zero n)

theorem sAt11_pos (c : Dev nD) (t : Fin cfg11.N) (h : t.val ≠ 0) :
    sAt11 V c t.val t.isLt = (acc11_0 (iblk11 V c 0 t) (iblk11 V c 1 t) (sAt11 V c (t.val - 1) (Nat.lt_of_le_of_lt (Nat.sub_le _ _) t.isLt)).1,
      acc11_1 (iblk11 V c 0 t) (iblk11 V c 1 t) (sAt11 V c (t.val - 1) (Nat.lt_of_le_of_lt (Nat.sub_le _ _) t.isLt)).2) := by
  obtain ⟨_ | n, hn⟩ := t
  · exact absurd rfl h
  · rfl

noncomputable abbrev scM11_0 : Memref sig .tc .vmem S1x128 .f32 := Memref.whole cc11_scratch0
noncomputable abbrev scM11_1 : Memref sig .tc .vmem S1x128 .f32 := Memref.whole cc11_scratch1

/-- The region's own buffers with the two running sums at given contents. -/
noncomputable abbrev PhiN11 (c : Dev nD) (s z : Vec F S1x128 .f32) : sProp 𝕄 :=
  iprop(iprop(iprop(owns (c : Thread nD τ) scM11_0 fullShare s ∗ owns (c : Thread nD τ) scM11_1 fullShare z)
    ∗ Pipeline.scopedRestBut spec11 c [cc11_scratch0, cc11_scratch1]) ∗ (∃ r, prngReg c r))

theorem PhiA11_eq (c : Dev nD) :
    (Pipeline.ΦA spec11 c : sProp 𝕄)
      = iprop(iprop(iprop((∃ d, owns (c : Thread nD τ) scM11_0 fullShare d) ∗ (∃ d, owns (c : Thread nD τ) scM11_1 fullShare d))
          ∗ Pipeline.scopedRestBut spec11 c [cc11_scratch0, cc11_scratch1]) ∗ (∃ r, prngReg c r)) := by
  unfold Pipeline.ΦA; rw [scopedRest11_split]; simp only [scM11_0, scM11_1, owns_whole]; try rfl

noncomputable def PhiS11 (c : Dev nD) : (n : ℕ) → n ≤ cfg11.N → sProp 𝕄
  | 0, _ => Pipeline.ΦA spec11 c
  | n + 1, hn => PhiN11 c (sAt11 V c n hn).1 (sAt11 V c n hn).2

theorem PhiS11_zero (c : Dev nD) (n : ℕ) (h : n ≤ cfg11.N) (hz : n = 0) : PhiS11 V c n h = Pipeline.ΦA spec11 c := by
  subst hz; rfl

theorem PhiS11_pos (c : Dev nD) (n : ℕ) (h : n ≤ cfg11.N) (hz : n ≠ 0) :
    PhiS11 V c n h = PhiN11 c (sAt11 V c (n - 1) (by omega)).1 (sAt11 V c (n - 1) (by omega)).2 := by
  cases n with
  | zero => exact absurd rfl hz
  | succ n => rfl

noncomputable def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
    | ⟨3, _⟩ => (sAt11 V c t.val t.isLt).1
    | ⟨4, _⟩ => (sAt11 V c t.val t.isLt).2
  Φ t := PhiS11 V c t.val (Nat.le_of_lt_succ t.isLt)
  q _ := fullShare
  owed _ := 0

theorem A_eq11 (c : Dev nD) (w : Fin cfg11.W) : (dat11 V c).A w = V c (Pipeline.arrRef spec11 w) := rfl

theorem after11_2 (c : Dev nD) (t : Fin cfg11.N) : (dat11 V c).after 2 t = out11_2 (iblk11 V c 0 t) (iblk11 V c 1 t) := by dsimp only [dat11]
theorem after11_3_last (c : Dev nD) (t : Fin cfg11.N) (h : t.val = 9) : (dat11 V c).after 3 t = (sAt11 V c 9 (by rw [show cfg11.N = 10 from N_11]; decide)).1 := by
  obtain ⟨n, hn⟩ := t; obtain rfl : n = 9 := h; rfl
theorem after11_4_last (c : Dev nD) (t : Fin cfg11.N) (h : t.val = 9) : (dat11 V c).after 4 t = (sAt11 V c 9 (by rw [show cfg11.N = 10 from N_11]; decide)).2 := by
  obtain ⟨n, hn⟩ := t; obtain rfl : n = 9 := h; rfl

theorem before11_0 (c : Dev nD) (t : Fin cfg11.N) (d) : (dat11 V c).before 0 t d = iblk11 V c 0 t :=
  ((dat11 V c).before_in_eq_fetched 0 rfl (fun _ => rfl) (fun _ _ _ => rfl) (fun _ => rfl) t d).trans rfl
theorem before11_1 (c : Dev nD) (t : Fin cfg11.N) (d) : (dat11 V c).before 1 t d = iblk11 V c 1 t :=
  ((dat11 V c).before_in_eq_fetched 1 rfl (fun _ => rfl) (fun _ _ _ => rfl) (fun _ => rfl) t d).trans rfl

theorem lvA11 {c : Dev nD} (D : Dat τ (Elt F) Unit ℕ (UR sig nD τ) ℕ cfg11 c) {w : Fin cfg11.W} {t : Fin cfg11.N} (h : cfg11.idle w (grid11.coords t) = false) :
    D.leavesExact w t = owns (c : Thread nD τ) ((cfg11.win w).stage (cfg11.slots t w)) fullShare (D.after w t) := by
  unfold Dat.leavesExact; rw [h]

theorem sound_body11 (c : Dev nD) (t : Fin cfg11.N) :
    iprop((dat11 V c).Φ t.castSucc ∗ (dat11 V c).owesAt () t.castSucc
      ∗ (∃ d, owns (c : Thread nD τ) (win11_0.stage (cfg11.slots t 0)) fullShare ((dat11 V c).before 0 t d))
      ∗ (∃ d, owns (c : Thread nD τ) (win11_1.stage (cfg11.slots t 1)) fullShare ((dat11 V c).before 1 t d))
      ∗ (∃ d, owns (c : Thread nD τ) (win11_2.stage (cfg11.slots t 2)) fullShare ((dat11 V c).before 2 t d))
      ∗ (∃ d, owns (c : Thread nD τ) (win11_3.stage (cfg11.slots t 3)) fullShare ((dat11 V c).before 3 t d))
      ∗ (∃ d, owns (c : Thread nD τ) (win11_4.stage (cfg11.slots t 4)) fullShare ((dat11 V c).before 4 t d)))
    ⊢ wp frame (wpE (defs₀ (F := F)) Variants.none c none) Set.univ (bodyAt11 t) (fun _ => iprop((dat11 V c).Φ t.succ ∗ (dat11 V c).owesAt () t.succ
      ∗ (dat11 V c).leavesExact 0 t ∗ (dat11 V c).leavesExact 1 t ∗ (dat11 V c).leavesExact 2 t ∗ (dat11 V c).leavesExact 3 t ∗ (dat11 V c).leavesExact 4 t)) := by
  unfold bodyAt11
  simp only [before11_0, before11_1]
  rw [show (dat11 V c).owesAt () t.succ = (dat11 V c).owesAt () t.castSucc from rfl,
    show (dat11 V c).Φ t.succ = PhiN11 c (sAt11 V c t.val t.isLt).1 (sAt11 V c t.val t.isLt).2 from rfl,
    show (dat11 V c).Φ t.castSucc = PhiS11 V c t.val (Nat.le_of_lt t.isLt) from rfl,
    lvA11 _ (live11 t 0 (.inl (by decide))), lvA11 _ (live11 t 1 (.inl (by decide))), lvA11 _ (live11 t 2 (.inl (by decide))), after11_2,
    show (dat11 V c).after 0 t = iblk11 V c 0 t from rfl, show (dat11 V c).after 1 t = iblk11 V c 1 t from rfl]
  by_cases hz : t.val = 0
  · have hL : t.val ≠ 9 := by omega
    rw [Dat.leavesExact_idle _ 3 t (idle11 t 3 (by decide) hL).1 (idle11 t 3 (by decide) hL).2,
      Dat.leavesExact_idle _ 4 t (idle11 t 4 (by decide) hL).1 (idle11 t 4 (by decide) hL).2,
      sAt11_zero V c t hz, PhiS11_zero V c _ _ hz, PhiA11_eq]
    dsimp only [PhiN11]
    iintro ⟨⟨⟨⟨⟨%s, Hu⟩, ⟨%z, Hv⟩⟩, HR⟩, Hg⟩, Ho, ⟨%da, Ha⟩, ⟨%db, Hb⟩, ⟨%dp, Hp⟩, ⟨%dq, Hq⟩, ⟨%dr, Hr⟩⟩
    iapply (run11 c (grid11.coords t) (iblk11 V c 0 t) (iblk11 V c 1 t) s z ((dat11 V c).before 3 t dq) ((dat11 V c).before 4 t dr) Set.univ _ _ _ _ _
      (.inl ⟨(hcondF11 t).mpr hz, fun k => hL ((hcondL11 t).mp k), rfl, rfl⟩) (.inr ⟨fun k => hL ((hcondL11 t).mp k), rfl, rfl⟩))
    iframe Ha Hb Hq Hr Hu Hv
    isplitl [Hp]; · iexists _; iexact Hp
    iintro ⟨Ha, Hb, Hp, Hq, Hr, Hu, Hv⟩
    iframe Ha Hb Hp Hu Hv HR Hg Ho
    isplitl [Hq] <;> iexists _ <;> iassumption
  · have hF : ¬condF11 (grid11.coords t) := fun k => hz ((hcondF11 t).mp k)
    rw [PhiS11_pos V c _ _ hz, sAt11_pos V c t hz]
    by_cases hL : t.val = 9
    · rw [lvA11 _ (live11 t 3 (.inr hL)), lvA11 _ (live11 t 4 (.inr hL)), show (dat11 V c).after 3 t = (sAt11 V c t.val t.isLt).1 from rfl,
        show (dat11 V c).after 4 t = (sAt11 V c t.val t.isLt).2 from rfl, sAt11_pos V c t hz]
      dsimp only [PhiN11]
      iintro ⟨⟨⟨⟨Hu, Hv⟩, HR⟩, Hg⟩, Ho, ⟨%da, Ha⟩, ⟨%db, Hb⟩, ⟨%dp, Hp⟩, ⟨%dq, Hq⟩, ⟨%dr, Hr⟩⟩
      iapply (run11 c (grid11.coords t) (iblk11 V c 0 t) (iblk11 V c 1 t) _ _ ((dat11 V c).before 3 t dq) ((dat11 V c).before 4 t dr) Set.univ _ _ _ _ _
        (.inr ⟨hF, rfl, rfl⟩) (.inl ⟨(hcondL11 t).mpr hL, rfl, rfl⟩))
      iframe Ha Hb Hq Hr Hu Hv
      isplitl [Hp]; · iexists _; iexact Hp
      iintro ⟨Ha, Hb, Hp, Hq, Hr, Hu, Hv⟩
      iframe
    · rw [Dat.leavesExact_idle _ 3 t (idle11 t 3 (by decide) hL).1 (idle11 t 3 (by decide) hL).2,
        Dat.leavesExact_idle _ 4 t (idle11 t 4 (by decide) hL).1 (idle11 t 4 (by decide) hL).2]
      dsimp only [PhiN11]
      iintro ⟨⟨⟨⟨Hu, Hv⟩, HR⟩, Hg⟩, Ho, ⟨%da, Ha⟩, ⟨%db, Hb⟩, ⟨%dp, Hp⟩, ⟨%dq, Hq⟩, ⟨%dr, Hr⟩⟩
      iapply (run11 c (grid11.coords t) (iblk11 V c 0 t) (iblk11 V c 1 t) _ _ ((dat11 V c).before 3 t dq) ((dat11 V c).before 4 t dr) Set.univ _ _ _ _ _
        (.inr ⟨hF, rfl, rfl⟩) (.inr ⟨fun k => hL ((hcondL11 t).mp k), rfl, rfl⟩))
      iframe Ha Hb Hq Hr Hu Hv
      isplitl [Hp]; · iexists _; iexact Hp
      iintro ⟨Ha, Hb, Hp, Hq, Hr, Hu, Hv⟩
      iframe Ha Hb Hp Hu Hv HR Hg Ho
      isplitl [Hq] <;> iexists _ <;> iassumption

theorem body_obligation11 (c : Dev nD) : BodyObligation (dat11 (F := F) V c) (defs₀ (F := F)) Variants.none () Set.univ := fun t => by
  rw [bigSep_W11, bigSep_W11]
  exact sound_body11 V c t

theorem hin11 (c : Dev nD) : (Pipeline.ΦA spec11 c : sProp 𝕄) ⊢ (dat11 V c).Φ 0 := Idealize.SL.BI.Entails.refl _

/-- After the last tile the running sums' contents are forgotten. -/
theorem hout11 (c : Dev nD) : (dat11 V c).Φ (Fin.last cfg11.N) ⊢ (Pipeline.ΦA spec11 c : sProp 𝕄) := by
  rw [show (dat11 V c).Φ (Fin.last cfg11.N) = PhiS11 V c (Fin.last cfg11.N).val (Nat.le_of_lt_succ (Fin.last cfg11.N).isLt) from rfl,
    PhiS11_pos V c _ _ (by rw [Fin.val_last, show cfg11.N = 10 from N_11]; decide), PhiA11_eq]
  iintro ⟨⟨⟨Hu, Hv⟩, HR⟩, Hg⟩
  iframe HR Hg
  isplitl [Hu] <;> iexists _ <;> iassumption

end Cert.Kernel.Reg
end
-- ==== Proof.K.R12.lean ====
import proofs.«408439_j66932770341395_1_alg».proof.Proof.Gen.Kernel.Launch
import proofs.«408439_j66932770341395_1_alg».proof.Proof.Gen.Kernel.Skeleton
import proofs.«408439_j66932770341395_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev r12_0 : Rect S5000x128 := Rect.unit (s := S5000x128) ![0, 0] S5000x128.size inb_S5000x128_S5000x128_0_0
abbrev r12_1 : Rect S1x128 := Rect.unit (s := S1x128) ![0, 0] S1x128.size inb_S1x128_S1x128_0_0

def out12_5 (x : Vec F S5000x128 .f32) (y z s r : Vec F S1x128 .f32) : Vec F S5000x128 .f32 :=
  View.canon [⟨r12_0, k12_pay1 (View.ld x r12_0) (View.ld z r12_1) (View.ld y r12_1) (View.ld s r12_1) (View.ld r r12_1)⟩]

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12_5 (iblk12 V c 0 t) (iblk12 V c 1 t) (iblk12 V c 2 t) (iblk12 V c 3 t) (iblk12 V c 4 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_5 (c : Dev nD) (t : Fin cfg12.N) : (dat12 V c).after 5 t
    = out12_5 (iblk12 V c 0 t) (iblk12 V c 1 t) (iblk12 V c 2 t) (iblk12 V c 3 t) (iblk12 V c 4 t) := by dsimp only [dat12]

theorem before12_in (c : Dev nD) (w : Fin cfg12.W) (hw : w.val < 5 := by decide) (t : Fin cfg12.N) (d) :
    (dat12 V c).before w t d = (dat12 V c).after w t :=
  match w with
  | ⟨0, _⟩ | ⟨1, _⟩ | ⟨2, _⟩ | ⟨3, _⟩ | ⟨4, _⟩ =>
    ((dat12 V c).before_in_eq_fetched _ rfl (fun _ => rfl) (fun _ _ _ => rfl) (fun _ => rfl) t d).trans rfl
  | ⟨5, _⟩ => absurd hw (Nat.lt_irrefl 5)

set_option maxHeartbeats 1000000 in
theorem sound_kernel12 (c : Dev nD) {E : Set ℕ} {i : grid12.Coords}
    {a : Memref sig .tc .vmem S5000x128 .f32} {ha : a.IsWhole} {b : Memref sig .tc .vmem S1x128 .f32} {hb : b.IsWhole}
    {u : Memref sig .tc .vmem S1x128 .f32} {hu : u.IsWhole} {v : Memref sig .tc .vmem S1x128 .f32} {hv : v.IsWhole}
    {p : Memref sig .tc .vmem S1x128 .f32} {hp : p.IsWhole} {o : Memref sig .tc .vmem S5000x128 .f32} {ho : o.IsWhole}
    {x e : Vec F S5000x128 .f32} {y z s r : Vec F S1x128 .f32} {K : PUnit → sProp 𝕄} :
    iprop(owns c a fullShare x ∗ owns c b fullShare y ∗ owns c u fullShare z ∗ owns c v fullShare s ∗ owns c p fullShare r
        ∗ owns c o fullShare e
        ∗ (owns c a fullShare x ∗ owns c b fullShare y ∗ owns c u fullShare z ∗ owns c v fullShare s ∗ owns c p fullShare r
            ∗ owns c o fullShare (out12_5 x y z s r) -∗ K ⟨⟩))
      ⊢ wp frame (wpE (defs₀ (F := F)) Variants.none c none) E (cc12__bn_relu_kernel i a ha b hb u hu v hv p hp o ho) K := by
  simp only [cc12__bn_relu_kernel_eq_skeleton]; unfold cc12__bn_relu_kernel_skel owns
  iintro ⟨⟨%f, %hf, Hx⟩, ⟨%g, %hg, Hy⟩, ⟨%h, %hh, Hz⟩, ⟨%j, %hj, Hs⟩, ⟨%l, %hl, Hr⟩, ⟨%k, -, He⟩, Hk⟩
  subst hf hg hh hj hl
  sl_exec
  sl_step
  iapply Hk
  isplitl [Hx]
  · iexists f; isplitr; · ipureintro; rfl
    iexact Hx
  isplitl [Hy]
  · iexists g; isplitr; · ipureintro; rfl
    iexact Hy
  isplitl [Hz]
  · iexists h; isplitr; · ipureintro; rfl
    iexact Hz
  isplitl [Hs]
  · iexists j; isplitr; · ipureintro; rfl
    iexact Hs
  isplitl [Hr]
  · iexists l; isplitr; · ipureintro; rfl
    iexact Hr
  iexists _; isplitr
  swap; · iexact He
  ipureintro
  exact View.read_writes_eq_canon _ _ _ (View.cover_of_tiled _ S5000x128.size (by rfl))

theorem body_obligation12 (c : Dev nD) : BodyObligation (dat12 (F := F) V c) (defs₀ (F := F)) Variants.none () Set.univ := fun t => by
  rw [bigSep_W12, bigSep_W12]
  simp only [before12_in V c 0, before12_in V c 1, before12_in V c 2, before12_in V c 3, before12_in V c 4]
  rw [show (dat12 V c).Φ t.succ = (dat12 V c).Φ t.castSucc from rfl,
    show (dat12 V c).owesAt () t.succ = (dat12 V c).owesAt () t.castSucc from rfl,
    show (dat12 V c).after 5 t = out12_5 ((dat12 V c).after 0 t) ((dat12 V c).after 1 t) ((dat12 V c).after 2 t)
      ((dat12 V c).after 3 t) ((dat12 V c).after 4 t) from by dsimp only [dat12]]
  show _ ⊢ wp _ _ _ (bodyAt12 t) _
  iintro ⟨HΦ, Ho, ⟨%d, Hx⟩, ⟨%d, Hy⟩, ⟨%d, Hz⟩, ⟨%d, Hs⟩, ⟨%d, Hr⟩, ⟨%d, He⟩⟩
  iapply (sound_kernel12 c)
  iframe Hx Hy Hz Hs Hr He
  iintro ⟨Hx, Hy, Hz, Hs, Hr, He⟩
  iframe

theorem hin12 (c : Dev nD) : (Pipeline.ΦA spec12 c : sProp 𝕄) ⊢ (dat12 V c).Φ 0 := .rfl
theorem hout12 (c : Dev nD) : (dat12 V c).Φ (Fin.last cfg12.N) ⊢ (Pipeline.ΦA spec12 c : sProp 𝕄) := .rfl

end Cert.Kernel.Reg
end
-- ==== Proof.K.R13.lean ====
import proofs.«408439_j66932770341395_1_alg».proof.Proof.Gen.Kernel.Launch
import proofs.«408439_j66932770341395_1_alg».proof.Proof.Gen.Kernel.Skeleton
import proofs.«408439_j66932770341395_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.Pipeline.TableIdle
set_option maxRecDepth 16384
noncomputable section
namespace Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev cond13_0 (i : grid13.Coords) : Prop := (Scalar.cmpi .ne (Scalar.extui (Scalar.cmpi .eq (BitVec.ofNat 32 (i 0).val) 0#32)) 0#32) = 1#1
theorem hcond13_0 : ∀ t : Fin cfg13.N, cond13_0 (grid13.coords t) ↔ t.val = 0 :=
  (by decide +kernel : ∀ t : Fin grid13.N, cond13_0 (grid13.coords t) ↔ t.val = 0)
abbrev cond13_1 (i : grid13.Coords) : Prop := k13_cond2 i = 1#1
theorem hcond13_1 : ∀ t : Fin cfg13.N, cond13_1 (grid13.coords t) ↔ t.val = 9 :=
  (by decide +kernel : ∀ t : Fin grid13.N, cond13_1 (grid13.coords t) ↔ t.val = 9)

theorem hz13 : (![0, 0] : Fin 2 → ℕ) = fun _ => 0 := by funext a; fin_cases a <;> rfl

section
variable {sp : Space} {sz : Fin 2 → ℕ} {e : EltTy} (inb : ∀ a, (![0, 0] : Fin 2 → ℕ) a + sz a ≤ sz a) (w : (⟨2, sz⟩ : Shape).Idx → Elt F e)

theorem ld13 : View.ld w (Rect.unit (s := ⟨2, sz⟩) ![0, 0] sz inb) = w := View.ld_unit_zero hz13 inb w

theorem readCov13 {κ : Kind} (v : View sig κ sp ⟨2, sz⟩ e) :
    v.readCov [(⟨Rect.unit ![0, 0] sz inb, w⟩ : View.Piece (Elt F) ⟨2, sz⟩ e)] (Rect.unit ![0, 0] sz inb).toLoadRect = w :=
  View.readCov_unit_zero v hz13 inb w

-- Of several writes, one that covers every index and is made last is what is read back.
theorem stored13 (c : Dev nD) (m : Memref sig .tc sp ⟨2, sz⟩ e) (g : m.view.ty.Contents (Elt F)) (q : PosShare TreeShare) (L : List (View.Piece (Elt F) ⟨2, sz⟩ e)) :
    (m.view.loc (c : Thread nD τ) ↦[m.view.set]{q} m.view.writes (Elt F) g ((⟨Rect.unit ![0, 0] sz inb, w⟩ : View.Piece (Elt F) ⟨2, sz⟩ e) :: L) : sProp 𝕄)
      = (m.view.loc (c : Thread nD τ) ↦[m.view.set]{q} m.view.rep w) := by
  rw [pointsTo_rep (c : Thread nD τ) m, View.read_writes_eq_canon _ _ _ fun y => ⟨_, List.mem_cons.mpr (Or.inl rfl), View.mem_set_unit_zero hz13 inb y⟩,
    View.canon_cons_unit_zero hz13]
end

section
variable (c : Dev nD) (E : Set ℕ) (i : grid13.Coords) (arg1 : Memref sig .tc .vmem S5000x128 .f32) (harg1 : arg1.IsWhole) (arg2 : Memref sig .tc .vmem S5000x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S256x10 .f32) (harg5 : arg5.IsWhole) (arg6 : Memref sig .tc .vmem S256x128 .f32) (harg6 : arg6.IsWhole) (arg7 : Memref sig .tc .vmem S256x1 .f32) (harg7 : arg7.IsWhole)
  (x0 : Vec F S5000x128 .f32) (x1 : Vec F S5000x1 .i32) (x2 : Vec F S128x10 .f32) (x3 : Vec F S1x10 .f32)

def own13 (xi4 : Vec F S256x10 .f32) (xs0 : Vec F S256x128 .f32) (xs1 : Vec F S256x1 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare xi4 ∗ owns (c : Thread nD τ) arg6 fullShare xs0 ∗ owns (c : Thread nD τ) arg7 fullShare xs1)

variable (xi4 : Vec F S256x10 .f32) (xs0 : Vec F S256x128 .f32) (xs1 : Vec F S256x1 .f32)

set_option maxHeartbeats 4000000 in
theorem kernel13_A (hc0 : cond13_0 i) (hc1 : ¬cond13_1 i) (K : PUnit → sProp 𝕄) :
    iprop(own13 c arg1 arg2 arg3 arg4 arg5 arg6 arg7 x0 x1 x2 x3 xi4 xs0 xs1 ∗ (own13 c arg1 arg2 arg3 arg4 arg5 arg6 arg7 x0 x1 x2 x3 xi4 (k13_pay4 x0 x1 k13_pay1) (k13_pay5 x1 k13_pay2) -∗ K ⟨⟩))
      ⊢ wp frame (wpE (defs₀ (F := F)) Variants.none c none) E (cc13__pool_classify_kernel i arg1 harg1 arg2 harg2 arg3 harg3 arg4 harg4 arg5 harg5 arg6 harg6 arg7 harg7) K := by
  simp only [cc13__pool_classify_kernel_eq_skeleton, own13, owns_eq_rep]; unfold cc13__pool_classify_kernel_skel
  iintro ⟨⟨H0, H1, H2, H3, H4, HS0, HS1⟩, Hk⟩
  sl_exec (disch := first | exact hc0 | exact hc1)
  sl_step
  sl_unfold_words
  simp only [stored13, readCov13, ld13, View.readAt_eq_ld, View.read_rep]
  iapply Hk
  iframe

set_option maxHeartbeats 4000000 in
theorem kernel13_B (hc0 : ¬cond13_0 i) (hc1 : ¬cond13_1 i) (K : PUnit → sProp 𝕄) :
    iprop(own13 c arg1 arg2 arg3 arg4 arg5 arg6 arg7 x0 x1 x2 x3 xi4 xs0 xs1 ∗ (own13 c arg1 arg2 arg3 arg4 arg5 arg6 arg7 x0 x1 x2 x3 xi4 (k13_pay4 x0 x1 xs0) (k13_pay5 x1 xs1) -∗ K ⟨⟩))
      ⊢ wp frame (wpE (defs₀ (F := F)) Variants.none c none) E (cc13__pool_classify_kernel i arg1 harg1 arg2 harg2 arg3 harg3 arg4 harg4 arg5 harg5 arg6 harg6 arg7 harg7) K := by
  simp only [cc13__pool_classify_kernel_eq_skeleton, own13, owns_eq_rep]; unfold cc13__pool_classify_kernel_skel
  iintro ⟨⟨H0, H1, H2, H3, H4, HS0, HS1⟩, Hk⟩
  sl_exec (disch := first | exact hc0 | exact hc1)
  sl_step
  sl_unfold_words
  simp only [stored13, readCov13, ld13, View.readAt_eq_ld, View.read_rep]
  iapply Hk
  iframe

set_option maxHeartbeats 4000000 in
theorem kernel13_C (hc0 : ¬cond13_0 i) (hc1 : cond13_1 i) (K : PUnit → sProp 𝕄) :
    iprop(own13 c arg1 arg2 arg3 arg4 arg5 arg6 arg7 x0 x1 x2 x3 xi4 xs0 xs1 ∗ (own13 c arg1 arg2 arg3 arg4 arg5 arg6 arg7 x0 x1 x2 x3 (k13_pay6 (k13_pay4 x0 x1 xs0) (k13_pay5 x1 xs1) x2 x3) (k13_pay4 x0 x1 xs0) (k13_pay5 x1 xs1) -∗ K ⟨⟩))
      ⊢ wp frame (wpE (defs₀ (F := F)) Variants.none c none) E (cc13__pool_classify_kernel i arg1 harg1 arg2 harg2 arg3 harg3 arg4 harg4 arg5 harg5 arg6 harg6 arg7 harg7) K := by
  simp only [cc13__pool_classify_kernel_eq_skeleton, own13, owns_eq_rep]; unfold cc13__pool_classify_kernel_skel
  iintro ⟨⟨H0, H1, H2, H3, H4, HS0, HS1⟩, Hk⟩
  sl_exec (disch := first | exact hc0 | exact hc1)
  sl_step
  sl_unfold_words
  simp only [stored13, readCov13, ld13, View.readAt_eq_ld, View.read_rep]
  iapply Hk
  iframe

end

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

theorem liveAt13 : ∀ (w : Fin cfg13.W) (t : Fin cfg13.N), w ≠ 4 → cfg13.idle w (grid13.coords t) = false := by decide +kernel
theorem idleAt13_4 : ∀ t : Fin cfg13.N, t.val ≠ 9 → cfg13.idle 4 (grid13.coords t) = true := by decide +kernel
theorem noFlush13_4 : ∀ t : Fin cfg13.N, t.val ≠ 9 → (cfg13.win 4).flush t = false := by decide +kernel
theorem liveAt13_4 : ∀ t : Fin cfg13.N, t.val = 9 → cfg13.idle 4 (grid13.coords t) = false := by decide +kernel

abbrev scM13_0 : Memref sig .tc .vmem S256x128 .f32 := Memref.whole cc13_scratch0
abbrev scM13_1 : Memref sig .tc .vmem S256x1 .f32 := Memref.whole cc13_scratch1

def acc13 (c : Dev nD) (P : sProp 𝕄) : sProp 𝕄 :=
  iprop(iprop(P ∗ Pipeline.scopedRestBut (Ix := Unit) (Name := ℕ) (U := UR sig nD τ) (Lvl := ℕ) (Val := Elt F) spec13 c [cc13_scratch0, cc13_scratch1]) ∗ (∃ r, prngReg c r))

theorem PhiA13_eq (c : Dev nD) :
    (Pipeline.ΦA spec13 c : sProp 𝕄) = acc13 c iprop((∃ d, owns (c : Thread nD τ) scM13_0 fullShare d) ∗ (∃ d, owns (c : Thread nD τ) scM13_1 fullShare d)) := by
  unfold Pipeline.ΦA acc13; rw [scopedRest13_split]; simp only [scM13_0, scM13_1, owns_whole]; try rfl

-- The per-graph sums and counts after tile n: tile 0's contribution over zero, then each tile's over the value before.
def sAt13 (c : Dev nD) : (n : ℕ) → n < cfg13.N → Vec F S256x128 .f32 × Vec F S256x1 .f32
  | 0, hn => (k13_pay4 (iblk13 V c 0 ⟨0, hn⟩) (iblk13 V c 1 ⟨0, hn⟩) k13_pay1, k13_pay5 (iblk13 V c 1 ⟨0, hn⟩) k13_pay2)
  | n + 1, hn => (k13_pay4 (iblk13 V c 0 ⟨n + 1, hn⟩) (iblk13 V c 1 ⟨n + 1, hn⟩) (sAt13 c n (Nat.lt_of_succ_lt hn)).1,
      k13_pay5 (iblk13 V c 1 ⟨n + 1, hn⟩) (sAt13 c n (Nat.lt_of_succ_lt hn)).2)

theorem sAt13_first (c : Dev nD) (t : Fin cfg13.N) (h0 : t.val = 0) :
    sAt13 V c t.val t.isLt = (k13_pay4 (iblk13 V c 0 t) (iblk13 V c 1 t) k13_pay1, k13_pay5 (iblk13 V c 1 t) k13_pay2) := by
  obtain ⟨n, hn⟩ := t
  cases n with
  | zero => exact rfl
  | succ n => exact absurd h0 (Nat.succ_ne_zero n)

theorem sAt13_next (c : Dev nD) (t : Fin cfg13.N) (h0 : t.val ≠ 0) :
    sAt13 V c t.val t.isLt = (k13_pay4 (iblk13 V c 0 t) (iblk13 V c 1 t) (sAt13 V c (t.val - 1) (Nat.lt_of_le_of_lt (Nat.sub_le _ _) t.isLt)).1,
      k13_pay5 (iblk13 V c 1 t) (sAt13 V c (t.val - 1) (Nat.lt_of_le_of_lt (Nat.sub_le _ _) t.isLt)).2) := by
  obtain ⟨n, hn⟩ := t
  cases n with
  | zero => exact absurd rfl h0
  | succ n => exact rfl

-- The classifier applied to the sums and counts as they stand after tile t.
def out13_4 (c : Dev nD) (t : Fin cfg13.N) : Vec F S256x10 .f32 :=
  k13_pay6 (sAt13 V c t.val t.isLt).1 (sAt13 V c t.val t.isLt).2 (iblk13 V c 2 t) (iblk13 V c 3 t)

def PhiS13 (c : Dev nD) : (n : ℕ) → n ≤ cfg13.N → sProp 𝕄
  | 0, _ => Pipeline.ΦA spec13 c
  | n + 1, hn => acc13 c iprop(owns (c : Thread nD τ) scM13_0 fullShare (sAt13 V c n hn).1 ∗ owns (c : Thread nD τ) scM13_1 fullShare (sAt13 V c n hn).2)

theorem PhiS13_zero (c : Dev nD) (n : ℕ) (h : n ≤ cfg13.N) (hz : n = 0) : PhiS13 V c n h = Pipeline.ΦA spec13 c := by
  subst hz; rfl

theorem PhiS13_pos (c : Dev nD) (n : ℕ) (h : n ≤ cfg13.N) (hz : n ≠ 0) :
    PhiS13 V c n h = acc13 c iprop(owns (c : Thread nD τ) scM13_0 fullShare (sAt13 V c (n - 1) (by omega)).1 ∗ owns (c : Thread nD τ) scM13_1 fullShare (sAt13 V c (n - 1) (by omega)).2) := by
  cases n with
  | zero => exact absurd rfl hz
  | succ n => rfl

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => out13_4 V c t
  Φ t := PhiS13 V c t.val (Nat.le_of_lt_succ t.isLt)
  q _ := fullShare
  owed _ := 0

theorem A_eq13 (c : Dev nD) (w : Fin cfg13.W) : (dat13 V c).A w = V c (Pipeline.arrRef spec13 w) := by
  dsimp only [dat13]

theorem after13_4_last (c : Dev nD) (t : Fin cfg13.N) (h : t.val = 9) :
    (dat13 V c).after 4 t = k13_pay6 (sAt13 V c 9 (by rw [← h]; exact t.isLt)).1 (sAt13 V c 9 (by rw [← h]; exact t.isLt)).2 (iblk13 V c 2 t) (iblk13 V c 3 t) := by
  obtain ⟨n, hn⟩ := t
  cases h; rfl

theorem before13_0 (c : Dev nD) (t : Fin cfg13.N) (d) : (dat13 V c).before 0 t d = iblk13 V c 0 t :=
  ((dat13 V c).before_in_eq_fetched 0 rfl (fun _ => rfl) (fun _ _ _ => rfl) (fun _ => rfl) t d).trans rfl
theorem leaves13_0 (c : Dev nD) (t : Fin cfg13.N) : (dat13 V c).leavesExact 0 t = owns (c : Thread nD τ) (st13_0 t) fullShare (iblk13 V c 0 t) := by
  unfold Dat.leavesExact; rw [liveAt13 0 t (by decide)]; rfl
theorem before13_1 (c : Dev nD) (t : Fin cfg13.N) (d) : (dat13 V c).before 1 t d = iblk13 V c 1 t :=
  ((dat13 V c).before_in_eq_fetched 1 rfl (fun _ => rfl) (fun _ _ _ => rfl) (fun _ => rfl) t d).trans rfl
theorem leaves13_1 (c : Dev nD) (t : Fin cfg13.N) : (dat13 V c).leavesExact 1 t = owns (c : Thread nD τ) (st13_1 t) fullShare (iblk13 V c 1 t) := by
  unfold Dat.leavesExact; rw [liveAt13 1 t (by decide)]; rfl
theorem before13_2 (c : Dev nD) (t : Fin cfg13.N) (d) : (dat13 V c).before 2 t d = iblk13 V c 2 t :=
  ((dat13 V c).before_in_eq_fetched 2 rfl (fun _ => rfl) (fun _ _ _ => rfl) (fun _ => rfl) t d).trans rfl
theorem leaves13_2 (c : Dev nD) (t : Fin cfg13.N) : (dat13 V c).leavesExact 2 t = owns (c : Thread nD τ) (st13_2 t) fullShare (iblk13 V c 2 t) := by
  unfold Dat.leavesExact; rw [liveAt13 2 t (by decide)]; rfl
theorem before13_3 (c : Dev nD) (t : Fin cfg13.N) (d) : (dat13 V c).before 3 t d = iblk13 V c 3 t :=
  ((dat13 V c).before_in_eq_fetched 3 rfl (fun _ => rfl) (fun _ _ _ => rfl) (fun _ => rfl) t d).trans rfl
theorem leaves13_3 (c : Dev nD) (t : Fin cfg13.N) : (dat13 V c).leavesExact 3 t = owns (c : Thread nD τ) (st13_3 t) fullShare (iblk13 V c 3 t) := by
  unfold Dat.leavesExact; rw [liveAt13 3 t (by decide)]; rfl

def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d)))

def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t
    ∗ (dat13 V c).leavesExact 4 t)

set_option maxHeartbeats 4800000 in
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13
  simp only [before13_0, before13_1, before13_2, before13_3]
  rw [show (dat13 V c).owesAt () t.succ = (dat13 V c).owesAt () t.castSucc from rfl,
    show (dat13 V c).Φ t.succ = acc13 c iprop(owns (c : Thread nD τ) scM13_0 fullShare (sAt13 V c t.val t.isLt).1 ∗ owns (c : Thread nD τ) scM13_1 fullShare (sAt13 V c t.val t.isLt).2) from rfl,
    show (dat13 V c).Φ t.castSucc = PhiS13 V c t.val (Nat.le_of_lt t.isLt) from rfl,
    leaves13_0, leaves13_1, leaves13_2, leaves13_3]
  by_cases h0 : t.val = 0
  · have h1 : t.val ≠ 9 := by omega
    rw [Dat.leavesExact_idle _ 4 t (idleAt13_4 t h1) (noFlush13_4 t h1), sAt13_first V c t h0, PhiS13_zero V c _ _ h0, PhiA13_eq]
    unfold acc13; dsimp only
    iintro ⟨⟨⟨⟨⟨%s0, HS0⟩, ⟨%s1, HS1⟩⟩, HR⟩, Hg⟩, Ho, ⟨%d0, H0⟩, ⟨%d1, H1⟩, ⟨%d2, H2⟩, ⟨%d3, H3⟩, ⟨%d4, H4⟩⟩
    iapply (kernel13_A c Set.univ (grid13.coords t) (st13_0 t) _ (st13_1 t) _ (st13_2 t) _ (st13_3 t) _ (st13_4 t) _ scM13_0 _ scM13_1 _
      (iblk13 V c 0 t) (iblk13 V c 1 t) (iblk13 V c 2 t) (iblk13 V c 3 t) ((dat13 V c).before 4 t d4) s0 s1 ((hcond13_0 t).mpr h0) (fun h => h1 ((hcond13_1 t).mp h)) _)
    unfold own13
    iframe H0 H1 H2 H3 H4 HS0 HS1
    iintro ⟨H0, H1, H2, H3, H4, HS0, HS1⟩
    iframe
    iexists _; iexact H4
  · by_cases h1 : t.val = 9
    · rw [show (dat13 V c).leavesExact 4 t = owns (c : Thread nD τ) (st13_4 t) fullShare (out13_4 V c t) from by
        unfold Dat.leavesExact; rw [liveAt13_4 t h1]; rfl]
      unfold out13_4
      rw [sAt13_next V c t h0, PhiS13_pos V c _ _ h0]
      unfold acc13; dsimp only
      generalize sAt13 V c (t.val - 1) _ = a
      iintro ⟨⟨⟨⟨HS0, HS1⟩, HR⟩, Hg⟩, Ho, ⟨%d0, H0⟩, ⟨%d1, H1⟩, ⟨%d2, H2⟩, ⟨%d3, H3⟩, ⟨%d4, H4⟩⟩
      iapply (kernel13_C c Set.univ (grid13.coords t) (st13_0 t) _ (st13_1 t) _ (st13_2 t) _ (st13_3 t) _ (st13_4 t) _ scM13_0 _ scM13_1 _
        (iblk13 V c 0 t) (iblk13 V c 1 t) (iblk13 V c 2 t) (iblk13 V c 3 t) ((dat13 V c).before 4 t d4) a.1 a.2 (fun h => h0 ((hcond13_0 t).mp h)) ((hcond13_1 t).mpr h1) _)
      unfold own13
      iframe H0 H1 H2 H3 H4 HS0 HS1
      iintro ⟨H0, H1, H2, H3, H4, HS0, HS1⟩
      iframe
    · rw [Dat.leavesExact_idle _ 4 t (idleAt13_4 t h1) (noFlush13_4 t h1), sAt13_next V c t h0, PhiS13_pos V c _ _ h0]
      unfold acc13; dsimp only
      generalize sAt13 V c (t.val - 1) _ = a
      iintro ⟨⟨⟨⟨HS0, HS1⟩, HR⟩, Hg⟩, Ho, ⟨%d0, H0⟩, ⟨%d1, H1⟩, ⟨%d2, H2⟩, ⟨%d3, H3⟩, ⟨%d4, H4⟩⟩
      iapply (kernel13_B c Set.univ (grid13.coords t) (st13_0 t) _ (st13_1 t) _ (st13_2 t) _ (st13_3 t) _ (st13_4 t) _ scM13_0 _ scM13_1 _
        (iblk13 V c 0 t) (iblk13 V c 1 t) (iblk13 V c 2 t) (iblk13 V c 3 t) ((dat13 V c).before 4 t d4) a.1 a.2 (fun h => h0 ((hcond13_0 t).mp h)) (fun h => h1 ((hcond13_1 t).mp h)) _)
      unfold own13
      iframe H0 H1 H2 H3 H4 HS0 HS1
      iintro ⟨H0, H1, H2, H3, H4, HS0, HS1⟩
      iframe
      iexists _; iexact H4

theorem body_obligation13 (c : Dev nD) : BodyObligation (dat13 (F := F) V c) (defs₀ (F := F)) Variants.none () Set.univ := fun t => by
  rw [bigSep_W13, bigSep_W13]
  exact sound_body13 V c t

theorem hin13 (c : Dev nD) : (Pipeline.ΦA spec13 c : sProp 𝕄) ⊢ (dat13 V c).Φ 0 :=
  Idealize.SL.BI.Entails.refl _

theorem hout13 (c : Dev nD) : (dat13 V c).Φ (Fin.last cfg13.N) ⊢ (Pipeline.ΦA spec13 c : sProp 𝕄) := by
  rw [show (dat13 V c).Φ (Fin.last cfg13.N) = PhiS13 V c cfg13.N (Nat.le_refl _) from rfl, PhiS13_pos V c _ _ (by decide), PhiA13_eq]
  unfold acc13
  iintro ⟨⟨⟨HS0, HS1⟩, HR⟩, Hg⟩
  iframe HR Hg
  isplitl [HS0] <;> iexists _ <;> iassumption

end Cert.Kernel.Reg
end
-- ==== Proof.K.Run.lean ====
import proofs.«408439_j66932770341395_1_alg».proof.Proof.Gen.Kernel.Launch
import proofs.«408439_j66932770341395_1_alg».proof.Proof.Gen.Kernel.Skeleton
import proofs.«408439_j66932770341395_1_alg».proof.Proof.Gen.Kernel.Points
import proofs.«408439_j66932770341395_1_alg».proof.Proof.Gen.Kernel.Regions
import proofs.«408439_j66932770341395_1_alg».proof.Proof.K.R00
import proofs.«408439_j66932770341395_1_alg».proof.Proof.K.R01
import proofs.«408439_j66932770341395_1_alg».proof.Proof.K.R02
import proofs.«408439_j66932770341395_1_alg».proof.Proof.K.R03
import proofs.«408439_j66932770341395_1_alg».proof.Proof.K.R04
import proofs.«408439_j66932770341395_1_alg».proof.Proof.K.R05
import proofs.«408439_j66932770341395_1_alg».proof.Proof.K.R06
import proofs.«408439_j66932770341395_1_alg».proof.Proof.K.R07
import proofs.«408439_j66932770341395_1_alg».proof.Proof.K.R08
import proofs.«408439_j66932770341395_1_alg».proof.Proof.K.R09
import proofs.«408439_j66932770341395_1_alg».proof.Proof.K.R10
import proofs.«408439_j66932770341395_1_alg».proof.Proof.K.R11
import proofs.«408439_j66932770341395_1_alg».proof.Proof.K.R12
import proofs.«408439_j66932770341395_1_alg».proof.Proof.K.R13
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev WT (F : FTy → Type) : Type := Dev nD → Valuation τ sig (Elt F)
abbrev VT (F : FTy → Type) : Type := (c : Dev nD) → (b : Ref sig .tc) → Buf (Elt F) ((c : Thread nD τ).loc b)

abbrev adm : (p : Fin 14) → (pcfgs (F := F) p).Adm := fun p => (cfgs p).toPCfg_adm
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : WT F) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def mkReg (pd : (p : Fin 14) → (c : Dev nD) → Dat τ (Elt F) Unit ℕ (UR sig nD τ) ℕ (Pipeline.pin (pcfgs (F := F)) adm p) c)
    (p : Fin 14) (lf : Pipeline.LaunchFacts (nD := nD) (τ := τ) cfgs p) (Wi Wo : WT F)
    (hb : ∀ c, BodyObligation (pd p c) (defs₀ (F := F)) Variants.none () Set.univ)

    (hA : ∀ c w, (pd p c).A w = Wi c (Proc.devRef .tc (Pipeline.arrRef (cfgs p).spec w)))
    (hi : ∀ c, (Pipeline.ΦA (cfgs p).spec c : sProp 𝕄) ⊢ (pd p c).Φ 0)
    (ho : ∀ c, (pd p c).Φ (Fin.last (cfgs p).N) ⊢ (Pipeline.ΦA (cfgs p).spec c : sProp 𝕄))
    (harr : ∀ c w, Wo c (Proc.devRef .tc (Pipeline.arrRef (cfgs p).spec w)) = (pd p c).arrAt w (cfgs p).N)
    (hne : ∀ c (b : Ref sig .tc), (∀ w, Pipeline.arrRef (cfgs p).spec w ≠ b) → Wo c (Proc.devRef .tc b) = Wi c (Proc.devRef .tc b))
    (hq : ∀ c w, (pd p c).q w = fullShare := by exact fun _ _ => rfl) (h0 : ∀ c t, (pd p c).owed t = 0 := by exact fun _ _ => rfl)
    (hr : ∀ c, (pd p c).recorded 0 = Set.univ := by exact fun _ => rfl) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := F)) adm pd lf.win lf.arr_whole c
      ((pd p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [h0 c 0, hr c]
      icases HO with ⟨%W, HO⟩; iexists W; isplitr; · ipureintro; exact fun _ _ => Or.inl trivial
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine BIBase.Entails.trans (ho c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c))
      (fun b => Wi c b) (fun b => Wo c b) ((pd p c).arrAt · (cfgs p).N) (fun w => (harr c w).symm)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0 c]
    icases HO with ⟨%W, -, HO⟩; iexists W; iexact HO

/-- A reference outside a host stretch's written list and outside `l` keeps through the stretch what it keeps up to it. -/
theorem keep_host {ops : List (HloOp τ sig (Elt F))} {X l : List (Ref sig .tc)} {b : Ref sig .tc} {V V' : Valuation τ sig (Elt F)}
    (hX : ops.Forall fun op => op.writes ⊆ (X.map (Proc.devRef (τ := τ) .tc)).toFinset)
    (ih : b ∉ l → V (Proc.devRef .tc b) = V' (Proc.devRef .tc b)) (h : b ∉ X ++ l) :
    StableHlo.after ops V (Proc.devRef .tc b) = V' (Proc.devRef .tc b) :=
  (StableHlo.after_of_writes_sub ops V hX fun hb => h (List.mem_append_left _ hb)).trans (ih fun hb => h (List.mem_append_right _ hb))

/-- The same through a region: a reference that is none of its arrays bypasses it. -/
theorem keep_reg {gr W : Nat} (win : Fin W → Pipeline.WinSpec sig gr) (c : Dev nD) {V V' : Valuation τ sig (Elt F)}
    (A : (w : Fin W) → Buf (Elt F) ((win w).arr.view.loc (c : Thread nD τ))) {l : List (Ref sig .tc)} {b : Ref sig .tc}
    (ih : b ∉ l → V (Proc.devRef .tc b) = V' (Proc.devRef .tc b)) (h : b ∉ List.ofFn (Pipeline.arrRef win) ++ l) :
    Pipeline.withArrays win c V A (Proc.devRef .tc b) = V' (Proc.devRef .tc b) :=
  (Pipeline.withArrays_of_ne win c V A b fun w e => h (List.mem_append_left _ (e ▸ List.mem_ofFn.mpr ⟨w, rfl⟩))).trans
    (ih fun hb => h (List.mem_append_right _ hb))

variable (m : (ℓ : Loc nD τ sig) → Buf (Elt F) ℓ) (ρ : Dev nD → PrngReg)

section
variable (c : Dev nD) (b : Ref sig .tc)

abbrev W0 : WT F := fun c b => (s₀ m ρ).mem ((c : Dev nD), b)
abbrev V0 : VT F := fun c b => W0 m ρ c b
abbrev W1 : WT F := fun c => StableHlo.after hostOps0 (W0 m ρ c)
abbrev V1 : VT F := fun c b => W1 m ρ c b
abbrev W2 : WT F := fun c => StableHlo.after hostOps0_1 (W1 m ρ c)
abbrev V2 : VT F := fun c b => W2 m ρ c b
abbrev W3 : WT F := fun c => StableHlo.after hostOps0_2 (W2 m ρ c)
abbrev V3 : VT F := fun c b => W3 m ρ c b
def W4 (c : Dev nD) : Valuation τ sig (Elt F) :=
  Pipeline.withArrays spec0 c (W3 m ρ c) fun w => (dat0 (V3 m ρ) c).arrAt w cfg0.N
theorem W4_arr (w : Fin cfg0.W) :
    W4 m ρ c (Proc.devRef .tc (Pipeline.arrRef spec0 w)) = (dat0 (V3 m ρ) c).arrAt w cfg0.N :=
  Pipeline.withArrays_arr spec0 launch0.win.arr_inj c _ _ w
theorem W4_of_ne (hb : ∀ w, Pipeline.arrRef spec0 w ≠ b) :
    W4 m ρ c (Proc.devRef .tc b) = W3 m ρ c (Proc.devRef .tc b) :=
  Pipeline.withArrays_of_ne spec0 c _ _ b hb
abbrev V4 : VT F := fun c b => W4 m ρ c b
abbrev W5 : WT F := fun c => StableHlo.after hostOps1 (W4 m ρ c)
abbrev V5 : VT F := fun c b => W5 m ρ c b
def W6 (c : Dev nD) : Valuation τ sig (Elt F) :=
  Pipeline.withArrays spec1 c (W5 m ρ c) fun w => (dat1 (V5 m ρ) c).arrAt w cfg1.N
theorem W6_arr (w : Fin cfg1.W) :
    W6 m ρ c (Proc.devRef .tc (Pipeline.arrRef spec1 w)) = (dat1 (V5 m ρ) c).arrAt w cfg1.N :=
  Pipeline.withArrays_arr spec1 launch1.win.arr_inj c _ _ w
theorem W6_of_ne (hb : ∀ w, Pipeline.arrRef spec1 w ≠ b) :
    W6 m ρ c (Proc.devRef .tc b) = W5 m ρ c (Proc.devRef .tc b) :=
  Pipeline.withArrays_of_ne spec1 c _ _ b hb
abbrev V6 : VT F := fun c b => W6 m ρ c b
abbrev W7 : WT F := fun c => StableHlo.after hostOps2 (W6 m ρ c)
abbrev V7 : VT F := fun c b => W7 m ρ c b
def W8 (c : Dev nD) : Valuation τ sig (Elt F) :=
  Pipeline.withArrays spec2 c (W7 m ρ c) fun w => (dat2 (V7 m ρ) c).arrAt w cfg2.N
theorem W8_arr (w : Fin cfg2.W) :
    W8 m ρ c (Proc.devRef .tc (Pipeline.arrRef spec2 w)) = (dat2 (V7 m ρ) c).arrAt w cfg2.N :=
  Pipeline.withArrays_arr spec2 launch2.win.arr_inj c _ _ w
theorem W8_of_ne (hb : ∀ w, Pipeline.arrRef spec2 w ≠ b) :
    W8 m ρ c (Proc.devRef .tc b) = W7 m ρ c (Proc.devRef .tc b) :=
  Pipeline.withArrays_of_ne spec2 c _ _ b hb
abbrev V8 : VT F := fun c b => W8 m ρ c b
abbrev W9 : WT F := fun c => StableHlo.after hostOps3 (W8 m ρ c)
abbrev V9 : VT F := fun c b => W9 m ρ c b
def W10 (c : Dev nD) : Valuation τ sig (Elt F) :=
  Pipeline.withArrays spec3 c (W9 m ρ c) fun w => (dat3 (V9 m ρ) c).arrAt w cfg3.N
theorem W10_arr (w : Fin cfg3.W) :
    W10 m ρ c (Proc.devRef .tc (Pipeline.arrRef spec3 w)) = (dat3 (V9 m ρ) c).arrAt w cfg3.N :=
  Pipeline.withArrays_arr spec3 launch3.win.arr_inj c _ _ w
theorem W10_of_ne (hb : ∀ w, Pipeline.arrRef spec3 w ≠ b) :
    W10 m ρ c (Proc.devRef .tc b) = W9 m ρ c (Proc.devRef .tc b) :=
  Pipeline.withArrays_of_ne spec3 c _ _ b hb
abbrev V10 : VT F := fun c b => W10 m ρ c b
abbrev W11 : WT F := fun c => StableHlo.after hostOps4 (W10 m ρ c)
abbrev V11 : VT F := fun c b => W11 m ρ c b
def W12 (c : Dev nD) : Valuation τ sig (Elt F) :=
  Pipeline.withArrays spec4 c (W11 m ρ c) fun w => (dat4 (V11 m ρ) c).arrAt w cfg4.N
theorem W12_arr (w : Fin cfg4.W) :
    W12 m ρ c (Proc.devRef .tc (Pipeline.arrRef spec4 w)) = (dat4 (V11 m ρ) c).arrAt w cfg4.N :=
  Pipeline.withArrays_arr spec4 launch4.win.arr_inj c _ _ w
theorem W12_of_ne (hb : ∀ w, Pipeline.arrRef spec4 w ≠ b) :
    W12 m ρ c (Proc.devRef .tc b) = W11 m ρ c (Proc.devRef .tc b) :=
  Pipeline.withArrays_of_ne spec4 c _ _ b hb
abbrev V12 : VT F := fun c b => W12 m ρ c b
abbrev W13 : WT F := fun c => StableHlo.after hostOps5 (W12 m ρ c)
abbrev V13 : VT F := fun c b => W13 m ρ c b
def W14 (c : Dev nD) : Valuation τ sig (Elt F) :=
  Pipeline.withArrays spec5 c (W13 m ρ c) fun w => (dat5 (V13 m ρ) c).arrAt w cfg5.N
theorem W14_arr (w : Fin cfg5.W) :
    W14 m ρ c (Proc.devRef .tc (Pipeline.arrRef spec5 w)) = (dat5 (V13 m ρ) c).arrAt w cfg5.N :=
  Pipeline.withArrays_arr spec5 launch5.win.arr_inj c _ _ w
theorem W14_of_ne (hb : ∀ w, Pipeline.arrRef spec5 w ≠ b) :
    W14 m ρ c (Proc.devRef .tc b) = W13 m ρ c (Proc.devRef .tc b) :=
  Pipeline.withArrays_of_ne spec5 c _ _ b hb
abbrev V14 : VT F := fun c b => W14 m ρ c b
abbrev W15 : WT F := fun c => StableHlo.after hostOps6 (W14 m ρ c)
abbrev V15 : VT F := fun c b => W15 m ρ c b
def W16 (c : Dev nD) : Valuation τ sig (Elt F) :=
  Pipeline.withArrays spec6 c (W15 m ρ c) fun w => (dat6 (V15 m ρ) c).arrAt w cfg6.N
theorem W16_arr (w : Fin cfg6.W) :
    W16 m ρ c (Proc.devRef .tc (Pipeline.arrRef spec6 w)) = (dat6 (V15 m ρ) c).arrAt w cfg6.N :=
  Pipeline.withArrays_arr spec6 launch6.win.arr_inj c _ _ w
theorem W16_of_ne (hb : ∀ w, Pipeline.arrRef spec6 w ≠ b) :
    W16 m ρ c (Proc.devRef .tc b) = W15 m ρ c (Proc.devRef .tc b) :=
  Pipeline.withArrays_of_ne spec6 c _ _ b hb
abbrev V16 : VT F := fun c b => W16 m ρ c b
abbrev W17 : WT F := fun c => StableHlo.after hostOps7 (W16 m ρ c)
abbrev V17 : VT F := fun c b => W17 m ρ c b
def W18 (c : Dev nD) : Valuation τ sig (Elt F) :=
  Pipeline.withArrays spec7 c (W17 m ρ c) fun w => (dat7 (V17 m ρ) c).arrAt w cfg7.N
theorem W18_arr (w : Fin cfg7.W) :
    W18 m ρ c (Proc.devRef .tc (Pipeline.arrRef spec7 w)) = (dat7 (V17 m ρ) c).arrAt w cfg7.N :=
  Pipeline.withArrays_arr spec7 launch7.win.arr_inj c _ _ w
theorem W18_of_ne (hb : ∀ w, Pipeline.arrRef spec7 w ≠ b) :
    W18 m ρ c (Proc.devRef .tc b) = W17 m ρ c (Proc.devRef .tc b) :=
  Pipeline.withArrays_of_ne spec7 c _ _ b hb
abbrev V18 : VT F := fun c b => W18 m ρ c b
abbrev W19 : WT F := fun c => StableHlo.after hostOps8 (W18 m ρ c)
abbrev V19 : VT F := fun c b => W19 m ρ c b
def W20 (c : Dev nD) : Valuation τ sig (Elt F) :=
  Pipeline.withArrays spec8 c (W19 m ρ c) fun w => (dat8 (V19 m ρ) c).arrAt w cfg8.N
theorem W20_arr (w : Fin cfg8.W) :
    W20 m ρ c (Proc.devRef .tc (Pipeline.arrRef spec8 w)) = (dat8 (V19 m ρ) c).arrAt w cfg8.N :=
  Pipeline.withArrays_arr spec8 launch8.win.arr_inj c _ _ w
theorem W20_of_ne (hb : ∀ w, Pipeline.arrRef spec8 w ≠ b) :
    W20 m ρ c (Proc.devRef .tc b) = W19 m ρ c (Proc.devRef .tc b) :=
  Pipeline.withArrays_of_ne spec8 c _ _ b hb
abbrev V20 : VT F := fun c b => W20 m ρ c b
abbrev W21 : WT F := fun c => StableHlo.after hostOps9 (W20 m ρ c)
abbrev V21 : VT F := fun c b => W21 m ρ c b
def W22 (c : Dev nD) : Valuation τ sig (Elt F) :=
  Pipeline.withArrays spec9 c (W21 m ρ c) fun w => (dat9 (V21 m ρ) c).arrAt w cfg9.N
theorem W22_arr (w : Fin cfg9.W) :
    W22 m ρ c (Proc.devRef .tc (Pipeline.arrRef spec9 w)) = (dat9 (V21 m ρ) c).arrAt w cfg9.N :=
  Pipeline.withArrays_arr spec9 launch9.win.arr_inj c _ _ w
theorem W22_of_ne (hb : ∀ w, Pipeline.arrRef spec9 w ≠ b) :
    W22 m ρ c (Proc.devRef .tc b) = W21 m ρ c (Proc.devRef .tc b) :=
  Pipeline.withArrays_of_ne spec9 c _ _ b hb
abbrev V22 : VT F := fun c b => W22 m ρ c b
abbrev W23 : WT F := fun c => StableHlo.after hostOps10 (W22 m ρ c)
abbrev V23 : VT F := fun c b => W23 m ρ c b
def W24 (c : Dev nD) : Valuation τ sig (Elt F) :=
  Pipeline.withArrays spec10 c (W23 m ρ c) fun w => (dat10 (V23 m ρ) c).arrAt w cfg10.N
theorem W24_arr (w : Fin cfg10.W) :
    W24 m ρ c (Proc.devRef .tc (Pipeline.arrRef spec10 w)) = (dat10 (V23 m ρ) c).arrAt w cfg10.N :=
  Pipeline.withArrays_arr spec10 launch10.win.arr_inj c _ _ w
theorem W24_of_ne (hb : ∀ w, Pipeline.arrRef spec10 w ≠ b) :
    W24 m ρ c (Proc.devRef .tc b) = W23 m ρ c (Proc.devRef .tc b) :=
  Pipeline.withArrays_of_ne spec10 c _ _ b hb
abbrev V24 : VT F := fun c b => W24 m ρ c b
abbrev W25 : WT F := fun c => StableHlo.after hostOps11 (W24 m ρ c)
abbrev V25 : VT F := fun c b => W25 m ρ c b
def W26 (c : Dev nD) : Valuation τ sig (Elt F) :=
  Pipeline.withArrays spec11 c (W25 m ρ c) fun w => (dat11 (V25 m ρ) c).arrAt w cfg11.N
theorem W26_arr (w : Fin cfg11.W) :
    W26 m ρ c (Proc.devRef .tc (Pipeline.arrRef spec11 w)) = (dat11 (V25 m ρ) c).arrAt w cfg11.N :=
  Pipeline.withArrays_arr spec11 launch11.win.arr_inj c _ _ w
theorem W26_of_ne (hb : ∀ w, Pipeline.arrRef spec11 w ≠ b) :
    W26 m ρ c (Proc.devRef .tc b) = W25 m ρ c (Proc.devRef .tc b) :=
  Pipeline.withArrays_of_ne spec11 c _ _ b hb
abbrev V26 : VT F := fun c b => W26 m ρ c b
abbrev W27 : WT F := fun c => StableHlo.after hostOps12 (W26 m ρ c)
abbrev V27 : VT F := fun c b => W27 m ρ c b
def W28 (c : Dev nD) : Valuation τ sig (Elt F) :=
  Pipeline.withArrays spec12 c (W27 m ρ c) fun w => (dat12 (V27 m ρ) c).arrAt w cfg12.N
theorem W28_arr (w : Fin cfg12.W) :
    W28 m ρ c (Proc.devRef .tc (Pipeline.arrRef spec12 w)) = (dat12 (V27 m ρ) c).arrAt w cfg12.N :=
  Pipeline.withArrays_arr spec12 launch12.win.arr_inj c _ _ w
theorem W28_of_ne (hb : ∀ w, Pipeline.arrRef spec12 w ≠ b) :
    W28 m ρ c (Proc.devRef .tc b) = W27 m ρ c (Proc.devRef .tc b) :=
  Pipeline.withArrays_of_ne spec12 c _ _ b hb
abbrev V28 : VT F := fun c b => W28 m ρ c b
abbrev W29 : WT F := fun c => StableHlo.after hostOps13 (W28 m ρ c)
abbrev V29 : VT F := fun c b => W29 m ρ c b
def W30 (c : Dev nD) : Valuation τ sig (Elt F) :=
  Pipeline.withArrays spec13 c (W29 m ρ c) fun w => (dat13 (V29 m ρ) c).arrAt w cfg13.N
theorem W30_arr (w : Fin cfg13.W) :
    W30 m ρ c (Proc.devRef .tc (Pipeline.arrRef spec13 w)) = (dat13 (V29 m ρ) c).arrAt w cfg13.N :=
  Pipeline.withArrays_arr spec13 launch13.win.arr_inj c _ _ w
theorem W30_of_ne (hb : ∀ w, Pipeline.arrRef spec13 w ≠ b) :
    W30 m ρ c (Proc.devRef .tc b) = W29 m ρ c (Proc.devRef .tc b) :=
  Pipeline.withArrays_of_ne spec13 c _ _ b hb
abbrev V30 : VT F := fun c b => W30 m ρ c b

/-- What is written between boundary 4 and boundary n, cumulatively; a reference outside it holds at boundary n what it held at boundary 4. -/
abbrev wr5 : List (Ref sig .tc) := hostOps1_W
theorem W5_keep (h : b ∉ wr5) : W5 m ρ c (Proc.devRef .tc b) = W4 m ρ c (Proc.devRef .tc b) :=
  StableHlo.after_of_writes_sub hostOps1 _ hostOps1_writes h
abbrev wr6 : List (Ref sig .tc) := List.ofFn (Pipeline.arrRef spec1) ++ wr5
theorem W6_keep (h : b ∉ wr6) : W6 m ρ c (Proc.devRef .tc b) = W4 m ρ c (Proc.devRef .tc b) :=
  keep_reg spec1 c _ (W5_keep m ρ c b) h
abbrev wr7 : List (Ref sig .tc) := hostOps2_W ++ wr6
theorem W7_keep (h : b ∉ wr7) : W7 m ρ c (Proc.devRef .tc b) = W4 m ρ c (Proc.devRef .tc b) :=
  keep_host hostOps2_writes (W6_keep m ρ c b) h
abbrev wr8 : List (Ref sig .tc) := List.ofFn (Pipeline.arrRef spec2) ++ wr7
theorem W8_keep (h : b ∉ wr8) : W8 m ρ c (Proc.devRef .tc b) = W4 m ρ c (Proc.devRef .tc b) :=
  keep_reg spec2 c _ (W7_keep m ρ c b) h
abbrev wr9 : List (Ref sig .tc) := hostOps3_W ++ wr8
theorem W9_keep (h : b ∉ wr9) : W9 m ρ c (Proc.devRef .tc b) = W4 m ρ c (Proc.devRef .tc b) :=
  keep_host hostOps3_writes (W8_keep m ρ c b) h
abbrev wr10 : List (Ref sig .tc) := List.ofFn (Pipeline.arrRef spec3) ++ wr9
theorem W10_keep (h : b ∉ wr10) : W10 m ρ c (Proc.devRef .tc b) = W4 m ρ c (Proc.devRef .tc b) :=
  keep_reg spec3 c _ (W9_keep m ρ c b) h
abbrev wr11 : List (Ref sig .tc) := hostOps4_W ++ wr10
theorem W11_keep (h : b ∉ wr11) : W11 m ρ c (Proc.devRef .tc b) = W4 m ρ c (Proc.devRef .tc b) :=
  keep_host hostOps4_writes (W10_keep m ρ c b) h
abbrev wr12 : List (Ref sig .tc) := List.ofFn (Pipeline.arrRef spec4) ++ wr11
theorem W12_keep (h : b ∉ wr12) : W12 m ρ c (Proc.devRef .tc b) = W4 m ρ c (Proc.devRef .tc b) :=
  keep_reg spec4 c _ (W11_keep m ρ c b) h
abbrev wr13 : List (Ref sig .tc) := hostOps5_W ++ wr12
theorem W13_keep (h : b ∉ wr13) : W13 m ρ c (Proc.devRef .tc b) = W4 m ρ c (Proc.devRef .tc b) :=
  keep_host hostOps5_writes (W12_keep m ρ c b) h
abbrev wr14 : List (Ref sig .tc) := List.ofFn (Pipeline.arrRef spec5) ++ wr13
theorem W14_keep (h : b ∉ wr14) : W14 m ρ c (Proc.devRef .tc b) = W4 m ρ c (Proc.devRef .tc b) :=
  keep_reg spec5 c _ (W13_keep m ρ c b) h
abbrev wr15 : List (Ref sig .tc) := hostOps6_W ++ wr14
theorem W15_keep (h : b ∉ wr15) : W15 m ρ c (Proc.devRef .tc b) = W4 m ρ c (Proc.devRef .tc b) :=
  keep_host hostOps6_writes (W14_keep m ρ c b) h
abbrev wr16 : List (Ref sig .tc) := List.ofFn (Pipeline.arrRef spec6) ++ wr15
theorem W16_keep (h : b ∉ wr16) : W16 m ρ c (Proc.devRef .tc b) = W4 m ρ c (Proc.devRef .tc b) :=
  keep_reg spec6 c _ (W15_keep m ρ c b) h
abbrev wr17 : List (Ref sig .tc) := hostOps7_W ++ wr16
theorem W17_keep (h : b ∉ wr17) : W17 m ρ c (Proc.devRef .tc b) = W4 m ρ c (Proc.devRef .tc b) :=
  keep_host hostOps7_writes (W16_keep m ρ c b) h
abbrev wr18 : List (Ref sig .tc) := List.ofFn (Pipeline.arrRef spec7) ++ wr17
theorem W18_keep (h : b ∉ wr18) : W18 m ρ c (Proc.devRef .tc b) = W4 m ρ c (Proc.devRef .tc b) :=
  keep_reg spec7 c _ (W17_keep m ρ c b) h
abbrev wr19 : List (Ref sig .tc) := hostOps8_W ++ wr18
theorem W19_keep (h : b ∉ wr19) : W19 m ρ c (Proc.devRef .tc b) = W4 m ρ c (Proc.devRef .tc b) :=
  keep_host hostOps8_writes (W18_keep m ρ c b) h
abbrev wr20 : List (Ref sig .tc) := List.ofFn (Pipeline.arrRef spec8) ++ wr19
theorem W20_keep (h : b ∉ wr20) : W20 m ρ c (Proc.devRef .tc b) = W4 m ρ c (Proc.devRef .tc b) :=
  keep_reg spec8 c _ (W19_keep m ρ c b) h
abbrev wr21 : List (Ref sig .tc) := hostOps9_W ++ wr20
theorem W21_keep (h : b ∉ wr21) : W21 m ρ c (Proc.devRef .tc b) = W4 m ρ c (Proc.devRef .tc b) :=
  keep_host hostOps9_writes (W20_keep m ρ c b) h
abbrev wr22 : List (Ref sig .tc) := List.ofFn (Pipeline.arrRef spec9) ++ wr21
theorem W22_keep (h : b ∉ wr22) : W22 m ρ c (Proc.devRef .tc b) = W4 m ρ c (Proc.devRef .tc b) :=
  keep_reg spec9 c _ (W21_keep m ρ c b) h
abbrev wr23 : List (Ref sig .tc) := hostOps10_W ++ wr22
theorem W23_keep (h : b ∉ wr23) : W23 m ρ c (Proc.devRef .tc b) = W4 m ρ c (Proc.devRef .tc b) :=
  keep_host hostOps10_writes (W22_keep m ρ c b) h
abbrev wr24 : List (Ref sig .tc) := List.ofFn (Pipeline.arrRef spec10) ++ wr23
theorem W24_keep (h : b ∉ wr24) : W24 m ρ c (Proc.devRef .tc b) = W4 m ρ c (Proc.devRef .tc b) :=
  keep_reg spec10 c _ (W23_keep m ρ c b) h
abbrev wr25 : List (Ref sig .tc) := hostOps11_W ++ wr24
theorem W25_keep (h : b ∉ wr25) : W25 m ρ c (Proc.devRef .tc b) = W4 m ρ c (Proc.devRef .tc b) :=
  keep_host hostOps11_writes (W24_keep m ρ c b) h
abbrev wr26 : List (Ref sig .tc) := List.ofFn (Pipeline.arrRef spec11) ++ wr25
theorem W26_keep (h : b ∉ wr26) : W26 m ρ c (Proc.devRef .tc b) = W4 m ρ c (Proc.devRef .tc b) :=
  keep_reg spec11 c _ (W25_keep m ρ c b) h
abbrev wr27 : List (Ref sig .tc) := hostOps12_W ++ wr26
theorem W27_keep (h : b ∉ wr27) : W27 m ρ c (Proc.devRef .tc b) = W4 m ρ c (Proc.devRef .tc b) :=
  keep_host hostOps12_writes (W26_keep m ρ c b) h
abbrev wr28 : List (Ref sig .tc) := List.ofFn (Pipeline.arrRef spec12) ++ wr27
theorem W28_keep (h : b ∉ wr28) : W28 m ρ c (Proc.devRef .tc b) = W4 m ρ c (Proc.devRef .tc b) :=
  keep_reg spec12 c _ (W27_keep m ρ c b) h
abbrev wr29 : List (Ref sig .tc) := hostOps13_W ++ wr28
theorem W29_keep (h : b ∉ wr29) : W29 m ρ c (Proc.devRef .tc b) = W4 m ρ c (Proc.devRef .tc b) :=
  keep_host hostOps13_writes (W28_keep m ρ c b) h
abbrev wr30 : List (Ref sig .tc) := List.ofFn (Pipeline.arrRef spec13) ++ wr29
theorem W30_keep (h : b ∉ wr30) : W30 m ρ c (Proc.devRef .tc b) = W4 m ρ c (Proc.devRef .tc b) :=
  keep_reg spec13 c _ (W29_keep m ρ c b) h

/-- The three opening stretches keep a reference none of them writes. -/
theorem W3_keep (h : b ∉ hostOps0_2_W ++ (hostOps0_1_W ++ hostOps0_W)) :
    W3 m ρ c (Proc.devRef .tc b) = W0 m ρ c (Proc.devRef .tc b) :=
  keep_host hostOps0_2_writes (keep_host hostOps0_1_writes (StableHlo.after_of_writes_sub hostOps0 _ hostOps0_writes)) h

/-- A reference kept by the last region, by everything between boundaries 4 and 29, by region 0 and by the opening ends as launched. -/
theorem arg_end (h30 : W30 m ρ c (Proc.devRef .tc b) = W29 m ρ c (Proc.devRef .tc b)) (hk : b ∉ wr29)
    (h4 : W4 m ρ c (Proc.devRef .tc b) = W3 m ρ c (Proc.devRef .tc b)) (h3 : b ∉ hostOps0_2_W ++ (hostOps0_1_W ++ hostOps0_W)) :
    W30 m ρ c (Proc.devRef .tc b) = m ((c : Thread nD τ).loc b) :=
  h30.trans ((W29_keep m ρ c b hk).trans (h4.trans (W3_keep m ρ c b h3)))

theorem W30_main_arg0 : W30 m ρ c (Proc.devRef .tc main_arg0) = m ((c : Thread nD τ).loc main_arg0) :=
  arg_end m ρ c _ (W30_of_ne m ρ c _ (by decide)) (by decide) ((W4_arr m ρ c 0).trans (((dat0 (V3 m ρ) c).arrAt_in 0 rfl _).trans (A_eq0 (V3 m ρ) c 0))) (by decide)
theorem W30_main_arg1 : W30 m ρ c (Proc.devRef .tc main_arg1) = m ((c : Thread nD τ).loc main_arg1) :=
  arg_end m ρ c _ (W30_of_ne m ρ c _ (by decide)) (by decide) (W4_of_ne m ρ c _ (by decide)) (by decide)
theorem W30_main_arg2 : W30 m ρ c (Proc.devRef .tc main_arg2) = m ((c : Thread nD τ).loc main_arg2) :=
  arg_end m ρ c _ (W30_of_ne m ρ c _ (by decide)) (by decide) (W4_of_ne m ρ c _ (by decide)) (by decide)
theorem W30_main_arg3 : W30 m ρ c (Proc.devRef .tc main_arg3) = m ((c : Thread nD τ).loc main_arg3) :=
  arg_end m ρ c _ (W30_of_ne m ρ c _ (by decide)) (by decide) ((W4_arr m ρ c 1).trans (((dat0 (V3 m ρ) c).arrAt_in 1 rfl _).trans (A_eq0 (V3 m ρ) c 1))) (by decide)
theorem W30_main_arg4 : W30 m ρ c (Proc.devRef .tc main_arg4) = m ((c : Thread nD τ).loc main_arg4) :=
  arg_end m ρ c _ (W30_of_ne m ρ c _ (by decide)) (by decide) (W4_of_ne m ρ c _ (by decide)) (by decide)
theorem W30_main_arg5 : W30 m ρ c (Proc.devRef .tc main_arg5) = m ((c : Thread nD τ).loc main_arg5) :=
  arg_end m ρ c _ (W30_of_ne m ρ c _ (by decide)) (by decide) (W4_of_ne m ρ c _ (by decide)) (by decide)
theorem W30_main_arg6 : W30 m ρ c (Proc.devRef .tc main_arg6) = m ((c : Thread nD τ).loc main_arg6) :=
  arg_end m ρ c _ (W30_of_ne m ρ c _ (by decide)) (by decide) (W4_of_ne m ρ c _ (by decide)) (by decide)
theorem W30_main_arg7 : W30 m ρ c (Proc.devRef .tc main_arg7) = m ((c : Thread nD τ).loc main_arg7) :=
  arg_end m ρ c _ (W30_of_ne m ρ c _ (by decide)) (by decide) (W4_of_ne m ρ c _ (by decide)) (by decide)
theorem W30_main_arg8 : W30 m ρ c (Proc.devRef .tc main_arg8) = m ((c : Thread nD τ).loc main_arg8) :=
  arg_end m ρ c _ (W30_of_ne m ρ c _ (by decide)) (by decide) (W4_of_ne m ρ c _ (by decide)) (by decide)
theorem W30_main_arg9 : W30 m ρ c (Proc.devRef .tc main_arg9) = m ((c : Thread nD τ).loc main_arg9) :=
  arg_end m ρ c _ ((W30_arr m ρ c 2).trans (((dat13 (V29 m ρ) c).arrAt_in 2 rfl _).trans (A_eq13 (V29 m ρ) c 2))) (by decide) (W4_of_ne m ρ c _ (by decide)) (by decide)
theorem W30_main_arg10 : W30 m ρ c (Proc.devRef .tc main_arg10) = m ((c : Thread nD τ).loc main_arg10) :=
  arg_end m ρ c _ (W30_of_ne m ρ c _ (by decide)) (by decide) (W4_of_ne m ρ c _ (by decide)) (by decide)

end

def pdats : (p : Fin 14) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
  | ⟨4, _⟩ => fun c => dat4 (V11 m ρ) c
  | ⟨5, _⟩ => fun c => dat5 (V13 m ρ) c
  | ⟨6, _⟩ => fun c => dat6 (V15 m ρ) c
  | ⟨7, _⟩ => fun c => dat7 (V17 m ρ) c
  | ⟨8, _⟩ => fun c => dat8 (V19 m ρ) c
  | ⟨9, _⟩ => fun c => dat9 (V21 m ρ) c
  | ⟨10, _⟩ => fun c => dat10 (V23 m ρ) c
  | ⟨11, _⟩ => fun c => dat11 (V25 m ρ) c
  | ⟨12, _⟩ => fun c => dat12 (V27 m ρ) c
  | ⟨13, _⟩ => fun c => dat13 (V29 m ρ) c

abbrev Tₙ (c : Dev nD) : sProp 𝕄 := iprop(StableHlo.held (c : Thread nD τ) (Pipeline.ucRefs τ sig) (W30 m ρ c) ∗ ∃ r, prngReg c r)

section
set_option backward.isDefEq.respectTransparency.types false
def reg0 : Pipeline.RegionSeg (pcfgs (F := F)) adm (pdats m ρ) () defs₀ 𝒱₀ L lv 0 :=
  mkReg (pdats m ρ) 0 launch0 (W3 m ρ) (W4 m ρ) (body_obligation0 (V3 m ρ)) (A_eq0 (V3 m ρ)) (hin0 (V3 m ρ)) (hout0 (V3 m ρ)) (W4_arr m ρ) (W4_of_ne m ρ)
def reg1 : Pipeline.RegionSeg (pcfgs (F := F)) adm (pdats m ρ) () defs₀ 𝒱₀ L lv 1 :=
  mkReg (pdats m ρ) 1 launch1 (W5 m ρ) (W6 m ρ) (body_obligation1 (V5 m ρ)) (A_eq1 (V5 m ρ)) (hin1 (V5 m ρ)) (hout1 (V5 m ρ)) (W6_arr m ρ) (W6_of_ne m ρ)
def reg2 : Pipeline.RegionSeg (pcfgs (F := F)) adm (pdats m ρ) () defs₀ 𝒱₀ L lv 2 :=
  mkReg (pdats m ρ) 2 launch2 (W7 m ρ) (W8 m ρ) (body_obligation2 (V7 m ρ)) (A_eq2 (V7 m ρ)) (hin2 (V7 m ρ)) (hout2 (V7 m ρ)) (W8_arr m ρ) (W8_of_ne m ρ)
def reg3 : Pipeline.RegionSeg (pcfgs (F := F)) adm (pdats m ρ) () defs₀ 𝒱₀ L lv 3 :=
  mkReg (pdats m ρ) 3 launch3 (W9 m ρ) (W10 m ρ) (body_obligation3 (V9 m ρ)) (A_eq3 (V9 m ρ)) (hin3 (V9 m ρ)) (hout3 (V9 m ρ)) (W10_arr m ρ) (W10_of_ne m ρ)
def reg4 : Pipeline.RegionSeg (pcfgs (F := F)) adm (pdats m ρ) () defs₀ 𝒱₀ L lv 4 :=
  mkReg (pdats m ρ) 4 launch4 (W11 m ρ) (W12 m ρ) (body_obligation4 (V11 m ρ)) (A_eq4 (V11 m ρ)) (hin4 (V11 m ρ)) (hout4 (V11 m ρ)) (W12_arr m ρ) (W12_of_ne m ρ)
def reg5 : Pipeline.RegionSeg (pcfgs (F := F)) adm (pdats m ρ) () defs₀ 𝒱₀ L lv 5 :=
  mkReg (pdats m ρ) 5 launch5 (W13 m ρ) (W14 m ρ) (body_obligation5 (V13 m ρ)) (A_eq5 (V13 m ρ)) (hin5 (V13 m ρ)) (hout5 (V13 m ρ)) (W14_arr m ρ) (W14_of_ne m ρ)
def reg6 : Pipeline.RegionSeg (pcfgs (F := F)) adm (pdats m ρ) () defs₀ 𝒱₀ L lv 6 :=
  mkReg (pdats m ρ) 6 launch6 (W15 m ρ) (W16 m ρ) (body_obligation6 (V15 m ρ)) (A_eq6 (V15 m ρ)) (hin6 (V15 m ρ)) (hout6 (V15 m ρ)) (W16_arr m ρ) (W16_of_ne m ρ)
def reg7 : Pipeline.RegionSeg (pcfgs (F := F)) adm (pdats m ρ) () defs₀ 𝒱₀ L lv 7 :=
  mkReg (pdats m ρ) 7 launch7 (W17 m ρ) (W18 m ρ) (body_obligation7 (V17 m ρ)) (A_eq7 (V17 m ρ)) (hin7 (V17 m ρ)) (hout7 (V17 m ρ)) (W18_arr m ρ) (W18_of_ne m ρ)
def reg8 : Pipeline.RegionSeg (pcfgs (F := F)) adm (pdats m ρ) () defs₀ 𝒱₀ L lv 8 :=
  mkReg (pdats m ρ) 8 launch8 (W19 m ρ) (W20 m ρ) (body_obligation8 (V19 m ρ)) (A_eq8 (V19 m ρ)) (hin8 (V19 m ρ)) (hout8 (V19 m ρ)) (W20_arr m ρ) (W20_of_ne m ρ)
def reg9 : Pipeline.RegionSeg (pcfgs (F := F)) adm (pdats m ρ) () defs₀ 𝒱₀ L lv 9 :=
  mkReg (pdats m ρ) 9 launch9 (W21 m ρ) (W22 m ρ) (body_obligation9 (V21 m ρ)) (A_eq9 (V21 m ρ)) (hin9 (V21 m ρ)) (hout9 (V21 m ρ)) (W22_arr m ρ) (W22_of_ne m ρ)
def reg10 : Pipeline.RegionSeg (pcfgs (F := F)) adm (pdats m ρ) () defs₀ 𝒱₀ L lv 10 :=
  mkReg (pdats m ρ) 10 launch10 (W23 m ρ) (W24 m ρ) (body_obligation10 (V23 m ρ)) (A_eq10 (V23 m ρ)) (hin10 (V23 m ρ)) (hout10 (V23 m ρ)) (W24_arr m ρ) (W24_of_ne m ρ)
def reg11 : Pipeline.RegionSeg (pcfgs (F := F)) adm (pdats m ρ) () defs₀ 𝒱₀ L lv 11 :=
  mkReg (pdats m ρ) 11 launch11 (W25 m ρ) (W26 m ρ) (body_obligation11 (V25 m ρ)) (A_eq11 (V25 m ρ)) (hin11 (V25 m ρ)) (hout11 (V25 m ρ)) (W26_arr m ρ) (W26_of_ne m ρ)
def reg12 : Pipeline.RegionSeg (pcfgs (F := F)) adm (pdats m ρ) () defs₀ 𝒱₀ L lv 12 :=
  mkReg (pdats m ρ) 12 launch12 (W27 m ρ) (W28 m ρ) (body_obligation12 (V27 m ρ)) (A_eq12 (V27 m ρ)) (hin12 (V27 m ρ)) (hout12 (V27 m ρ)) (W28_arr m ρ) (W28_of_ne m ρ)
def reg13 : Pipeline.RegionSeg (pcfgs (F := F)) adm (pdats m ρ) () defs₀ 𝒱₀ L lv 13 :=
  mkReg (pdats m ρ) 13 launch13 (W29 m ρ) (W30 m ρ) (body_obligation13 (V29 m ρ)) (A_eq13 (V29 m ρ)) (hin13 (V29 m ρ)) (hout13 (V29 m ρ)) (W30_arr m ρ) (W30_of_ne m ρ)
end

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)),
    .region (reg5 m ρ),
    .host (hseg hostOps6 hostOps6_sub hostOps6_fresh (W14 m ρ)),
    .region (reg6 m ρ),
    .host (hseg hostOps7 hostOps7_sub hostOps7_fresh (W16 m ρ)),
    .region (reg7 m ρ),
    .host (hseg hostOps8 hostOps8_sub hostOps8_fresh (W18 m ρ)),
    .region (reg8 m ρ),
    .host (hseg hostOps9 hostOps9_sub hostOps9_fresh (W20 m ρ)),
    .region (reg9 m ρ),
    .host (hseg hostOps10 hostOps10_sub hostOps10_fresh (W22 m ρ)),
    .region (reg10 m ρ),
    .host (hseg hostOps11 hostOps11_sub hostOps11_fresh (W24 m ρ)),
    .region (reg11 m ρ),
    .host (hseg hostOps12 hostOps12_sub hostOps12_fresh (W26 m ρ)),
    .region (reg12 m ρ),
    .host (hseg hostOps13 hostOps13_sub hostOps13_fresh (W28 m ρ)),
    .region (reg13 m ρ) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W30 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W30 m ρ c b)
    (hfin := fun c s' => by
      iintro ⟨⟨Hh, -⟩, HSI⟩
      unfold StableHlo.held
      imodintro
      iapply (pointsTo_read_all (Pipeline.ucRefs τ sig) (fun b => (((c : Thread nD τ)).1, b)) (W30 m ρ c) s')
      isplitl [Hh] <;> iassumption)
    (hQ := fun _ h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W30_main_arg0 m ρ c),
     (h c _ (mem_uc main_arg1 (by decide))).trans (W30_main_arg1 m ρ c),
     (h c _ (mem_uc main_arg2 (by decide))).trans (W30_main_arg2 m ρ c),
     (h c _ (mem_uc main_arg3 (by decide))).trans (W30_main_arg3 m ρ c),
     (h c _ (mem_uc main_arg4 (by decide))).trans (W30_main_arg4 m ρ c),
     (h c _ (mem_uc main_arg5 (by decide))).trans (W30_main_arg5 m ρ c),
     (h c _ (mem_uc main_arg6 (by decide))).trans (W30_main_arg6 m ρ c),
     (h c _ (mem_uc main_arg7 (by decide))).trans (W30_main_arg7 m ρ c),
     (h c _ (mem_uc main_arg8 (by decide))).trans (W30_main_arg8 m ρ c),
     (h c _ (mem_uc main_arg9 (by decide))).trans (W30_main_arg9 m ρ c),
     (h c _ (mem_uc main_arg10 (by decide))).trans (W30_main_arg10 m ρ c)⟩) (run_all m ρ)

end Cert.Kernel.Reg

end
-- ==== Proof.KI.R00.lean ====
import proofs.«408439_j66932770341395_1_alg».proof.Proof.Gen.KernelIdeal.Launch
import proofs.«408439_j66932770341395_1_alg».proof.Proof.Gen.KernelIdeal.Skeleton
import proofs.«408439_j66932770341395_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

def out0_3 (x : Vec F S5000x128 .f32) (y : Vec F S128x128 .f32) (z : Vec F S1x128 .f32) : Vec F S5000x128 .f32 :=
  View.canon [⟨r0_0, k0_pay1 (View.ld x r0_0) (View.ld y r0_1) (View.ld z r0_2)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

theorem before0_in (c : Dev nD) (w : Fin cfg0.W) (hw : w.val < 3 := by decide) (t : Fin cfg0.N) (d) :
    (dat0 V c).before w t d = (dat0 V c).after w t :=
  match w with
  | ⟨0, _⟩ | ⟨1, _⟩ | ⟨2, _⟩ =>
    ((dat0 V c).before_in_eq_fetched _ rfl (fun _ => rfl) (fun _ _ _ => rfl) (fun _ => rfl) t d).trans rfl
  | ⟨3, _⟩ => absurd hw (Nat.lt_irrefl 3)

set_option maxHeartbeats 4000000 in
theorem sound_kernel0 (c : Dev nD) {E : Set ℕ} {i : grid0.Coords}
    {a : Memref sig .tc .vmem S5000x128 .f32} {ha : a.IsWhole} {b : Memref sig .tc .vmem S128x128 .f32} {hb : b.IsWhole}
    {u : Memref sig .tc .vmem S1x128 .f32} {hu : u.IsWhole} {v : Memref sig .tc .vmem S5000x128 .f32} {hv : v.IsWhole}
    {x s : Vec F S5000x128 .f32} {y : Vec F S128x128 .f32} {z : Vec F S1x128 .f32} {K : PUnit → sProp 𝕄} :
    iprop(owns c a fullShare x ∗ owns c b fullShare y ∗ owns c u fullShare z ∗ owns c v fullShare s
        ∗ (owns c a fullShare x ∗ owns c b fullShare y ∗ owns c u fullShare z ∗ owns c v fullShare (out0_3 x y z) -∗ K ⟨⟩))
      ⊢ wp frame (wpE (defs₀ (F := F)) Variants.none c none) E (cc0__linear_kernel i a ha b hb u hu v hv) K := by
  simp only [cc0__linear_kernel_eq_skeleton]; unfold cc0__linear_kernel_skel owns
  iintro ⟨⟨%f, %hf, Hx⟩, ⟨%g, %hg, Hy⟩, ⟨%h, %hh, Hz⟩, ⟨%k, -, Hv⟩, Hk⟩
  subst hf hg hh
  sl_exec
  sl_step
  iapply Hk
  isplitl [Hx]
  · iexists f; isplitr; · ipureintro; rfl
    iexact Hx
  isplitl [Hy]
  · iexists g; isplitr; · ipureintro; rfl
    iexact Hy
  isplitl [Hz]
  · iexists h; isplitr; · ipureintro; rfl
    iexact Hz
  iexists _; isplitr
  swap; · iexact Hv
  ipureintro
  exact View.read_writes_eq_canon _ _ _ (View.cover_of_tiled _ S5000x128.size (by rfl))

theorem body_obligation0 (c : Dev nD) : BodyObligation (dat0 (F := F) V c) (defs₀ (F := F)) Variants.none () Set.univ := fun t => by
  rw [bigSep_W0, bigSep_W0]
  simp only [before0_in V c 0, before0_in V c 1, before0_in V c 2]
  rw [show (dat0 V c).Φ t.succ = (dat0 V c).Φ t.castSucc from rfl,
    show (dat0 V c).owesAt () t.succ = (dat0 V c).owesAt () t.castSucc from rfl,
    show (dat0 V c).after 3 t = out0_3 ((dat0 V c).after 0 t) ((dat0 V c).after 1 t) ((dat0 V c).after 2 t) from by dsimp only [dat0]]
  show _ ⊢ wp _ _ _ (bodyAt0 t) _
  iintro ⟨HΦ, Ho, ⟨%d, Hx⟩, ⟨%d, Hy⟩, ⟨%d, Hz⟩, ⟨%d, Hv⟩⟩
  iapply (sound_kernel0 c)
  iframe Hx Hy Hz Hv
  iintro ⟨Hx, Hy, Hz, Hv⟩
  iframe

theorem hin0 (c : Dev nD) : (Pipeline.ΦA spec0 c : sProp 𝕄) ⊢ (dat0 V c).Φ 0 := .rfl
theorem hout0 (c : Dev nD) : (dat0 V c).Φ (Fin.last cfg0.N) ⊢ (Pipeline.ΦA spec0 c : sProp 𝕄) := .rfl

end Cert.KernelIdeal.Reg
end
-- ==== Proof.KI.R01.lean ====
import proofs.«408439_j66932770341395_1_alg».proof.Proof.Gen.KernelIdeal.Launch
import proofs.«408439_j66932770341395_1_alg».proof.Proof.Gen.KernelIdeal.Skeleton
import proofs.«408439_j66932770341395_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

def out1_3 (x : Vec F S5000x128 .f32) (y : Vec F S128x128 .f32) (z : Vec F S1x128 .f32) : Vec F S5000x128 .f32 :=
  View.canon [⟨r1_0, k1_pay1 (View.ld x r1_0) (View.ld y r1_1) (View.ld z r1_2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) :
    (dat1 V c).after 3 t = out1_3 (iblk1 V c 0 t) (iblk1 V c 1 t) (iblk1 V c 2 t) := by dsimp only [dat1]

theorem before1_in (c : Dev nD) (w : Fin cfg1.W) (hw : w.val < 3 := by decide) (t : Fin cfg1.N) (d) :
    (dat1 V c).before w t d = (dat1 V c).after w t :=
  match w with
  | ⟨0, _⟩ | ⟨1, _⟩ | ⟨2, _⟩ =>
    ((dat1 V c).before_in_eq_fetched _ rfl (fun _ => rfl) (fun _ _ _ => rfl) (fun _ => rfl) t d).trans rfl
  | ⟨3, _⟩ => absurd hw (Nat.lt_irrefl 3)

set_option maxHeartbeats 4000000 in
theorem sound_kernel1 (c : Dev nD) {E : Set ℕ} {i : grid1.Coords}
    {a : Memref sig .tc .vmem S5000x128 .f32} {ha : a.IsWhole} {b : Memref sig .tc .vmem S128x128 .f32} {hb : b.IsWhole}
    {u : Memref sig .tc .vmem S1x128 .f32} {hu : u.IsWhole} {v : Memref sig .tc .vmem S5000x128 .f32} {hv : v.IsWhole}
    {x s : Vec F S5000x128 .f32} {y : Vec F S128x128 .f32} {z : Vec F S1x128 .f32} {K : PUnit → sProp 𝕄} :
    iprop(owns c a fullShare x ∗ owns c b fullShare y ∗ owns c u fullShare z ∗ owns c v fullShare s
        ∗ (owns c a fullShare x ∗ owns c b fullShare y ∗ owns c u fullShare z ∗ owns c v fullShare (out1_3 x y z) -∗ K ⟨⟩))
      ⊢ wp frame (wpE (defs₀ (F := F)) Variants.none c none) E (cc1__linear_kernel i a ha b hb u hu v hv) K := by
  simp only [cc1__linear_kernel_eq_skeleton]; unfold cc1__linear_kernel_skel owns
  iintro ⟨⟨%f, %hf, Hx⟩, ⟨%g, %hg, Hy⟩, ⟨%h, %hh, Hz⟩, ⟨%k, -, Hv⟩, Hk⟩
  subst hf hg hh
  sl_exec
  sl_step
  iapply Hk
  isplitl [Hx]
  · iexists f; isplitr; · ipureintro; rfl
    iexact Hx
  isplitl [Hy]
  · iexists g; isplitr; · ipureintro; rfl
    iexact Hy
  isplitl [Hz]
  · iexists h; isplitr; · ipureintro; rfl
    iexact Hz
  iexists _; isplitr
  swap; · iexact Hv
  ipureintro
  exact View.read_writes_eq_canon _ _ _ (View.cover_of_tiled _ S5000x128.size (by rfl))

theorem body_obligation1 (c : Dev nD) : BodyObligation (dat1 (F := F) V c) (defs₀ (F := F)) Variants.none () Set.univ := fun t => by
  rw [bigSep_W1, bigSep_W1]
  simp only [before1_in V c 0, before1_in V c 1, before1_in V c 2]
  rw [show (dat1 V c).Φ t.succ = (dat1 V c).Φ t.castSucc from rfl,
    show (dat1 V c).owesAt () t.succ = (dat1 V c).owesAt () t.castSucc from rfl,
    show (dat1 V c).after 3 t = out1_3 ((dat1 V c).after 0 t) ((dat1 V c).after 1 t) ((dat1 V c).after 2 t) from by dsimp only [dat1]]
  show _ ⊢ wp _ _ _ (bodyAt1 t) _
  iintro ⟨HΦ, Ho, ⟨%d, Hx⟩, ⟨%d, Hy⟩, ⟨%d, Hz⟩, ⟨%d, Hv⟩⟩
  iapply (sound_kernel1 c)
  iframe Hx Hy Hz Hv
  iintro ⟨Hx, Hy, Hz, Hv⟩
  iframe

theorem hin1 (c : Dev nD) : (Pipeline.ΦA spec1 c : sProp 𝕄) ⊢ (dat1 V c).Φ 0 := .rfl
theorem hout1 (c : Dev nD) : (dat1 V c).Φ (Fin.last cfg1.N) ⊢ (Pipeline.ΦA spec1 c : sProp 𝕄) := .rfl

end Cert.KernelIdeal.Reg
end
-- ==== Proof.KI.R02.lean ====
import proofs.«408439_j66932770341395_1_alg».proof.Proof.Gen.KernelIdeal.Launch
import proofs.«408439_j66932770341395_1_alg».proof.Proof.Gen.KernelIdeal.Skeleton
import proofs.«408439_j66932770341395_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

noncomputable abbrev condF2 (i : grid2.Coords) : Prop := (Scalar.cmpi .ne (Scalar.extui (Scalar.cmpi .eq (BitVec.ofNat 32 (i 0).val) 0#32)) 0#32) = 1#1
noncomputable abbrev condL2 (i : grid2.Coords) : Prop := k2_cond2 i = 1#1
theorem hcondF2 : ∀ t : Fin cfg2.N, condF2 (grid2.coords t) ↔ t.val = 0 :=
  (by decide +kernel : ∀ t : Fin grid2.N, condF2 (grid2.coords t) ↔ t.val = 0)
theorem hcondL2 : ∀ t : Fin cfg2.N, condL2 (grid2.coords t) ↔ t.val = 9 :=
  (by decide +kernel : ∀ t : Fin grid2.N, condL2 (grid2.coords t) ↔ t.val = 9)
theorem live2 : ∀ (t : Fin cfg2.N) (w : Fin cfg2.W), w.val < 3 ∨ t.val = 9 → cfg2.idle w (grid2.coords t) = false := by decide +kernel
theorem idle2 : ∀ (t : Fin cfg2.N) (w : Fin cfg2.W), 3 ≤ w.val → t.val ≠ 9 → cfg2.idle w (grid2.coords t) = true ∧ (cfg2.win w).flush t = false := by decide +kernel

theorem hzero2 : (![0, 0] : Fin 2 → Nat) = fun _ => 0 := funext fun a => by fin_cases a <;> rfl
noncomputable abbrev rT2 : Rect S5000x128 := Rect.unit (s := S5000x128) ![0, 0] S5000x128.size inb_S5000x128_S5000x128_0_0
noncomputable abbrev rR2 : Rect S1x128 := Rect.unit (s := S1x128) ![0, 0] S1x128.size inb_S1x128_S1x128_0_0

noncomputable def out2_2 (x : Vec F S5000x128 .f32) (y : Vec F S1x128 .f32) : Vec F S5000x128 .f32 :=
  View.canon [⟨rT2, k2_pay3 (View.ld x rT2) (View.ld y rR2)⟩]
noncomputable def acc2_0 (x : Vec F S5000x128 .f32) (y s : Vec F S1x128 .f32) : Vec F S1x128 .f32 :=
  View.canon [⟨rR2, k2_pay4 (View.ld x rT2) (View.ld y rR2) (View.ld s rR2)⟩]
noncomputable def acc2_1 (x : Vec F S5000x128 .f32) (y s : Vec F S1x128 .f32) : Vec F S1x128 .f32 :=
  View.canon [⟨rR2, k2_pay5 (View.ld x rT2) (View.ld y rR2) (View.ld s rR2)⟩]
noncomputable def zero2_0 : Vec F S1x128 .f32 := View.canon [⟨rR2, k2_pay1 (F := F)⟩]
noncomputable def zero2_1 : Vec F S1x128 .f32 := View.canon [⟨rR2, k2_pay2 (F := F)⟩]

theorem out2_2_eq (x : Vec F S5000x128 .f32) (y : Vec F S1x128 .f32) : out2_2 x y = k2_pay3 x y := by
  unfold out2_2; rw [View.canon_unit_zero hzero2, View.ld_unit_zero (S := S5000x128) hzero2, View.ld_unit_zero (S := S1x128) hzero2]
theorem acc2_0_eq (x : Vec F S5000x128 .f32) (y s : Vec F S1x128 .f32) : acc2_0 x y s = k2_pay4 x y s := by
  unfold acc2_0; rw [View.canon_unit_zero hzero2, View.ld_unit_zero (S := S5000x128) hzero2, View.ld_unit_zero (S := S1x128) hzero2, View.ld_unit_zero (S := S1x128) hzero2]
theorem acc2_1_eq (x : Vec F S5000x128 .f32) (y s : Vec F S1x128 .f32) : acc2_1 x y s = k2_pay5 x y s := by
  unfold acc2_1; rw [View.canon_unit_zero hzero2, View.ld_unit_zero (S := S5000x128) hzero2, View.ld_unit_zero (S := S1x128) hzero2, View.ld_unit_zero (S := S1x128) hzero2]
theorem zero2_0_eq : (zero2_0 : Vec F S1x128 .f32) = k2_pay1 := View.canon_unit_zero hzero2 _ _
theorem zero2_1_eq : (zero2_1 : Vec F S1x128 .f32) = k2_pay2 := View.canon_unit_zero hzero2 _ _

/-- A buffer whose last store covers it whole reads that store's payload. -/
theorem rd2 {S : Shape} {κ : Kind} {sp : Space} (v : View sig κ sp S .f32) (f : v.ty.Contents (Elt F)) {off : Fin S.rank → Nat} (h : off = fun _ => 0)
    (inb : ∀ a, off a + S.size a ≤ S.size a) (w : S.Idx → Elt F .f32) (L : List (View.Piece (Elt F) S .f32)) :
    v.read (Elt F) (v.writes (Elt F) f (⟨Rect.unit off S.size inb, w⟩ :: L)) = w :=
  (View.read_writes_eq_canon v f _ fun y => ⟨_, List.mem_cons_self, View.mem_set_unit_zero h inb y⟩).trans (View.canon_cons_unit_zero h inb w L)

section
variable (c : Dev nD) (i : grid2.Coords) {a p : Memref sig .tc .vmem S5000x128 .f32} {b q r u v : Memref sig .tc .vmem S1x128 .f32}
  {ha : a.IsWhole} {hb : b.IsWhole} {hp : p.IsWhole} {hq : q.IsWhole} {hr : r.IsWhole} {hu : u.IsWhole} {hv : v.IsWhole}
  (x : Vec F S5000x128 .f32) (y s z e w : Vec F S1x128 .f32) (E : Set ℕ) (K : PUnit → sProp (MT nD τ sig Unit (Elt F) ℕ (UR sig nD τ) ℕ))

set_option maxHeartbeats 4000000 in
/-- One tile: the running sums restart from zero at the first tile, the tile is stored and added to both, and at the last tile both are copied out. -/
theorem run2 (s' z' e' w' : Vec F S1x128 .f32)
    (hs : condF2 i ∧ ¬condL2 i ∧ s' = zero2_0 ∧ z' = zero2_1 ∨ ¬condF2 i ∧ s' = s ∧ z' = z)
    (he : condL2 i ∧ e' = acc2_0 x y s' ∧ w' = acc2_1 x y z' ∨ ¬condL2 i ∧ e' = e ∧ w' = w) :
    iprop(owns (c : Thread nD τ) a fullShare x ∗ owns (c : Thread nD τ) b fullShare y ∗ (∃ d, owns (c : Thread nD τ) p fullShare d) ∗ owns (c : Thread nD τ) q fullShare e ∗ owns (c : Thread nD τ) r fullShare w ∗ owns (c : Thread nD τ) u fullShare s ∗ owns (c : Thread nD τ) v fullShare z
        ∗ (iprop(owns (c : Thread nD τ) a fullShare x ∗ owns (c : Thread nD τ) b fullShare y ∗ owns (c : Thread nD τ) p fullShare (out2_2 x y) ∗ owns (c : Thread nD τ) q fullShare e' ∗ owns (c : Thread nD τ) r fullShare w'
            ∗ owns (c : Thread nD τ) u fullShare (acc2_0 x y s') ∗ owns (c : Thread nD τ) v fullShare (acc2_1 x y z')) -∗ K ⟨⟩))
      ⊢ wp frame (wpE (defs₀ (F := F)) Variants.none c none) E (cc2__stats_bias_kernel i a ha b hb p hp q hq r hr u hu v hv) K := by
  simp only [cc2__stats_bias_kernel_eq_skeleton]; unfold cc2__stats_bias_kernel_skel owns
  rcases hs with ⟨hc, hn, rfl, rfl⟩ | ⟨hc, rfl, rfl⟩ <;> rcases he with ⟨hd, rfl, rfl⟩ | ⟨hd, rfl, rfl⟩ <;> first | exact absurd hd hn | skip
  all_goals
    iintro ⟨⟨%fa, %ea, Ha⟩, ⟨%fb, %eb, Hb⟩, ⟨%d, %fp, -, Hp⟩, ⟨%fq, %eq, Hq⟩, ⟨%fr, %er, Hr⟩, ⟨%fu, %eu, Hu⟩, ⟨%fv, %ev, Hv⟩, Hk⟩
    subst ea eb eq er eu ev
    sl_exec (disch := first | exact hc | exact hd)
    sl_step
    iapply Hk
    isplitl [Ha]; iexists _; isplitr; rotate_left; iexact Ha
    isplitl [Hb]; iexists _; isplitr; rotate_left; iexact Hb
    isplitl [Hp]; iexists _; isplitr; rotate_left; iexact Hp
    isplitl [Hq]; iexists _; isplitr; rotate_left; iexact Hq
    isplitl [Hr]; iexists _; isplitr; rotate_left; iexact Hr
    isplitl [Hu]; iexists _; isplitr; rotate_left; iexact Hu
    iexists _; isplitr; rotate_left; iexact Hv
    all_goals
      ipureintro
      first
      | with_reducible rfl
      | (try sl_unfold_words)
        simp only [rd2 (S := S5000x128) _ _ hzero2, rd2 (S := S1x128) _ _ hzero2, out2_2_eq, acc2_0_eq, acc2_1_eq, zero2_0_eq, zero2_1_eq, View.readAt_eq_ld,
          View.ld_unit_zero (S := S5000x128) hzero2, View.ld_unit_zero (S := S1x128) hzero2, View.readCov_unit_zero (S := S1x128) _ hzero2]

end

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

noncomputable def sAt2 (c : Dev nD) : (n : ℕ) → n < cfg2.N → Vec F S1x128 .f32 × Vec F S1x128 .f32
  | 0, hn => (acc2_0 (iblk2 V c 0 ⟨0, hn⟩) (iblk2 V c 1 ⟨0, hn⟩) zero2_0, acc2_1 (iblk2 V c 0 ⟨0, hn⟩) (iblk2 V c 1 ⟨0, hn⟩) zero2_1)
  | n + 1, hn => (acc2_0 (iblk2 V c 0 ⟨n + 1, hn⟩) (iblk2 V c 1 ⟨n + 1, hn⟩) (sAt2 c n (Nat.lt_of_succ_lt hn)).1,
      acc2_1 (iblk2 V c 0 ⟨n + 1, hn⟩) (iblk2 V c 1 ⟨n + 1, hn⟩) (sAt2 c n (Nat.lt_of_succ_lt hn)).2)

theorem sAt2_zero (c : Dev nD) (t : Fin cfg2.N) (h : t.val = 0) :
    sAt2 V c t.val t.isLt = (acc2_0 (iblk2 V c 0 t) (iblk2 V c 1 t) zero2_0, acc2_1 (iblk2 V c 0 t) (iblk2 V c 1 t) zero2_1) := by
  obtain ⟨_ | n, hn⟩ := t
  · rfl
  · exact absurd h (Nat.succ_ne_zero n)

theorem sAt2_pos (c : Dev nD) (t : Fin cfg2.N) (h : t.val ≠ 0) :
    sAt2 V c t.val t.isLt = (acc2_0 (iblk2 V c 0 t) (iblk2 V c 1 t) (sAt2 V c (t.val - 1) (Nat.lt_of_le_of_lt (Nat.sub_le _ _) t.isLt)).1,
      acc2_1 (iblk2 V c 0 t) (iblk2 V c 1 t) (sAt2 V c (t.val - 1) (Nat.lt_of_le_of_lt (Nat.sub_le _ _) t.isLt)).2) := by
  obtain ⟨_ | n, hn⟩ := t
  · exact absurd rfl h
  · rfl

noncomputable abbrev scM2_0 : Memref sig .tc .vmem S1x128 .f32 := Memref.whole cc2_scratch0
noncomputable abbrev scM2_1 : Memref sig .tc .vmem S1x128 .f32 := Memref.whole cc2_scratch1

/-- The region's own buffers with the two running sums at given contents. -/
noncomputable abbrev PhiN2 (c : Dev nD) (s z : Vec F S1x128 .f32) : sProp 𝕄 :=
  iprop(iprop(iprop(owns (c : Thread nD τ) scM2_0 fullShare s ∗ owns (c : Thread nD τ) scM2_1 fullShare z)
    ∗ Pipeline.scopedRestBut spec2 c [cc2_scratch0, cc2_scratch1]) ∗ (∃ r, prngReg c r))

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut spec2 c [cc2_scratch0, cc2_scratch1]) ∗ (∃ r, prngReg c r)) := by
  unfold Pipeline.ΦA; rw [scopedRest2_split]; simp only [scM2_0, scM2_1, owns_whole]; try rfl

noncomputable def PhiS2 (c : Dev nD) : (n : ℕ) → n ≤ cfg2.N → sProp 𝕄
  | 0, _ => Pipeline.ΦA spec2 c
  | n + 1, hn => PhiN2 c (sAt2 V c n hn).1 (sAt2 V c n hn).2

theorem PhiS2_zero (c : Dev nD) (n : ℕ) (h : n ≤ cfg2.N) (hz : n = 0) : PhiS2 V c n h = Pipeline.ΦA spec2 c := by
  subst hz; rfl

theorem PhiS2_pos (c : Dev nD) (n : ℕ) (h : n ≤ cfg2.N) (hz : n ≠ 0) :
    PhiS2 V c n h = PhiN2 c (sAt2 V c (n - 1) (by omega)).1 (sAt2 V c (n - 1) (by omega)).2 := by
  cases n with
  | zero => exact absurd rfl hz
  | succ n => rfl

noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => (sAt2 V c t.val t.isLt).1
    | ⟨4, _⟩ => (sAt2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem after2_2 (c : Dev nD) (t : Fin cfg2.N) : (dat2 V c).after 2 t = out2_2 (iblk2 V c 0 t) (iblk2 V c 1 t) := by dsimp only [dat2]
theorem after2_3_last (c : Dev nD) (t : Fin cfg2.N) (h : t.val = 9) : (dat2 V c).after 3 t = (sAt2 V c 9 (by rw [show cfg2.N = 10 from N_2]; decide)).1 := by
  obtain ⟨n, hn⟩ := t; obtain rfl : n = 9 := h; rfl
theorem after2_4_last (c : Dev nD) (t : Fin cfg2.N) (h : t.val = 9) : (dat2 V c).after 4 t = (sAt2 V c 9 (by rw [show cfg2.N = 10 from N_2]; decide)).2 := by
  obtain ⟨n, hn⟩ := t; obtain rfl : n = 9 := h; rfl

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

theorem lvA2 {c : Dev nD} (D : Dat τ (Elt F) Unit ℕ (UR sig nD τ) ℕ cfg2 c) {w : Fin cfg2.W} {t : Fin cfg2.N} (h : cfg2.idle w (grid2.coords t) = false) :
    D.leavesExact w t = owns (c : Thread nD τ) ((cfg2.win w).stage (cfg2.slots t w)) fullShare (D.after w t) := by
  unfold Dat.leavesExact; rw [h]

theorem sound_body2 (c : Dev nD) (t : Fin cfg2.N) :
    iprop((dat2 V c).Φ t.castSucc ∗ (dat2 V c).owesAt () t.castSucc
      ∗ (∃ d, owns (c : Thread nD τ) (win2_0.stage (cfg2.slots t 0)) fullShare ((dat2 V c).before 0 t d))
      ∗ (∃ d, owns (c : Thread nD τ) (win2_1.stage (cfg2.slots t 1)) fullShare ((dat2 V c).before 1 t d))
      ∗ (∃ d, owns (c : Thread nD τ) (win2_2.stage (cfg2.slots t 2)) fullShare ((dat2 V c).before 2 t d))
      ∗ (∃ d, owns (c : Thread nD τ) (win2_3.stage (cfg2.slots t 3)) fullShare ((dat2 V c).before 3 t d))
      ∗ (∃ d, owns (c : Thread nD τ) (win2_4.stage (cfg2.slots t 4)) fullShare ((dat2 V c).before 4 t d)))
    ⊢ wp frame (wpE (defs₀ (F := F)) Variants.none c none) Set.univ (bodyAt2 t) (fun _ => iprop((dat2 V c).Φ t.succ ∗ (dat2 V c).owesAt () t.succ
      ∗ (dat2 V c).leavesExact 0 t ∗ (dat2 V c).leavesExact 1 t ∗ (dat2 V c).leavesExact 2 t ∗ (dat2 V c).leavesExact 3 t ∗ (dat2 V c).leavesExact 4 t)) := by
  unfold bodyAt2
  simp only [before2_0, before2_1]
  rw [show (dat2 V c).owesAt () t.succ = (dat2 V c).owesAt () t.castSucc from rfl,
    show (dat2 V c).Φ t.succ = PhiN2 c (sAt2 V c t.val t.isLt).1 (sAt2 V c t.val t.isLt).2 from rfl,
    show (dat2 V c).Φ t.castSucc = PhiS2 V c t.val (Nat.le_of_lt t.isLt) from rfl,
    lvA2 _ (live2 t 0 (.inl (by decide))), lvA2 _ (live2 t 1 (.inl (by decide))), lvA2 _ (live2 t 2 (.inl (by decide))), after2_2,
    show (dat2 V c).after 0 t = iblk2 V c 0 t from rfl, show (dat2 V c).after 1 t = iblk2 V c 1 t from rfl]
  by_cases hz : t.val = 0
  · have hL : t.val ≠ 9 := by omega
    rw [Dat.leavesExact_idle _ 3 t (idle2 t 3 (by decide) hL).1 (idle2 t 3 (by decide) hL).2,
      Dat.leavesExact_idle _ 4 t (idle2 t 4 (by decide) hL).1 (idle2 t 4 (by decide) hL).2,
      sAt2_zero V c t hz, PhiS2_zero V c _ _ hz, PhiA2_eq]
    dsimp only [PhiN2]
    iintro ⟨⟨⟨⟨⟨%s, Hu⟩, ⟨%z, Hv⟩⟩, HR⟩, Hg⟩, Ho, ⟨%da, Ha⟩, ⟨%db, Hb⟩, ⟨%dp, Hp⟩, ⟨%dq, Hq⟩, ⟨%dr, Hr⟩⟩
    iapply (run2 c (grid2.coords t) (iblk2 V c 0 t) (iblk2 V c 1 t) s z ((dat2 V c).before 3 t dq) ((dat2 V c).before 4 t dr) Set.univ _ _ _ _ _
      (.inl ⟨(hcondF2 t).mpr hz, fun k => hL ((hcondL2 t).mp k), rfl, rfl⟩) (.inr ⟨fun k => hL ((hcondL2 t).mp k), rfl, rfl⟩))
    iframe Ha Hb Hq Hr Hu Hv
    isplitl [Hp]; · iexists _; iexact Hp
    iintro ⟨Ha, Hb, Hp, Hq, Hr, Hu, Hv⟩
    iframe Ha Hb Hp Hu Hv HR Hg Ho
    isplitl [Hq] <;> iexists _ <;> iassumption
  · have hF : ¬condF2 (grid2.coords t) := fun k => hz ((hcondF2 t).mp k)
    rw [PhiS2_pos V c _ _ hz, sAt2_pos V c t hz]
    by_cases hL : t.val = 9
    · rw [lvA2 _ (live2 t 3 (.inr hL)), lvA2 _ (live2 t 4 (.inr hL)), show (dat2 V c).after 3 t = (sAt2 V c t.val t.isLt).1 from rfl,
        show (dat2 V c).after 4 t = (sAt2 V c t.val t.isLt).2 from rfl, sAt2_pos V c t hz]
      dsimp only [PhiN2]
      iintro ⟨⟨⟨⟨Hu, Hv⟩, HR⟩, Hg⟩, Ho, ⟨%da, Ha⟩, ⟨%db, Hb⟩, ⟨%dp, Hp⟩, ⟨%dq, Hq⟩, ⟨%dr, Hr⟩⟩
      iapply (run2 c (grid2.coords t) (iblk2 V c 0 t) (iblk2 V c 1 t) _ _ ((dat2 V c).before 3 t dq) ((dat2 V c).before 4 t dr) Set.univ _ _ _ _ _
        (.inr ⟨hF, rfl, rfl⟩) (.inl ⟨(hcondL2 t).mpr hL, rfl, rfl⟩))
      iframe Ha Hb Hq Hr Hu Hv
      isplitl [Hp]; · iexists _; iexact Hp
      iintro ⟨Ha, Hb, Hp, Hq, Hr, Hu, Hv⟩
      iframe
    · rw [Dat.leavesExact_idle _ 3 t (idle2 t 3 (by decide) hL).1 (idle2 t 3 (by decide) hL).2,
        Dat.leavesExact_idle _ 4 t (idle2 t 4 (by decide) hL).1 (idle2 t 4 (by decide) hL).2]
      dsimp only [PhiN2]
      iintro ⟨⟨⟨⟨Hu, Hv⟩, HR⟩, Hg⟩, Ho, ⟨%da, Ha⟩, ⟨%db, Hb⟩, ⟨%dp, Hp⟩, ⟨%dq, Hq⟩, ⟨%dr, Hr⟩⟩
      iapply (run2 c (grid2.coords t) (iblk2 V c 0 t) (iblk2 V c 1 t) _ _ ((dat2 V c).before 3 t dq) ((dat2 V c).before 4 t dr) Set.univ _ _ _ _ _
        (.inr ⟨hF, rfl, rfl⟩) (.inr ⟨fun k => hL ((hcondL2 t).mp k), rfl, rfl⟩))
      iframe Ha Hb Hq Hr Hu Hv
      isplitl [Hp]; · iexists _; iexact Hp
      iintro ⟨Ha, Hb, Hp, Hq, Hr, Hu, Hv⟩
      iframe Ha Hb Hp Hu Hv HR Hg Ho
      isplitl [Hq] <;> iexists _ <;> iassumption

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := Idealize.SL.BI.Entails.refl _

/-- After the last tile the running sums' contents are forgotten. -/
theorem hout2 (c : Dev nD) : (dat2 V c).Φ (Fin.last cfg2.N) ⊢ (Pipeline.ΦA spec2 c : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last, show cfg2.N = 10 from N_2]; decide), PhiA2_eq]
  iintro ⟨⟨⟨Hu, Hv⟩, HR⟩, Hg⟩
  iframe HR Hg
  isplitl [Hu] <;> iexists _ <;> iassumption

end Cert.KernelIdeal.Reg
end
-- ==== Proof.KI.R03.lean ====
import proofs.«408439_j66932770341395_1_alg».proof.Proof.Gen.KernelIdeal.Launch
import proofs.«408439_j66932770341395_1_alg».proof.Proof.Gen.KernelIdeal.Skeleton
import proofs.«408439_j66932770341395_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0

def out3_5 (x : Vec F S5000x128 .f32) (y z s r : Vec F S1x128 .f32) : Vec F S5000x128 .f32 :=
  View.canon [⟨r3_0, k3_pay1 (View.ld x r3_0) (View.ld z r3_1) (View.ld y r3_1) (View.ld s r3_1) (View.ld r r3_1)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_in (c : Dev nD) (w : Fin cfg3.W) (hw : w.val < 5 := by decide) (t : Fin cfg3.N) (d) :
    (dat3 V c).before w t d = (dat3 V c).after w t :=
  match w with
  | ⟨0, _⟩ | ⟨1, _⟩ | ⟨2, _⟩ | ⟨3, _⟩ | ⟨4, _⟩ =>
    ((dat3 V c).before_in_eq_fetched _ rfl (fun _ => rfl) (fun _ _ _ => rfl) (fun _ => rfl) t d).trans rfl
  | ⟨5, _⟩ => absurd hw (Nat.lt_irrefl 5)

set_option maxHeartbeats 1000000 in
theorem sound_kernel3 (c : Dev nD) {E : Set ℕ} {i : grid3.Coords}
    {a : Memref sig .tc .vmem S5000x128 .f32} {ha : a.IsWhole} {b : Memref sig .tc .vmem S1x128 .f32} {hb : b.IsWhole}
    {u : Memref sig .tc .vmem S1x128 .f32} {hu : u.IsWhole} {v : Memref sig .tc .vmem S1x128 .f32} {hv : v.IsWhole}
    {p : Memref sig .tc .vmem S1x128 .f32} {hp : p.IsWhole} {o : Memref sig .tc .vmem S5000x128 .f32} {ho : o.IsWhole}
    {x e : Vec F S5000x128 .f32} {y z s r : Vec F S1x128 .f32} {K : PUnit → sProp 𝕄} :
    iprop(owns c a fullShare x ∗ owns c b fullShare y ∗ owns c u fullShare z ∗ owns c v fullShare s ∗ owns c p fullShare r
        ∗ owns c o fullShare e
        ∗ (owns c a fullShare x ∗ owns c b fullShare y ∗ owns c u fullShare z ∗ owns c v fullShare s ∗ owns c p fullShare r
            ∗ owns c o fullShare (out3_5 x y z s r) -∗ K ⟨⟩))
      ⊢ wp frame (wpE (defs₀ (F := F)) Variants.none c none) E (cc3__bn_relu_kernel i a ha b hb u hu v hv p hp o ho) K := by
  simp only [cc3__bn_relu_kernel_eq_skeleton]; unfold cc3__bn_relu_kernel_skel owns
  iintro ⟨⟨%f, %hf, Hx⟩, ⟨%g, %hg, Hy⟩, ⟨%h, %hh, Hz⟩, ⟨%j, %hj, Hs⟩, ⟨%l, %hl, Hr⟩, ⟨%k, -, He⟩, Hk⟩
  subst hf hg hh hj hl
  sl_exec
  sl_step
  iapply Hk
  isplitl [Hx]
  · iexists f; isplitr; · ipureintro; rfl
    iexact Hx
  isplitl [Hy]
  · iexists g; isplitr; · ipureintro; rfl
    iexact Hy
  isplitl [Hz]
  · iexists h; isplitr; · ipureintro; rfl
    iexact Hz
  isplitl [Hs]
  · iexists j; isplitr; · ipureintro; rfl
    iexact Hs
  isplitl [Hr]
  · iexists l; isplitr; · ipureintro; rfl
    iexact Hr
  iexists _; isplitr
  swap; · iexact He
  ipureintro
  exact View.read_writes_eq_canon _ _ _ (View.cover_of_tiled _ S5000x128.size (by rfl))

theorem body_obligation3 (c : Dev nD) : BodyObligation (dat3 (F := F) V c) (defs₀ (F := F)) Variants.none () Set.univ := fun t => by
  rw [bigSep_W3, bigSep_W3]
  simp only [before3_in V c 0, before3_in V c 1, before3_in V c 2, before3_in V c 3, before3_in V c 4]
  rw [show (dat3 V c).Φ t.succ = (dat3 V c).Φ t.castSucc from rfl,
    show (dat3 V c).owesAt () t.succ = (dat3 V c).owesAt () t.castSucc from rfl,
    show (dat3 V c).after 5 t = out3_5 ((dat3 V c).after 0 t) ((dat3 V c).after 1 t) ((dat3 V c).after 2 t)
      ((dat3 V c).after 3 t) ((dat3 V c).after 4 t) from by dsimp only [dat3]]
  show _ ⊢ wp _ _ _ (bodyAt3 t) _
  iintro ⟨HΦ, Ho, ⟨%d, Hx⟩, ⟨%d, Hy⟩, ⟨%d, Hz⟩, ⟨%d, Hs⟩, ⟨%d, Hr⟩, ⟨%d, He⟩⟩
  iapply (sound_kernel3 c)
  iframe Hx Hy Hz Hs Hr He
  iintro ⟨Hx, Hy, Hz, Hs, Hr, He⟩
  iframe

theorem hin3 (c : Dev nD) : (Pipeline.ΦA spec3 c : sProp 𝕄) ⊢ (dat3 V c).Φ 0 := .rfl
theorem hout3 (c : Dev nD) : (dat3 V c).Φ (Fin.last cfg3.N) ⊢ (Pipeline.ΦA spec3 c : sProp 𝕄) := .rfl

end Cert.KernelIdeal.Reg
end
-- ==== Proof.KI.R04.lean ====
import proofs.«408439_j66932770341395_1_alg».proof.Proof.Gen.KernelIdeal.Launch
import proofs.«408439_j66932770341395_1_alg».proof.Proof.Gen.KernelIdeal.Skeleton
import proofs.«408439_j66932770341395_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x128 := Rect.unit (s := S5000x128) ![0, 0] S5000x128.size inb_S5000x128_S5000x128_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0

def out4_3 (x : Vec F S5000x128 .f32) (y : Vec F S128x128 .f32) (z : Vec F S1x128 .f32) : Vec F S5000x128 .f32 :=
  View.canon [⟨r4_0, k4_pay1 (View.ld x r4_0) (View.ld y r4_1) (View.ld z r4_2)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) :
    (dat4 V c).after 3 t = out4_3 (iblk4 V c 0 t) (iblk4 V c 1 t) (iblk4 V c 2 t) := by dsimp only [dat4]

theorem before4_in (c : Dev nD) (w : Fin cfg4.W) (hw : w.val < 3 := by decide) (t : Fin cfg4.N) (d) :
    (dat4 V c).before w t d = (dat4 V c).after w t :=
  match w with
  | ⟨0, _⟩ | ⟨1, _⟩ | ⟨2, _⟩ =>
    ((dat4 V c).before_in_eq_fetched _ rfl (fun _ => rfl) (fun _ _ _ => rfl) (fun _ => rfl) t d).trans rfl
  | ⟨3, _⟩ => absurd hw (Nat.lt_irrefl 3)

set_option maxHeartbeats 4000000 in
theorem sound_kernel4 (c : Dev nD) {E : Set ℕ} {i : grid4.Coords}
    {a : Memref sig .tc .vmem S5000x128 .f32} {ha : a.IsWhole} {b : Memref sig .tc .vmem S128x128 .f32} {hb : b.IsWhole}
    {u : Memref sig .tc .vmem S1x128 .f32} {hu : u.IsWhole} {v : Memref sig .tc .vmem S5000x128 .f32} {hv : v.IsWhole}
    {x s : Vec F S5000x128 .f32} {y : Vec F S128x128 .f32} {z : Vec F S1x128 .f32} {K : PUnit → sProp 𝕄} :
    iprop(owns c a fullShare x ∗ owns c b fullShare y ∗ owns c u fullShare z ∗ owns c v fullShare s
        ∗ (owns c a fullShare x ∗ owns c b fullShare y ∗ owns c u fullShare z ∗ owns c v fullShare (out4_3 x y z) -∗ K ⟨⟩))
      ⊢ wp frame (wpE (defs₀ (F := F)) Variants.none c none) E (cc4__linear_kernel i a ha b hb u hu v hv) K := by
  simp only [cc4__linear_kernel_eq_skeleton]; unfold cc4__linear_kernel_skel owns
  iintro ⟨⟨%f, %hf, Hx⟩, ⟨%g, %hg, Hy⟩, ⟨%h, %hh, Hz⟩, ⟨%k, -, Hv⟩, Hk⟩
  subst hf hg hh
  sl_exec
  sl_step
  iapply Hk
  isplitl [Hx]
  · iexists f; isplitr; · ipureintro; rfl
    iexact Hx
  isplitl [Hy]
  · iexists g; isplitr; · ipureintro; rfl
    iexact Hy
  isplitl [Hz]
  · iexists h; isplitr; · ipureintro; rfl
    iexact Hz
  iexists _; isplitr
  swap; · iexact Hv
  ipureintro
  exact View.read_writes_eq_canon _ _ _ (View.cover_of_tiled _ S5000x128.size (by rfl))

theorem body_obligation4 (c : Dev nD) : BodyObligation (dat4 (F := F) V c) (defs₀ (F := F)) Variants.none () Set.univ := fun t => by
  rw [bigSep_W4, bigSep_W4]
  simp only [before4_in V c 0, before4_in V c 1, before4_in V c 2]
  rw [show (dat4 V c).Φ t.succ = (dat4 V c).Φ t.castSucc from rfl,
    show (dat4 V c).owesAt () t.succ = (dat4 V c).owesAt () t.castSucc from rfl,
    show (dat4 V c).after 3 t = out4_3 ((dat4 V c).after 0 t) ((dat4 V c).after 1 t) ((dat4 V c).after 2 t) from by dsimp only [dat4]]
  show _ ⊢ wp _ _ _ (bodyAt4 t) _
  iintro ⟨HΦ, Ho, ⟨%d, Hx⟩, ⟨%d, Hy⟩, ⟨%d, Hz⟩, ⟨%d, Hv⟩⟩
  iapply (sound_kernel4 c)
  iframe Hx Hy Hz Hv
  iintro ⟨Hx, Hy, Hz, Hv⟩
  iframe

theorem hin4 (c : Dev nD) : (Pipeline.ΦA spec4 c : sProp 𝕄) ⊢ (dat4 V c).Φ 0 := .rfl
theorem hout4 (c : Dev nD) : (dat4 V c).Φ (Fin.last cfg4.N) ⊢ (Pipeline.ΦA spec4 c : sProp 𝕄) := .rfl

end Cert.KernelIdeal.Reg
end
-- ==== Proof.KI.R05.lean ====
import proofs.«408439_j66932770341395_1_alg».proof.Proof.Gen.KernelIdeal.Launch
import proofs.«408439_j66932770341395_1_alg».proof.Proof.Gen.KernelIdeal.Skeleton
import proofs.«408439_j66932770341395_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

noncomputable abbrev condF5 (i : grid5.Coords) : Prop := (Scalar.cmpi .ne (Scalar.extui (Scalar.cmpi .eq (BitVec.ofNat 32 (i 0).val) 0#32)) 0#32) = 1#1
noncomputable abbrev condL5 (i : grid5.Coords) : Prop := k5_cond2 i = 1#1
theorem hcondF5 : ∀ t : Fin cfg5.N, condF5 (grid5.coords t) ↔ t.val = 0 :=
  (by decide +kernel : ∀ t : Fin grid5.N, condF5 (grid5.coords t) ↔ t.val = 0)
theorem hcondL5 : ∀ t : Fin cfg5.N, condL5 (grid5.coords t) ↔ t.val = 9 :=
  (by decide +kernel : ∀ t : Fin grid5.N, condL5 (grid5.coords t) ↔ t.val = 9)
theorem live5 : ∀ (t : Fin cfg5.N) (w : Fin cfg5.W), w.val < 3 ∨ t.val = 9 → cfg5.idle w (grid5.coords t) = false := by decide +kernel
theorem idle5 : ∀ (t : Fin cfg5.N) (w : Fin cfg5.W), 3 ≤ w.val → t.val ≠ 9 → cfg5.idle w (grid5.coords t) = true ∧ (cfg5.win w).flush t = false := by decide +kernel

theorem hzero5 : (![0, 0] : Fin 2 → Nat) = fun _ => 0 := funext fun a => by fin_cases a <;> rfl
noncomputable abbrev rT5 : Rect S5000x128 := Rect.unit (s := S5000x128) ![0, 0] S5000x128.size inb_S5000x128_S5000x128_0_0
noncomputable abbrev rR5 : Rect S1x128 := Rect.unit (s := S1x128) ![0, 0] S1x128.size inb_S1x128_S1x128_0_0

noncomputable def out5_2 (x : Vec F S5000x128 .f32) (y : Vec F S1x128 .f32) : Vec F S5000x128 .f32 :=
  View.canon [⟨rT5, k5_pay3 (View.ld x rT5) (View.ld y rR5)⟩]
noncomputable def acc5_0 (x : Vec F S5000x128 .f32) (y s : Vec F S1x128 .f32) : Vec F S1x128 .f32 :=
  View.canon [⟨rR5, k5_pay4 (View.ld x rT5) (View.ld y rR5) (View.ld s rR5)⟩]
noncomputable def acc5_1 (x : Vec F S5000x128 .f32) (y s : Vec F S1x128 .f32) : Vec F S1x128 .f32 :=
  View.canon [⟨rR5, k5_pay5 (View.ld x rT5) (View.ld y rR5) (View.ld s rR5)⟩]
noncomputable def zero5_0 : Vec F S1x128 .f32 := View.canon [⟨rR5, k5_pay1 (F := F)⟩]
noncomputable def zero5_1 : Vec F S1x128 .f32 := View.canon [⟨rR5, k5_pay2 (F := F)⟩]

theorem out5_2_eq (x : Vec F S5000x128 .f32) (y : Vec F S1x128 .f32) : out5_2 x y = k5_pay3 x y := by
  unfold out5_2; rw [View.canon_unit_zero hzero5, View.ld_unit_zero (S := S5000x128) hzero5, View.ld_unit_zero (S := S1x128) hzero5]
theorem acc5_0_eq (x : Vec F S5000x128 .f32) (y s : Vec F S1x128 .f32) : acc5_0 x y s = k5_pay4 x y s := by
  unfold acc5_0; rw [View.canon_unit_zero hzero5, View.ld_unit_zero (S := S5000x128) hzero5, View.ld_unit_zero (S := S1x128) hzero5, View.ld_unit_zero (S := S1x128) hzero5]
theorem acc5_1_eq (x : Vec F S5000x128 .f32) (y s : Vec F S1x128 .f32) : acc5_1 x y s = k5_pay5 x y s := by
  unfold acc5_1; rw [View.canon_unit_zero hzero5, View.ld_unit_zero (S := S5000x128) hzero5, View.ld_unit_zero (S := S1x128) hzero5, View.ld_unit_zero (S := S1x128) hzero5]
theorem zero5_0_eq : (zero5_0 : Vec F S1x128 .f32) = k5_pay1 := View.canon_unit_zero hzero5 _ _
theorem zero5_1_eq : (zero5_1 : Vec F S1x128 .f32) = k5_pay2 := View.canon_unit_zero hzero5 _ _

/-- A buffer whose last store covers it whole reads that store's payload. -/
theorem rd5 {S : Shape} {κ : Kind} {sp : Space} (v : View sig κ sp S .f32) (f : v.ty.Contents (Elt F)) {off : Fin S.rank → Nat} (h : off = fun _ => 0)
    (inb : ∀ a, off a + S.size a ≤ S.size a) (w : S.Idx → Elt F .f32) (L : List (View.Piece (Elt F) S .f32)) :
    v.read (Elt F) (v.writes (Elt F) f (⟨Rect.unit off S.size inb, w⟩ :: L)) = w :=
  (View.read_writes_eq_canon v f _ fun y => ⟨_, List.mem_cons_self, View.mem_set_unit_zero h inb y⟩).trans (View.canon_cons_unit_zero h inb w L)

section
variable (c : Dev nD) (i : grid5.Coords) {a p : Memref sig .tc .vmem S5000x128 .f32} {b q r u v : Memref sig .tc .vmem S1x128 .f32}
  {ha : a.IsWhole} {hb : b.IsWhole} {hp : p.IsWhole} {hq : q.IsWhole} {hr : r.IsWhole} {hu : u.IsWhole} {hv : v.IsWhole}
  (x : Vec F S5000x128 .f32) (y s z e w : Vec F S1x128 .f32) (E : Set ℕ) (K : PUnit → sProp (MT nD τ sig Unit (Elt F) ℕ (UR sig nD τ) ℕ))

set_option maxHeartbeats 4000000 in
/-- One tile: the running sums restart from zero at the first tile, the tile is stored and added to both, and at the last tile both are copied out. -/
theorem run5 (s' z' e' w' : Vec F S1x128 .f32)
    (hs : condF5 i ∧ ¬condL5 i ∧ s' = zero5_0 ∧ z' = zero5_1 ∨ ¬condF5 i ∧ s' = s ∧ z' = z)
    (he : condL5 i ∧ e' = acc5_0 x y s' ∧ w' = acc5_1 x y z' ∨ ¬condL5 i ∧ e' = e ∧ w' = w) :
    iprop(owns (c : Thread nD τ) a fullShare x ∗ owns (c : Thread nD τ) b fullShare y ∗ (∃ d, owns (c : Thread nD τ) p fullShare d) ∗ owns (c : Thread nD τ) q fullShare e ∗ owns (c : Thread nD τ) r fullShare w ∗ owns (c : Thread nD τ) u fullShare s ∗ owns (c : Thread nD τ) v fullShare z
        ∗ (iprop(owns (c : Thread nD τ) a fullShare x ∗ owns (c : Thread nD τ) b fullShare y ∗ owns (c : Thread nD τ) p fullShare (out5_2 x y) ∗ owns (c : Thread nD τ) q fullShare e' ∗ owns (c : Thread nD τ) r fullShare w'
            ∗ owns (c : Thread nD τ) u fullShare (acc5_0 x y s') ∗ owns (c : Thread nD τ) v fullShare (acc5_1 x y z')) -∗ K ⟨⟩))
      ⊢ wp frame (wpE (defs₀ (F := F)) Variants.none c none) E (cc5__stats_bias_kernel i a ha b hb p hp q hq r hr u hu v hv) K := by
  simp only [cc5__stats_bias_kernel_eq_skeleton]; unfold cc5__stats_bias_kernel_skel owns
  rcases hs with ⟨hc, hn, rfl, rfl⟩ | ⟨hc, rfl, rfl⟩ <;> rcases he with ⟨hd, rfl, rfl⟩ | ⟨hd, rfl, rfl⟩ <;> first | exact absurd hd hn | skip
  all_goals
    iintro ⟨⟨%fa, %ea, Ha⟩, ⟨%fb, %eb, Hb⟩, ⟨%d, %fp, -, Hp⟩, ⟨%fq, %eq, Hq⟩, ⟨%fr, %er, Hr⟩, ⟨%fu, %eu, Hu⟩, ⟨%fv, %ev, Hv⟩, Hk⟩
    subst ea eb eq er eu ev
    sl_exec (disch := first | exact hc | exact hd)
    sl_step
    iapply Hk
    isplitl [Ha]; iexists _; isplitr; rotate_left; iexact Ha
    isplitl [Hb]; iexists _; isplitr; rotate_left; iexact Hb
    isplitl [Hp]; iexists _; isplitr; rotate_left; iexact Hp
    isplitl [Hq]; iexists _; isplitr; rotate_left; iexact Hq
    isplitl [Hr]; iexists _; isplitr; rotate_left; iexact Hr
    isplitl [Hu]; iexists _; isplitr; rotate_left; iexact Hu
    iexists _; isplitr; rotate_left; iexact Hv
    all_goals
      ipureintro
      first
      | with_reducible rfl
      | (try sl_unfold_words)
        simp only [rd5 (S := S5000x128) _ _ hzero5, rd5 (S := S1x128) _ _ hzero5, out5_2_eq, acc5_0_eq, acc5_1_eq, zero5_0_eq, zero5_1_eq, View.readAt_eq_ld,
          View.ld_unit_zero (S := S5000x128) hzero5, View.ld_unit_zero (S := S1x128) hzero5, View.readCov_unit_zero (S := S1x128) _ hzero5]

end

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

noncomputable def sAt5 (c : Dev nD) : (n : ℕ) → n < cfg5.N → Vec F S1x128 .f32 × Vec F S1x128 .f32
  | 0, hn => (acc5_0 (iblk5 V c 0 ⟨0, hn⟩) (iblk5 V c 1 ⟨0, hn⟩) zero5_0, acc5_1 (iblk5 V c 0 ⟨0, hn⟩) (iblk5 V c 1 ⟨0, hn⟩) zero5_1)
  | n + 1, hn => (acc5_0 (iblk5 V c 0 ⟨n + 1, hn⟩) (iblk5 V c 1 ⟨n + 1, hn⟩) (sAt5 c n (Nat.lt_of_succ_lt hn)).1,
      acc5_1 (iblk5 V c 0 ⟨n + 1, hn⟩) (iblk5 V c 1 ⟨n + 1, hn⟩) (sAt5 c n (Nat.lt_of_succ_lt hn)).2)

theorem sAt5_zero (c : Dev nD) (t : Fin cfg5.N) (h : t.val = 0) :
    sAt5 V c t.val t.isLt = (acc5_0 (iblk5 V c 0 t) (iblk5 V c 1 t) zero5_0, acc5_1 (iblk5 V c 0 t) (iblk5 V c 1 t) zero5_1) := by
  obtain ⟨_ | n, hn⟩ := t
  · rfl
  · exact absurd h (Nat.succ_ne_zero n)

theorem sAt5_pos (c : Dev nD) (t : Fin cfg5.N) (h : t.val ≠ 0) :
    sAt5 V c t.val t.isLt = (acc5_0 (iblk5 V c 0 t) (iblk5 V c 1 t) (sAt5 V c (t.val - 1) (Nat.lt_of_le_of_lt (Nat.sub_le _ _) t.isLt)).1,
      acc5_1 (iblk5 V c 0 t) (iblk5 V c 1 t) (sAt5 V c (t.val - 1) (Nat.lt_of_le_of_lt (Nat.sub_le _ _) t.isLt)).2) := by
  obtain ⟨_ | n, hn⟩ := t
  · exact absurd rfl h
  · rfl

noncomputable abbrev scM5_0 : Memref sig .tc .vmem S1x128 .f32 := Memref.whole cc5_scratch0
noncomputable abbrev scM5_1 : Memref sig .tc .vmem S1x128 .f32 := Memref.whole cc5_scratch1

/-- The region's own buffers with the two running sums at given contents. -/
noncomputable abbrev PhiN5 (c : Dev nD) (s z : Vec F S1x128 .f32) : sProp 𝕄 :=
  iprop(iprop(iprop(owns (c : Thread nD τ) scM5_0 fullShare s ∗ owns (c : Thread nD τ) scM5_1 fullShare z)
    ∗ Pipeline.scopedRestBut spec5 c [cc5_scratch0, cc5_scratch1]) ∗ (∃ r, prngReg c r))

theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut spec5 c [cc5_scratch0, cc5_scratch1]) ∗ (∃ r, prngReg c r)) := by
  unfold Pipeline.ΦA; rw [scopedRest5_split]; simp only [scM5_0, scM5_1, owns_whole]; try rfl

noncomputable def PhiS5 (c : Dev nD) : (n : ℕ) → n ≤ cfg5.N → sProp 𝕄
  | 0, _ => Pipeline.ΦA spec5 c
  | n + 1, hn => PhiN5 c (sAt5 V c n hn).1 (sAt5 V c n hn).2

theorem PhiS5_zero (c : Dev nD) (n : ℕ) (h : n ≤ cfg5.N) (hz : n = 0) : PhiS5 V c n h = Pipeline.ΦA spec5 c := by
  subst hz; rfl

theorem PhiS5_pos (c : Dev nD) (n : ℕ) (h : n ≤ cfg5.N) (hz : n ≠ 0) :
    PhiS5 V c n h = PhiN5 c (sAt5 V c (n - 1) (by omega)).1 (sAt5 V c (n - 1) (by omega)).2 := by
  cases n with
  | zero => exact absurd rfl hz
  | succ n => rfl

noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
    | ⟨3, _⟩ => (sAt5 V c t.val t.isLt).1
    | ⟨4, _⟩ => (sAt5 V c t.val t.isLt).2
  Φ t := PhiS5 V c t.val (Nat.le_of_lt_succ t.isLt)
  q _ := fullShare
  owed _ := 0

theorem A_eq5 (c : Dev nD) (w : Fin cfg5.W) : (dat5 V c).A w = V c (Pipeline.arrRef spec5 w) := rfl

theorem after5_2 (c : Dev nD) (t : Fin cfg5.N) : (dat5 V c).after 2 t = out5_2 (iblk5 V c 0 t) (iblk5 V c 1 t) := by dsimp only [dat5]
theorem after5_3_last (c : Dev nD) (t : Fin cfg5.N) (h : t.val = 9) : (dat5 V c).after 3 t = (sAt5 V c 9 (by rw [show cfg5.N = 10 from N_5]; decide)).1 := by
  obtain ⟨n, hn⟩ := t; obtain rfl : n = 9 := h; rfl
theorem after5_4_last (c : Dev nD) (t : Fin cfg5.N) (h : t.val = 9) : (dat5 V c).after 4 t = (sAt5 V c 9 (by rw [show cfg5.N = 10 from N_5]; decide)).2 := by
  obtain ⟨n, hn⟩ := t; obtain rfl : n = 9 := h; rfl

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl

theorem lvA5 {c : Dev nD} (D : Dat τ (Elt F) Unit ℕ (UR sig nD τ) ℕ cfg5 c) {w : Fin cfg5.W} {t : Fin cfg5.N} (h : cfg5.idle w (grid5.coords t) = false) :
    D.leavesExact w t = owns (c : Thread nD τ) ((cfg5.win w).stage (cfg5.slots t w)) fullShare (D.after w t) := by
  unfold Dat.leavesExact; rw [h]

theorem sound_body5 (c : Dev nD) (t : Fin cfg5.N) :
    iprop((dat5 V c).Φ t.castSucc ∗ (dat5 V c).owesAt () t.castSucc
      ∗ (∃ d, owns (c : Thread nD τ) (win5_0.stage (cfg5.slots t 0)) fullShare ((dat5 V c).before 0 t d))
      ∗ (∃ d, owns (c : Thread nD τ) (win5_1.stage (cfg5.slots t 1)) fullShare ((dat5 V c).before 1 t d))
      ∗ (∃ d, owns (c : Thread nD τ) (win5_2.stage (cfg5.slots t 2)) fullShare ((dat5 V c).before 2 t d))
      ∗ (∃ d, owns (c : Thread nD τ) (win5_3.stage (cfg5.slots t 3)) fullShare ((dat5 V c).before 3 t d))
      ∗ (∃ d, owns (c : Thread nD τ) (win5_4.stage (cfg5.slots t 4)) fullShare ((dat5 V c).before 4 t d)))
    ⊢ wp frame (wpE (defs₀ (F := F)) Variants.none c none) Set.univ (bodyAt5 t) (fun _ => iprop((dat5 V c).Φ t.succ ∗ (dat5 V c).owesAt () t.succ
      ∗ (dat5 V c).leavesExact 0 t ∗ (dat5 V c).leavesExact 1 t ∗ (dat5 V c).leavesExact 2 t ∗ (dat5 V c).leavesExact 3 t ∗ (dat5 V c).leavesExact 4 t)) := by
  unfold bodyAt5
  simp only [before5_0, before5_1]
  rw [show (dat5 V c).owesAt () t.succ = (dat5 V c).owesAt () t.castSucc from rfl,
    show (dat5 V c).Φ t.succ = PhiN5 c (sAt5 V c t.val t.isLt).1 (sAt5 V c t.val t.isLt).2 from rfl,
    show (dat5 V c).Φ t.castSucc = PhiS5 V c t.val (Nat.le_of_lt t.isLt) from rfl,
    lvA5 _ (live5 t 0 (.inl (by decide))), lvA5 _ (live5 t 1 (.inl (by decide))), lvA5 _ (live5 t 2 (.inl (by decide))), after5_2,
    show (dat5 V c).after 0 t = iblk5 V c 0 t from rfl, show (dat5 V c).after 1 t = iblk5 V c 1 t from rfl]
  by_cases hz : t.val = 0
  · have hL : t.val ≠ 9 := by omega
    rw [Dat.leavesExact_idle _ 3 t (idle5 t 3 (by decide) hL).1 (idle5 t 3 (by decide) hL).2,
      Dat.leavesExact_idle _ 4 t (idle5 t 4 (by decide) hL).1 (idle5 t 4 (by decide) hL).2,
      sAt5_zero V c t hz, PhiS5_zero V c _ _ hz, PhiA5_eq]
    dsimp only [PhiN5]
    iintro ⟨⟨⟨⟨⟨%s, Hu⟩, ⟨%z, Hv⟩⟩, HR⟩, Hg⟩, Ho, ⟨%da, Ha⟩, ⟨%db, Hb⟩, ⟨%dp, Hp⟩, ⟨%dq, Hq⟩, ⟨%dr, Hr⟩⟩
    iapply (run5 c (grid5.coords t) (iblk5 V c 0 t) (iblk5 V c 1 t) s z ((dat5 V c).before 3 t dq) ((dat5 V c).before 4 t dr) Set.univ _ _ _ _ _
      (.inl ⟨(hcondF5 t).mpr hz, fun k => hL ((hcondL5 t).mp k), rfl, rfl⟩) (.inr ⟨fun k => hL ((hcondL5 t).mp k), rfl, rfl⟩))
    iframe Ha Hb Hq Hr Hu Hv
    isplitl [Hp]; · iexists _; iexact Hp
    iintro ⟨Ha, Hb, Hp, Hq, Hr, Hu, Hv⟩
    iframe Ha Hb Hp Hu Hv HR Hg Ho
    isplitl [Hq] <;> iexists _ <;> iassumption
  · have hF : ¬condF5 (grid5.coords t) := fun k => hz ((hcondF5 t).mp k)
    rw [PhiS5_pos V c _ _ hz, sAt5_pos V c t hz]
    by_cases hL : t.val = 9
    · rw [lvA5 _ (live5 t 3 (.inr hL)), lvA5 _ (live5 t 4 (.inr hL)), show (dat5 V c).after 3 t = (sAt5 V c t.val t.isLt).1 from rfl,
        show (dat5 V c).after 4 t = (sAt5 V c t.val t.isLt).2 from rfl, sAt5_pos V c t hz]
      dsimp only [PhiN5]
      iintro ⟨⟨⟨⟨Hu, Hv⟩, HR⟩, Hg⟩, Ho, ⟨%da, Ha⟩, ⟨%db, Hb⟩, ⟨%dp, Hp⟩, ⟨%dq, Hq⟩, ⟨%dr, Hr⟩⟩
      iapply (run5 c (grid5.coords t) (iblk5 V c 0 t) (iblk5 V c 1 t) _ _ ((dat5 V c).before 3 t dq) ((dat5 V c).before 4 t dr) Set.univ _ _ _ _ _
        (.inr ⟨hF, rfl, rfl⟩) (.inl ⟨(hcondL5 t).mpr hL, rfl, rfl⟩))
      iframe Ha Hb Hq Hr Hu Hv
      isplitl [Hp]; · iexists _; iexact Hp
      iintro ⟨Ha, Hb, Hp, Hq, Hr, Hu, Hv⟩
      iframe
    · rw [Dat.leavesExact_idle _ 3 t (idle5 t 3 (by decide) hL).1 (idle5 t 3 (by decide) hL).2,
        Dat.leavesExact_idle _ 4 t (idle5 t 4 (by decide) hL).1 (idle5 t 4 (by decide) hL).2]
      dsimp only [PhiN5]
      iintro ⟨⟨⟨⟨Hu, Hv⟩, HR⟩, Hg⟩, Ho, ⟨%da, Ha⟩, ⟨%db, Hb⟩, ⟨%dp, Hp⟩, ⟨%dq, Hq⟩, ⟨%dr, Hr⟩⟩
      iapply (run5 c (grid5.coords t) (iblk5 V c 0 t) (iblk5 V c 1 t) _ _ ((dat5 V c).before 3 t dq) ((dat5 V c).before 4 t dr) Set.univ _ _ _ _ _
        (.inr ⟨hF, rfl, rfl⟩) (.inr ⟨fun k => hL ((hcondL5 t).mp k), rfl, rfl⟩))
      iframe Ha Hb Hq Hr Hu Hv
      isplitl [Hp]; · iexists _; iexact Hp
      iintro ⟨Ha, Hb, Hp, Hq, Hr, Hu, Hv⟩
      iframe Ha Hb Hp Hu Hv HR Hg Ho
      isplitl [Hq] <;> iexists _ <;> iassumption

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := Idealize.SL.BI.Entails.refl _

/-- After the last tile the running sums' contents are forgotten. -/
theorem hout5 (c : Dev nD) : (dat5 V c).Φ (Fin.last cfg5.N) ⊢ (Pipeline.ΦA spec5 c : sProp 𝕄) := by
  rw [show (dat5 V c).Φ (Fin.last cfg5.N) = PhiS5 V c (Fin.last cfg5.N).val (Nat.le_of_lt_succ (Fin.last cfg5.N).isLt) from rfl,
    PhiS5_pos V c _ _ (by rw [Fin.val_last, show cfg5.N = 10 from N_5]; decide), PhiA5_eq]
  iintro ⟨⟨⟨Hu, Hv⟩, HR⟩, Hg⟩
  iframe HR Hg
  isplitl [Hu] <;> iexists _ <;> iassumption

end Cert.KernelIdeal.Reg
end
-- ==== Proof.KI.R06.lean ====
import proofs.«408439_j66932770341395_1_alg».proof.Proof.Gen.KernelIdeal.Launch
import proofs.«408439_j66932770341395_1_alg».proof.Proof.Gen.KernelIdeal.Skeleton
import proofs.«408439_j66932770341395_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S5000x128 := Rect.unit (s := S5000x128) ![0, 0] S5000x128.size inb_S5000x128_S5000x128_0_0
abbrev r6_1 : Rect S1x128 := Rect.unit (s := S1x128) ![0, 0] S1x128.size inb_S1x128_S1x128_0_0

def out6_5 (x : Vec F S5000x128 .f32) (y z s r : Vec F S1x128 .f32) : Vec F S5000x128 .f32 :=
  View.canon [⟨r6_0, k6_pay1 (View.ld x r6_0) (View.ld z r6_1) (View.ld y r6_1) (View.ld s r6_1) (View.ld r r6_1)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_5 (c : Dev nD) (t : Fin cfg6.N) : (dat6 V c).after 5 t
    = out6_5 (iblk6 V c 0 t) (iblk6 V c 1 t) (iblk6 V c 2 t) (iblk6 V c 3 t) (iblk6 V c 4 t) := by dsimp only [dat6]

theorem before6_in (c : Dev nD) (w : Fin cfg6.W) (hw : w.val < 5 := by decide) (t : Fin cfg6.N) (d) :
    (dat6 V c).before w t d = (dat6 V c).after w t :=
  match w with
  | ⟨0, _⟩ | ⟨1, _⟩ | ⟨2, _⟩ | ⟨3, _⟩ | ⟨4, _⟩ =>
    ((dat6 V c).before_in_eq_fetched _ rfl (fun _ => rfl) (fun _ _ _ => rfl) (fun _ => rfl) t d).trans rfl
  | ⟨5, _⟩ => absurd hw (Nat.lt_irrefl 5)

set_option maxHeartbeats 1000000 in
theorem sound_kernel6 (c : Dev nD) {E : Set ℕ} {i : grid6.Coords}
    {a : Memref sig .tc .vmem S5000x128 .f32} {ha : a.IsWhole} {b : Memref sig .tc .vmem S1x128 .f32} {hb : b.IsWhole}
    {u : Memref sig .tc .vmem S1x128 .f32} {hu : u.IsWhole} {v : Memref sig .tc .vmem S1x128 .f32} {hv : v.IsWhole}
    {p : Memref sig .tc .vmem S1x128 .f32} {hp : p.IsWhole} {o : Memref sig .tc .vmem S5000x128 .f32} {ho : o.IsWhole}
    {x e : Vec F S5000x128 .f32} {y z s r : Vec F S1x128 .f32} {K : PUnit → sProp 𝕄} :
    iprop(owns c a fullShare x ∗ owns c b fullShare y ∗ owns c u fullShare z ∗ owns c v fullShare s ∗ owns c p fullShare r
        ∗ owns c o fullShare e
        ∗ (owns c a fullShare x ∗ owns c b fullShare y ∗ owns c u fullShare z ∗ owns c v fullShare s ∗ owns c p fullShare r
            ∗ owns c o fullShare (out6_5 x y z s r) -∗ K ⟨⟩))
      ⊢ wp frame (wpE (defs₀ (F := F)) Variants.none c none) E (cc6__bn_relu_kernel i a ha b hb u hu v hv p hp o ho) K := by
  simp only [cc6__bn_relu_kernel_eq_skeleton]; unfold cc6__bn_relu_kernel_skel owns
  iintro ⟨⟨%f, %hf, Hx⟩, ⟨%g, %hg, Hy⟩, ⟨%h, %hh, Hz⟩, ⟨%j, %hj, Hs⟩, ⟨%l, %hl, Hr⟩, ⟨%k, -, He⟩, Hk⟩
  subst hf hg hh hj hl
  sl_exec
  sl_step
  iapply Hk
  isplitl [Hx]
  · iexists f; isplitr; · ipureintro; rfl
    iexact Hx
  isplitl [Hy]
  · iexists g; isplitr; · ipureintro; rfl
    iexact Hy
  isplitl [Hz]
  · iexists h; isplitr; · ipureintro; rfl
    iexact Hz
  isplitl [Hs]
  · iexists j; isplitr; · ipureintro; rfl
    iexact Hs
  isplitl [Hr]
  · iexists l; isplitr; · ipureintro; rfl
    iexact Hr
  iexists _; isplitr
  swap; · iexact He
  ipureintro
  exact View.read_writes_eq_canon _ _ _ (View.cover_of_tiled _ S5000x128.size (by rfl))

theorem body_obligation6 (c : Dev nD) : BodyObligation (dat6 (F := F) V c) (defs₀ (F := F)) Variants.none () Set.univ := fun t => by
  rw [bigSep_W6, bigSep_W6]
  simp only [before6_in V c 0, before6_in V c 1, before6_in V c 2, before6_in V c 3, before6_in V c 4]
  rw [show (dat6 V c).Φ t.succ = (dat6 V c).Φ t.castSucc from rfl,
    show (dat6 V c).owesAt () t.succ = (dat6 V c).owesAt () t.castSucc from rfl,
    show (dat6 V c).after 5 t = out6_5 ((dat6 V c).after 0 t) ((dat6 V c).after 1 t) ((dat6 V c).after 2 t)
      ((dat6 V c).after 3 t) ((dat6 V c).after 4 t) from by dsimp only [dat6]]
  show _ ⊢ wp _ _ _ (bodyAt6 t) _
  iintro ⟨HΦ, Ho, ⟨%d, Hx⟩, ⟨%d, Hy⟩, ⟨%d, Hz⟩, ⟨%d, Hs⟩, ⟨%d, Hr⟩, ⟨%d, He⟩⟩
  iapply (sound_kernel6 c)
  iframe Hx Hy Hz Hs Hr He
  iintro ⟨Hx, Hy, Hz, Hs, Hr, He⟩
  iframe

theorem hin6 (c : Dev nD) : (Pipeline.ΦA spec6 c : sProp 𝕄) ⊢ (dat6 V c).Φ 0 := .rfl
theorem hout6 (c : Dev nD) : (dat6 V c).Φ (Fin.last cfg6.N) ⊢ (Pipeline.ΦA spec6 c : sProp 𝕄) := .rfl

end Cert.KernelIdeal.Reg
end
-- ==== Proof.KI.R07.lean ====
import proofs.«408439_j66932770341395_1_alg».proof.Proof.Gen.KernelIdeal.Launch
import proofs.«408439_j66932770341395_1_alg».proof.Proof.Gen.KernelIdeal.Skeleton
import proofs.«408439_j66932770341395_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S5000x128 := Rect.unit (s := S5000x128) ![0, 0] S5000x128.size inb_S5000x128_S5000x128_0_0
abbrev r7_1 : Rect S128x128 := Rect.unit (s := S128x128) ![0, 0] S128x128.size inb_S128x128_S128x128_0_0
abbrev r7_2 : Rect S1x128 := Rect.unit (s := S1x128) ![0, 0] S1x128.size inb_S1x128_S1x128_0_0

def out7_3 (x : Vec F S5000x128 .f32) (y : Vec F S128x128 .f32) (z : Vec F S1x128 .f32) : Vec F S5000x128 .f32 :=
  View.canon [⟨r7_0, k7_pay1 (View.ld x r7_0) (View.ld y r7_1) (View.ld z r7_2)⟩]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_3 (c : Dev nD) (t : Fin cfg7.N) :
    (dat7 V c).after 3 t = out7_3 (iblk7 V c 0 t) (iblk7 V c 1 t) (iblk7 V c 2 t) := by dsimp only [dat7]

theorem before7_in (c : Dev nD) (w : Fin cfg7.W) (hw : w.val < 3 := by decide) (t : Fin cfg7.N) (d) :
    (dat7 V c).before w t d = (dat7 V c).after w t :=
  match w with
  | ⟨0, _⟩ | ⟨1, _⟩ | ⟨2, _⟩ =>
    ((dat7 V c).before_in_eq_fetched _ rfl (fun _ => rfl) (fun _ _ _ => rfl) (fun _ => rfl) t d).trans rfl
  | ⟨3, _⟩ => absurd hw (Nat.lt_irrefl 3)

set_option maxHeartbeats 4000000 in
theorem sound_kernel7 (c : Dev nD) {E : Set ℕ} {i : grid7.Coords}
    {a : Memref sig .tc .vmem S5000x128 .f32} {ha : a.IsWhole} {b : Memref sig .tc .vmem S128x128 .f32} {hb : b.IsWhole}
    {u : Memref sig .tc .vmem S1x128 .f32} {hu : u.IsWhole} {v : Memref sig .tc .vmem S5000x128 .f32} {hv : v.IsWhole}
    {x s : Vec F S5000x128 .f32} {y : Vec F S128x128 .f32} {z : Vec F S1x128 .f32} {K : PUnit → sProp 𝕄} :
    iprop(owns c a fullShare x ∗ owns c b fullShare y ∗ owns c u fullShare z ∗ owns c v fullShare s
        ∗ (owns c a fullShare x ∗ owns c b fullShare y ∗ owns c u fullShare z ∗ owns c v fullShare (out7_3 x y z) -∗ K ⟨⟩))
      ⊢ wp frame (wpE (defs₀ (F := F)) Variants.none c none) E (cc7__linear_kernel i a ha b hb u hu v hv) K := by
  simp only [cc7__linear_kernel_eq_skeleton]; unfold cc7__linear_kernel_skel owns
  iintro ⟨⟨%f, %hf, Hx⟩, ⟨%g, %hg, Hy⟩, ⟨%h, %hh, Hz⟩, ⟨%k, -, Hv⟩, Hk⟩
  subst hf hg hh
  sl_exec
  sl_step
  iapply Hk
  isplitl [Hx]
  · iexists f; isplitr; · ipureintro; rfl
    iexact Hx
  isplitl [Hy]
  · iexists g; isplitr; · ipureintro; rfl
    iexact Hy
  isplitl [Hz]
  · iexists h; isplitr; · ipureintro; rfl
    iexact Hz
  iexists _; isplitr
  swap; · iexact Hv
  ipureintro
  exact View.read_writes_eq_canon _ _ _ (View.cover_of_tiled _ S5000x128.size (by rfl))

theorem body_obligation7 (c : Dev nD) : BodyObligation (dat7 (F := F) V c) (defs₀ (F := F)) Variants.none () Set.univ := fun t => by
  rw [bigSep_W7, bigSep_W7]
  simp only [before7_in V c 0, before7_in V c 1, before7_in V c 2]
  rw [show (dat7 V c).Φ t.succ = (dat7 V c).Φ t.castSucc from rfl,
    show (dat7 V c).owesAt () t.succ = (dat7 V c).owesAt () t.castSucc from rfl,
    show (dat7 V c).after 3 t = out7_3 ((dat7 V c).after 0 t) ((dat7 V c).after 1 t) ((dat7 V c).after 2 t) from by dsimp only [dat7]]
  show _ ⊢ wp _ _ _ (bodyAt7 t) _
  iintro ⟨HΦ, Ho, ⟨%d, Hx⟩, ⟨%d, Hy⟩, ⟨%d, Hz⟩, ⟨%d, Hv⟩⟩
  iapply (sound_kernel7 c)
  iframe Hx Hy Hz Hv
  iintro ⟨Hx, Hy, Hz, Hv⟩
  iframe

theorem hin7 (c : Dev nD) : (Pipeline.ΦA spec7 c : sProp 𝕄) ⊢ (dat7 V c).Φ 0 := .rfl
theorem hout7 (c : Dev nD) : (dat7 V c).Φ (Fin.last cfg7.N) ⊢ (Pipeline.ΦA spec7 c : sProp 𝕄) := .rfl

end Cert.KernelIdeal.Reg
end
-- ==== Proof.KI.R08.lean ====
import proofs.«408439_j66932770341395_1_alg».proof.Proof.Gen.KernelIdeal.Launch
import proofs.«408439_j66932770341395_1_alg».proof.Proof.Gen.KernelIdeal.Skeleton
import proofs.«408439_j66932770341395_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

noncomputable abbrev condF8 (i : grid8.Coords) : Prop := (Scalar.cmpi .ne (Scalar.extui (Scalar.cmpi .eq (BitVec.ofNat 32 (i 0).val) 0#32)) 0#32) = 1#1
noncomputable abbrev condL8 (i : grid8.Coords) : Prop := k8_cond2 i = 1#1
theorem hcondF8 : ∀ t : Fin cfg8.N, condF8 (grid8.coords t) ↔ t.val = 0 :=
  (by decide +kernel : ∀ t : Fin grid8.N, condF8 (grid8.coords t) ↔ t.val = 0)
theorem hcondL8 : ∀ t : Fin cfg8.N, condL8 (grid8.coords t) ↔ t.val = 9 :=
  (by decide +kernel : ∀ t : Fin grid8.N, condL8 (grid8.coords t) ↔ t.val = 9)
theorem live8 : ∀ (t : Fin cfg8.N) (w : Fin cfg8.W), w.val < 3 ∨ t.val = 9 → cfg8.idle w (grid8.coords t) = false := by decide +kernel
theorem idle8 : ∀ (t : Fin cfg8.N) (w : Fin cfg8.W), 3 ≤ w.val → t.val ≠ 9 → cfg8.idle w (grid8.coords t) = true ∧ (cfg8.win w).flush t = false := by decide +kernel

theorem hzero8 : (![0, 0] : Fin 2 → Nat) = fun _ => 0 := funext fun a => by fin_cases a <;> rfl
noncomputable abbrev rT8 : Rect S5000x128 := Rect.unit (s := S5000x128) ![0, 0] S5000x128.size inb_S5000x128_S5000x128_0_0
noncomputable abbrev rR8 : Rect S1x128 := Rect.unit (s := S1x128) ![0, 0] S1x128.size inb_S1x128_S1x128_0_0

noncomputable def out8_2 (x : Vec F S5000x128 .f32) (y : Vec F S1x128 .f32) : Vec F S5000x128 .f32 :=
  View.canon [⟨rT8, k8_pay3 (View.ld x rT8) (View.ld y rR8)⟩]
noncomputable def acc8_0 (x : Vec F S5000x128 .f32) (y s : Vec F S1x128 .f32) : Vec F S1x128 .f32 :=
  View.canon [⟨rR8, k8_pay4 (View.ld x rT8) (View.ld y rR8) (View.ld s rR8)⟩]
noncomputable def acc8_1 (x : Vec F S5000x128 .f32) (y s : Vec F S1x128 .f32) : Vec F S1x128 .f32 :=
  View.canon [⟨rR8, k8_pay5 (View.ld x rT8) (View.ld y rR8) (View.ld s rR8)⟩]
noncomputable def zero8_0 : Vec F S1x128 .f32 := View.canon [⟨rR8, k8_pay1 (F := F)⟩]
noncomputable def zero8_1 : Vec F S1x128 .f32 := View.canon [⟨rR8, k8_pay2 (F := F)⟩]

theorem out8_2_eq (x : Vec F S5000x128 .f32) (y : Vec F S1x128 .f32) : out8_2 x y = k8_pay3 x y := by
  unfold out8_2; rw [View.canon_unit_zero hzero8, View.ld_unit_zero (S := S5000x128) hzero8, View.ld_unit_zero (S := S1x128) hzero8]
theorem acc8_0_eq (x : Vec F S5000x128 .f32) (y s : Vec F S1x128 .f32) : acc8_0 x y s = k8_pay4 x y s := by
  unfold acc8_0; rw [View.canon_unit_zero hzero8, View.ld_unit_zero (S := S5000x128) hzero8, View.ld_unit_zero (S := S1x128) hzero8, View.ld_unit_zero (S := S1x128) hzero8]
theorem acc8_1_eq (x : Vec F S5000x128 .f32) (y s : Vec F S1x128 .f32) : acc8_1 x y s = k8_pay5 x y s := by
  unfold acc8_1; rw [View.canon_unit_zero hzero8, View.ld_unit_zero (S := S5000x128) hzero8, View.ld_unit_zero (S := S1x128) hzero8, View.ld_unit_zero (S := S1x128) hzero8]
theorem zero8_0_eq : (zero8_0 : Vec F S1x128 .f32) = k8_pay1 := View.canon_unit_zero hzero8 _ _
theorem zero8_1_eq : (zero8_1 : Vec F S1x128 .f32) = k8_pay2 := View.canon_unit_zero hzero8 _ _

/-- A buffer whose last store covers it whole reads that store's payload. -/
theorem rd8 {S : Shape} {κ : Kind} {sp : Space} (v : View sig κ sp S .f32) (f : v.ty.Contents (Elt F)) {off : Fin S.rank → Nat} (h : off = fun _ => 0)
    (inb : ∀ a, off a + S.size a ≤ S.size a) (w : S.Idx → Elt F .f32) (L : List (View.Piece (Elt F) S .f32)) :
    v.read (Elt F) (v.writes (Elt F) f (⟨Rect.unit off S.size inb, w⟩ :: L)) = w :=
  (View.read_writes_eq_canon v f _ fun y => ⟨_, List.mem_cons_self, View.mem_set_unit_zero h inb y⟩).trans (View.canon_cons_unit_zero h inb w L)

section
variable (c : Dev nD) (i : grid8.Coords) {a p : Memref sig .tc .vmem S5000x128 .f32} {b q r u v : Memref sig .tc .vmem S1x128 .f32}
  {ha : a.IsWhole} {hb : b.IsWhole} {hp : p.IsWhole} {hq : q.IsWhole} {hr : r.IsWhole} {hu : u.IsWhole} {hv : v.IsWhole}
  (x : Vec F S5000x128 .f32) (y s z e w : Vec F S1x128 .f32) (E : Set ℕ) (K : PUnit → sProp (MT nD τ sig Unit (Elt F) ℕ (UR sig nD τ) ℕ))

set_option maxHeartbeats 4000000 in
/-- One tile: the running sums restart from zero at the first tile, the tile is stored and added to both, and at the last tile both are copied out. -/
theorem run8 (s' z' e' w' : Vec F S1x128 .f32)
    (hs : condF8 i ∧ ¬condL8 i ∧ s' = zero8_0 ∧ z' = zero8_1 ∨ ¬condF8 i ∧ s' = s ∧ z' = z)
    (he : condL8 i ∧ e' = acc8_0 x y s' ∧ w' = acc8_1 x y z' ∨ ¬condL8 i ∧ e' = e ∧ w' = w) :
    iprop(owns (c : Thread nD τ) a fullShare x ∗ owns (c : Thread nD τ) b fullShare y ∗ (∃ d, owns (c : Thread nD τ) p fullShare d) ∗ owns (c : Thread nD τ) q fullShare e ∗ owns (c : Thread nD τ) r fullShare w ∗ owns (c : Thread nD τ) u fullShare s ∗ owns (c : Thread nD τ) v fullShare z
        ∗ (iprop(owns (c : Thread nD τ) a fullShare x ∗ owns (c : Thread nD τ) b fullShare y ∗ owns (c : Thread nD τ) p fullShare (out8_2 x y) ∗ owns (c : Thread nD τ) q fullShare e' ∗ owns (c : Thread nD τ) r fullShare w'
            ∗ owns (c : Thread nD τ) u fullShare (acc8_0 x y s') ∗ owns (c : Thread nD τ) v fullShare (acc8_1 x y z')) -∗ K ⟨⟩))
      ⊢ wp frame (wpE (defs₀ (F := F)) Variants.none c none) E (cc8__stats_bias_kernel i a ha b hb p hp q hq r hr u hu v hv) K := by
  simp only [cc8__stats_bias_kernel_eq_skeleton]; unfold cc8__stats_bias_kernel_skel owns
  rcases hs with ⟨hc, hn, rfl, rfl⟩ | ⟨hc, rfl, rfl⟩ <;> rcases he with ⟨hd, rfl, rfl⟩ | ⟨hd, rfl, rfl⟩ <;> first | exact absurd hd hn | skip
  all_goals
    iintro ⟨⟨%fa, %ea, Ha⟩, ⟨%fb, %eb, Hb⟩, ⟨%d, %fp, -, Hp⟩, ⟨%fq, %eq, Hq⟩, ⟨%fr, %er, Hr⟩, ⟨%fu, %eu, Hu⟩, ⟨%fv, %ev, Hv⟩, Hk⟩
    subst ea eb eq er eu ev
    sl_exec (disch := first | exact hc | exact hd)
    sl_step
    iapply Hk
    isplitl [Ha]; iexists _; isplitr; rotate_left; iexact Ha
    isplitl [Hb]; iexists _; isplitr; rotate_left; iexact Hb
    isplitl [Hp]; iexists _; isplitr; rotate_left; iexact Hp
    isplitl [Hq]; iexists _; isplitr; rotate_left; iexact Hq
    isplitl [Hr]; iexists _; isplitr; rotate_left; iexact Hr
    isplitl [Hu]; iexists _; isplitr; rotate_left; iexact Hu
    iexists _; isplitr; rotate_left; iexact Hv
    all_goals
      ipureintro
      first
      | with_reducible rfl
      | (try sl_unfold_words)
        simp only [rd8 (S := S5000x128) _ _ hzero8, rd8 (S := S1x128) _ _ hzero8, out8_2_eq, acc8_0_eq, acc8_1_eq, zero8_0_eq, zero8_1_eq, View.readAt_eq_ld,
          View.ld_unit_zero (S := S5000x128) hzero8, View.ld_unit_zero (S := S1x128) hzero8, View.readCov_unit_zero (S := S1x128) _ hzero8]

end

noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

noncomputable def sAt8 (c : Dev nD) : (n : ℕ) → n < cfg8.N → Vec F S1x128 .f32 × Vec F S1x128 .f32
  | 0, hn => (acc8_0 (iblk8 V c 0 ⟨0, hn⟩) (iblk8 V c 1 ⟨0, hn⟩) zero8_0, acc8_1 (iblk8 V c 0 ⟨0, hn⟩) (iblk8 V c 1 ⟨0, hn⟩) zero8_1)
  | n + 1, hn => (acc8_0 (iblk8 V c 0 ⟨n + 1, hn⟩) (iblk8 V c 1 ⟨n + 1, hn⟩) (sAt8 c n (Nat.lt_of_succ_lt hn)).1,
      acc8_1 (iblk8 V c 0 ⟨n + 1, hn⟩) (iblk8 V c 1 ⟨n + 1, hn⟩) (sAt8 c n (Nat.lt_of_succ_lt hn)).2)

theorem sAt8_zero (c : Dev nD) (t : Fin cfg8.N) (h : t.val = 0) :
    sAt8 V c t.val t.isLt = (acc8_0 (iblk8 V c 0 t) (iblk8 V c 1 t) zero8_0, acc8_1 (iblk8 V c 0 t) (iblk8 V c 1 t) zero8_1) := by
  obtain ⟨_ | n, hn⟩ := t
  · rfl
  · exact absurd h (Nat.succ_ne_zero n)

theorem sAt8_pos (c : Dev nD) (t : Fin cfg8.N) (h : t.val ≠ 0) :
    sAt8 V c t.val t.isLt = (acc8_0 (iblk8 V c 0 t) (iblk8 V c 1 t) (sAt8 V c (t.val - 1) (Nat.lt_of_le_of_lt (Nat.sub_le _ _) t.isLt)).1,
      acc8_1 (iblk8 V c 0 t) (iblk8 V c 1 t) (sAt8 V c (t.val - 1) (Nat.lt_of_le_of_lt (Nat.sub_le _ _) t.isLt)).2) := by
  obtain ⟨_ | n, hn⟩ := t
  · exact absurd rfl h
  · rfl

noncomputable abbrev scM8_0 : Memref sig .tc .vmem S1x128 .f32 := Memref.whole cc8_scratch0
noncomputable abbrev scM8_1 : Memref sig .tc .vmem S1x128 .f32 := Memref.whole cc8_scratch1

/-- The region's own buffers with the two running sums at given contents. -/
noncomputable abbrev PhiN8 (c : Dev nD) (s z : Vec F S1x128 .f32) : sProp 𝕄 :=
  iprop(iprop(iprop(owns (c : Thread nD τ) scM8_0 fullShare s ∗ owns (c : Thread nD τ) scM8_1 fullShare z)
    ∗ Pipeline.scopedRestBut spec8 c [cc8_scratch0, cc8_scratch1]) ∗ (∃ r, prngReg c r))

theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d))
          ∗ Pipeline.scopedRestBut spec8 c [cc8_scratch0, cc8_scratch1]) ∗ (∃ r, prngReg c r)) := by
  unfold Pipeline.ΦA; rw [scopedRest8_split]; simp only [scM8_0, scM8_1, owns_whole]; try rfl

noncomputable def PhiS8 (c : Dev nD) : (n : ℕ) → n ≤ cfg8.N → sProp 𝕄
  | 0, _ => Pipeline.ΦA spec8 c
  | n + 1, hn => PhiN8 c (sAt8 V c n hn).1 (sAt8 V c n hn).2

theorem PhiS8_zero (c : Dev nD) (n : ℕ) (h : n ≤ cfg8.N) (hz : n = 0) : PhiS8 V c n h = Pipeline.ΦA spec8 c := by
  subst hz; rfl

theorem PhiS8_pos (c : Dev nD) (n : ℕ) (h : n ≤ cfg8.N) (hz : n ≠ 0) :
    PhiS8 V c n h = PhiN8 c (sAt8 V c (n - 1) (by omega)).1 (sAt8 V c (n - 1) (by omega)).2 := by
  cases n with
  | zero => exact absurd rfl hz
  | succ n => rfl

noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
    | ⟨3, _⟩ => (sAt8 V c t.val t.isLt).1
    | ⟨4, _⟩ => (sAt8 V c t.val t.isLt).2
  Φ t := PhiS8 V c t.val (Nat.le_of_lt_succ t.isLt)
  q _ := fullShare
  owed _ := 0

theorem A_eq8 (c : Dev nD) (w : Fin cfg8.W) : (dat8 V c).A w = V c (Pipeline.arrRef spec8 w) := rfl

theorem after8_2 (c : Dev nD) (t : Fin cfg8.N) : (dat8 V c).after 2 t = out8_2 (iblk8 V c 0 t) (iblk8 V c 1 t) := by dsimp only [dat8]
theorem after8_3_last (c : Dev nD) (t : Fin cfg8.N) (h : t.val = 9) : (dat8 V c).after 3 t = (sAt8 V c 9 (by rw [show cfg8.N = 10 from N_8]; decide)).1 := by
  obtain ⟨n, hn⟩ := t; obtain rfl : n = 9 := h; rfl
theorem after8_4_last (c : Dev nD) (t : Fin cfg8.N) (h : t.val = 9) : (dat8 V c).after 4 t = (sAt8 V c 9 (by rw [show cfg8.N = 10 from N_8]; decide)).2 := by
  obtain ⟨n, hn⟩ := t; obtain rfl : n = 9 := h; rfl

theorem before8_0 (c : Dev nD) (t : Fin cfg8.N) (d) : (dat8 V c).before 0 t d = iblk8 V c 0 t :=
  ((dat8 V c).before_in_eq_fetched 0 rfl (fun _ => rfl) (fun _ _ _ => rfl) (fun _ => rfl) t d).trans rfl
theorem before8_1 (c : Dev nD) (t : Fin cfg8.N) (d) : (dat8 V c).before 1 t d = iblk8 V c 1 t :=
  ((dat8 V c).before_in_eq_fetched 1 rfl (fun _ => rfl) (fun _ _ _ => rfl) (fun _ => rfl) t d).trans rfl

theorem lvA8 {c : Dev nD} (D : Dat τ (Elt F) Unit ℕ (UR sig nD τ) ℕ cfg8 c) {w : Fin cfg8.W} {t : Fin cfg8.N} (h : cfg8.idle w (grid8.coords t) = false) :
    D.leavesExact w t = owns (c : Thread nD τ) ((cfg8.win w).stage (cfg8.slots t w)) fullShare (D.after w t) := by
  unfold Dat.leavesExact; rw [h]

theorem sound_body8 (c : Dev nD) (t : Fin cfg8.N) :
    iprop((dat8 V c).Φ t.castSucc ∗ (dat8 V c).owesAt () t.castSucc
      ∗ (∃ d, owns (c : Thread nD τ) (win8_0.stage (cfg8.slots t 0)) fullShare ((dat8 V c).before 0 t d))
      ∗ (∃ d, owns (c : Thread nD τ) (win8_1.stage (cfg8.slots t 1)) fullShare ((dat8 V c).before 1 t d))
      ∗ (∃ d, owns (c : Thread nD τ) (win8_2.stage (cfg8.slots t 2)) fullShare ((dat8 V c).before 2 t d))
      ∗ (∃ d, owns (c : Thread nD τ) (win8_3.stage (cfg8.slots t 3)) fullShare ((dat8 V c).before 3 t d))
      ∗ (∃ d, owns (c : Thread nD τ) (win8_4.stage (cfg8.slots t 4)) fullShare ((dat8 V c).before 4 t d)))
    ⊢ wp frame (wpE (defs₀ (F := F)) Variants.none c none) Set.univ (bodyAt8 t) (fun _ => iprop((dat8 V c).Φ t.succ ∗ (dat8 V c).owesAt () t.succ
      ∗ (dat8 V c).leavesExact 0 t ∗ (dat8 V c).leavesExact 1 t ∗ (dat8 V c).leavesExact 2 t ∗ (dat8 V c).leavesExact 3 t ∗ (dat8 V c).leavesExact 4 t)) := by
  unfold bodyAt8
  simp only [before8_0, before8_1]
  rw [show (dat8 V c).owesAt () t.succ = (dat8 V c).owesAt () t.castSucc from rfl,
    show (dat8 V c).Φ t.succ = PhiN8 c (sAt8 V c t.val t.isLt).1 (sAt8 V c t.val t.isLt).2 from rfl,
    show (dat8 V c).Φ t.castSucc = PhiS8 V c t.val (Nat.le_of_lt t.isLt) from rfl,
    lvA8 _ (live8 t 0 (.inl (by decide))), lvA8 _ (live8 t 1 (.inl (by decide))), lvA8 _ (live8 t 2 (.inl (by decide))), after8_2,
    show (dat8 V c).after 0 t = iblk8 V c 0 t from rfl, show (dat8 V c).after 1 t = iblk8 V c 1 t from rfl]
  by_cases hz : t.val = 0
  · have hL : t.val ≠ 9 := by omega
    rw [Dat.leavesExact_idle _ 3 t (idle8 t 3 (by decide) hL).1 (idle8 t 3 (by decide) hL).2,
      Dat.leavesExact_idle _ 4 t (idle8 t 4 (by decide) hL).1 (idle8 t 4 (by decide) hL).2,
      sAt8_zero V c t hz, PhiS8_zero V c _ _ hz, PhiA8_eq]
    dsimp only [PhiN8]
    iintro ⟨⟨⟨⟨⟨%s, Hu⟩, ⟨%z, Hv⟩⟩, HR⟩, Hg⟩, Ho, ⟨%da, Ha⟩, ⟨%db, Hb⟩, ⟨%dp, Hp⟩, ⟨%dq, Hq⟩, ⟨%dr, Hr⟩⟩
    iapply (run8 c (grid8.coords t) (iblk8 V c 0 t) (iblk8 V c 1 t) s z ((dat8 V c).before 3 t dq) ((dat8 V c).before 4 t dr) Set.univ _ _ _ _ _
      (.inl ⟨(hcondF8 t).mpr hz, fun k => hL ((hcondL8 t).mp k), rfl, rfl⟩) (.inr ⟨fun k => hL ((hcondL8 t).mp k), rfl, rfl⟩))
    iframe Ha Hb Hq Hr Hu Hv
    isplitl [Hp]; · iexists _; iexact Hp
    iintro ⟨Ha, Hb, Hp, Hq, Hr, Hu, Hv⟩
    iframe Ha Hb Hp Hu Hv HR Hg Ho
    isplitl [Hq] <;> iexists _ <;> iassumption
  · have hF : ¬condF8 (grid8.coords t) := fun k => hz ((hcondF8 t).mp k)
    rw [PhiS8_pos V c _ _ hz, sAt8_pos V c t hz]
    by_cases hL : t.val = 9
    · rw [lvA8 _ (live8 t 3 (.inr hL)), lvA8 _ (live8 t 4 (.inr hL)), show (dat8 V c).after 3 t = (sAt8 V c t.val t.isLt).1 from rfl,
        show (dat8 V c).after 4 t = (sAt8 V c t.val t.isLt).2 from rfl, sAt8_pos V c t hz]
      dsimp only [PhiN8]
      iintro ⟨⟨⟨⟨Hu, Hv⟩, HR⟩, Hg⟩, Ho, ⟨%da, Ha⟩, ⟨%db, Hb⟩, ⟨%dp, Hp⟩, ⟨%dq, Hq⟩, ⟨%dr, Hr⟩⟩
      iapply (run8 c (grid8.coords t) (iblk8 V c 0 t) (iblk8 V c 1 t) _ _ ((dat8 V c).before 3 t dq) ((dat8 V c).before 4 t dr) Set.univ _ _ _ _ _
        (.inr ⟨hF, rfl, rfl⟩) (.inl ⟨(hcondL8 t).mpr hL, rfl, rfl⟩))
      iframe Ha Hb Hq Hr Hu Hv
      isplitl [Hp]; · iexists _; iexact Hp
      iintro ⟨Ha, Hb, Hp, Hq, Hr, Hu, Hv⟩
      iframe
    · rw [Dat.leavesExact_idle _ 3 t (idle8 t 3 (by decide) hL).1 (idle8 t 3 (by decide) hL).2,
        Dat.leavesExact_idle _ 4 t (idle8 t 4 (by decide) hL).1 (idle8 t 4 (by decide) hL).2]
      dsimp only [PhiN8]
      iintro ⟨⟨⟨⟨Hu, Hv⟩, HR⟩, Hg⟩, Ho, ⟨%da, Ha⟩, ⟨%db, Hb⟩, ⟨%dp, Hp⟩, ⟨%dq, Hq⟩, ⟨%dr, Hr⟩⟩
      iapply (run8 c (grid8.coords t) (iblk8 V c 0 t) (iblk8 V c 1 t) _ _ ((dat8 V c).before 3 t dq) ((dat8 V c).before 4 t dr) Set.univ _ _ _ _ _
        (.inr ⟨hF, rfl, rfl⟩) (.inr ⟨fun k => hL ((hcondL8 t).mp k), rfl, rfl⟩))
      iframe Ha Hb Hq Hr Hu Hv
      isplitl [Hp]; · iexists _; iexact Hp
      iintro ⟨Ha, Hb, Hp, Hq, Hr, Hu, Hv⟩
      iframe Ha Hb Hp Hu Hv HR Hg Ho
      isplitl [Hq] <;> iexists _ <;> iassumption

theorem body_obligation8 (c : Dev nD) : BodyObligation (dat8 (F := F) V c) (defs₀ (F := F)) Variants.none () Set.univ := fun t => by
  rw [bigSep_W8, bigSep_W8]
  exact sound_body8 V c t

theorem hin8 (c : Dev nD) : (Pipeline.ΦA spec8 c : sProp 𝕄) ⊢ (dat8 V c).Φ 0 := Idealize.SL.BI.Entails.refl _

/-- After the last tile the running sums' contents are forgotten. -/
theorem hout8 (c : Dev nD) : (dat8 V c).Φ (Fin.last cfg8.N) ⊢ (Pipeline.ΦA spec8 c : sProp 𝕄) := by
  rw [show (dat8 V c).Φ (Fin.last cfg8.N) = PhiS8 V c (Fin.last cfg8.N).val (Nat.le_of_lt_succ (Fin.last cfg8.N).isLt) from rfl,
    PhiS8_pos V c _ _ (by rw [Fin.val_last, show cfg8.N = 10 from N_8]; decide), PhiA8_eq]
  iintro ⟨⟨⟨Hu, Hv⟩, HR⟩, Hg⟩
  iframe HR Hg
  isplitl [Hu] <;> iexists _ <;> iassumption

end Cert.KernelIdeal.Reg
end
-- ==== Proof.KI.R09.lean ====
import proofs.«408439_j66932770341395_1_alg».proof.Proof.Gen.KernelIdeal.Launch
import proofs.«408439_j66932770341395_1_alg».proof.Proof.Gen.KernelIdeal.Skeleton
import proofs.«408439_j66932770341395_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_0 : Rect S5000x128 := Rect.unit (s := S5000x128) ![0, 0] S5000x128.size inb_S5000x128_S5000x128_0_0
abbrev r9_1 : Rect S1x128 := Rect.unit (s := S1x128) ![0, 0] S1x128.size inb_S1x128_S1x128_0_0

def out9_5 (x : Vec F S5000x128 .f32) (y z s r : Vec F S1x128 .f32) : Vec F S5000x128 .f32 :=
  View.canon [⟨r9_0, k9_pay1 (View.ld x r9_0) (View.ld z r9_1) (View.ld y r9_1) (View.ld s r9_1) (View.ld r r9_1)⟩]

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_5 (c : Dev nD) (t : Fin cfg9.N) : (dat9 V c).after 5 t
    = out9_5 (iblk9 V c 0 t) (iblk9 V c 1 t) (iblk9 V c 2 t) (iblk9 V c 3 t) (iblk9 V c 4 t) := by dsimp only [dat9]

theorem before9_in (c : Dev nD) (w : Fin cfg9.W) (hw : w.val < 5 := by decide) (t : Fin cfg9.N) (d) :
    (dat9 V c).before w t d = (dat9 V c).after w t :=
  match w with
  | ⟨0, _⟩ | ⟨1, _⟩ | ⟨2, _⟩ | ⟨3, _⟩ | ⟨4, _⟩ =>
    ((dat9 V c).before_in_eq_fetched _ rfl (fun _ => rfl) (fun _ _ _ => rfl) (fun _ => rfl) t d).trans rfl
  | ⟨5, _⟩ => absurd hw (Nat.lt_irrefl 5)

set_option maxHeartbeats 1000000 in
theorem sound_kernel9 (c : Dev nD) {E : Set ℕ} {i : grid9.Coords}
    {a : Memref sig .tc .vmem S5000x128 .f32} {ha : a.IsWhole} {b : Memref sig .tc .vmem S1x128 .f32} {hb : b.IsWhole}
    {u : Memref sig .tc .vmem S1x128 .f32} {hu : u.IsWhole} {v : Memref sig .tc .vmem S1x128 .f32} {hv : v.IsWhole}
    {p : Memref sig .tc .vmem S1x128 .f32} {hp : p.IsWhole} {o : Memref sig .tc .vmem S5000x128 .f32} {ho : o.IsWhole}
    {x e : Vec F S5000x128 .f32} {y z s r : Vec F S1x128 .f32} {K : PUnit → sProp 𝕄} :
    iprop(owns c a fullShare x ∗ owns c b fullShare y ∗ owns c u fullShare z ∗ owns c v fullShare s ∗ owns c p fullShare r
        ∗ owns c o fullShare e
        ∗ (owns c a fullShare x ∗ owns c b fullShare y ∗ owns c u fullShare z ∗ owns c v fullShare s ∗ owns c p fullShare r
            ∗ owns c o fullShare (out9_5 x y z s r) -∗ K ⟨⟩))
      ⊢ wp frame (wpE (defs₀ (F := F)) Variants.none c none) E (cc9__bn_relu_kernel i a ha b hb u hu v hv p hp o ho) K := by
  simp only [cc9__bn_relu_kernel_eq_skeleton]; unfold cc9__bn_relu_kernel_skel owns
  iintro ⟨⟨%f, %hf, Hx⟩, ⟨%g, %hg, Hy⟩, ⟨%h, %hh, Hz⟩, ⟨%j, %hj, Hs⟩, ⟨%l, %hl, Hr⟩, ⟨%k, -, He⟩, Hk⟩
  subst hf hg hh hj hl
  sl_exec
  sl_step
  iapply Hk
  isplitl [Hx]
  · iexists f; isplitr; · ipureintro; rfl
    iexact Hx
  isplitl [Hy]
  · iexists g; isplitr; · ipureintro; rfl
    iexact Hy
  isplitl [Hz]
  · iexists h; isplitr; · ipureintro; rfl
    iexact Hz
  isplitl [Hs]
  · iexists j; isplitr; · ipureintro; rfl
    iexact Hs
  isplitl [Hr]
  · iexists l; isplitr; · ipureintro; rfl
    iexact Hr
  iexists _; isplitr
  swap; · iexact He
  ipureintro
  exact View.read_writes_eq_canon _ _ _ (View.cover_of_tiled _ S5000x128.size (by rfl))

theorem body_obligation9 (c : Dev nD) : BodyObligation (dat9 (F := F) V c) (defs₀ (F := F)) Variants.none () Set.univ := fun t => by
  rw [bigSep_W9, bigSep_W9]
  simp only [before9_in V c 0, before9_in V c 1, before9_in V c 2, before9_in V c 3, before9_in V c 4]
  rw [show (dat9 V c).Φ t.succ = (dat9 V c).Φ t.castSucc from rfl,
    show (dat9 V c).owesAt () t.succ = (dat9 V c).owesAt () t.castSucc from rfl,
    show (dat9 V c).after 5 t = out9_5 ((dat9 V c).after 0 t) ((dat9 V c).after 1 t) ((dat9 V c).after 2 t)
      ((dat9 V c).after 3 t) ((dat9 V c).after 4 t) from by dsimp only [dat9]]
  show _ ⊢ wp _ _ _ (bodyAt9 t) _
  iintro ⟨HΦ, Ho, ⟨%d, Hx⟩, ⟨%d, Hy⟩, ⟨%d, Hz⟩, ⟨%d, Hs⟩, ⟨%d, Hr⟩, ⟨%d, He⟩⟩
  iapply (sound_kernel9 c)
  iframe Hx Hy Hz Hs Hr He
  iintro ⟨Hx, Hy, Hz, Hs, Hr, He⟩
  iframe

theorem hin9 (c : Dev nD) : (Pipeline.ΦA spec9 c : sProp 𝕄) ⊢ (dat9 V c).Φ 0 := .rfl
theorem hout9 (c : Dev nD) : (dat9 V c).Φ (Fin.last cfg9.N) ⊢ (Pipeline.ΦA spec9 c : sProp 𝕄) := .rfl

end Cert.KernelIdeal.Reg
end
-- ==== Proof.KI.R10.lean ====
import proofs.«408439_j66932770341395_1_alg».proof.Proof.Gen.KernelIdeal.Launch
import proofs.«408439_j66932770341395_1_alg».proof.Proof.Gen.KernelIdeal.Skeleton
import proofs.«408439_j66932770341395_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev r10_0 : Rect S5000x128 := Rect.unit (s := S5000x128) ![0, 0] S5000x128.size inb_S5000x128_S5000x128_0_0
abbrev r10_1 : Rect S128x128 := Rect.unit (s := S128x128) ![0, 0] S128x128.size inb_S128x128_S128x128_0_0
abbrev r10_2 : Rect S1x128 := Rect.unit (s := S1x128) ![0, 0] S1x128.size inb_S1x128_S1x128_0_0

def out10_3 (x : Vec F S5000x128 .f32) (y : Vec F S128x128 .f32) (z : Vec F S1x128 .f32) : Vec F S5000x128 .f32 :=
  View.canon [⟨r10_0, k10_pay1 (View.ld x r10_0) (View.ld y r10_1) (View.ld z r10_2)⟩]

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_3 (c : Dev nD) (t : Fin cfg10.N) :
    (dat10 V c).after 3 t = out10_3 (iblk10 V c 0 t) (iblk10 V c 1 t) (iblk10 V c 2 t) := by dsimp only [dat10]

theorem before10_in (c : Dev nD) (w : Fin cfg10.W) (hw : w.val < 3 := by decide) (t : Fin cfg10.N) (d) :
    (dat10 V c).before w t d = (dat10 V c).after w t :=
  match w with
  | ⟨0, _⟩ | ⟨1, _⟩ | ⟨2, _⟩ =>
    ((dat10 V c).before_in_eq_fetched _ rfl (fun _ => rfl) (fun _ _ _ => rfl) (fun _ => rfl) t d).trans rfl
  | ⟨3, _⟩ => absurd hw (Nat.lt_irrefl 3)

set_option maxHeartbeats 4000000 in
theorem sound_kernel10 (c : Dev nD) {E : Set ℕ} {i : grid10.Coords}
    {a : Memref sig .tc .vmem S5000x128 .f32} {ha : a.IsWhole} {b : Memref sig .tc .vmem S128x128 .f32} {hb : b.IsWhole}
    {u : Memref sig .tc .vmem S1x128 .f32} {hu : u.IsWhole} {v : Memref sig .tc .vmem S5000x128 .f32} {hv : v.IsWhole}
    {x s : Vec F S5000x128 .f32} {y : Vec F S128x128 .f32} {z : Vec F S1x128 .f32} {K : PUnit → sProp 𝕄} :
    iprop(owns c a fullShare x ∗ owns c b fullShare y ∗ owns c u fullShare z ∗ owns c v fullShare s
        ∗ (owns c a fullShare x ∗ owns c b fullShare y ∗ owns c u fullShare z ∗ owns c v fullShare (out10_3 x y z) -∗ K ⟨⟩))
      ⊢ wp frame (wpE (defs₀ (F := F)) Variants.none c none) E (cc10__linear_kernel i a ha b hb u hu v hv) K := by
  simp only [cc10__linear_kernel_eq_skeleton]; unfold cc10__linear_kernel_skel owns
  iintro ⟨⟨%f, %hf, Hx⟩, ⟨%g, %hg, Hy⟩, ⟨%h, %hh, Hz⟩, ⟨%k, -, Hv⟩, Hk⟩
  subst hf hg hh
  sl_exec
  sl_step
  iapply Hk
  isplitl [Hx]
  · iexists f; isplitr; · ipureintro; rfl
    iexact Hx
  isplitl [Hy]
  · iexists g; isplitr; · ipureintro; rfl
    iexact Hy
  isplitl [Hz]
  · iexists h; isplitr; · ipureintro; rfl
    iexact Hz
  iexists _; isplitr
  swap; · iexact Hv
  ipureintro
  exact View.read_writes_eq_canon _ _ _ (View.cover_of_tiled _ S5000x128.size (by rfl))

theorem body_obligation10 (c : Dev nD) : BodyObligation (dat10 (F := F) V c) (defs₀ (F := F)) Variants.none () Set.univ := fun t => by
  rw [bigSep_W10, bigSep_W10]
  simp only [before10_in V c 0, before10_in V c 1, before10_in V c 2]
  rw [show (dat10 V c).Φ t.succ = (dat10 V c).Φ t.castSucc from rfl,
    show (dat10 V c).owesAt () t.succ = (dat10 V c).owesAt () t.castSucc from rfl,
    show (dat10 V c).after 3 t = out10_3 ((dat10 V c).after 0 t) ((dat10 V c).after 1 t) ((dat10 V c).after 2 t) from by dsimp only [dat10]]
  show _ ⊢ wp _ _ _ (bodyAt10 t) _
  iintro ⟨HΦ, Ho, ⟨%d, Hx⟩, ⟨%d, Hy⟩, ⟨%d, Hz⟩, ⟨%d, Hv⟩⟩
  iapply (sound_kernel10 c)
  iframe Hx Hy Hz Hv
  iintro ⟨Hx, Hy, Hz, Hv⟩
  iframe

theorem hin10 (c : Dev nD) : (Pipeline.ΦA spec10 c : sProp 𝕄) ⊢ (dat10 V c).Φ 0 := .rfl
theorem hout10 (c : Dev nD) : (dat10 V c).Φ (Fin.last cfg10.N) ⊢ (Pipeline.ΦA spec10 c : sProp 𝕄) := .rfl

end Cert.KernelIdeal.Reg
end
-- ==== Proof.KI.R11.lean ====
import proofs.«408439_j66932770341395_1_alg».proof.Proof.Gen.KernelIdeal.Launch
import proofs.«408439_j66932770341395_1_alg».proof.Proof.Gen.KernelIdeal.Skeleton
import proofs.«408439_j66932770341395_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

noncomputable abbrev condF11 (i : grid11.Coords) : Prop := (Scalar.cmpi .ne (Scalar.extui (Scalar.cmpi .eq (BitVec.ofNat 32 (i 0).val) 0#32)) 0#32) = 1#1
noncomputable abbrev condL11 (i : grid11.Coords) : Prop := k11_cond2 i = 1#1
theorem hcondF11 : ∀ t : Fin cfg11.N, condF11 (grid11.coords t) ↔ t.val = 0 :=
  (by decide +kernel : ∀ t : Fin grid11.N, condF11 (grid11.coords t) ↔ t.val = 0)
theorem hcondL11 : ∀ t : Fin cfg11.N, condL11 (grid11.coords t) ↔ t.val = 9 :=
  (by decide +kernel : ∀ t : Fin grid11.N, condL11 (grid11.coords t) ↔ t.val = 9)
theorem live11 : ∀ (t : Fin cfg11.N) (w : Fin cfg11.W), w.val < 3 ∨ t.val = 9 → cfg11.idle w (grid11.coords t) = false := by decide +kernel
theorem idle11 : ∀ (t : Fin cfg11.N) (w : Fin cfg11.W), 3 ≤ w.val → t.val ≠ 9 → cfg11.idle w (grid11.coords t) = true ∧ (cfg11.win w).flush t = false := by decide +kernel

theorem hzero11 : (![0, 0] : Fin 2 → Nat) = fun _ => 0 := funext fun a => by fin_cases a <;> rfl
noncomputable abbrev rT11 : Rect S5000x128 := Rect.unit (s := S5000x128) ![0, 0] S5000x128.size inb_S5000x128_S5000x128_0_0
noncomputable abbrev rR11 : Rect S1x128 := Rect.unit (s := S1x128) ![0, 0] S1x128.size inb_S1x128_S1x128_0_0

noncomputable def out11_2 (x : Vec F S5000x128 .f32) (y : Vec F S1x128 .f32) : Vec F S5000x128 .f32 :=
  View.canon [⟨rT11, k11_pay3 (View.ld x rT11) (View.ld y rR11)⟩]
noncomputable def acc11_0 (x : Vec F S5000x128 .f32) (y s : Vec F S1x128 .f32) : Vec F S1x128 .f32 :=
  View.canon [⟨rR11, k11_pay4 (View.ld x rT11) (View.ld y rR11) (View.ld s rR11)⟩]
noncomputable def acc11_1 (x : Vec F S5000x128 .f32) (y s : Vec F S1x128 .f32) : Vec F S1x128 .f32 :=
  View.canon [⟨rR11, k11_pay5 (View.ld x rT11) (View.ld y rR11) (View.ld s rR11)⟩]
noncomputable def zero11_0 : Vec F S1x128 .f32 := View.canon [⟨rR11, k11_pay1 (F := F)⟩]
noncomputable def zero11_1 : Vec F S1x128 .f32 := View.canon [⟨rR11, k11_pay2 (F := F)⟩]

theorem out11_2_eq (x : Vec F S5000x128 .f32) (y : Vec F S1x128 .f32) : out11_2 x y = k11_pay3 x y := by
  unfold out11_2; rw [View.canon_unit_zero hzero11, View.ld_unit_zero (S := S5000x128) hzero11, View.ld_unit_zero (S := S1x128) hzero11]
theorem acc11_0_eq (x : Vec F S5000x128 .f32) (y s : Vec F S1x128 .f32) : acc11_0 x y s = k11_pay4 x y s := by
  unfold acc11_0; rw [View.canon_unit_zero hzero11, View.ld_unit_zero (S := S5000x128) hzero11, View.ld_unit_zero (S := S1x128) hzero11, View.ld_unit_zero (S := S1x128) hzero11]
theorem acc11_1_eq (x : Vec F S5000x128 .f32) (y s : Vec F S1x128 .f32) : acc11_1 x y s = k11_pay5 x y s := by
  unfold acc11_1; rw [View.canon_unit_zero hzero11, View.ld_unit_zero (S := S5000x128) hzero11, View.ld_unit_zero (S := S1x128) hzero11, View.ld_unit_zero (S := S1x128) hzero11]
theorem zero11_0_eq : (zero11_0 : Vec F S1x128 .f32) = k11_pay1 := View.canon_unit_zero hzero11 _ _
theorem zero11_1_eq : (zero11_1 : Vec F S1x128 .f32) = k11_pay2 := View.canon_unit_zero hzero11 _ _

/-- A buffer whose last store covers it whole reads that store's payload. -/
theorem rd11 {S : Shape} {κ : Kind} {sp : Space} (v : View sig κ sp S .f32) (f : v.ty.Contents (Elt F)) {off : Fin S.rank → Nat} (h : off = fun _ => 0)
    (inb : ∀ a, off a + S.size a ≤ S.size a) (w : S.Idx → Elt F .f32) (L : List (View.Piece (Elt F) S .f32)) :
    v.read (Elt F) (v.writes (Elt F) f (⟨Rect.unit off S.size inb, w⟩ :: L)) = w :=
  (View.read_writes_eq_canon v f _ fun y => ⟨_, List.mem_cons_self, View.mem_set_unit_zero h inb y⟩).trans (View.canon_cons_unit_zero h inb w L)

section
variable (c : Dev nD) (i : grid11.Coords) {a p : Memref sig .tc .vmem S5000x128 .f32} {b q r u v : Memref sig .tc .vmem S1x128 .f32}
  {ha : a.IsWhole} {hb : b.IsWhole} {hp : p.IsWhole} {hq : q.IsWhole} {hr : r.IsWhole} {hu : u.IsWhole} {hv : v.IsWhole}
  (x : Vec F S5000x128 .f32) (y s z e w : Vec F S1x128 .f32) (E : Set ℕ) (K : PUnit → sProp (MT nD τ sig Unit (Elt F) ℕ (UR sig nD τ) ℕ))

set_option maxHeartbeats 4000000 in
/-- One tile: the running sums restart from zero at the first tile, the tile is stored and added to both, and at the last tile both are copied out. -/
theorem run11 (s' z' e' w' : Vec F S1x128 .f32)
    (hs : condF11 i ∧ ¬condL11 i ∧ s' = zero11_0 ∧ z' = zero11_1 ∨ ¬condF11 i ∧ s' = s ∧ z' = z)
    (he : condL11 i ∧ e' = acc11_0 x y s' ∧ w' = acc11_1 x y z' ∨ ¬condL11 i ∧ e' = e ∧ w' = w) :
    iprop(owns (c : Thread nD τ) a fullShare x ∗ owns (c : Thread nD τ) b fullShare y ∗ (∃ d, owns (c : Thread nD τ) p fullShare d) ∗ owns (c : Thread nD τ) q fullShare e ∗ owns (c : Thread nD τ) r fullShare w ∗ owns (c : Thread nD τ) u fullShare s ∗ owns (c : Thread nD τ) v fullShare z
        ∗ (iprop(owns (c : Thread nD τ) a fullShare x ∗ owns (c : Thread nD τ) b fullShare y ∗ owns (c : Thread nD τ) p fullShare (out11_2 x y) ∗ owns (c : Thread nD τ) q fullShare e' ∗ owns (c : Thread nD τ) r fullShare w'
            ∗ owns (c : Thread nD τ) u fullShare (acc11_0 x y s') ∗ owns (c : Thread nD τ) v fullShare (acc11_1 x y z')) -∗ K ⟨⟩))
      ⊢ wp frame (wpE (defs₀ (F := F)) Variants.none c none) E (cc11__stats_bias_kernel i a ha b hb p hp q hq r hr u hu v hv) K := by
  simp only [cc11__stats_bias_kernel_eq_skeleton]; unfold cc11__stats_bias_kernel_skel owns
  rcases hs with ⟨hc, hn, rfl, rfl⟩ | ⟨hc, rfl, rfl⟩ <;> rcases he with ⟨hd, rfl, rfl⟩ | ⟨hd, rfl, rfl⟩ <;> first | exact absurd hd hn | skip
  all_goals
    iintro ⟨⟨%fa, %ea, Ha⟩, ⟨%fb, %eb, Hb⟩, ⟨%d, %fp, -, Hp⟩, ⟨%fq, %eq, Hq⟩, ⟨%fr, %er, Hr⟩, ⟨%fu, %eu, Hu⟩, ⟨%fv, %ev, Hv⟩, Hk⟩
    subst ea eb eq er eu ev
    sl_exec (disch := first | exact hc | exact hd)
    sl_step
    iapply Hk
    isplitl [Ha]; iexists _; isplitr; rotate_left; iexact Ha
    isplitl [Hb]; iexists _; isplitr; rotate_left; iexact Hb
    isplitl [Hp]; iexists _; isplitr; rotate_left; iexact Hp
    isplitl [Hq]; iexists _; isplitr; rotate_left; iexact Hq
    isplitl [Hr]; iexists _; isplitr; rotate_left; iexact Hr
    isplitl [Hu]; iexists _; isplitr; rotate_left; iexact Hu
    iexists _; isplitr; rotate_left; iexact Hv
    all_goals
      ipureintro
      first
      | with_reducible rfl
      | (try sl_unfold_words)
        simp only [rd11 (S := S5000x128) _ _ hzero11, rd11 (S := S1x128) _ _ hzero11, out11_2_eq, acc11_0_eq, acc11_1_eq, zero11_0_eq, zero11_1_eq, View.readAt_eq_ld,
          View.ld_unit_zero (S := S5000x128) hzero11, View.ld_unit_zero (S := S1x128) hzero11, View.readCov_unit_zero (S := S1x128) _ hzero11]

end

noncomputable def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

noncomputable def sAt11 (c : Dev nD) : (n : ℕ) → n < cfg11.N → Vec F S1x128 .f32 × Vec F S1x128 .f32
  | 0, hn => (acc11_0 (iblk11 V c 0 ⟨0, hn⟩) (iblk11 V c 1 ⟨0, hn⟩) zero11_0, acc11_1 (iblk11 V c 0 ⟨0, hn⟩) (iblk11 V c 1 ⟨0, hn⟩) zero11_1)
  | n + 1, hn => (acc11_0 (iblk11 V c 0 ⟨n + 1, hn⟩) (iblk11 V c 1 ⟨n + 1, hn⟩) (sAt11 c n (Nat.lt_of_succ_lt hn)).1,
      acc11_1 (iblk11 V c 0 ⟨n + 1, hn⟩) (iblk11 V c 1 ⟨n + 1, hn⟩) (sAt11 c n (Nat.lt_of_succ_lt hn)).2)

theorem sAt11_zero (c : Dev nD) (t : Fin cfg11.N) (h : t.val = 0) :
    sAt11 V c t.val t.isLt = (acc11_0 (iblk11 V c 0 t) (iblk11 V c 1 t) zero11_0, acc11_1 (iblk11 V c 0 t) (iblk11 V c 1 t) zero11_1) := by
  obtain ⟨_ | n, hn⟩ := t
  · rfl
  · exact absurd h (Nat.succ_ne_zero n)

theorem sAt11_pos (c : Dev nD) (t : Fin cfg11.N) (h : t.val ≠ 0) :
    sAt11 V c t.val t.isLt = (acc11_0 (iblk11 V c 0 t) (iblk11 V c 1 t) (sAt11 V c (t.val - 1) (Nat.lt_of_le_of_lt (Nat.sub_le _ _) t.isLt)).1,
      acc11_1 (iblk11 V c 0 t) (iblk11 V c 1 t) (sAt11 V c (t.val - 1) (Nat.lt_of_le_of_lt (Nat.sub_le _ _) t.isLt)).2) := by
  obtain ⟨_ | n, hn⟩ := t
  · exact absurd rfl h
  · rfl

noncomputable abbrev scM11_0 : Memref sig .tc .vmem S1x128 .f32 := Memref.whole cc11_scratch0
noncomputable abbrev scM11_1 : Memref sig .tc .vmem S1x128 .f32 := Memref.whole cc11_scratch1

/-- The region's own buffers with the two running sums at given contents. -/
noncomputable abbrev PhiN11 (c : Dev nD) (s z : Vec F S1x128 .f32) : sProp 𝕄 :=
  iprop(iprop(iprop(owns (c : Thread nD τ) scM11_0 fullShare s ∗ owns (c : Thread nD τ) scM11_1 fullShare z)
    ∗ Pipeline.scopedRestBut spec11 c [cc11_scratch0, cc11_scratch1]) ∗ (∃ r, prngReg c r))

theorem PhiA11_eq (c : Dev nD) :
    (Pipeline.ΦA spec11 c : sProp 𝕄)
      = iprop(iprop(iprop((∃ d, owns (c : Thread nD τ) scM11_0 fullShare d) ∗ (∃ d, owns (c : Thread nD τ) scM11_1 fullShare d))
          ∗ Pipeline.scopedRestBut spec11 c [cc11_scratch0, cc11_scratch1]) ∗ (∃ r, prngReg c r)) := by
  unfold Pipeline.ΦA; rw [scopedRest11_split]; simp only [scM11_0, scM11_1, owns_whole]; try rfl

noncomputable def PhiS11 (c : Dev nD) : (n : ℕ) → n ≤ cfg11.N → sProp 𝕄
  | 0, _ => Pipeline.ΦA spec11 c
  | n + 1, hn => PhiN11 c (sAt11 V c n hn).1 (sAt11 V c n hn).2

theorem PhiS11_zero (c : Dev nD) (n : ℕ) (h : n ≤ cfg11.N) (hz : n = 0) : PhiS11 V c n h = Pipeline.ΦA spec11 c := by
  subst hz; rfl

theorem PhiS11_pos (c : Dev nD) (n : ℕ) (h : n ≤ cfg11.N) (hz : n ≠ 0) :
    PhiS11 V c n h = PhiN11 c (sAt11 V c (n - 1) (by omega)).1 (sAt11 V c (n - 1) (by omega)).2 := by
  cases n with
  | zero => exact absurd rfl hz
  | succ n => rfl

noncomputable def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
    | ⟨3, _⟩ => (sAt11 V c t.val t.isLt).1
    | ⟨4, _⟩ => (sAt11 V c t.val t.isLt).2
  Φ t := PhiS11 V c t.val (Nat.le_of_lt_succ t.isLt)
  q _ := fullShare
  owed _ := 0

theorem A_eq11 (c : Dev nD) (w : Fin cfg11.W) : (dat11 V c).A w = V c (Pipeline.arrRef spec11 w) := rfl

theorem after11_2 (c : Dev nD) (t : Fin cfg11.N) : (dat11 V c).after 2 t = out11_2 (iblk11 V c 0 t) (iblk11 V c 1 t) := by dsimp only [dat11]
theorem after11_3_last (c : Dev nD) (t : Fin cfg11.N) (h : t.val = 9) : (dat11 V c).after 3 t = (sAt11 V c 9 (by rw [show cfg11.N = 10 from N_11]; decide)).1 := by
  obtain ⟨n, hn⟩ := t; obtain rfl : n = 9 := h; rfl
theorem after11_4_last (c : Dev nD) (t : Fin cfg11.N) (h : t.val = 9) : (dat11 V c).after 4 t = (sAt11 V c 9 (by rw [show cfg11.N = 10 from N_11]; decide)).2 := by
  obtain ⟨n, hn⟩ := t; obtain rfl : n = 9 := h; rfl

theorem before11_0 (c : Dev nD) (t : Fin cfg11.N) (d) : (dat11 V c).before 0 t d = iblk11 V c 0 t :=
  ((dat11 V c).before_in_eq_fetched 0 rfl (fun _ => rfl) (fun _ _ _ => rfl) (fun _ => rfl) t d).trans rfl
theorem before11_1 (c : Dev nD) (t : Fin cfg11.N) (d) : (dat11 V c).before 1 t d = iblk11 V c 1 t :=
  ((dat11 V c).before_in_eq_fetched 1 rfl (fun _ => rfl) (fun _ _ _ => rfl) (fun _ => rfl) t d).trans rfl

theorem lvA11 {c : Dev nD} (D : Dat τ (Elt F) Unit ℕ (UR sig nD τ) ℕ cfg11 c) {w : Fin cfg11.W} {t : Fin cfg11.N} (h : cfg11.idle w (grid11.coords t) = false) :
    D.leavesExact w t = owns (c : Thread nD τ) ((cfg11.win w).stage (cfg11.slots t w)) fullShare (D.after w t) := by
  unfold Dat.leavesExact; rw [h]

theorem sound_body11 (c : Dev nD) (t : Fin cfg11.N) :
    iprop((dat11 V c).Φ t.castSucc ∗ (dat11 V c).owesAt () t.castSucc
      ∗ (∃ d, owns (c : Thread nD τ) (win11_0.stage (cfg11.slots t 0)) fullShare ((dat11 V c).before 0 t d))
      ∗ (∃ d, owns (c : Thread nD τ) (win11_1.stage (cfg11.slots t 1)) fullShare ((dat11 V c).before 1 t d))
      ∗ (∃ d, owns (c : Thread nD τ) (win11_2.stage (cfg11.slots t 2)) fullShare ((dat11 V c).before 2 t d))
      ∗ (∃ d, owns (c : Thread nD τ) (win11_3.stage (cfg11.slots t 3)) fullShare ((dat11 V c).before 3 t d))
      ∗ (∃ d, owns (c : Thread nD τ) (win11_4.stage (cfg11.slots t 4)) fullShare ((dat11 V c).before 4 t d)))
    ⊢ wp frame (wpE (defs₀ (F := F)) Variants.none c none) Set.univ (bodyAt11 t) (fun _ => iprop((dat11 V c).Φ t.succ ∗ (dat11 V c).owesAt () t.succ
      ∗ (dat11 V c).leavesExact 0 t ∗ (dat11 V c).leavesExact 1 t ∗ (dat11 V c).leavesExact 2 t ∗ (dat11 V c).leavesExact 3 t ∗ (dat11 V c).leavesExact 4 t)) := by
  unfold bodyAt11
  simp only [before11_0, before11_1]
  rw [show (dat11 V c).owesAt () t.succ = (dat11 V c).owesAt () t.castSucc from rfl,
    show (dat11 V c).Φ t.succ = PhiN11 c (sAt11 V c t.val t.isLt).1 (sAt11 V c t.val t.isLt).2 from rfl,
    show (dat11 V c).Φ t.castSucc = PhiS11 V c t.val (Nat.le_of_lt t.isLt) from rfl,
    lvA11 _ (live11 t 0 (.inl (by decide))), lvA11 _ (live11 t 1 (.inl (by decide))), lvA11 _ (live11 t 2 (.inl (by decide))), after11_2,
    show (dat11 V c).after 0 t = iblk11 V c 0 t from rfl, show (dat11 V c).after 1 t = iblk11 V c 1 t from rfl]
  by_cases hz : t.val = 0
  · have hL : t.val ≠ 9 := by omega
    rw [Dat.leavesExact_idle _ 3 t (idle11 t 3 (by decide) hL).1 (idle11 t 3 (by decide) hL).2,
      Dat.leavesExact_idle _ 4 t (idle11 t 4 (by decide) hL).1 (idle11 t 4 (by decide) hL).2,
      sAt11_zero V c t hz, PhiS11_zero V c _ _ hz, PhiA11_eq]
    dsimp only [PhiN11]
    iintro ⟨⟨⟨⟨⟨%s, Hu⟩, ⟨%z, Hv⟩⟩, HR⟩, Hg⟩, Ho, ⟨%da, Ha⟩, ⟨%db, Hb⟩, ⟨%dp, Hp⟩, ⟨%dq, Hq⟩, ⟨%dr, Hr⟩⟩
    iapply (run11 c (grid11.coords t) (iblk11 V c 0 t) (iblk11 V c 1 t) s z ((dat11 V c).before 3 t dq) ((dat11 V c).before 4 t dr) Set.univ _ _ _ _ _
      (.inl ⟨(hcondF11 t).mpr hz, fun k => hL ((hcondL11 t).mp k), rfl, rfl⟩) (.inr ⟨fun k => hL ((hcondL11 t).mp k), rfl, rfl⟩))
    iframe Ha Hb Hq Hr Hu Hv
    isplitl [Hp]; · iexists _; iexact Hp
    iintro ⟨Ha, Hb, Hp, Hq, Hr, Hu, Hv⟩
    iframe Ha Hb Hp Hu Hv HR Hg Ho
    isplitl [Hq] <;> iexists _ <;> iassumption
  · have hF : ¬condF11 (grid11.coords t) := fun k => hz ((hcondF11 t).mp k)
    rw [PhiS11_pos V c _ _ hz, sAt11_pos V c t hz]
    by_cases hL : t.val = 9
    · rw [lvA11 _ (live11 t 3 (.inr hL)), lvA11 _ (live11 t 4 (.inr hL)), show (dat11 V c).after 3 t = (sAt11 V c t.val t.isLt).1 from rfl,
        show (dat11 V c).after 4 t = (sAt11 V c t.val t.isLt).2 from rfl, sAt11_pos V c t hz]
      dsimp only [PhiN11]
      iintro ⟨⟨⟨⟨Hu, Hv⟩, HR⟩, Hg⟩, Ho, ⟨%da, Ha⟩, ⟨%db, Hb⟩, ⟨%dp, Hp⟩, ⟨%dq, Hq⟩, ⟨%dr, Hr⟩⟩
      iapply (run11 c (grid11.coords t) (iblk11 V c 0 t) (iblk11 V c 1 t) _ _ ((dat11 V c).before 3 t dq) ((dat11 V c).before 4 t dr) Set.univ _ _ _ _ _
        (.inr ⟨hF, rfl, rfl⟩) (.inl ⟨(hcondL11 t).mpr hL, rfl, rfl⟩))
      iframe Ha Hb Hq Hr Hu Hv
      isplitl [Hp]; · iexists _; iexact Hp
      iintro ⟨Ha, Hb, Hp, Hq, Hr, Hu, Hv⟩
      iframe
    · rw [Dat.leavesExact_idle _ 3 t (idle11 t 3 (by decide) hL).1 (idle11 t 3 (by decide) hL).2,
        Dat.leavesExact_idle _ 4 t (idle11 t 4 (by decide) hL).1 (idle11 t 4 (by decide) hL).2]
      dsimp only [PhiN11]
      iintro ⟨⟨⟨⟨Hu, Hv⟩, HR⟩, Hg⟩, Ho, ⟨%da, Ha⟩, ⟨%db, Hb⟩, ⟨%dp, Hp⟩, ⟨%dq, Hq⟩, ⟨%dr, Hr⟩⟩
      iapply (run11 c (grid11.coords t) (iblk11 V c 0 t) (iblk11 V c 1 t) _ _ ((dat11 V c).before 3 t dq) ((dat11 V c).before 4 t dr) Set.univ _ _ _ _ _
        (.inr ⟨hF, rfl, rfl⟩) (.inr ⟨fun k => hL ((hcondL11 t).mp k), rfl, rfl⟩))
      iframe Ha Hb Hq Hr Hu Hv
      isplitl [Hp]; · iexists _; iexact Hp
      iintro ⟨Ha, Hb, Hp, Hq, Hr, Hu, Hv⟩
      iframe Ha Hb Hp Hu Hv HR Hg Ho
      isplitl [Hq] <;> iexists _ <;> iassumption

theorem body_obligation11 (c : Dev nD) : BodyObligation (dat11 (F := F) V c) (defs₀ (F := F)) Variants.none () Set.univ := fun t => by
  rw [bigSep_W11, bigSep_W11]
  exact sound_body11 V c t

theorem hin11 (c : Dev nD) : (Pipeline.ΦA spec11 c : sProp 𝕄) ⊢ (dat11 V c).Φ 0 := Idealize.SL.BI.Entails.refl _

/-- After the last tile the running sums' contents are forgotten. -/
theorem hout11 (c : Dev nD) : (dat11 V c).Φ (Fin.last cfg11.N) ⊢ (Pipeline.ΦA spec11 c : sProp 𝕄) := by
  rw [show (dat11 V c).Φ (Fin.last cfg11.N) = PhiS11 V c (Fin.last cfg11.N).val (Nat.le_of_lt_succ (Fin.last cfg11.N).isLt) from rfl,
    PhiS11_pos V c _ _ (by rw [Fin.val_last, show cfg11.N = 10 from N_11]; decide), PhiA11_eq]
  iintro ⟨⟨⟨Hu, Hv⟩, HR⟩, Hg⟩
  iframe HR Hg
  isplitl [Hu] <;> iexists _ <;> iassumption

end Cert.KernelIdeal.Reg
end
-- ==== Proof.KI.R12.lean ====
import proofs.«408439_j66932770341395_1_alg».proof.Proof.Gen.KernelIdeal.Launch
import proofs.«408439_j66932770341395_1_alg».proof.Proof.Gen.KernelIdeal.Skeleton
import proofs.«408439_j66932770341395_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev r12_0 : Rect S5000x128 := Rect.unit (s := S5000x128) ![0, 0] S5000x128.size inb_S5000x128_S5000x128_0_0
abbrev r12_1 : Rect S1x128 := Rect.unit (s := S1x128) ![0, 0] S1x128.size inb_S1x128_S1x128_0_0

def out12_5 (x : Vec F S5000x128 .f32) (y z s r : Vec F S1x128 .f32) : Vec F S5000x128 .f32 :=
  View.canon [⟨r12_0, k12_pay1 (View.ld x r12_0) (View.ld z r12_1) (View.ld y r12_1) (View.ld s r12_1) (View.ld r r12_1)⟩]

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12_5 (iblk12 V c 0 t) (iblk12 V c 1 t) (iblk12 V c 2 t) (iblk12 V c 3 t) (iblk12 V c 4 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_5 (c : Dev nD) (t : Fin cfg12.N) : (dat12 V c).after 5 t
    = out12_5 (iblk12 V c 0 t) (iblk12 V c 1 t) (iblk12 V c 2 t) (iblk12 V c 3 t) (iblk12 V c 4 t) := by dsimp only [dat12]

theorem before12_in (c : Dev nD) (w : Fin cfg12.W) (hw : w.val < 5 := by decide) (t : Fin cfg12.N) (d) :
    (dat12 V c).before w t d = (dat12 V c).after w t :=
  match w with
  | ⟨0, _⟩ | ⟨1, _⟩ | ⟨2, _⟩ | ⟨3, _⟩ | ⟨4, _⟩ =>
    ((dat12 V c).before_in_eq_fetched _ rfl (fun _ => rfl) (fun _ _ _ => rfl) (fun _ => rfl) t d).trans rfl
  | ⟨5, _⟩ => absurd hw (Nat.lt_irrefl 5)

set_option maxHeartbeats 1000000 in
theorem sound_kernel12 (c : Dev nD) {E : Set ℕ} {i : grid12.Coords}
    {a : Memref sig .tc .vmem S5000x128 .f32} {ha : a.IsWhole} {b : Memref sig .tc .vmem S1x128 .f32} {hb : b.IsWhole}
    {u : Memref sig .tc .vmem S1x128 .f32} {hu : u.IsWhole} {v : Memref sig .tc .vmem S1x128 .f32} {hv : v.IsWhole}
    {p : Memref sig .tc .vmem S1x128 .f32} {hp : p.IsWhole} {o : Memref sig .tc .vmem S5000x128 .f32} {ho : o.IsWhole}
    {x e : Vec F S5000x128 .f32} {y z s r : Vec F S1x128 .f32} {K : PUnit → sProp 𝕄} :
    iprop(owns c a fullShare x ∗ owns c b fullShare y ∗ owns c u fullShare z ∗ owns c v fullShare s ∗ owns c p fullShare r
        ∗ owns c o fullShare e
        ∗ (owns c a fullShare x ∗ owns c b fullShare y ∗ owns c u fullShare z ∗ owns c v fullShare s ∗ owns c p fullShare r
            ∗ owns c o fullShare (out12_5 x y z s r) -∗ K ⟨⟩))
      ⊢ wp frame (wpE (defs₀ (F := F)) Variants.none c none) E (cc12__bn_relu_kernel i a ha b hb u hu v hv p hp o ho) K := by
  simp only [cc12__bn_relu_kernel_eq_skeleton]; unfold cc12__bn_relu_kernel_skel owns
  iintro ⟨⟨%f, %hf, Hx⟩, ⟨%g, %hg, Hy⟩, ⟨%h, %hh, Hz⟩, ⟨%j, %hj, Hs⟩, ⟨%l, %hl, Hr⟩, ⟨%k, -, He⟩, Hk⟩
  subst hf hg hh hj hl
  sl_exec
  sl_step
  iapply Hk
  isplitl [Hx]
  · iexists f; isplitr; · ipureintro; rfl
    iexact Hx
  isplitl [Hy]
  · iexists g; isplitr; · ipureintro; rfl
    iexact Hy
  isplitl [Hz]
  · iexists h; isplitr; · ipureintro; rfl
    iexact Hz
  isplitl [Hs]
  · iexists j; isplitr; · ipureintro; rfl
    iexact Hs
  isplitl [Hr]
  · iexists l; isplitr; · ipureintro; rfl
    iexact Hr
  iexists _; isplitr
  swap; · iexact He
  ipureintro
  exact View.read_writes_eq_canon _ _ _ (View.cover_of_tiled _ S5000x128.size (by rfl))

theorem body_obligation12 (c : Dev nD) : BodyObligation (dat12 (F := F) V c) (defs₀ (F := F)) Variants.none () Set.univ := fun t => by
  rw [bigSep_W12, bigSep_W12]
  simp only [before12_in V c 0, before12_in V c 1, before12_in V c 2, before12_in V c 3, before12_in V c 4]
  rw [show (dat12 V c).Φ t.succ = (dat12 V c).Φ t.castSucc from rfl,
    show (dat12 V c).owesAt () t.succ = (dat12 V c).owesAt () t.castSucc from rfl,
    show (dat12 V c).after 5 t = out12_5 ((dat12 V c).after 0 t) ((dat12 V c).after 1 t) ((dat12 V c).after 2 t)
      ((dat12 V c).after 3 t) ((dat12 V c).after 4 t) from by dsimp only [dat12]]
  show _ ⊢ wp _ _ _ (bodyAt12 t) _
  iintro ⟨HΦ, Ho, ⟨%d, Hx⟩, ⟨%d, Hy⟩, ⟨%d, Hz⟩, ⟨%d, Hs⟩, ⟨%d, Hr⟩, ⟨%d, He⟩⟩
  iapply (sound_kernel12 c)
  iframe Hx Hy Hz Hs Hr He
  iintro ⟨Hx, Hy, Hz, Hs, Hr, He⟩
  iframe

theorem hin12 (c : Dev nD) : (Pipeline.ΦA spec12 c : sProp 𝕄) ⊢ (dat12 V c).Φ 0 := .rfl
theorem hout12 (c : Dev nD) : (dat12 V c).Φ (Fin.last cfg12.N) ⊢ (Pipeline.ΦA spec12 c : sProp 𝕄) := .rfl

end Cert.KernelIdeal.Reg
end
-- ==== Proof.KI.R13.lean ====
import proofs.«408439_j66932770341395_1_alg».proof.Proof.Gen.KernelIdeal.Launch
import proofs.«408439_j66932770341395_1_alg».proof.Proof.Gen.KernelIdeal.Skeleton
import proofs.«408439_j66932770341395_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.Pipeline.TableIdle
set_option maxRecDepth 16384
noncomputable section
namespace Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev cond13_0 (i : grid13.Coords) : Prop := (Scalar.cmpi .ne (Scalar.extui (Scalar.cmpi .eq (BitVec.ofNat 32 (i 0).val) 0#32)) 0#32) = 1#1
theorem hcond13_0 : ∀ t : Fin cfg13.N, cond13_0 (grid13.coords t) ↔ t.val = 0 :=
  (by decide +kernel : ∀ t : Fin grid13.N, cond13_0 (grid13.coords t) ↔ t.val = 0)
abbrev cond13_1 (i : grid13.Coords) : Prop := k13_cond2 i = 1#1
theorem hcond13_1 : ∀ t : Fin cfg13.N, cond13_1 (grid13.coords t) ↔ t.val = 9 :=
  (by decide +kernel : ∀ t : Fin grid13.N, cond13_1 (grid13.coords t) ↔ t.val = 9)

theorem hz13 : (![0, 0] : Fin 2 → ℕ) = fun _ => 0 := by funext a; fin_cases a <;> rfl

section
variable {sp : Space} {sz : Fin 2 → ℕ} {e : EltTy} (inb : ∀ a, (![0, 0] : Fin 2 → ℕ) a + sz a ≤ sz a) (w : (⟨2, sz⟩ : Shape).Idx → Elt F e)

theorem ld13 : View.ld w (Rect.unit (s := ⟨2, sz⟩) ![0, 0] sz inb) = w := View.ld_unit_zero hz13 inb w

theorem readCov13 {κ : Kind} (v : View sig κ sp ⟨2, sz⟩ e) :
    v.readCov [(⟨Rect.unit ![0, 0] sz inb, w⟩ : View.Piece (Elt F) ⟨2, sz⟩ e)] (Rect.unit ![0, 0] sz inb).toLoadRect = w :=
  View.readCov_unit_zero v hz13 inb w

-- Of several writes, one that covers every index and is made last is what is read back.
theorem stored13 (c : Dev nD) (m : Memref sig .tc sp ⟨2, sz⟩ e) (g : m.view.ty.Contents (Elt F)) (q : PosShare TreeShare) (L : List (View.Piece (Elt F) ⟨2, sz⟩ e)) :
    (m.view.loc (c : Thread nD τ) ↦[m.view.set]{q} m.view.writes (Elt F) g ((⟨Rect.unit ![0, 0] sz inb, w⟩ : View.Piece (Elt F) ⟨2, sz⟩ e) :: L) : sProp 𝕄)
      = (m.view.loc (c : Thread nD τ) ↦[m.view.set]{q} m.view.rep w) := by
  rw [pointsTo_rep (c : Thread nD τ) m, View.read_writes_eq_canon _ _ _ fun y => ⟨_, List.mem_cons.mpr (Or.inl rfl), View.mem_set_unit_zero hz13 inb y⟩,
    View.canon_cons_unit_zero hz13]
end

section
variable (c : Dev nD) (E : Set ℕ) (i : grid13.Coords) (arg1 : Memref sig .tc .vmem S5000x128 .f32) (harg1 : arg1.IsWhole) (arg2 : Memref sig .tc .vmem S5000x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S256x10 .f32) (harg5 : arg5.IsWhole) (arg6 : Memref sig .tc .vmem S256x128 .f32) (harg6 : arg6.IsWhole) (arg7 : Memref sig .tc .vmem S256x1 .f32) (harg7 : arg7.IsWhole)
  (x0 : Vec F S5000x128 .f32) (x1 : Vec F S5000x1 .i32) (x2 : Vec F S128x10 .f32) (x3 : Vec F S1x10 .f32)

def own13 (xi4 : Vec F S256x10 .f32) (xs0 : Vec F S256x128 .f32) (xs1 : Vec F S256x1 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare xi4 ∗ owns (c : Thread nD τ) arg6 fullShare xs0 ∗ owns (c : Thread nD τ) arg7 fullShare xs1)

variable (xi4 : Vec F S256x10 .f32) (xs0 : Vec F S256x128 .f32) (xs1 : Vec F S256x1 .f32)

set_option maxHeartbeats 4000000 in
theorem kernel13_A (hc0 : cond13_0 i) (hc1 : ¬cond13_1 i) (K : PUnit → sProp 𝕄) :
    iprop(own13 c arg1 arg2 arg3 arg4 arg5 arg6 arg7 x0 x1 x2 x3 xi4 xs0 xs1 ∗ (own13 c arg1 arg2 arg3 arg4 arg5 arg6 arg7 x0 x1 x2 x3 xi4 (k13_pay4 x0 x1 k13_pay1) (k13_pay5 x1 k13_pay2) -∗ K ⟨⟩))
      ⊢ wp frame (wpE (defs₀ (F := F)) Variants.none c none) E (cc13__pool_classify_kernel i arg1 harg1 arg2 harg2 arg3 harg3 arg4 harg4 arg5 harg5 arg6 harg6 arg7 harg7) K := by
  simp only [cc13__pool_classify_kernel_eq_skeleton, own13, owns_eq_rep]; unfold cc13__pool_classify_kernel_skel
  iintro ⟨⟨H0, H1, H2, H3, H4, HS0, HS1⟩, Hk⟩
  sl_exec (disch := first | exact hc0 | exact hc1)
  sl_step
  sl_unfold_words
  simp only [stored13, readCov13, ld13, View.readAt_eq_ld, View.read_rep]
  iapply Hk
  iframe

set_option maxHeartbeats 4000000 in
theorem kernel13_B (hc0 : ¬cond13_0 i) (hc1 : ¬cond13_1 i) (K : PUnit → sProp 𝕄) :
    iprop(own13 c arg1 arg2 arg3 arg4 arg5 arg6 arg7 x0 x1 x2 x3 xi4 xs0 xs1 ∗ (own13 c arg1 arg2 arg3 arg4 arg5 arg6 arg7 x0 x1 x2 x3 xi4 (k13_pay4 x0 x1 xs0) (k13_pay5 x1 xs1) -∗ K ⟨⟩))
      ⊢ wp frame (wpE (defs₀ (F := F)) Variants.none c none) E (cc13__pool_classify_kernel i arg1 harg1 arg2 harg2 arg3 harg3 arg4 harg4 arg5 harg5 arg6 harg6 arg7 harg7) K := by
  simp only [cc13__pool_classify_kernel_eq_skeleton, own13, owns_eq_rep]; unfold cc13__pool_classify_kernel_skel
  iintro ⟨⟨H0, H1, H2, H3, H4, HS0, HS1⟩, Hk⟩
  sl_exec (disch := first | exact hc0 | exact hc1)
  sl_step
  sl_unfold_words
  simp only [stored13, readCov13, ld13, View.readAt_eq_ld, View.read_rep]
  iapply Hk
  iframe

set_option maxHeartbeats 4000000 in
theorem kernel13_C (hc0 : ¬cond13_0 i) (hc1 : cond13_1 i) (K : PUnit → sProp 𝕄) :
    iprop(own13 c arg1 arg2 arg3 arg4 arg5 arg6 arg7 x0 x1 x2 x3 xi4 xs0 xs1 ∗ (own13 c arg1 arg2 arg3 arg4 arg5 arg6 arg7 x0 x1 x2 x3 (k13_pay6 (k13_pay4 x0 x1 xs0) (k13_pay5 x1 xs1) x2 x3) (k13_pay4 x0 x1 xs0) (k13_pay5 x1 xs1) -∗ K ⟨⟩))
      ⊢ wp frame (wpE (defs₀ (F := F)) Variants.none c none) E (cc13__pool_classify_kernel i arg1 harg1 arg2 harg2 arg3 harg3 arg4 harg4 arg5 harg5 arg6 harg6 arg7 harg7) K := by
  simp only [cc13__pool_classify_kernel_eq_skeleton, own13, owns_eq_rep]; unfold cc13__pool_classify_kernel_skel
  iintro ⟨⟨H0, H1, H2, H3, H4, HS0, HS1⟩, Hk⟩
  sl_exec (disch := first | exact hc0 | exact hc1)
  sl_step
  sl_unfold_words
  simp only [stored13, readCov13, ld13, View.readAt_eq_ld, View.read_rep]
  iapply Hk
  iframe

end

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

theorem liveAt13 : ∀ (w : Fin cfg13.W) (t : Fin cfg13.N), w ≠ 4 → cfg13.idle w (grid13.coords t) = false := by decide +kernel
theorem idleAt13_4 : ∀ t : Fin cfg13.N, t.val ≠ 9 → cfg13.idle 4 (grid13.coords t) = true := by decide +kernel
theorem noFlush13_4 : ∀ t : Fin cfg13.N, t.val ≠ 9 → (cfg13.win 4).flush t = false := by decide +kernel
theorem liveAt13_4 : ∀ t : Fin cfg13.N, t.val = 9 → cfg13.idle 4 (grid13.coords t) = false := by decide +kernel

abbrev scM13_0 : Memref sig .tc .vmem S256x128 .f32 := Memref.whole cc13_scratch0
abbrev scM13_1 : Memref sig .tc .vmem S256x1 .f32 := Memref.whole cc13_scratch1

def acc13 (c : Dev nD) (P : sProp 𝕄) : sProp 𝕄 :=
  iprop(iprop(P ∗ Pipeline.scopedRestBut (Ix := Unit) (Name := ℕ) (U := UR sig nD τ) (Lvl := ℕ) (Val := Elt F) spec13 c [cc13_scratch0, cc13_scratch1]) ∗ (∃ r, prngReg c r))

theorem PhiA13_eq (c : Dev nD) :
    (Pipeline.ΦA spec13 c : sProp 𝕄) = acc13 c iprop((∃ d, owns (c : Thread nD τ) scM13_0 fullShare d) ∗ (∃ d, owns (c : Thread nD τ) scM13_1 fullShare d)) := by
  unfold Pipeline.ΦA acc13; rw [scopedRest13_split]; simp only [scM13_0, scM13_1, owns_whole]; try rfl

-- The per-graph sums and counts after tile n: tile 0's contribution over zero, then each tile's over the value before.
def sAt13 (c : Dev nD) : (n : ℕ) → n < cfg13.N → Vec F S256x128 .f32 × Vec F S256x1 .f32
  | 0, hn => (k13_pay4 (iblk13 V c 0 ⟨0, hn⟩) (iblk13 V c 1 ⟨0, hn⟩) k13_pay1, k13_pay5 (iblk13 V c 1 ⟨0, hn⟩) k13_pay2)
  | n + 1, hn => (k13_pay4 (iblk13 V c 0 ⟨n + 1, hn⟩) (iblk13 V c 1 ⟨n + 1, hn⟩) (sAt13 c n (Nat.lt_of_succ_lt hn)).1,
      k13_pay5 (iblk13 V c 1 ⟨n + 1, hn⟩) (sAt13 c n (Nat.lt_of_succ_lt hn)).2)

theorem sAt13_first (c : Dev nD) (t : Fin cfg13.N) (h0 : t.val = 0) :
    sAt13 V c t.val t.isLt = (k13_pay4 (iblk13 V c 0 t) (iblk13 V c 1 t) k13_pay1, k13_pay5 (iblk13 V c 1 t) k13_pay2) := by
  obtain ⟨n, hn⟩ := t
  cases n with
  | zero => exact rfl
  | succ n => exact absurd h0 (Nat.succ_ne_zero n)

theorem sAt13_next (c : Dev nD) (t : Fin cfg13.N) (h0 : t.val ≠ 0) :
    sAt13 V c t.val t.isLt = (k13_pay4 (iblk13 V c 0 t) (iblk13 V c 1 t) (sAt13 V c (t.val - 1) (Nat.lt_of_le_of_lt (Nat.sub_le _ _) t.isLt)).1,
      k13_pay5 (iblk13 V c 1 t) (sAt13 V c (t.val - 1) (Nat.lt_of_le_of_lt (Nat.sub_le _ _) t.isLt)).2) := by
  obtain ⟨n, hn⟩ := t
  cases n with
  | zero => exact absurd rfl h0
  | succ n => exact rfl

-- The classifier applied to the sums and counts as they stand after tile t.
def out13_4 (c : Dev nD) (t : Fin cfg13.N) : Vec F S256x10 .f32 :=
  k13_pay6 (sAt13 V c t.val t.isLt).1 (sAt13 V c t.val t.isLt).2 (iblk13 V c 2 t) (iblk13 V c 3 t)

def PhiS13 (c : Dev nD) : (n : ℕ) → n ≤ cfg13.N → sProp 𝕄
  | 0, _ => Pipeline.ΦA spec13 c
  | n + 1, hn => acc13 c iprop(owns (c : Thread nD τ) scM13_0 fullShare (sAt13 V c n hn).1 ∗ owns (c : Thread nD τ) scM13_1 fullShare (sAt13 V c n hn).2)

theorem PhiS13_zero (c : Dev nD) (n : ℕ) (h : n ≤ cfg13.N) (hz : n = 0) : PhiS13 V c n h = Pipeline.ΦA spec13 c := by
  subst hz; rfl

theorem PhiS13_pos (c : Dev nD) (n : ℕ) (h : n ≤ cfg13.N) (hz : n ≠ 0) :
    PhiS13 V c n h = acc13 c iprop(owns (c : Thread nD τ) scM13_0 fullShare (sAt13 V c (n - 1) (by omega)).1 ∗ owns (c : Thread nD τ) scM13_1 fullShare (sAt13 V c (n - 1) (by omega)).2) := by
  cases n with
  | zero => exact absurd rfl hz
  | succ n => rfl

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => out13_4 V c t
  Φ t := PhiS13 V c t.val (Nat.le_of_lt_succ t.isLt)
  q _ := fullShare
  owed _ := 0

theorem A_eq13 (c : Dev nD) (w : Fin cfg13.W) : (dat13 V c).A w = V c (Pipeline.arrRef spec13 w) := by
  dsimp only [dat13]

theorem after13_4_last (c : Dev nD) (t : Fin cfg13.N) (h : t.val = 9) :
    (dat13 V c).after 4 t = k13_pay6 (sAt13 V c 9 (by rw [← h]; exact t.isLt)).1 (sAt13 V c 9 (by rw [← h]; exact t.isLt)).2 (iblk13 V c 2 t) (iblk13 V c 3 t) := by
  obtain ⟨n, hn⟩ := t
  cases h; rfl

theorem before13_0 (c : Dev nD) (t : Fin cfg13.N) (d) : (dat13 V c).before 0 t d = iblk13 V c 0 t :=
  ((dat13 V c).before_in_eq_fetched 0 rfl (fun _ => rfl) (fun _ _ _ => rfl) (fun _ => rfl) t d).trans rfl
theorem leaves13_0 (c : Dev nD) (t : Fin cfg13.N) : (dat13 V c).leavesExact 0 t = owns (c : Thread nD τ) (st13_0 t) fullShare (iblk13 V c 0 t) := by
  unfold Dat.leavesExact; rw [liveAt13 0 t (by decide)]; rfl
theorem before13_1 (c : Dev nD) (t : Fin cfg13.N) (d) : (dat13 V c).before 1 t d = iblk13 V c 1 t :=
  ((dat13 V c).before_in_eq_fetched 1 rfl (fun _ => rfl) (fun _ _ _ => rfl) (fun _ => rfl) t d).trans rfl
theorem leaves13_1 (c : Dev nD) (t : Fin cfg13.N) : (dat13 V c).leavesExact 1 t = owns (c : Thread nD τ) (st13_1 t) fullShare (iblk13 V c 1 t) := by
  unfold Dat.leavesExact; rw [liveAt13 1 t (by decide)]; rfl
theorem before13_2 (c : Dev nD) (t : Fin cfg13.N) (d) : (dat13 V c).before 2 t d = iblk13 V c 2 t :=
  ((dat13 V c).before_in_eq_fetched 2 rfl (fun _ => rfl) (fun _ _ _ => rfl) (fun _ => rfl) t d).trans rfl
theorem leaves13_2 (c : Dev nD) (t : Fin cfg13.N) : (dat13 V c).leavesExact 2 t = owns (c : Thread nD τ) (st13_2 t) fullShare (iblk13 V c 2 t) := by
  unfold Dat.leavesExact; rw [liveAt13 2 t (by decide)]; rfl
theorem before13_3 (c : Dev nD) (t : Fin cfg13.N) (d) : (dat13 V c).before 3 t d = iblk13 V c 3 t :=
  ((dat13 V c).before_in_eq_fetched 3 rfl (fun _ => rfl) (fun _ _ _ => rfl) (fun _ => rfl) t d).trans rfl
theorem leaves13_3 (c : Dev nD) (t : Fin cfg13.N) : (dat13 V c).leavesExact 3 t = owns (c : Thread nD τ) (st13_3 t) fullShare (iblk13 V c 3 t) := by
  unfold Dat.leavesExact; rw [liveAt13 3 t (by decide)]; rfl

def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d)))

def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t
    ∗ (dat13 V c).leavesExact 4 t)

set_option maxHeartbeats 4800000 in
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13
  simp only [before13_0, before13_1, before13_2, before13_3]
  rw [show (dat13 V c).owesAt () t.succ = (dat13 V c).owesAt () t.castSucc from rfl,
    show (dat13 V c).Φ t.succ = acc13 c iprop(owns (c : Thread nD τ) scM13_0 fullShare (sAt13 V c t.val t.isLt).1 ∗ owns (c : Thread nD τ) scM13_1 fullShare (sAt13 V c t.val t.isLt).2) from rfl,
    show (dat13 V c).Φ t.castSucc = PhiS13 V c t.val (Nat.le_of_lt t.isLt) from rfl,
    leaves13_0, leaves13_1, leaves13_2, leaves13_3]
  by_cases h0 : t.val = 0
  · have h1 : t.val ≠ 9 := by omega
    rw [Dat.leavesExact_idle _ 4 t (idleAt13_4 t h1) (noFlush13_4 t h1), sAt13_first V c t h0, PhiS13_zero V c _ _ h0, PhiA13_eq]
    unfold acc13; dsimp only
    iintro ⟨⟨⟨⟨⟨%s0, HS0⟩, ⟨%s1, HS1⟩⟩, HR⟩, Hg⟩, Ho, ⟨%d0, H0⟩, ⟨%d1, H1⟩, ⟨%d2, H2⟩, ⟨%d3, H3⟩, ⟨%d4, H4⟩⟩
    iapply (kernel13_A c Set.univ (grid13.coords t) (st13_0 t) _ (st13_1 t) _ (st13_2 t) _ (st13_3 t) _ (st13_4 t) _ scM13_0 _ scM13_1 _
      (iblk13 V c 0 t) (iblk13 V c 1 t) (iblk13 V c 2 t) (iblk13 V c 3 t) ((dat13 V c).before 4 t d4) s0 s1 ((hcond13_0 t).mpr h0) (fun h => h1 ((hcond13_1 t).mp h)) _)
    unfold own13
    iframe H0 H1 H2 H3 H4 HS0 HS1
    iintro ⟨H0, H1, H2, H3, H4, HS0, HS1⟩
    iframe
    iexists _; iexact H4
  · by_cases h1 : t.val = 9
    · rw [show (dat13 V c).leavesExact 4 t = owns (c : Thread nD τ) (st13_4 t) fullShare (out13_4 V c t) from by
        unfold Dat.leavesExact; rw [liveAt13_4 t h1]; rfl]
      unfold out13_4
      rw [sAt13_next V c t h0, PhiS13_pos V c _ _ h0]
      unfold acc13; dsimp only
      generalize sAt13 V c (t.val - 1) _ = a
      iintro ⟨⟨⟨⟨HS0, HS1⟩, HR⟩, Hg⟩, Ho, ⟨%d0, H0⟩, ⟨%d1, H1⟩, ⟨%d2, H2⟩, ⟨%d3, H3⟩, ⟨%d4, H4⟩⟩
      iapply (kernel13_C c Set.univ (grid13.coords t) (st13_0 t) _ (st13_1 t) _ (st13_2 t) _ (st13_3 t) _ (st13_4 t) _ scM13_0 _ scM13_1 _
        (iblk13 V c 0 t) (iblk13 V c 1 t) (iblk13 V c 2 t) (iblk13 V c 3 t) ((dat13 V c).before 4 t d4) a.1 a.2 (fun h => h0 ((hcond13_0 t).mp h)) ((hcond13_1 t).mpr h1) _)
      unfold own13
      iframe H0 H1 H2 H3 H4 HS0 HS1
      iintro ⟨H0, H1, H2, H3, H4, HS0, HS1⟩
      iframe
    · rw [Dat.leavesExact_idle _ 4 t (idleAt13_4 t h1) (noFlush13_4 t h1), sAt13_next V c t h0, PhiS13_pos V c _ _ h0]
      unfold acc13; dsimp only
      generalize sAt13 V c (t.val - 1) _ = a
      iintro ⟨⟨⟨⟨HS0, HS1⟩, HR⟩, Hg⟩, Ho, ⟨%d0, H0⟩, ⟨%d1, H1⟩, ⟨%d2, H2⟩, ⟨%d3, H3⟩, ⟨%d4, H4⟩⟩
      iapply (kernel13_B c Set.univ (grid13.coords t) (st13_0 t) _ (st13_1 t) _ (st13_2 t) _ (st13_3 t) _ (st13_4 t) _ scM13_0 _ scM13_1 _
        (iblk13 V c 0 t) (iblk13 V c 1 t) (iblk13 V c 2 t) (iblk13 V c 3 t) ((dat13 V c).before 4 t d4) a.1 a.2 (fun h => h0 ((hcond13_0 t).mp h)) (fun h => h1 ((hcond13_1 t).mp h)) _)
      unfold own13
      iframe H0 H1 H2 H3 H4 HS0 HS1
      iintro ⟨H0, H1, H2, H3, H4, HS0, HS1⟩
      iframe
      iexists _; iexact H4

theorem body_obligation13 (c : Dev nD) : BodyObligation (dat13 (F := F) V c) (defs₀ (F := F)) Variants.none () Set.univ := fun t => by
  rw [bigSep_W13, bigSep_W13]
  exact sound_body13 V c t

theorem hin13 (c : Dev nD) : (Pipeline.ΦA spec13 c : sProp 𝕄) ⊢ (dat13 V c).Φ 0 :=
  Idealize.SL.BI.Entails.refl _

theorem hout13 (c : Dev nD) : (dat13 V c).Φ (Fin.last cfg13.N) ⊢ (Pipeline.ΦA spec13 c : sProp 𝕄) := by
  rw [show (dat13 V c).Φ (Fin.last cfg13.N) = PhiS13 V c cfg13.N (Nat.le_refl _) from rfl, PhiS13_pos V c _ _ (by decide), PhiA13_eq]
  unfold acc13
  iintro ⟨⟨⟨HS0, HS1⟩, HR⟩, Hg⟩
  iframe HR Hg
  isplitl [HS0] <;> iexists _ <;> iassumption

end Cert.KernelIdeal.Reg
end
-- ==== Proof.KI.Run.lean ====
import proofs.«408439_j66932770341395_1_alg».proof.Proof.Gen.KernelIdeal.Launch
import proofs.«408439_j66932770341395_1_alg».proof.Proof.Gen.KernelIdeal.Skeleton
import proofs.«408439_j66932770341395_1_alg».proof.Proof.Gen.KernelIdeal.Points
import proofs.«408439_j66932770341395_1_alg».proof.Proof.Gen.KernelIdeal.Regions
import proofs.«408439_j66932770341395_1_alg».proof.Proof.KI.R00
import proofs.«408439_j66932770341395_1_alg».proof.Proof.KI.R01
import proofs.«408439_j66932770341395_1_alg».proof.Proof.KI.R02
import proofs.«408439_j66932770341395_1_alg».proof.Proof.KI.R03
import proofs.«408439_j66932770341395_1_alg».proof.Proof.KI.R04
import proofs.«408439_j66932770341395_1_alg».proof.Proof.KI.R05
import proofs.«408439_j66932770341395_1_alg».proof.Proof.KI.R06
import proofs.«408439_j66932770341395_1_alg».proof.Proof.KI.R07
import proofs.«408439_j66932770341395_1_alg».proof.Proof.KI.R08
import proofs.«408439_j66932770341395_1_alg».proof.Proof.KI.R09
import proofs.«408439_j66932770341395_1_alg».proof.Proof.KI.R10
import proofs.«408439_j66932770341395_1_alg».proof.Proof.KI.R11
import proofs.«408439_j66932770341395_1_alg».proof.Proof.KI.R12
import proofs.«408439_j66932770341395_1_alg».proof.Proof.KI.R13
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev WT (F : FTy → Type) : Type := Dev nD → Valuation τ sig (Elt F)
abbrev VT (F : FTy → Type) : Type := (c : Dev nD) → (b : Ref sig .tc) → Buf (Elt F) ((c : Thread nD τ).loc b)

abbrev adm : (p : Fin 14) → (pcfgs (F := F) p).Adm := fun p => (cfgs p).toPCfg_adm
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : WT F) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def mkReg (pd : (p : Fin 14) → (c : Dev nD) → Dat τ (Elt F) Unit ℕ (UR sig nD τ) ℕ (Pipeline.pin (pcfgs (F := F)) adm p) c)
    (p : Fin 14) (lf : Pipeline.LaunchFacts (nD := nD) (τ := τ) cfgs p) (Wi Wo : WT F)
    (hb : ∀ c, BodyObligation (pd p c) (defs₀ (F := F)) Variants.none () Set.univ)

    (hA : ∀ c w, (pd p c).A w = Wi c (Proc.devRef .tc (Pipeline.arrRef (cfgs p).spec w)))
    (hi : ∀ c, (Pipeline.ΦA (cfgs p).spec c : sProp 𝕄) ⊢ (pd p c).Φ 0)
    (ho : ∀ c, (pd p c).Φ (Fin.last (cfgs p).N) ⊢ (Pipeline.ΦA (cfgs p).spec c : sProp 𝕄))
    (harr : ∀ c w, Wo c (Proc.devRef .tc (Pipeline.arrRef (cfgs p).spec w)) = (pd p c).arrAt w (cfgs p).N)
    (hne : ∀ c (b : Ref sig .tc), (∀ w, Pipeline.arrRef (cfgs p).spec w ≠ b) → Wo c (Proc.devRef .tc b) = Wi c (Proc.devRef .tc b))
    (hq : ∀ c w, (pd p c).q w = fullShare := by exact fun _ _ => rfl) (h0 : ∀ c t, (pd p c).owed t = 0 := by exact fun _ _ => rfl)
    (hr : ∀ c, (pd p c).recorded 0 = Set.univ := by exact fun _ => rfl) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := F)) adm pd lf.win lf.arr_whole c
      ((pd p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [h0 c 0, hr c]
      icases HO with ⟨%W, HO⟩; iexists W; isplitr; · ipureintro; exact fun _ _ => Or.inl trivial
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine BIBase.Entails.trans (ho c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c))
      (fun b => Wi c b) (fun b => Wo c b) ((pd p c).arrAt · (cfgs p).N) (fun w => (harr c w).symm)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0 c]
    icases HO with ⟨%W, -, HO⟩; iexists W; iexact HO

/-- A reference outside a host stretch's written list and outside `l` keeps through the stretch what it keeps up to it. -/
theorem keep_host {ops : List (HloOp τ sig (Elt F))} {X l : List (Ref sig .tc)} {b : Ref sig .tc} {V V' : Valuation τ sig (Elt F)}
    (hX : ops.Forall fun op => op.writes ⊆ (X.map (Proc.devRef (τ := τ) .tc)).toFinset)
    (ih : b ∉ l → V (Proc.devRef .tc b) = V' (Proc.devRef .tc b)) (h : b ∉ X ++ l) :
    StableHlo.after ops V (Proc.devRef .tc b) = V' (Proc.devRef .tc b) :=
  (StableHlo.after_of_writes_sub ops V hX fun hb => h (List.mem_append_left _ hb)).trans (ih fun hb => h (List.mem_append_right _ hb))

/-- The same through a region: a reference that is none of its arrays bypasses it. -/
theorem keep_reg {gr W : Nat} (win : Fin W → Pipeline.WinSpec sig gr) (c : Dev nD) {V V' : Valuation τ sig (Elt F)}
    (A : (w : Fin W) → Buf (Elt F) ((win w).arr.view.loc (c : Thread nD τ))) {l : List (Ref sig .tc)} {b : Ref sig .tc}
    (ih : b ∉ l → V (Proc.devRef .tc b) = V' (Proc.devRef .tc b)) (h : b ∉ List.ofFn (Pipeline.arrRef win) ++ l) :
    Pipeline.withArrays win c V A (Proc.devRef .tc b) = V' (Proc.devRef .tc b) :=
  (Pipeline.withArrays_of_ne win c V A b fun w e => h (List.mem_append_left _ (e ▸ List.mem_ofFn.mpr ⟨w, rfl⟩))).trans
    (ih fun hb => h (List.mem_append_right _ hb))

variable (m : (ℓ : Loc nD τ sig) → Buf (Elt F) ℓ) (ρ : Dev nD → PrngReg)

section
variable (c : Dev nD) (b : Ref sig .tc)

abbrev W0 : WT F := fun c b => (s₀ m ρ).mem ((c : Dev nD), b)
abbrev V0 : VT F := fun c b => W0 m ρ c b
abbrev W1 : WT F := fun c => StableHlo.after hostOps0 (W0 m ρ c)
abbrev V1 : VT F := fun c b => W1 m ρ c b
abbrev W2 : WT F := fun c => StableHlo.after hostOps0_1 (W1 m ρ c)
abbrev V2 : VT F := fun c b => W2 m ρ c b
abbrev W3 : WT F := fun c => StableHlo.after hostOps0_2 (W2 m ρ c)
abbrev V3 : VT F := fun c b => W3 m ρ c b
def W4 (c : Dev nD) : Valuation τ sig (Elt F) :=
  Pipeline.withArrays spec0 c (W3 m ρ c) fun w => (dat0 (V3 m ρ) c).arrAt w cfg0.N
theorem W4_arr (w : Fin cfg0.W) :
    W4 m ρ c (Proc.devRef .tc (Pipeline.arrRef spec0 w)) = (dat0 (V3 m ρ) c).arrAt w cfg0.N :=
  Pipeline.withArrays_arr spec0 launch0.win.arr_inj c _ _ w
theorem W4_of_ne (hb : ∀ w, Pipeline.arrRef spec0 w ≠ b) :
    W4 m ρ c (Proc.devRef .tc b) = W3 m ρ c (Proc.devRef .tc b) :=
  Pipeline.withArrays_of_ne spec0 c _ _ b hb
abbrev V4 : VT F := fun c b => W4 m ρ c b
abbrev W5 : WT F := fun c => StableHlo.after hostOps1 (W4 m ρ c)
abbrev V5 : VT F := fun c b => W5 m ρ c b
def W6 (c : Dev nD) : Valuation τ sig (Elt F) :=
  Pipeline.withArrays spec1 c (W5 m ρ c) fun w => (dat1 (V5 m ρ) c).arrAt w cfg1.N
theorem W6_arr (w : Fin cfg1.W) :
    W6 m ρ c (Proc.devRef .tc (Pipeline.arrRef spec1 w)) = (dat1 (V5 m ρ) c).arrAt w cfg1.N :=
  Pipeline.withArrays_arr spec1 launch1.win.arr_inj c _ _ w
theorem W6_of_ne (hb : ∀ w, Pipeline.arrRef spec1 w ≠ b) :
    W6 m ρ c (Proc.devRef .tc b) = W5 m ρ c (Proc.devRef .tc b) :=
  Pipeline.withArrays_of_ne spec1 c _ _ b hb
abbrev V6 : VT F := fun c b => W6 m ρ c b
abbrev W7 : WT F := fun c => StableHlo.after hostOps2 (W6 m ρ c)
abbrev V7 : VT F := fun c b => W7 m ρ c b
def W8 (c : Dev nD) : Valuation τ sig (Elt F) :=
  Pipeline.withArrays spec2 c (W7 m ρ c) fun w => (dat2 (V7 m ρ) c).arrAt w cfg2.N
theorem W8_arr (w : Fin cfg2.W) :
    W8 m ρ c (Proc.devRef .tc (Pipeline.arrRef spec2 w)) = (dat2 (V7 m ρ) c).arrAt w cfg2.N :=
  Pipeline.withArrays_arr spec2 launch2.win.arr_inj c _ _ w
theorem W8_of_ne (hb : ∀ w, Pipeline.arrRef spec2 w ≠ b) :
    W8 m ρ c (Proc.devRef .tc b) = W7 m ρ c (Proc.devRef .tc b) :=
  Pipeline.withArrays_of_ne spec2 c _ _ b hb
abbrev V8 : VT F := fun c b => W8 m ρ c b
abbrev W9 : WT F := fun c => StableHlo.after hostOps3 (W8 m ρ c)
abbrev V9 : VT F := fun c b => W9 m ρ c b
def W10 (c : Dev nD) : Valuation τ sig (Elt F) :=
  Pipeline.withArrays spec3 c (W9 m ρ c) fun w => (dat3 (V9 m ρ) c).arrAt w cfg3.N
theorem W10_arr (w : Fin cfg3.W) :
    W10 m ρ c (Proc.devRef .tc (Pipeline.arrRef spec3 w)) = (dat3 (V9 m ρ) c).arrAt w cfg3.N :=
  Pipeline.withArrays_arr spec3 launch3.win.arr_inj c _ _ w
theorem W10_of_ne (hb : ∀ w, Pipeline.arrRef spec3 w ≠ b) :
    W10 m ρ c (Proc.devRef .tc b) = W9 m ρ c (Proc.devRef .tc b) :=
  Pipeline.withArrays_of_ne spec3 c _ _ b hb
abbrev V10 : VT F := fun c b => W10 m ρ c b
abbrev W11 : WT F := fun c => StableHlo.after hostOps4 (W10 m ρ c)
abbrev V11 : VT F := fun c b => W11 m ρ c b
def W12 (c : Dev nD) : Valuation τ sig (Elt F) :=
  Pipeline.withArrays spec4 c (W11 m ρ c) fun w => (dat4 (V11 m ρ) c).arrAt w cfg4.N
theorem W12_arr (w : Fin cfg4.W) :
    W12 m ρ c (Proc.devRef .tc (Pipeline.arrRef spec4 w)) = (dat4 (V11 m ρ) c).arrAt w cfg4.N :=
  Pipeline.withArrays_arr spec4 launch4.win.arr_inj c _ _ w
theorem W12_of_ne (hb : ∀ w, Pipeline.arrRef spec4 w ≠ b) :
    W12 m ρ c (Proc.devRef .tc b) = W11 m ρ c (Proc.devRef .tc b) :=
  Pipeline.withArrays_of_ne spec4 c _ _ b hb
abbrev V12 : VT F := fun c b => W12 m ρ c b
abbrev W13 : WT F := fun c => StableHlo.after hostOps5 (W12 m ρ c)
abbrev V13 : VT F := fun c b => W13 m ρ c b
def W14 (c : Dev nD) : Valuation τ sig (Elt F) :=
  Pipeline.withArrays spec5 c (W13 m ρ c) fun w => (dat5 (V13 m ρ) c).arrAt w cfg5.N
theorem W14_arr (w : Fin cfg5.W) :
    W14 m ρ c (Proc.devRef .tc (Pipeline.arrRef spec5 w)) = (dat5 (V13 m ρ) c).arrAt w cfg5.N :=
  Pipeline.withArrays_arr spec5 launch5.win.arr_inj c _ _ w
theorem W14_of_ne (hb : ∀ w, Pipeline.arrRef spec5 w ≠ b) :
    W14 m ρ c (Proc.devRef .tc b) = W13 m ρ c (Proc.devRef .tc b) :=
  Pipeline.withArrays_of_ne spec5 c _ _ b hb
abbrev V14 : VT F := fun c b => W14 m ρ c b
abbrev W15 : WT F := fun c => StableHlo.after hostOps6 (W14 m ρ c)
abbrev V15 : VT F := fun c b => W15 m ρ c b
def W16 (c : Dev nD) : Valuation τ sig (Elt F) :=
  Pipeline.withArrays spec6 c (W15 m ρ c) fun w => (dat6 (V15 m ρ) c).arrAt w cfg6.N
theorem W16_arr (w : Fin cfg6.W) :
    W16 m ρ c (Proc.devRef .tc (Pipeline.arrRef spec6 w)) = (dat6 (V15 m ρ) c).arrAt w cfg6.N :=
  Pipeline.withArrays_arr spec6 launch6.win.arr_inj c _ _ w
theorem W16_of_ne (hb : ∀ w, Pipeline.arrRef spec6 w ≠ b) :
    W16 m ρ c (Proc.devRef .tc b) = W15 m ρ c (Proc.devRef .tc b) :=
  Pipeline.withArrays_of_ne spec6 c _ _ b hb
abbrev V16 : VT F := fun c b => W16 m ρ c b
abbrev W17 : WT F := fun c => StableHlo.after hostOps7 (W16 m ρ c)
abbrev V17 : VT F := fun c b => W17 m ρ c b
def W18 (c : Dev nD) : Valuation τ sig (Elt F) :=
  Pipeline.withArrays spec7 c (W17 m ρ c) fun w => (dat7 (V17 m ρ) c).arrAt w cfg7.N
theorem W18_arr (w : Fin cfg7.W) :
    W18 m ρ c (Proc.devRef .tc (Pipeline.arrRef spec7 w)) = (dat7 (V17 m ρ) c).arrAt w cfg7.N :=
  Pipeline.withArrays_arr spec7 launch7.win.arr_inj c _ _ w
theorem W18_of_ne (hb : ∀ w, Pipeline.arrRef spec7 w ≠ b) :
    W18 m ρ c (Proc.devRef .tc b) = W17 m ρ c (Proc.devRef .tc b) :=
  Pipeline.withArrays_of_ne spec7 c _ _ b hb
abbrev V18 : VT F := fun c b => W18 m ρ c b
abbrev W19 : WT F := fun c => StableHlo.after hostOps8 (W18 m ρ c)
abbrev V19 : VT F := fun c b => W19 m ρ c b
def W20 (c : Dev nD) : Valuation τ sig (Elt F) :=
  Pipeline.withArrays spec8 c (W19 m ρ c) fun w => (dat8 (V19 m ρ) c).arrAt w cfg8.N
theorem W20_arr (w : Fin cfg8.W) :
    W20 m ρ c (Proc.devRef .tc (Pipeline.arrRef spec8 w)) = (dat8 (V19 m ρ) c).arrAt w cfg8.N :=
  Pipeline.withArrays_arr spec8 launch8.win.arr_inj c _ _ w
theorem W20_of_ne (hb : ∀ w, Pipeline.arrRef spec8 w ≠ b) :
    W20 m ρ c (Proc.devRef .tc b) = W19 m ρ c (Proc.devRef .tc b) :=
  Pipeline.withArrays_of_ne spec8 c _ _ b hb
abbrev V20 : VT F := fun c b => W20 m ρ c b
abbrev W21 : WT F := fun c => StableHlo.after hostOps9 (W20 m ρ c)
abbrev V21 : VT F := fun c b => W21 m ρ c b
def W22 (c : Dev nD) : Valuation τ sig (Elt F) :=
  Pipeline.withArrays spec9 c (W21 m ρ c) fun w => (dat9 (V21 m ρ) c).arrAt w cfg9.N
theorem W22_arr (w : Fin cfg9.W) :
    W22 m ρ c (Proc.devRef .tc (Pipeline.arrRef spec9 w)) = (dat9 (V21 m ρ) c).arrAt w cfg9.N :=
  Pipeline.withArrays_arr spec9 launch9.win.arr_inj c _ _ w
theorem W22_of_ne (hb : ∀ w, Pipeline.arrRef spec9 w ≠ b) :
    W22 m ρ c (Proc.devRef .tc b) = W21 m ρ c (Proc.devRef .tc b) :=
  Pipeline.withArrays_of_ne spec9 c _ _ b hb
abbrev V22 : VT F := fun c b => W22 m ρ c b
abbrev W23 : WT F := fun c => StableHlo.after hostOps10 (W22 m ρ c)
abbrev V23 : VT F := fun c b => W23 m ρ c b
def W24 (c : Dev nD) : Valuation τ sig (Elt F) :=
  Pipeline.withArrays spec10 c (W23 m ρ c) fun w => (dat10 (V23 m ρ) c).arrAt w cfg10.N
theorem W24_arr (w : Fin cfg10.W) :
    W24 m ρ c (Proc.devRef .tc (Pipeline.arrRef spec10 w)) = (dat10 (V23 m ρ) c).arrAt w cfg10.N :=
  Pipeline.withArrays_arr spec10 launch10.win.arr_inj c _ _ w
theorem W24_of_ne (hb : ∀ w, Pipeline.arrRef spec10 w ≠ b) :
    W24 m ρ c (Proc.devRef .tc b) = W23 m ρ c (Proc.devRef .tc b) :=
  Pipeline.withArrays_of_ne spec10 c _ _ b hb
abbrev V24 : VT F := fun c b => W24 m ρ c b
abbrev W25 : WT F := fun c => StableHlo.after hostOps11 (W24 m ρ c)
abbrev V25 : VT F := fun c b => W25 m ρ c b
def W26 (c : Dev nD) : Valuation τ sig (Elt F) :=
  Pipeline.withArrays spec11 c (W25 m ρ c) fun w => (dat11 (V25 m ρ) c).arrAt w cfg11.N
theorem W26_arr (w : Fin cfg11.W) :
    W26 m ρ c (Proc.devRef .tc (Pipeline.arrRef spec11 w)) = (dat11 (V25 m ρ) c).arrAt w cfg11.N :=
  Pipeline.withArrays_arr spec11 launch11.win.arr_inj c _ _ w
theorem W26_of_ne (hb : ∀ w, Pipeline.arrRef spec11 w ≠ b) :
    W26 m ρ c (Proc.devRef .tc b) = W25 m ρ c (Proc.devRef .tc b) :=
  Pipeline.withArrays_of_ne spec11 c _ _ b hb
abbrev V26 : VT F := fun c b => W26 m ρ c b
abbrev W27 : WT F := fun c => StableHlo.after hostOps12 (W26 m ρ c)
abbrev V27 : VT F := fun c b => W27 m ρ c b
def W28 (c : Dev nD) : Valuation τ sig (Elt F) :=
  Pipeline.withArrays spec12 c (W27 m ρ c) fun w => (dat12 (V27 m ρ) c).arrAt w cfg12.N
theorem W28_arr (w : Fin cfg12.W) :
    W28 m ρ c (Proc.devRef .tc (Pipeline.arrRef spec12 w)) = (dat12 (V27 m ρ) c).arrAt w cfg12.N :=
  Pipeline.withArrays_arr spec12 launch12.win.arr_inj c _ _ w
theorem W28_of_ne (hb : ∀ w, Pipeline.arrRef spec12 w ≠ b) :
    W28 m ρ c (Proc.devRef .tc b) = W27 m ρ c (Proc.devRef .tc b) :=
  Pipeline.withArrays_of_ne spec12 c _ _ b hb
abbrev V28 : VT F := fun c b => W28 m ρ c b
abbrev W29 : WT F := fun c => StableHlo.after hostOps13 (W28 m ρ c)
abbrev V29 : VT F := fun c b => W29 m ρ c b
def W30 (c : Dev nD) : Valuation τ sig (Elt F) :=
  Pipeline.withArrays spec13 c (W29 m ρ c) fun w => (dat13 (V29 m ρ) c).arrAt w cfg13.N
theorem W30_arr (w : Fin cfg13.W) :
    W30 m ρ c (Proc.devRef .tc (Pipeline.arrRef spec13 w)) = (dat13 (V29 m ρ) c).arrAt w cfg13.N :=
  Pipeline.withArrays_arr spec13 launch13.win.arr_inj c _ _ w
theorem W30_of_ne (hb : ∀ w, Pipeline.arrRef spec13 w ≠ b) :
    W30 m ρ c (Proc.devRef .tc b) = W29 m ρ c (Proc.devRef .tc b) :=
  Pipeline.withArrays_of_ne spec13 c _ _ b hb
abbrev V30 : VT F := fun c b => W30 m ρ c b

/-- What is written between boundary 4 and boundary n, cumulatively; a reference outside it holds at boundary n what it held at boundary 4. -/
abbrev wr5 : List (Ref sig .tc) := hostOps1_W
theorem W5_keep (h : b ∉ wr5) : W5 m ρ c (Proc.devRef .tc b) = W4 m ρ c (Proc.devRef .tc b) :=
  StableHlo.after_of_writes_sub hostOps1 _ hostOps1_writes h
abbrev wr6 : List (Ref sig .tc) := List.ofFn (Pipeline.arrRef spec1) ++ wr5
theorem W6_keep (h : b ∉ wr6) : W6 m ρ c (Proc.devRef .tc b) = W4 m ρ c (Proc.devRef .tc b) :=
  keep_reg spec1 c _ (W5_keep m ρ c b) h
abbrev wr7 : List (Ref sig .tc) := hostOps2_W ++ wr6
theorem W7_keep (h : b ∉ wr7) : W7 m ρ c (Proc.devRef .tc b) = W4 m ρ c (Proc.devRef .tc b) :=
  keep_host hostOps2_writes (W6_keep m ρ c b) h
abbrev wr8 : List (Ref sig .tc) := List.ofFn (Pipeline.arrRef spec2) ++ wr7
theorem W8_keep (h : b ∉ wr8) : W8 m ρ c (Proc.devRef .tc b) = W4 m ρ c (Proc.devRef .tc b) :=
  keep_reg spec2 c _ (W7_keep m ρ c b) h
abbrev wr9 : List (Ref sig .tc) := hostOps3_W ++ wr8
theorem W9_keep (h : b ∉ wr9) : W9 m ρ c (Proc.devRef .tc b) = W4 m ρ c (Proc.devRef .tc b) :=
  keep_host hostOps3_writes (W8_keep m ρ c b) h
abbrev wr10 : List (Ref sig .tc) := List.ofFn (Pipeline.arrRef spec3) ++ wr9
theorem W10_keep (h : b ∉ wr10) : W10 m ρ c (Proc.devRef .tc b) = W4 m ρ c (Proc.devRef .tc b) :=
  keep_reg spec3 c _ (W9_keep m ρ c b) h
abbrev wr11 : List (Ref sig .tc) := hostOps4_W ++ wr10
theorem W11_keep (h : b ∉ wr11) : W11 m ρ c (Proc.devRef .tc b) = W4 m ρ c (Proc.devRef .tc b) :=
  keep_host hostOps4_writes (W10_keep m ρ c b) h
abbrev wr12 : List (Ref sig .tc) := List.ofFn (Pipeline.arrRef spec4) ++ wr11
theorem W12_keep (h : b ∉ wr12) : W12 m ρ c (Proc.devRef .tc b) = W4 m ρ c (Proc.devRef .tc b) :=
  keep_reg spec4 c _ (W11_keep m ρ c b) h
abbrev wr13 : List (Ref sig .tc) := hostOps5_W ++ wr12
theorem W13_keep (h : b ∉ wr13) : W13 m ρ c (Proc.devRef .tc b) = W4 m ρ c (Proc.devRef .tc b) :=
  keep_host hostOps5_writes (W12_keep m ρ c b) h
abbrev wr14 : List (Ref sig .tc) := List.ofFn (Pipeline.arrRef spec5) ++ wr13
theorem W14_keep (h : b ∉ wr14) : W14 m ρ c (Proc.devRef .tc b) = W4 m ρ c (Proc.devRef .tc b) :=
  keep_reg spec5 c _ (W13_keep m ρ c b) h
abbrev wr15 : List (Ref sig .tc) := hostOps6_W ++ wr14
theorem W15_keep (h : b ∉ wr15) : W15 m ρ c (Proc.devRef .tc b) = W4 m ρ c (Proc.devRef .tc b) :=
  keep_host hostOps6_writes (W14_keep m ρ c b) h
abbrev wr16 : List (Ref sig .tc) := List.ofFn (Pipeline.arrRef spec6) ++ wr15
theorem W16_keep (h : b ∉ wr16) : W16 m ρ c (Proc.devRef .tc b) = W4 m ρ c (Proc.devRef .tc b) :=
  keep_reg spec6 c _ (W15_keep m ρ c b) h
abbrev wr17 : List (Ref sig .tc) := hostOps7_W ++ wr16
theorem W17_keep (h : b ∉ wr17) : W17 m ρ c (Proc.devRef .tc b) = W4 m ρ c (Proc.devRef .tc b) :=
  keep_host hostOps7_writes (W16_keep m ρ c b) h
abbrev wr18 : List (Ref sig .tc) := List.ofFn (Pipeline.arrRef spec7) ++ wr17
theorem W18_keep (h : b ∉ wr18) : W18 m ρ c (Proc.devRef .tc b) = W4 m ρ c (Proc.devRef .tc b) :=
  keep_reg spec7 c _ (W17_keep m ρ c b) h
abbrev wr19 : List (Ref sig .tc) := hostOps8_W ++ wr18
theorem W19_keep (h : b ∉ wr19) : W19 m ρ c (Proc.devRef .tc b) = W4 m ρ c (Proc.devRef .tc b) :=
  keep_host hostOps8_writes (W18_keep m ρ c b) h
abbrev wr20 : List (Ref sig .tc) := List.ofFn (Pipeline.arrRef spec8) ++ wr19
theorem W20_keep (h : b ∉ wr20) : W20 m ρ c (Proc.devRef .tc b) = W4 m ρ c (Proc.devRef .tc b) :=
  keep_reg spec8 c _ (W19_keep m ρ c b) h
abbrev wr21 : List (Ref sig .tc) := hostOps9_W ++ wr20
theorem W21_keep (h : b ∉ wr21) : W21 m ρ c (Proc.devRef .tc b) = W4 m ρ c (Proc.devRef .tc b) :=
  keep_host hostOps9_writes (W20_keep m ρ c b) h
abbrev wr22 : List (Ref sig .tc) := List.ofFn (Pipeline.arrRef spec9) ++ wr21
theorem W22_keep (h : b ∉ wr22) : W22 m ρ c (Proc.devRef .tc b) = W4 m ρ c (Proc.devRef .tc b) :=
  keep_reg spec9 c _ (W21_keep m ρ c b) h
abbrev wr23 : List (Ref sig .tc) := hostOps10_W ++ wr22
theorem W23_keep (h : b ∉ wr23) : W23 m ρ c (Proc.devRef .tc b) = W4 m ρ c (Proc.devRef .tc b) :=
  keep_host hostOps10_writes (W22_keep m ρ c b) h
abbrev wr24 : List (Ref sig .tc) := List.ofFn (Pipeline.arrRef spec10) ++ wr23
theorem W24_keep (h : b ∉ wr24) : W24 m ρ c (Proc.devRef .tc b) = W4 m ρ c (Proc.devRef .tc b) :=
  keep_reg spec10 c _ (W23_keep m ρ c b) h
abbrev wr25 : List (Ref sig .tc) := hostOps11_W ++ wr24
theorem W25_keep (h : b ∉ wr25) : W25 m ρ c (Proc.devRef .tc b) = W4 m ρ c (Proc.devRef .tc b) :=
  keep_host hostOps11_writes (W24_keep m ρ c b) h
abbrev wr26 : List (Ref sig .tc) := List.ofFn (Pipeline.arrRef spec11) ++ wr25
theorem W26_keep (h : b ∉ wr26) : W26 m ρ c (Proc.devRef .tc b) = W4 m ρ c (Proc.devRef .tc b) :=
  keep_reg spec11 c _ (W25_keep m ρ c b) h
abbrev wr27 : List (Ref sig .tc) := hostOps12_W ++ wr26
theorem W27_keep (h : b ∉ wr27) : W27 m ρ c (Proc.devRef .tc b) = W4 m ρ c (Proc.devRef .tc b) :=
  keep_host hostOps12_writes (W26_keep m ρ c b) h
abbrev wr28 : List (Ref sig .tc) := List.ofFn (Pipeline.arrRef spec12) ++ wr27
theorem W28_keep (h : b ∉ wr28) : W28 m ρ c (Proc.devRef .tc b) = W4 m ρ c (Proc.devRef .tc b) :=
  keep_reg spec12 c _ (W27_keep m ρ c b) h
abbrev wr29 : List (Ref sig .tc) := hostOps13_W ++ wr28
theorem W29_keep (h : b ∉ wr29) : W29 m ρ c (Proc.devRef .tc b) = W4 m ρ c (Proc.devRef .tc b) :=
  keep_host hostOps13_writes (W28_keep m ρ c b) h
abbrev wr30 : List (Ref sig .tc) := List.ofFn (Pipeline.arrRef spec13) ++ wr29
theorem W30_keep (h : b ∉ wr30) : W30 m ρ c (Proc.devRef .tc b) = W4 m ρ c (Proc.devRef .tc b) :=
  keep_reg spec13 c _ (W29_keep m ρ c b) h

/-- The three opening stretches keep a reference none of them writes. -/
theorem W3_keep (h : b ∉ hostOps0_2_W ++ (hostOps0_1_W ++ hostOps0_W)) :
    W3 m ρ c (Proc.devRef .tc b) = W0 m ρ c (Proc.devRef .tc b) :=
  keep_host hostOps0_2_writes (keep_host hostOps0_1_writes (StableHlo.after_of_writes_sub hostOps0 _ hostOps0_writes)) h

/-- A reference kept by the last region, by everything between boundaries 4 and 29, by region 0 and by the opening ends as launched. -/
theorem arg_end (h30 : W30 m ρ c (Proc.devRef .tc b) = W29 m ρ c (Proc.devRef .tc b)) (hk : b ∉ wr29)
    (h4 : W4 m ρ c (Proc.devRef .tc b) = W3 m ρ c (Proc.devRef .tc b)) (h3 : b ∉ hostOps0_2_W ++ (hostOps0_1_W ++ hostOps0_W)) :
    W30 m ρ c (Proc.devRef .tc b) = m ((c : Thread nD τ).loc b) :=
  h30.trans ((W29_keep m ρ c b hk).trans (h4.trans (W3_keep m ρ c b h3)))

theorem W30_main_arg0 : W30 m ρ c (Proc.devRef .tc main_arg0) = m ((c : Thread nD τ).loc main_arg0) :=
  arg_end m ρ c _ (W30_of_ne m ρ c _ (by decide)) (by decide) ((W4_arr m ρ c 0).trans (((dat0 (V3 m ρ) c).arrAt_in 0 rfl _).trans (A_eq0 (V3 m ρ) c 0))) (by decide)
theorem W30_main_arg1 : W30 m ρ c (Proc.devRef .tc main_arg1) = m ((c : Thread nD τ).loc main_arg1) :=
  arg_end m ρ c _ (W30_of_ne m ρ c _ (by decide)) (by decide) (W4_of_ne m ρ c _ (by decide)) (by decide)
theorem W30_main_arg2 : W30 m ρ c (Proc.devRef .tc main_arg2) = m ((c : Thread nD τ).loc main_arg2) :=
  arg_end m ρ c _ (W30_of_ne m ρ c _ (by decide)) (by decide) (W4_of_ne m ρ c _ (by decide)) (by decide)
theorem W30_main_arg3 : W30 m ρ c (Proc.devRef .tc main_arg3) = m ((c : Thread nD τ).loc main_arg3) :=
  arg_end m ρ c _ (W30_of_ne m ρ c _ (by decide)) (by decide) ((W4_arr m ρ c 1).trans (((dat0 (V3 m ρ) c).arrAt_in 1 rfl _).trans (A_eq0 (V3 m ρ) c 1))) (by decide)
theorem W30_main_arg4 : W30 m ρ c (Proc.devRef .tc main_arg4) = m ((c : Thread nD τ).loc main_arg4) :=
  arg_end m ρ c _ (W30_of_ne m ρ c _ (by decide)) (by decide) (W4_of_ne m ρ c _ (by decide)) (by decide)
theorem W30_main_arg5 : W30 m ρ c (Proc.devRef .tc main_arg5) = m ((c : Thread nD τ).loc main_arg5) :=
  arg_end m ρ c _ (W30_of_ne m ρ c _ (by decide)) (by decide) (W4_of_ne m ρ c _ (by decide)) (by decide)
theorem W30_main_arg6 : W30 m ρ c (Proc.devRef .tc main_arg6) = m ((c : Thread nD τ).loc main_arg6) :=
  arg_end m ρ c _ (W30_of_ne m ρ c _ (by decide)) (by decide) (W4_of_ne m ρ c _ (by decide)) (by decide)
theorem W30_main_arg7 : W30 m ρ c (Proc.devRef .tc main_arg7) = m ((c : Thread nD τ).loc main_arg7) :=
  arg_end m ρ c _ (W30_of_ne m ρ c _ (by decide)) (by decide) (W4_of_ne m ρ c _ (by decide)) (by decide)
theorem W30_main_arg8 : W30 m ρ c (Proc.devRef .tc main_arg8) = m ((c : Thread nD τ).loc main_arg8) :=
  arg_end m ρ c _ (W30_of_ne m ρ c _ (by decide)) (by decide) (W4_of_ne m ρ c _ (by decide)) (by decide)
theorem W30_main_arg9 : W30 m ρ c (Proc.devRef .tc main_arg9) = m ((c : Thread nD τ).loc main_arg9) :=
  arg_end m ρ c _ ((W30_arr m ρ c 2).trans (((dat13 (V29 m ρ) c).arrAt_in 2 rfl _).trans (A_eq13 (V29 m ρ) c 2))) (by decide) (W4_of_ne m ρ c _ (by decide)) (by decide)
theorem W30_main_arg10 : W30 m ρ c (Proc.devRef .tc main_arg10) = m ((c : Thread nD τ).loc main_arg10) :=
  arg_end m ρ c _ (W30_of_ne m ρ c _ (by decide)) (by decide) (W4_of_ne m ρ c _ (by decide)) (by decide)

end

def pdats : (p : Fin 14) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
  | ⟨4, _⟩ => fun c => dat4 (V11 m ρ) c
  | ⟨5, _⟩ => fun c => dat5 (V13 m ρ) c
  | ⟨6, _⟩ => fun c => dat6 (V15 m ρ) c
  | ⟨7, _⟩ => fun c => dat7 (V17 m ρ) c
  | ⟨8, _⟩ => fun c => dat8 (V19 m ρ) c
  | ⟨9, _⟩ => fun c => dat9 (V21 m ρ) c
  | ⟨10, _⟩ => fun c => dat10 (V23 m ρ) c
  | ⟨11, _⟩ => fun c => dat11 (V25 m ρ) c
  | ⟨12, _⟩ => fun c => dat12 (V27 m ρ) c
  | ⟨13, _⟩ => fun c => dat13 (V29 m ρ) c

abbrev Tₙ (c : Dev nD) : sProp 𝕄 := iprop(StableHlo.held (c : Thread nD τ) (Pipeline.ucRefs τ sig) (W30 m ρ c) ∗ ∃ r, prngReg c r)

section
set_option backward.isDefEq.respectTransparency.types false
def reg0 : Pipeline.RegionSeg (pcfgs (F := F)) adm (pdats m ρ) () defs₀ 𝒱₀ L lv 0 :=
  mkReg (pdats m ρ) 0 launch0 (W3 m ρ) (W4 m ρ) (body_obligation0 (V3 m ρ)) (A_eq0 (V3 m ρ)) (hin0 (V3 m ρ)) (hout0 (V3 m ρ)) (W4_arr m ρ) (W4_of_ne m ρ)
def reg1 : Pipeline.RegionSeg (pcfgs (F := F)) adm (pdats m ρ) () defs₀ 𝒱₀ L lv 1 :=
  mkReg (pdats m ρ) 1 launch1 (W5 m ρ) (W6 m ρ) (body_obligation1 (V5 m ρ)) (A_eq1 (V5 m ρ)) (hin1 (V5 m ρ)) (hout1 (V5 m ρ)) (W6_arr m ρ) (W6_of_ne m ρ)
def reg2 : Pipeline.RegionSeg (pcfgs (F := F)) adm (pdats m ρ) () defs₀ 𝒱₀ L lv 2 :=
  mkReg (pdats m ρ) 2 launch2 (W7 m ρ) (W8 m ρ) (body_obligation2 (V7 m ρ)) (A_eq2 (V7 m ρ)) (hin2 (V7 m ρ)) (hout2 (V7 m ρ)) (W8_arr m ρ) (W8_of_ne m ρ)
def reg3 : Pipeline.RegionSeg (pcfgs (F := F)) adm (pdats m ρ) () defs₀ 𝒱₀ L lv 3 :=
  mkReg (pdats m ρ) 3 launch3 (W9 m ρ) (W10 m ρ) (body_obligation3 (V9 m ρ)) (A_eq3 (V9 m ρ)) (hin3 (V9 m ρ)) (hout3 (V9 m ρ)) (W10_arr m ρ) (W10_of_ne m ρ)
def reg4 : Pipeline.RegionSeg (pcfgs (F := F)) adm (pdats m ρ) () defs₀ 𝒱₀ L lv 4 :=
  mkReg (pdats m ρ) 4 launch4 (W11 m ρ) (W12 m ρ) (body_obligation4 (V11 m ρ)) (A_eq4 (V11 m ρ)) (hin4 (V11 m ρ)) (hout4 (V11 m ρ)) (W12_arr m ρ) (W12_of_ne m ρ)
def reg5 : Pipeline.RegionSeg (pcfgs (F := F)) adm (pdats m ρ) () defs₀ 𝒱₀ L lv 5 :=
  mkReg (pdats m ρ) 5 launch5 (W13 m ρ) (W14 m ρ) (body_obligation5 (V13 m ρ)) (A_eq5 (V13 m ρ)) (hin5 (V13 m ρ)) (hout5 (V13 m ρ)) (W14_arr m ρ) (W14_of_ne m ρ)
def reg6 : Pipeline.RegionSeg (pcfgs (F := F)) adm (pdats m ρ) () defs₀ 𝒱₀ L lv 6 :=
  mkReg (pdats m ρ) 6 launch6 (W15 m ρ) (W16 m ρ) (body_obligation6 (V15 m ρ)) (A_eq6 (V15 m ρ)) (hin6 (V15 m ρ)) (hout6 (V15 m ρ)) (W16_arr m ρ) (W16_of_ne m ρ)
def reg7 : Pipeline.RegionSeg (pcfgs (F := F)) adm (pdats m ρ) () defs₀ 𝒱₀ L lv 7 :=
  mkReg (pdats m ρ) 7 launch7 (W17 m ρ) (W18 m ρ) (body_obligation7 (V17 m ρ)) (A_eq7 (V17 m ρ)) (hin7 (V17 m ρ)) (hout7 (V17 m ρ)) (W18_arr m ρ) (W18_of_ne m ρ)
def reg8 : Pipeline.RegionSeg (pcfgs (F := F)) adm (pdats m ρ) () defs₀ 𝒱₀ L lv 8 :=
  mkReg (pdats m ρ) 8 launch8 (W19 m ρ) (W20 m ρ) (body_obligation8 (V19 m ρ)) (A_eq8 (V19 m ρ)) (hin8 (V19 m ρ)) (hout8 (V19 m ρ)) (W20_arr m ρ) (W20_of_ne m ρ)
def reg9 : Pipeline.RegionSeg (pcfgs (F := F)) adm (pdats m ρ) () defs₀ 𝒱₀ L lv 9 :=
  mkReg (pdats m ρ) 9 launch9 (W21 m ρ) (W22 m ρ) (body_obligation9 (V21 m ρ)) (A_eq9 (V21 m ρ)) (hin9 (V21 m ρ)) (hout9 (V21 m ρ)) (W22_arr m ρ) (W22_of_ne m ρ)
def reg10 : Pipeline.RegionSeg (pcfgs (F := F)) adm (pdats m ρ) () defs₀ 𝒱₀ L lv 10 :=
  mkReg (pdats m ρ) 10 launch10 (W23 m ρ) (W24 m ρ) (body_obligation10 (V23 m ρ)) (A_eq10 (V23 m ρ)) (hin10 (V23 m ρ)) (hout10 (V23 m ρ)) (W24_arr m ρ) (W24_of_ne m ρ)
def reg11 : Pipeline.RegionSeg (pcfgs (F := F)) adm (pdats m ρ) () defs₀ 𝒱₀ L lv 11 :=
  mkReg (pdats m ρ) 11 launch11 (W25 m ρ) (W26 m ρ) (body_obligation11 (V25 m ρ)) (A_eq11 (V25 m ρ)) (hin11 (V25 m ρ)) (hout11 (V25 m ρ)) (W26_arr m ρ) (W26_of_ne m ρ)
def reg12 : Pipeline.RegionSeg (pcfgs (F := F)) adm (pdats m ρ) () defs₀ 𝒱₀ L lv 12 :=
  mkReg (pdats m ρ) 12 launch12 (W27 m ρ) (W28 m ρ) (body_obligation12 (V27 m ρ)) (A_eq12 (V27 m ρ)) (hin12 (V27 m ρ)) (hout12 (V27 m ρ)) (W28_arr m ρ) (W28_of_ne m ρ)
def reg13 : Pipeline.RegionSeg (pcfgs (F := F)) adm (pdats m ρ) () defs₀ 𝒱₀ L lv 13 :=
  mkReg (pdats m ρ) 13 launch13 (W29 m ρ) (W30 m ρ) (body_obligation13 (V29 m ρ)) (A_eq13 (V29 m ρ)) (hin13 (V29 m ρ)) (hout13 (V29 m ρ)) (W30_arr m ρ) (W30_of_ne m ρ)
end

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)),
    .region (reg5 m ρ),
    .host (hseg hostOps6 hostOps6_sub hostOps6_fresh (W14 m ρ)),
    .region (reg6 m ρ),
    .host (hseg hostOps7 hostOps7_sub hostOps7_fresh (W16 m ρ)),
    .region (reg7 m ρ),
    .host (hseg hostOps8 hostOps8_sub hostOps8_fresh (W18 m ρ)),
    .region (reg8 m ρ),
    .host (hseg hostOps9 hostOps9_sub hostOps9_fresh (W20 m ρ)),
    .region (reg9 m ρ),
    .host (hseg hostOps10 hostOps10_sub hostOps10_fresh (W22 m ρ)),
    .region (reg10 m ρ),
    .host (hseg hostOps11 hostOps11_sub hostOps11_fresh (W24 m ρ)),
    .region (reg11 m ρ),
    .host (hseg hostOps12 hostOps12_sub hostOps12_fresh (W26 m ρ)),
    .region (reg12 m ρ),
    .host (hseg hostOps13 hostOps13_sub hostOps13_fresh (W28 m ρ)),
    .region (reg13 m ρ) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W30 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W30 m ρ c b)
    (hfin := fun c s' => by
      iintro ⟨⟨Hh, -⟩, HSI⟩
      unfold StableHlo.held
      imodintro
      iapply (pointsTo_read_all (Pipeline.ucRefs τ sig) (fun b => (((c : Thread nD τ)).1, b)) (W30 m ρ c) s')
      isplitl [Hh] <;> iassumption)
    (hQ := fun _ h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W30_main_arg0 m ρ c),
     (h c _ (mem_uc main_arg1 (by decide))).trans (W30_main_arg1 m ρ c),
     (h c _ (mem_uc main_arg2 (by decide))).trans (W30_main_arg2 m ρ c),
     (h c _ (mem_uc main_arg3 (by decide))).trans (W30_main_arg3 m ρ c),
     (h c _ (mem_uc main_arg4 (by decide))).trans (W30_main_arg4 m ρ c),
     (h c _ (mem_uc main_arg5 (by decide))).trans (W30_main_arg5 m ρ c),
     (h c _ (mem_uc main_arg6 (by decide))).trans (W30_main_arg6 m ρ c),
     (h c _ (mem_uc main_arg7 (by decide))).trans (W30_main_arg7 m ρ c),
     (h c _ (mem_uc main_arg8 (by decide))).trans (W30_main_arg8 m ρ c),
     (h c _ (mem_uc main_arg9 (by decide))).trans (W30_main_arg9 m ρ c),
     (h c _ (mem_uc main_arg10 (by decide))).trans (W30_main_arg10 m ρ c)⟩) (run_all m ρ)

end Cert.KernelIdeal.Reg

end
-- ==== Proof.Ref.Run.lean ====
import proofs.«408439_j66932770341395_1_alg».proof.Proof.Gen.ReferenceIdeal
import Idealize.ShloMosaic.Lib.StableHlo.Run
import Idealize.ShloMosaic.Lib.Pipeline.Regions
import Mathlib.Data.List.Forall2

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsPre : List (HloOp τ sig (Elt F)) :=
  [ nullary main_v0 (iotaInDim S50000 32 0),
    unary main_arg1 main_v1 ((extractStridedSlice S1x600000 ![0, 0] · slices_S2x600000_S1x600000_0_0) : (⟨S2x600000, .i32⟩ : BufTy).Contents (Elt F) → (⟨S1x600000, .i32⟩ : BufTy).Contents (Elt F)),
    reshape main_v1 main_v2 rfl shapeCasts_S1x600000_S600000,
    binary main_v2 main_v0 main_v3 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    unary main_arg1 main_v4 ((extractStridedSlice S1x600000 ![1, 0] · slices_S2x600000_S1x600000_1_0) : (⟨S2x600000, .i32⟩ : BufTy).Contents (Elt F) → (⟨S1x600000, .i32⟩ : BufTy).Contents (Elt F)),
    reshape main_v4 main_v5 rfl shapeCasts_S1x600000_S600000,
    binary main_v5 main_v0 main_v6 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    nullary main_cst (constant S_ .f32 0x3F800000#32),
    unary main_cst main_v7 (broadcastInDim S650000 ![] bcast_S_S650000 : (⟨S_, .f32⟩ : BufTy).Contents (Elt F) → (⟨S650000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S650000x1 ![0] bcast_S650000_S650000x1_0 : (⟨S650000, .i32⟩ : BufTy).Contents (Elt F) → (⟨S650000x1, .i32⟩ : BufTy).Contents (Elt F)),
    ternary main_v8 main_v9 main_v7 main_v10 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (.of main_cst_2 : TRef sig ⟨S_, .f32⟩) main_call0.v0 id,
    TRef.unary main_call0.v0 main_call0.v1 (broadcastInDim S50000 ![] bcast_S_S50000),
    TRef.ternary (.of main_v12 : TRef sig ⟨S50000, .i1⟩) (.of main_v13 : TRef sig ⟨S50000, .f32⟩) main_call0.v1 main_call0.v2 select,
    nullary main_c (constantI S_ 32 0#32),
    unary main_c main_v15 (broadcastInDim S650000 ![] bcast_S_S650000 : (⟨S_, .i32⟩ : BufTy).Contents (Elt F) → (⟨S650000, .i32⟩ : BufTy).Contents (Elt F)),
    binary main_v3 main_v15 main_v16 (cmpi .slt : (⟨S650000, .i32⟩ : BufTy).Contents (Elt F) → (⟨S650000, .i32⟩ : BufTy).Contents (Elt F) → (⟨S650000, .i1⟩ : BufTy).Contents (Elt F)),
    nullary main_c_3 (constantI S_ 32 50000#32),
    unary main_c_3 main_v17 (broadcastInDim S650000 ![] bcast_S_S650000 : (⟨S_, .i32⟩ : BufTy).Contents (Elt F) → (⟨S650000, .i32⟩ : BufTy).Contents (Elt F)),
    binary main_v3 main_v17 main_v18 (addi : (⟨S650000, .i32⟩ : BufTy).Contents (Elt F) → (⟨S650000, .i32⟩ : BufTy).Contents (Elt F) → (⟨S650000, .i32⟩ : BufTy).Contents (Elt F)),
    ternary main_v16 main_v18 main_v3 main_v19 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v19 main_v20 (broadcastInDim S650000x1 ![0] bcast_S650000_S650000x1_0 : (⟨S650000, .i32⟩ : BufTy).Contents (Elt F) → (⟨S650000x1, .i32⟩ : BufTy).Contents (Elt F)),
    binary main_v14 main_v20 main_v21 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    nullary main_c_4 (constantI S_ 32 0#32),
    unary main_c_4 main_v22 (broadcastInDim S650000 ![] bcast_S_S650000 : (⟨S_, .i32⟩ : BufTy).Contents (Elt F) → (⟨S650000, .i32⟩ : BufTy).Contents (Elt F)),
    binary main_v6 main_v22 main_v23 (cmpi .slt : (⟨S650000, .i32⟩ : BufTy).Contents (Elt F) → (⟨S650000, .i32⟩ : BufTy).Contents (Elt F) → (⟨S650000, .i1⟩ : BufTy).Contents (Elt F)),
    nullary main_c_5 (constantI S_ 32 50000#32),
    unary main_c_5 main_v24 (broadcastInDim S650000 ![] bcast_S_S650000 : (⟨S_, .i32⟩ : BufTy).Contents (Elt F) → (⟨S650000, .i32⟩ : BufTy).Contents (Elt F)),
    binary main_v6 main_v24 main_v25 (addi : (⟨S650000, .i32⟩ : BufTy).Contents (Elt F) → (⟨S650000, .i32⟩ : BufTy).Contents (Elt F) → (⟨S650000, .i32⟩ : BufTy).Contents (Elt F)),
    ternary main_v23 main_v25 main_v6 main_v26 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v26 main_v27 (broadcastInDim S650000x1 ![0] bcast_S650000_S650000x1_0 : (⟨S650000, .i32⟩ : BufTy).Contents (Elt F) → (⟨S650000x1, .i32⟩ : BufTy).Contents (Elt F)),
    binary main_v14 main_v27 main_v28 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    binary main_v21 main_v28 main_v29 (mulf : (⟨S650000, .f32⟩ : BufTy).Contents (Elt F) → (⟨S650000, .f32⟩ : BufTy).Contents (Elt F) → (⟨S650000, .f32⟩ : BufTy).Contents (Elt F)),
    binary main_arg0 main_arg3 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v31 (broadcastInDim S1x128 ![1] bcast_S128_S1x128_1 : (⟨S128, .f32⟩ : BufTy).Contents (Elt F) → (⟨S1x128, .f32⟩ : BufTy).Contents (Elt F)),
    unary main_v31 main_v32 (broadcastInDim S50000x128 ![0, 1] bcast_S1x128_S50000x128_0_1 : (⟨S1x128, .f32⟩ : BufTy).Contents (Elt F) → (⟨S50000x128, .f32⟩ : BufTy).Contents (Elt F)),
    binary main_v30 main_v32 main_v33 (addf : (⟨S50000x128, .f32⟩ : BufTy).Contents (Elt F) → (⟨S50000x128, .f32⟩ : BufTy).Contents (Elt F) → (⟨S50000x128, .f32⟩ : BufTy).Contents (Elt F)) ]

abbrev opsL1 : List (HloOp τ sig (Elt F)) :=
  [ unary main_arg5 main_v34 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v34 main_v35 rfl shapeCasts_S1x128x128_S128x128,
    binary main_v33 main_v35 main_v36 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v29 main_v37 (broadcastInDim S650000x1 ![0] bcast_S650000_S650000x1_0 : (⟨S650000, .f32⟩ : BufTy).Contents (Elt F) → (⟨S650000x1, .f32⟩ : BufTy).Contents (Elt F)),
    nullary main_c_6 (constantI S_ 32 0#32),
    unary main_c_6 main_v38 (broadcastInDim S650000 ![] bcast_S_S650000 : (⟨S_, .i32⟩ : BufTy).Contents (Elt F) → (⟨S650000, .i32⟩ : BufTy).Contents (Elt F)),
    binary main_v3 main_v38 main_v39 (cmpi .slt : (⟨S650000, .i32⟩ : BufTy).Contents (Elt F) → (⟨S650000, .i32⟩ : BufTy).Contents (Elt F) → (⟨S650000, .i1⟩ : BufTy).Contents (Elt F)),
    nullary main_c_7 (constantI S_ 32 50000#32),
    unary main_c_7 main_v40 (broadcastInDim S650000 ![] bcast_S_S650000 : (⟨S_, .i32⟩ : BufTy).Contents (Elt F) → (⟨S650000, .i32⟩ : BufTy).Contents (Elt F)),
    binary main_v3 main_v40 main_v41 (addi : (⟨S650000, .i32⟩ : BufTy).Contents (Elt F) → (⟨S650000, .i32⟩ : BufTy).Contents (Elt F) → (⟨S650000, .i32⟩ : BufTy).Contents (Elt F)),
    ternary main_v39 main_v41 main_v3 main_v42 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v42 main_v43 (broadcastInDim S650000x1 ![0] bcast_S650000_S650000x1_0 : (⟨S650000, .i32⟩ : BufTy).Contents (Elt F) → (⟨S650000x1, .i32⟩ : BufTy).Contents (Elt F)),
    binary main_v36 main_v43 main_v44 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v37 main_v45 (broadcastInDim S650000x128 ![0, 1] bcast_S650000x1_S650000x128_0_1 : (⟨S650000x1, .f32⟩ : BufTy).Contents (Elt F) → (⟨S650000x128, .f32⟩ : BufTy).Contents (Elt F)),
    binary main_v45 main_v44 main_v46 (mulf : (⟨S650000x128, .f32⟩ : BufTy).Contents (Elt F) → (⟨S650000x128, .f32⟩ : BufTy).Contents (Elt F) → (⟨S650000x128, .f32⟩ : BufTy).Contents (Elt F)),
    nullary main_cst_8 (constant S_ .f32 0x00000000#32),
    unary main_cst_8 main_v47 (broadcastInDim S50000x128 ![] bcast_S_S50000x128 : (⟨S_, .f32⟩ : BufTy).Contents (Elt F) → (⟨S50000x128, .f32⟩ : BufTy).Contents (Elt F)),
    unary main_v6 main_v48 (broadcastInDim S650000x1 ![0] bcast_S650000_S650000x1_0 : (⟨S650000, .i32⟩ : BufTy).Contents (Elt F) → (⟨S650000x1, .i32⟩ : BufTy).Contents (Elt F)),
    ternary main_v47 main_v48 main_v46 main_v49 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg6 main_v50 ((extractStridedSlice S1x128 ![0, 0] · slices_S4x128_S1x128_0_0) : (⟨S4x128, .f32⟩ : BufTy).Contents (Elt F) → (⟨S1x128, .f32⟩ : BufTy).Contents (Elt F)),
    reshape main_v50 main_v51 rfl shapeCasts_S1x128_S128,
    unary main_v51 main_v52 (broadcastInDim S1x128 ![1] bcast_S128_S1x128_1 : (⟨S128, .f32⟩ : BufTy).Contents (Elt F) → (⟨S1x128, .f32⟩ : BufTy).Contents (Elt F)),
    unary main_v52 main_v53 (broadcastInDim S50000x128 ![0, 1] bcast_S1x128_S50000x128_0_1 : (⟨S1x128, .f32⟩ : BufTy).Contents (Elt F) → (⟨S50000x128, .f32⟩ : BufTy).Contents (Elt F)),
    binary main_v49 main_v53 main_v54 (addf : (⟨S50000x128, .f32⟩ : BufTy).Contents (Elt F) → (⟨S50000x128, .f32⟩ : BufTy).Contents (Elt F) → (⟨S50000x128, .f32⟩ : BufTy).Contents (Elt F)),
    nullary main_cst_9 (constant S_ .f32 0x00000000#32),
    binary main_v54 main_cst_9 main_v55 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_10 (constant S_ .f32 0x47435000#32),
    unary main_cst_10 main_v56 (broadcastInDim S128 ![] bcast_S_S128 : (⟨S_, .f32⟩ : BufTy).Contents (Elt F) → (⟨S128, .f32⟩ : BufTy).Contents (Elt F)),
    binary main_v55 main_v56 main_v57 (Host.divf : (⟨S128, .f32⟩ : BufTy).Contents (Elt F) → (⟨S128, .f32⟩ : BufTy).Contents (Elt F) → (⟨S128, .f32⟩ : BufTy).Contents (Elt F)),
    nullary main_c_11 (constantI S_ 32 0#32),
    TRef.nullary main_call1.cst (constant S_ .f32 0x00000000#32),
    TRef.binary (.of main_v54 : TRef sig ⟨S50000x128, .f32⟩) main_call1.cst main_call1.v0 (fun x v => Host.reduceAdd x v reducesTo_S50000x128_S128_d0 h_S_),
    TRef.unary main_call1.v0 main_call1.v1 (broadcastInDim S1x128 ![1] bcast_S128_S1x128_1),
    TRef.nullary main_call1.cst_0 (constant S_ .f32 0x47435000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S50000x128 ![0, 1] bcast_S1x128_S50000x128_0_1),
    TRef.binary (.of main_v54 : TRef sig ⟨S50000x128, .f32⟩) main_call1.v4 main_call1.v5 subf,
    TRef.binary main_call1.v5 main_call1.v5 main_call1.v6 mulf,
    TRef.unary (.of main_c_11 : TRef sig ⟨S_, .i32⟩) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_v57 main_v59 (broadcastInDim S1x128 ![1] bcast_S128_S1x128_1 : (⟨S128, .f32⟩ : BufTy).Contents (Elt F) → (⟨S1x128, .f32⟩ : BufTy).Contents (Elt F)),
    unary main_v59 main_v60 (broadcastInDim S50000x128 ![0, 1] bcast_S1x128_S50000x128_0_1 : (⟨S1x128, .f32⟩ : BufTy).Contents (Elt F) → (⟨S50000x128, .f32⟩ : BufTy).Contents (Elt F)),
    binary main_v54 main_v60 main_v61 (subf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x3727C5AC#32),
    unary main_cst_12 main_v62 (broadcastInDim S128 ![] bcast_S_S128 : (⟨S_, .f32⟩ : BufTy).Contents (Elt F) → (⟨S128, .f32⟩ : BufTy).Contents (Elt F)),
    binary main_v58 main_v62 main_v63 (addf : (⟨S128, .f32⟩ : BufTy).Contents (Elt F) → (⟨S128, .f32⟩ : BufTy).Contents (Elt F) → (⟨S128, .f32⟩ : BufTy).Contents (Elt F)),
    unary main_v63 main_v64 (Host.rsqrt : (⟨S128, .f32⟩ : BufTy).Contents (Elt F) → (⟨S128, .f32⟩ : BufTy).Contents (Elt F)),
    unary main_v64 main_v65 (broadcastInDim S1x128 ![1] bcast_S128_S1x128_1 : (⟨S128, .f32⟩ : BufTy).Contents (Elt F) → (⟨S1x128, .f32⟩ : BufTy).Contents (Elt F)),
    unary main_v65 main_v66 (broadcastInDim S50000x128 ![0, 1] bcast_S1x128_S50000x128_0_1 : (⟨S1x128, .f32⟩ : BufTy).Contents (Elt F) → (⟨S50000x128, .f32⟩ : BufTy).Contents (Elt F)),
    binary main_v61 main_v66 main_v67 (mulf : (⟨S50000x128, .f32⟩ : BufTy).Contents (Elt F) → (⟨S50000x128, .f32⟩ : BufTy).Contents (Elt F) → (⟨S50000x128, .f32⟩ : BufTy).Contents (Elt F)),
    unary main_arg7 main_v68 ((extractStridedSlice S1x128 ![0, 0] · slices_S4x128_S1x128_0_0) : (⟨S4x128, .f32⟩ : BufTy).Contents (Elt F) → (⟨S1x128, .f32⟩ : BufTy).Contents (Elt F)),
    reshape main_v68 main_v69 rfl shapeCasts_S1x128_S128,
    unary main_v69 main_v70 (broadcastInDim S1x128 ![1] bcast_S128_S1x128_1 : (⟨S128, .f32⟩ : BufTy).Contents (Elt F) → (⟨S1x128, .f32⟩ : BufTy).Contents (Elt F)),
    unary main_v70 main_v71 (broadcastInDim S50000x128 ![0, 1] bcast_S1x128_S50000x128_0_1 : (⟨S1x128, .f32⟩ : BufTy).Contents (Elt F) → (⟨S50000x128, .f32⟩ : BufTy).Contents (Elt F)),
    binary main_v67 main_v71 main_v72 (mulf : (⟨S50000x128, .f32⟩ : BufTy).Contents (Elt F) → (⟨S50000x128, .f32⟩ : BufTy).Contents (Elt F) → (⟨S50000x128, .f32⟩ : BufTy).Contents (Elt F)),
    unary main_arg8 main_v73 ((extractStridedSlice S1x128 ![0, 0] · slices_S4x128_S1x128_0_0) : (⟨S4x128, .f32⟩ : BufTy).Contents (Elt F) → (⟨S1x128, .f32⟩ : BufTy).Contents (Elt F)),
    reshape main_v73 main_v74 rfl shapeCasts_S1x128_S128,
    unary main_v74 main_v75 (broadcastInDim S1x128 ![1] bcast_S128_S1x128_1 : (⟨S128, .f32⟩ : BufTy).Contents (Elt F) → (⟨S1x128, .f32⟩ : BufTy).Contents (Elt F)),
    unary main_v75 main_v76 (broadcastInDim S50000x128 ![0, 1] bcast_S1x128_S50000x128_0_1 : (⟨S1x128, .f32⟩ : BufTy).Contents (Elt F) → (⟨S50000x128, .f32⟩ : BufTy).Contents (Elt F)),
    binary main_v72 main_v76 main_v77 (addf : (⟨S50000x128, .f32⟩ : BufTy).Contents (Elt F) → (⟨S50000x128, .f32⟩ : BufTy).Contents (Elt F) → (⟨S50000x128, .f32⟩ : BufTy).Contents (Elt F)),
    TRef.nullary main_call2.cst (constant S_ .f32 0x00000000#32),
    TRef.unary main_call2.cst main_call2.v0 (broadcastInDim S50000x128 ![] bcast_S_S50000x128),
    TRef.binary (.of main_v77 : TRef sig ⟨S50000x128, .f32⟩) main_call2.v0 main_call2.v1 maximumf ]

abbrev opsL2 : List (HloOp τ sig (Elt F)) :=
  [ unary main_arg5 main_v79 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v79 main_v80 rfl shapeCasts_S1x128x128_S128x128,
    binary main_v78 main_v80 main_v81 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v29 main_v82 (broadcastInDim S650000x1 ![0] bcast_S650000_S650000x1_0 : (⟨S650000, .f32⟩ : BufTy).Contents (Elt F) → (⟨S650000x1, .f32⟩ : BufTy).Contents (Elt F)),
    nullary main_c_13 (constantI S_ 32 0#32),
    unary main_c_13 main_v83 (broadcastInDim S650000 ![] bcast_S_S650000 : (⟨S_, .i32⟩ : BufTy).Contents (Elt F) → (⟨S650000, .i32⟩ : BufTy).Contents (Elt F)),
    binary main_v3 main_v83 main_v84 (cmpi .slt : (⟨S650000, .i32⟩ : BufTy).Contents (Elt F) → (⟨S650000, .i32⟩ : BufTy).Contents (Elt F) → (⟨S650000, .i1⟩ : BufTy).Contents (Elt F)),
    nullary main_c_14 (constantI S_ 32 50000#32),
    unary main_c_14 main_v85 (broadcastInDim S650000 ![] bcast_S_S650000 : (⟨S_, .i32⟩ : BufTy).Contents (Elt F) → (⟨S650000, .i32⟩ : BufTy).Contents (Elt F)),
    binary main_v3 main_v85 main_v86 (addi : (⟨S650000, .i32⟩ : BufTy).Contents (Elt F) → (⟨S650000, .i32⟩ : BufTy).Contents (Elt F) → (⟨S650000, .i32⟩ : BufTy).Contents (Elt F)),
    ternary main_v84 main_v86 main_v3 main_v87 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v87 main_v88 (broadcastInDim S650000x1 ![0] bcast_S650000_S650000x1_0 : (⟨S650000, .i32⟩ : BufTy).Contents (Elt F) → (⟨S650000x1, .i32⟩ : BufTy).Contents (Elt F)),
    binary main_v81 main_v88 main_v89 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v82 main_v90 (broadcastInDim S650000x128 ![0, 1] bcast_S650000x1_S650000x128_0_1 : (⟨S650000x1, .f32⟩ : BufTy).Contents (Elt F) → (⟨S650000x128, .f32⟩ : BufTy).Contents (Elt F)),
    binary main_v90 main_v89 main_v91 (mulf : (⟨S650000x128, .f32⟩ : BufTy).Contents (Elt F) → (⟨S650000x128, .f32⟩ : BufTy).Contents (Elt F) → (⟨S650000x128, .f32⟩ : BufTy).Contents (Elt F)),
    nullary main_cst_15 (constant S_ .f32 0x00000000#32),
    unary main_cst_15 main_v92 (broadcastInDim S50000x128 ![] bcast_S_S50000x128 : (⟨S_, .f32⟩ : BufTy).Contents (Elt F) → (⟨S50000x128, .f32⟩ : BufTy).Contents (Elt F)),
    unary main_v6 main_v93 (broadcastInDim S650000x1 ![0] bcast_S650000_S650000x1_0 : (⟨S650000, .i32⟩ : BufTy).Contents (Elt F) → (⟨S650000x1, .i32⟩ : BufTy).Contents (Elt F)),
    ternary main_v92 main_v93 main_v91 main_v94 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg6 main_v95 ((extractStridedSlice S1x128 ![1, 0] · slices_S4x128_S1x128_1_0) : (⟨S4x128, .f32⟩ : BufTy).Contents (Elt F) → (⟨S1x128, .f32⟩ : BufTy).Contents (Elt F)),
    reshape main_v95 main_v96 rfl shapeCasts_S1x128_S128,
    unary main_v96 main_v97 (broadcastInDim S1x128 ![1] bcast_S128_S1x128_1 : (⟨S128, .f32⟩ : BufTy).Contents (Elt F) → (⟨S1x128, .f32⟩ : BufTy).Contents (Elt F)),
    unary main_v97 main_v98 (broadcastInDim S50000x128 ![0, 1] bcast_S1x128_S50000x128_0_1 : (⟨S1x128, .f32⟩ : BufTy).Contents (Elt F) → (⟨S50000x128, .f32⟩ : BufTy).Contents (Elt F)),
    binary main_v94 main_v98 main_v99 (addf : (⟨S50000x128, .f32⟩ : BufTy).Contents (Elt F) → (⟨S50000x128, .f32⟩ : BufTy).Contents (Elt F) → (⟨S50000x128, .f32⟩ : BufTy).Contents (Elt F)),
    nullary main_cst_16 (constant S_ .f32 0x00000000#32),
    binary main_v99 main_cst_16 main_v100 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_17 (constant S_ .f32 0x47435000#32),
    unary main_cst_17 main_v101 (broadcastInDim S128 ![] bcast_S_S128 : (⟨S_, .f32⟩ : BufTy).Contents (Elt F) → (⟨S128, .f32⟩ : BufTy).Contents (Elt F)),
    binary main_v100 main_v101 main_v102 (Host.divf : (⟨S128, .f32⟩ : BufTy).Contents (Elt F) → (⟨S128, .f32⟩ : BufTy).Contents (Elt F) → (⟨S128, .f32⟩ : BufTy).Contents (Elt F)),
    nullary main_c_18 (constantI S_ 32 0#32),
    TRef.nullary main_call3.cst (constant S_ .f32 0x00000000#32),
    TRef.binary (.of main_v99 : TRef sig ⟨S50000x128, .f32⟩) main_call3.cst main_call3.v0 (fun x v => Host.reduceAdd x v reducesTo_S50000x128_S128_d0 h_S_),
    TRef.unary main_call3.v0 main_call3.v1 (broadcastInDim S1x128 ![1] bcast_S128_S1x128_1),
    TRef.nullary main_call3.cst_0 (constant S_ .f32 0x47435000#32),
    TRef.unary main_call3.cst_0 main_call3.v2 (broadcastInDim S1x128 ![] bcast_S_S1x128),
    TRef.binary main_call3.v1 main_call3.v2 main_call3.v3 Host.divf,
    TRef.unary main_call3.v3 main_call3.v4 (broadcastInDim S50000x128 ![0, 1] bcast_S1x128_S50000x128_0_1),
    TRef.binary (.of main_v99 : TRef sig ⟨S50000x128, .f32⟩) main_call3.v4 main_call3.v5 subf,
    TRef.binary main_call3.v5 main_call3.v5 main_call3.v6 mulf,
    TRef.unary (.of main_c_18 : TRef sig ⟨S_, .i32⟩) main_call3.v7 (sitofp .f32),
    TRef.nullary main_call3.cst_1 (constant S_ .f32 0x47435000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S50000x128_S128_d0 h_S_),
    TRef.unary main_call3.v8 main_call3.v10 (broadcastInDim S128 ![] bcast_S_S128),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S128 ![] bcast_S_S128),
    TRef.ternary main_call3.v12 main_call3.v11 main_call3.call0.v1 main_call3.call0.v2 (fun p a b => select (broadcastInDim S128 ![] bcast_S_S128 p) a b),
    unary main_v102 main_v104 (broadcastInDim S1x128 ![1] bcast_S128_S1x128_1 : (⟨S128, .f32⟩ : BufTy).Contents (Elt F) → (⟨S1x128, .f32⟩ : BufTy).Contents (Elt F)),
    unary main_v104 main_v105 (broadcastInDim S50000x128 ![0, 1] bcast_S1x128_S50000x128_0_1 : (⟨S1x128, .f32⟩ : BufTy).Contents (Elt F) → (⟨S50000x128, .f32⟩ : BufTy).Contents (Elt F)),
    binary main_v99 main_v105 main_v106 (subf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x3727C5AC#32),
    unary main_cst_19 main_v107 (broadcastInDim S128 ![] bcast_S_S128 : (⟨S_, .f32⟩ : BufTy).Contents (Elt F) → (⟨S128, .f32⟩ : BufTy).Contents (Elt F)),
    binary main_v103 main_v107 main_v108 (addf : (⟨S128, .f32⟩ : BufTy).Contents (Elt F) → (⟨S128, .f32⟩ : BufTy).Contents (Elt F) → (⟨S128, .f32⟩ : BufTy).Contents (Elt F)),
    unary main_v108 main_v109 (Host.rsqrt : (⟨S128, .f32⟩ : BufTy).Contents (Elt F) → (⟨S128, .f32⟩ : BufTy).Contents (Elt F)),
    unary main_v109 main_v110 (broadcastInDim S1x128 ![1] bcast_S128_S1x128_1 : (⟨S128, .f32⟩ : BufTy).Contents (Elt F) → (⟨S1x128, .f32⟩ : BufTy).Contents (Elt F)),
    unary main_v110 main_v111 (broadcastInDim S50000x128 ![0, 1] bcast_S1x128_S50000x128_0_1 : (⟨S1x128, .f32⟩ : BufTy).Contents (Elt F) → (⟨S50000x128, .f32⟩ : BufTy).Contents (Elt F)),
    binary main_v106 main_v111 main_v112 (mulf : (⟨S50000x128, .f32⟩ : BufTy).Contents (Elt F) → (⟨S50000x128, .f32⟩ : BufTy).Contents (Elt F) → (⟨S50000x128, .f32⟩ : BufTy).Contents (Elt F)),
    unary main_arg7 main_v113 ((extractStridedSlice S1x128 ![1, 0] · slices_S4x128_S1x128_1_0) : (⟨S4x128, .f32⟩ : BufTy).Contents (Elt F) → (⟨S1x128, .f32⟩ : BufTy).Contents (Elt F)),
    reshape main_v113 main_v114 rfl shapeCasts_S1x128_S128,
    unary main_v114 main_v115 (broadcastInDim S1x128 ![1] bcast_S128_S1x128_1 : (⟨S128, .f32⟩ : BufTy).Contents (Elt F) → (⟨S1x128, .f32⟩ : BufTy).Contents (Elt F)),
    unary main_v115 main_v116 (broadcastInDim S50000x128 ![0, 1] bcast_S1x128_S50000x128_0_1 : (⟨S1x128, .f32⟩ : BufTy).Contents (Elt F) → (⟨S50000x128, .f32⟩ : BufTy).Contents (Elt F)),
    binary main_v112 main_v116 main_v117 (mulf : (⟨S50000x128, .f32⟩ : BufTy).Contents (Elt F) → (⟨S50000x128, .f32⟩ : BufTy).Contents (Elt F) → (⟨S50000x128, .f32⟩ : BufTy).Contents (Elt F)),
    unary main_arg8 main_v118 ((extractStridedSlice S1x128 ![1, 0] · slices_S4x128_S1x128_1_0) : (⟨S4x128, .f32⟩ : BufTy).Contents (Elt F) → (⟨S1x128, .f32⟩ : BufTy).Contents (Elt F)),
    reshape main_v118 main_v119 rfl shapeCasts_S1x128_S128,
    unary main_v119 main_v120 (broadcastInDim S1x128 ![1] bcast_S128_S1x128_1 : (⟨S128, .f32⟩ : BufTy).Contents (Elt F) → (⟨S1x128, .f32⟩ : BufTy).Contents (Elt F)),
    unary main_v120 main_v121 (broadcastInDim S50000x128 ![0, 1] bcast_S1x128_S50000x128_0_1 : (⟨S1x128, .f32⟩ : BufTy).Contents (Elt F) → (⟨S50000x128, .f32⟩ : BufTy).Contents (Elt F)),
    binary main_v117 main_v121 main_v122 (addf : (⟨S50000x128, .f32⟩ : BufTy).Contents (Elt F) → (⟨S50000x128, .f32⟩ : BufTy).Contents (Elt F) → (⟨S50000x128, .f32⟩ : BufTy).Contents (Elt F)),
    TRef.nullary main_call4.cst (constant S_ .f32 0x00000000#32),
    TRef.unary main_call4.cst main_call4.v0 (broadcastInDim S50000x128 ![] bcast_S_S50000x128),
    TRef.binary (.of main_v122 : TRef sig ⟨S50000x128, .f32⟩) main_call4.v0 main_call4.v1 maximumf ]

abbrev opsL3 : List (HloOp τ sig (Elt F)) :=
  [ unary main_arg5 main_v124 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v124 main_v125 rfl shapeCasts_S1x128x128_S128x128,
    binary main_v123 main_v125 main_v126 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v29 main_v127 (broadcastInDim S650000x1 ![0] bcast_S650000_S650000x1_0 : (⟨S650000, .f32⟩ : BufTy).Contents (Elt F) → (⟨S650000x1, .f32⟩ : BufTy).Contents (Elt F)),
    nullary main_c_20 (constantI S_ 32 0#32),
    unary main_c_20 main_v128 (broadcastInDim S650000 ![] bcast_S_S650000 : (⟨S_, .i32⟩ : BufTy).Contents (Elt F) → (⟨S650000, .i32⟩ : BufTy).Contents (Elt F)),
    binary main_v3 main_v128 main_v129 (cmpi .slt : (⟨S650000, .i32⟩ : BufTy).Contents (Elt F) → (⟨S650000, .i32⟩ : BufTy).Contents (Elt F) → (⟨S650000, .i1⟩ : BufTy).Contents (Elt F)),
    nullary main_c_21 (constantI S_ 32 50000#32),
    unary main_c_21 main_v130 (broadcastInDim S650000 ![] bcast_S_S650000 : (⟨S_, .i32⟩ : BufTy).Contents (Elt F) → (⟨S650000, .i32⟩ : BufTy).Contents (Elt F)),
    binary main_v3 main_v130 main_v131 (addi : (⟨S650000, .i32⟩ : BufTy).Contents (Elt F) → (⟨S650000, .i32⟩ : BufTy).Contents (Elt F) → (⟨S650000, .i32⟩ : BufTy).Contents (Elt F)),
    ternary main_v129 main_v131 main_v3 main_v132 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v132 main_v133 (broadcastInDim S650000x1 ![0] bcast_S650000_S650000x1_0 : (⟨S650000, .i32⟩ : BufTy).Contents (Elt F) → (⟨S650000x1, .i32⟩ : BufTy).Contents (Elt F)),
    binary main_v126 main_v133 main_v134 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v127 main_v135 (broadcastInDim S650000x128 ![0, 1] bcast_S650000x1_S650000x128_0_1 : (⟨S650000x1, .f32⟩ : BufTy).Contents (Elt F) → (⟨S650000x128, .f32⟩ : BufTy).Contents (Elt F)),
    binary main_v135 main_v134 main_v136 (mulf : (⟨S650000x128, .f32⟩ : BufTy).Contents (Elt F) → (⟨S650000x128, .f32⟩ : BufTy).Contents (Elt F) → (⟨S650000x128, .f32⟩ : BufTy).Contents (Elt F)),
    nullary main_cst_22 (constant S_ .f32 0x00000000#32),
    unary main_cst_22 main_v137 (broadcastInDim S50000x128 ![] bcast_S_S50000x128 : (⟨S_, .f32⟩ : BufTy).Contents (Elt F) → (⟨S50000x128, .f32⟩ : BufTy).Contents (Elt F)),
    unary main_v6 main_v138 (broadcastInDim S650000x1 ![0] bcast_S650000_S650000x1_0 : (⟨S650000, .i32⟩ : BufTy).Contents (Elt F) → (⟨S650000x1, .i32⟩ : BufTy).Contents (Elt F)),
    ternary main_v137 main_v138 main_v136 main_v139 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg6 main_v140 ((extractStridedSlice S1x128 ![2, 0] · slices_S4x128_S1x128_2_0) : (⟨S4x128, .f32⟩ : BufTy).Contents (Elt F) → (⟨S1x128, .f32⟩ : BufTy).Contents (Elt F)),
    reshape main_v140 main_v141 rfl shapeCasts_S1x128_S128,
    unary main_v141 main_v142 (broadcastInDim S1x128 ![1] bcast_S128_S1x128_1 : (⟨S128, .f32⟩ : BufTy).Contents (Elt F) → (⟨S1x128, .f32⟩ : BufTy).Contents (Elt F)),
    unary main_v142 main_v143 (broadcastInDim S50000x128 ![0, 1] bcast_S1x128_S50000x128_0_1 : (⟨S1x128, .f32⟩ : BufTy).Contents (Elt F) → (⟨S50000x128, .f32⟩ : BufTy).Contents (Elt F)),
    binary main_v139 main_v143 main_v144 (addf : (⟨S50000x128, .f32⟩ : BufTy).Contents (Elt F) → (⟨S50000x128, .f32⟩ : BufTy).Contents (Elt F) → (⟨S50000x128, .f32⟩ : BufTy).Contents (Elt F)),
    nullary main_cst_23 (constant S_ .f32 0x00000000#32),
    binary main_v144 main_cst_23 main_v145 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_24 (constant S_ .f32 0x47435000#32),
    unary main_cst_24 main_v146 (broadcastInDim S128 ![] bcast_S_S128 : (⟨S_, .f32⟩ : BufTy).Contents (Elt F) → (⟨S128, .f32⟩ : BufTy).Contents (Elt F)),
    binary main_v145 main_v146 main_v147 (Host.divf : (⟨S128, .f32⟩ : BufTy).Contents (Elt F) → (⟨S128, .f32⟩ : BufTy).Contents (Elt F) → (⟨S128, .f32⟩ : BufTy).Contents (Elt F)),
    nullary main_c_25 (constantI S_ 32 0#32),
    TRef.nullary main_call5.cst (constant S_ .f32 0x00000000#32),
    TRef.binary (.of main_v144 : TRef sig ⟨S50000x128, .f32⟩) main_call5.cst main_call5.v0 (fun x v => Host.reduceAdd x v reducesTo_S50000x128_S128_d0 h_S_),
    TRef.unary main_call5.v0 main_call5.v1 (broadcastInDim S1x128 ![1] bcast_S128_S1x128_1),
    TRef.nullary main_call5.cst_0 (constant S_ .f32 0x47435000#32),
    TRef.unary main_call5.cst_0 main_call5.v2 (broadcastInDim S1x128 ![] bcast_S_S1x128),
    TRef.binary main_call5.v1 main_call5.v2 main_call5.v3 Host.divf,
    TRef.unary main_call5.v3 main_call5.v4 (broadcastInDim S50000x128 ![0, 1] bcast_S1x128_S50000x128_0_1),
    TRef.binary (.of main_v144 : TRef sig ⟨S50000x128, .f32⟩) main_call5.v4 main_call5.v5 subf,
    TRef.binary main_call5.v5 main_call5.v5 main_call5.v6 mulf,
    TRef.unary (.of main_c_25 : TRef sig ⟨S_, .i32⟩) main_call5.v7 (sitofp .f32),
    TRef.nullary main_call5.cst_1 (constant S_ .f32 0x47435000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S50000x128_S128_d0 h_S_),
    TRef.unary main_call5.v8 main_call5.v10 (broadcastInDim S128 ![] bcast_S_S128),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S128 ![] bcast_S_S128),
    TRef.ternary main_call5.v12 main_call5.v11 main_call5.call0.v1 main_call5.call0.v2 (fun p a b => select (broadcastInDim S128 ![] bcast_S_S128 p) a b),
    unary main_v147 main_v149 (broadcastInDim S1x128 ![1] bcast_S128_S1x128_1 : (⟨S128, .f32⟩ : BufTy).Contents (Elt F) → (⟨S1x128, .f32⟩ : BufTy).Contents (Elt F)),
    unary main_v149 main_v150 (broadcastInDim S50000x128 ![0, 1] bcast_S1x128_S50000x128_0_1 : (⟨S1x128, .f32⟩ : BufTy).Contents (Elt F) → (⟨S50000x128, .f32⟩ : BufTy).Contents (Elt F)),
    binary main_v144 main_v150 main_v151 (subf : (⟨S50000x128, .f32⟩ : BufTy).Contents (Elt F) → (⟨S50000x128, .f32⟩ : BufTy).Contents (Elt F) → (⟨S50000x128, .f32⟩ : BufTy).Contents (Elt F)),
    nullary main_cst_26 (constant S_ .f32 0x3727C5AC#32),
    unary main_cst_26 main_v152 (broadcastInDim S128 ![] bcast_S_S128 : (⟨S_, .f32⟩ : BufTy).Contents (Elt F) → (⟨S128, .f32⟩ : BufTy).Contents (Elt F)),
    binary main_v148 main_v152 main_v153 (addf : (⟨S128, .f32⟩ : BufTy).Contents (Elt F) → (⟨S128, .f32⟩ : BufTy).Contents (Elt F) → (⟨S128, .f32⟩ : BufTy).Contents (Elt F)),
    unary main_v153 main_v154 (Host.rsqrt : (⟨S128, .f32⟩ : BufTy).Contents (Elt F) → (⟨S128, .f32⟩ : BufTy).Contents (Elt F)),
    unary main_v154 main_v155 (broadcastInDim S1x128 ![1] bcast_S128_S1x128_1 : (⟨S128, .f32⟩ : BufTy).Contents (Elt F) → (⟨S1x128, .f32⟩ : BufTy).Contents (Elt F)),
    unary main_v155 main_v156 (broadcastInDim S50000x128 ![0, 1] bcast_S1x128_S50000x128_0_1 : (⟨S1x128, .f32⟩ : BufTy).Contents (Elt F) → (⟨S50000x128, .f32⟩ : BufTy).Contents (Elt F)),
    binary main_v151 main_v156 main_v157 (mulf : (⟨S50000x128, .f32⟩ : BufTy).Contents (Elt F) → (⟨S50000x128, .f32⟩ : BufTy).Contents (Elt F) → (⟨S50000x128, .f32⟩ : BufTy).Contents (Elt F)),
    unary main_arg7 main_v158 ((extractStridedSlice S1x128 ![2, 0] · slices_S4x128_S1x128_2_0) : (⟨S4x128, .f32⟩ : BufTy).Contents (Elt F) → (⟨S1x128, .f32⟩ : BufTy).Contents (Elt F)),
    reshape main_v158 main_v159 rfl shapeCasts_S1x128_S128,
    unary main_v159 main_v160 (broadcastInDim S1x128 ![1] bcast_S128_S1x128_1 : (⟨S128, .f32⟩ : BufTy).Contents (Elt F) → (⟨S1x128, .f32⟩ : BufTy).Contents (Elt F)),
    unary main_v160 main_v161 (broadcastInDim S50000x128 ![0, 1] bcast_S1x128_S50000x128_0_1 : (⟨S1x128, .f32⟩ : BufTy).Contents (Elt F) → (⟨S50000x128, .f32⟩ : BufTy).Contents (Elt F)),
    binary main_v157 main_v161 main_v162 (mulf : (⟨S50000x128, .f32⟩ : BufTy).Contents (Elt F) → (⟨S50000x128, .f32⟩ : BufTy).Contents (Elt F) → (⟨S50000x128, .f32⟩ : BufTy).Contents (Elt F)),
    unary main_arg8 main_v163 ((extractStridedSlice S1x128 ![2, 0] · slices_S4x128_S1x128_2_0) : (⟨S4x128, .f32⟩ : BufTy).Contents (Elt F) → (⟨S1x128, .f32⟩ : BufTy).Contents (Elt F)),
    reshape main_v163 main_v164 rfl shapeCasts_S1x128_S128,
    unary main_v164 main_v165 (broadcastInDim S1x128 ![1] bcast_S128_S1x128_1 : (⟨S128, .f32⟩ : BufTy).Contents (Elt F) → (⟨S1x128, .f32⟩ : BufTy).Contents (Elt F)),
    unary main_v165 main_v166 (broadcastInDim S50000x128 ![0, 1] bcast_S1x128_S50000x128_0_1 : (⟨S1x128, .f32⟩ : BufTy).Contents (Elt F) → (⟨S50000x128, .f32⟩ : BufTy).Contents (Elt F)),
    binary main_v162 main_v166 main_v167 (addf : (⟨S50000x128, .f32⟩ : BufTy).Contents (Elt F) → (⟨S50000x128, .f32⟩ : BufTy).Contents (Elt F) → (⟨S50000x128, .f32⟩ : BufTy).Contents (Elt F)),
    TRef.nullary main_call6.cst (constant S_ .f32 0x00000000#32),
    TRef.unary main_call6.cst main_call6.v0 (broadcastInDim S50000x128 ![] bcast_S_S50000x128),
    TRef.binary (.of main_v167 : TRef sig ⟨S50000x128, .f32⟩) main_call6.v0 main_call6.v1 maximumf ]

abbrev opsL4 : List (HloOp τ sig (Elt F)) :=
  [ unary main_arg5 main_v169 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v169 main_v170 rfl shapeCasts_S1x128x128_S128x128,
    binary main_v168 main_v170 main_v171 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v29 main_v172 (broadcastInDim S650000x1 ![0] bcast_S650000_S650000x1_0 : (⟨S650000, .f32⟩ : BufTy).Contents (Elt F) → (⟨S650000x1, .f32⟩ : BufTy).Contents (Elt F)),
    nullary main_c_27 (constantI S_ 32 0#32),
    unary main_c_27 main_v173 (broadcastInDim S650000 ![] bcast_S_S650000 : (⟨S_, .i32⟩ : BufTy).Contents (Elt F) → (⟨S650000, .i32⟩ : BufTy).Contents (Elt F)),
    binary main_v3 main_v173 main_v174 (cmpi .slt : (⟨S650000, .i32⟩ : BufTy).Contents (Elt F) → (⟨S650000, .i32⟩ : BufTy).Contents (Elt F) → (⟨S650000, .i1⟩ : BufTy).Contents (Elt F)),
    nullary main_c_28 (constantI S_ 32 50000#32),
    unary main_c_28 main_v175 (broadcastInDim S650000 ![] bcast_S_S650000 : (⟨S_, .i32⟩ : BufTy).Contents (Elt F) → (⟨S650000, .i32⟩ : BufTy).Contents (Elt F)),
    binary main_v3 main_v175 main_v176 (addi : (⟨S650000, .i32⟩ : BufTy).Contents (Elt F) → (⟨S650000, .i32⟩ : BufTy).Contents (Elt F) → (⟨S650000, .i32⟩ : BufTy).Contents (Elt F)),
    ternary main_v174 main_v176 main_v3 main_v177 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v177 main_v178 (broadcastInDim S650000x1 ![0] bcast_S650000_S650000x1_0 : (⟨S650000, .i32⟩ : BufTy).Contents (Elt F) → (⟨S650000x1, .i32⟩ : BufTy).Contents (Elt F)),
    binary main_v171 main_v178 main_v179 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v172 main_v180 (broadcastInDim S650000x128 ![0, 1] bcast_S650000x1_S650000x128_0_1 : (⟨S650000x1, .f32⟩ : BufTy).Contents (Elt F) → (⟨S650000x128, .f32⟩ : BufTy).Contents (Elt F)),
    binary main_v180 main_v179 main_v181 (mulf : (⟨S650000x128, .f32⟩ : BufTy).Contents (Elt F) → (⟨S650000x128, .f32⟩ : BufTy).Contents (Elt F) → (⟨S650000x128, .f32⟩ : BufTy).Contents (Elt F)),
    nullary main_cst_29 (constant S_ .f32 0x00000000#32),
    unary main_cst_29 main_v182 (broadcastInDim S50000x128 ![] bcast_S_S50000x128 : (⟨S_, .f32⟩ : BufTy).Contents (Elt F) → (⟨S50000x128, .f32⟩ : BufTy).Contents (Elt F)),
    unary main_v6 main_v183 (broadcastInDim S650000x1 ![0] bcast_S650000_S650000x1_0 : (⟨S650000, .i32⟩ : BufTy).Contents (Elt F) → (⟨S650000x1, .i32⟩ : BufTy).Contents (Elt F)),
    ternary main_v182 main_v183 main_v181 main_v184 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg6 main_v185 ((extractStridedSlice S1x128 ![3, 0] · slices_S4x128_S1x128_3_0) : (⟨S4x128, .f32⟩ : BufTy).Contents (Elt F) → (⟨S1x128, .f32⟩ : BufTy).Contents (Elt F)),
    reshape main_v185 main_v186 rfl shapeCasts_S1x128_S128,
    unary main_v186 main_v187 (broadcastInDim S1x128 ![1] bcast_S128_S1x128_1 : (⟨S128, .f32⟩ : BufTy).Contents (Elt F) → (⟨S1x128, .f32⟩ : BufTy).Contents (Elt F)),
    unary main_v187 main_v188 (broadcastInDim S50000x128 ![0, 1] bcast_S1x128_S50000x128_0_1 : (⟨S1x128, .f32⟩ : BufTy).Contents (Elt F) → (⟨S50000x128, .f32⟩ : BufTy).Contents (Elt F)),
    binary main_v184 main_v188 main_v189 (addf : (⟨S50000x128, .f32⟩ : BufTy).Contents (Elt F) → (⟨S50000x128, .f32⟩ : BufTy).Contents (Elt F) → (⟨S50000x128, .f32⟩ : BufTy).Contents (Elt F)),
    nullary main_cst_30 (constant S_ .f32 0x00000000#32),
    binary main_v189 main_cst_30 main_v190 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_31 (constant S_ .f32 0x47435000#32),
    unary main_cst_31 main_v191 (broadcastInDim S128 ![] bcast_S_S128 : (⟨S_, .f32⟩ : BufTy).Contents (Elt F) → (⟨S128, .f32⟩ : BufTy).Contents (Elt F)),
    binary main_v190 main_v191 main_v192 (Host.divf : (⟨S128, .f32⟩ : BufTy).Contents (Elt F) → (⟨S128, .f32⟩ : BufTy).Contents (Elt F) → (⟨S128, .f32⟩ : BufTy).Contents (Elt F)),
    nullary main_c_32 (constantI S_ 32 0#32),
    TRef.nullary main_call7.cst (constant S_ .f32 0x00000000#32),
    TRef.binary (.of main_v189 : TRef sig ⟨S50000x128, .f32⟩) main_call7.cst main_call7.v0 (fun x v => Host.reduceAdd x v reducesTo_S50000x128_S128_d0 h_S_),
    TRef.unary main_call7.v0 main_call7.v1 (broadcastInDim S1x128 ![1] bcast_S128_S1x128_1),
    TRef.nullary main_call7.cst_0 (constant S_ .f32 0x47435000#32),
    TRef.unary main_call7.cst_0 main_call7.v2 (broadcastInDim S1x128 ![] bcast_S_S1x128),
    TRef.binary main_call7.v1 main_call7.v2 main_call7.v3 Host.divf,
    TRef.unary main_call7.v3 main_call7.v4 (broadcastInDim S50000x128 ![0, 1] bcast_S1x128_S50000x128_0_1),
    TRef.binary (.of main_v189 : TRef sig ⟨S50000x128, .f32⟩) main_call7.v4 main_call7.v5 subf,
    TRef.binary main_call7.v5 main_call7.v5 main_call7.v6 mulf,
    TRef.unary (.of main_c_32 : TRef sig ⟨S_, .i32⟩) main_call7.v7 (sitofp .f32),
    TRef.nullary main_call7.cst_1 (constant S_ .f32 0x47435000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S50000x128_S128_d0 h_S_),
    TRef.unary main_call7.v8 main_call7.v10 (broadcastInDim S128 ![] bcast_S_S128),
    TRef.binary main_call7.v9 main_call7.v10 main_call7.v11 Host.divf,
    TRef.nullary main_call7.cst_3 (constant S_ .f32 0x00000000#32),
    TRef.binary main_call7.v8 main_call7.cst_3 main_call7.v12 (cmpf .ogt),
    TRef.nullary main_call7.cst_4 (constant S_ .f32 0x7FC00000#32),
    TRef.unary main_call7.cst_4 main_call7.call0.v0 id,
    TRef.unary main_call7.call0.v0 main_call7.call0.v1 (broadcastInDim S128 ![] bcast_S_S128),
    TRef.ternary main_call7.v12 main_call7.v11 main_call7.call0.v1 main_call7.call0.v2 (fun p a b => select (broadcastInDim S128 ![] bcast_S_S128 p) a b),
    unary main_v192 main_v194 (broadcastInDim S1x128 ![1] bcast_S128_S1x128_1 : (⟨S128, .f32⟩ : BufTy).Contents (Elt F) → (⟨S1x128, .f32⟩ : BufTy).Contents (Elt F)),
    unary main_v194 main_v195 (broadcastInDim S50000x128 ![0, 1] bcast_S1x128_S50000x128_0_1 : (⟨S1x128, .f32⟩ : BufTy).Contents (Elt F) → (⟨S50000x128, .f32⟩ : BufTy).Contents (Elt F)),
    binary main_v189 main_v195 main_v196 (subf : (⟨S50000x128, .f32⟩ : BufTy).Contents (Elt F) → (⟨S50000x128, .f32⟩ : BufTy).Contents (Elt F) → (⟨S50000x128, .f32⟩ : BufTy).Contents (Elt F)),
    nullary main_cst_33 (constant S_ .f32 0x3727C5AC#32),
    unary main_cst_33 main_v197 (broadcastInDim S128 ![] bcast_S_S128 : (⟨S_, .f32⟩ : BufTy).Contents (Elt F) → (⟨S128, .f32⟩ : BufTy).Contents (Elt F)),
    binary main_v193 main_v197 main_v198 (addf : (⟨S128, .f32⟩ : BufTy).Contents (Elt F) → (⟨S128, .f32⟩ : BufTy).Contents (Elt F) → (⟨S128, .f32⟩ : BufTy).Contents (Elt F)),
    unary main_v198 main_v199 (Host.rsqrt : (⟨S128, .f32⟩ : BufTy).Contents (Elt F) → (⟨S128, .f32⟩ : BufTy).Contents (Elt F)),
    unary main_v199 main_v200 (broadcastInDim S1x128 ![1] bcast_S128_S1x128_1 : (⟨S128, .f32⟩ : BufTy).Contents (Elt F) → (⟨S1x128, .f32⟩ : BufTy).Contents (Elt F)),
    unary main_v200 main_v201 (broadcastInDim S50000x128 ![0, 1] bcast_S1x128_S50000x128_0_1 : (⟨S1x128, .f32⟩ : BufTy).Contents (Elt F) → (⟨S50000x128, .f32⟩ : BufTy).Contents (Elt F)),
    binary main_v196 main_v201 main_v202 (mulf : (⟨S50000x128, .f32⟩ : BufTy).Contents (Elt F) → (⟨S50000x128, .f32⟩ : BufTy).Contents (Elt F) → (⟨S50000x128, .f32⟩ : BufTy).Contents (Elt F)),
    unary main_arg7 main_v203 ((extractStridedSlice S1x128 ![3, 0] · slices_S4x128_S1x128_3_0) : (⟨S4x128, .f32⟩ : BufTy).Contents (Elt F) → (⟨S1x128, .f32⟩ : BufTy).Contents (Elt F)),
    reshape main_v203 main_v204 rfl shapeCasts_S1x128_S128,
    unary main_v204 main_v205 (broadcastInDim S1x128 ![1] bcast_S128_S1x128_1 : (⟨S128, .f32⟩ : BufTy).Contents (Elt F) → (⟨S1x128, .f32⟩ : BufTy).Contents (Elt F)),
    unary main_v205 main_v206 (broadcastInDim S50000x128 ![0, 1] bcast_S1x128_S50000x128_0_1 : (⟨S1x128, .f32⟩ : BufTy).Contents (Elt F) → (⟨S50000x128, .f32⟩ : BufTy).Contents (Elt F)),
    binary main_v202 main_v206 main_v207 (mulf : (⟨S50000x128, .f32⟩ : BufTy).Contents (Elt F) → (⟨S50000x128, .f32⟩ : BufTy).Contents (Elt F) → (⟨S50000x128, .f32⟩ : BufTy).Contents (Elt F)),
    unary main_arg8 main_v208 ((extractStridedSlice S1x128 ![3, 0] · slices_S4x128_S1x128_3_0) : (⟨S4x128, .f32⟩ : BufTy).Contents (Elt F) → (⟨S1x128, .f32⟩ : BufTy).Contents (Elt F)),
    reshape main_v208 main_v209 rfl shapeCasts_S1x128_S128,
    unary main_v209 main_v210 (broadcastInDim S1x128 ![1] bcast_S128_S1x128_1 : (⟨S128, .f32⟩ : BufTy).Contents (Elt F) → (⟨S1x128, .f32⟩ : BufTy).Contents (Elt F)),
    unary main_v210 main_v211 (broadcastInDim S50000x128 ![0, 1] bcast_S1x128_S50000x128_0_1 : (⟨S1x128, .f32⟩ : BufTy).Contents (Elt F) → (⟨S50000x128, .f32⟩ : BufTy).Contents (Elt F)),
    binary main_v207 main_v211 main_v212 (addf : (⟨S50000x128, .f32⟩ : BufTy).Contents (Elt F) → (⟨S50000x128, .f32⟩ : BufTy).Contents (Elt F) → (⟨S50000x128, .f32⟩ : BufTy).Contents (Elt F)),
    TRef.nullary main_call8.cst (constant S_ .f32 0x00000000#32),
    TRef.unary main_call8.cst main_call8.v0 (broadcastInDim S50000x128 ![] bcast_S_S50000x128),
    TRef.binary (.of main_v212 : TRef sig ⟨S50000x128, .f32⟩) main_call8.v0 main_call8.v1 maximumf ]

abbrev opsPost : List (HloOp τ sig (Elt F)) :=
  [ nullary main_cst_34 (constant S_ .f32 0x00000000#32),
    unary main_cst_34 main_v214 (broadcastInDim S256x128 ![] bcast_S_S256x128 : (⟨S_, .f32⟩ : BufTy).Contents (Elt F) → (⟨S256x128, .f32⟩ : BufTy).Contents (Elt F)),
    unary main_arg2 main_v215 (broadcastInDim S50000x1 ![0] bcast_S50000_S50000x1_0 : (⟨S50000, .i32⟩ : BufTy).Contents (Elt F) → (⟨S50000x1, .i32⟩ : BufTy).Contents (Elt F)),
    ternary main_v214 main_v215 main_v213 main_v216 ((fun x i u => Host.scatterAdd scatter_S256x128_S50000x1_S50000x128_1_0_0_1 x i u) : (⟨S256x128, .f32⟩ : BufTy).Contents (Elt F) → (⟨S50000x1, .i32⟩ : BufTy).Contents (Elt F) → (⟨S50000x128, .f32⟩ : BufTy).Contents (Elt F) → (⟨S256x128, .f32⟩ : BufTy).Contents (Elt F)),
    nullary main_cst_35 (constant S_ .f32 0x3F800000#32),
    unary main_cst_35 main_v217 (broadcastInDim S50000 ![] bcast_S_S50000 : (⟨S_, .f32⟩ : BufTy).Contents (Elt F) → (⟨S50000, .f32⟩ : BufTy).Contents (Elt F)),
    nullary main_cst_36 (constant S_ .f32 0x00000000#32),
    unary main_cst_36 main_v218 (broadcastInDim S256 ![] bcast_S_S256 : (⟨S_, .f32⟩ : BufTy).Contents (Elt F) → (⟨S256, .f32⟩ : BufTy).Contents (Elt F)),
    unary main_arg2 main_v219 (broadcastInDim S50000x1 ![0] bcast_S50000_S50000x1_0 : (⟨S50000, .i32⟩ : BufTy).Contents (Elt F) → (⟨S50000x1, .i32⟩ : BufTy).Contents (Elt F)),
    ternary main_v218 main_v219 main_v217 main_v220 ((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)),
    nullary main_cst_37 (constant S_ .f32 0x3F800000#32),
    unary main_cst_37 main_v221 (broadcastInDim S256 ![] bcast_S_S256 : (⟨S_, .f32⟩ : BufTy).Contents (Elt F) → (⟨S256, .f32⟩ : BufTy).Contents (Elt F)),
    binary main_v220 main_v221 main_v222 (maximumf : (⟨S256, .f32⟩ : BufTy).Contents (Elt F) → (⟨S256, .f32⟩ : BufTy).Contents (Elt F) → (⟨S256, .f32⟩ : BufTy).Contents (Elt F)),
    unary main_v222 main_v223 (broadcastInDim S256x1 ![0] bcast_S256_S256x1_0 : (⟨S256, .f32⟩ : BufTy).Contents (Elt F) → (⟨S256x1, .f32⟩ : BufTy).Contents (Elt F)),
    unary main_v223 main_v224 (broadcastInDim S256x128 ![0, 1] bcast_S256x1_S256x128_0_1 : (⟨S256x1, .f32⟩ : BufTy).Contents (Elt F) → (⟨S256x128, .f32⟩ : BufTy).Contents (Elt F)),
    binary main_v216 main_v224 main_v225 (Host.divf : (⟨S256x128, .f32⟩ : BufTy).Contents (Elt F) → (⟨S256x128, .f32⟩ : BufTy).Contents (Elt F) → (⟨S256x128, .f32⟩ : BufTy).Contents (Elt F)),
    binary main_v225 main_arg9 main_v226 ((fun l r => Host.dotGeneral dot_S256x128_S128x10_S256x10_1_0_0_1_n_n none l r) : (⟨S256x128, .f32⟩ : BufTy).Contents (Elt F) → (⟨S128x10, .f32⟩ : BufTy).Contents (Elt F) → (⟨S256x10, .f32⟩ : BufTy).Contents (Elt F)),
    unary main_arg10 main_v227 (broadcastInDim S1x10 ![1] bcast_S10_S1x10_1 : (⟨S10, .f32⟩ : BufTy).Contents (Elt F) → (⟨S1x10, .f32⟩ : BufTy).Contents (Elt F)),
    unary main_v227 main_v228 (broadcastInDim S256x10 ![0, 1] bcast_S1x10_S256x10_0_1 : (⟨S1x10, .f32⟩ : BufTy).Contents (Elt F) → (⟨S256x10, .f32⟩ : BufTy).Contents (Elt F)),
    binary main_v226 main_v228 main_v229 (addf : (⟨S256x10, .f32⟩ : BufTy).Contents (Elt F) → (⟨S256x10, .f32⟩ : BufTy).Contents (Elt F) → (⟨S256x10, .f32⟩ : BufTy).Contents (Elt F)) ]

abbrev ops : List (HloOp τ sig (Elt F)) := opsPre ++ (opsL1 ++ (opsL2 ++ (opsL3 ++ (opsL4 ++ (opsPost)))))

/-- @main, its callees' bodies unfolded at their calls, is the straight line of the list: the two sides reduce to one chain of steps. -/
theorem main_eq (c : Dev nD) : main (F := F) c = seq ops := by chain_rfl

theorem after_concat (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

theorem after_ops (V : Valuation τ sig (Elt F)) :
    after ops V = after opsPost (after opsL4 (after opsL3 (after opsL2 (after opsL1 (after opsPre V))))) := by
  simp only [after_concat]

theorem scopedRefs_eq : (Finset.univ.filter fun b : Ref sig .tc => b.isScoped) = ∅ := by decide
theorem scopedSems_eq : (Finset.univ.filter fun sm : SemLoc sig => sm.isScoped .tc) = ∅ := by decide

theorem opsPre_sub : (opsPre : List (HloOp τ sig (Elt F))).Forall fun op => op.bufs ⊆ tcRefs τ sig := by
  simp only [List.Forall, nullary_bufs_sub, unary_bufs_sub, binary_bufs_sub, ternary_bufs_sub, reshape_bufs_sub, and_self]
theorem opsPre_fresh : (opsPre : List (HloOp τ sig (Elt F))).Forall fun op => op.fresh = ∅ := by
  simp only [List.Forall]; repeat' constructor
theorem opsL1_sub : (opsL1 : List (HloOp τ sig (Elt F))).Forall fun op => op.bufs ⊆ tcRefs τ sig := by
  simp only [List.Forall, nullary_bufs_sub, unary_bufs_sub, binary_bufs_sub, ternary_bufs_sub, reshape_bufs_sub, and_self]
theorem opsL1_fresh : (opsL1 : List (HloOp τ sig (Elt F))).Forall fun op => op.fresh = ∅ := by
  simp only [List.Forall]; repeat' constructor
theorem opsL2_sub : (opsL2 : List (HloOp τ sig (Elt F))).Forall fun op => op.bufs ⊆ tcRefs τ sig := by
  simp only [List.Forall, nullary_bufs_sub, unary_bufs_sub, binary_bufs_sub, ternary_bufs_sub, reshape_bufs_sub, and_self]
theorem opsL2_fresh : (opsL2 : List (HloOp τ sig (Elt F))).Forall fun op => op.fresh = ∅ := by
  simp only [List.Forall]; repeat' constructor
theorem opsL3_sub : (opsL3 : List (HloOp τ sig (Elt F))).Forall fun op => op.bufs ⊆ tcRefs τ sig := by
  simp only [List.Forall, nullary_bufs_sub, unary_bufs_sub, binary_bufs_sub, ternary_bufs_sub, reshape_bufs_sub, and_self]
theorem opsL3_fresh : (opsL3 : List (HloOp τ sig (Elt F))).Forall fun op => op.fresh = ∅ := by
  simp only [List.Forall]; repeat' constructor
theorem opsL4_sub : (opsL4 : List (HloOp τ sig (Elt F))).Forall fun op => op.bufs ⊆ tcRefs τ sig := by
  simp only [List.Forall, nullary_bufs_sub, unary_bufs_sub, binary_bufs_sub, ternary_bufs_sub, reshape_bufs_sub, and_self]
theorem opsL4_fresh : (opsL4 : List (HloOp τ sig (Elt F))).Forall fun op => op.fresh = ∅ := by
  simp only [List.Forall]; repeat' constructor
theorem opsPost_sub : (opsPost : List (HloOp τ sig (Elt F))).Forall fun op => op.bufs ⊆ tcRefs τ sig := by
  simp only [List.Forall, nullary_bufs_sub, unary_bufs_sub, binary_bufs_sub, ternary_bufs_sub, reshape_bufs_sub, and_self]
theorem opsPost_fresh : (opsPost : List (HloOp τ sig (Elt F))).Forall fun op => op.fresh = ∅ := by
  simp only [List.Forall]; repeat' constructor

theorem ops_sub : (ops : List (HloOp τ sig (Elt F))).Forall fun op => op.bufs ⊆ tcRefs τ sig :=
  List.forall_append.2 ⟨opsPre_sub, List.forall_append.2 ⟨opsL1_sub, List.forall_append.2 ⟨opsL2_sub, List.forall_append.2 ⟨opsL3_sub, List.forall_append.2 ⟨opsL4_sub, opsPost_sub⟩⟩⟩⟩⟩
theorem ops_fresh : (ops : List (HloOp τ sig (Elt F))).Forall fun op => op.fresh = ∅ :=
  List.forall_append.2 ⟨opsPre_fresh, List.forall_append.2 ⟨opsL1_fresh, List.forall_append.2 ⟨opsL2_fresh, List.forall_append.2 ⟨opsL3_fresh, List.forall_append.2 ⟨opsL4_fresh, opsPost_fresh⟩⟩⟩⟩⟩

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.1 ops_fresh)

/-- The operation writes the reference, and nothing else. -/
abbrev Wr (op : HloOp τ sig (Elt F)) (y : Ref sig .tc) : Prop := op.writes = {Proc.devRef (τ := τ) .tc y}

/-- Each operation rewrites its own result only, so a reference that is no operation's result keeps its contents along the line. -/
theorem after_keep {l : List (HloOp τ sig (Elt F))} {W : List (Ref sig .tc)} (h : List.Forall₂ Wr l W)
    (V : Valuation τ sig (Elt F)) {b : Ref sig .tc} (hb : b ∉ W) : after l V (Proc.devRef .tc b) = V (Proc.devRef .tc b) := by
  induction h generalizing V with
  | nil => rfl
  | cons e _ ih =>
    rw [after_cons, ih _ fun h => hb (List.mem_cons_of_mem _ h)]
    exact HloOp.result_of_not_mem _ V (by
      rw [show _ = _ from e, Finset.mem_singleton]; exact devRef_ne_of_ne fun e' => hb (by rw [e']; exact List.mem_cons_self))

abbrev opsPre_W : List (Ref sig .tc) := [main_v0, main_v1, main_v2, main_v3, main_v4, main_v5, main_v6, main_cst, main_v7, main_cst_0, main_v8, main_v9, main_v10, main_cst_1, main_v11, main_v12, main_v13, main_cst_2, main_call0.v0.ref, main_call0.v1.ref, main_call0.v2.ref, main_c, main_v15, main_v16, main_c_3, main_v17, main_v18, main_v19, main_v20, main_v21, main_c_4, main_v22, main_v23, main_c_5, main_v24, main_v25, main_v26, main_v27, main_v28, main_v29, main_v30, main_v31, main_v32, main_v33]
theorem opsPre_wr : List.Forall₂ Wr (opsPre : List (HloOp τ sig (Elt F))) opsPre_W := by repeat' constructor
abbrev opsL1_W : List (Ref sig .tc) := [main_v34, main_v35, main_v36, main_v37, main_c_6, main_v38, main_v39, main_c_7, main_v40, main_v41, main_v42, main_v43, main_v44, main_v45, main_v46, main_cst_8, main_v47, main_v48, main_v49, main_v50, main_v51, main_v52, main_v53, main_v54, main_cst_9, main_v55, main_cst_10, main_v56, main_v57, main_c_11, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref, main_call1.v12.ref, main_call1.cst_4.ref, main_call1.call0.v0.ref, main_call1.call0.v1.ref, main_call1.call0.v2.ref, main_v59, main_v60, main_v61, main_cst_12, main_v62, main_v63, main_v64, main_v65, main_v66, main_v67, main_v68, main_v69, main_v70, main_v71, main_v72, main_v73, main_v74, main_v75, main_v76, main_v77, main_call2.cst.ref, main_call2.v0.ref, main_call2.v1.ref]
theorem opsL1_wr : List.Forall₂ Wr (opsL1 : List (HloOp τ sig (Elt F))) opsL1_W := by repeat' constructor
abbrev opsL2_W : List (Ref sig .tc) := [main_v79, main_v80, main_v81, main_v82, main_c_13, main_v83, main_v84, main_c_14, main_v85, main_v86, main_v87, main_v88, main_v89, main_v90, main_v91, main_cst_15, main_v92, main_v93, main_v94, main_v95, main_v96, main_v97, main_v98, main_v99, main_cst_16, main_v100, main_cst_17, main_v101, main_v102, main_c_18, main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.cst_3.ref, main_call3.v12.ref, main_call3.cst_4.ref, main_call3.call0.v0.ref, main_call3.call0.v1.ref, main_call3.call0.v2.ref, main_v104, main_v105, main_v106, main_cst_19, main_v107, main_v108, main_v109, main_v110, main_v111, main_v112, main_v113, main_v114, main_v115, main_v116, main_v117, main_v118, main_v119, main_v120, main_v121, main_v122, main_call4.cst.ref, main_call4.v0.ref, main_call4.v1.ref]
theorem opsL2_wr : List.Forall₂ Wr (opsL2 : List (HloOp τ sig (Elt F))) opsL2_W := by repeat' constructor
abbrev opsL3_W : List (Ref sig .tc) := [main_v124, main_v125, main_v126, main_v127, main_c_20, main_v128, main_v129, main_c_21, main_v130, main_v131, main_v132, main_v133, main_v134, main_v135, main_v136, main_cst_22, main_v137, main_v138, main_v139, main_v140, main_v141, main_v142, main_v143, main_v144, main_cst_23, main_v145, main_cst_24, main_v146, main_v147, main_c_25, main_call5.cst.ref, main_call5.v0.ref, main_call5.v1.ref, main_call5.cst_0.ref, main_call5.v2.ref, main_call5.v3.ref, main_call5.v4.ref, main_call5.v5.ref, main_call5.v6.ref, main_call5.v7.ref, main_call5.cst_1.ref, main_call5.v8.ref, main_call5.cst_2.ref, main_call5.v9.ref, main_call5.v10.ref, main_call5.v11.ref, main_call5.cst_3.ref, main_call5.v12.ref, main_call5.cst_4.ref, main_call5.call0.v0.ref, main_call5.call0.v1.ref, main_call5.call0.v2.ref, main_v149, main_v150, main_v151, main_cst_26, main_v152, main_v153, main_v154, main_v155, main_v156, main_v157, main_v158, main_v159, main_v160, main_v161, main_v162, main_v163, main_v164, main_v165, main_v166, main_v167, main_call6.cst.ref, main_call6.v0.ref, main_call6.v1.ref]
theorem opsL3_wr : List.Forall₂ Wr (opsL3 : List (HloOp τ sig (Elt F))) opsL3_W := by repeat' constructor
abbrev opsL4_W : List (Ref sig .tc) := [main_v169, main_v170, main_v171, main_v172, main_c_27, main_v173, main_v174, main_c_28, main_v175, main_v176, main_v177, main_v178, main_v179, main_v180, main_v181, main_cst_29, main_v182, main_v183, main_v184, main_v185, main_v186, main_v187, main_v188, main_v189, main_cst_30, main_v190, main_cst_31, main_v191, main_v192, main_c_32, main_call7.cst.ref, main_call7.v0.ref, main_call7.v1.ref, main_call7.cst_0.ref, main_call7.v2.ref, main_call7.v3.ref, main_call7.v4.ref, main_call7.v5.ref, main_call7.v6.ref, main_call7.v7.ref, main_call7.cst_1.ref, main_call7.v8.ref, main_call7.cst_2.ref, main_call7.v9.ref, main_call7.v10.ref, main_call7.v11.ref, main_call7.cst_3.ref, main_call7.v12.ref, main_call7.cst_4.ref, main_call7.call0.v0.ref, main_call7.call0.v1.ref, main_call7.call0.v2.ref, main_v194, main_v195, main_v196, main_cst_33, main_v197, main_v198, main_v199, main_v200, main_v201, main_v202, main_v203, main_v204, main_v205, main_v206, main_v207, main_v208, main_v209, main_v210, main_v211, main_v212, main_call8.cst.ref, main_call8.v0.ref, main_call8.v1.ref]
theorem opsL4_wr : List.Forall₂ Wr (opsL4 : List (HloOp τ sig (Elt F))) opsL4_W := by repeat' constructor
abbrev opsPost_W : List (Ref sig .tc) := [main_cst_34, main_v214, main_v215, main_v216, main_cst_35, main_v217, main_cst_36, main_v218, main_v219, main_v220, main_cst_37, main_v221, main_v222, main_v223, main_v224, main_v225, main_v226, main_v227, main_v228, main_v229]
theorem opsPost_wr : List.Forall₂ Wr (opsPost : List (HloOp τ sig (Elt F))) opsPost_W := by repeat' constructor
abbrev ops_W : List (Ref sig .tc) := opsPre_W ++ (opsL1_W ++ (opsL2_W ++ (opsL3_W ++ (opsL4_W ++ opsPost_W))))
theorem ops_wr : List.Forall₂ Wr (ops : List (HloOp τ sig (Elt F))) ops_W :=
  List.rel_append opsPre_wr (List.rel_append opsL1_wr (List.rel_append opsL2_wr (List.rel_append opsL3_wr (List.rel_append opsL4_wr opsPost_wr))))

end Cert.ReferenceIdeal.Hand

end
-- ==== Proof.Val.Spec.lean ====
import proofs.«408439_j66932770341395_1_alg».proof.Proof.Gen.ReferenceIdeal

noncomputable section

namespace Cert.ReferenceIdeal.Spec

open Idealize.ShloMosaic Idealize.ShloMosaic.TcCoe Cert.ReferenceIdeal Cert.ReferenceIdeal.Gen

variable {F : FTy → Type} [FloatOps F]

abbrev Arr (S : Shape) (e : EltTy) : Type := (⟨S, e⟩ : BufTy).Contents (Elt F)

def row1 (v : Arr (F := F) S128 .f32) : Arr (F := F) S1x128 .f32 := broadcastInDim S1x128 ![1] bcast_S128_S1x128_1 v

def rows (v : Arr (F := F) S1x128 .f32) : Arr (F := F) S50000x128 .f32 := broadcastInDim S50000x128 ![0, 1] bcast_S1x128_S50000x128_0_1 v

def nNodes : Arr (F := F) S_ .f32 := constant S_ .f32 0x47435000#32

def zero0 : Arr (F := F) S_ .f32 := constant S_ .f32 0x00000000#32

def colSum (a : Arr (F := F) S50000x128 .f32) : Arr (F := F) S128 .f32 := Host.reduceAdd a zero0 reducesTo_S50000x128_S128_d0 h_S_

def meanR (a : Arr (F := F) S50000x128 .f32) : Arr (F := F) S128 .f32 :=
  Host.divf (colSum a) (broadcastInDim S128 ![] bcast_S_S128 nNodes)

def varR (a : Arr (F := F) S50000x128 .f32) : Arr (F := F) S128 .f32 :=
  let mu : Arr (F := F) S1x128 .f32 := Host.divf (row1 (colSum a)) (broadcastInDim S1x128 ![] bcast_S_S1x128 nNodes)
  let d : Arr (F := F) S50000x128 .f32 := subf a (rows mu)
  let n' : Arr (F := F) S_ .f32 := subf nNodes (sitofp .f32 (constantI S_ 32 0#32))
  select (broadcastInDim S128 ![] bcast_S_S128 (cmpf .ogt n' zero0))
    (Host.divf (Host.reduceAdd (mulf d d) zero0 reducesTo_S50000x128_S128_d0 h_S_) (broadcastInDim S128 ![] bcast_S_S128 n'))
    (broadcastInDim S128 ![] bcast_S_S128 (id (constant S_ .f32 0x7FC00000#32)))

def bnR (a : Arr (F := F) S50000x128 .f32) (mu var g bt : Arr (F := F) S128 .f32) : Arr (F := F) S50000x128 .f32 :=
  maximumf
    (addf (mulf (mulf (subf a (rows (row1 mu)))
        (rows (row1 (Host.rsqrt (addf var (broadcastInDim S128 ![] bcast_S_S128 (constant S_ .f32 0x3727C5AC#32)))))))
      (rows (row1 g))) (rows (row1 bt)))
    (broadcastInDim S50000x128 ![] bcast_S_S50000x128 zero0)

def one0 : Arr (F := F) S_ .f32 := constant S_ .f32 0x3F800000#32

def matW (h : Arr (F := F) S50000x128 .f32) (w : Arr (F := F) S128x128 .f32) : Arr (F := F) S50000x128 .f32 :=
  Host.dotGeneral dot_S50000x128_S128x128_S50000x128_1_0_0_1_n_n none h w

def encR (x : Arr (F := F) S50000x128 .f32) (w : Arr (F := F) S128x128 .f32) (b : Arr (F := F) S128 .f32) : Arr (F := F) S50000x128 .f32 :=
  addf (matW x w) (rows (row1 b))

def wrapIdx (ix : Arr (F := F) S650000 .i32) : Arr (F := F) S650000 .i32 :=
  select (cmpi .slt ix (broadcastInDim S650000 ![] bcast_S_S650000 (constantI S_ 32 0#32)))
    (addi ix (broadcastInDim S650000 ![] bcast_S_S650000 (constantI S_ 32 50000#32))) ix

def aggR (nrm : Arr (F := F) S650000 .f32) (row col : Arr (F := F) S650000 .i32) (t : Arr (F := F) S50000x128 .f32) :
    Arr (F := F) S50000x128 .f32 :=
  Host.scatterAdd scatter_S50000x128_S650000x1_S650000x128_1_0_0_1
    (broadcastInDim S50000x128 ![] bcast_S_S50000x128 zero0)
    (broadcastInDim S650000x1 ![0] bcast_S650000_S650000x1_0 col)
    (mulf (broadcastInDim S650000x128 ![0, 1] bcast_S650000x1_S650000x128_0_1 (broadcastInDim S650000x1 ![0] bcast_S650000_S650000x1_0 nrm))
      (Host.gather gather_S50000x128_S650000x1_S650000x128_1_0_n_n_0_1_1128 t
        (broadcastInDim S650000x1 ![0] bcast_S650000_S650000x1_0 (wrapIdx row))))

def preR (nrm : Arr (F := F) S650000 .f32) (row col : Arr (F := F) S650000 .i32) (w : Arr (F := F) S128x128 .f32)
    (b : Arr (F := F) S128 .f32) (h : Arr (F := F) S50000x128 .f32) : Arr (F := F) S50000x128 .f32 :=
  addf (aggR nrm row col (matW h w)) (rows (row1 b))

def layerR (nrm : Arr (F := F) S650000 .f32) (row col : Arr (F := F) S650000 .i32) (w : Arr (F := F) S128x128 .f32)
    (b g bt : Arr (F := F) S128 .f32) (h : Arr (F := F) S50000x128 .f32) : Arr (F := F) S50000x128 .f32 :=
  bnR (preR nrm row col w b h) (meanR (preR nrm row col w b h)) (varR (preR nrm row col w b h)) g bt

def poolK (h : Arr (F := F) S50000x128 .f32) (bat1 : Arr (F := F) S50000x1 .i32) (wc : Arr (F := F) S128x10 .f32)
    (b1 : Arr (F := F) S1x10 .f32) : Arr (F := F) S256x10 .f32 :=
  addf
    (Host.dotGeneral dot_S256x128_S128x10_S256x10_1_0_0_1_n_n none
      (Host.divf
        (Host.scatterAdd scatter_S256x128_S50000x1_S50000x128_1_0_0_1 (broadcastInDim S256x128 ![] bcast_S_S256x128 zero0) bat1 h)
        (broadcastInDim S256x128 ![0, 1] bcast_S256x1_S256x128_0_1 (broadcastInDim S256x1 ![0] bcast_S256_S256x1_0
          (maximumf
            (Host.scatterAdd scatter_S256_S50000x1_S50000_n_0_0_1 (broadcastInDim S256 ![] bcast_S_S256 zero0)
              bat1 (broadcastInDim S50000 ![] bcast_S_S50000 one0))
            (broadcastInDim S256 ![] bcast_S_S256 one0)))))
      wc)
    (broadcastInDim S256x10 ![0, 1] bcast_S1x10_S256x10_0_1 b1)

def poolR (h : Arr (F := F) S50000x128 .f32) (batch : Arr (F := F) S50000 .i32) (wc : Arr (F := F) S128x10 .f32)
    (bcl : Arr (F := F) S10 .f32) : Arr (F := F) S256x10 .f32 :=
  poolK h (broadcastInDim S50000x1 ![0] bcast_S50000_S50000x1_0 batch) wc (broadcastInDim S1x10 ![1] bcast_S10_S1x10_1 bcl)

def rowR (ei : Arr (F := F) S2x600000 .i32) : Arr (F := F) S650000 .i32 :=
  concatenate S650000 0 [⟨S600000, fun i => shapeCast S600000 (extractStridedSlice S1x600000 ![0, 0] ei slices_S2x600000_S1x600000_0_0) shapeCasts_S1x600000_S600000 i⟩,
    ⟨S50000, iotaInDim S50000 32 0⟩] concatenates_S600000_S50000_S650000_d0

def colR (ei : Arr (F := F) S2x600000 .i32) : Arr (F := F) S650000 .i32 :=
  concatenate S650000 0 [⟨S600000, fun i => shapeCast S600000 (extractStridedSlice S1x600000 ![1, 0] ei slices_S2x600000_S1x600000_1_0) shapeCasts_S1x600000_S600000 i⟩,
    ⟨S50000, iotaInDim S50000 32 0⟩] concatenates_S600000_S50000_S650000_d0

def degR (col : Arr (F := F) S650000 .i32) : Arr (F := F) S50000 .f32 :=
  Host.scatterAdd scatter_S50000_S650000x1_S650000_n_0_0_1 (broadcastInDim S50000 ![] bcast_S_S50000 zero0)
    (broadcastInDim S650000x1 ![0] bcast_S650000_S650000x1_0 col) (broadcastInDim S650000 ![] bcast_S_S650000 one0)

def dinvR (deg : Arr (F := F) S50000 .f32) : Arr (F := F) S50000 .f32 :=
  select (cmpf .ogt deg (broadcastInDim S50000 ![] bcast_S_S50000 zero0)) (Host.rsqrt deg)
    (broadcastInDim S50000 ![] bcast_S_S50000 (id zero0))

def normR (ei : Arr (F := F) S2x600000 .i32) : Arr (F := F) S650000 .f32 :=
  mulf
    (Host.gather gather_S50000_S650000x1_S650000_n_0_n_n_0_1_1 (dinvR (degR (colR ei)))
      (broadcastInDim S650000x1 ![0] bcast_S650000_S650000x1_0 (wrapIdx (rowR ei))))
    (Host.gather gather_S50000_S650000x1_S650000_n_0_n_n_0_1_1 (dinvR (degR (colR ei)))
      (broadcastInDim S650000x1 ![0] bcast_S650000_S650000x1_0 (wrapIdx (colR ei))))

def wSl (w : Arr (F := F) S4x128x128 .f32) (off : Fin 3 → ℕ) (h : S4x128x128.Slices off S1x128x128) : Arr (F := F) S128x128 .f32 :=
  fun i => shapeCast S128x128 (extractStridedSlice S1x128x128 off w h) shapeCasts_S1x128x128_S128x128 i

def vSl (p : Arr (F := F) S4x128 .f32) (off : Fin 2 → ℕ) (h : S4x128.Slices off S1x128) : Arr (F := F) S128 .f32 :=
  fun i => shapeCast S128 (extractStridedSlice S1x128 off p h) shapeCasts_S1x128_S128 i

def refOut (x : Arr (F := F) S50000x128 .f32) (ei : Arr (F := F) S2x600000 .i32) (batch : Arr (F := F) S50000 .i32)
    (wenc : Arr (F := F) S128x128 .f32) (benc : Arr (F := F) S128 .f32) (w : Arr (F := F) S4x128x128 .f32)
    (b g bt : Arr (F := F) S4x128 .f32) (wc : Arr (F := F) S128x10 .f32) (bcl : Arr (F := F) S10 .f32) : Arr (F := F) S256x10 .f32 :=
  let L := layerR (normR ei) (rowR ei) (colR ei)
  let h0 := encR x wenc benc
  let h1 := L (wSl w ![0, 0, 0] slices_S4x128x128_S1x128x128_0_0_0) (vSl b ![0, 0] slices_S4x128_S1x128_0_0) (vSl g ![0, 0] slices_S4x128_S1x128_0_0) (vSl bt ![0, 0] slices_S4x128_S1x128_0_0) h0
  let h2 := L (wSl w ![1, 0, 0] slices_S4x128x128_S1x128x128_1_0_0) (vSl b ![1, 0] slices_S4x128_S1x128_1_0) (vSl g ![1, 0] slices_S4x128_S1x128_1_0) (vSl bt ![1, 0] slices_S4x128_S1x128_1_0) h1
  let h3 := L (wSl w ![2, 0, 0] slices_S4x128x128_S1x128x128_2_0_0) (vSl b ![2, 0] slices_S4x128_S1x128_2_0) (vSl g ![2, 0] slices_S4x128_S1x128_2_0) (vSl bt ![2, 0] slices_S4x128_S1x128_2_0) h2
  let h4 := L (wSl w ![3, 0, 0] slices_S4x128x128_S1x128x128_3_0_0) (vSl b ![3, 0] slices_S4x128_S1x128_3_0) (vSl g ![3, 0] slices_S4x128_S1x128_3_0) (vSl bt ![3, 0] slices_S4x128_S1x128_3_0) h3
  poolR h4 batch wc bcl

end Cert.ReferenceIdeal.Spec

end
-- ==== Proof.Ref.Val.lean ====
import proofs.«408439_j66932770341395_1_alg».proof.Proof.Ref.Run
import proofs.«408439_j66932770341395_1_alg».proof.Proof.Val.Spec

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceAdd Host.gather Host.scatterAdd

set_option maxRecDepth 8192 in
set_option maxHeartbeats 4000000 in

theorem pre_row (V : Valuation τ sig (Elt F)) : after opsPre V (main_v3 : DevRef τ sig) = Spec.rowR (V (main_arg1 : DevRef τ sig)) := by
  after_results_simp <;> rfl

set_option maxRecDepth 8192 in
set_option maxHeartbeats 4000000 in

theorem pre_col (V : Valuation τ sig (Elt F)) : after opsPre V (main_v6 : DevRef τ sig) = Spec.colR (V (main_arg1 : DevRef τ sig)) := by
  after_results_simp <;> rfl

set_option maxRecDepth 8192 in
set_option maxHeartbeats 4000000 in

theorem pre_norm (V : Valuation τ sig (Elt F)) : after opsPre V (main_v29 : DevRef τ sig) = Spec.normR (V (main_arg1 : DevRef τ sig)) := by
  after_results_simp <;> rfl

set_option maxRecDepth 8192 in
set_option maxHeartbeats 4000000 in

theorem pre_enc (V : Valuation τ sig (Elt F)) : after opsPre V (main_v33 : DevRef τ sig) = Spec.encR (V (main_arg0 : DevRef τ sig)) (V (main_arg3 : DevRef τ sig)) (V (main_arg4 : DevRef τ sig)) := by
  after_results_simp <;> rfl

set_option maxRecDepth 8192 in
set_option maxHeartbeats 4000000 in

theorem layer1_out (U : Valuation τ sig (Elt F)) :
    after opsL1 U (main_v78 : DevRef τ sig)
      = Spec.layerR (U (main_v29 : DevRef τ sig)) (U (main_v3 : DevRef τ sig)) (U (main_v6 : DevRef τ sig))
        (Spec.wSl (U (main_arg5 : DevRef τ sig)) ![0, 0, 0] slices_S4x128x128_S1x128x128_0_0_0)
        (Spec.vSl (U (main_arg6 : DevRef τ sig)) ![0, 0] slices_S4x128_S1x128_0_0)
        (Spec.vSl (U (main_arg7 : DevRef τ sig)) ![0, 0] slices_S4x128_S1x128_0_0)
        (Spec.vSl (U (main_arg8 : DevRef τ sig)) ![0, 0] slices_S4x128_S1x128_0_0)
        (U (main_v33 : DevRef τ sig)) := by
  after_results_simp <;> rfl

set_option maxRecDepth 8192 in
set_option maxHeartbeats 4000000 in

theorem layer2_out (U : Valuation τ sig (Elt F)) :
    after opsL2 U (main_v123 : DevRef τ sig)
      = Spec.layerR (U (main_v29 : DevRef τ sig)) (U (main_v3 : DevRef τ sig)) (U (main_v6 : DevRef τ sig))
        (Spec.wSl (U (main_arg5 : DevRef τ sig)) ![1, 0, 0] slices_S4x128x128_S1x128x128_1_0_0)
        (Spec.vSl (U (main_arg6 : DevRef τ sig)) ![1, 0] slices_S4x128_S1x128_1_0)
        (Spec.vSl (U (main_arg7 : DevRef τ sig)) ![1, 0] slices_S4x128_S1x128_1_0)
        (Spec.vSl (U (main_arg8 : DevRef τ sig)) ![1, 0] slices_S4x128_S1x128_1_0)
        (U (main_v78 : DevRef τ sig)) := by
  after_results_simp <;> rfl

set_option maxRecDepth 8192 in
set_option maxHeartbeats 4000000 in

theorem layer3_out (U : Valuation τ sig (Elt F)) :
    after opsL3 U (main_v168 : DevRef τ sig)
      = Spec.layerR (U (main_v29 : DevRef τ sig)) (U (main_v3 : DevRef τ sig)) (U (main_v6 : DevRef τ sig))
        (Spec.wSl (U (main_arg5 : DevRef τ sig)) ![2, 0, 0] slices_S4x128x128_S1x128x128_2_0_0)
        (Spec.vSl (U (main_arg6 : DevRef τ sig)) ![2, 0] slices_S4x128_S1x128_2_0)
        (Spec.vSl (U (main_arg7 : DevRef τ sig)) ![2, 0] slices_S4x128_S1x128_2_0)
        (Spec.vSl (U (main_arg8 : DevRef τ sig)) ![2, 0] slices_S4x128_S1x128_2_0)
        (U (main_v123 : DevRef τ sig)) := by
  after_results_simp <;> rfl

set_option maxRecDepth 8192 in
set_option maxHeartbeats 4000000 in

theorem layer4_out (U : Valuation τ sig (Elt F)) :
    after opsL4 U (main_v213 : DevRef τ sig)
      = Spec.layerR (U (main_v29 : DevRef τ sig)) (U (main_v3 : DevRef τ sig)) (U (main_v6 : DevRef τ sig))
        (Spec.wSl (U (main_arg5 : DevRef τ sig)) ![3, 0, 0] slices_S4x128x128_S1x128x128_3_0_0)
        (Spec.vSl (U (main_arg6 : DevRef τ sig)) ![3, 0] slices_S4x128_S1x128_3_0)
        (Spec.vSl (U (main_arg7 : DevRef τ sig)) ![3, 0] slices_S4x128_S1x128_3_0)
        (Spec.vSl (U (main_arg8 : DevRef τ sig)) ![3, 0] slices_S4x128_S1x128_3_0)
        (U (main_v168 : DevRef τ sig)) := by
  after_results_simp <;> rfl

set_option maxRecDepth 8192 in
set_option maxHeartbeats 4000000 in
theorem post_out (U : Valuation τ sig (Elt F)) :
    after opsPost U (main_v229 : DevRef τ sig)
      = Spec.poolR (U (main_v213 : DevRef τ sig)) (U (main_arg2 : DevRef τ sig)) (U (main_arg9 : DevRef τ sig)) (U (main_arg10 : DevRef τ sig)) := by
  after_results_simp <;> rfl

structure Found (U V : Valuation τ sig (Elt F)) : Prop where
  a2 : U (main_arg2 : DevRef τ sig) = V (main_arg2 : DevRef τ sig)
  a5 : U (main_arg5 : DevRef τ sig) = V (main_arg5 : DevRef τ sig)
  a6 : U (main_arg6 : DevRef τ sig) = V (main_arg6 : DevRef τ sig)
  a7 : U (main_arg7 : DevRef τ sig) = V (main_arg7 : DevRef τ sig)
  a8 : U (main_arg8 : DevRef τ sig) = V (main_arg8 : DevRef τ sig)
  a9 : U (main_arg9 : DevRef τ sig) = V (main_arg9 : DevRef τ sig)
  a10 : U (main_arg10 : DevRef τ sig) = V (main_arg10 : DevRef τ sig)
  row : U (main_v3 : DevRef τ sig) = Spec.rowR (V (main_arg1 : DevRef τ sig))
  col : U (main_v6 : DevRef τ sig) = Spec.colR (V (main_arg1 : DevRef τ sig))
  nrm : U (main_v29 : DevRef τ sig) = Spec.normR (V (main_arg1 : DevRef τ sig))

theorem found_pre (V : Valuation τ sig (Elt F)) : Found (after opsPre V) V :=
  have k {b : Ref sig .tc} (hb : b ∉ opsPre_W) := after_keep opsPre_wr V hb
  ⟨k (by decide), k (by decide), k (by decide), k (by decide), k (by decide), k (by decide), k (by decide), pre_row V, pre_col V, pre_norm V⟩

abbrev kept : List (Ref sig .tc) :=
  [main_arg2, main_arg5, main_arg6, main_arg7, main_arg8, main_arg9, main_arg10, main_v3, main_v6, main_v29]

/-- A line that writes none of the kept references carries what was found before it. -/
theorem found_step {l : List (HloOp τ sig (Elt F))} {W : List (Ref sig .tc)} (hw : List.Forall₂ Wr l W) (hn : ∀ b ∈ kept, b ∉ W)
    {U V : Valuation τ sig (Elt F)} (h : Found U V) : Found (after l U) V :=
  have k {b : Ref sig .tc} (hb : b ∈ kept) := after_keep hw U (hn b hb)
  ⟨(k (by decide)).trans h.a2, (k (by decide)).trans h.a5, (k (by decide)).trans h.a6, (k (by decide)).trans h.a7, (k (by decide)).trans h.a8,
    (k (by decide)).trans h.a9, (k (by decide)).trans h.a10, (k (by decide)).trans h.row, (k (by decide)).trans h.col, (k (by decide)).trans h.nrm⟩

theorem layer1_found {U V : Valuation τ sig (Elt F)} (h : Found U V) {X : Spec.Arr (F := F) S50000x128 .f32}
    (hX : U (main_v33 : DevRef τ sig) = X) :
    after opsL1 U (main_v78 : DevRef τ sig)
      = Spec.layerR (Spec.normR (V (main_arg1 : DevRef τ sig))) (Spec.rowR (V (main_arg1 : DevRef τ sig))) (Spec.colR (V (main_arg1 : DevRef τ sig)))
        (Spec.wSl (V (main_arg5 : DevRef τ sig)) ![0, 0, 0] slices_S4x128x128_S1x128x128_0_0_0)
        (Spec.vSl (V (main_arg6 : DevRef τ sig)) ![0, 0] slices_S4x128_S1x128_0_0)
        (Spec.vSl (V (main_arg7 : DevRef τ sig)) ![0, 0] slices_S4x128_S1x128_0_0)
        (Spec.vSl (V (main_arg8 : DevRef τ sig)) ![0, 0] slices_S4x128_S1x128_0_0) X := by
  rw [layer1_out, h.nrm, h.row, h.col, h.a5, h.a6, h.a7, h.a8, hX]

theorem layer2_found {U V : Valuation τ sig (Elt F)} (h : Found U V) {X : Spec.Arr (F := F) S50000x128 .f32}
    (hX : U (main_v78 : DevRef τ sig) = X) :
    after opsL2 U (main_v123 : DevRef τ sig)
      = Spec.layerR (Spec.normR (V (main_arg1 : DevRef τ sig))) (Spec.rowR (V (main_arg1 : DevRef τ sig))) (Spec.colR (V (main_arg1 : DevRef τ sig)))
        (Spec.wSl (V (main_arg5 : DevRef τ sig)) ![1, 0, 0] slices_S4x128x128_S1x128x128_1_0_0)
        (Spec.vSl (V (main_arg6 : DevRef τ sig)) ![1, 0] slices_S4x128_S1x128_1_0)
        (Spec.vSl (V (main_arg7 : DevRef τ sig)) ![1, 0] slices_S4x128_S1x128_1_0)
        (Spec.vSl (V (main_arg8 : DevRef τ sig)) ![1, 0] slices_S4x128_S1x128_1_0) X := by
  rw [layer2_out, h.nrm, h.row, h.col, h.a5, h.a6, h.a7, h.a8, hX]

theorem layer3_found {U V : Valuation τ sig (Elt F)} (h : Found U V) {X : Spec.Arr (F := F) S50000x128 .f32}
    (hX : U (main_v123 : DevRef τ sig) = X) :
    after opsL3 U (main_v168 : DevRef τ sig)
      = Spec.layerR (Spec.normR (V (main_arg1 : DevRef τ sig))) (Spec.rowR (V (main_arg1 : DevRef τ sig))) (Spec.colR (V (main_arg1 : DevRef τ sig)))
        (Spec.wSl (V (main_arg5 : DevRef τ sig)) ![2, 0, 0] slices_S4x128x128_S1x128x128_2_0_0)
        (Spec.vSl (V (main_arg6 : DevRef τ sig)) ![2, 0] slices_S4x128_S1x128_2_0)
        (Spec.vSl (V (main_arg7 : DevRef τ sig)) ![2, 0] slices_S4x128_S1x128_2_0)
        (Spec.vSl (V (main_arg8 : DevRef τ sig)) ![2, 0] slices_S4x128_S1x128_2_0) X := by
  rw [layer3_out, h.nrm, h.row, h.col, h.a5, h.a6, h.a7, h.a8, hX]

theorem layer4_found {U V : Valuation τ sig (Elt F)} (h : Found U V) {X : Spec.Arr (F := F) S50000x128 .f32}
    (hX : U (main_v168 : DevRef τ sig) = X) :
    after opsL4 U (main_v213 : DevRef τ sig)
      = Spec.layerR (Spec.normR (V (main_arg1 : DevRef τ sig))) (Spec.rowR (V (main_arg1 : DevRef τ sig))) (Spec.colR (V (main_arg1 : DevRef τ sig)))
        (Spec.wSl (V (main_arg5 : DevRef τ sig)) ![3, 0, 0] slices_S4x128x128_S1x128x128_3_0_0)
        (Spec.vSl (V (main_arg6 : DevRef τ sig)) ![3, 0] slices_S4x128_S1x128_3_0)
        (Spec.vSl (V (main_arg7 : DevRef τ sig)) ![3, 0] slices_S4x128_S1x128_3_0)
        (Spec.vSl (V (main_arg8 : DevRef τ sig)) ![3, 0] slices_S4x128_S1x128_3_0) X := by
  rw [layer4_out, h.nrm, h.row, h.col, h.a5, h.a6, h.a7, h.a8, hX]

theorem out_eq (V : Valuation τ sig (Elt F)) :
    after ops V (main_v229 : DevRef τ sig)
      = Spec.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  have f0 := found_pre V
  have f1 := found_step opsL1_wr (by decide) f0
  have f2 := found_step opsL2_wr (by decide) f1
  have f3 := found_step opsL3_wr (by decide) f2
  have f4 := found_step opsL4_wr (by decide) f3
  rw [after_ops, post_out, layer4_found f3 (layer3_found f2 (layer2_found f1 (layer1_found f0 (pre_enc V)))), f4.a2, f4.a9, f4.a10]
  rfl

end Cert.ReferenceIdeal.Hand

end
-- ==== Proof.Ref.Claims.lean ====
import proofs.«408439_j66932770341395_1_alg».proof.Defs
import proofs.«408439_j66932770341395_1_alg».proof.Proof.Gen.Pre_finite_inputs
import proofs.«408439_j66932770341395_1_alg».proof.Proof.Ref.Val

noncomputable section

namespace Cert.ReferenceIdeal.Hand

open Cert.ReferenceIdeal Cert.ReferenceIdeal.Gen Idealize.ShloMosaic Idealize.ShloMosaic.TcCoe Idealize.SL.Sem Idealize.ShloMosaic.StableHlo

theorem ref_value (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v229)
          = Spec.refOut (m' ((c.tc : Thread nD τ).loc main_arg0))
              (m' ((c.tc : Thread nD τ).loc main_arg1))
              (m' ((c.tc : Thread nD τ).loc main_arg2))
              (m' ((c.tc : Thread nD τ).loc main_arg3))
              (m' ((c.tc : Thread nD τ).loc main_arg4))
              (m' ((c.tc : Thread nD τ).loc main_arg5))
              (m' ((c.tc : Thread nD τ).loc main_arg6))
              (m' ((c.tc : Thread nD τ).loc main_arg7))
              (m' ((c.tc : Thread nD τ).loc main_arg8))
              (m' ((c.tc : Thread nD τ).loc main_arg9))
              (m' ((c.tc : Thread nD τ).loc main_arg10))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)) :=
  (θ_run defs _ _).mono
    (fun r h c =>
      have a {b : Ref sig .tc} (hb : b ∉ ops_W) : r.2.mem ((c.tc : Thread nD τ).loc b) = m' ((c.tc : Thread nD τ).loc b) :=
        (h c b).trans (after_keep ops_wr _ hb)
      ⟨(h c main_v229).trans (out_eq _), a (by decide), a (by decide), a (by decide), a (by decide), a (by decide), a (by decide),
        a (by decide), a (by decide), a (by decide), a (by decide), a (by decide)⟩)
    (run_main (F := Ideal) m' ρ')

theorem frame_ri : Cert.frame_ReferenceIdeal := fun m ρ _ =>
  (θ_run Cert.ReferenceIdeal.defs _ _).mono (fun r h c => (h c).2) (ref_value m ρ)

end Cert.ReferenceIdeal.Hand

end
-- ==== Proof.LibMoments.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.BigOperators.Fin
import Mathlib.Analysis.SpecialFunctions.Pow.Real
import Mathlib.Tactic.Ring
import Mathlib.Tactic.FieldSimp

namespace Cert.LibMoments

open scoped BigOperators
open Idealize.ShloMosaic

theorem coe_finset_sum {ι : Type*} (s : Finset ι) (r : ι → ℝ) :
    ((∑ i ∈ s, r i : ℝ) : EReal) = ∑ i ∈ s, ((r i : ℝ) : EReal) := by
  classical
  induction s using Finset.induction_on with
  | empty => simp
  | insert a s ha ih => rw [Finset.sum_insert ha, Finset.sum_insert ha, EReal.coe_add, ih]

theorem coe_sum {ι : Type*} [Fintype ι] (r : ι → ℝ) :
    ((∑ i, r i : ℝ) : EReal) = ∑ i, ((r i : ℝ) : EReal) :=
  coe_finset_sum Finset.univ r

def IsReal (x : EReal) : Prop := ∃ r : ℝ, x = (r : EReal)

theorem isReal_iff {x : EReal} : IsReal x ↔ x ≠ ⊤ ∧ x ≠ ⊥ := by
  constructor
  · rintro ⟨r, rfl⟩; exact ⟨EReal.coe_ne_top r, EReal.coe_ne_bot r⟩
  · rintro ⟨h1, h2⟩; exact ⟨x.toReal, (EReal.coe_toReal h1 h2).symm⟩

namespace IsReal

theorem coe (r : ℝ) : IsReal (r : EReal) := ⟨r, rfl⟩

theorem zero : IsReal 0 := ⟨0, EReal.coe_zero.symm⟩

theorem one : IsReal 1 := ⟨1, EReal.coe_one.symm⟩

variable {x y : EReal}

theorem add (hx : IsReal x) (hy : IsReal y) : IsReal (x + y) := by
  obtain ⟨a, rfl⟩ := hx; obtain ⟨b, rfl⟩ := hy; exact ⟨a + b, (EReal.coe_add a b).symm⟩

theorem sub (hx : IsReal x) (hy : IsReal y) : IsReal (x - y) := by
  obtain ⟨a, rfl⟩ := hx; obtain ⟨b, rfl⟩ := hy; exact ⟨a - b, (EReal.coe_sub a b).symm⟩

theorem mul (hx : IsReal x) (hy : IsReal y) : IsReal (x * y) := by
  obtain ⟨a, rfl⟩ := hx; obtain ⟨b, rfl⟩ := hy; exact ⟨a * b, (EReal.coe_mul a b).symm⟩

theorem neg (hx : IsReal x) : IsReal (-x) := by
  obtain ⟨a, rfl⟩ := hx; exact ⟨-a, (EReal.coe_neg a).symm⟩

theorem max (hx : IsReal x) (hy : IsReal y) : IsReal (max x y) := by
  rcases le_total x y with h | h
  · rwa [max_eq_right h]
  · rwa [max_eq_left h]

theorem min (hx : IsReal x) (hy : IsReal y) : IsReal (min x y) := by
  rcases le_total x y with h | h
  · rwa [min_eq_left h]
  · rwa [min_eq_right h]

theorem inv (hx : IsReal x) : IsReal x⁻¹ := by
  obtain ⟨a, rfl⟩ := hx; exact ⟨a⁻¹, (EReal.coe_inv a).symm⟩

theorem mul_inv_coe (hx : IsReal x) (c : ℝ) : IsReal (x * ((c : ℝ) : EReal)⁻¹) :=
  hx.mul (IsReal.coe c).inv

theorem finset_sum {ι : Type*} (s : Finset ι) (f : ι → EReal) (h : ∀ i ∈ s, IsReal (f i)) :
    IsReal (∑ i ∈ s, f i) :=
  Finset.sum_induction f IsReal (fun _ _ => IsReal.add) IsReal.zero h

theorem sum {ι : Type*} [Fintype ι] (f : ι → EReal) (h : ∀ i, IsReal (f i)) :
    IsReal (∑ i, f i) :=
  finset_sum _ f fun i _ => h i

end IsReal

theorem div_coe_eq_mul_inv {c : ℝ} (hc : c ≠ 0) (x : EReal) :
    Ideal.div x ((c : ℝ) : EReal) = x * ((c : ℝ) : EReal)⁻¹ := by
  rw [Ideal.div, if_neg (by exact_mod_cast hc)]

theorem IsReal.div_coe {x : EReal} (hx : IsReal x) {c : ℝ} (hc : c ≠ 0) :
    IsReal (Ideal.div x ((c : ℝ) : EReal)) := by
  rw [div_coe_eq_mul_inv hc]; exact hx.mul_inv_coe c

theorem div_coe_coe (a : ℝ) {c : ℝ} (hc : c ≠ 0) :
    Ideal.div ((a : ℝ) : EReal) ((c : ℝ) : EReal) = ((a / c : ℝ) : EReal) := by
  rw [div_coe_eq_mul_inv hc, ← EReal.coe_inv, ← EReal.coe_mul, div_eq_mul_inv]

theorem rsqrt_coe_pos {v : ℝ} (hv : 0 < v) :
    Ideal.rsqrt ((v : ℝ) : EReal) = (((Real.sqrt v)⁻¹ : ℝ) : EReal) := by
  rw [Ideal.rsqrt_coe, if_neg (not_lt.2 hv.le), if_neg hv.ne']

theorem IsReal.rsqrt_coe_pos {v : ℝ} (hv : 0 < v) : IsReal (Ideal.rsqrt ((v : ℝ) : EReal)) :=
  ⟨_, Cert.LibMoments.rsqrt_coe_pos hv⟩

theorem rsqrt_coe_pos' {v : ℝ} (hv : 0 < v) :
    ∃ w : ℝ, 0 < w ∧ Ideal.rsqrt ((v : ℝ) : EReal) = (w : EReal) :=
  ⟨(Real.sqrt v)⁻¹, inv_pos.2 (Real.sqrt_pos.2 hv), rsqrt_coe_pos hv⟩

section Variance
variable {ι : Type*} [Fintype ι]

theorem real_variance_two_forms (r : ι → ℝ) (N : ℝ) (hN : N ≠ 0)
    (hcard : (Fintype.card ι : ℝ) = N) :
    (∑ i, r i * r i) * N⁻¹ - (∑ i, r i) * N⁻¹ * ((∑ i, r i) * N⁻¹)
      = (∑ i, (r i - (∑ i, r i) * N⁻¹) * (r i - (∑ i, r i) * N⁻¹)) * N⁻¹ := by
  set S := ∑ i, r i with hS
  set μ := S * N⁻¹ with hμ
  have h1 : ∑ i, (r i - μ) * (r i - μ) = (∑ i, r i * r i) - 2 * μ * S + N * (μ * μ) := by
    have h2 : ∀ i, (r i - μ) * (r i - μ) = r i * r i - 2 * μ * r i + μ * μ := fun i => by ring
    simp only [h2]
    rw [Finset.sum_add_distrib, Finset.sum_sub_distrib, ← Finset.mul_sum, Finset.sum_const,
      Finset.card_univ, nsmul_eq_mul, hcard]
  have h3 : S = μ * N := by rw [hμ]; field_simp
  rw [h1, h3]
  field_simp
  ring

theorem variance_two_forms (r : ι → ℝ) (N : ℝ) (hN : N ≠ 0) (hcard : (Fintype.card ι : ℝ) = N) :
    (∑ i, ((r i : ℝ) : EReal) * ((r i : ℝ) : EReal)) * ((N : ℝ) : EReal)⁻¹
        - (∑ i, ((r i : ℝ) : EReal)) * ((N : ℝ) : EReal)⁻¹
          * ((∑ i, ((r i : ℝ) : EReal)) * ((N : ℝ) : EReal)⁻¹)
      = (∑ i, (((r i : ℝ) : EReal) - (∑ i, ((r i : ℝ) : EReal)) * ((N : ℝ) : EReal)⁻¹)
            * (((r i : ℝ) : EReal) - (∑ i, ((r i : ℝ) : EReal)) * ((N : ℝ) : EReal)⁻¹))
          * ((N : ℝ) : EReal)⁻¹ := by
  simp only [← EReal.coe_mul, ← coe_sum, ← EReal.coe_inv, ← EReal.coe_sub]
  rw [real_variance_two_forms r N hN hcard]

theorem variance_two_forms_div (r : ι → ℝ) (N : ℝ) (hN : N ≠ 0)
    (hcard : (Fintype.card ι : ℝ) = N) :
    Ideal.div (0 + ∑ i, ((r i : ℝ) : EReal) * ((r i : ℝ) : EReal)) ((N : ℝ) : EReal)
        - Ideal.div (0 + ∑ i, ((r i : ℝ) : EReal)) ((N : ℝ) : EReal)
          * Ideal.div (0 + ∑ i, ((r i : ℝ) : EReal)) ((N : ℝ) : EReal)
      = Ideal.div
          (0 + ∑ i, (((r i : ℝ) : EReal) - Ideal.div (0 + ∑ i, ((r i : ℝ) : EReal)) ((N : ℝ) : EReal))
            * (((r i : ℝ) : EReal) - Ideal.div (0 + ∑ i, ((r i : ℝ) : EReal)) ((N : ℝ) : EReal)))
          ((N : ℝ) : EReal) := by
  simp only [zero_add, div_coe_eq_mul_inv hN]
  exact variance_two_forms r N hN hcard

theorem variance_two_forms_div_of_isReal (x : ι → EReal) (hx : ∀ i, IsReal (x i)) (N : ℝ)
    (hN : N ≠ 0) (hcard : (Fintype.card ι : ℝ) = N) :
    Ideal.div (0 + ∑ i, x i * x i) ((N : ℝ) : EReal)
        - Ideal.div (0 + ∑ i, x i) ((N : ℝ) : EReal) * Ideal.div (0 + ∑ i, x i) ((N : ℝ) : EReal)
      = Ideal.div
          (0 + ∑ i, (x i - Ideal.div (0 + ∑ i, x i) ((N : ℝ) : EReal))
            * (x i - Ideal.div (0 + ∑ i, x i) ((N : ℝ) : EReal)))
          ((N : ℝ) : EReal) := by
  choose r hr using hx
  obtain rfl : x = fun i => ((r i : ℝ) : EReal) := funext hr
  exact variance_two_forms_div r N hN hcard

theorem add_eps_pos {y : EReal} (hy : ∃ v : ℝ, 0 ≤ v ∧ y = ((v : ℝ) : EReal)) {ε : ℝ}
    (hε : 0 < ε) : ∃ w : ℝ, 0 < w ∧ y + ((ε : ℝ) : EReal) = ((w : ℝ) : EReal) := by
  obtain ⟨v, hv, rfl⟩ := hy
  exact ⟨v + ε, add_pos_of_nonneg_of_pos hv hε, (EReal.coe_add v ε).symm⟩

end Variance

section Tiles
variable {M : Type*} [AddCommMonoid M]

def acc (z : M) (s : ℕ → M) : ℕ → M
  | 0 => z
  | t + 1 => acc z s t + s t

@[simp] theorem acc_zero (z : M) (s : ℕ → M) : acc z s 0 = z := rfl

@[simp] theorem acc_succ (z : M) (s : ℕ → M) (t : ℕ) : acc z s (t + 1) = acc z s t + s t := rfl

theorem acc_eq_add_sum_range (z : M) (s : ℕ → M) (A : ℕ) :
    acc z s A = z + ∑ t ∈ Finset.range A, s t := by
  induction A with
  | zero => simp
  | succ n ih => rw [acc_succ, ih, Finset.sum_range_succ, add_assoc]

theorem acc_eq_add_sum_fin (z : M) (s : ℕ → M) (A : ℕ) :
    acc z s A = z + ∑ t : Fin A, s t := by
  rw [acc_eq_add_sum_range, Finset.sum_range]

theorem acc_tiles_equiv {ι κ : Type*} [Fintype ι] [Fintype κ] (A : ℕ) (e : Fin A × κ ≃ ι)
    (a : ι → M) (s : ℕ → M) (hs : ∀ t : Fin A, s t = 0 + ∑ j : κ, a (e (t, j))) (z : M) :
    acc z s A = z + ∑ i : ι, a i := by
  rw [acc_eq_add_sum_fin]
  congr 1
  rw [← Equiv.sum_comp e a, Fintype.sum_prod_type]
  exact Finset.sum_congr rfl fun t _ => by rw [hs t, zero_add]

end Tiles

section OneHot
variable {ι : Type*}

end OneHot

theorem IsReal.div {x y : EReal} (hx : IsReal x) (hy : IsReal y) (hy0 : y ≠ 0) :
    IsReal (Ideal.div x y) := by
  obtain ⟨c, rfl⟩ := hy
  exact hx.div_coe (by rintro rfl; exact hy0 EReal.coe_zero)

theorem IsReal.acc {z : EReal} (hz : IsReal z) (s : ℕ → EReal) (A : ℕ)
    (hs : ∀ t, t < A → IsReal (s t)) : IsReal (acc z s A) := by
  induction A with
  | zero => simpa using hz
  | succ n ih =>
    rw [acc_succ]
    exact (ih fun t ht => hs t (Nat.lt_succ_of_lt ht)).add (hs n (Nat.lt_succ_self n))

theorem acc_tiles_equiv' {M : Type*} [AddCommMonoid M] {ι κ : Type*} [Fintype ι] [Fintype κ]
    (A : ℕ) (e : Fin A × κ ≃ ι) (a : ι → M) (s : ℕ → M)
    (hs : ∀ t : Fin A, s t = ∑ j : κ, a (e (t, j))) (z : M) :
    acc z s A = z + ∑ i : ι, a i :=
  acc_tiles_equiv A e a s (fun t => by rw [hs t, zero_add]) z

end Cert.LibMoments
-- ==== Proof.Val.Pre.lean ====
import proofs.«408439_j66932770341395_1_alg».proof.Defs
import proofs.«408439_j66932770341395_1_alg».proof.Proof.Gen.Pre_finite_inputs
import proofs.«408439_j66932770341395_1_alg».proof.Proof.Gen.KernelIdeal
import proofs.«408439_j66932770341395_1_alg».proof.Proof.LibMoments
import Idealize.ShloMosaic.Lib.ReduceAll
import Idealize.ShloMosaic.Lib.ValueIdx
import Idealize.ShloMosaic.PureOps.Ideal
import Mathlib.Data.EReal.Basic
import Mathlib.Data.EReal.Operations

noncomputable section

namespace Cert.Val

open Idealize.ShloMosaic Idealize.ShloMosaic.ValueIdx Idealize.SL.Sem
open Cert.LibMoments

instance subsingleton_scalar_idx : Subsingleton Cert.Pre_finite_inputs.S_.Idx :=
  ⟨fun a b => funext fun d => d.elim0⟩

theorem inf_pattern : Ideal.ofBits .f32 0x7F800000#32 = (⊤ : EReal) := by
  simp [Ideal.ofBits, Ideal.ieee]

theorem real_of_abs_lt (x : EReal)
    (h : Ideal.cmp .olt (max x (-x)) (Ideal.ofBits .f32 0x7F800000#32) = 1#1) : IsReal x := by
  rw [inf_pattern] at h
  unfold Ideal.cmp at h
  refine isReal_iff.2 ⟨?_, ?_⟩
  · rintro rfl
    simp at h
  · rintro rfl
    simp at h

theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim s ![] hb (constant Cert.Pre_finite_inputs.S_ .f32 0x7F800000#32)))
          (constantI Cert.Pre_finite_inputs.S_ 1 1#1) hr hu j = 1#1)
    (i : s.Idx) : IsReal (x i) :=
  real_of_abs_lt (x i) (Host.reduce_andi_all _ _ hr hu j e i)

theorem real_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal ((m ((c.tc : Thread Cert.KernelIdeal.nD Cert.KernelIdeal.τ).loc Cert.KernelIdeal.main_arg0) : Vec Ideal Cert.KernelIdeal.S50000x128 .f32) i))
      ∧ (∀ i, IsReal ((m ((c.tc : Thread Cert.KernelIdeal.nD Cert.KernelIdeal.τ).loc Cert.KernelIdeal.main_arg3) : Vec Ideal Cert.KernelIdeal.S128x128 .f32) i))
      ∧ (∀ i, IsReal ((m ((c.tc : Thread Cert.KernelIdeal.nD Cert.KernelIdeal.τ).loc Cert.KernelIdeal.main_arg4) : Vec Ideal Cert.KernelIdeal.S128 .f32) i))
      ∧ (∀ i, IsReal ((m ((c.tc : Thread Cert.KernelIdeal.nD Cert.KernelIdeal.τ).loc Cert.KernelIdeal.main_arg5) : Vec Ideal Cert.KernelIdeal.S4x128x128 .f32) i))
      ∧ (∀ i, IsReal ((m ((c.tc : Thread Cert.KernelIdeal.nD Cert.KernelIdeal.τ).loc Cert.KernelIdeal.main_arg6) : Vec Ideal Cert.KernelIdeal.S4x128 .f32) i))
      ∧ (∀ i, IsReal ((m ((c.tc : Thread Cert.KernelIdeal.nD Cert.KernelIdeal.τ).loc Cert.KernelIdeal.main_arg7) : Vec Ideal Cert.KernelIdeal.S4x128 .f32) i))
      ∧ (∀ i, IsReal ((m ((c.tc : Thread Cert.KernelIdeal.nD Cert.KernelIdeal.τ).loc Cert.KernelIdeal.main_arg8) : Vec Ideal Cert.KernelIdeal.S4x128 .f32) i))
      ∧ (∀ i, IsReal ((m ((c.tc : Thread Cert.KernelIdeal.nD Cert.KernelIdeal.τ).loc Cert.KernelIdeal.main_arg9) : Vec Ideal Cert.KernelIdeal.S128x10 .f32) i))
      ∧ (∀ i, IsReal ((m ((c.tc : Thread Cert.KernelIdeal.nD Cert.KernelIdeal.τ).loc Cert.KernelIdeal.main_arg10) : Vec Ideal Cert.KernelIdeal.S10 .f32) i)) := by

  have e := congrFun (h c) ix0
  unfold Cert.Pre_finite_inputs.fn Cert.Pre_finite_inputs.fn_part1 Cert.Pre_finite_inputs.fn_part2 at e

  simp only [andi, IntOp.andi_eq_one] at e
  obtain ⟨⟨⟨⟨⟨⟨⟨⟨h0, h3⟩, h4⟩, h5⟩, h6⟩, h7⟩, h8⟩, h9⟩, h10⟩ := e
  exact ⟨real_of_all _ _ _ _ _ h0, real_of_all _ _ _ _ _ h3, real_of_all _ _ _ _ _ h4,
    real_of_all _ _ _ _ _ h5, real_of_all _ _ _ _ _ h6, real_of_all _ _ _ _ _ h7,
    real_of_all _ _ _ _ _ h8, real_of_all _ _ _ _ _ h9, real_of_all _ _ _ _ _ h10⟩

end Cert.Val

end
-- ==== Proof.Val.KTerms.lean ====
import proofs.«408439_j66932770341395_1_alg».proof.Proof.Val.Spec
import Idealize.ShloMosaic.PureOps.Ideal

noncomputable section

namespace Cert.KernelIdeal.Val

open Idealize.ShloMosaic Idealize.ShloMosaic.TcCoe

def bnTerm (A : Vec Ideal Cert.ReferenceIdeal.S50000x128 .f32) (Mn Vr G Bt : Vec Ideal Cert.ReferenceIdeal.S1x128 .f32) :
    Vec Ideal Cert.ReferenceIdeal.S50000x128 .f32 :=
  maximumf
    (addf (mulf (mulf (subf A (Cert.ReferenceIdeal.Spec.rows (F := Ideal) Mn))
        (Cert.ReferenceIdeal.Spec.rows (F := Ideal) (Host.rsqrt (F := Ideal) (addf (F := Ideal) Vr (broadcastInDim Cert.ReferenceIdeal.S1x128 ![] Cert.ReferenceIdeal.Gen.bcast_S_S1x128 (constant (F := Ideal) Cert.ReferenceIdeal.S_ .f32 0x3727C5AC#32))))))
      (Cert.ReferenceIdeal.Spec.rows (F := Ideal) G)) (Cert.ReferenceIdeal.Spec.rows (F := Ideal) Bt))
    (broadcastInDim Cert.ReferenceIdeal.S50000x128 ![] Cert.ReferenceIdeal.Gen.bcast_S_S50000x128 (constant (F := Ideal) Cert.ReferenceIdeal.S_ .f32 0x00000000#32))

def kLayer (nrm : Vec Ideal Cert.ReferenceIdeal.S650000 .f32) (row col : Vec Ideal Cert.ReferenceIdeal.S650000 .i32)
    (w : Vec Ideal Cert.ReferenceIdeal.S128x128 .f32) (b g bt : Vec Ideal Cert.ReferenceIdeal.S128 .f32)
    (h : Vec Ideal Cert.ReferenceIdeal.S50000x128 .f32) : Vec Ideal Cert.ReferenceIdeal.S50000x128 .f32 :=
  let pre : Vec Ideal Cert.ReferenceIdeal.S50000x128 .f32 := Cert.ReferenceIdeal.Spec.preR (F := Ideal) nrm row col w b h
  let c1 : Vec Ideal Cert.ReferenceIdeal.S1x128 .f32 :=
    broadcastInDim Cert.ReferenceIdeal.S1x128 ![] Cert.ReferenceIdeal.Gen.bcast_S_S1x128 (Cert.ReferenceIdeal.Spec.nNodes (F := Ideal))
  let m1 : Vec Ideal Cert.ReferenceIdeal.S1x128 .f32 :=
    Host.divf (F := Ideal) (φ := .f32) (Cert.ReferenceIdeal.Spec.row1 (F := Ideal) (Cert.ReferenceIdeal.Spec.colSum (F := Ideal) pre)) c1
  bnTerm pre m1
    (subf (F := Ideal) (φ := .f32) (Host.divf (F := Ideal) (φ := .f32) (Cert.ReferenceIdeal.Spec.row1 (F := Ideal) (Cert.ReferenceIdeal.Spec.colSum (F := Ideal) (mulf (F := Ideal) (φ := .f32) pre pre))) c1)
      (mulf (F := Ideal) (φ := .f32) m1 m1))
    (Cert.ReferenceIdeal.Spec.row1 (F := Ideal) g) (Cert.ReferenceIdeal.Spec.row1 (F := Ideal) bt)

def kOut (x : Vec Ideal Cert.ReferenceIdeal.S50000x128 .f32) (ei : Vec Ideal Cert.ReferenceIdeal.S2x600000 .i32)
    (bat1 : Vec Ideal Cert.ReferenceIdeal.S50000x1 .i32) (wenc : Vec Ideal Cert.ReferenceIdeal.S128x128 .f32)
    (benc : Vec Ideal Cert.ReferenceIdeal.S128 .f32) (w : Vec Ideal Cert.ReferenceIdeal.S4x128x128 .f32)
    (b g bt : Vec Ideal Cert.ReferenceIdeal.S4x128 .f32) (wc : Vec Ideal Cert.ReferenceIdeal.S128x10 .f32)
    (b1 : Vec Ideal Cert.ReferenceIdeal.S1x10 .f32) : Vec Ideal Cert.ReferenceIdeal.S256x10 .f32 :=
  let L := kLayer (Cert.ReferenceIdeal.Spec.normR (F := Ideal) ei) (Cert.ReferenceIdeal.Spec.rowR (F := Ideal) ei) (Cert.ReferenceIdeal.Spec.colR (F := Ideal) ei)
  let sw := fun off hs => Cert.ReferenceIdeal.Spec.wSl (F := Ideal) w off hs
  let sv := fun (p : Vec Ideal Cert.ReferenceIdeal.S4x128 .f32) off hs => Cert.ReferenceIdeal.Spec.vSl (F := Ideal) p off hs
  let h0 := Cert.ReferenceIdeal.Spec.encR (F := Ideal) x wenc benc
  let h1 := L (sw ![0, 0, 0] Cert.ReferenceIdeal.Gen.slices_S4x128x128_S1x128x128_0_0_0) (sv b ![0, 0] Cert.ReferenceIdeal.Gen.slices_S4x128_S1x128_0_0) (sv g ![0, 0] Cert.ReferenceIdeal.Gen.slices_S4x128_S1x128_0_0) (sv bt ![0, 0] Cert.ReferenceIdeal.Gen.slices_S4x128_S1x128_0_0) h0
  let h2 := L (sw ![1, 0, 0] Cert.ReferenceIdeal.Gen.slices_S4x128x128_S1x128x128_1_0_0) (sv b ![1, 0] Cert.ReferenceIdeal.Gen.slices_S4x128_S1x128_1_0) (sv g ![1, 0] Cert.ReferenceIdeal.Gen.slices_S4x128_S1x128_1_0) (sv bt ![1, 0] Cert.ReferenceIdeal.Gen.slices_S4x128_S1x128_1_0) h1
  let h3 := L (sw ![2, 0, 0] Cert.ReferenceIdeal.Gen.slices_S4x128x128_S1x128x128_2_0_0) (sv b ![2, 0] Cert.ReferenceIdeal.Gen.slices_S4x128_S1x128_2_0) (sv g ![2, 0] Cert.ReferenceIdeal.Gen.slices_S4x128_S1x128_2_0) (sv bt ![2, 0] Cert.ReferenceIdeal.Gen.slices_S4x128_S1x128_2_0) h2
  let h4 := L (sw ![3, 0, 0] Cert.ReferenceIdeal.Gen.slices_S4x128x128_S1x128x128_3_0_0) (sv b ![3, 0] Cert.ReferenceIdeal.Gen.slices_S4x128_S1x128_3_0) (sv g ![3, 0] Cert.ReferenceIdeal.Gen.slices_S4x128_S1x128_3_0) (sv bt ![3, 0] Cert.ReferenceIdeal.Gen.slices_S4x128_S1x128_3_0) h3
  Cert.ReferenceIdeal.Spec.poolK (F := Ideal) h4 bat1 wc b1

end Cert.KernelIdeal.Val

end
-- ==== Proof.LibRealArr.lean ====
import proofs.«408439_j66932770341395_1_alg».proof.Proof.LibMoments
import Idealize.ShloMosaic.PureOps.Ideal
import Idealize.ShloMosaic.PureOps.Ideal.Laws
import Idealize.ShloMosaic.Lib.ValueIdx
import Idealize.ShloMosaic.Lib.StableHlo

noncomputable section

namespace Cert.LibRealArr

open scoped BigOperators
open Idealize.ShloMosaic
open Cert.LibMoments

def RealArr {S : Shape} (f : S.Idx → EReal) : Prop := ∀ i, IsReal (f i)

theorem RealArr.apply {S : Shape} {f : S.Idx → EReal} (h : RealArr f) (i : S.Idx) : IsReal (f i) := h i

section Pointwise
variable {S : Shape} {φ : FTy} {x y : FVec Ideal S φ}

theorem RealArr.addf (hx : RealArr x) (hy : RealArr y) : RealArr (addf x y) :=
  fun i => (hx i).add (hy i)

theorem RealArr.subf (hx : RealArr x) (hy : RealArr y) : RealArr (subf x y) :=
  fun i => (hx i).sub (hy i)

theorem RealArr.mulf (hx : RealArr x) (hy : RealArr y) : RealArr (mulf x y) :=
  fun i => (hx i).mul (hy i)

theorem RealArr.maximumf (hx : RealArr x) (hy : RealArr y) : RealArr (maximumf x y) :=
  fun i => (hx i).max (hy i)

end Pointwise

theorem ofBits_zero : Ideal.ofBits .f32 0x00000000#32 = ((0 : ℝ) : EReal) := by
  rw [Ideal.ofBits_zero_f32, EReal.coe_zero]

theorem ofBits_one : Ideal.ofBits .f32 0x3F800000#32 = ((1 : ℝ) : EReal) := by
  simp [Ideal.ofBits, Ideal.ieee, -EReal.coe_mul] <;> norm_num

theorem ofBits_50000 : Ideal.ofBits .f32 0x47435000#32 = ((50000 : ℝ) : EReal) := by
  simp [Ideal.ofBits, Ideal.ieee, -EReal.coe_mul] <;> norm_num

theorem ofBits_eps :
    Ideal.ofBits .f32 0x3727C5AC#32 = (((10995116 : ℝ) * (2 : ℝ) ^ (-40 : ℤ) : ℝ) : EReal) := by
  simp [Ideal.ofBits, Ideal.ieee, -EReal.coe_mul] <;> norm_num

theorem eps_pos : (0 : ℝ) < (10995116 : ℝ) * (2 : ℝ) ^ (-40 : ℤ) := by positivity

theorem realArr_constant {S : Shape} {φ : FTy} {w : BitVec φ.bits} (hw : IsReal (Ideal.ofBits φ w)) :
    RealArr (constant (F := Ideal) S φ w) := fun _ => hw

theorem realArr_constant_zero (S : Shape) : RealArr (constant (F := Ideal) S .f32 0x00000000#32) :=
  realArr_constant ⟨0, ofBits_zero⟩

theorem realArr_constant_one (S : Shape) : RealArr (constant (F := Ideal) S .f32 0x3F800000#32) :=
  realArr_constant ⟨1, ofBits_one⟩

section Layout
variable {s t : Shape}

theorem RealArr.broadcastInDim {x : s.Idx → EReal} (hx : RealArr x) (dims : Fin s.rank → Fin t.rank)
    (h : s.BroadcastsInDim t dims) : RealArr (broadcastInDim t dims h x) :=
  fun _ => hx _

theorem RealArr.shapeCast {x : s.Idx → EReal} (hx : RealArr x) (h : s.ShapeCasts t) :
    RealArr (shapeCast t x h) :=
  fun _ => hx _

theorem RealArr.extractStridedSlice {x : s.Idx → EReal} (hx : RealArr x) (off : Fin s.rank → Nat)
    (h : s.Slices off t) : RealArr (extractStridedSlice t off x h) :=
  fun _ => hx _

theorem realArr_concatenate (a : Fin t.rank) (xs : List ((s : Shape) × (s.Idx → EReal)))
    (h : Shape.Concatenates (xs.map (·.1)) t a) (hx : ∀ p ∈ xs, RealArr p.2) :
    RealArr (concatenate t a xs h) := by
  intro j
  unfold concatenate
  exact hx _ (List.getElem_mem _) _

theorem RealArr.concatenate₂ {s₁ s₂ : Shape} {x₁ : s₁.Idx → EReal} {x₂ : s₂.Idx → EReal}
    (h₁ : RealArr x₁) (h₂ : RealArr x₂) (a : Fin t.rank)
    (h : Shape.Concatenates (([⟨s₁, x₁⟩, ⟨s₂, x₂⟩] : List ((s : Shape) × (s.Idx → EReal))).map (·.1)) t a) :
    RealArr (concatenate t a [⟨s₁, x₁⟩, ⟨s₂, x₂⟩] h) := by
  refine realArr_concatenate a _ h fun p hp => ?_
  rcases List.mem_cons.1 hp with rfl | hp
  · exact h₁
  · rcases List.mem_cons.1 hp with rfl | hp
    · exact h₂
    · exact absurd hp (List.not_mem_nil)

theorem realArr_select_of {c : IVec s 1} {a b : s.Idx → EReal}
    (h : ∀ i, (c i = 1 → IsReal (a i)) ∧ (c i ≠ 1 → IsReal (b i))) : RealArr (select c a b) := by
  intro i
  show IsReal (if c i = 1 then a i else b i)
  by_cases hc : c i = 1
  · rw [if_pos hc]; exact (h i).1 hc
  · rw [if_neg hc]; exact (h i).2 hc

theorem RealArr.select {a b : s.Idx → EReal} (ha : RealArr a) (hb : RealArr b) (c : IVec s 1) :
    RealArr (select c a b) :=
  realArr_select_of fun i => ⟨fun _ => ha i, fun _ => hb i⟩

end Layout

theorem cmp_ogt_eq_one {x y : EReal} : Ideal.cmp .ogt x y = 1 ↔ y < x := by
  unfold Ideal.cmp
  by_cases h : y < x <;> simp [h]

theorem cmpf_ogt_apply {S : Shape} {φ : FTy} (x y : FVec Ideal S φ) (i : S.Idx) :
    cmpf .ogt x y i = 1 ↔ y i < x i := cmp_ogt_eq_one

theorem isReal_pos_of_zero_lt {x : EReal} (hx : IsReal x) (h : 0 < x) : ∃ v : ℝ, 0 < v ∧ x = (v : EReal) := by
  obtain ⟨v, rfl⟩ := hx
  exact ⟨v, by exact_mod_cast h, rfl⟩

section Sums

theorem realArr_ideal_matmul {sl sr so : Shape} (d : DotDims sl sr so) {l : sl.Idx → EReal}
    {r : sr.Idx → EReal} {acc : so.Idx → EReal} (hl : RealArr l) (hr : RealArr r) (hacc : RealArr acc) :
    RealArr (Ideal.matmul d l r acc) := by
  intro j
  unfold Ideal.matmul
  exact (hacc j).add (IsReal.sum _ fun k => (hl _).mul (hr _))

theorem RealArr.dotGeneral {sl sr so : Shape} {φ₁ φ₂ : FTy} {l : FVec Ideal sl φ₁}
    {r : FVec Ideal sr φ₂} (hl : RealArr l) (hr : RealArr r) (d : DotDims sl sr so)
    (prec : Option ContractPrecision) : RealArr (Host.dotGeneral d prec l r) :=
  realArr_ideal_matmul d hl hr fun _ => IsReal.zero

theorem realArr_ideal_hostReduceAdd {s t : Shape} {axes : List (Fin s.rank)} (h : s.ReducesTo axes t)
    {x : s.Idx → EReal} {init : EReal} (hx : RealArr x) (hi : IsReal init) :
    RealArr (Ideal.hostReduceAdd h x init) := by
  intro j
  unfold Ideal.hostReduceAdd
  exact hi.add (IsReal.finset_sum _ _ fun i _ => hx i)

theorem RealArr.reduceAdd {s t u : Shape} {φ : FTy} {axes : List (Fin s.rank)} {x : FVec Ideal s φ}
    {init : u.Idx → Ideal φ} (hx : RealArr x) (hi : RealArr init) (h : s.ReducesTo axes t)
    (hu : 0 < u.numel) : RealArr (Host.reduceAdd x init h hu) :=
  realArr_ideal_hostReduceAdd h hx (hi _)

theorem realArr_ideal_hostScatterAdd {s si su : Shape} (d : ScatterDims s si su) {w : Nat}
    {x : s.Idx → EReal} (idx : IVec si w) {upd : su.Idx → EReal} (hx : RealArr x) (hu : RealArr upd) :
    RealArr (Ideal.hostScatterAdd d x idx upd) := by
  intro i
  unfold Ideal.hostScatterAdd
  exact (hx i).add (IsReal.finset_sum _ _ fun j _ => hu j)

theorem RealArr.scatterAdd {s si su : Shape} {φ : FTy} {w : Nat} {x : FVec Ideal s φ}
    {upd : FVec Ideal su φ} (hx : RealArr x) (hu : RealArr upd) (d : ScatterDims s si su)
    (idx : IVec si w) : RealArr (Host.scatterAdd d x idx upd) :=
  realArr_ideal_hostScatterAdd d idx hx hu

end Sums

theorem RealArr.gather {s si t : Shape} {w : Nat} {x : s.Idx → EReal} (hx : RealArr x)
    (d : GatherDims s si t) (idx : IVec si w) : RealArr (Host.gather d x idx) :=
  fun _ => hx _

section Quotients
variable {S : Shape} {φ : FTy} {x y : FVec Ideal S φ}

theorem RealArr.hostDivf (hx : RealArr x) (hy : ∀ i, ∃ c : ℝ, c ≠ 0 ∧ y i = ((c : ℝ) : EReal)) :
    RealArr (Host.divf x y) := by
  intro i
  obtain ⟨c, hc, e⟩ := hy i
  show IsReal (Ideal.div (x i) (y i))
  rw [e]; exact (hx i).div_coe hc

theorem RealArr.hostDivf_const (hx : RealArr x) {c : ℝ} (hc : c ≠ 0) (hy : ∀ i, y i = ((c : ℝ) : EReal)) :
    RealArr (Host.divf x y) :=
  hx.hostDivf fun i => ⟨c, hc, hy i⟩

theorem RealArr.divf (hx : RealArr x) (hy : ∀ i, ∃ c : ℝ, c ≠ 0 ∧ y i = ((c : ℝ) : EReal)) :
    RealArr (Idealize.ShloMosaic.divf x y) := by
  intro i
  obtain ⟨c, hc, e⟩ := hy i
  show IsReal (Ideal.div (x i) (y i))
  rw [e]; exact (hx i).div_coe hc

theorem realArr_of_pos (hx : ∀ i, ∃ v : ℝ, 0 < v ∧ x i = ((v : ℝ) : EReal)) : RealArr x := fun i => by
  obtain ⟨v, _, e⟩ := hx i
  exact ⟨v, e⟩

theorem hostRsqrt_pos (hx : ∀ i, ∃ v : ℝ, 0 < v ∧ x i = ((v : ℝ) : EReal)) :
    ∀ i, ∃ w : ℝ, 0 < w ∧ Host.rsqrt x i = ((w : ℝ) : EReal) := fun i => by
  obtain ⟨v, hv, e⟩ := hx i
  show ∃ w : ℝ, 0 < w ∧ Ideal.rsqrt (x i) = ((w : ℝ) : EReal)
  rw [e]; exact rsqrt_coe_pos' hv

theorem realArr_hostRsqrt (hx : ∀ i, ∃ v : ℝ, 0 < v ∧ x i = ((v : ℝ) : EReal)) :
    RealArr (Host.rsqrt x) :=
  realArr_of_pos (hostRsqrt_pos hx)

theorem realArr_select_ogt_hostRsqrt {z : FVec Ideal S φ} (hx : RealArr x) (hy : ∀ i, y i = 0)
    (hz : RealArr z) : RealArr (select (cmpf .ogt x y) (Host.rsqrt x) z) :=
  realArr_select_of fun i =>
    ⟨fun hc => by
      have h0 : (0 : EReal) < x i := by rw [← hy i]; exact (cmpf_ogt_apply x y i).1 hc
      obtain ⟨v, hv, e⟩ := isReal_pos_of_zero_lt (hx i) h0
      show IsReal (Ideal.rsqrt (x i))
      rw [e]; exact IsReal.rsqrt_coe_pos hv,
     fun _ => hz i⟩

end Quotients

section Entries
variable {s t : Shape} {α : Type} {P : α → Prop}

theorem broadcastInDim_constant_apply {φ : FTy} (w : BitVec φ.bits) (dims : Fin s.rank → Fin t.rank)
    (h : s.BroadcastsInDim t dims) (j : t.Idx) :
    broadcastInDim t dims h (constant (F := Ideal) s φ w) j = Ideal.ofBits φ w := rfl

end Entries

section Bounds
variable {S : Shape} {φ : FTy} {x y : FVec Ideal S φ}

theorem RealArr.negf (hx : RealArr x) : RealArr (negf x) := fun i => (hx i).neg

theorem RealArr.minimumf (hx : RealArr x) (hy : RealArr y) : RealArr (minimumf x y) :=
  fun i => (hx i).min (hy i)

theorem pos_addf_const (hx : ∀ i, ∃ v : ℝ, 0 ≤ v ∧ x i = ((v : ℝ) : EReal)) {ε : ℝ} (hε : 0 < ε)
    (hy : ∀ i, y i = ((ε : ℝ) : EReal)) :
    ∀ i, ∃ w : ℝ, 0 < w ∧ addf x y i = ((w : ℝ) : EReal) := fun i => by
  show ∃ w : ℝ, 0 < w ∧ x i + y i = ((w : ℝ) : EReal)
  rw [hy i]; exact add_eps_pos (hx i) hε

end Bounds

section VectorUnit
variable {s t : Shape}

theorem RealArr.broadcastTo {x : s.Idx → EReal} (hx : RealArr x) (h : s.Broadcasts t) :
    RealArr (broadcastTo t x h) :=
  fun _ => hx _

theorem RealArr.transpose {x : s.Idx → EReal} (hx : RealArr x) (perm : List (Fin s.rank))
    (h : s.Transposes perm t) : RealArr (transpose t perm x h) :=
  fun _ => hx _

theorem RealArr.truncf {φ : FTy} {x : FVec Ideal s φ} (hx : RealArr x) (ψ : FTy)
    (h : ψ.bits < φ.bits) : RealArr (truncf ψ x h) :=
  fun i => hx i

theorem RealArr.extf {φ : FTy} {x : FVec Ideal s φ} (hx : RealArr x) (ψ : FTy)
    (h : φ.bits < ψ.bits) : RealArr (extf ψ x h) :=
  fun i => hx i

end VectorUnit

end Cert.LibRealArr

end
-- ==== Proof.Val.Layout.lean ====
import proofs.«408439_j66932770341395_1_alg».proof.Proof.Val.KTerms
import proofs.«408439_j66932770341395_1_alg».proof.Proof.LibRealArr
import Idealize.ShloMosaic.PureOps.Ideal.Laws
import Idealize.ShloMosaic.Lib.ValueIdx
import Idealize.ShloMosaic.Lib.Pipeline.Value
import Idealize.ShloMosaic.Lib.ValueLayout

noncomputable section

namespace Cert.Val

open Idealize.ShloMosaic Idealize.ShloMosaic.ValueIdx
open Cert.ReferenceIdeal

theorem row1_apply (v : Vec Ideal S128 .f32) (u : Fin 1) (j : Fin 128) :
    Spec.row1 (F := Ideal) v (ix2 u j) = v (ix1 j) := by
  unfold Spec.row1
  refine broadcastInDim_apply _ _ v (ix2 u j) (ix1 j) fun a => ?_
  match a with
  | ⟨0, _⟩ => rfl

theorem reshape_row (v : Vec Ideal S128 .f32) (h : S128.ShapeCasts S1x128) :
    (fun i => shapeCast S1x128 v h i) = Spec.row1 (F := Ideal) v := by
  funext i
  obtain ⟨u, j, rfl⟩ : ∃ (u : Fin 1) (j : Fin 128), i = ix2 u j := ⟨i 0, i 1, eq_ix2 i⟩
  rw [row1_apply]
  exact shapeCast_a_1a_apply v h u j

theorem reshape_col (b : Vec Ideal S50000 .i32) (h : S50000.ShapeCasts S50000x1) :
    (fun i => shapeCast S50000x1 b h i) = broadcastInDim S50000x1 ![0] Cert.ReferenceIdeal.Gen.bcast_S50000_S50000x1_0 b := by
  funext i
  obtain ⟨n, u, rfl⟩ : ∃ (n : Fin 50000) (u : Fin 1), i = ix2 n u := ⟨i 0, i 1, eq_ix2 i⟩
  have hu : u.val = 0 := by omega
  have e1 : shapeCast S50000x1 b h (ix2 n u) = b (ix1 n) :=
    shapeCast_apply b h _ _ (by
      rw [Shape.rowMajor_val_one, Shape.rowMajor_val_two]
      show n.val = n.val * 1 + u.val
      rw [hu, Nat.mul_one, Nat.add_zero])
  have e2 : broadcastInDim S50000x1 ![0] Cert.ReferenceIdeal.Gen.bcast_S50000_S50000x1_0 b (ix2 n u) = b (ix1 n) :=
    broadcastInDim_apply _ _ b (ix2 n u) (ix1 n) fun a => match a with | ⟨0, _⟩ => rfl
  exact e1.trans e2.symm

theorem reshape_row10 (b : Vec Ideal S10 .f32) (h : S10.ShapeCasts S1x10) :
    (fun i => shapeCast S1x10 b h i) = broadcastInDim S1x10 ![1] Cert.ReferenceIdeal.Gen.bcast_S10_S1x10_1 b := by
  funext i
  obtain ⟨u, j, rfl⟩ : ∃ (u : Fin 1) (j : Fin 10), i = ix2 u j := ⟨i 0, i 1, eq_ix2 i⟩
  have e2 : broadcastInDim S1x10 ![1] Cert.ReferenceIdeal.Gen.bcast_S10_S1x10_1 b (ix2 u j) = b (ix1 j) :=
    broadcastInDim_apply _ _ b (ix2 u j) (ix1 j) fun a => match a with | ⟨0, _⟩ => rfl
  exact (shapeCast_a_1a_apply b h u j).trans e2.symm

theorem zero_row (h₁ : S_.BroadcastsInDim S128 (![] : Fin 0 → Fin S128.rank)) (h₂ : S128.ShapeCasts S1x128) :
    (fun i => shapeCast S1x128 (broadcastInDim S128 ![] h₁ (constant (F := Ideal) S_ .f32 0x00000000#32)) h₂ i)
      = fun _ => (0 : EReal) := by
  funext i
  unfold shapeCast
  exact (Cert.LibRealArr.broadcastInDim_constant_apply _ _ h₁ _).trans Ideal.ofBits_zero_f32

theorem rsqrt_add_row (var : Vec Ideal S128 .f32) (w : BitVec 32) :
    Host.rsqrt (addf (Spec.row1 (F := Ideal) var)
        (broadcastInDim S1x128 ![] Cert.ReferenceIdeal.Gen.bcast_S_S1x128 (constant (F := Ideal) S_ .f32 w)))
      = Spec.row1 (F := Ideal) (Host.rsqrt (addf var
          (broadcastInDim S128 ![] Cert.ReferenceIdeal.Gen.bcast_S_S128 (constant (F := Ideal) S_ .f32 w)))) := by
  funext i
  obtain ⟨u, j, rfl⟩ : ∃ (u : Fin 1) (j : Fin 128), i = ix2 u j := ⟨i 0, i 1, eq_ix2 i⟩
  rw [row1_apply]
  show FloatOps.hostUnary (F := Ideal) (φ := .f32) .rsqrt (FloatOps.addf (Spec.row1 (F := Ideal) var (ix2 u j)) _) = _
  rw [row1_apply]
  rfl

theorem bn_rows (a : Vec Ideal S50000x128 .f32) (mu var g bt : Vec Ideal S128 .f32) :
    Cert.KernelIdeal.Val.bnTerm a (Spec.row1 (F := Ideal) mu) (Spec.row1 (F := Ideal) var) (Spec.row1 (F := Ideal) g)
        (Spec.row1 (F := Ideal) bt)
      = Spec.bnR (F := Ideal) a mu var g bt := by
  unfold Cert.KernelIdeal.Val.bnTerm Spec.bnR
  rw [rsqrt_add_row]
  rfl

end Cert.Val

end
-- ==== Proof.Val.HostK.lean ====
import proofs.«408439_j66932770341395_1_alg».proof.Proof.Gen.KernelIdeal.Launch
import proofs.«408439_j66932770341395_1_alg».proof.Proof.Val.Spec
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.StableHlo
open Cert.ReferenceIdeal.Spec

variable {F : FTy → Type} [FloatOps F]

variable (U : Valuation τ sig (Elt F))

attribute [local irreducible] Host.gather Host.scatterAdd Host.reduceAdd Host.rsqrt Host.divf

abbrev graphVal : Valuation τ sig (Elt F) := after hostOps0_2 (after hostOps0_1 (after hostOps0 U))

theorem hostOps0_v3 :
    after hostOps0 U (main_v3 : DevRef τ sig) = rowR (U (main_arg1 : DevRef τ sig)) := by
  simp only [after_cons, after_nil]
  rfl

theorem hostOps0_v6 :
    after hostOps0 U (main_v6 : DevRef τ sig) = colR (U (main_arg1 : DevRef τ sig)) := by
  simp only [after_cons, after_nil]
  rfl

theorem hostOps0_v12 :
    after hostOps0 U (main_v12 : DevRef τ sig)
      = cmpf .ogt (degR (colR (U (main_arg1 : DevRef τ sig)))) (broadcastInDim S50000 ![] bcast_S_S50000 zero0) := by
  simp only [after_cons, after_nil]
  rfl

theorem hostOps0_v13 :
    after hostOps0 U (main_v13 : DevRef τ sig) = Host.rsqrt (degR (colR (U (main_arg1 : DevRef τ sig)))) := by
  simp only [after_cons, after_nil]
  rfl

theorem hostOps0_cst_2 :
    after hostOps0 U (main_cst_2 : DevRef τ sig) = zero0 := by
  simp only [after_cons, after_nil]
  rfl

theorem hostOps0_1_v14 :
    after hostOps0_1 U (main_v14 : DevRef τ sig)
      = select (U (main_v12 : DevRef τ sig)) (U (main_v13 : DevRef τ sig))
          (broadcastInDim S50000 ![] bcast_S_S50000 (id (U (main_cst_2 : DevRef τ sig)))) := by
  simp only [after_cons, after_nil]
  rfl

theorem hostOps0_2_v29 :
    after hostOps0_2 U (main_v29 : DevRef τ sig)
      = mulf
          (Host.gather gather_S50000_S650000x1_S650000_n_0_n_n_0_1_1 (U (main_v14 : DevRef τ sig))
            (broadcastInDim S650000x1 ![0] bcast_S650000_S650000x1_0 (wrapIdx (U (main_v3 : DevRef τ sig)))))
          (Host.gather gather_S50000_S650000x1_S650000_n_0_n_n_0_1_1 (U (main_v14 : DevRef τ sig))
            (broadcastInDim S650000x1 ![0] bcast_S650000_S650000x1_0 (wrapIdx (U (main_v6 : DevRef τ sig))))) := by
  simp only [after_cons, after_nil]
  rfl

theorem hostOps0_2_v30 :
    after hostOps0_2 U (main_v30 : DevRef τ sig)
      = fun i => shapeCast S1x128 (U (main_arg4 : DevRef τ sig)) shapeCasts_S128_S1x128 i := by
  simp only [after_cons, after_nil]
  rfl

theorem hostOps0_keep_arg0 :
    after hostOps0 U (main_arg0 : DevRef τ sig) = U (main_arg0 : DevRef τ sig) := by
  simp only [after_cons, after_nil]
  rfl

theorem hostOps0_keep_arg3 :
    after hostOps0 U (main_arg3 : DevRef τ sig) = U (main_arg3 : DevRef τ sig) := by
  simp only [after_cons, after_nil]
  rfl

theorem hostOps0_keep_arg4 :
    after hostOps0 U (main_arg4 : DevRef τ sig) = U (main_arg4 : DevRef τ sig) := by
  simp only [after_cons, after_nil]
  rfl

theorem hostOps0_1_keep_v3 :
    after hostOps0_1 U (main_v3 : DevRef τ sig) = U (main_v3 : DevRef τ sig) := by
  simp only [after_cons, after_nil]
  rfl

theorem hostOps0_1_keep_v6 :
    after hostOps0_1 U (main_v6 : DevRef τ sig) = U (main_v6 : DevRef τ sig) := by
  simp only [after_cons, after_nil]
  rfl

theorem hostOps0_1_keep_arg0 :
    after hostOps0_1 U (main_arg0 : DevRef τ sig) = U (main_arg0 : DevRef τ sig) := by
  simp only [after_cons, after_nil]
  rfl

theorem hostOps0_1_keep_arg3 :
    after hostOps0_1 U (main_arg3 : DevRef τ sig) = U (main_arg3 : DevRef τ sig) := by
  simp only [after_cons, after_nil]
  rfl

theorem hostOps0_1_keep_arg4 :
    after hostOps0_1 U (main_arg4 : DevRef τ sig) = U (main_arg4 : DevRef τ sig) := by
  simp only [after_cons, after_nil]
  rfl

theorem hostOps0_2_keep_v3 :
    after hostOps0_2 U (main_v3 : DevRef τ sig) = U (main_v3 : DevRef τ sig) := by
  simp only [after_cons, after_nil]
  rfl

theorem hostOps0_2_keep_v6 :
    after hostOps0_2 U (main_v6 : DevRef τ sig) = U (main_v6 : DevRef τ sig) := by
  simp only [after_cons, after_nil]
  rfl

theorem hostOps0_2_keep_arg0 :
    after hostOps0_2 U (main_arg0 : DevRef τ sig) = U (main_arg0 : DevRef τ sig) := by
  simp only [after_cons, after_nil]
  rfl

theorem hostOps0_2_keep_arg3 :
    after hostOps0_2 U (main_arg3 : DevRef τ sig) = U (main_arg3 : DevRef τ sig) := by
  simp only [after_cons, after_nil]
  rfl

theorem graph_v3 : graphVal U (main_v3 : DevRef τ sig) = rowR (U (main_arg1 : DevRef τ sig)) := by
  show after hostOps0_2 _ _ = _
  rw [hostOps0_2_keep_v3, hostOps0_1_keep_v3, hostOps0_v3]

theorem graph_v6 : graphVal U (main_v6 : DevRef τ sig) = colR (U (main_arg1 : DevRef τ sig)) := by
  show after hostOps0_2 _ _ = _
  rw [hostOps0_2_keep_v6, hostOps0_1_keep_v6, hostOps0_v6]

theorem graph_v29 : graphVal U (main_v29 : DevRef τ sig) = normR (U (main_arg1 : DevRef τ sig)) := by
  show after hostOps0_2 _ _ = _
  rw [hostOps0_2_v29, hostOps0_1_v14, hostOps0_1_keep_v3, hostOps0_1_keep_v6, hostOps0_v12, hostOps0_v13,
    hostOps0_cst_2, hostOps0_v3, hostOps0_v6]
  rfl

theorem graph_v30 :
    graphVal U (main_v30 : DevRef τ sig)
      = fun i => shapeCast S1x128 (U (main_arg4 : DevRef τ sig)) shapeCasts_S128_S1x128 i := by
  show after hostOps0_2 _ _ = _
  rw [hostOps0_2_v30, hostOps0_1_keep_arg4, hostOps0_keep_arg4]

theorem graph_keep_arg0 : graphVal U (main_arg0 : DevRef τ sig) = U (main_arg0 : DevRef τ sig) := by
  show after hostOps0_2 _ _ = _
  rw [hostOps0_2_keep_arg0, hostOps0_1_keep_arg0, hostOps0_keep_arg0]

theorem graph_keep_arg3 : graphVal U (main_arg3 : DevRef τ sig) = U (main_arg3 : DevRef τ sig) := by
  show after hostOps0_2 _ _ = _
  rw [hostOps0_2_keep_arg3, hostOps0_1_keep_arg3, hostOps0_keep_arg3]

theorem hostOps1_v33 :
    after hostOps1 U (main_v33 : DevRef τ sig)
      = wSl (U (main_arg5 : DevRef τ sig)) ![0, 0, 0] Cert.ReferenceIdeal.Gen.slices_S4x128x128_S1x128x128_0_0_0 := by
  simp only [after_cons, after_nil]
  rfl

theorem hostOps1_v35 :
    after hostOps1 U (main_v35 : DevRef τ sig)
      = fun i => shapeCast S1x128 (broadcastInDim S128 ![] bcast_S_S128 (constant (F := F) S_ .f32 0x00000000#32)) shapeCasts_S128_S1x128 i := by
  simp only [after_cons, after_nil]
  rfl

theorem hostOps1_keep_v31 :
    after hostOps1 U (main_v31 : DevRef τ sig) = U (main_v31 : DevRef τ sig) := by
  simp only [after_cons, after_nil]
  rfl

theorem hostOps2_v49 :
    after hostOps2 U (main_v49 : DevRef τ sig)
      = aggR (U (main_v29 : DevRef τ sig)) (U (main_v3 : DevRef τ sig)) (U (main_v6 : DevRef τ sig)) (U (main_v36 : DevRef τ sig)) := by
  simp only [after_cons, after_nil]
  rfl

theorem hostOps2_v52 :
    after hostOps2 U (main_v52 : DevRef τ sig)
      = fun i => shapeCast S1x128 (vSl (U (main_arg6 : DevRef τ sig)) ![0, 0] Cert.ReferenceIdeal.Gen.slices_S4x128_S1x128_0_0) shapeCasts_S128_S1x128 i := by
  simp only [after_cons, after_nil]
  rfl

theorem hostOps3_v55 :
    after hostOps3 U (main_v55 : DevRef τ sig)
      = Host.divf (U (main_v53_1 : DevRef τ sig)) (broadcastInDim S1x128 ![] bcast_S_S1x128 nNodes) := by
  simp only [after_cons, after_nil]
  rfl

theorem hostOps3_v59 :
    after hostOps3 U (main_v59 : DevRef τ sig)
      = subf (Host.divf (U (main_v53_2 : DevRef τ sig)) (broadcastInDim S1x128 ![] bcast_S_S1x128 nNodes))
          (mulf (after hostOps3 U (main_v55 : DevRef τ sig)) (after hostOps3 U (main_v55 : DevRef τ sig))) := by
  simp only [after_cons, after_nil]
  rfl

theorem hostOps3_v64 :
    after hostOps3 U (main_v64 : DevRef τ sig)
      = fun i => shapeCast S1x128 (vSl (U (main_arg7 : DevRef τ sig)) ![0, 0] Cert.ReferenceIdeal.Gen.slices_S4x128_S1x128_0_0) shapeCasts_S128_S1x128 i := by
  simp only [after_cons, after_nil]
  rfl

theorem hostOps3_v65 :
    after hostOps3 U (main_v65 : DevRef τ sig)
      = fun i => shapeCast S1x128 (vSl (U (main_arg8 : DevRef τ sig)) ![0, 0] Cert.ReferenceIdeal.Gen.slices_S4x128_S1x128_0_0) shapeCasts_S128_S1x128 i := by
  simp only [after_cons, after_nil]
  rfl

theorem hostOps3_keep_v53_0 :
    after hostOps3 U (main_v53_0 : DevRef τ sig) = U (main_v53_0 : DevRef τ sig) := by
  simp only [after_cons, after_nil]
  rfl

theorem hostOps4_v68 :
    after hostOps4 U (main_v68 : DevRef τ sig)
      = wSl (U (main_arg5 : DevRef τ sig)) ![1, 0, 0] Cert.ReferenceIdeal.Gen.slices_S4x128x128_S1x128x128_1_0_0 := by
  simp only [after_cons, after_nil]
  rfl

theorem hostOps4_v70 :
    after hostOps4 U (main_v70 : DevRef τ sig)
      = fun i => shapeCast S1x128 (broadcastInDim S128 ![] bcast_S_S128 (constant (F := F) S_ .f32 0x00000000#32)) shapeCasts_S128_S1x128 i := by
  simp only [after_cons, after_nil]
  rfl

theorem hostOps4_keep_v66 :
    after hostOps4 U (main_v66 : DevRef τ sig) = U (main_v66 : DevRef τ sig) := by
  simp only [after_cons, after_nil]
  rfl

theorem hostOps5_v84 :
    after hostOps5 U (main_v84 : DevRef τ sig)
      = aggR (U (main_v29 : DevRef τ sig)) (U (main_v3 : DevRef τ sig)) (U (main_v6 : DevRef τ sig)) (U (main_v71 : DevRef τ sig)) := by
  simp only [after_cons, after_nil]
  rfl

theorem hostOps5_v87 :
    after hostOps5 U (main_v87 : DevRef τ sig)
      = fun i => shapeCast S1x128 (vSl (U (main_arg6 : DevRef τ sig)) ![1, 0] Cert.ReferenceIdeal.Gen.slices_S4x128_S1x128_1_0) shapeCasts_S128_S1x128 i := by
  simp only [after_cons, after_nil]
  rfl

theorem hostOps6_v90 :
    after hostOps6 U (main_v90 : DevRef τ sig)
      = Host.divf (U (main_v88_1 : DevRef τ sig)) (broadcastInDim S1x128 ![] bcast_S_S1x128 nNodes) := by
  simp only [after_cons, after_nil]
  rfl

theorem hostOps6_v94 :
    after hostOps6 U (main_v94 : DevRef τ sig)
      = subf (Host.divf (U (main_v88_2 : DevRef τ sig)) (broadcastInDim S1x128 ![] bcast_S_S1x128 nNodes))
          (mulf (after hostOps6 U (main_v90 : DevRef τ sig)) (after hostOps6 U (main_v90 : DevRef τ sig))) := by
  simp only [after_cons, after_nil]
  rfl

theorem hostOps6_v99 :
    after hostOps6 U (main_v99 : DevRef τ sig)
      = fun i => shapeCast S1x128 (vSl (U (main_arg7 : DevRef τ sig)) ![1, 0] Cert.ReferenceIdeal.Gen.slices_S4x128_S1x128_1_0) shapeCasts_S128_S1x128 i := by
  simp only [after_cons, after_nil]
  rfl

theorem hostOps6_v100 :
    after hostOps6 U (main_v100 : DevRef τ sig)
      = fun i => shapeCast S1x128 (vSl (U (main_arg8 : DevRef τ sig)) ![1, 0] Cert.ReferenceIdeal.Gen.slices_S4x128_S1x128_1_0) shapeCasts_S128_S1x128 i := by
  simp only [after_cons, after_nil]
  rfl

theorem hostOps6_keep_v88_0 :
    after hostOps6 U (main_v88_0 : DevRef τ sig) = U (main_v88_0 : DevRef τ sig) := by
  simp only [after_cons, after_nil]
  rfl

theorem hostOps7_v103 :
    after hostOps7 U (main_v103 : DevRef τ sig)
      = wSl (U (main_arg5 : DevRef τ sig)) ![2, 0, 0] Cert.ReferenceIdeal.Gen.slices_S4x128x128_S1x128x128_2_0_0 := by
  simp only [after_cons, after_nil]
  rfl

theorem hostOps7_v105 :
    after hostOps7 U (main_v105 : DevRef τ sig)
      = fun i => shapeCast S1x128 (broadcastInDim S128 ![] bcast_S_S128 (constant (F := F) S_ .f32 0x00000000#32)) shapeCasts_S128_S1x128 i := by
  simp only [after_cons, after_nil]
  rfl

theorem hostOps7_keep_v101 :
    after hostOps7 U (main_v101 : DevRef τ sig) = U (main_v101 : DevRef τ sig) := by
  simp only [after_cons, after_nil]
  rfl

theorem hostOps8_v119 :
    after hostOps8 U (main_v119 : DevRef τ sig)
      = aggR (U (main_v29 : DevRef τ sig)) (U (main_v3 : DevRef τ sig)) (U (main_v6 : DevRef τ sig)) (U (main_v106 : DevRef τ sig)) := by
  simp only [after_cons, after_nil]
  rfl

theorem hostOps8_v122 :
    after hostOps8 U (main_v122 : DevRef τ sig)
      = fun i => shapeCast S1x128 (vSl (U (main_arg6 : DevRef τ sig)) ![2, 0] Cert.ReferenceIdeal.Gen.slices_S4x128_S1x128_2_0) shapeCasts_S128_S1x128 i := by
  simp only [after_cons, after_nil]
  rfl

theorem hostOps9_v125 :
    after hostOps9 U (main_v125 : DevRef τ sig)
      = Host.divf (U (main_v123_1 : DevRef τ sig)) (broadcastInDim S1x128 ![] bcast_S_S1x128 nNodes) := by
  simp only [after_cons, after_nil]
  rfl

theorem hostOps9_v129 :
    after hostOps9 U (main_v129 : DevRef τ sig)
      = subf (Host.divf (U (main_v123_2 : DevRef τ sig)) (broadcastInDim S1x128 ![] bcast_S_S1x128 nNodes))
          (mulf (after hostOps9 U (main_v125 : DevRef τ sig)) (after hostOps9 U (main_v125 : DevRef τ sig))) := by
  simp only [after_cons, after_nil]
  rfl

theorem hostOps9_v134 :
    after hostOps9 U (main_v134 : DevRef τ sig)
      = fun i => shapeCast S1x128 (vSl (U (main_arg7 : DevRef τ sig)) ![2, 0] Cert.ReferenceIdeal.Gen.slices_S4x128_S1x128_2_0) shapeCasts_S128_S1x128 i := by
  simp only [after_cons, after_nil]
  rfl

theorem hostOps9_v135 :
    after hostOps9 U (main_v135 : DevRef τ sig)
      = fun i => shapeCast S1x128 (vSl (U (main_arg8 : DevRef τ sig)) ![2, 0] Cert.ReferenceIdeal.Gen.slices_S4x128_S1x128_2_0) shapeCasts_S128_S1x128 i := by
  simp only [after_cons, after_nil]
  rfl

theorem hostOps9_keep_v123_0 :
    after hostOps9 U (main_v123_0 : DevRef τ sig) = U (main_v123_0 : DevRef τ sig) := by
  simp only [after_cons, after_nil]
  rfl

theorem hostOps10_v138 :
    after hostOps10 U (main_v138 : DevRef τ sig)
      = wSl (U (main_arg5 : DevRef τ sig)) ![3, 0, 0] Cert.ReferenceIdeal.Gen.slices_S4x128x128_S1x128x128_3_0_0 := by
  simp only [after_cons, after_nil]
  rfl

theorem hostOps10_v140 :
    after hostOps10 U (main_v140 : DevRef τ sig)
      = fun i => shapeCast S1x128 (broadcastInDim S128 ![] bcast_S_S128 (constant (F := F) S_ .f32 0x00000000#32)) shapeCasts_S128_S1x128 i := by
  simp only [after_cons, after_nil]
  rfl

theorem hostOps10_keep_v136 :
    after hostOps10 U (main_v136 : DevRef τ sig) = U (main_v136 : DevRef τ sig) := by
  simp only [after_cons, after_nil]
  rfl

theorem hostOps11_v154 :
    after hostOps11 U (main_v154 : DevRef τ sig)
      = aggR (U (main_v29 : DevRef τ sig)) (U (main_v3 : DevRef τ sig)) (U (main_v6 : DevRef τ sig)) (U (main_v141 : DevRef τ sig)) := by
  simp only [after_cons, after_nil]
  rfl

theorem hostOps11_v157 :
    after hostOps11 U (main_v157 : DevRef τ sig)
      = fun i => shapeCast S1x128 (vSl (U (main_arg6 : DevRef τ sig)) ![3, 0] Cert.ReferenceIdeal.Gen.slices_S4x128_S1x128_3_0) shapeCasts_S128_S1x128 i := by
  simp only [after_cons, after_nil]
  rfl

theorem hostOps12_v160 :
    after hostOps12 U (main_v160 : DevRef τ sig)
      = Host.divf (U (main_v158_1 : DevRef τ sig)) (broadcastInDim S1x128 ![] bcast_S_S1x128 nNodes) := by
  simp only [after_cons, after_nil]
  rfl

theorem hostOps12_v164 :
    after hostOps12 U (main_v164 : DevRef τ sig)
      = subf (Host.divf (U (main_v158_2 : DevRef τ sig)) (broadcastInDim S1x128 ![] bcast_S_S1x128 nNodes))
          (mulf (after hostOps12 U (main_v160 : DevRef τ sig)) (after hostOps12 U (main_v160 : DevRef τ sig))) := by
  simp only [after_cons, after_nil]
  rfl

theorem hostOps12_v169 :
    after hostOps12 U (main_v169 : DevRef τ sig)
      = fun i => shapeCast S1x128 (vSl (U (main_arg7 : DevRef τ sig)) ![3, 0] Cert.ReferenceIdeal.Gen.slices_S4x128_S1x128_3_0) shapeCasts_S128_S1x128 i := by
  simp only [after_cons, after_nil]
  rfl

theorem hostOps12_v170 :
    after hostOps12 U (main_v170 : DevRef τ sig)
      = fun i => shapeCast S1x128 (vSl (U (main_arg8 : DevRef τ sig)) ![3, 0] Cert.ReferenceIdeal.Gen.slices_S4x128_S1x128_3_0) shapeCasts_S128_S1x128 i := by
  simp only [after_cons, after_nil]
  rfl

theorem hostOps12_keep_v158_0 :
    after hostOps12 U (main_v158_0 : DevRef τ sig) = U (main_v158_0 : DevRef τ sig) := by
  simp only [after_cons, after_nil]
  rfl

theorem hostOps13_v172 :
    after hostOps13 U (main_v172 : DevRef τ sig)
      = fun i => shapeCast S50000x1 (U (main_arg2 : DevRef τ sig)) shapeCasts_S50000_S50000x1 i := by
  simp only [after_cons, after_nil]
  rfl

theorem hostOps13_v173 :
    after hostOps13 U (main_v173 : DevRef τ sig)
      = fun i => shapeCast S1x10 (U (main_arg10 : DevRef τ sig)) shapeCasts_S10_S1x10 i := by
  simp only [after_cons, after_nil]
  rfl

theorem hostOps13_keep_v171 :
    after hostOps13 U (main_v171 : DevRef τ sig) = U (main_v171 : DevRef τ sig) := by
  simp only [after_cons, after_nil]
  rfl

theorem hostOps13_keep_arg9 :
    after hostOps13 U (main_arg9 : DevRef τ sig) = U (main_arg9 : DevRef τ sig) := by
  simp only [after_cons, after_nil]
  rfl

end Cert.KernelIdeal.Val

end
-- ==== Proof.Val.LinLaws.lean ====
import proofs.«408439_j66932770341395_1_alg».proof.Proof.Gen.ReferenceIdeal
import Idealize.ShloMosaic.PureOps.Ideal.Laws
import Idealize.ShloMosaic.Lib.ValueIdx
import Idealize.ShloMosaic.Lib.Pipeline.Value
import Idealize.ShloMosaic.Lib.ValueLayout
import Idealize.ShloMosaic.Lib.KernelVsHost
noncomputable section
namespace Cert.KernelIdeal.Val
open Idealize.ShloMosaic Idealize.ShloMosaic.ValueIdx
open scoped BigOperators
variable {m k n : ℕ} {φ₁ φ₂ : FTy}
theorem matmul_zero_rowcol_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  show FloatOps.matmul _ prec A B (constant ⟨2, ![m, n]⟩ .f32 0x00000000#32) (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]
theorem dotGeneral_rowcol_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]
theorem lin_payload_apply (w : DotDims.WF ⟨2, ![m, k]⟩ ⟨2, ![k, n]⟩ ⟨2, ![m, n]⟩ [1] [0] [0] [1] [] [])
    (x0 : FVec Ideal ⟨2, ![m, k]⟩ .f32) (x1 : FVec Ideal ⟨2, ![k, n]⟩ .f32) (x2 : FVec Ideal ⟨2, ![1, n]⟩ .f32)
    (h0 : FTy.bits .bf16 < FTy.bits .f32) (h1 : FTy.bits .bf16 < FTy.bits .f32)
    (hb : (⟨2, ![1, n]⟩ : Shape).Broadcasts ⟨2, ![m, n]⟩) (r : Fin m) (j : Fin n) :
    addf (matmul (⟨[1], [0], [0], [1], [], [], w⟩ : DotDims _ _ _) none (truncf .bf16 x0 h0) (truncf .bf16 x1 h1)
        (constant ⟨2, ![m, n]⟩ .f32 0x00000000#32)) (broadcastTo ⟨2, ![m, n]⟩ x2 hb) (ix2 r j)
      = (∑ c : Fin k, x0 (ix2 r c) * x1 (ix2 c j)) + x2 (ix2 (0 : Fin 1) j) := by
  show matmul (⟨[1], [0], [0], [1], [], [], w⟩ : DotDims _ _ _) none (truncf .bf16 x0 h0) (truncf .bf16 x1 h1)
        (constant ⟨2, ![m, n]⟩ .f32 0x00000000#32) (ix2 r j) + broadcastTo ⟨2, ![m, n]⟩ x2 hb (ix2 r j) = _
  rw [matmul_zero_rowcol_apply, broadcastTo_1b_ab_apply]
  rfl
abbrev linRef (X : FVec Ideal ⟨2, ![50000, 128]⟩ .f32) (Wt : FVec Ideal ⟨2, ![128, 128]⟩ .f32) (B : FVec Ideal ⟨2, ![1, 128]⟩ .f32) :
    FVec Ideal ⟨2, ![50000, 128]⟩ .f32 :=
  addf (F := Ideal) (Host.dotGeneral (F := Ideal) Cert.ReferenceIdeal.dot_S50000x128_S128x128_S50000x128_1_0_0_1_n_n none X Wt)
    (broadcastInDim Cert.ReferenceIdeal.S50000x128 ![0, 1] Cert.ReferenceIdeal.Gen.bcast_S1x128_S50000x128_0_1 B)
theorem linRef_apply (X : FVec Ideal ⟨2, ![50000, 128]⟩ .f32) (Wt : FVec Ideal ⟨2, ![128, 128]⟩ .f32) (B : FVec Ideal ⟨2, ![1, 128]⟩ .f32)
    (i : Fin 50000) (j : Fin 128) :
    linRef X Wt B (ix2 i j) = (∑ c : Fin 128, X (ix2 i c) * Wt (ix2 c j)) + B (ix2 (0 : Fin 1) j) := by
  show Host.dotGeneral (F := Ideal) Cert.ReferenceIdeal.dot_S50000x128_S128x128_S50000x128_1_0_0_1_n_n none X Wt (ix2 i j)
    + broadcastInDim Cert.ReferenceIdeal.S50000x128 ![0, 1] Cert.ReferenceIdeal.Gen.bcast_S1x128_S50000x128_0_1 B (ix2 i j) = _
  rw [broadcastInDim_oneRow_apply]
  exact congrArg (· + B (ix2 (0 : Fin 1) j))
    (dotGeneral_rowcol_apply Cert.ReferenceIdeal.Gen.dot_S50000x128_S128x128_S50000x128_1_0_0_1_n_n_wf none X Wt i j)
theorem linRef_zero_bias (X : FVec Ideal ⟨2, ![50000, 128]⟩ .f32) (Wt : FVec Ideal ⟨2, ![128, 128]⟩ .f32) :
    linRef X Wt (fun _ => (0 : Ideal .f32))
      = Host.dotGeneral (F := Ideal) Cert.ReferenceIdeal.dot_S50000x128_S128x128_S50000x128_1_0_0_1_n_n none X Wt := by
  funext i
  obtain ⟨a, b, rfl⟩ : ∃ (a : Fin 50000) (b : Fin 128), i = ix2 a b := ⟨i 0, i 1, eq_ix2 i⟩
  show Host.dotGeneral (F := Ideal) Cert.ReferenceIdeal.dot_S50000x128_S128x128_S50000x128_1_0_0_1_n_n none X Wt (ix2 a b)
    + broadcastInDim (s := Cert.ReferenceIdeal.S1x128) Cert.ReferenceIdeal.S50000x128 ![0, 1] Cert.ReferenceIdeal.Gen.bcast_S1x128_S50000x128_0_1 (fun _ => (0 : Ideal .f32)) (ix2 a b) = _
  rw [broadcastInDim_oneRow_apply]
  exact add_zero _
theorem lin_hz : (![0, 0] : Fin 2 → Nat) = fun _ => 0 := funext fun a => by fin_cases a <;> rfl

-- A view's image of a block index lies in the view's index set.
theorem lin_mem_of_emb {sig : RefSig} {κ : Kind} {sp : Space} {s : Shape} {e : EltTy} {v : View sig κ sp s e} {x : s.Idx} {i}
    (h : v.emb x = i) : i ∈ v.set := h ▸ v.emb_mem_set x

end Cert.KernelIdeal.Val
end
-- ==== Proof.Val.Lin00.lean ====
import proofs.«408439_j66932770341395_1_alg».proof.Proof.KI.R00
import proofs.«408439_j66932770341395_1_alg».proof.Proof.Gen.ReferenceIdeal
import proofs.«408439_j66932770341395_1_alg».proof.Proof.Val.LinLaws
import Idealize.ShloMosaic.PureOps.Ideal.Laws
import Idealize.ShloMosaic.Lib.ValueIdx
import Idealize.ShloMosaic.Lib.Pipeline.Value
import Idealize.ShloMosaic.Lib.ValueLayout
set_option maxRecDepth 16384
noncomputable section
namespace Cert.KernelIdeal.Val
open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat Cfg Window)
open scoped BigOperators
variable (V : (c : Dev nD) → (b : Ref sig .tc) → Buf (Elt Ideal) ((c : Thread nD τ).loc b))

abbrev lin_x0 (c : Dev nD) : Vec Ideal S50000x128 .f32 := V c (Pipeline.arrRef spec0 0)
abbrev lin_w0 (c : Dev nD) : Vec Ideal S128x128 .f32 := V c (Pipeline.arrRef spec0 1)
abbrev lin_b0 (c : Dev nD) : Vec Ideal S1x128 .f32 := V c (Pipeline.arrRef spec0 2)

theorem lin_pay0 (x : Vec Ideal S5000x128 .f32) (w : Vec Ideal S128x128 .f32) (b : Vec Ideal S1x128 .f32) (r : Fin 5000) (j : Fin 128) :
    k0_pay1 (F := Ideal) x w b (ix2 r j) = (∑ k : Fin 128, x (ix2 r k) * w (ix2 k j)) + b (ix2 (0 : Fin 1) j) := by
  unfold k0_pay1
  simp only [shapeCast_self]
  exact lin_payload_apply dot_S5000x128_S128x128_S5000x128_1_0_0_1_n_n_wf x w b _ _ _ r j

theorem lin_idx0 : ∀ t : Fin cfg0.N, (win0_0.index t 0 = t.val ∧ win0_0.index t 1 = 0) ∧ (∀ a, win0_1.index t a = 0)
    ∧ (∀ a, win0_2.index t a = 0) ∧ win0_3.index t 0 = t.val ∧ win0_3.index t 1 = 0 :=
  (by decide +kernel : ∀ t : Fin grid0.N, _)

theorem lin_emb0_0 (t : Fin cfg0.N) (r : Fin 5000) (k : Fin 128) (i : Fin 50000) (hi : i.val = 5000 * t.val + r.val) :
    ((cfg0.win 0).blk t).view.emb (ix2 r k) = ix2 i k :=
  Shape.idx_ext₂ (by show win0_0.index t 0 * 5000 + 1 * r.val = i.val; rw [(lin_idx0 t).1.1, hi]; omega)
    (by show win0_0.index t 1 * 128 + 1 * k.val = k.val; rw [(lin_idx0 t).1.2]; omega)
theorem lin_emb0_3 (t : Fin cfg0.N) (y : S5000x128.Idx) (i : S50000x128.Idx) (hi : (i 0).val = 5000 * t.val + (y 0).val)
    (hq : (i 1).val = (y 1).val) : ((cfg0.win 3).blk t).view.emb y = i :=
  Shape.idx_ext₂ (by show win0_3.index t 0 * 5000 + 1 * (y 0).val = _; rw [(lin_idx0 t).2.2.2.1, hi]; omega)
    (by show win0_3.index t 1 * 128 + 1 * (y 1).val = _; rw [(lin_idx0 t).2.2.2.2, hq]; omega)
theorem lin_iblk0_1 (c : Dev nD) (t : Fin cfg0.N) : (iblk0 V c 1 t : Vec Ideal S128x128 .f32) = lin_w0 V c :=
  funext fun y => congrArg (lin_w0 V c) (funext fun a => Fin.ext (win0_1.rect_emb_val_of_index_zero t a ((lin_idx0 t).2.1 a) y))
theorem lin_iblk0_2 (c : Dev nD) (t : Fin cfg0.N) : (iblk0 V c 2 t : Vec Ideal S1x128 .f32) = lin_b0 V c :=
  funext fun y => congrArg (lin_b0 V c) (funext fun a => Fin.ext (win0_2.rect_emb_val_of_index_zero t a ((lin_idx0 t).2.2.1 a) y))

theorem lin_final0 (c : Dev nD) (X : Vec Ideal S50000x128 .f32) (Wt : Vec Ideal S128x128 .f32) (B : Vec Ideal S1x128 .f32)
    (hX : (dat0 (F := Ideal) V c).A 0 = X) (hW : (dat0 (F := Ideal) V c).A 1 = Wt) (hB : (dat0 (F := Ideal) V c).A 2 = B) :
    (dat0 (F := Ideal) V c).arrAt 3 cfg0.N
      = addf (F := Ideal) (Host.dotGeneral (F := Ideal) (φ₁ := .f32) (φ₂ := .f32) Cert.ReferenceIdeal.dot_S50000x128_S128x128_S50000x128_1_0_0_1_n_n none X Wt)
          (broadcastInDim S50000x128 ![0, 1] Cert.ReferenceIdeal.Gen.bcast_S1x128_S50000x128_0_1 B) := by
  subst hX hW hB
  refine (dat0 V c).arrAt_eq_of_cover 3 (linRef (lin_x0 V c) (lin_w0 V c) (lin_b0 V c)) (fun t _ => ?_)
    fun (i : S50000x128.Idx) => ?_
  · show (cfg0.win 3).cut (grid0.coords t) ((dat0 V c).after 3 t) = _
    rw [after0_3, lin_iblk0_1, lin_iblk0_2]
    unfold out0_3
    rw [View.canon_unit_zero lin_hz]
    simp only [View.ld_unit_zero (S := S5000x128) lin_hz, View.ld_unit_zero (S := S128x128) lin_hz, View.ld_unit_zero (S := S1x128) lin_hz]
    refine funext fun (y : S5000x128.Idx) => ?_
    obtain ⟨r, j, rfl⟩ : ∃ (r : Fin 5000) (j : Fin 128), y = ix2 r j := ⟨y 0, y 1, eq_ix2 y⟩
    have hr : 5000 * t.val + r.val < 50000 := by have := r.isLt; have := lt_of_lt_of_eq t.isLt N_0; omega
    refine ((lin_pay0 _ _ _ r j).trans ?_).trans (congrArg (linRef (lin_x0 V c) (lin_w0 V c) (lin_b0 V c))
      (lin_emb0_3 t (ix2 r j) (ix2 ⟨_, hr⟩ j) rfl rfl).symm)
    rw [linRef_apply]
    exact congrArg (· + _) (Finset.sum_congr rfl fun k _ =>
      congrArg (· * _) (congrArg (lin_x0 V c) (lin_emb0_0 t r k ⟨_, hr⟩ rfl)))
  · have hi : (i 0).val / 5000 < cfg0.N := by rw [show cfg0.N = 10 from N_0]; have := idx2_lt0 i; omega
    exact ⟨⟨_, hi⟩, flush0_3 _, lin_mem_of_emb (lin_emb0_3 ⟨_, hi⟩
      (ix2 ⟨(i 0).val % 5000, Nat.mod_lt _ (by decide)⟩ (i 1)) i (Nat.div_add_mod _ _).symm rfl)⟩

theorem lin_final0_zero_bias (c : Dev nD) (X : Vec Ideal S50000x128 .f32) (Wt : Vec Ideal S128x128 .f32)
    (hX : (dat0 (F := Ideal) V c).A 0 = X) (hW : (dat0 (F := Ideal) V c).A 1 = Wt) (hB : (dat0 (F := Ideal) V c).A 2 = fun _ => (0 : EReal)) :
    (dat0 (F := Ideal) V c).arrAt 3 cfg0.N
      = Host.dotGeneral (F := Ideal) (φ₁ := .f32) (φ₂ := .f32) Cert.ReferenceIdeal.dot_S50000x128_S128x128_S50000x128_1_0_0_1_n_n none X Wt :=
  (lin_final0 V c X Wt (fun _ => (0 : Ideal .f32)) hX hW hB).trans (linRef_zero_bias X Wt)

end Cert.KernelIdeal.Val
end
-- ==== Proof.Val.Lin01.lean ====
import proofs.«408439_j66932770341395_1_alg».proof.Proof.KI.R01
import proofs.«408439_j66932770341395_1_alg».proof.Proof.Gen.ReferenceIdeal
import proofs.«408439_j66932770341395_1_alg».proof.Proof.Val.LinLaws
import Idealize.ShloMosaic.PureOps.Ideal.Laws
import Idealize.ShloMosaic.Lib.ValueIdx
import Idealize.ShloMosaic.Lib.Pipeline.Value
import Idealize.ShloMosaic.Lib.ValueLayout
set_option maxRecDepth 16384
noncomputable section
namespace Cert.KernelIdeal.Val
open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat Cfg Window)
open scoped BigOperators
variable (V : (c : Dev nD) → (b : Ref sig .tc) → Buf (Elt Ideal) ((c : Thread nD τ).loc b))

abbrev lin_x1 (c : Dev nD) : Vec Ideal S50000x128 .f32 := V c (Pipeline.arrRef spec1 0)
abbrev lin_w1 (c : Dev nD) : Vec Ideal S128x128 .f32 := V c (Pipeline.arrRef spec1 1)
abbrev lin_b1 (c : Dev nD) : Vec Ideal S1x128 .f32 := V c (Pipeline.arrRef spec1 2)

theorem lin_pay1 (x : Vec Ideal S5000x128 .f32) (w : Vec Ideal S128x128 .f32) (b : Vec Ideal S1x128 .f32) (r : Fin 5000) (j : Fin 128) :
    k1_pay1 (F := Ideal) x w b (ix2 r j) = (∑ k : Fin 128, x (ix2 r k) * w (ix2 k j)) + b (ix2 (0 : Fin 1) j) := by
  unfold k1_pay1
  simp only [shapeCast_self]
  exact lin_payload_apply dot_S5000x128_S128x128_S5000x128_1_0_0_1_n_n_wf x w b _ _ _ r j

theorem lin_idx1 : ∀ t : Fin cfg1.N, (win1_0.index t 0 = t.val ∧ win1_0.index t 1 = 0) ∧ (∀ a, win1_1.index t a = 0)
    ∧ (∀ a, win1_2.index t a = 0) ∧ win1_3.index t 0 = t.val ∧ win1_3.index t 1 = 0 :=
  (by decide +kernel : ∀ t : Fin grid1.N, _)

theorem lin_emb1_0 (t : Fin cfg1.N) (r : Fin 5000) (k : Fin 128) (i : Fin 50000) (hi : i.val = 5000 * t.val + r.val) :
    ((cfg1.win 0).blk t).view.emb (ix2 r k) = ix2 i k :=
  Shape.idx_ext₂ (by show win1_0.index t 0 * 5000 + 1 * r.val = i.val; rw [(lin_idx1 t).1.1, hi]; omega)
    (by show win1_0.index t 1 * 128 + 1 * k.val = k.val; rw [(lin_idx1 t).1.2]; omega)
theorem lin_emb1_3 (t : Fin cfg1.N) (y : S5000x128.Idx) (i : S50000x128.Idx) (hi : (i 0).val = 5000 * t.val + (y 0).val)
    (hq : (i 1).val = (y 1).val) : ((cfg1.win 3).blk t).view.emb y = i :=
  Shape.idx_ext₂ (by show win1_3.index t 0 * 5000 + 1 * (y 0).val = _; rw [(lin_idx1 t).2.2.2.1, hi]; omega)
    (by show win1_3.index t 1 * 128 + 1 * (y 1).val = _; rw [(lin_idx1 t).2.2.2.2, hq]; omega)
theorem lin_iblk1_1 (c : Dev nD) (t : Fin cfg1.N) : (iblk1 V c 1 t : Vec Ideal S128x128 .f32) = lin_w1 V c :=
  funext fun y => congrArg (lin_w1 V c) (funext fun a => Fin.ext (win1_1.rect_emb_val_of_index_zero t a ((lin_idx1 t).2.1 a) y))
theorem lin_iblk1_2 (c : Dev nD) (t : Fin cfg1.N) : (iblk1 V c 2 t : Vec Ideal S1x128 .f32) = lin_b1 V c :=
  funext fun y => congrArg (lin_b1 V c) (funext fun a => Fin.ext (win1_2.rect_emb_val_of_index_zero t a ((lin_idx1 t).2.2.1 a) y))

theorem lin_final1 (c : Dev nD) (X : Vec Ideal S50000x128 .f32) (Wt : Vec Ideal S128x128 .f32) (B : Vec Ideal S1x128 .f32)
    (hX : (dat1 (F := Ideal) V c).A 0 = X) (hW : (dat1 (F := Ideal) V c).A 1 = Wt) (hB : (dat1 (F := Ideal) V c).A 2 = B) :
    (dat1 (F := Ideal) V c).arrAt 3 cfg1.N
      = addf (F := Ideal) (Host.dotGeneral (F := Ideal) (φ₁ := .f32) (φ₂ := .f32) Cert.ReferenceIdeal.dot_S50000x128_S128x128_S50000x128_1_0_0_1_n_n none X Wt)
          (broadcastInDim S50000x128 ![0, 1] Cert.ReferenceIdeal.Gen.bcast_S1x128_S50000x128_0_1 B) := by
  subst hX hW hB
  refine (dat1 V c).arrAt_eq_of_cover 3 (linRef (lin_x1 V c) (lin_w1 V c) (lin_b1 V c)) (fun t _ => ?_)
    fun (i : S50000x128.Idx) => ?_
  · show (cfg1.win 3).cut (grid1.coords t) ((dat1 V c).after 3 t) = _
    rw [after1_3, lin_iblk1_1, lin_iblk1_2]
    unfold out1_3
    rw [View.canon_unit_zero lin_hz]
    simp only [View.ld_unit_zero (S := S5000x128) lin_hz, View.ld_unit_zero (S := S128x128) lin_hz, View.ld_unit_zero (S := S1x128) lin_hz]
    refine funext fun (y : S5000x128.Idx) => ?_
    obtain ⟨r, j, rfl⟩ : ∃ (r : Fin 5000) (j : Fin 128), y = ix2 r j := ⟨y 0, y 1, eq_ix2 y⟩
    have hr : 5000 * t.val + r.val < 50000 := by have := r.isLt; have := lt_of_lt_of_eq t.isLt N_1; omega
    refine ((lin_pay1 _ _ _ r j).trans ?_).trans (congrArg (linRef (lin_x1 V c) (lin_w1 V c) (lin_b1 V c))
      (lin_emb1_3 t (ix2 r j) (ix2 ⟨_, hr⟩ j) rfl rfl).symm)
    rw [linRef_apply]
    exact congrArg (· + _) (Finset.sum_congr rfl fun k _ =>
      congrArg (· * _) (congrArg (lin_x1 V c) (lin_emb1_0 t r k ⟨_, hr⟩ rfl)))
  · have hi : (i 0).val / 5000 < cfg1.N := by rw [show cfg1.N = 10 from N_1]; have := idx2_lt0 i; omega
    exact ⟨⟨_, hi⟩, flush1_3 _, lin_mem_of_emb (lin_emb1_3 ⟨_, hi⟩
      (ix2 ⟨(i 0).val % 5000, Nat.mod_lt _ (by decide)⟩ (i 1)) i (Nat.div_add_mod _ _).symm rfl)⟩

theorem lin_final1_zero_bias (c : Dev nD) (X : Vec Ideal S50000x128 .f32) (Wt : Vec Ideal S128x128 .f32)
    (hX : (dat1 (F := Ideal) V c).A 0 = X) (hW : (dat1 (F := Ideal) V c).A 1 = Wt) (hB : (dat1 (F := Ideal) V c).A 2 = fun _ => (0 : EReal)) :
    (dat1 (F := Ideal) V c).arrAt 3 cfg1.N
      = Host.dotGeneral (F := Ideal) (φ₁ := .f32) (φ₂ := .f32) Cert.ReferenceIdeal.dot_S50000x128_S128x128_S50000x128_1_0_0_1_n_n none X Wt :=
  (lin_final1 V c X Wt (fun _ => (0 : Ideal .f32)) hX hW hB).trans (linRef_zero_bias X Wt)

end Cert.KernelIdeal.Val
end
-- ==== Proof.Val.Lin04.lean ====
import proofs.«408439_j66932770341395_1_alg».proof.Proof.KI.R04
import proofs.«408439_j66932770341395_1_alg».proof.Proof.Gen.ReferenceIdeal
import proofs.«408439_j66932770341395_1_alg».proof.Proof.Val.LinLaws
import Idealize.ShloMosaic.PureOps.Ideal.Laws
import Idealize.ShloMosaic.Lib.ValueIdx
import Idealize.ShloMosaic.Lib.Pipeline.Value
import Idealize.ShloMosaic.Lib.ValueLayout
set_option maxRecDepth 16384
noncomputable section
namespace Cert.KernelIdeal.Val
open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat Cfg Window)
open scoped BigOperators
variable (V : (c : Dev nD) → (b : Ref sig .tc) → Buf (Elt Ideal) ((c : Thread nD τ).loc b))

abbrev lin_x4 (c : Dev nD) : Vec Ideal S50000x128 .f32 := V c (Pipeline.arrRef spec4 0)
abbrev lin_w4 (c : Dev nD) : Vec Ideal S128x128 .f32 := V c (Pipeline.arrRef spec4 1)
abbrev lin_b4 (c : Dev nD) : Vec Ideal S1x128 .f32 := V c (Pipeline.arrRef spec4 2)

theorem lin_pay4 (x : Vec Ideal S5000x128 .f32) (w : Vec Ideal S128x128 .f32) (b : Vec Ideal S1x128 .f32) (r : Fin 5000) (j : Fin 128) :
    k4_pay1 (F := Ideal) x w b (ix2 r j) = (∑ k : Fin 128, x (ix2 r k) * w (ix2 k j)) + b (ix2 (0 : Fin 1) j) := by
  unfold k4_pay1
  simp only [shapeCast_self]
  exact lin_payload_apply dot_S5000x128_S128x128_S5000x128_1_0_0_1_n_n_wf x w b _ _ _ r j

theorem lin_idx4 : ∀ t : Fin cfg4.N, (win4_0.index t 0 = t.val ∧ win4_0.index t 1 = 0) ∧ (∀ a, win4_1.index t a = 0)
    ∧ (∀ a, win4_2.index t a = 0) ∧ win4_3.index t 0 = t.val ∧ win4_3.index t 1 = 0 :=
  (by decide +kernel : ∀ t : Fin grid4.N, _)

theorem lin_emb4_0 (t : Fin cfg4.N) (r : Fin 5000) (k : Fin 128) (i : Fin 50000) (hi : i.val = 5000 * t.val + r.val) :
    ((cfg4.win 0).blk t).view.emb (ix2 r k) = ix2 i k :=
  Shape.idx_ext₂ (by show win4_0.index t 0 * 5000 + 1 * r.val = i.val; rw [(lin_idx4 t).1.1, hi]; omega)
    (by show win4_0.index t 1 * 128 + 1 * k.val = k.val; rw [(lin_idx4 t).1.2]; omega)
theorem lin_emb4_3 (t : Fin cfg4.N) (y : S5000x128.Idx) (i : S50000x128.Idx) (hi : (i 0).val = 5000 * t.val + (y 0).val)
    (hq : (i 1).val = (y 1).val) : ((cfg4.win 3).blk t).view.emb y = i :=
  Shape.idx_ext₂ (by show win4_3.index t 0 * 5000 + 1 * (y 0).val = _; rw [(lin_idx4 t).2.2.2.1, hi]; omega)
    (by show win4_3.index t 1 * 128 + 1 * (y 1).val = _; rw [(lin_idx4 t).2.2.2.2, hq]; omega)
theorem lin_iblk4_1 (c : Dev nD) (t : Fin cfg4.N) : (iblk4 V c 1 t : Vec Ideal S128x128 .f32) = lin_w4 V c :=
  funext fun y => congrArg (lin_w4 V c) (funext fun a => Fin.ext (win4_1.rect_emb_val_of_index_zero t a ((lin_idx4 t).2.1 a) y))
theorem lin_iblk4_2 (c : Dev nD) (t : Fin cfg4.N) : (iblk4 V c 2 t : Vec Ideal S1x128 .f32) = lin_b4 V c :=
  funext fun y => congrArg (lin_b4 V c) (funext fun a => Fin.ext (win4_2.rect_emb_val_of_index_zero t a ((lin_idx4 t).2.2.1 a) y))

theorem lin_final4 (c : Dev nD) (X : Vec Ideal S50000x128 .f32) (Wt : Vec Ideal S128x128 .f32) (B : Vec Ideal S1x128 .f32)
    (hX : (dat4 (F := Ideal) V c).A 0 = X) (hW : (dat4 (F := Ideal) V c).A 1 = Wt) (hB : (dat4 (F := Ideal) V c).A 2 = B) :
    (dat4 (F := Ideal) V c).arrAt 3 cfg4.N
      = addf (F := Ideal) (Host.dotGeneral (F := Ideal) (φ₁ := .f32) (φ₂ := .f32) Cert.ReferenceIdeal.dot_S50000x128_S128x128_S50000x128_1_0_0_1_n_n none X Wt)
          (broadcastInDim S50000x128 ![0, 1] Cert.ReferenceIdeal.Gen.bcast_S1x128_S50000x128_0_1 B) := by
  subst hX hW hB
  refine (dat4 V c).arrAt_eq_of_cover 3 (linRef (lin_x4 V c) (lin_w4 V c) (lin_b4 V c)) (fun t _ => ?_)
    fun (i : S50000x128.Idx) => ?_
  · show (cfg4.win 3).cut (grid4.coords t) ((dat4 V c).after 3 t) = _
    rw [after4_3, lin_iblk4_1, lin_iblk4_2]
    unfold out4_3
    rw [View.canon_unit_zero lin_hz]
    simp only [View.ld_unit_zero (S := S5000x128) lin_hz, View.ld_unit_zero (S := S128x128) lin_hz, View.ld_unit_zero (S := S1x128) lin_hz]
    refine funext fun (y : S5000x128.Idx) => ?_
    obtain ⟨r, j, rfl⟩ : ∃ (r : Fin 5000) (j : Fin 128), y = ix2 r j := ⟨y 0, y 1, eq_ix2 y⟩
    have hr : 5000 * t.val + r.val < 50000 := by have := r.isLt; have := lt_of_lt_of_eq t.isLt N_4; omega
    refine ((lin_pay4 _ _ _ r j).trans ?_).trans (congrArg (linRef (lin_x4 V c) (lin_w4 V c) (lin_b4 V c))
      (lin_emb4_3 t (ix2 r j) (ix2 ⟨_, hr⟩ j) rfl rfl).symm)
    rw [linRef_apply]
    exact congrArg (· + _) (Finset.sum_congr rfl fun k _ =>
      congrArg (· * _) (congrArg (lin_x4 V c) (lin_emb4_0 t r k ⟨_, hr⟩ rfl)))
  · have hi : (i 0).val / 5000 < cfg4.N := by rw [show cfg4.N = 10 from N_4]; have := idx2_lt0 i; omega
    exact ⟨⟨_, hi⟩, flush4_3 _, lin_mem_of_emb (lin_emb4_3 ⟨_, hi⟩
      (ix2 ⟨(i 0).val % 5000, Nat.mod_lt _ (by decide)⟩ (i 1)) i (Nat.div_add_mod _ _).symm rfl)⟩

theorem lin_final4_zero_bias (c : Dev nD) (X : Vec Ideal S50000x128 .f32) (Wt : Vec Ideal S128x128 .f32)
    (hX : (dat4 (F := Ideal) V c).A 0 = X) (hW : (dat4 (F := Ideal) V c).A 1 = Wt) (hB : (dat4 (F := Ideal) V c).A 2 = fun _ => (0 : EReal)) :
    (dat4 (F := Ideal) V c).arrAt 3 cfg4.N
      = Host.dotGeneral (F := Ideal) (φ₁ := .f32) (φ₂ := .f32) Cert.ReferenceIdeal.dot_S50000x128_S128x128_S50000x128_1_0_0_1_n_n none X Wt :=
  (lin_final4 V c X Wt (fun _ => (0 : Ideal .f32)) hX hW hB).trans (linRef_zero_bias X Wt)

end Cert.KernelIdeal.Val
end
-- ==== Proof.Val.Lin07.lean ====
import proofs.«408439_j66932770341395_1_alg».proof.Proof.KI.R07
import proofs.«408439_j66932770341395_1_alg».proof.Proof.Gen.ReferenceIdeal
import proofs.«408439_j66932770341395_1_alg».proof.Proof.Val.LinLaws
import Idealize.ShloMosaic.PureOps.Ideal.Laws
import Idealize.ShloMosaic.Lib.ValueIdx
import Idealize.ShloMosaic.Lib.Pipeline.Value
import Idealize.ShloMosaic.Lib.ValueLayout
set_option maxRecDepth 16384
noncomputable section
namespace Cert.KernelIdeal.Val
open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat Cfg Window)
open scoped BigOperators
variable (V : (c : Dev nD) → (b : Ref sig .tc) → Buf (Elt Ideal) ((c : Thread nD τ).loc b))

abbrev lin_x7 (c : Dev nD) : Vec Ideal S50000x128 .f32 := V c (Pipeline.arrRef spec7 0)
abbrev lin_w7 (c : Dev nD) : Vec Ideal S128x128 .f32 := V c (Pipeline.arrRef spec7 1)
abbrev lin_b7 (c : Dev nD) : Vec Ideal S1x128 .f32 := V c (Pipeline.arrRef spec7 2)

theorem lin_pay7 (x : Vec Ideal S5000x128 .f32) (w : Vec Ideal S128x128 .f32) (b : Vec Ideal S1x128 .f32) (r : Fin 5000) (j : Fin 128) :
    k7_pay1 (F := Ideal) x w b (ix2 r j) = (∑ k : Fin 128, x (ix2 r k) * w (ix2 k j)) + b (ix2 (0 : Fin 1) j) := by
  unfold k7_pay1
  simp only [shapeCast_self]
  exact lin_payload_apply dot_S5000x128_S128x128_S5000x128_1_0_0_1_n_n_wf x w b _ _ _ r j

theorem lin_idx7 : ∀ t : Fin cfg7.N, (win7_0.index t 0 = t.val ∧ win7_0.index t 1 = 0) ∧ (∀ a, win7_1.index t a = 0)
    ∧ (∀ a, win7_2.index t a = 0) ∧ win7_3.index t 0 = t.val ∧ win7_3.index t 1 = 0 :=
  (by decide +kernel : ∀ t : Fin grid7.N, _)

theorem lin_emb7_0 (t : Fin cfg7.N) (r : Fin 5000) (k : Fin 128) (i : Fin 50000) (hi : i.val = 5000 * t.val + r.val) :
    ((cfg7.win 0).blk t).view.emb (ix2 r k) = ix2 i k :=
  Shape.idx_ext₂ (by show win7_0.index t 0 * 5000 + 1 * r.val = i.val; rw [(lin_idx7 t).1.1, hi]; omega)
    (by show win7_0.index t 1 * 128 + 1 * k.val = k.val; rw [(lin_idx7 t).1.2]; omega)
theorem lin_emb7_3 (t : Fin cfg7.N) (y : S5000x128.Idx) (i : S50000x128.Idx) (hi : (i 0).val = 5000 * t.val + (y 0).val)
    (hq : (i 1).val = (y 1).val) : ((cfg7.win 3).blk t).view.emb y = i :=
  Shape.idx_ext₂ (by show win7_3.index t 0 * 5000 + 1 * (y 0).val = _; rw [(lin_idx7 t).2.2.2.1, hi]; omega)
    (by show win7_3.index t 1 * 128 + 1 * (y 1).val = _; rw [(lin_idx7 t).2.2.2.2, hq]; omega)
theorem lin_iblk7_1 (c : Dev nD) (t : Fin cfg7.N) : (iblk7 V c 1 t : Vec Ideal S128x128 .f32) = lin_w7 V c :=
  funext fun y => congrArg (lin_w7 V c) (funext fun a => Fin.ext (win7_1.rect_emb_val_of_index_zero t a ((lin_idx7 t).2.1 a) y))
theorem lin_iblk7_2 (c : Dev nD) (t : Fin cfg7.N) : (iblk7 V c 2 t : Vec Ideal S1x128 .f32) = lin_b7 V c :=
  funext fun y => congrArg (lin_b7 V c) (funext fun a => Fin.ext (win7_2.rect_emb_val_of_index_zero t a ((lin_idx7 t).2.2.1 a) y))

theorem lin_final7 (c : Dev nD) (X : Vec Ideal S50000x128 .f32) (Wt : Vec Ideal S128x128 .f32) (B : Vec Ideal S1x128 .f32)
    (hX : (dat7 (F := Ideal) V c).A 0 = X) (hW : (dat7 (F := Ideal) V c).A 1 = Wt) (hB : (dat7 (F := Ideal) V c).A 2 = B) :
    (dat7 (F := Ideal) V c).arrAt 3 cfg7.N
      = addf (F := Ideal) (Host.dotGeneral (F := Ideal) (φ₁ := .f32) (φ₂ := .f32) Cert.ReferenceIdeal.dot_S50000x128_S128x128_S50000x128_1_0_0_1_n_n none X Wt)
          (broadcastInDim S50000x128 ![0, 1] Cert.ReferenceIdeal.Gen.bcast_S1x128_S50000x128_0_1 B) := by
  subst hX hW hB
  refine (dat7 V c).arrAt_eq_of_cover 3 (linRef (lin_x7 V c) (lin_w7 V c) (lin_b7 V c)) (fun t _ => ?_)
    fun (i : S50000x128.Idx) => ?_
  · show (cfg7.win 3).cut (grid7.coords t) ((dat7 V c).after 3 t) = _
    rw [after7_3, lin_iblk7_1, lin_iblk7_2]
    unfold out7_3
    rw [View.canon_unit_zero lin_hz]
    simp only [View.ld_unit_zero (S := S5000x128) lin_hz, View.ld_unit_zero (S := S128x128) lin_hz, View.ld_unit_zero (S := S1x128) lin_hz]
    refine funext fun (y : S5000x128.Idx) => ?_
    obtain ⟨r, j, rfl⟩ : ∃ (r : Fin 5000) (j : Fin 128), y = ix2 r j := ⟨y 0, y 1, eq_ix2 y⟩
    have hr : 5000 * t.val + r.val < 50000 := by have := r.isLt; have := lt_of_lt_of_eq t.isLt N_7; omega
    refine ((lin_pay7 _ _ _ r j).trans ?_).trans (congrArg (linRef (lin_x7 V c) (lin_w7 V c) (lin_b7 V c))
      (lin_emb7_3 t (ix2 r j) (ix2 ⟨_, hr⟩ j) rfl rfl).symm)
    rw [linRef_apply]
    exact congrArg (· + _) (Finset.sum_congr rfl fun k _ =>
      congrArg (· * _) (congrArg (lin_x7 V c) (lin_emb7_0 t r k ⟨_, hr⟩ rfl)))
  · have hi : (i 0).val / 5000 < cfg7.N := by rw [show cfg7.N = 10 from N_7]; have := idx2_lt0 i; omega
    exact ⟨⟨_, hi⟩, flush7_3 _, lin_mem_of_emb (lin_emb7_3 ⟨_, hi⟩
      (ix2 ⟨(i 0).val % 5000, Nat.mod_lt _ (by decide)⟩ (i 1)) i (Nat.div_add_mod _ _).symm rfl)⟩

theorem lin_final7_zero_bias (c : Dev nD) (X : Vec Ideal S50000x128 .f32) (Wt : Vec Ideal S128x128 .f32)
    (hX : (dat7 (F := Ideal) V c).A 0 = X) (hW : (dat7 (F := Ideal) V c).A 1 = Wt) (hB : (dat7 (F := Ideal) V c).A 2 = fun _ => (0 : EReal)) :
    (dat7 (F := Ideal) V c).arrAt 3 cfg7.N
      = Host.dotGeneral (F := Ideal) (φ₁ := .f32) (φ₂ := .f32) Cert.ReferenceIdeal.dot_S50000x128_S128x128_S50000x128_1_0_0_1_n_n none X Wt :=
  (lin_final7 V c X Wt (fun _ => (0 : Ideal .f32)) hX hW hB).trans (linRef_zero_bias X Wt)

end Cert.KernelIdeal.Val
end
-- ==== Proof.Val.Lin10.lean ====
import proofs.«408439_j66932770341395_1_alg».proof.Proof.KI.R10
import proofs.«408439_j66932770341395_1_alg».proof.Proof.Gen.ReferenceIdeal
import proofs.«408439_j66932770341395_1_alg».proof.Proof.Val.LinLaws
import Idealize.ShloMosaic.PureOps.Ideal.Laws
import Idealize.ShloMosaic.Lib.ValueIdx
import Idealize.ShloMosaic.Lib.Pipeline.Value
import Idealize.ShloMosaic.Lib.ValueLayout
set_option maxRecDepth 16384
noncomputable section
namespace Cert.KernelIdeal.Val
open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat Cfg Window)
open scoped BigOperators
variable (V : (c : Dev nD) → (b : Ref sig .tc) → Buf (Elt Ideal) ((c : Thread nD τ).loc b))

abbrev lin_x10 (c : Dev nD) : Vec Ideal S50000x128 .f32 := V c (Pipeline.arrRef spec10 0)
abbrev lin_w10 (c : Dev nD) : Vec Ideal S128x128 .f32 := V c (Pipeline.arrRef spec10 1)
abbrev lin_b10 (c : Dev nD) : Vec Ideal S1x128 .f32 := V c (Pipeline.arrRef spec10 2)

theorem lin_pay10 (x : Vec Ideal S5000x128 .f32) (w : Vec Ideal S128x128 .f32) (b : Vec Ideal S1x128 .f32) (r : Fin 5000) (j : Fin 128) :
    k10_pay1 (F := Ideal) x w b (ix2 r j) = (∑ k : Fin 128, x (ix2 r k) * w (ix2 k j)) + b (ix2 (0 : Fin 1) j) := by
  unfold k10_pay1
  simp only [shapeCast_self]
  exact lin_payload_apply dot_S5000x128_S128x128_S5000x128_1_0_0_1_n_n_wf x w b _ _ _ r j

theorem lin_idx10 : ∀ t : Fin cfg10.N, (win10_0.index t 0 = t.val ∧ win10_0.index t 1 = 0) ∧ (∀ a, win10_1.index t a = 0)
    ∧ (∀ a, win10_2.index t a = 0) ∧ win10_3.index t 0 = t.val ∧ win10_3.index t 1 = 0 :=
  (by decide +kernel : ∀ t : Fin grid10.N, _)

theorem lin_emb10_0 (t : Fin cfg10.N) (r : Fin 5000) (k : Fin 128) (i : Fin 50000) (hi : i.val = 5000 * t.val + r.val) :
    ((cfg10.win 0).blk t).view.emb (ix2 r k) = ix2 i k :=
  Shape.idx_ext₂ (by show win10_0.index t 0 * 5000 + 1 * r.val = i.val; rw [(lin_idx10 t).1.1, hi]; omega)
    (by show win10_0.index t 1 * 128 + 1 * k.val = k.val; rw [(lin_idx10 t).1.2]; omega)
theorem lin_emb10_3 (t : Fin cfg10.N) (y : S5000x128.Idx) (i : S50000x128.Idx) (hi : (i 0).val = 5000 * t.val + (y 0).val)
    (hq : (i 1).val = (y 1).val) : ((cfg10.win 3).blk t).view.emb y = i :=
  Shape.idx_ext₂ (by show win10_3.index t 0 * 5000 + 1 * (y 0).val = _; rw [(lin_idx10 t).2.2.2.1, hi]; omega)
    (by show win10_3.index t 1 * 128 + 1 * (y 1).val = _; rw [(lin_idx10 t).2.2.2.2, hq]; omega)
theorem lin_iblk10_1 (c : Dev nD) (t : Fin cfg10.N) : (iblk10 V c 1 t : Vec Ideal S128x128 .f32) = lin_w10 V c :=
  funext fun y => congrArg (lin_w10 V c) (funext fun a => Fin.ext (win10_1.rect_emb_val_of_index_zero t a ((lin_idx10 t).2.1 a) y))
theorem lin_iblk10_2 (c : Dev nD) (t : Fin cfg10.N) : (iblk10 V c 2 t : Vec Ideal S1x128 .f32) = lin_b10 V c :=
  funext fun y => congrArg (lin_b10 V c) (funext fun a => Fin.ext (win10_2.rect_emb_val_of_index_zero t a ((lin_idx10 t).2.2.1 a) y))

theorem lin_final10 (c : Dev nD) (X : Vec Ideal S50000x128 .f32) (Wt : Vec Ideal S128x128 .f32) (B : Vec Ideal S1x128 .f32)
    (hX : (dat10 (F := Ideal) V c).A 0 = X) (hW : (dat10 (F := Ideal) V c).A 1 = Wt) (hB : (dat10 (F := Ideal) V c).A 2 = B) :
    (dat10 (F := Ideal) V c).arrAt 3 cfg10.N
      = addf (F := Ideal) (Host.dotGeneral (F := Ideal) (φ₁ := .f32) (φ₂ := .f32) Cert.ReferenceIdeal.dot_S50000x128_S128x128_S50000x128_1_0_0_1_n_n none X Wt)
          (broadcastInDim S50000x128 ![0, 1] Cert.ReferenceIdeal.Gen.bcast_S1x128_S50000x128_0_1 B) := by
  subst hX hW hB
  refine (dat10 V c).arrAt_eq_of_cover 3 (linRef (lin_x10 V c) (lin_w10 V c) (lin_b10 V c)) (fun t _ => ?_)
    fun (i : S50000x128.Idx) => ?_
  · show (cfg10.win 3).cut (grid10.coords t) ((dat10 V c).after 3 t) = _
    rw [after10_3, lin_iblk10_1, lin_iblk10_2]
    unfold out10_3
    rw [View.canon_unit_zero lin_hz]
    simp only [View.ld_unit_zero (S := S5000x128) lin_hz, View.ld_unit_zero (S := S128x128) lin_hz, View.ld_unit_zero (S := S1x128) lin_hz]
    refine funext fun (y : S5000x128.Idx) => ?_
    obtain ⟨r, j, rfl⟩ : ∃ (r : Fin 5000) (j : Fin 128), y = ix2 r j := ⟨y 0, y 1, eq_ix2 y⟩
    have hr : 5000 * t.val + r.val < 50000 := by have := r.isLt; have := lt_of_lt_of_eq t.isLt N_10; omega
    refine ((lin_pay10 _ _ _ r j).trans ?_).trans (congrArg (linRef (lin_x10 V c) (lin_w10 V c) (lin_b10 V c))
      (lin_emb10_3 t (ix2 r j) (ix2 ⟨_, hr⟩ j) rfl rfl).symm)
    rw [linRef_apply]
    exact congrArg (· + _) (Finset.sum_congr rfl fun k _ =>
      congrArg (· * _) (congrArg (lin_x10 V c) (lin_emb10_0 t r k ⟨_, hr⟩ rfl)))
  · have hi : (i 0).val / 5000 < cfg10.N := by rw [show cfg10.N = 10 from N_10]; have := idx2_lt0 i; omega
    exact ⟨⟨_, hi⟩, flush10_3 _, lin_mem_of_emb (lin_emb10_3 ⟨_, hi⟩
      (ix2 ⟨(i 0).val % 5000, Nat.mod_lt _ (by decide)⟩ (i 1)) i (Nat.div_add_mod _ _).symm rfl)⟩

theorem lin_final10_zero_bias (c : Dev nD) (X : Vec Ideal S50000x128 .f32) (Wt : Vec Ideal S128x128 .f32)
    (hX : (dat10 (F := Ideal) V c).A 0 = X) (hW : (dat10 (F := Ideal) V c).A 1 = Wt) (hB : (dat10 (F := Ideal) V c).A 2 = fun _ => (0 : EReal)) :
    (dat10 (F := Ideal) V c).arrAt 3 cfg10.N
      = Host.dotGeneral (F := Ideal) (φ₁ := .f32) (φ₂ := .f32) Cert.ReferenceIdeal.dot_S50000x128_S128x128_S50000x128_1_0_0_1_n_n none X Wt :=
  (lin_final10 V c X Wt (fun _ => (0 : Ideal .f32)) hX hW hB).trans (linRef_zero_bias X Wt)

end Cert.KernelIdeal.Val
end
-- ==== Proof.Val.VarBridge.lean ====
import proofs.«408439_j66932770341395_1_alg».proof.Proof.Val.Spec
import proofs.«408439_j66932770341395_1_alg».proof.Proof.LibMoments
import Idealize.ShloMosaic.PureOps.Ideal.Laws
import Idealize.ShloMosaic.Lib.ValueIdx
import Idealize.ShloMosaic.Lib.IdealHost

noncomputable section

namespace Cert.Val

open scoped BigOperators
open Idealize.ShloMosaic Idealize.ShloMosaic.ValueIdx Cert.ReferenceIdeal Cert.ReferenceIdeal.Spec
  Cert.ReferenceIdeal.Gen Cert.LibMoments

theorem row1_at (v : Arr (F := Ideal) S128 .f32) (c : Fin 128) :
    row1 v (ix2 (0 : Fin 1) c) = v (ix1 c) := by
  unfold row1 broadcastInDim
  refine congrArg v (funext fun a => ?_)
  match a with
  | ⟨0, _⟩ => rfl

theorem rows_at (v : Arr (F := Ideal) S1x128 .f32) (i : Fin 50000) (c : Fin 128) :
    rows v (ix2 i c) = v (ix2 (0 : Fin 1) c) := by
  unfold rows broadcastInDim
  refine congrArg v (funext fun a => ?_)
  match a with
  | ⟨0, _⟩ => rfl
  | ⟨1, _⟩ => rfl

theorem zero0_at (i : S_.Idx) : zero0 (F := Ideal) i = (0 : EReal) := Ideal.ofBits_zero_f32

theorem word_50000 : Ideal.ofBits .f32 0x47435000#32 = ((50000 : ℝ) : EReal) := by
  simp [Ideal.ofBits, Ideal.ieee, -EReal.coe_mul]; norm_num

theorem nNodes_at (i : S_.Idx) : nNodes (F := Ideal) i = ((50000 : ℝ) : EReal) := word_50000

theorem colSum_at (a : Arr (F := Ideal) S50000x128 .f32) (c : Fin 128) :
    colSum a (ix1 c) = 0 + ∑ k : Fin 50000, a (ix2 k c) := by
  have h : S50000x128.Reduces [0] S128 := by decide
  unfold colSum
  rw [hostReduceAdd_apply, Ideal.hostReduceAdd_single _ h, zero0_at]
  refine congrArg (fun z : EReal => 0 + z) (Fintype.sum_congr _ _ fun k => congrArg a (funext fun d => ?_))
  match d with
  | ⟨0, _⟩ => rfl
  | ⟨1, _⟩ => rfl

theorem nCorr_at (i : S_.Idx) :
    subf (F := Ideal) (φ := .f32) (nNodes (F := Ideal)) (sitofp .f32 (constantI S_ 32 0#32)) i
      = ((50000 : ℝ) : EReal) := by
  rw [subf_apply, nNodes_at]
  show ((50000 : ℝ) : EReal) - ((((0#32 : BitVec 32).toInt : ℤ) : ℝ) : EReal) = _
  simp

theorem guard_at (i : S_.Idx) :
    cmpf (F := Ideal) (φ := .f32) .ogt
      (subf (F := Ideal) (φ := .f32) (nNodes (F := Ideal)) (sitofp .f32 (constantI S_ 32 0#32)))
      (zero0 (F := Ideal)) i = 1#1 := by
  rw [cmpf_apply, nCorr_at, zero0_at]
  show Ideal.cmp .ogt ((50000 : ℝ) : EReal) 0 = 1#1
  unfold Ideal.cmp
  have h : (0 : EReal) < ((50000 : ℝ) : EReal) := EReal.coe_pos.2 (by norm_num)
  simp [h]

theorem meanR_at (a : Arr (F := Ideal) S50000x128 .f32) (c : Fin 128) :
    meanR a (ix1 c) = Ideal.div (0 + ∑ k : Fin 50000, a (ix2 k c)) ((50000 : ℝ) : EReal) := by
  unfold meanR
  rw [hostDivf_apply, broadcastInDim_scalar_apply, colSum_at, nNodes_at]

theorem varR_at (a : Arr (F := Ideal) S50000x128 .f32) (c : Fin 128) :
    varR a (ix1 c)
      = Ideal.div
          (0 + ∑ k : Fin 50000,
            (a (ix2 k c) - Ideal.div (0 + ∑ k : Fin 50000, a (ix2 k c)) ((50000 : ℝ) : EReal))
              * (a (ix2 k c) - Ideal.div (0 + ∑ k : Fin 50000, a (ix2 k c)) ((50000 : ℝ) : EReal)))
          ((50000 : ℝ) : EReal) := by
  have hcs : ∀ v : Arr (F := Ideal) S50000x128 .f32,
      Host.reduceAdd (F := Ideal) (φ := .f32) (s := S50000x128) v (zero0 (F := Ideal))
        reducesTo_S50000x128_S128_d0 h_S_ = colSum v := fun v => rfl
  unfold varR
  simp only [hcs]
  rw [select_apply, broadcastInDim_scalar_apply, guard_at, select_one, hostDivf_apply,
    broadcastInDim_scalar_apply, nCorr_at, colSum_at]
  refine congrArg (fun z : EReal => Ideal.div (0 + z) ((50000 : ℝ) : EReal))
    (Fintype.sum_congr _ _ fun k => ?_)
  rw [mulf_apply, subf_apply, rows_at, hostDivf_apply, row1_at, colSum_at,
    broadcastInDim_scalar_apply, nNodes_at]

theorem mean_bridge (a : Arr (F := Ideal) S50000x128 .f32) :
    Host.divf (F := Ideal) (φ := .f32) (row1 (colSum a))
        (broadcastInDim S1x128 ![] bcast_S_S1x128 (nNodes (F := Ideal)))
      = row1 (meanR a) := by
  funext j
  obtain ⟨z, c, rfl⟩ : ∃ (z : Fin 1) (c : Fin 128), j = ix2 z c := ⟨j 0, j 1, eq_ix2 j⟩
  obtain rfl : z = 0 := Subsingleton.elim _ _
  simp only [hostDivf_apply, row1_at, meanR_at, colSum_at]
  rw [broadcastInDim_scalar_apply, nNodes_at]

theorem var_bridge (a : Arr (F := Ideal) S50000x128 .f32) (ha : ∀ i, IsReal (a i)) :
    subf (F := Ideal) (φ := .f32)
        (Host.divf (F := Ideal) (φ := .f32) (row1 (F := Ideal) (colSum (F := Ideal) (mulf (F := Ideal) (φ := .f32) a a)))
          (broadcastInDim S1x128 ![] bcast_S_S1x128 (nNodes (F := Ideal))))
        (mulf (F := Ideal) (φ := .f32)
          (Host.divf (F := Ideal) (φ := .f32) (row1 (colSum a))
            (broadcastInDim S1x128 ![] bcast_S_S1x128 (nNodes (F := Ideal))))
          (Host.divf (F := Ideal) (φ := .f32) (row1 (colSum a))
            (broadcastInDim S1x128 ![] bcast_S_S1x128 (nNodes (F := Ideal)))))
      = row1 (varR a) := by
  funext j
  obtain ⟨z, c, rfl⟩ : ∃ (z : Fin 1) (c : Fin 128), j = ix2 z c := ⟨j 0, j 1, eq_ix2 j⟩
  obtain rfl : z = 0 := Subsingleton.elim _ _
  simp only [subf_apply, mulf_apply, hostDivf_apply, row1_at, varR_at, colSum_at]
  rw [broadcastInDim_scalar_apply, nNodes_at]
  exact variance_two_forms_div_of_isReal (fun k : Fin 50000 => a (ix2 k c)) (fun k => ha _) 50000
    (by norm_num) (by simp)

end Cert.Val

end
-- ==== Proof.Val.StatsLaws.lean ====
import proofs.«408439_j66932770341395_1_alg».proof.Proof.Val.Spec
import proofs.«408439_j66932770341395_1_alg».proof.Proof.Val.VarBridge
import proofs.«408439_j66932770341395_1_alg».proof.Proof.LibMoments
import Idealize.ShloMosaic.PureOps.Ideal.Laws
import Idealize.ShloMosaic.Lib.ValueIdx
import Idealize.ShloMosaic.Lib.Pipeline.Value
import Idealize.ShloMosaic.Lib.ValueLayout
noncomputable section
namespace Cert.KernelIdeal.Val
open Idealize.ShloMosaic Idealize.ShloMosaic.ValueIdx
open Cert.LibMoments
open scoped BigOperators
theorem stats_addRow_at (x0 : Vec Ideal ⟨2, ![5000, 128]⟩ .f32) (x1 : Vec Ideal ⟨2, ![1, 128]⟩ .f32)
    (h0 : (⟨2, ![5000, 128]⟩ : Shape).ShapeCasts ⟨2, ![5000, 128]⟩)
    (h1 : (⟨2, ![1, 128]⟩ : Shape).ShapeCasts ⟨2, ![1, 128]⟩)
    (hb : (⟨2, ![1, 128]⟩ : Shape).Broadcasts ⟨2, ![5000, 128]⟩) (p : Fin 5000) (q : Fin 128) :
    addf (F := Ideal) (φ := .f32) (shapeCast ⟨2, ![5000, 128]⟩ x0 h0)
        (broadcastTo ⟨2, ![5000, 128]⟩ (shapeCast ⟨2, ![1, 128]⟩ x1 h1) hb) (ix2 p q)
      = x0 (ix2 p q) + x1 (ix2 (0 : Fin 1) q) := by
  rw [addf_apply, shapeCast_self, shapeCast_self]
  refine congrArg (x0 (ix2 p q) + ·) (broadcastTo_apply x1 hb (ix2 p q) (ix2 (0 : Fin 1) q) fun a => ?_)
  match a with
  | ⟨0, _⟩ => rfl
  | ⟨1, _⟩ => rfl
theorem stats_colSum_tile_at (y : FVec Ideal ⟨2, ![5000, 128]⟩ .f32)
    (h : (⟨2, ![5000, 128]⟩ : Shape).Reduces [0] ⟨1, ![128]⟩) (hφ : FKind.Formats .f32)
    (hacc : (0x00000000#32 : BitVec 32) = 0x00000000#32)
    (hc : (⟨1, ![128]⟩ : Shape).ShapeCasts ⟨2, ![1, 128]⟩) (q : Fin 128) :
    shapeCast ⟨2, ![1, 128]⟩ (multiReduction (F := Ideal) .add [0] ⟨1, ![128]⟩ y 0x00000000#32 h hφ hacc) hc
        (ix2 (0 : Fin 1) q)
      = ∑ r : Fin 5000, y (ix2 r q) := by
  refine (shapeCast_a_1a_apply _ hc 0 q).trans ?_
  refine (Ideal.multiReduction_add_single y 0x00000000#32 h hφ hacc (ix1 q)).trans ?_
  refine Finset.sum_congr rfl fun r _ => congrArg y (funext fun d => ?_)
  match d with
  | ⟨0, _⟩ => rfl
  | ⟨1, _⟩ => rfl
def stats_tileSum (a : Vec Ideal ⟨2, ![50000, 128]⟩ .f32) (q : Fin 128) (t : ℕ) : EReal :=
  if h : t < 10 then ∑ r : Fin 5000, a (ix2 (⟨5000 * t + r.val, by have := r.isLt; omega⟩ : Fin 50000) q) else 0
theorem stats_tileSum_of_lt (a : Vec Ideal ⟨2, ![50000, 128]⟩ .f32) (q : Fin 128) {t : ℕ} (h : t < 10) :
    stats_tileSum a q t
      = ∑ r : Fin 5000, a (ix2 (⟨5000 * t + r.val, by have := r.isLt; omega⟩ : Fin 50000) q) :=
  dif_pos h
theorem stats_acc_tileSum (a : Vec Ideal ⟨2, ![50000, 128]⟩ .f32) (q : Fin 128) :
    acc 0 (stats_tileSum a q) 10 = 0 + ∑ k : Fin 50000, a (ix2 k q) := by
  refine acc_tiles_equiv 10 ((finProdFinEquiv (m := 10) (n := 5000)).trans (finCongr (by norm_num)))
    (fun k : Fin 50000 => a (ix2 k q)) (stats_tileSum a q) (fun t => ?_) 0
  rw [stats_tileSum_of_lt a q t.isLt, zero_add]
  refine Finset.sum_congr rfl fun r _ => congrArg (fun k : Fin 50000 => a (ix2 k q)) (Fin.ext ?_)
  simp [finProdFinEquiv]
  omega
theorem stats_agg_at (S : Vec Ideal ⟨2, ![50000, 128]⟩ .f32) (B : Vec Ideal ⟨2, ![1, 128]⟩ .f32)
    (k : Fin 50000) (q : Fin 128) :
    addf (F := Ideal) (φ := .f32) S (Cert.ReferenceIdeal.Spec.rows (F := Ideal) B) (ix2 k q)
      = S (ix2 k q) + B (ix2 (0 : Fin 1) q) := by
  rw [addf_apply]
  exact congrArg (S (ix2 k q) + ·) (Cert.Val.rows_at B k q)
theorem stats_rowSum_at (a : Vec Ideal ⟨2, ![50000, 128]⟩ .f32) (q : Fin 128) :
    Cert.ReferenceIdeal.Spec.row1 (F := Ideal) (Cert.ReferenceIdeal.Spec.colSum (F := Ideal) a) (ix2 (0 : Fin 1) q)
      = 0 + ∑ k : Fin 50000, a (ix2 k q) :=
  (Cert.Val.row1_at _ q).trans (Cert.Val.colSum_at a q)

theorem stats_mem_of_emb {sig : RefSig} {κ : Kind} {sp : Space} {s : Shape} {e : EltTy} {v : View sig κ sp s e} {x : s.Idx} {i}
    (h : v.emb x = i) : i ∈ v.set := h ▸ v.emb_mem_set x

theorem stats_zero_at (h : (⟨2, ![1, 128]⟩ : Shape).ShapeCasts ⟨2, ![1, 128]⟩) (i : (⟨2, ![1, 128]⟩ : Shape).Idx) :
    shapeCast ⟨2, ![1, 128]⟩ (broadcast ⟨2, ![1, 128]⟩ (Scalar.ofBits (F := Ideal) .f32 0x00000000#32)) h i = 0 := by
  rw [shapeCast_self]
  exact Ideal.ofBits_zero_f32

theorem stats_step_at (a : Vec Ideal ⟨2, ![50000, 128]⟩ .f32) (y : FVec Ideal ⟨2, ![5000, 128]⟩ .f32)
    (s : Vec Ideal ⟨2, ![1, 128]⟩ .f32) (q : Fin 128) {t : ℕ} (ht : t < 10)
    (hy : ∀ r : Fin 5000, y (ix2 r q) = a (ix2 (⟨5000 * t + r.val, by have := r.isLt; omega⟩ : Fin 50000) q))
    (h : (⟨2, ![5000, 128]⟩ : Shape).Reduces [0] ⟨1, ![128]⟩) (hφ : FKind.Formats .f32)
    (hacc : (0x00000000#32 : BitVec 32) = 0x00000000#32) (hc : (⟨1, ![128]⟩ : Shape).ShapeCasts ⟨2, ![1, 128]⟩)
    (hs : (⟨2, ![1, 128]⟩ : Shape).ShapeCasts ⟨2, ![1, 128]⟩) :
    shapeCast ⟨2, ![1, 128]⟩ (addf (F := Ideal) (φ := .f32) s
        (shapeCast ⟨2, ![1, 128]⟩ (multiReduction (F := Ideal) .add [0] ⟨1, ![128]⟩ y 0x00000000#32 h hφ hacc) hc)) hs
        (ix2 (0 : Fin 1) q)
      = s (ix2 (0 : Fin 1) q) + stats_tileSum a q t := by
  rw [shapeCast_self, addf_apply, stats_colSum_tile_at y h hφ hacc hc q, stats_tileSum_of_lt a q ht]
  exact congrArg (s (ix2 (0 : Fin 1) q) + ·) (Finset.sum_congr rfl fun r _ => hy r)

theorem stats_fold (a : Vec Ideal ⟨2, ![50000, 128]⟩ .f32) {N : ℕ} (σ : (n : ℕ) → n < N → Vec Ideal ⟨2, ![1, 128]⟩ .f32)
    (hz : ∀ h q, σ 0 h (ix2 (0 : Fin 1) q) = 0 + stats_tileSum a q 0)
    (hs : ∀ n h q, σ (n + 1) h (ix2 (0 : Fin 1) q) = σ n (Nat.lt_of_succ_lt h) (ix2 (0 : Fin 1) q) + stats_tileSum a q (n + 1))
    (hN : 9 < N) :
    σ 9 hN = Cert.ReferenceIdeal.Spec.row1 (F := Ideal) (Cert.ReferenceIdeal.Spec.colSum (F := Ideal) a) := by
  have key : ∀ n h q, σ n h (ix2 (0 : Fin 1) q) = acc 0 (stats_tileSum a q) (n + 1) := by
    intro n
    induction n with
    | zero => intro h q; rw [hz]; rfl
    | succ n ih => intro h q; rw [hs, ih]; rfl
  refine funext fun y => ?_
  obtain ⟨u, q, rfl⟩ : ∃ (u : Fin 1) (q : Fin 128), y = ix2 u q := ⟨y 0, y 1, eq_ix2 y⟩
  obtain rfl : u = 0 := Subsingleton.elim _ _
  rw [key, stats_rowSum_at]
  exact stats_acc_tileSum a q

end Cert.KernelIdeal.Val
end
-- ==== Proof.Val.Stats02.lean ====
import proofs.«408439_j66932770341395_1_alg».proof.Proof.KI.R02
import proofs.«408439_j66932770341395_1_alg».proof.Proof.Gen.ReferenceIdeal
import proofs.«408439_j66932770341395_1_alg».proof.Proof.Val.Spec
import proofs.«408439_j66932770341395_1_alg».proof.Proof.Val.StatsLaws
import proofs.«408439_j66932770341395_1_alg».proof.Proof.LibMoments
import Idealize.ShloMosaic.PureOps.Ideal.Laws
import Idealize.ShloMosaic.Lib.ValueIdx
import Idealize.ShloMosaic.Lib.Pipeline.Value
import Idealize.ShloMosaic.Lib.ValueLayout
set_option maxRecDepth 16384
noncomputable section
namespace Cert.KernelIdeal.Val
open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat Cfg Window)
open Cert.LibMoments
open scoped BigOperators
variable (V : (c : Dev nD) → (b : Ref sig .tc) → Buf (Elt Ideal) ((c : Thread nD τ).loc b))

abbrev stats_s2 (c : Dev nD) : Vec Ideal S50000x128 .f32 := V c (Pipeline.arrRef spec2 0)
abbrev stats_b2 (c : Dev nD) : Vec Ideal S1x128 .f32 := V c (Pipeline.arrRef spec2 1)
abbrev stats_aggT2 (c : Dev nD) : Vec Ideal S50000x128 .f32 :=
  addf (F := Ideal) (φ := .f32) (stats_s2 V c) (Cert.ReferenceIdeal.Spec.rows (F := Ideal) (stats_b2 V c))
abbrev stats_sqT2 (c : Dev nD) : Vec Ideal S50000x128 .f32 :=
  mulf (F := Ideal) (φ := .f32) (stats_aggT2 V c) (stats_aggT2 V c)

theorem stats_idx2 : ∀ t : Fin cfg2.N, (win2_0.index t 0 = t.val ∧ win2_0.index t 1 = 0) ∧ (∀ a, win2_1.index t a = 0)
    ∧ (win2_2.index t 0 = t.val ∧ win2_2.index t 1 = 0) ∧ (∀ a, win2_3.index t a = 0) ∧ ∀ a, win2_4.index t a = 0 :=
  (by decide +kernel : ∀ t : Fin grid2.N, _)

theorem stats_emb2_0 (t : Fin cfg2.N) (r : Fin 5000) (q : Fin 128) (i : Fin 50000) (hi : i.val = 5000 * t.val + r.val) :
    ((cfg2.win 0).blk t).view.emb (ix2 r q) = ix2 i q :=
  Shape.idx_ext₂ (by show win2_0.index t 0 * 5000 + 1 * r.val = i.val; rw [(stats_idx2 t).1.1, hi]; omega)
    (by show win2_0.index t 1 * 128 + 1 * q.val = q.val; rw [(stats_idx2 t).1.2]; omega)
theorem stats_emb2_2 (t : Fin cfg2.N) (y : S5000x128.Idx) (i : S50000x128.Idx) (hi : (i 0).val = 5000 * t.val + (y 0).val)
    (hq : (i 1).val = (y 1).val) : ((cfg2.win 2).blk t).view.emb y = i :=
  Shape.idx_ext₂ (by show win2_2.index t 0 * 5000 + 1 * (y 0).val = _; rw [(stats_idx2 t).2.2.1.1, hi]; omega)
    (by show win2_2.index t 1 * 128 + 1 * (y 1).val = _; rw [(stats_idx2 t).2.2.1.2, hq]; omega)
theorem stats_emb2_1 (t : Fin cfg2.N) (y : S1x128.Idx) : ((cfg2.win 1).blk t).view.emb y = y :=
  funext fun a => Fin.ext (win2_1.rect_emb_val_of_index_zero t a ((stats_idx2 t).2.1 a) y)
theorem stats_emb2_3 (t : Fin cfg2.N) (y : S1x128.Idx) : ((cfg2.win 3).blk t).view.emb y = y :=
  funext fun a => Fin.ext (win2_3.rect_emb_val_of_index_zero t a ((stats_idx2 t).2.2.2.1 a) y)
theorem stats_emb2_4 (t : Fin cfg2.N) (y : S1x128.Idx) : ((cfg2.win 4).blk t).view.emb y = y :=
  funext fun a => Fin.ext (win2_4.rect_emb_val_of_index_zero t a ((stats_idx2 t).2.2.2.2 a) y)

theorem stats_blk_agg2 (c : Dev nD) (t : Fin cfg2.N) (r : Fin 5000) (q : Fin 128) (hr : 5000 * t.val + r.val < 50000) :
    k2_pay3 (F := Ideal) (iblk2 V c 0 t) (iblk2 V c 1 t) (ix2 r q)
      = stats_aggT2 V c (ix2 (⟨5000 * t.val + r.val, hr⟩ : Fin 50000) q) := by
  refine (stats_addRow_at _ _ _ _ _ r q).trans ((stats_agg_at (stats_s2 V c) (stats_b2 V c) _ q).trans ?_).symm
  exact congrArg₂ (· + ·) (congrArg (stats_s2 V c) (stats_emb2_0 t r q _ rfl).symm)
    (congrArg (stats_b2 V c) (stats_emb2_1 t _).symm)

theorem stats_lt2 (t : Fin cfg2.N) : t.val < 10 := lt_of_lt_of_eq t.isLt N_2

theorem stats_step2_0 (c : Dev nD) (t : Fin cfg2.N) (s : Vec Ideal S1x128 .f32) (q : Fin 128) :
    acc2_0 (F := Ideal) (iblk2 V c 0 t) (iblk2 V c 1 t) s (ix2 (0 : Fin 1) q)
      = s (ix2 (0 : Fin 1) q) + stats_tileSum (stats_aggT2 V c) q t.val :=
  (congrFun (acc2_0_eq (F := Ideal) _ _ s) _).trans
    (stats_step_at _ _ s q (stats_lt2 t) (fun r => stats_blk_agg2 V c t r q _) _ _ _ _ _)
theorem stats_step2_1 (c : Dev nD) (t : Fin cfg2.N) (s : Vec Ideal S1x128 .f32) (q : Fin 128) :
    acc2_1 (F := Ideal) (iblk2 V c 0 t) (iblk2 V c 1 t) s (ix2 (0 : Fin 1) q)
      = s (ix2 (0 : Fin 1) q) + stats_tileSum (stats_sqT2 V c) q t.val :=
  (congrFun (acc2_1_eq (F := Ideal) _ _ s) _).trans
    (stats_step_at (stats_sqT2 V c) _ s q (stats_lt2 t)
      (fun r => congrArg (fun z => z * z) (stats_blk_agg2 V c t r q _)) _ _ _ _ _)

theorem stats_run2_0 (c : Dev nD) (h : 9 < cfg2.N) : (sAt2 V c 9 h).1
    = Cert.ReferenceIdeal.Spec.row1 (F := Ideal) (Cert.ReferenceIdeal.Spec.colSum (F := Ideal) (stats_aggT2 V c)) :=
  stats_fold _ (fun n hn => (sAt2 V c n hn).1)
    (fun hn q => (stats_step2_0 V c ⟨0, hn⟩ _ q).trans
      (congrArg (· + _) ((congrFun (zero2_0_eq (F := Ideal)) _).trans (stats_zero_at _ _))))
    (fun n hn q => stats_step2_0 V c ⟨n + 1, hn⟩ _ q) h
theorem stats_run2_1 (c : Dev nD) (h : 9 < cfg2.N) : (sAt2 V c 9 h).2
    = Cert.ReferenceIdeal.Spec.row1 (F := Ideal) (Cert.ReferenceIdeal.Spec.colSum (F := Ideal) (stats_sqT2 V c)) :=
  stats_fold _ (fun n hn => (sAt2 V c n hn).2)
    (fun hn q => (stats_step2_1 V c ⟨0, hn⟩ _ q).trans
      (congrArg (· + _) ((congrFun (zero2_1_eq (F := Ideal)) _).trans (stats_zero_at _ _))))
    (fun n hn q => stats_step2_1 V c ⟨n + 1, hn⟩ _ q) h

theorem stats_agg2 (c : Dev nD) (S : Vec Ideal S50000x128 .f32) (B : Vec Ideal S1x128 .f32)
    (hS : (dat2 (F := Ideal) V c).A 0 = S) (hB : (dat2 (F := Ideal) V c).A 1 = B) :
    (dat2 (F := Ideal) V c).arrAt 2 cfg2.N
      = addf (F := Ideal) (φ := .f32) S (Cert.ReferenceIdeal.Spec.rows (F := Ideal) B) := by
  subst hS hB
  refine (dat2 V c).arrAt_eq_of_cover 2 (stats_aggT2 V c) (fun t _ => ?_) fun (i : S50000x128.Idx) => ?_
  · show (cfg2.win 2).cut (grid2.coords t) ((dat2 V c).after 2 t) = _
    rw [after2_2, out2_2_eq]
    refine funext fun (y : S5000x128.Idx) => ?_
    obtain ⟨r, q, rfl⟩ : ∃ (r : Fin 5000) (q : Fin 128), y = ix2 r q := ⟨y 0, y 1, eq_ix2 y⟩
    have hr : 5000 * t.val + r.val < 50000 := by have := r.isLt; have := stats_lt2 t; omega
    exact (stats_blk_agg2 V c t r q hr).trans
      (congrArg (stats_aggT2 V c) (stats_emb2_2 t (ix2 r q) (ix2 ⟨_, hr⟩ q) rfl rfl).symm)
  · have hi : (i 0).val / 5000 < cfg2.N := by rw [show cfg2.N = 10 from N_2]; have := idx2_lt0 i; omega
    exact ⟨⟨_, hi⟩, flush2_2 _, stats_mem_of_emb (stats_emb2_2 ⟨_, hi⟩
      (ix2 ⟨(i 0).val % 5000, Nat.mod_lt _ (by decide)⟩ (i 1)) i (Nat.div_add_mod _ _).symm rfl)⟩

abbrev stats_last2 : Fin cfg2.N := ⟨9, by rw [show cfg2.N = 10 from N_2]; decide⟩
theorem stats_nine2 (t : Fin cfg2.N) (h : t.val % 10 = 9) : t.val = 9 := by have := stats_lt2 t; omega

theorem stats_sum2 (c : Dev nD) (S : Vec Ideal S50000x128 .f32) (B : Vec Ideal S1x128 .f32)
    (hS : (dat2 (F := Ideal) V c).A 0 = S) (hB : (dat2 (F := Ideal) V c).A 1 = B) :
    (dat2 (F := Ideal) V c).arrAt 3 cfg2.N
      = Cert.ReferenceIdeal.Spec.row1 (F := Ideal) (Cert.ReferenceIdeal.Spec.colSum (F := Ideal)
          (addf (F := Ideal) (φ := .f32) S (Cert.ReferenceIdeal.Spec.rows (F := Ideal) B))) := by
  subst hS hB
  refine (dat2 V c).arrAt_eq_of_cover 3 _ (fun t hf => funext fun y => ?_)
    fun i => ⟨stats_last2, (flush2_3 _).mpr rfl, stats_mem_of_emb (stats_emb2_3 stats_last2 i)⟩
  show (cfg2.win 3).cut (grid2.coords t) ((dat2 V c).after 3 t) y = Cert.ReferenceIdeal.Spec.row1 (F := Ideal)
    (Cert.ReferenceIdeal.Spec.colSum (F := Ideal) (stats_aggT2 V c)) (((cfg2.win 3).blk t).view.emb y)
  rw [after2_3_last V c t (stats_nine2 t ((flush2_3 t).mp hf)), stats_emb2_3]
  exact congrFun (stats_run2_0 V c _) y

theorem stats_sumsq2 (c : Dev nD) (S : Vec Ideal S50000x128 .f32) (B : Vec Ideal S1x128 .f32)
    (hS : (dat2 (F := Ideal) V c).A 0 = S) (hB : (dat2 (F := Ideal) V c).A 1 = B) :
    (dat2 (F := Ideal) V c).arrAt 4 cfg2.N
      = Cert.ReferenceIdeal.Spec.row1 (F := Ideal) (Cert.ReferenceIdeal.Spec.colSum (F := Ideal)
          (mulf (F := Ideal) (φ := .f32)
            (addf (F := Ideal) (φ := .f32) S (Cert.ReferenceIdeal.Spec.rows (F := Ideal) B))
            (addf (F := Ideal) (φ := .f32) S (Cert.ReferenceIdeal.Spec.rows (F := Ideal) B)))) := by
  subst hS hB
  refine (dat2 V c).arrAt_eq_of_cover 4 _ (fun t hf => funext fun y => ?_)
    fun i => ⟨stats_last2, (flush2_4 _).mpr rfl, stats_mem_of_emb (stats_emb2_4 stats_last2 i)⟩
  show (cfg2.win 4).cut (grid2.coords t) ((dat2 V c).after 4 t) y = Cert.ReferenceIdeal.Spec.row1 (F := Ideal)
    (Cert.ReferenceIdeal.Spec.colSum (F := Ideal) (stats_sqT2 V c)) (((cfg2.win 4).blk t).view.emb y)
  rw [after2_4_last V c t (stats_nine2 t ((flush2_4 t).mp hf)), stats_emb2_4]
  exact congrFun (stats_run2_1 V c _) y

end Cert.KernelIdeal.Val
end
-- ==== Proof.Val.Stats05.lean ====
import proofs.«408439_j66932770341395_1_alg».proof.Proof.KI.R05
import proofs.«408439_j66932770341395_1_alg».proof.Proof.Gen.ReferenceIdeal
import proofs.«408439_j66932770341395_1_alg».proof.Proof.Val.Spec
import proofs.«408439_j66932770341395_1_alg».proof.Proof.Val.StatsLaws
import proofs.«408439_j66932770341395_1_alg».proof.Proof.LibMoments
import Idealize.ShloMosaic.PureOps.Ideal.Laws
import Idealize.ShloMosaic.Lib.ValueIdx
import Idealize.ShloMosaic.Lib.Pipeline.Value
import Idealize.ShloMosaic.Lib.ValueLayout
set_option maxRecDepth 16384
noncomputable section
namespace Cert.KernelIdeal.Val
open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat Cfg Window)
open Cert.LibMoments
open scoped BigOperators
variable (V : (c : Dev nD) → (b : Ref sig .tc) → Buf (Elt Ideal) ((c : Thread nD τ).loc b))

abbrev stats_s5 (c : Dev nD) : Vec Ideal S50000x128 .f32 := V c (Pipeline.arrRef spec5 0)
abbrev stats_b5 (c : Dev nD) : Vec Ideal S1x128 .f32 := V c (Pipeline.arrRef spec5 1)
abbrev stats_aggT5 (c : Dev nD) : Vec Ideal S50000x128 .f32 :=
  addf (F := Ideal) (φ := .f32) (stats_s5 V c) (Cert.ReferenceIdeal.Spec.rows (F := Ideal) (stats_b5 V c))
abbrev stats_sqT5 (c : Dev nD) : Vec Ideal S50000x128 .f32 :=
  mulf (F := Ideal) (φ := .f32) (stats_aggT5 V c) (stats_aggT5 V c)

theorem stats_idx5 : ∀ t : Fin cfg5.N, (win5_0.index t 0 = t.val ∧ win5_0.index t 1 = 0) ∧ (∀ a, win5_1.index t a = 0)
    ∧ (win5_2.index t 0 = t.val ∧ win5_2.index t 1 = 0) ∧ (∀ a, win5_3.index t a = 0) ∧ ∀ a, win5_4.index t a = 0 :=
  (by decide +kernel : ∀ t : Fin grid5.N, _)

theorem stats_emb5_0 (t : Fin cfg5.N) (r : Fin 5000) (q : Fin 128) (i : Fin 50000) (hi : i.val = 5000 * t.val + r.val) :
    ((cfg5.win 0).blk t).view.emb (ix2 r q) = ix2 i q :=
  Shape.idx_ext₂ (by show win5_0.index t 0 * 5000 + 1 * r.val = i.val; rw [(stats_idx5 t).1.1, hi]; omega)
    (by show win5_0.index t 1 * 128 + 1 * q.val = q.val; rw [(stats_idx5 t).1.2]; omega)
theorem stats_emb5_2 (t : Fin cfg5.N) (y : S5000x128.Idx) (i : S50000x128.Idx) (hi : (i 0).val = 5000 * t.val + (y 0).val)
    (hq : (i 1).val = (y 1).val) : ((cfg5.win 2).blk t).view.emb y = i :=
  Shape.idx_ext₂ (by show win5_2.index t 0 * 5000 + 1 * (y 0).val = _; rw [(stats_idx5 t).2.2.1.1, hi]; omega)
    (by show win5_2.index t 1 * 128 + 1 * (y 1).val = _; rw [(stats_idx5 t).2.2.1.2, hq]; omega)
theorem stats_emb5_1 (t : Fin cfg5.N) (y : S1x128.Idx) : ((cfg5.win 1).blk t).view.emb y = y :=
  funext fun a => Fin.ext (win5_1.rect_emb_val_of_index_zero t a ((stats_idx5 t).2.1 a) y)
theorem stats_emb5_3 (t : Fin cfg5.N) (y : S1x128.Idx) : ((cfg5.win 3).blk t).view.emb y = y :=
  funext fun a => Fin.ext (win5_3.rect_emb_val_of_index_zero t a ((stats_idx5 t).2.2.2.1 a) y)
theorem stats_emb5_4 (t : Fin cfg5.N) (y : S1x128.Idx) : ((cfg5.win 4).blk t).view.emb y = y :=
  funext fun a => Fin.ext (win5_4.rect_emb_val_of_index_zero t a ((stats_idx5 t).2.2.2.2 a) y)

theorem stats_blk_agg5 (c : Dev nD) (t : Fin cfg5.N) (r : Fin 5000) (q : Fin 128) (hr : 5000 * t.val + r.val < 50000) :
    k5_pay3 (F := Ideal) (iblk5 V c 0 t) (iblk5 V c 1 t) (ix2 r q)
      = stats_aggT5 V c (ix2 (⟨5000 * t.val + r.val, hr⟩ : Fin 50000) q) := by
  refine (stats_addRow_at _ _ _ _ _ r q).trans ((stats_agg_at (stats_s5 V c) (stats_b5 V c) _ q).trans ?_).symm
  exact congrArg₂ (· + ·) (congrArg (stats_s5 V c) (stats_emb5_0 t r q _ rfl).symm)
    (congrArg (stats_b5 V c) (stats_emb5_1 t _).symm)

theorem stats_lt5 (t : Fin cfg5.N) : t.val < 10 := lt_of_lt_of_eq t.isLt N_5

theorem stats_step5_0 (c : Dev nD) (t : Fin cfg5.N) (s : Vec Ideal S1x128 .f32) (q : Fin 128) :
    acc5_0 (F := Ideal) (iblk5 V c 0 t) (iblk5 V c 1 t) s (ix2 (0 : Fin 1) q)
      = s (ix2 (0 : Fin 1) q) + stats_tileSum (stats_aggT5 V c) q t.val :=
  (congrFun (acc5_0_eq (F := Ideal) _ _ s) _).trans
    (stats_step_at _ _ s q (stats_lt5 t) (fun r => stats_blk_agg5 V c t r q _) _ _ _ _ _)
theorem stats_step5_1 (c : Dev nD) (t : Fin cfg5.N) (s : Vec Ideal S1x128 .f32) (q : Fin 128) :
    acc5_1 (F := Ideal) (iblk5 V c 0 t) (iblk5 V c 1 t) s (ix2 (0 : Fin 1) q)
      = s (ix2 (0 : Fin 1) q) + stats_tileSum (stats_sqT5 V c) q t.val :=
  (congrFun (acc5_1_eq (F := Ideal) _ _ s) _).trans
    (stats_step_at (stats_sqT5 V c) _ s q (stats_lt5 t)
      (fun r => congrArg (fun z => z * z) (stats_blk_agg5 V c t r q _)) _ _ _ _ _)

theorem stats_run5_0 (c : Dev nD) (h : 9 < cfg5.N) : (sAt5 V c 9 h).1
    = Cert.ReferenceIdeal.Spec.row1 (F := Ideal) (Cert.ReferenceIdeal.Spec.colSum (F := Ideal) (stats_aggT5 V c)) :=
  stats_fold _ (fun n hn => (sAt5 V c n hn).1)
    (fun hn q => (stats_step5_0 V c ⟨0, hn⟩ _ q).trans
      (congrArg (· + _) ((congrFun (zero5_0_eq (F := Ideal)) _).trans (stats_zero_at _ _))))
    (fun n hn q => stats_step5_0 V c ⟨n + 1, hn⟩ _ q) h
theorem stats_run5_1 (c : Dev nD) (h : 9 < cfg5.N) : (sAt5 V c 9 h).2
    = Cert.ReferenceIdeal.Spec.row1 (F := Ideal) (Cert.ReferenceIdeal.Spec.colSum (F := Ideal) (stats_sqT5 V c)) :=
  stats_fold _ (fun n hn => (sAt5 V c n hn).2)
    (fun hn q => (stats_step5_1 V c ⟨0, hn⟩ _ q).trans
      (congrArg (· + _) ((congrFun (zero5_1_eq (F := Ideal)) _).trans (stats_zero_at _ _))))
    (fun n hn q => stats_step5_1 V c ⟨n + 1, hn⟩ _ q) h

theorem stats_agg5 (c : Dev nD) (S : Vec Ideal S50000x128 .f32) (B : Vec Ideal S1x128 .f32)
    (hS : (dat5 (F := Ideal) V c).A 0 = S) (hB : (dat5 (F := Ideal) V c).A 1 = B) :
    (dat5 (F := Ideal) V c).arrAt 2 cfg5.N
      = addf (F := Ideal) (φ := .f32) S (Cert.ReferenceIdeal.Spec.rows (F := Ideal) B) := by
  subst hS hB
  refine (dat5 V c).arrAt_eq_of_cover 2 (stats_aggT5 V c) (fun t _ => ?_) fun (i : S50000x128.Idx) => ?_
  · show (cfg5.win 2).cut (grid5.coords t) ((dat5 V c).after 2 t) = _
    rw [after5_2, out5_2_eq]
    refine funext fun (y : S5000x128.Idx) => ?_
    obtain ⟨r, q, rfl⟩ : ∃ (r : Fin 5000) (q : Fin 128), y = ix2 r q := ⟨y 0, y 1, eq_ix2 y⟩
    have hr : 5000 * t.val + r.val < 50000 := by have := r.isLt; have := stats_lt5 t; omega
    exact (stats_blk_agg5 V c t r q hr).trans
      (congrArg (stats_aggT5 V c) (stats_emb5_2 t (ix2 r q) (ix2 ⟨_, hr⟩ q) rfl rfl).symm)
  · have hi : (i 0).val / 5000 < cfg5.N := by rw [show cfg5.N = 10 from N_5]; have := idx2_lt0 i; omega
    exact ⟨⟨_, hi⟩, flush5_2 _, stats_mem_of_emb (stats_emb5_2 ⟨_, hi⟩
      (ix2 ⟨(i 0).val % 5000, Nat.mod_lt _ (by decide)⟩ (i 1)) i (Nat.div_add_mod _ _).symm rfl)⟩

abbrev stats_last5 : Fin cfg5.N := ⟨9, by rw [show cfg5.N = 10 from N_5]; decide⟩
theorem stats_nine5 (t : Fin cfg5.N) (h : t.val % 10 = 9) : t.val = 9 := by have := stats_lt5 t; omega

theorem stats_sum5 (c : Dev nD) (S : Vec Ideal S50000x128 .f32) (B : Vec Ideal S1x128 .f32)
    (hS : (dat5 (F := Ideal) V c).A 0 = S) (hB : (dat5 (F := Ideal) V c).A 1 = B) :
    (dat5 (F := Ideal) V c).arrAt 3 cfg5.N
      = Cert.ReferenceIdeal.Spec.row1 (F := Ideal) (Cert.ReferenceIdeal.Spec.colSum (F := Ideal)
          (addf (F := Ideal) (φ := .f32) S (Cert.ReferenceIdeal.Spec.rows (F := Ideal) B))) := by
  subst hS hB
  refine (dat5 V c).arrAt_eq_of_cover 3 _ (fun t hf => funext fun y => ?_)
    fun i => ⟨stats_last5, (flush5_3 _).mpr rfl, stats_mem_of_emb (stats_emb5_3 stats_last5 i)⟩
  show (cfg5.win 3).cut (grid5.coords t) ((dat5 V c).after 3 t) y = Cert.ReferenceIdeal.Spec.row1 (F := Ideal)
    (Cert.ReferenceIdeal.Spec.colSum (F := Ideal) (stats_aggT5 V c)) (((cfg5.win 3).blk t).view.emb y)
  rw [after5_3_last V c t (stats_nine5 t ((flush5_3 t).mp hf)), stats_emb5_3]
  exact congrFun (stats_run5_0 V c _) y

theorem stats_sumsq5 (c : Dev nD) (S : Vec Ideal S50000x128 .f32) (B : Vec Ideal S1x128 .f32)
    (hS : (dat5 (F := Ideal) V c).A 0 = S) (hB : (dat5 (F := Ideal) V c).A 1 = B) :
    (dat5 (F := Ideal) V c).arrAt 4 cfg5.N
      = Cert.ReferenceIdeal.Spec.row1 (F := Ideal) (Cert.ReferenceIdeal.Spec.colSum (F := Ideal)
          (mulf (F := Ideal) (φ := .f32)
            (addf (F := Ideal) (φ := .f32) S (Cert.ReferenceIdeal.Spec.rows (F := Ideal) B))
            (addf (F := Ideal) (φ := .f32) S (Cert.ReferenceIdeal.Spec.rows (F := Ideal) B)))) := by
  subst hS hB
  refine (dat5 V c).arrAt_eq_of_cover 4 _ (fun t hf => funext fun y => ?_)
    fun i => ⟨stats_last5, (flush5_4 _).mpr rfl, stats_mem_of_emb (stats_emb5_4 stats_last5 i)⟩
  show (cfg5.win 4).cut (grid5.coords t) ((dat5 V c).after 4 t) y = Cert.ReferenceIdeal.Spec.row1 (F := Ideal)
    (Cert.ReferenceIdeal.Spec.colSum (F := Ideal) (stats_sqT5 V c)) (((cfg5.win 4).blk t).view.emb y)
  rw [after5_4_last V c t (stats_nine5 t ((flush5_4 t).mp hf)), stats_emb5_4]
  exact congrFun (stats_run5_1 V c _) y

end Cert.KernelIdeal.Val
end
-- ==== Proof.Val.Stats08.lean ====
import proofs.«408439_j66932770341395_1_alg».proof.Proof.KI.R08
import proofs.«408439_j66932770341395_1_alg».proof.Proof.Gen.ReferenceIdeal
import proofs.«408439_j66932770341395_1_alg».proof.Proof.Val.Spec
import proofs.«408439_j66932770341395_1_alg».proof.Proof.Val.StatsLaws
import proofs.«408439_j66932770341395_1_alg».proof.Proof.LibMoments
import Idealize.ShloMosaic.PureOps.Ideal.Laws
import Idealize.ShloMosaic.Lib.ValueIdx
import Idealize.ShloMosaic.Lib.Pipeline.Value
import Idealize.ShloMosaic.Lib.ValueLayout
set_option maxRecDepth 16384
noncomputable section
namespace Cert.KernelIdeal.Val
open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat Cfg Window)
open Cert.LibMoments
open scoped BigOperators
variable (V : (c : Dev nD) → (b : Ref sig .tc) → Buf (Elt Ideal) ((c : Thread nD τ).loc b))

abbrev stats_s8 (c : Dev nD) : Vec Ideal S50000x128 .f32 := V c (Pipeline.arrRef spec8 0)
abbrev stats_b8 (c : Dev nD) : Vec Ideal S1x128 .f32 := V c (Pipeline.arrRef spec8 1)
abbrev stats_aggT8 (c : Dev nD) : Vec Ideal S50000x128 .f32 :=
  addf (F := Ideal) (φ := .f32) (stats_s8 V c) (Cert.ReferenceIdeal.Spec.rows (F := Ideal) (stats_b8 V c))
abbrev stats_sqT8 (c : Dev nD) : Vec Ideal S50000x128 .f32 :=
  mulf (F := Ideal) (φ := .f32) (stats_aggT8 V c) (stats_aggT8 V c)

theorem stats_idx8 : ∀ t : Fin cfg8.N, (win8_0.index t 0 = t.val ∧ win8_0.index t 1 = 0) ∧ (∀ a, win8_1.index t a = 0)
    ∧ (win8_2.index t 0 = t.val ∧ win8_2.index t 1 = 0) ∧ (∀ a, win8_3.index t a = 0) ∧ ∀ a, win8_4.index t a = 0 :=
  (by decide +kernel : ∀ t : Fin grid8.N, _)

theorem stats_emb8_0 (t : Fin cfg8.N) (r : Fin 5000) (q : Fin 128) (i : Fin 50000) (hi : i.val = 5000 * t.val + r.val) :
    ((cfg8.win 0).blk t).view.emb (ix2 r q) = ix2 i q :=
  Shape.idx_ext₂ (by show win8_0.index t 0 * 5000 + 1 * r.val = i.val; rw [(stats_idx8 t).1.1, hi]; omega)
    (by show win8_0.index t 1 * 128 + 1 * q.val = q.val; rw [(stats_idx8 t).1.2]; omega)
theorem stats_emb8_2 (t : Fin cfg8.N) (y : S5000x128.Idx) (i : S50000x128.Idx) (hi : (i 0).val = 5000 * t.val + (y 0).val)
    (hq : (i 1).val = (y 1).val) : ((cfg8.win 2).blk t).view.emb y = i :=
  Shape.idx_ext₂ (by show win8_2.index t 0 * 5000 + 1 * (y 0).val = _; rw [(stats_idx8 t).2.2.1.1, hi]; omega)
    (by show win8_2.index t 1 * 128 + 1 * (y 1).val = _; rw [(stats_idx8 t).2.2.1.2, hq]; omega)
theorem stats_emb8_1 (t : Fin cfg8.N) (y : S1x128.Idx) : ((cfg8.win 1).blk t).view.emb y = y :=
  funext fun a => Fin.ext (win8_1.rect_emb_val_of_index_zero t a ((stats_idx8 t).2.1 a) y)
theorem stats_emb8_3 (t : Fin cfg8.N) (y : S1x128.Idx) : ((cfg8.win 3).blk t).view.emb y = y :=
  funext fun a => Fin.ext (win8_3.rect_emb_val_of_index_zero t a ((stats_idx8 t).2.2.2.1 a) y)
theorem stats_emb8_4 (t : Fin cfg8.N) (y : S1x128.Idx) : ((cfg8.win 4).blk t).view.emb y = y :=
  funext fun a => Fin.ext (win8_4.rect_emb_val_of_index_zero t a ((stats_idx8 t).2.2.2.2 a) y)

theorem stats_blk_agg8 (c : Dev nD) (t : Fin cfg8.N) (r : Fin 5000) (q : Fin 128) (hr : 5000 * t.val + r.val < 50000) :
    k8_pay3 (F := Ideal) (iblk8 V c 0 t) (iblk8 V c 1 t) (ix2 r q)
      = stats_aggT8 V c (ix2 (⟨5000 * t.val + r.val, hr⟩ : Fin 50000) q) := by
  refine (stats_addRow_at _ _ _ _ _ r q).trans ((stats_agg_at (stats_s8 V c) (stats_b8 V c) _ q).trans ?_).symm
  exact congrArg₂ (· + ·) (congrArg (stats_s8 V c) (stats_emb8_0 t r q _ rfl).symm)
    (congrArg (stats_b8 V c) (stats_emb8_1 t _).symm)

theorem stats_lt8 (t : Fin cfg8.N) : t.val < 10 := lt_of_lt_of_eq t.isLt N_8

theorem stats_step8_0 (c : Dev nD) (t : Fin cfg8.N) (s : Vec Ideal S1x128 .f32) (q : Fin 128) :
    acc8_0 (F := Ideal) (iblk8 V c 0 t) (iblk8 V c 1 t) s (ix2 (0 : Fin 1) q)
      = s (ix2 (0 : Fin 1) q) + stats_tileSum (stats_aggT8 V c) q t.val :=
  (congrFun (acc8_0_eq (F := Ideal) _ _ s) _).trans
    (stats_step_at _ _ s q (stats_lt8 t) (fun r => stats_blk_agg8 V c t r q _) _ _ _ _ _)
theorem stats_step8_1 (c : Dev nD) (t : Fin cfg8.N) (s : Vec Ideal S1x128 .f32) (q : Fin 128) :
    acc8_1 (F := Ideal) (iblk8 V c 0 t) (iblk8 V c 1 t) s (ix2 (0 : Fin 1) q)
      = s (ix2 (0 : Fin 1) q) + stats_tileSum (stats_sqT8 V c) q t.val :=
  (congrFun (acc8_1_eq (F := Ideal) _ _ s) _).trans
    (stats_step_at (stats_sqT8 V c) _ s q (stats_lt8 t)
      (fun r => congrArg (fun z => z * z) (stats_blk_agg8 V c t r q _)) _ _ _ _ _)

theorem stats_run8_0 (c : Dev nD) (h : 9 < cfg8.N) : (sAt8 V c 9 h).1
    = Cert.ReferenceIdeal.Spec.row1 (F := Ideal) (Cert.ReferenceIdeal.Spec.colSum (F := Ideal) (stats_aggT8 V c)) :=
  stats_fold _ (fun n hn => (sAt8 V c n hn).1)
    (fun hn q => (stats_step8_0 V c ⟨0, hn⟩ _ q).trans
      (congrArg (· + _) ((congrFun (zero8_0_eq (F := Ideal)) _).trans (stats_zero_at _ _))))
    (fun n hn q => stats_step8_0 V c ⟨n + 1, hn⟩ _ q) h
theorem stats_run8_1 (c : Dev nD) (h : 9 < cfg8.N) : (sAt8 V c 9 h).2
    = Cert.ReferenceIdeal.Spec.row1 (F := Ideal) (Cert.ReferenceIdeal.Spec.colSum (F := Ideal) (stats_sqT8 V c)) :=
  stats_fold _ (fun n hn => (sAt8 V c n hn).2)
    (fun hn q => (stats_step8_1 V c ⟨0, hn⟩ _ q).trans
      (congrArg (· + _) ((congrFun (zero8_1_eq (F := Ideal)) _).trans (stats_zero_at _ _))))
    (fun n hn q => stats_step8_1 V c ⟨n + 1, hn⟩ _ q) h

theorem stats_agg8 (c : Dev nD) (S : Vec Ideal S50000x128 .f32) (B : Vec Ideal S1x128 .f32)
    (hS : (dat8 (F := Ideal) V c).A 0 = S) (hB : (dat8 (F := Ideal) V c).A 1 = B) :
    (dat8 (F := Ideal) V c).arrAt 2 cfg8.N
      = addf (F := Ideal) (φ := .f32) S (Cert.ReferenceIdeal.Spec.rows (F := Ideal) B) := by
  subst hS hB
  refine (dat8 V c).arrAt_eq_of_cover 2 (stats_aggT8 V c) (fun t _ => ?_) fun (i : S50000x128.Idx) => ?_
  · show (cfg8.win 2).cut (grid8.coords t) ((dat8 V c).after 2 t) = _
    rw [after8_2, out8_2_eq]
    refine funext fun (y : S5000x128.Idx) => ?_
    obtain ⟨r, q, rfl⟩ : ∃ (r : Fin 5000) (q : Fin 128), y = ix2 r q := ⟨y 0, y 1, eq_ix2 y⟩
    have hr : 5000 * t.val + r.val < 50000 := by have := r.isLt; have := stats_lt8 t; omega
    exact (stats_blk_agg8 V c t r q hr).trans
      (congrArg (stats_aggT8 V c) (stats_emb8_2 t (ix2 r q) (ix2 ⟨_, hr⟩ q) rfl rfl).symm)
  · have hi : (i 0).val / 5000 < cfg8.N := by rw [show cfg8.N = 10 from N_8]; have := idx2_lt0 i; omega
    exact ⟨⟨_, hi⟩, flush8_2 _, stats_mem_of_emb (stats_emb8_2 ⟨_, hi⟩
      (ix2 ⟨(i 0).val % 5000, Nat.mod_lt _ (by decide)⟩ (i 1)) i (Nat.div_add_mod _ _).symm rfl)⟩

abbrev stats_last8 : Fin cfg8.N := ⟨9, by rw [show cfg8.N = 10 from N_8]; decide⟩
theorem stats_nine8 (t : Fin cfg8.N) (h : t.val % 10 = 9) : t.val = 9 := by have := stats_lt8 t; omega

theorem stats_sum8 (c : Dev nD) (S : Vec Ideal S50000x128 .f32) (B : Vec Ideal S1x128 .f32)
    (hS : (dat8 (F := Ideal) V c).A 0 = S) (hB : (dat8 (F := Ideal) V c).A 1 = B) :
    (dat8 (F := Ideal) V c).arrAt 3 cfg8.N
      = Cert.ReferenceIdeal.Spec.row1 (F := Ideal) (Cert.ReferenceIdeal.Spec.colSum (F := Ideal)
          (addf (F := Ideal) (φ := .f32) S (Cert.ReferenceIdeal.Spec.rows (F := Ideal) B))) := by
  subst hS hB
  refine (dat8 V c).arrAt_eq_of_cover 3 _ (fun t hf => funext fun y => ?_)
    fun i => ⟨stats_last8, (flush8_3 _).mpr rfl, stats_mem_of_emb (stats_emb8_3 stats_last8 i)⟩
  show (cfg8.win 3).cut (grid8.coords t) ((dat8 V c).after 3 t) y = Cert.ReferenceIdeal.Spec.row1 (F := Ideal)
    (Cert.ReferenceIdeal.Spec.colSum (F := Ideal) (stats_aggT8 V c)) (((cfg8.win 3).blk t).view.emb y)
  rw [after8_3_last V c t (stats_nine8 t ((flush8_3 t).mp hf)), stats_emb8_3]
  exact congrFun (stats_run8_0 V c _) y

theorem stats_sumsq8 (c : Dev nD) (S : Vec Ideal S50000x128 .f32) (B : Vec Ideal S1x128 .f32)
    (hS : (dat8 (F := Ideal) V c).A 0 = S) (hB : (dat8 (F := Ideal) V c).A 1 = B) :
    (dat8 (F := Ideal) V c).arrAt 4 cfg8.N
      = Cert.ReferenceIdeal.Spec.row1 (F := Ideal) (Cert.ReferenceIdeal.Spec.colSum (F := Ideal)
          (mulf (F := Ideal) (φ := .f32)
            (addf (F := Ideal) (φ := .f32) S (Cert.ReferenceIdeal.Spec.rows (F := Ideal) B))
            (addf (F := Ideal) (φ := .f32) S (Cert.ReferenceIdeal.Spec.rows (F := Ideal) B)))) := by
  subst hS hB
  refine (dat8 V c).arrAt_eq_of_cover 4 _ (fun t hf => funext fun y => ?_)
    fun i => ⟨stats_last8, (flush8_4 _).mpr rfl, stats_mem_of_emb (stats_emb8_4 stats_last8 i)⟩
  show (cfg8.win 4).cut (grid8.coords t) ((dat8 V c).after 4 t) y = Cert.ReferenceIdeal.Spec.row1 (F := Ideal)
    (Cert.ReferenceIdeal.Spec.colSum (F := Ideal) (stats_sqT8 V c)) (((cfg8.win 4).blk t).view.emb y)
  rw [after8_4_last V c t (stats_nine8 t ((flush8_4 t).mp hf)), stats_emb8_4]
  exact congrFun (stats_run8_1 V c _) y

end Cert.KernelIdeal.Val
end
-- ==== Proof.Val.Stats11.lean ====
import proofs.«408439_j66932770341395_1_alg».proof.Proof.KI.R11
import proofs.«408439_j66932770341395_1_alg».proof.Proof.Gen.ReferenceIdeal
import proofs.«408439_j66932770341395_1_alg».proof.Proof.Val.Spec
import proofs.«408439_j66932770341395_1_alg».proof.Proof.Val.StatsLaws
import proofs.«408439_j66932770341395_1_alg».proof.Proof.LibMoments
import Idealize.ShloMosaic.PureOps.Ideal.Laws
import Idealize.ShloMosaic.Lib.ValueIdx
import Idealize.ShloMosaic.Lib.Pipeline.Value
import Idealize.ShloMosaic.Lib.ValueLayout
set_option maxRecDepth 16384
noncomputable section
namespace Cert.KernelIdeal.Val
open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat Cfg Window)
open Cert.LibMoments
open scoped BigOperators
variable (V : (c : Dev nD) → (b : Ref sig .tc) → Buf (Elt Ideal) ((c : Thread nD τ).loc b))

abbrev stats_s11 (c : Dev nD) : Vec Ideal S50000x128 .f32 := V c (Pipeline.arrRef spec11 0)
abbrev stats_b11 (c : Dev nD) : Vec Ideal S1x128 .f32 := V c (Pipeline.arrRef spec11 1)
abbrev stats_aggT11 (c : Dev nD) : Vec Ideal S50000x128 .f32 :=
  addf (F := Ideal) (φ := .f32) (stats_s11 V c) (Cert.ReferenceIdeal.Spec.rows (F := Ideal) (stats_b11 V c))
abbrev stats_sqT11 (c : Dev nD) : Vec Ideal S50000x128 .f32 :=
  mulf (F := Ideal) (φ := .f32) (stats_aggT11 V c) (stats_aggT11 V c)

theorem stats_idx11 : ∀ t : Fin cfg11.N, (win11_0.index t 0 = t.val ∧ win11_0.index t 1 = 0) ∧ (∀ a, win11_1.index t a = 0)
    ∧ (win11_2.index t 0 = t.val ∧ win11_2.index t 1 = 0) ∧ (∀ a, win11_3.index t a = 0) ∧ ∀ a, win11_4.index t a = 0 :=
  (by decide +kernel : ∀ t : Fin grid11.N, _)

theorem stats_emb11_0 (t : Fin cfg11.N) (r : Fin 5000) (q : Fin 128) (i : Fin 50000) (hi : i.val = 5000 * t.val + r.val) :
    ((cfg11.win 0).blk t).view.emb (ix2 r q) = ix2 i q :=
  Shape.idx_ext₂ (by show win11_0.index t 0 * 5000 + 1 * r.val = i.val; rw [(stats_idx11 t).1.1, hi]; omega)
    (by show win11_0.index t 1 * 128 + 1 * q.val = q.val; rw [(stats_idx11 t).1.2]; omega)
theorem stats_emb11_2 (t : Fin cfg11.N) (y : S5000x128.Idx) (i : S50000x128.Idx) (hi : (i 0).val = 5000 * t.val + (y 0).val)
    (hq : (i 1).val = (y 1).val) : ((cfg11.win 2).blk t).view.emb y = i :=
  Shape.idx_ext₂ (by show win11_2.index t 0 * 5000 + 1 * (y 0).val = _; rw [(stats_idx11 t).2.2.1.1, hi]; omega)
    (by show win11_2.index t 1 * 128 + 1 * (y 1).val = _; rw [(stats_idx11 t).2.2.1.2, hq]; omega)
theorem stats_emb11_1 (t : Fin cfg11.N) (y : S1x128.Idx) : ((cfg11.win 1).blk t).view.emb y = y :=
  funext fun a => Fin.ext (win11_1.rect_emb_val_of_index_zero t a ((stats_idx11 t).2.1 a) y)
theorem stats_emb11_3 (t : Fin cfg11.N) (y : S1x128.Idx) : ((cfg11.win 3).blk t).view.emb y = y :=
  funext fun a => Fin.ext (win11_3.rect_emb_val_of_index_zero t a ((stats_idx11 t).2.2.2.1 a) y)
theorem stats_emb11_4 (t : Fin cfg11.N) (y : S1x128.Idx) : ((cfg11.win 4).blk t).view.emb y = y :=
  funext fun a => Fin.ext (win11_4.rect_emb_val_of_index_zero t a ((stats_idx11 t).2.2.2.2 a) y)

theorem stats_blk_agg11 (c : Dev nD) (t : Fin cfg11.N) (r : Fin 5000) (q : Fin 128) (hr : 5000 * t.val + r.val < 50000) :
    k11_pay3 (F := Ideal) (iblk11 V c 0 t) (iblk11 V c 1 t) (ix2 r q)
      = stats_aggT11 V c (ix2 (⟨5000 * t.val + r.val, hr⟩ : Fin 50000) q) := by
  refine (stats_addRow_at _ _ _ _ _ r q).trans ((stats_agg_at (stats_s11 V c) (stats_b11 V c) _ q).trans ?_).symm
  exact congrArg₂ (· + ·) (congrArg (stats_s11 V c) (stats_emb11_0 t r q _ rfl).symm)
    (congrArg (stats_b11 V c) (stats_emb11_1 t _).symm)

theorem stats_lt11 (t : Fin cfg11.N) : t.val < 10 := lt_of_lt_of_eq t.isLt N_11

theorem stats_step11_0 (c : Dev nD) (t : Fin cfg11.N) (s : Vec Ideal S1x128 .f32) (q : Fin 128) :
    acc11_0 (F := Ideal) (iblk11 V c 0 t) (iblk11 V c 1 t) s (ix2 (0 : Fin 1) q)
      = s (ix2 (0 : Fin 1) q) + stats_tileSum (stats_aggT11 V c) q t.val :=
  (congrFun (acc11_0_eq (F := Ideal) _ _ s) _).trans
    (stats_step_at _ _ s q (stats_lt11 t) (fun r => stats_blk_agg11 V c t r q _) _ _ _ _ _)
theorem stats_step11_1 (c : Dev nD) (t : Fin cfg11.N) (s : Vec Ideal S1x128 .f32) (q : Fin 128) :
    acc11_1 (F := Ideal) (iblk11 V c 0 t) (iblk11 V c 1 t) s (ix2 (0 : Fin 1) q)
      = s (ix2 (0 : Fin 1) q) + stats_tileSum (stats_sqT11 V c) q t.val :=
  (congrFun (acc11_1_eq (F := Ideal) _ _ s) _).trans
    (stats_step_at (stats_sqT11 V c) _ s q (stats_lt11 t)
      (fun r => congrArg (fun z => z * z) (stats_blk_agg11 V c t r q _)) _ _ _ _ _)

theorem stats_run11_0 (c : Dev nD) (h : 9 < cfg11.N) : (sAt11 V c 9 h).1
    = Cert.ReferenceIdeal.Spec.row1 (F := Ideal) (Cert.ReferenceIdeal.Spec.colSum (F := Ideal) (stats_aggT11 V c)) :=
  stats_fold _ (fun n hn => (sAt11 V c n hn).1)
    (fun hn q => (stats_step11_0 V c ⟨0, hn⟩ _ q).trans
      (congrArg (· + _) ((congrFun (zero11_0_eq (F := Ideal)) _).trans (stats_zero_at _ _))))
    (fun n hn q => stats_step11_0 V c ⟨n + 1, hn⟩ _ q) h
theorem stats_run11_1 (c : Dev nD) (h : 9 < cfg11.N) : (sAt11 V c 9 h).2
    = Cert.ReferenceIdeal.Spec.row1 (F := Ideal) (Cert.ReferenceIdeal.Spec.colSum (F := Ideal) (stats_sqT11 V c)) :=
  stats_fold _ (fun n hn => (sAt11 V c n hn).2)
    (fun hn q => (stats_step11_1 V c ⟨0, hn⟩ _ q).trans
      (congrArg (· + _) ((congrFun (zero11_1_eq (F := Ideal)) _).trans (stats_zero_at _ _))))
    (fun n hn q => stats_step11_1 V c ⟨n + 1, hn⟩ _ q) h

theorem stats_agg11 (c : Dev nD) (S : Vec Ideal S50000x128 .f32) (B : Vec Ideal S1x128 .f32)
    (hS : (dat11 (F := Ideal) V c).A 0 = S) (hB : (dat11 (F := Ideal) V c).A 1 = B) :
    (dat11 (F := Ideal) V c).arrAt 2 cfg11.N
      = addf (F := Ideal) (φ := .f32) S (Cert.ReferenceIdeal.Spec.rows (F := Ideal) B) := by
  subst hS hB
  refine (dat11 V c).arrAt_eq_of_cover 2 (stats_aggT11 V c) (fun t _ => ?_) fun (i : S50000x128.Idx) => ?_
  · show (cfg11.win 2).cut (grid11.coords t) ((dat11 V c).after 2 t) = _
    rw [after11_2, out11_2_eq]
    refine funext fun (y : S5000x128.Idx) => ?_
    obtain ⟨r, q, rfl⟩ : ∃ (r : Fin 5000) (q : Fin 128), y = ix2 r q := ⟨y 0, y 1, eq_ix2 y⟩
    have hr : 5000 * t.val + r.val < 50000 := by have := r.isLt; have := stats_lt11 t; omega
    exact (stats_blk_agg11 V c t r q hr).trans
      (congrArg (stats_aggT11 V c) (stats_emb11_2 t (ix2 r q) (ix2 ⟨_, hr⟩ q) rfl rfl).symm)
  · have hi : (i 0).val / 5000 < cfg11.N := by rw [show cfg11.N = 10 from N_11]; have := idx2_lt0 i; omega
    exact ⟨⟨_, hi⟩, flush11_2 _, stats_mem_of_emb (stats_emb11_2 ⟨_, hi⟩
      (ix2 ⟨(i 0).val % 5000, Nat.mod_lt _ (by decide)⟩ (i 1)) i (Nat.div_add_mod _ _).symm rfl)⟩

abbrev stats_last11 : Fin cfg11.N := ⟨9, by rw [show cfg11.N = 10 from N_11]; decide⟩
theorem stats_nine11 (t : Fin cfg11.N) (h : t.val % 10 = 9) : t.val = 9 := by have := stats_lt11 t; omega

theorem stats_sum11 (c : Dev nD) (S : Vec Ideal S50000x128 .f32) (B : Vec Ideal S1x128 .f32)
    (hS : (dat11 (F := Ideal) V c).A 0 = S) (hB : (dat11 (F := Ideal) V c).A 1 = B) :
    (dat11 (F := Ideal) V c).arrAt 3 cfg11.N
      = Cert.ReferenceIdeal.Spec.row1 (F := Ideal) (Cert.ReferenceIdeal.Spec.colSum (F := Ideal)
          (addf (F := Ideal) (φ := .f32) S (Cert.ReferenceIdeal.Spec.rows (F := Ideal) B))) := by
  subst hS hB
  refine (dat11 V c).arrAt_eq_of_cover 3 _ (fun t hf => funext fun y => ?_)
    fun i => ⟨stats_last11, (flush11_3 _).mpr rfl, stats_mem_of_emb (stats_emb11_3 stats_last11 i)⟩
  show (cfg11.win 3).cut (grid11.coords t) ((dat11 V c).after 3 t) y = Cert.ReferenceIdeal.Spec.row1 (F := Ideal)
    (Cert.ReferenceIdeal.Spec.colSum (F := Ideal) (stats_aggT11 V c)) (((cfg11.win 3).blk t).view.emb y)
  rw [after11_3_last V c t (stats_nine11 t ((flush11_3 t).mp hf)), stats_emb11_3]
  exact congrFun (stats_run11_0 V c _) y

theorem stats_sumsq11 (c : Dev nD) (S : Vec Ideal S50000x128 .f32) (B : Vec Ideal S1x128 .f32)
    (hS : (dat11 (F := Ideal) V c).A 0 = S) (hB : (dat11 (F := Ideal) V c).A 1 = B) :
    (dat11 (F := Ideal) V c).arrAt 4 cfg11.N
      = Cert.ReferenceIdeal.Spec.row1 (F := Ideal) (Cert.ReferenceIdeal.Spec.colSum (F := Ideal)
          (mulf (F := Ideal) (φ := .f32)
            (addf (F := Ideal) (φ := .f32) S (Cert.ReferenceIdeal.Spec.rows (F := Ideal) B))
            (addf (F := Ideal) (φ := .f32) S (Cert.ReferenceIdeal.Spec.rows (F := Ideal) B)))) := by
  subst hS hB
  refine (dat11 V c).arrAt_eq_of_cover 4 _ (fun t hf => funext fun y => ?_)
    fun i => ⟨stats_last11, (flush11_4 _).mpr rfl, stats_mem_of_emb (stats_emb11_4 stats_last11 i)⟩
  show (cfg11.win 4).cut (grid11.coords t) ((dat11 V c).after 4 t) y = Cert.ReferenceIdeal.Spec.row1 (F := Ideal)
    (Cert.ReferenceIdeal.Spec.colSum (F := Ideal) (stats_sqT11 V c)) (((cfg11.win 4).blk t).view.emb y)
  rw [after11_4_last V c t (stats_nine11 t ((flush11_4 t).mp hf)), stats_emb11_4]
  exact congrFun (stats_run11_1 V c _) y

end Cert.KernelIdeal.Val
end
-- ==== Proof.Val.BnLaws.lean ====
import proofs.«408439_j66932770341395_1_alg».proof.Proof.Val.KTerms
import Idealize.ShloMosaic.PureOps.Ideal.Laws
import Idealize.ShloMosaic.Lib.ValueIdx
import Idealize.ShloMosaic.Lib.Pipeline.Value
import Idealize.ShloMosaic.Lib.ValueLayout
noncomputable section
namespace Cert.KernelIdeal.Val
open Idealize.ShloMosaic Idealize.ShloMosaic.TcCoe
open Idealize.ShloMosaic.ValueIdx
theorem rows_apply (x : Vec Ideal Cert.ReferenceIdeal.S1x128 .f32) (n : Fin 50000) (j : Fin 128) :
    Cert.ReferenceIdeal.Spec.rows (F := Ideal) x (ix2 n j) = x (ix2 (0 : Fin 1) j) := by
  unfold Cert.ReferenceIdeal.Spec.rows
  refine broadcastInDim_apply _ _ x (ix2 n j) (ix2 (0 : Fin 1) j) fun a => ?_
  match a with
  | ⟨0, _⟩ => rfl
  | ⟨1, _⟩ => rfl
theorem bnTerm_ix (A : Vec Ideal Cert.ReferenceIdeal.S50000x128 .f32) (Mn Vr G Bt : Vec Ideal Cert.ReferenceIdeal.S1x128 .f32)
    (n : Fin 50000) (j : Fin 128) :
    bnTerm A Mn Vr G Bt (ix2 n j)
      = max (((A (ix2 n j) - Mn (ix2 (0 : Fin 1) j)) * Ideal.rsqrt (Vr (ix2 (0 : Fin 1) j) + Ideal.ofBits .f32 0x3727C5AC#32)) * G (ix2 (0 : Fin 1) j)
          + Bt (ix2 (0 : Fin 1) j)) 0 := by
  unfold bnTerm
  rw [maximumf_apply, addf_apply, mulf_apply, mulf_apply, subf_apply, rows_apply, rows_apply, rows_apply, rows_apply]
  rw [← Ideal.ofBits_zero_f32]
  rfl
theorem bn_hz : (![0, 0] : Fin 2 → Nat) = fun _ => 0 := funext fun a => by fin_cases a <;> rfl

-- A view's image of a block index lies in the view's index set.
theorem bn_mem_of_emb {sig : RefSig} {κ : Kind} {sp : Space} {s : Shape} {e : EltTy} {v : View sig κ sp s e} {x : s.Idx} {i}
    (h : v.emb x = i) : i ∈ v.set := h ▸ v.emb_mem_set x

-- The normalise-scale-shift-rectify arithmetic on a tile and its four rows.
abbrev bnPay (x : Vec Ideal ⟨2, ![5000, 128]⟩ .f32) (xv xm xg xb : Vec Ideal ⟨2, ![1, 128]⟩ .f32)
    (cx : (⟨2, ![5000, 128]⟩ : Shape).ShapeCasts ⟨2, ![5000, 128]⟩) (cr : (⟨2, ![1, 128]⟩ : Shape).ShapeCasts ⟨2, ![1, 128]⟩)
    (hb : (⟨2, ![1, 128]⟩ : Shape).Broadcasts ⟨2, ![5000, 128]⟩) : FVec Ideal ⟨2, ![5000, 128]⟩ .f32 :=
  maximumf (F := Ideal) (φ := .f32) (addf (mulf (mulf (subf (shapeCast ⟨2, ![5000, 128]⟩ x cx)
        (broadcastTo ⟨2, ![5000, 128]⟩ (shapeCast ⟨2, ![1, 128]⟩ xm cr) hb))
        (broadcastTo ⟨2, ![5000, 128]⟩ (rsqrt (addf (shapeCast ⟨2, ![1, 128]⟩ xv cr)
          (broadcast ⟨2, ![1, 128]⟩ (Scalar.ofBits (F := Ideal) .f32 0x3727C5AC#32)))) hb))
        (broadcastTo ⟨2, ![5000, 128]⟩ (shapeCast ⟨2, ![1, 128]⟩ xg cr) hb))
      (broadcastTo ⟨2, ![5000, 128]⟩ (shapeCast ⟨2, ![1, 128]⟩ xb cr) hb))
    (broadcast ⟨2, ![5000, 128]⟩ (Scalar.ofBits (F := Ideal) .f32 0x00000000#32))

-- On a tile whose entry at (p, q) is the array's at (i, q), over the same four rows, it is the whole-array term at (i, q).
theorem bnPay_eq (A : Vec Ideal ⟨2, ![50000, 128]⟩ .f32) (Mn Vr G Bt : Vec Ideal ⟨2, ![1, 128]⟩ .f32)
    (x : Vec Ideal ⟨2, ![5000, 128]⟩ .f32) (xv xm xg xb : Vec Ideal ⟨2, ![1, 128]⟩ .f32) (p : Fin 5000) (q : Fin 128) (i : Fin 50000)
    (hx : x (ix2 p q) = A (ix2 i q)) (hm : xm = Mn) (hv : xv = Vr) (hg : xg = G) (ht : xb = Bt)
    (cx : (⟨2, ![5000, 128]⟩ : Shape).ShapeCasts ⟨2, ![5000, 128]⟩) (cr : (⟨2, ![1, 128]⟩ : Shape).ShapeCasts ⟨2, ![1, 128]⟩)
    (hb : (⟨2, ![1, 128]⟩ : Shape).Broadcasts ⟨2, ![5000, 128]⟩) :
    bnPay x xv xm xg xb cx cr hb (ix2 p q) = bnTerm A Mn Vr G Bt (ix2 i q) := by
  subst hm hv hg ht
  simp only [bnPay, shapeCast_self]
  rw [maximumf_apply, addf_apply, mulf_apply, mulf_apply, subf_apply, broadcastTo_1b_ab_apply, broadcastTo_1b_ab_apply,
    broadcastTo_1b_ab_apply, broadcastTo_1b_ab_apply, bnTerm_ix, hx, ← Ideal.ofBits_zero_f32]
  rfl

end Cert.KernelIdeal.Val
-- ==== Proof.Val.Bn03.lean ====
import proofs.«408439_j66932770341395_1_alg».proof.Proof.KI.R03
import proofs.«408439_j66932770341395_1_alg».proof.Proof.Gen.ReferenceIdeal
import proofs.«408439_j66932770341395_1_alg».proof.Proof.Val.KTerms
import proofs.«408439_j66932770341395_1_alg».proof.Proof.Val.BnLaws
import Idealize.ShloMosaic.PureOps.Ideal.Laws
import Idealize.ShloMosaic.Lib.ValueIdx
import Idealize.ShloMosaic.Lib.Pipeline.Value
import Idealize.ShloMosaic.Lib.ValueLayout
set_option maxRecDepth 16384
noncomputable section
namespace Cert.KernelIdeal.Val
open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat Cfg Window)
variable (V : (c : Dev nD) → (b : Ref sig .tc) → Buf (Elt Ideal) ((c : Thread nD τ).loc b))

theorem idx_facts3 : ∀ t : Fin cfg3.N, (win3_0.index t 0 = t.val ∧ win3_0.index t 1 = 0) ∧ (∀ a, win3_1.index t a = 0)
    ∧ (∀ a, win3_2.index t a = 0) ∧ (∀ a, win3_3.index t a = 0) ∧ (∀ a, win3_4.index t a = 0)
    ∧ win3_5.index t 0 = t.val ∧ win3_5.index t 1 = 0 :=
  (by decide +kernel : ∀ t : Fin grid3.N, _)

theorem bn_emb3_0 (t : Fin cfg3.N) (y : S5000x128.Idx) (i : S50000x128.Idx) (hi : (i 0).val = 5000 * t.val + (y 0).val)
    (hq : (i 1).val = (y 1).val) : ((cfg3.win 0).blk t).view.emb y = i :=
  Shape.idx_ext₂ (by show win3_0.index t 0 * 5000 + 1 * (y 0).val = _; rw [(idx_facts3 t).1.1, hi]; omega)
    (by show win3_0.index t 1 * 128 + 1 * (y 1).val = _; rw [(idx_facts3 t).1.2, hq]; omega)
theorem bn_emb3_5 (t : Fin cfg3.N) (y : S5000x128.Idx) (i : S50000x128.Idx) (hi : (i 0).val = 5000 * t.val + (y 0).val)
    (hq : (i 1).val = (y 1).val) : ((cfg3.win 5).blk t).view.emb y = i :=
  Shape.idx_ext₂ (by show win3_5.index t 0 * 5000 + 1 * (y 0).val = _; rw [(idx_facts3 t).2.2.2.2.2.1, hi]; omega)
    (by show win3_5.index t 1 * 128 + 1 * (y 1).val = _; rw [(idx_facts3 t).2.2.2.2.2.2, hq]; omega)
theorem bn_iblk3_1 (c : Dev nD) (t : Fin cfg3.N) : (iblk3 V c 1 t : Vec Ideal S1x128 .f32) = (dat3 V c).A 1 :=
  funext fun y => congrArg ((dat3 V c).A 1 : Vec Ideal S1x128 .f32)
    (funext fun a => Fin.ext (win3_1.rect_emb_val_of_index_zero t a ((idx_facts3 t).2.1 a) y))
theorem bn_iblk3_2 (c : Dev nD) (t : Fin cfg3.N) : (iblk3 V c 2 t : Vec Ideal S1x128 .f32) = (dat3 V c).A 2 :=
  funext fun y => congrArg ((dat3 V c).A 2 : Vec Ideal S1x128 .f32)
    (funext fun a => Fin.ext (win3_2.rect_emb_val_of_index_zero t a ((idx_facts3 t).2.2.1 a) y))
theorem bn_iblk3_3 (c : Dev nD) (t : Fin cfg3.N) : (iblk3 V c 3 t : Vec Ideal S1x128 .f32) = (dat3 V c).A 3 :=
  funext fun y => congrArg ((dat3 V c).A 3 : Vec Ideal S1x128 .f32)
    (funext fun a => Fin.ext (win3_3.rect_emb_val_of_index_zero t a ((idx_facts3 t).2.2.2.1 a) y))
theorem bn_iblk3_4 (c : Dev nD) (t : Fin cfg3.N) : (iblk3 V c 4 t : Vec Ideal S1x128 .f32) = (dat3 V c).A 4 :=
  funext fun y => congrArg ((dat3 V c).A 4 : Vec Ideal S1x128 .f32)
    (funext fun a => Fin.ext (win3_4.rect_emb_val_of_index_zero t a ((idx_facts3 t).2.2.2.2.1 a) y))

theorem bn_out3 (x : Vec Ideal S5000x128 .f32) (xm xv xg xb : Vec Ideal S1x128 .f32) :
    out3_5 (F := Ideal) x xm xv xg xb = k3_pay1 x xv xm xg xb := by
  unfold out3_5
  rw [View.canon_unit_zero bn_hz]
  simp only [View.ld_unit_zero (S := S5000x128) bn_hz, View.ld_unit_zero (S := S1x128) bn_hz]

-- Row p of tile t of the result is row 5000 t + p of the whole-array term.
theorem bn_blk3 (c : Dev nD) (t : Fin cfg3.N) (p : Fin 5000) (q : Fin 128) (hp : 5000 * t.val + p.val < 50000) :
    k3_pay1 (F := Ideal) (iblk3 V c 0 t) (iblk3 V c 2 t) (iblk3 V c 1 t) (iblk3 V c 3 t) (iblk3 V c 4 t) (ix2 p q)
      = bnTerm ((dat3 V c).A 0) ((dat3 V c).A 1) ((dat3 V c).A 2) ((dat3 V c).A 3) ((dat3 V c).A 4) (ix2 ⟨_, hp⟩ q) :=
  bnPay_eq ((dat3 V c).A 0) ((dat3 V c).A 1) ((dat3 V c).A 2) ((dat3 V c).A 3) ((dat3 V c).A 4)
    (iblk3 V c 0 t) (iblk3 V c 2 t) (iblk3 V c 1 t) (iblk3 V c 3 t) (iblk3 V c 4 t) p q ⟨_, hp⟩
    (congrArg ((dat3 V c).A 0 : Vec Ideal S50000x128 .f32) (bn_emb3_0 t (ix2 p q) (ix2 ⟨_, hp⟩ q) rfl rfl))
    (bn_iblk3_1 V c t) (bn_iblk3_2 V c t) (bn_iblk3_3 V c t) (bn_iblk3_4 V c t) _ _ _

theorem flushed3_eq (c : Dev nD) (t : Fin cfg3.N) :
    (dat3 (F := Ideal) V c).flushed 5 t = ((cfg3.win 5).blk t).view.read (Elt Ideal)
      (bnTerm ((dat3 V c).A 0) ((dat3 V c).A 1) ((dat3 V c).A 2) ((dat3 V c).A 3) ((dat3 V c).A 4)) := by
  show (cfg3.win 5).cut (grid3.coords t) ((dat3 V c).after 5 t) = _
  rw [after3_5, bn_out3]
  refine funext fun (y : S5000x128.Idx) => ?_
  obtain ⟨p, q, rfl⟩ : ∃ (p : Fin 5000) (q : Fin 128), y = ix2 p q := ⟨y 0, y 1, eq_ix2 y⟩
  have hp : 5000 * t.val + p.val < 50000 := by have := p.isLt; have := lt_of_lt_of_eq t.isLt N_3; omega
  exact (bn_blk3 V c t p q hp).trans
    (congrArg (bnTerm _ _ _ _ _) (bn_emb3_5 t (ix2 p q) (ix2 ⟨_, hp⟩ q) rfl rfl).symm)

theorem cover3 (i : S50000x128.Idx) : ∃ t : Fin cfg3.N, (cfg3.win 5).flush t = true ∧ i ∈ ((cfg3.win 5).blk t).view.set := by
  have hi : (i 0).val / 5000 < cfg3.N := by rw [show cfg3.N = 10 from N_3]; have := idx2_lt0 i; omega
  exact ⟨⟨_, hi⟩, flush3_5 _, bn_mem_of_emb (bn_emb3_5 ⟨_, hi⟩
    (ix2 ⟨(i 0).val % 5000, Nat.mod_lt _ (by decide)⟩ (i 1)) i (Nat.div_add_mod _ _).symm rfl)⟩

theorem bn_final3 (c : Dev nD) (A : Vec Ideal S50000x128 .f32) (Mn Vr G Bt : Vec Ideal S1x128 .f32)
    (hA : (dat3 (F := Ideal) V c).A 0 = A) (hM : (dat3 (F := Ideal) V c).A 1 = Mn) (hV : (dat3 (F := Ideal) V c).A 2 = Vr)
    (hG : (dat3 (F := Ideal) V c).A 3 = G) (hB : (dat3 (F := Ideal) V c).A 4 = Bt) :
    (dat3 (F := Ideal) V c).arrAt 5 cfg3.N = bnTerm A Mn Vr G Bt := by
  subst hA hM hV hG hB
  exact (dat3 V c).arrAt_eq_of_cover 5 _ (fun t _ => flushed3_eq V c t) cover3

end Cert.KernelIdeal.Val
-- ==== Proof.Val.Bn06.lean ====
import proofs.«408439_j66932770341395_1_alg».proof.Proof.KI.R06
import proofs.«408439_j66932770341395_1_alg».proof.Proof.Gen.ReferenceIdeal
import proofs.«408439_j66932770341395_1_alg».proof.Proof.Val.KTerms
import proofs.«408439_j66932770341395_1_alg».proof.Proof.Val.BnLaws
import Idealize.ShloMosaic.PureOps.Ideal.Laws
import Idealize.ShloMosaic.Lib.ValueIdx
import Idealize.ShloMosaic.Lib.Pipeline.Value
import Idealize.ShloMosaic.Lib.ValueLayout
set_option maxRecDepth 16384
noncomputable section
namespace Cert.KernelIdeal.Val
open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat Cfg Window)
variable (V : (c : Dev nD) → (b : Ref sig .tc) → Buf (Elt Ideal) ((c : Thread nD τ).loc b))

theorem idx_facts6 : ∀ t : Fin cfg6.N, (win6_0.index t 0 = t.val ∧ win6_0.index t 1 = 0) ∧ (∀ a, win6_1.index t a = 0)
    ∧ (∀ a, win6_2.index t a = 0) ∧ (∀ a, win6_3.index t a = 0) ∧ (∀ a, win6_4.index t a = 0)
    ∧ win6_5.index t 0 = t.val ∧ win6_5.index t 1 = 0 :=
  (by decide +kernel : ∀ t : Fin grid6.N, _)

theorem bn_emb6_0 (t : Fin cfg6.N) (y : S5000x128.Idx) (i : S50000x128.Idx) (hi : (i 0).val = 5000 * t.val + (y 0).val)
    (hq : (i 1).val = (y 1).val) : ((cfg6.win 0).blk t).view.emb y = i :=
  Shape.idx_ext₂ (by show win6_0.index t 0 * 5000 + 1 * (y 0).val = _; rw [(idx_facts6 t).1.1, hi]; omega)
    (by show win6_0.index t 1 * 128 + 1 * (y 1).val = _; rw [(idx_facts6 t).1.2, hq]; omega)
theorem bn_emb6_5 (t : Fin cfg6.N) (y : S5000x128.Idx) (i : S50000x128.Idx) (hi : (i 0).val = 5000 * t.val + (y 0).val)
    (hq : (i 1).val = (y 1).val) : ((cfg6.win 5).blk t).view.emb y = i :=
  Shape.idx_ext₂ (by show win6_5.index t 0 * 5000 + 1 * (y 0).val = _; rw [(idx_facts6 t).2.2.2.2.2.1, hi]; omega)
    (by show win6_5.index t 1 * 128 + 1 * (y 1).val = _; rw [(idx_facts6 t).2.2.2.2.2.2, hq]; omega)
theorem bn_iblk6_1 (c : Dev nD) (t : Fin cfg6.N) : (iblk6 V c 1 t : Vec Ideal S1x128 .f32) = (dat6 V c).A 1 :=
  funext fun y => congrArg ((dat6 V c).A 1 : Vec Ideal S1x128 .f32)
    (funext fun a => Fin.ext (win6_1.rect_emb_val_of_index_zero t a ((idx_facts6 t).2.1 a) y))
theorem bn_iblk6_2 (c : Dev nD) (t : Fin cfg6.N) : (iblk6 V c 2 t : Vec Ideal S1x128 .f32) = (dat6 V c).A 2 :=
  funext fun y => congrArg ((dat6 V c).A 2 : Vec Ideal S1x128 .f32)
    (funext fun a => Fin.ext (win6_2.rect_emb_val_of_index_zero t a ((idx_facts6 t).2.2.1 a) y))
theorem bn_iblk6_3 (c : Dev nD) (t : Fin cfg6.N) : (iblk6 V c 3 t : Vec Ideal S1x128 .f32) = (dat6 V c).A 3 :=
  funext fun y => congrArg ((dat6 V c).A 3 : Vec Ideal S1x128 .f32)
    (funext fun a => Fin.ext (win6_3.rect_emb_val_of_index_zero t a ((idx_facts6 t).2.2.2.1 a) y))
theorem bn_iblk6_4 (c : Dev nD) (t : Fin cfg6.N) : (iblk6 V c 4 t : Vec Ideal S1x128 .f32) = (dat6 V c).A 4 :=
  funext fun y => congrArg ((dat6 V c).A 4 : Vec Ideal S1x128 .f32)
    (funext fun a => Fin.ext (win6_4.rect_emb_val_of_index_zero t a ((idx_facts6 t).2.2.2.2.1 a) y))

theorem bn_out6 (x : Vec Ideal S5000x128 .f32) (xm xv xg xb : Vec Ideal S1x128 .f32) :
    out6_5 (F := Ideal) x xm xv xg xb = k6_pay1 x xv xm xg xb := by
  unfold out6_5
  rw [View.canon_unit_zero bn_hz]
  simp only [View.ld_unit_zero (S := S5000x128) bn_hz, View.ld_unit_zero (S := S1x128) bn_hz]

-- Row p of tile t of the result is row 5000 t + p of the whole-array term.
theorem bn_blk6 (c : Dev nD) (t : Fin cfg6.N) (p : Fin 5000) (q : Fin 128) (hp : 5000 * t.val + p.val < 50000) :
    k6_pay1 (F := Ideal) (iblk6 V c 0 t) (iblk6 V c 2 t) (iblk6 V c 1 t) (iblk6 V c 3 t) (iblk6 V c 4 t) (ix2 p q)
      = bnTerm ((dat6 V c).A 0) ((dat6 V c).A 1) ((dat6 V c).A 2) ((dat6 V c).A 3) ((dat6 V c).A 4) (ix2 ⟨_, hp⟩ q) :=
  bnPay_eq ((dat6 V c).A 0) ((dat6 V c).A 1) ((dat6 V c).A 2) ((dat6 V c).A 3) ((dat6 V c).A 4)
    (iblk6 V c 0 t) (iblk6 V c 2 t) (iblk6 V c 1 t) (iblk6 V c 3 t) (iblk6 V c 4 t) p q ⟨_, hp⟩
    (congrArg ((dat6 V c).A 0 : Vec Ideal S50000x128 .f32) (bn_emb6_0 t (ix2 p q) (ix2 ⟨_, hp⟩ q) rfl rfl))
    (bn_iblk6_1 V c t) (bn_iblk6_2 V c t) (bn_iblk6_3 V c t) (bn_iblk6_4 V c t) _ _ _

theorem flushed6_eq (c : Dev nD) (t : Fin cfg6.N) :
    (dat6 (F := Ideal) V c).flushed 5 t = ((cfg6.win 5).blk t).view.read (Elt Ideal)
      (bnTerm ((dat6 V c).A 0) ((dat6 V c).A 1) ((dat6 V c).A 2) ((dat6 V c).A 3) ((dat6 V c).A 4)) := by
  show (cfg6.win 5).cut (grid6.coords t) ((dat6 V c).after 5 t) = _
  rw [after6_5, bn_out6]
  refine funext fun (y : S5000x128.Idx) => ?_
  obtain ⟨p, q, rfl⟩ : ∃ (p : Fin 5000) (q : Fin 128), y = ix2 p q := ⟨y 0, y 1, eq_ix2 y⟩
  have hp : 5000 * t.val + p.val < 50000 := by have := p.isLt; have := lt_of_lt_of_eq t.isLt N_6; omega
  exact (bn_blk6 V c t p q hp).trans
    (congrArg (bnTerm _ _ _ _ _) (bn_emb6_5 t (ix2 p q) (ix2 ⟨_, hp⟩ q) rfl rfl).symm)

theorem cover6 (i : S50000x128.Idx) : ∃ t : Fin cfg6.N, (cfg6.win 5).flush t = true ∧ i ∈ ((cfg6.win 5).blk t).view.set := by
  have hi : (i 0).val / 5000 < cfg6.N := by rw [show cfg6.N = 10 from N_6]; have := idx2_lt0 i; omega
  exact ⟨⟨_, hi⟩, flush6_5 _, bn_mem_of_emb (bn_emb6_5 ⟨_, hi⟩
    (ix2 ⟨(i 0).val % 5000, Nat.mod_lt _ (by decide)⟩ (i 1)) i (Nat.div_add_mod _ _).symm rfl)⟩

theorem bn_final6 (c : Dev nD) (A : Vec Ideal S50000x128 .f32) (Mn Vr G Bt : Vec Ideal S1x128 .f32)
    (hA : (dat6 (F := Ideal) V c).A 0 = A) (hM : (dat6 (F := Ideal) V c).A 1 = Mn) (hV : (dat6 (F := Ideal) V c).A 2 = Vr)
    (hG : (dat6 (F := Ideal) V c).A 3 = G) (hB : (dat6 (F := Ideal) V c).A 4 = Bt) :
    (dat6 (F := Ideal) V c).arrAt 5 cfg6.N = bnTerm A Mn Vr G Bt := by
  subst hA hM hV hG hB
  exact (dat6 V c).arrAt_eq_of_cover 5 _ (fun t _ => flushed6_eq V c t) cover6

end Cert.KernelIdeal.Val
-- ==== Proof.Val.Bn09.lean ====
import proofs.«408439_j66932770341395_1_alg».proof.Proof.KI.R09
import proofs.«408439_j66932770341395_1_alg».proof.Proof.Gen.ReferenceIdeal
import proofs.«408439_j66932770341395_1_alg».proof.Proof.Val.KTerms
import proofs.«408439_j66932770341395_1_alg».proof.Proof.Val.BnLaws
import Idealize.ShloMosaic.PureOps.Ideal.Laws
import Idealize.ShloMosaic.Lib.ValueIdx
import Idealize.ShloMosaic.Lib.Pipeline.Value
import Idealize.ShloMosaic.Lib.ValueLayout
set_option maxRecDepth 16384
noncomputable section
namespace Cert.KernelIdeal.Val
open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat Cfg Window)
variable (V : (c : Dev nD) → (b : Ref sig .tc) → Buf (Elt Ideal) ((c : Thread nD τ).loc b))

theorem idx_facts9 : ∀ t : Fin cfg9.N, (win9_0.index t 0 = t.val ∧ win9_0.index t 1 = 0) ∧ (∀ a, win9_1.index t a = 0)
    ∧ (∀ a, win9_2.index t a = 0) ∧ (∀ a, win9_3.index t a = 0) ∧ (∀ a, win9_4.index t a = 0)
    ∧ win9_5.index t 0 = t.val ∧ win9_5.index t 1 = 0 :=
  (by decide +kernel : ∀ t : Fin grid9.N, _)

theorem bn_emb9_0 (t : Fin cfg9.N) (y : S5000x128.Idx) (i : S50000x128.Idx) (hi : (i 0).val = 5000 * t.val + (y 0).val)
    (hq : (i 1).val = (y 1).val) : ((cfg9.win 0).blk t).view.emb y = i :=
  Shape.idx_ext₂ (by show win9_0.index t 0 * 5000 + 1 * (y 0).val = _; rw [(idx_facts9 t).1.1, hi]; omega)
    (by show win9_0.index t 1 * 128 + 1 * (y 1).val = _; rw [(idx_facts9 t).1.2, hq]; omega)
theorem bn_emb9_5 (t : Fin cfg9.N) (y : S5000x128.Idx) (i : S50000x128.Idx) (hi : (i 0).val = 5000 * t.val + (y 0).val)
    (hq : (i 1).val = (y 1).val) : ((cfg9.win 5).blk t).view.emb y = i :=
  Shape.idx_ext₂ (by show win9_5.index t 0 * 5000 + 1 * (y 0).val = _; rw [(idx_facts9 t).2.2.2.2.2.1, hi]; omega)
    (by show win9_5.index t 1 * 128 + 1 * (y 1).val = _; rw [(idx_facts9 t).2.2.2.2.2.2, hq]; omega)
theorem bn_iblk9_1 (c : Dev nD) (t : Fin cfg9.N) : (iblk9 V c 1 t : Vec Ideal S1x128 .f32) = (dat9 V c).A 1 :=
  funext fun y => congrArg ((dat9 V c).A 1 : Vec Ideal S1x128 .f32)
    (funext fun a => Fin.ext (win9_1.rect_emb_val_of_index_zero t a ((idx_facts9 t).2.1 a) y))
theorem bn_iblk9_2 (c : Dev nD) (t : Fin cfg9.N) : (iblk9 V c 2 t : Vec Ideal S1x128 .f32) = (dat9 V c).A 2 :=
  funext fun y => congrArg ((dat9 V c).A 2 : Vec Ideal S1x128 .f32)
    (funext fun a => Fin.ext (win9_2.rect_emb_val_of_index_zero t a ((idx_facts9 t).2.2.1 a) y))
theorem bn_iblk9_3 (c : Dev nD) (t : Fin cfg9.N) : (iblk9 V c 3 t : Vec Ideal S1x128 .f32) = (dat9 V c).A 3 :=
  funext fun y => congrArg ((dat9 V c).A 3 : Vec Ideal S1x128 .f32)
    (funext fun a => Fin.ext (win9_3.rect_emb_val_of_index_zero t a ((idx_facts9 t).2.2.2.1 a) y))
theorem bn_iblk9_4 (c : Dev nD) (t : Fin cfg9.N) : (iblk9 V c 4 t : Vec Ideal S1x128 .f32) = (dat9 V c).A 4 :=
  funext fun y => congrArg ((dat9 V c).A 4 : Vec Ideal S1x128 .f32)
    (funext fun a => Fin.ext (win9_4.rect_emb_val_of_index_zero t a ((idx_facts9 t).2.2.2.2.1 a) y))

theorem bn_out9 (x : Vec Ideal S5000x128 .f32) (xm xv xg xb : Vec Ideal S1x128 .f32) :
    out9_5 (F := Ideal) x xm xv xg xb = k9_pay1 x xv xm xg xb := by
  unfold out9_5
  rw [View.canon_unit_zero bn_hz]
  simp only [View.ld_unit_zero (S := S5000x128) bn_hz, View.ld_unit_zero (S := S1x128) bn_hz]

-- Row p of tile t of the result is row 5000 t + p of the whole-array term.
theorem bn_blk9 (c : Dev nD) (t : Fin cfg9.N) (p : Fin 5000) (q : Fin 128) (hp : 5000 * t.val + p.val < 50000) :
    k9_pay1 (F := Ideal) (iblk9 V c 0 t) (iblk9 V c 2 t) (iblk9 V c 1 t) (iblk9 V c 3 t) (iblk9 V c 4 t) (ix2 p q)
      = bnTerm ((dat9 V c).A 0) ((dat9 V c).A 1) ((dat9 V c).A 2) ((dat9 V c).A 3) ((dat9 V c).A 4) (ix2 ⟨_, hp⟩ q) :=
  bnPay_eq ((dat9 V c).A 0) ((dat9 V c).A 1) ((dat9 V c).A 2) ((dat9 V c).A 3) ((dat9 V c).A 4)
    (iblk9 V c 0 t) (iblk9 V c 2 t) (iblk9 V c 1 t) (iblk9 V c 3 t) (iblk9 V c 4 t) p q ⟨_, hp⟩
    (congrArg ((dat9 V c).A 0 : Vec Ideal S50000x128 .f32) (bn_emb9_0 t (ix2 p q) (ix2 ⟨_, hp⟩ q) rfl rfl))
    (bn_iblk9_1 V c t) (bn_iblk9_2 V c t) (bn_iblk9_3 V c t) (bn_iblk9_4 V c t) _ _ _

theorem flushed9_eq (c : Dev nD) (t : Fin cfg9.N) :
    (dat9 (F := Ideal) V c).flushed 5 t = ((cfg9.win 5).blk t).view.read (Elt Ideal)
      (bnTerm ((dat9 V c).A 0) ((dat9 V c).A 1) ((dat9 V c).A 2) ((dat9 V c).A 3) ((dat9 V c).A 4)) := by
  show (cfg9.win 5).cut (grid9.coords t) ((dat9 V c).after 5 t) = _
  rw [after9_5, bn_out9]
  refine funext fun (y : S5000x128.Idx) => ?_
  obtain ⟨p, q, rfl⟩ : ∃ (p : Fin 5000) (q : Fin 128), y = ix2 p q := ⟨y 0, y 1, eq_ix2 y⟩
  have hp : 5000 * t.val + p.val < 50000 := by have := p.isLt; have := lt_of_lt_of_eq t.isLt N_9; omega
  exact (bn_blk9 V c t p q hp).trans
    (congrArg (bnTerm _ _ _ _ _) (bn_emb9_5 t (ix2 p q) (ix2 ⟨_, hp⟩ q) rfl rfl).symm)

theorem cover9 (i : S50000x128.Idx) : ∃ t : Fin cfg9.N, (cfg9.win 5).flush t = true ∧ i ∈ ((cfg9.win 5).blk t).view.set := by
  have hi : (i 0).val / 5000 < cfg9.N := by rw [show cfg9.N = 10 from N_9]; have := idx2_lt0 i; omega
  exact ⟨⟨_, hi⟩, flush9_5 _, bn_mem_of_emb (bn_emb9_5 ⟨_, hi⟩
    (ix2 ⟨(i 0).val % 5000, Nat.mod_lt _ (by decide)⟩ (i 1)) i (Nat.div_add_mod _ _).symm rfl)⟩

theorem bn_final9 (c : Dev nD) (A : Vec Ideal S50000x128 .f32) (Mn Vr G Bt : Vec Ideal S1x128 .f32)
    (hA : (dat9 (F := Ideal) V c).A 0 = A) (hM : (dat9 (F := Ideal) V c).A 1 = Mn) (hV : (dat9 (F := Ideal) V c).A 2 = Vr)
    (hG : (dat9 (F := Ideal) V c).A 3 = G) (hB : (dat9 (F := Ideal) V c).A 4 = Bt) :
    (dat9 (F := Ideal) V c).arrAt 5 cfg9.N = bnTerm A Mn Vr G Bt := by
  subst hA hM hV hG hB
  exact (dat9 V c).arrAt_eq_of_cover 5 _ (fun t _ => flushed9_eq V c t) cover9

end Cert.KernelIdeal.Val
-- ==== Proof.Val.Bn12.lean ====
import proofs.«408439_j66932770341395_1_alg».proof.Proof.KI.R12
import proofs.«408439_j66932770341395_1_alg».proof.Proof.Gen.ReferenceIdeal
import proofs.«408439_j66932770341395_1_alg».proof.Proof.Val.KTerms
import proofs.«408439_j66932770341395_1_alg».proof.Proof.Val.BnLaws
import Idealize.ShloMosaic.PureOps.Ideal.Laws
import Idealize.ShloMosaic.Lib.ValueIdx
import Idealize.ShloMosaic.Lib.Pipeline.Value
import Idealize.ShloMosaic.Lib.ValueLayout
set_option maxRecDepth 16384
noncomputable section
namespace Cert.KernelIdeal.Val
open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat Cfg Window)
variable (V : (c : Dev nD) → (b : Ref sig .tc) → Buf (Elt Ideal) ((c : Thread nD τ).loc b))

theorem idx_facts12 : ∀ t : Fin cfg12.N, (win12_0.index t 0 = t.val ∧ win12_0.index t 1 = 0) ∧ (∀ a, win12_1.index t a = 0)
    ∧ (∀ a, win12_2.index t a = 0) ∧ (∀ a, win12_3.index t a = 0) ∧ (∀ a, win12_4.index t a = 0)
    ∧ win12_5.index t 0 = t.val ∧ win12_5.index t 1 = 0 :=
  (by decide +kernel : ∀ t : Fin grid12.N, _)

theorem bn_emb12_0 (t : Fin cfg12.N) (y : S5000x128.Idx) (i : S50000x128.Idx) (hi : (i 0).val = 5000 * t.val + (y 0).val)
    (hq : (i 1).val = (y 1).val) : ((cfg12.win 0).blk t).view.emb y = i :=
  Shape.idx_ext₂ (by show win12_0.index t 0 * 5000 + 1 * (y 0).val = _; rw [(idx_facts12 t).1.1, hi]; omega)
    (by show win12_0.index t 1 * 128 + 1 * (y 1).val = _; rw [(idx_facts12 t).1.2, hq]; omega)
theorem bn_emb12_5 (t : Fin cfg12.N) (y : S5000x128.Idx) (i : S50000x128.Idx) (hi : (i 0).val = 5000 * t.val + (y 0).val)
    (hq : (i 1).val = (y 1).val) : ((cfg12.win 5).blk t).view.emb y = i :=
  Shape.idx_ext₂ (by show win12_5.index t 0 * 5000 + 1 * (y 0).val = _; rw [(idx_facts12 t).2.2.2.2.2.1, hi]; omega)
    (by show win12_5.index t 1 * 128 + 1 * (y 1).val = _; rw [(idx_facts12 t).2.2.2.2.2.2, hq]; omega)
theorem bn_iblk12_1 (c : Dev nD) (t : Fin cfg12.N) : (iblk12 V c 1 t : Vec Ideal S1x128 .f32) = (dat12 V c).A 1 :=
  funext fun y => congrArg ((dat12 V c).A 1 : Vec Ideal S1x128 .f32)
    (funext fun a => Fin.ext (win12_1.rect_emb_val_of_index_zero t a ((idx_facts12 t).2.1 a) y))
theorem bn_iblk12_2 (c : Dev nD) (t : Fin cfg12.N) : (iblk12 V c 2 t : Vec Ideal S1x128 .f32) = (dat12 V c).A 2 :=
  funext fun y => congrArg ((dat12 V c).A 2 : Vec Ideal S1x128 .f32)
    (funext fun a => Fin.ext (win12_2.rect_emb_val_of_index_zero t a ((idx_facts12 t).2.2.1 a) y))
theorem bn_iblk12_3 (c : Dev nD) (t : Fin cfg12.N) : (iblk12 V c 3 t : Vec Ideal S1x128 .f32) = (dat12 V c).A 3 :=
  funext fun y => congrArg ((dat12 V c).A 3 : Vec Ideal S1x128 .f32)
    (funext fun a => Fin.ext (win12_3.rect_emb_val_of_index_zero t a ((idx_facts12 t).2.2.2.1 a) y))
theorem bn_iblk12_4 (c : Dev nD) (t : Fin cfg12.N) : (iblk12 V c 4 t : Vec Ideal S1x128 .f32) = (dat12 V c).A 4 :=
  funext fun y => congrArg ((dat12 V c).A 4 : Vec Ideal S1x128 .f32)
    (funext fun a => Fin.ext (win12_4.rect_emb_val_of_index_zero t a ((idx_facts12 t).2.2.2.2.1 a) y))

theorem bn_out12 (x : Vec Ideal S5000x128 .f32) (xm xv xg xb : Vec Ideal S1x128 .f32) :
    out12_5 (F := Ideal) x xm xv xg xb = k12_pay1 x xv xm xg xb := by
  unfold out12_5
  rw [View.canon_unit_zero bn_hz]
  simp only [View.ld_unit_zero (S := S5000x128) bn_hz, View.ld_unit_zero (S := S1x128) bn_hz]

-- Row p of tile t of the result is row 5000 t + p of the whole-array term.
theorem bn_blk12 (c : Dev nD) (t : Fin cfg12.N) (p : Fin 5000) (q : Fin 128) (hp : 5000 * t.val + p.val < 50000) :
    k12_pay1 (F := Ideal) (iblk12 V c 0 t) (iblk12 V c 2 t) (iblk12 V c 1 t) (iblk12 V c 3 t) (iblk12 V c 4 t) (ix2 p q)
      = bnTerm ((dat12 V c).A 0) ((dat12 V c).A 1) ((dat12 V c).A 2) ((dat12 V c).A 3) ((dat12 V c).A 4) (ix2 ⟨_, hp⟩ q) :=
  bnPay_eq ((dat12 V c).A 0) ((dat12 V c).A 1) ((dat12 V c).A 2) ((dat12 V c).A 3) ((dat12 V c).A 4)
    (iblk12 V c 0 t) (iblk12 V c 2 t) (iblk12 V c 1 t) (iblk12 V c 3 t) (iblk12 V c 4 t) p q ⟨_, hp⟩
    (congrArg ((dat12 V c).A 0 : Vec Ideal S50000x128 .f32) (bn_emb12_0 t (ix2 p q) (ix2 ⟨_, hp⟩ q) rfl rfl))
    (bn_iblk12_1 V c t) (bn_iblk12_2 V c t) (bn_iblk12_3 V c t) (bn_iblk12_4 V c t) _ _ _

theorem flushed12_eq (c : Dev nD) (t : Fin cfg12.N) :
    (dat12 (F := Ideal) V c).flushed 5 t = ((cfg12.win 5).blk t).view.read (Elt Ideal)
      (bnTerm ((dat12 V c).A 0) ((dat12 V c).A 1) ((dat12 V c).A 2) ((dat12 V c).A 3) ((dat12 V c).A 4)) := by
  show (cfg12.win 5).cut (grid12.coords t) ((dat12 V c).after 5 t) = _
  rw [after12_5, bn_out12]
  refine funext fun (y : S5000x128.Idx) => ?_
  obtain ⟨p, q, rfl⟩ : ∃ (p : Fin 5000) (q : Fin 128), y = ix2 p q := ⟨y 0, y 1, eq_ix2 y⟩
  have hp : 5000 * t.val + p.val < 50000 := by have := p.isLt; have := lt_of_lt_of_eq t.isLt N_12; omega
  exact (bn_blk12 V c t p q hp).trans
    (congrArg (bnTerm _ _ _ _ _) (bn_emb12_5 t (ix2 p q) (ix2 ⟨_, hp⟩ q) rfl rfl).symm)

theorem cover12 (i : S50000x128.Idx) : ∃ t : Fin cfg12.N, (cfg12.win 5).flush t = true ∧ i ∈ ((cfg12.win 5).blk t).view.set := by
  have hi : (i 0).val / 5000 < cfg12.N := by rw [show cfg12.N = 10 from N_12]; have := idx2_lt0 i; omega
  exact ⟨⟨_, hi⟩, flush12_5 _, bn_mem_of_emb (bn_emb12_5 ⟨_, hi⟩
    (ix2 ⟨(i 0).val % 5000, Nat.mod_lt _ (by decide)⟩ (i 1)) i (Nat.div_add_mod _ _).symm rfl)⟩

theorem bn_final12 (c : Dev nD) (A : Vec Ideal S50000x128 .f32) (Mn Vr G Bt : Vec Ideal S1x128 .f32)
    (hA : (dat12 (F := Ideal) V c).A 0 = A) (hM : (dat12 (F := Ideal) V c).A 1 = Mn) (hV : (dat12 (F := Ideal) V c).A 2 = Vr)
    (hG : (dat12 (F := Ideal) V c).A 3 = G) (hB : (dat12 (F := Ideal) V c).A 4 = Bt) :
    (dat12 (F := Ideal) V c).arrAt 5 cfg12.N = bnTerm A Mn Vr G Bt := by
  subst hA hM hV hG hB
  exact (dat12 V c).arrAt_eq_of_cover 5 _ (fun t _ => flushed12_eq V c t) cover12

end Cert.KernelIdeal.Val
-- ==== Proof.Val.Pool13.lean ====
import proofs.«408439_j66932770341395_1_alg».proof.Proof.KI.R13
import proofs.«408439_j66932770341395_1_alg».proof.Proof.Gen.ReferenceIdeal
import proofs.«408439_j66932770341395_1_alg».proof.Proof.Val.Spec
import proofs.«408439_j66932770341395_1_alg».proof.Proof.LibMoments
import Idealize.ShloMosaic.PureOps.Ideal.Laws
import Idealize.ShloMosaic.Lib.ValueIdx
import Idealize.ShloMosaic.Lib.ValueIdxRank1
import Idealize.ShloMosaic.Lib.Pipeline.Value
import Idealize.ShloMosaic.Lib.ValueLayout
import Idealize.ShloMosaic.Lib.KernelVsHost
import Idealize.ShloMosaic.Lib.IdealHost
set_option maxRecDepth 16384
noncomputable section
namespace Cert.KernelIdeal.Val
open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat Cfg Window)
open scoped BigOperators

variable {m k n : ℕ} {φ₁ φ₂ : FTy}

theorem pool_matmul_rowcol_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  show FloatOps.matmul _ prec A B (constant ⟨2, ![m, n]⟩ .f32 0x00000000#32) (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

theorem pool_dotGeneral_rowcol_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

theorem pool_matmul_colcol_apply (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    matmul (⟨[0], [0], [1], [1], [], [], w⟩ : DotDims _ _ _) prec A B (constant ⟨2, ![m, n]⟩ .f32 0x00000000#32) (ix2 a b)
      = ∑ c : Fin k, A (ix2 c a) * B (ix2 c b) := by
  show FloatOps.matmul _ prec A B (constant ⟨2, ![m, n]⟩ .f32 0x00000000#32) (ix2 a b) = _
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val
    (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

theorem pool_broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pool_onehot_word (x y : BitVec 32) :
    ((((((IntOp.cmpi .eq x y).setWidth 32).toInt : ℤ) : ℝ)) : EReal) = if x = y then (1 : EReal) else 0 := by
  by_cases h : x = y
  · subst h
    have e : ((IntOp.cmpi .eq x x).setWidth 32).toInt = 1 := by
      have : IntOp.cmpi .eq x x = 1#1 := by simp [IntOp.cmpi]
      rw [this]; decide
    rw [e, if_pos rfl]; simp
  · have e : ((IntOp.cmpi .eq x y).setWidth 32).toInt = 0 := by
      have : IntOp.cmpi .eq x y = 0#1 := by
        have hb : (x == y) = false := by simpa using h
        show BitVec.ofBool (x == y) = 0#1
        rw [hb]; rfl
      rw [this]; decide
    rw [e, if_neg h]; simp

section Scatter
variable {R C N : ℕ}

theorem pool_scatter_rows_start0 (w : ScatterDims.WF ⟨2, ![R, C]⟩ ⟨2, ![N, 1]⟩ ⟨2, ![N, C]⟩ [1] [0] [0] 1)
    (idx : IVec ⟨2, ![N, 1]⟩ 32) (n : Fin N) (k' : Fin C) :
    (⟨[1], [0], [0], 1, w⟩ : ScatterDims ⟨2, ![R, C]⟩ ⟨2, ![N, 1]⟩ ⟨2, ![N, C]⟩).start (ix2 n k') idx (0 : Fin 2) = (idx (ix2 n (0 : Fin 1))).toInt := by
  simp [ScatterDims.start]
  congr 2
  funext b; apply Fin.ext
  match b with
  | ⟨0, _⟩ => rfl
  | ⟨1, _⟩ => rfl

theorem pool_scatter_rows_start1 (w : ScatterDims.WF ⟨2, ![R, C]⟩ ⟨2, ![N, 1]⟩ ⟨2, ![N, C]⟩ [1] [0] [0] 1)
    (idx : IVec ⟨2, ![N, 1]⟩ 32) (n : Fin N) (k' : Fin C) :
    (⟨[1], [0], [0], 1, w⟩ : ScatterDims ⟨2, ![R, C]⟩ ⟨2, ![N, 1]⟩ ⟨2, ![N, C]⟩).start (ix2 n k') idx (1 : Fin 2) = 0 := by
  simp [ScatterDims.start]

theorem pool_scatter_rows_window0 (w : ScatterDims.WF ⟨2, ![R, C]⟩ ⟨2, ![N, 1]⟩ ⟨2, ![N, C]⟩ [1] [0] [0] 1)
    (n : Fin N) (k' : Fin C) :
    (⟨[1], [0], [0], 1, w⟩ : ScatterDims ⟨2, ![R, C]⟩ ⟨2, ![N, 1]⟩ ⟨2, ![N, C]⟩).window (ix2 n k') (0 : Fin 2) = 0 := by
  simp [ScatterDims.window, ScatterDims.sKept, Shape.kept]

theorem pool_scatter_rows_window1 (w : ScatterDims.WF ⟨2, ![R, C]⟩ ⟨2, ![N, 1]⟩ ⟨2, ![N, C]⟩ [1] [0] [0] 1)
    (n : Fin N) (k' : Fin C) :
    (⟨[1], [0], [0], 1, w⟩ : ScatterDims ⟨2, ![R, C]⟩ ⟨2, ![N, 1]⟩ ⟨2, ![N, C]⟩).window (ix2 n k') (1 : Fin 2) = k'.val := by
  first | rfl | (simp [ScatterDims.window, ScatterDims.sKept, Shape.kept]; rfl)

theorem pool_scatter_rows_iff (w : ScatterDims.WF ⟨2, ![R, C]⟩ ⟨2, ![N, 1]⟩ ⟨2, ![N, C]⟩ [1] [0] [0] 1)
    (idx : IVec ⟨2, ![N, 1]⟩ 32) (n : Fin N) (k' : Fin C) (g : Fin R) (k : Fin C) :
    (⟨[1], [0], [0], 1, w⟩ : ScatterDims ⟨2, ![R, C]⟩ ⟨2, ![N, 1]⟩ ⟨2, ![N, C]⟩).resultIdx? (ix2 n k') idx = some (ix2 g k) ↔ (idx (ix2 n (0 : Fin 1))).toInt = (g.val : ℤ) ∧ k' = k := by
  have hs0 := pool_scatter_rows_start0 (R := R) w idx n k'
  have hs1 := pool_scatter_rows_start1 (R := R) w idx n k'
  have hw0 := pool_scatter_rows_window0 (R := R) w n k'
  have hw1 := pool_scatter_rows_window1 (R := R) w n k'
  have hg := g.isLt; have hk := k.isLt; have hk' := k'.isLt
  unfold ScatterDims.resultIdx?
  constructor
  · intro h
    split at h
    · rename_i hb
      have e := Option.some.inj h
      have e0 : ((⟨[1], [0], [0], 1, w⟩ : ScatterDims ⟨2, ![R, C]⟩ ⟨2, ![N, 1]⟩ ⟨2, ![N, C]⟩).start (ix2 n k') idx (0 : Fin 2) + ((⟨[1], [0], [0], 1, w⟩ : ScatterDims ⟨2, ![R, C]⟩ ⟨2, ![N, 1]⟩ ⟨2, ![N, C]⟩).window (ix2 n k') (0 : Fin 2) : ℕ)).toNat = g.val :=
        congrArg (fun f : (⟨2, ![R, C]⟩ : Shape).Idx => (f (0 : Fin 2)).val) e
      have e1 : ((⟨[1], [0], [0], 1, w⟩ : ScatterDims ⟨2, ![R, C]⟩ ⟨2, ![N, 1]⟩ ⟨2, ![N, C]⟩).start (ix2 n k') idx (1 : Fin 2) + ((⟨[1], [0], [0], 1, w⟩ : ScatterDims ⟨2, ![R, C]⟩ ⟨2, ![N, 1]⟩ ⟨2, ![N, C]⟩).window (ix2 n k') (1 : Fin 2) : ℕ)).toNat = k.val :=
        congrArg (fun f : (⟨2, ![R, C]⟩ : Shape).Idx => (f (1 : Fin 2)).val) e
      have b0 := (hb (0 : Fin 2)).1
      rw [hs0, hw0] at e0 b0
      rw [hs1, hw1] at e1
      exact ⟨by omega, Fin.ext (by omega)⟩
    · exact absurd h (by simp)
  · rintro ⟨h0, rfl⟩
    have hb : ∀ a, 0 ≤ (⟨[1], [0], [0], 1, w⟩ : ScatterDims ⟨2, ![R, C]⟩ ⟨2, ![N, 1]⟩ ⟨2, ![N, C]⟩).start (ix2 n k') idx a + ((⟨[1], [0], [0], 1, w⟩ : ScatterDims ⟨2, ![R, C]⟩ ⟨2, ![N, 1]⟩ ⟨2, ![N, C]⟩).window (ix2 n k') a : ℕ)
        ∧ (⟨[1], [0], [0], 1, w⟩ : ScatterDims ⟨2, ![R, C]⟩ ⟨2, ![N, 1]⟩ ⟨2, ![N, C]⟩).start (ix2 n k') idx a + ((⟨[1], [0], [0], 1, w⟩ : ScatterDims ⟨2, ![R, C]⟩ ⟨2, ![N, 1]⟩ ⟨2, ![N, C]⟩).window (ix2 n k') a : ℕ) < ((⟨2, ![R, C]⟩ : Shape).size a : ℕ) := by
      intro a
      match a with
      | ⟨0, _⟩ =>
        show 0 ≤ (⟨[1], [0], [0], 1, w⟩ : ScatterDims ⟨2, ![R, C]⟩ ⟨2, ![N, 1]⟩ ⟨2, ![N, C]⟩).start (ix2 n k') idx (0 : Fin 2) + ((⟨[1], [0], [0], 1, w⟩ : ScatterDims ⟨2, ![R, C]⟩ ⟨2, ![N, 1]⟩ ⟨2, ![N, C]⟩).window (ix2 n k') (0 : Fin 2) : ℕ)
          ∧ (⟨[1], [0], [0], 1, w⟩ : ScatterDims ⟨2, ![R, C]⟩ ⟨2, ![N, 1]⟩ ⟨2, ![N, C]⟩).start (ix2 n k') idx (0 : Fin 2) + ((⟨[1], [0], [0], 1, w⟩ : ScatterDims ⟨2, ![R, C]⟩ ⟨2, ![N, 1]⟩ ⟨2, ![N, C]⟩).window (ix2 n k') (0 : Fin 2) : ℕ) < (R : ℕ)
        rw [hs0, hw0, h0]; omega
      | ⟨1, _⟩ =>
        show 0 ≤ (⟨[1], [0], [0], 1, w⟩ : ScatterDims ⟨2, ![R, C]⟩ ⟨2, ![N, 1]⟩ ⟨2, ![N, C]⟩).start (ix2 n k') idx (1 : Fin 2) + ((⟨[1], [0], [0], 1, w⟩ : ScatterDims ⟨2, ![R, C]⟩ ⟨2, ![N, 1]⟩ ⟨2, ![N, C]⟩).window (ix2 n k') (1 : Fin 2) : ℕ)
          ∧ (⟨[1], [0], [0], 1, w⟩ : ScatterDims ⟨2, ![R, C]⟩ ⟨2, ![N, 1]⟩ ⟨2, ![N, C]⟩).start (ix2 n k') idx (1 : Fin 2) + ((⟨[1], [0], [0], 1, w⟩ : ScatterDims ⟨2, ![R, C]⟩ ⟨2, ![N, 1]⟩ ⟨2, ![N, C]⟩).window (ix2 n k') (1 : Fin 2) : ℕ) < (C : ℕ)
        rw [hs1, hw1]; omega
    rw [dif_pos hb]
    congr 1
    funext a; apply Fin.ext
    match a with
    | ⟨0, _⟩ =>
      show ((⟨[1], [0], [0], 1, w⟩ : ScatterDims ⟨2, ![R, C]⟩ ⟨2, ![N, 1]⟩ ⟨2, ![N, C]⟩).start (ix2 n k') idx (0 : Fin 2) + ((⟨[1], [0], [0], 1, w⟩ : ScatterDims ⟨2, ![R, C]⟩ ⟨2, ![N, 1]⟩ ⟨2, ![N, C]⟩).window (ix2 n k') (0 : Fin 2) : ℕ)).toNat = g.val
      rw [hs0, hw0, h0]; omega
    | ⟨1, _⟩ =>
      show ((⟨[1], [0], [0], 1, w⟩ : ScatterDims ⟨2, ![R, C]⟩ ⟨2, ![N, 1]⟩ ⟨2, ![N, C]⟩).start (ix2 n k') idx (1 : Fin 2) + ((⟨[1], [0], [0], 1, w⟩ : ScatterDims ⟨2, ![R, C]⟩ ⟨2, ![N, 1]⟩ ⟨2, ![N, C]⟩).window (ix2 n k') (1 : Fin 2) : ℕ)).toNat = k'.val
      rw [hs1, hw1]; omega
end Scatter

section ScatterSums
variable {R C N : ℕ}

theorem pool_word_eq_iff (x : BitVec 32) (g : ℕ) (hg : g < 2147483648) : x.toInt = (g : ℤ) ↔ x = BitVec.ofNat 32 g := by
  have hx := x.isLt
  constructor
  · intro h
    apply BitVec.eq_of_toNat_eq
    rw [BitVec.toNat_ofNat, Nat.mod_eq_of_lt (by omega)]
    rw [BitVec.toInt_eq_toNat_cond] at h
    split at h <;> omega
  · rintro rfl
    rw [BitVec.toInt_eq_toNat_cond, BitVec.toNat_ofNat, Nat.mod_eq_of_lt (by omega)]
    split <;> omega

theorem pool_scatterAdd_rows_apply (w : ScatterDims.WF ⟨2, ![R, C]⟩ ⟨2, ![N, 1]⟩ ⟨2, ![N, C]⟩ [1] [0] [0] 1) (hR : R ≤ 2147483648)
    (x : FVec Ideal ⟨2, ![R, C]⟩ .f32) (idx : IVec ⟨2, ![N, 1]⟩ 32) (upd : FVec Ideal ⟨2, ![N, C]⟩ .f32) (g : Fin R) (k : Fin C) :
    Host.scatterAdd (F := Ideal) (⟨[1], [0], [0], 1, w⟩ : ScatterDims ⟨2, ![R, C]⟩ ⟨2, ![N, 1]⟩ ⟨2, ![N, C]⟩) x idx upd (ix2 g k)
      = x (ix2 g k) + ∑ n : Fin N, (if idx (ix2 n (0 : Fin 1)) = BitVec.ofNat 32 g.val then (1 : EReal) else 0) * upd (ix2 n k) := by
  have hg := g.isLt
  show x (ix2 g k) + ∑ j ∈ Finset.univ.filter (fun j => (⟨[1], [0], [0], 1, w⟩ : ScatterDims ⟨2, ![R, C]⟩ ⟨2, ![N, 1]⟩ ⟨2, ![N, C]⟩).resultIdx? j idx = some (ix2 g k)), upd j = _
  refine congrArg (x (ix2 g k) + ·) ?_
  rw [Finset.sum_filter, sum_idx2]
  refine Finset.sum_congr rfl fun n _ => ?_
  simp only [pool_scatter_rows_iff w idx n _ g k]
  by_cases h : idx (ix2 n (0 : Fin 1)) = BitVec.ofNat 32 g.val
  · rw [if_pos h, one_mul]
    have h' : (idx (ix2 n (0 : Fin 1))).toInt = (g.val : ℤ) := (pool_word_eq_iff _ _ (by omega)).mpr h
    simp only [h', true_and]
    exact (Finset.sum_ite_eq' Finset.univ k (fun k' => upd (ix2 n k'))).trans (if_pos (Finset.mem_univ k))
  · rw [if_neg h, zero_mul]
    have h' : ¬(idx (ix2 n (0 : Fin 1))).toInt = (g.val : ℤ) := fun e => h ((pool_word_eq_iff _ _ (by omega)).mp e)
    simp only [h', false_and, if_false, Finset.sum_const_zero]

theorem pool_scatter_vec_start0 (w : ScatterDims.WF ⟨1, ![R]⟩ ⟨2, ![N, 1]⟩ ⟨1, ![N]⟩ [] [0] [0] 1)
    (idx : IVec ⟨2, ![N, 1]⟩ 32) (n : Fin N) :
    (⟨[], [0], [0], 1, w⟩ : ScatterDims ⟨1, ![R]⟩ ⟨2, ![N, 1]⟩ ⟨1, ![N]⟩).start (ix1 n) idx (0 : Fin 1) = (idx (ix2 n (0 : Fin 1))).toInt := by
  simp [ScatterDims.start]
  congr 2
  funext b; apply Fin.ext
  match b with
  | ⟨0, _⟩ => rfl
  | ⟨1, _⟩ => rfl

theorem pool_scatter_vec_window0 (w : ScatterDims.WF ⟨1, ![R]⟩ ⟨2, ![N, 1]⟩ ⟨1, ![N]⟩ [] [0] [0] 1) (n : Fin N) :
    (⟨[], [0], [0], 1, w⟩ : ScatterDims ⟨1, ![R]⟩ ⟨2, ![N, 1]⟩ ⟨1, ![N]⟩).window (ix1 n) (0 : Fin 1) = 0 := by
  simp [ScatterDims.window, ScatterDims.sKept, Shape.kept]

theorem pool_scatter_vec_iff (w : ScatterDims.WF ⟨1, ![R]⟩ ⟨2, ![N, 1]⟩ ⟨1, ![N]⟩ [] [0] [0] 1)
    (idx : IVec ⟨2, ![N, 1]⟩ 32) (n : Fin N) (g : Fin R) :
    (⟨[], [0], [0], 1, w⟩ : ScatterDims ⟨1, ![R]⟩ ⟨2, ![N, 1]⟩ ⟨1, ![N]⟩).resultIdx? (ix1 n) idx = some (ix1 g) ↔ (idx (ix2 n (0 : Fin 1))).toInt = (g.val : ℤ) := by
  have hs0 := pool_scatter_vec_start0 (R := R) w idx n
  have hw0 := pool_scatter_vec_window0 (R := R) w n
  have hg := g.isLt
  unfold ScatterDims.resultIdx?
  constructor
  · intro h
    split at h
    · rename_i hb
      have e := Option.some.inj h
      have e0 : ((⟨[], [0], [0], 1, w⟩ : ScatterDims ⟨1, ![R]⟩ ⟨2, ![N, 1]⟩ ⟨1, ![N]⟩).start (ix1 n) idx (0 : Fin 1) + ((⟨[], [0], [0], 1, w⟩ : ScatterDims ⟨1, ![R]⟩ ⟨2, ![N, 1]⟩ ⟨1, ![N]⟩).window (ix1 n) (0 : Fin 1) : ℕ)).toNat = g.val :=
        congrArg (fun f : (⟨1, ![R]⟩ : Shape).Idx => (f (0 : Fin 1)).val) e
      have b0 := (hb (0 : Fin 1)).1
      rw [hs0, hw0] at e0 b0
      omega
    · exact absurd h (by simp)
  · intro h0
    have hb : ∀ a, 0 ≤ (⟨[], [0], [0], 1, w⟩ : ScatterDims ⟨1, ![R]⟩ ⟨2, ![N, 1]⟩ ⟨1, ![N]⟩).start (ix1 n) idx a + ((⟨[], [0], [0], 1, w⟩ : ScatterDims ⟨1, ![R]⟩ ⟨2, ![N, 1]⟩ ⟨1, ![N]⟩).window (ix1 n) a : ℕ)
        ∧ (⟨[], [0], [0], 1, w⟩ : ScatterDims ⟨1, ![R]⟩ ⟨2, ![N, 1]⟩ ⟨1, ![N]⟩).start (ix1 n) idx a + ((⟨[], [0], [0], 1, w⟩ : ScatterDims ⟨1, ![R]⟩ ⟨2, ![N, 1]⟩ ⟨1, ![N]⟩).window (ix1 n) a : ℕ) < ((⟨1, ![R]⟩ : Shape).size a : ℕ) := by
      intro a
      match a with
      | ⟨0, _⟩ =>
        show 0 ≤ (⟨[], [0], [0], 1, w⟩ : ScatterDims ⟨1, ![R]⟩ ⟨2, ![N, 1]⟩ ⟨1, ![N]⟩).start (ix1 n) idx (0 : Fin 1) + ((⟨[], [0], [0], 1, w⟩ : ScatterDims ⟨1, ![R]⟩ ⟨2, ![N, 1]⟩ ⟨1, ![N]⟩).window (ix1 n) (0 : Fin 1) : ℕ)
          ∧ (⟨[], [0], [0], 1, w⟩ : ScatterDims ⟨1, ![R]⟩ ⟨2, ![N, 1]⟩ ⟨1, ![N]⟩).start (ix1 n) idx (0 : Fin 1) + ((⟨[], [0], [0], 1, w⟩ : ScatterDims ⟨1, ![R]⟩ ⟨2, ![N, 1]⟩ ⟨1, ![N]⟩).window (ix1 n) (0 : Fin 1) : ℕ) < (R : ℕ)
        rw [hs0, hw0, h0]; omega
    rw [dif_pos hb]
    congr 1
    funext a; apply Fin.ext
    match a with
    | ⟨0, _⟩ =>
      show ((⟨[], [0], [0], 1, w⟩ : ScatterDims ⟨1, ![R]⟩ ⟨2, ![N, 1]⟩ ⟨1, ![N]⟩).start (ix1 n) idx (0 : Fin 1) + ((⟨[], [0], [0], 1, w⟩ : ScatterDims ⟨1, ![R]⟩ ⟨2, ![N, 1]⟩ ⟨1, ![N]⟩).window (ix1 n) (0 : Fin 1) : ℕ)).toNat = g.val
      rw [hs0, hw0, h0]; omega

theorem pool_sum_idx1 {M : Type*} [AddCommMonoid M] {n : ℕ} (f : (⟨1, ![n]⟩ : Shape).Idx → M) : ∑ i, f i = ∑ a : Fin n, f (ix1 a) := by
  rw [← Equiv.sum_comp (idxEquiv1 (n := n)).symm f]
  rfl

theorem pool_scatterAdd_vec_apply (w : ScatterDims.WF ⟨1, ![R]⟩ ⟨2, ![N, 1]⟩ ⟨1, ![N]⟩ [] [0] [0] 1) (hR : R ≤ 2147483648)
    (x : FVec Ideal ⟨1, ![R]⟩ .f32) (idx : IVec ⟨2, ![N, 1]⟩ 32) (upd : FVec Ideal ⟨1, ![N]⟩ .f32) (g : Fin R) :
    Host.scatterAdd (F := Ideal) (⟨[], [0], [0], 1, w⟩ : ScatterDims ⟨1, ![R]⟩ ⟨2, ![N, 1]⟩ ⟨1, ![N]⟩) x idx upd (ix1 g)
      = x (ix1 g) + ∑ n : Fin N, (if idx (ix2 n (0 : Fin 1)) = BitVec.ofNat 32 g.val then (1 : EReal) else 0) * upd (ix1 n) := by
  have hg := g.isLt
  show x (ix1 g) + ∑ j ∈ Finset.univ.filter (fun j => (⟨[], [0], [0], 1, w⟩ : ScatterDims ⟨1, ![R]⟩ ⟨2, ![N, 1]⟩ ⟨1, ![N]⟩).resultIdx? j idx = some (ix1 g)), upd j = _
  refine congrArg (x (ix1 g) + ·) ?_
  rw [Finset.sum_filter, pool_sum_idx1]
  refine Finset.sum_congr rfl fun n _ => ?_
  simp only [pool_scatter_vec_iff w idx n g]
  by_cases h : idx (ix2 n (0 : Fin 1)) = BitVec.ofNat 32 g.val
  · rw [if_pos h, one_mul, if_pos ((pool_word_eq_iff _ _ (by omega)).mpr h)]
  · rw [if_neg h, zero_mul, if_neg (fun e => h ((pool_word_eq_iff _ _ (by omega)).mp e))]
end ScatterSums

theorem pool_pay3 (v6 : Vec Ideal S5000x1 .i32) (r : Fin 5000) (g : Fin 256) :
    k13_pay3 (F := Ideal) v6 (ix2 r g) = if v6 (ix2 r (0 : Fin 1)) = BitVec.ofNat 32 g.val then (1 : EReal) else 0 := by
  unfold k13_pay3
  simp only [shapeCast_self]
  have e9 : broadcastTo S5000x256 v6 broadcasts_S5000x1_S5000x256 (ix2 r g) = v6 (ix2 r (0 : Fin 1)) :=
    pool_broadcastTo_a1_ab_apply v6 broadcasts_S5000x1_S5000x256 r g
  have e10 : broadcastTo S5000x256 (iota .tc S1x256 32 [1] iota_S1x256_d1_w32) broadcasts_S1x256_S5000x256 (ix2 r g) = BitVec.ofNat 32 g.val :=
    (broadcastTo_1b_ab_apply (iota .tc S1x256 32 [1] iota_S1x256_d1_w32) broadcasts_S1x256_S5000x256 r g).trans
      (iota_single_apply .tc S1x256 32 1 iota_S1x256_d1_w32 (ix2 (0 : Fin 1) g))
  show ((((((IntOp.cmpi .eq (broadcastTo S5000x256 v6 broadcasts_S5000x1_S5000x256 (ix2 r g))
    (broadcastTo S5000x256 (iota .tc S1x256 32 [1] iota_S1x256_d1_w32) broadcasts_S1x256_S5000x256 (ix2 r g))).setWidth 32).toInt : ℤ) : ℝ)) : EReal) = _
  rw [e9, e10]
  exact pool_onehot_word _ _

theorem pool_pay4 (v3 : Vec Ideal S5000x128 .f32) (v6 : Vec Ideal S5000x1 .i32) (v16 : Vec Ideal S256x128 .f32) (g : Fin 256) (k : Fin 128) :
    k13_pay4 (F := Ideal) v3 v6 v16 (ix2 g k)
      = v16 (ix2 g k) + ∑ r : Fin 5000, (if v6 (ix2 r (0 : Fin 1)) = BitVec.ofNat 32 g.val then (1 : EReal) else 0) * v3 (ix2 r k) := by
  unfold k13_pay4
  simp only [shapeCast_self]
  show v16 (ix2 g k) + matmul dot_S5000x256_S5000x128_S256x128_0_0_1_1_n_n none (k13_pay3 v6) (truncf .bf16 v3 bitsLt_bf16_f32) (constant S256x128 .f32 0x00000000#32) (ix2 g k) = _
  refine congrArg (v16 (ix2 g k) + ·) ?_
  refine (pool_matmul_colcol_apply dot_S5000x256_S5000x128_S256x128_0_0_1_1_n_n_wf none (k13_pay3 v6) (truncf .bf16 v3 bitsLt_bf16_f32) g k).trans ?_
  exact Finset.sum_congr rfl fun r _ => by rw [pool_pay3]; rfl

theorem pool_pay5 (v6 : Vec Ideal S5000x1 .i32) (v22 : Vec Ideal S256x1 .f32) (g : Fin 256) :
    k13_pay5 (F := Ideal) v6 v22 (ix2 g (0 : Fin 1))
      = v22 (ix2 g (0 : Fin 1)) + ∑ r : Fin 5000, (if v6 (ix2 r (0 : Fin 1)) = BitVec.ofNat 32 g.val then (1 : EReal) else 0) * 1 := by
  unfold k13_pay5
  simp only [shapeCast_self]
  show v22 (ix2 g (0 : Fin 1)) + matmul dot_S5000x256_S5000x1_S256x1_0_0_1_1_n_n none (k13_pay3 v6) (broadcast S5000x1 (Scalar.ofBits (F := Ideal) .bf16 0x3F80#16)) (constant S256x1 .f32 0x00000000#32) (ix2 g (0 : Fin 1)) = _
  refine congrArg (v22 (ix2 g (0 : Fin 1)) + ·) ?_
  refine (pool_matmul_colcol_apply dot_S5000x256_S5000x1_S256x1_0_0_1_1_n_n_wf none (k13_pay3 v6) (broadcast S5000x1 (Scalar.ofBits (F := Ideal) .bf16 0x3F80#16)) g (0 : Fin 1)).trans ?_
  refine Finset.sum_congr rfl fun r _ => ?_
  rw [pool_pay3]
  show _ * Ideal.ofBits .bf16 0x3F80#16 = _
  rw [Ideal.ofBits_one_bf16]

theorem pool_pay6 (v31 : Vec Ideal S256x128 .f32) (v32 : Vec Ideal S256x1 .f32) (v38 : Vec Ideal S128x10 .f32) (v41 : Vec Ideal S1x10 .f32)
    (g : Fin 256) (j : Fin 10) :
    k13_pay6 (F := Ideal) v31 v32 v38 v41 (ix2 g j)
      = (∑ k : Fin 128, Ideal.div (v31 (ix2 g k)) (max (v32 (ix2 g (0 : Fin 1))) 1) * v38 (ix2 k j)) + v41 (ix2 (0 : Fin 1) j) := by
  unfold k13_pay6
  simp only [shapeCast_self]
  show matmul dot_S256x128_S128x10_S256x10_1_0_0_1_n_n none
      (truncf .bf16 (divf v31 (broadcastTo S256x128 (maximumf v32 (broadcast S256x1 (Scalar.ofBits (F := Ideal) .f32 0x3F800000#32))) broadcasts_S256x1_S256x128)) bitsLt_bf16_f32)
      (truncf .bf16 v38 bitsLt_bf16_f32) (constant S256x10 .f32 0x00000000#32) (ix2 g j)
    + broadcastTo S256x10 v41 broadcasts_S1x10_S256x10 (ix2 g j) = _
  rw [broadcastTo_1b_ab_apply]
  refine congrArg (· + v41 (ix2 (0 : Fin 1) j)) ?_
  refine (pool_matmul_rowcol_apply dot_S256x128_S128x10_S256x10_1_0_0_1_n_n_wf none _ _ g j).trans ?_
  refine Finset.sum_congr rfl fun k _ => ?_
  show Ideal.div (v31 (ix2 g k)) (broadcastTo S256x128 (maximumf v32 (broadcast S256x1 (Scalar.ofBits (F := Ideal) .f32 0x3F800000#32))) broadcasts_S256x1_S256x128 (ix2 g k)) * v38 (ix2 k j) = _
  rw [pool_broadcastTo_a1_ab_apply]
  show Ideal.div (v31 (ix2 g k)) (max (v32 (ix2 g (0 : Fin 1))) (Ideal.ofBits .f32 0x3F800000#32)) * v38 (ix2 k j) = _
  rw [Ideal.ofBits_one_f32]

variable (V : (c : Dev nD) → (b : Ref sig .tc) → Buf (Elt Ideal) ((c : Thread nD τ).loc b))

abbrev pool_h (c : Dev nD) : Vec Ideal S50000x128 .f32 := V c (Pipeline.arrRef spec13 0)
abbrev pool_b (c : Dev nD) : Vec Ideal S50000x1 .i32 := V c (Pipeline.arrRef spec13 1)
abbrev pool_w (c : Dev nD) : Vec Ideal S128x10 .f32 := V c (Pipeline.arrRef spec13 2)
abbrev pool_c (c : Dev nD) : Vec Ideal S1x10 .f32 := V c (Pipeline.arrRef spec13 3)

theorem pool_idx13 : ∀ t : Fin cfg13.N, win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0 :=
  (by decide +kernel : ∀ t : Fin grid13.N, _)

theorem pool_iblk13_0 (c : Dev nD) (t : Fin cfg13.N) (r : Fin 5000) (k : Fin 128) (i : Fin 50000) (hi : i.val = 5000 * t.val + r.val) :
    (iblk13 V c 0 t : Vec Ideal S5000x128 .f32) (ix2 r k) = pool_h V c (ix2 i k) := by
  obtain ⟨e00, e01, -⟩ := pool_idx13 t
  unfold iblk13
  rw [View.read_apply]
  show V c (Pipeline.arrRef spec13 0) _ = V c (Pipeline.arrRef spec13 0) _
  congr 1
  funext a
  apply Fin.ext
  match a with
  | ⟨0, _⟩ => show win13_0.index t (0 : Fin 2) * 5000 + 1 * r.val = i.val; rw [e00, hi]; omega
  | ⟨1, _⟩ => show win13_0.index t (1 : Fin 2) * 128 + 1 * k.val = k.val; rw [e01]; omega

theorem pool_iblk13_1 (c : Dev nD) (t : Fin cfg13.N) (r : Fin 5000) (i : Fin 50000) (hi : i.val = 5000 * t.val + r.val) :
    (iblk13 V c 1 t : Vec Ideal S5000x1 .i32) (ix2 r (0 : Fin 1)) = pool_b V c (ix2 i (0 : Fin 1)) := by
  obtain ⟨-, -, e10, e11, -⟩ := pool_idx13 t
  unfold iblk13
  rw [View.read_apply]
  show V c (Pipeline.arrRef spec13 1) _ = V c (Pipeline.arrRef spec13 1) _
  congr 1
  funext a
  apply Fin.ext
  match a with
  | ⟨0, _⟩ => show win13_1.index t (0 : Fin 2) * 5000 + 1 * r.val = i.val; rw [e10, hi]; omega
  | ⟨1, _⟩ => show win13_1.index t (1 : Fin 2) * 1 + 1 * 0 = 0; rw [e11]

theorem pool_iblk13_2 (c : Dev nD) (t : Fin cfg13.N) (k : Fin 128) (j : Fin 10) :
    (iblk13 V c 2 t : Vec Ideal S128x10 .f32) (ix2 k j) = pool_w V c (ix2 k j) := by
  obtain ⟨-, -, -, -, e20, e21, -⟩ := pool_idx13 t
  unfold iblk13
  rw [View.read_apply]
  show V c (Pipeline.arrRef spec13 2) _ = V c (Pipeline.arrRef spec13 2) _
  congr 1
  funext a
  apply Fin.ext
  match a with
  | ⟨0, _⟩ => show win13_2.index t (0 : Fin 2) * 128 + 1 * k.val = k.val; rw [e20]; omega
  | ⟨1, _⟩ => show win13_2.index t (1 : Fin 2) * 10 + 1 * j.val = j.val; rw [e21]; omega

theorem pool_iblk13_3 (c : Dev nD) (t : Fin cfg13.N) (j : Fin 10) :
    (iblk13 V c 3 t : Vec Ideal S1x10 .f32) (ix2 (0 : Fin 1) j) = pool_c V c (ix2 (0 : Fin 1) j) := by
  obtain ⟨-, -, -, -, -, -, e30, e31, -⟩ := pool_idx13 t
  unfold iblk13
  rw [View.read_apply]
  show V c (Pipeline.arrRef spec13 3) _ = V c (Pipeline.arrRef spec13 3) _
  congr 1
  funext a
  apply Fin.ext
  match a with
  | ⟨0, _⟩ => show win13_3.index t (0 : Fin 2) * 1 + 1 * 0 = 0; rw [e30]
  | ⟨1, _⟩ => show win13_3.index t (1 : Fin 2) * 10 + 1 * j.val = j.val; rw [e31]; omega

section Acc
open Cert.LibMoments

def pool_row (n : ℕ) : Fin 50000 := ⟨n % 50000, Nat.mod_lt _ (by norm_num)⟩
theorem pool_row_val (n : ℕ) (h : n < 50000) : (pool_row n).val = n := Nat.mod_eq_of_lt h

def pool_w0 (c : Dev nD) (g : Fin 256) (k : Fin 128) (i : Fin 50000) : EReal :=
  (if pool_b V c (ix2 i (0 : Fin 1)) = BitVec.ofNat 32 g.val then (1 : EReal) else 0) * pool_h V c (ix2 i k)

def pool_w1 (c : Dev nD) (g : Fin 256) (i : Fin 50000) : EReal :=
  (if pool_b V c (ix2 i (0 : Fin 1)) = BitVec.ofNat 32 g.val then (1 : EReal) else 0) * 1

def pool_s0 (c : Dev nD) (g : Fin 256) (k : Fin 128) (t : ℕ) : EReal := ∑ r : Fin 5000, pool_w0 V c g k (pool_row (5000 * t + r.val))
def pool_s1 (c : Dev nD) (g : Fin 256) (t : ℕ) : EReal := ∑ r : Fin 5000, pool_w1 V c g (pool_row (5000 * t + r.val))

theorem pool_pay1 (g : Fin 256) (k : Fin 128) : k13_pay1 (F := Ideal) (ix2 g k) = 0 := by
  unfold k13_pay1
  simp only [shapeCast_self]
  exact Ideal.ofBits_zero_f32
theorem pool_pay2 (g : Fin 256) : k13_pay2 (F := Ideal) (ix2 g (0 : Fin 1)) = 0 := by
  unfold k13_pay2
  simp only [shapeCast_self]
  exact Ideal.ofBits_zero_f32

theorem pool_step0 (c : Dev nD) (t : Fin cfg13.N) (X : Vec Ideal S256x128 .f32) (g : Fin 256) (k : Fin 128) :
    k13_pay4 (F := Ideal) (iblk13 V c 0 t) (iblk13 V c 1 t) X (ix2 g k) = X (ix2 g k) + pool_s0 V c g k t.val := by
  have ht : t.val < 10 := lt_of_lt_of_eq t.isLt N_13
  rw [pool_pay4]
  refine congrArg (X (ix2 g k) + ·) (Finset.sum_congr rfl fun r _ => ?_)
  have hr : 5000 * t.val + r.val < 50000 := by have := r.isLt; omega
  rw [pool_iblk13_1 V c t r (pool_row (5000 * t.val + r.val)) (pool_row_val _ hr),
    pool_iblk13_0 V c t r k (pool_row (5000 * t.val + r.val)) (pool_row_val _ hr)]
  rfl

theorem pool_step1 (c : Dev nD) (t : Fin cfg13.N) (X : Vec Ideal S256x1 .f32) (g : Fin 256) :
    k13_pay5 (F := Ideal) (iblk13 V c 1 t) X (ix2 g (0 : Fin 1)) = X (ix2 g (0 : Fin 1)) + pool_s1 V c g t.val := by
  have ht : t.val < 10 := lt_of_lt_of_eq t.isLt N_13
  rw [pool_pay5]
  refine congrArg (X (ix2 g (0 : Fin 1)) + ·) (Finset.sum_congr rfl fun r _ => ?_)
  have hr : 5000 * t.val + r.val < 50000 := by have := r.isLt; omega
  rw [pool_iblk13_1 V c t r (pool_row (5000 * t.val + r.val)) (pool_row_val _ hr)]
  rfl

theorem pool_sAt (c : Dev nD) (g : Fin 256) (k : Fin 128) : ∀ (n : ℕ) (hn : n < cfg13.N),
    (sAt13 V c n hn).1 (ix2 g k) = acc 0 (pool_s0 V c g k) (n + 1)
      ∧ (sAt13 V c n hn).2 (ix2 g (0 : Fin 1)) = acc 0 (pool_s1 V c g) (n + 1)
  | 0, hn => by
    rw [sAt13_first V c ⟨0, hn⟩ rfl]
    dsimp only
    rw [pool_step0 V c ⟨0, hn⟩ (k13_pay1 (F := Ideal)) g k, pool_step1 V c ⟨0, hn⟩ (k13_pay2 (F := Ideal)) g, pool_pay1, pool_pay2]
    exact ⟨rfl, rfl⟩
  | n + 1, hn => by
    obtain ⟨ih0, ih1⟩ := pool_sAt c g k n (Nat.lt_of_succ_lt hn)
    rw [show sAt13 V c (n + 1) hn = (k13_pay4 (iblk13 V c 0 ⟨n + 1, hn⟩) (iblk13 V c 1 ⟨n + 1, hn⟩) (sAt13 V c n (Nat.lt_of_succ_lt hn)).1,
      k13_pay5 (iblk13 V c 1 ⟨n + 1, hn⟩) (sAt13 V c n (Nat.lt_of_succ_lt hn)).2) from rfl]
    dsimp only
    rw [pool_step0 V c ⟨n + 1, hn⟩ (sAt13 V c n (Nat.lt_of_succ_lt hn)).1 g k, pool_step1 V c ⟨n + 1, hn⟩ (sAt13 V c n (Nat.lt_of_succ_lt hn)).2 g]
    exact ⟨congrArg (· + pool_s0 V c g k (n + 1)) ih0, congrArg (· + pool_s1 V c g (n + 1)) ih1⟩

def pool_tiles : Fin 10 × Fin 5000 ≃ Fin 50000 := finProdFinEquiv

theorem pool_tiles_apply (t : Fin 10) (r : Fin 5000) : pool_tiles (t, r) = pool_row (5000 * t.val + r.val) := by
  apply Fin.ext
  have ht := t.isLt; have hr := r.isLt
  rw [pool_row_val _ (by omega)]
  show r.val + 5000 * t.val = _
  omega

theorem pool_sAt_last (c : Dev nD) (g : Fin 256) (k : Fin 128) (hn : 9 < cfg13.N) :
    (sAt13 V c 9 hn).1 (ix2 g k) = 0 + ∑ i : Fin 50000, pool_w0 V c g k i
      ∧ (sAt13 V c 9 hn).2 (ix2 g (0 : Fin 1)) = 0 + ∑ i : Fin 50000, pool_w1 V c g i := by
  obtain ⟨h0, h1⟩ := pool_sAt V c g k 9 hn
  rw [h0, h1]
  exact ⟨acc_tiles_equiv' 10 pool_tiles (pool_w0 V c g k) (pool_s0 V c g k) (fun t => Finset.sum_congr rfl fun r _ => by rw [pool_tiles_apply]) 0,
    acc_tiles_equiv' 10 pool_tiles (pool_w1 V c g) (pool_s1 V c g) (fun t => Finset.sum_congr rfl fun r _ => by rw [pool_tiles_apply]) 0⟩

end Acc

abbrev pool_sa0 (H : FVec Ideal ⟨2, ![50000, 128]⟩ .f32) (Bat : IVec ⟨2, ![50000, 1]⟩ 32) : FVec Ideal ⟨2, ![256, 128]⟩ .f32 :=
  Host.scatterAdd (F := Ideal) (φ := .f32) Cert.ReferenceIdeal.scatter_S256x128_S50000x1_S50000x128_1_0_0_1
    (broadcastInDim Cert.ReferenceIdeal.S256x128 ![] Cert.ReferenceIdeal.Gen.bcast_S_S256x128 (Cert.ReferenceIdeal.Spec.zero0 (F := Ideal))) Bat H
abbrev pool_sa1 (Bat : IVec ⟨2, ![50000, 1]⟩ 32) : FVec Ideal ⟨1, ![256]⟩ .f32 :=
  Host.scatterAdd (F := Ideal) (φ := .f32) Cert.ReferenceIdeal.scatter_S256_S50000x1_S50000_n_0_0_1
    (broadcastInDim Cert.ReferenceIdeal.S256 ![] Cert.ReferenceIdeal.Gen.bcast_S_S256 (Cert.ReferenceIdeal.Spec.zero0 (F := Ideal))) Bat
    (broadcastInDim Cert.ReferenceIdeal.S50000 ![] Cert.ReferenceIdeal.Gen.bcast_S_S50000 (Cert.ReferenceIdeal.Spec.one0 (F := Ideal)))

theorem pool_ref_apply (H : FVec Ideal ⟨2, ![50000, 128]⟩ .f32) (Bat : IVec ⟨2, ![50000, 1]⟩ 32) (Wc : FVec Ideal ⟨2, ![128, 10]⟩ .f32) (B1 : FVec Ideal ⟨2, ![1, 10]⟩ .f32)
    (g : Fin 256) (j : Fin 10) :
    Cert.ReferenceIdeal.Spec.poolK (F := Ideal) H Bat Wc B1 (ix2 g j)
      = (∑ k : Fin 128, Ideal.div (pool_sa0 H Bat (ix2 g k)) (max (pool_sa1 Bat (ix1 g)) 1) * Wc (ix2 k j)) + B1 (ix2 (0 : Fin 1) j) := by
  unfold Cert.ReferenceIdeal.Spec.poolK
  rw [addf_apply, broadcastInDim_oneRow_apply]
  refine congrArg (· + B1 (ix2 (0 : Fin 1) j)) ?_
  refine (pool_dotGeneral_rowcol_apply Cert.ReferenceIdeal.Gen.dot_S256x128_S128x10_S256x10_1_0_0_1_n_n_wf none _ _ g j).trans ?_
  refine Finset.sum_congr rfl fun k _ => ?_
  rw [hostDivf_apply]
  rw [broadcastInDim_apply (s := Cert.ReferenceIdeal.S256x1) (t := Cert.ReferenceIdeal.S256x128) ![0, 1] Cert.ReferenceIdeal.Gen.bcast_S256x1_S256x128_0_1 _ (ix2 g k) (ix2 g (0 : Fin 1))
      (fun a => by
        match a with
        | ⟨0, _⟩ => rfl
        | ⟨1, _⟩ => rfl),
    broadcastInDim_apply (s := Cert.ReferenceIdeal.S256) (t := Cert.ReferenceIdeal.S256x1) ![0] Cert.ReferenceIdeal.Gen.bcast_S256_S256x1_0 _ (ix2 g (0 : Fin 1)) (ix1 g)
      (fun a => by
        match a with
        | ⟨0, _⟩ => rfl)]
  rw [maximumf_apply]
  show Ideal.div (pool_sa0 H Bat (ix2 g k)) (max (pool_sa1 Bat (ix1 g)) (Ideal.ofBits .f32 0x3F800000#32)) * Wc (ix2 k j) = _
  rw [Ideal.ofBits_one_f32]

theorem pool_sa0_apply (H : FVec Ideal ⟨2, ![50000, 128]⟩ .f32) (Bat : IVec ⟨2, ![50000, 1]⟩ 32) (g : Fin 256) (k : Fin 128) :
    pool_sa0 H Bat (ix2 g k) = 0 + ∑ i : Fin 50000, (if Bat (ix2 i (0 : Fin 1)) = BitVec.ofNat 32 g.val then (1 : EReal) else 0) * H (ix2 i k) := by
  refine (pool_scatterAdd_rows_apply Cert.ReferenceIdeal.Gen.scatter_S256x128_S50000x1_S50000x128_1_0_0_1_wf (by norm_num) _ Bat H g k).trans ?_
  refine congrArg (· + _) ?_
  show Ideal.ofBits .f32 0x00000000#32 = 0
  exact Ideal.ofBits_zero_f32

theorem pool_sa1_apply (Bat : IVec ⟨2, ![50000, 1]⟩ 32) (g : Fin 256) :
    pool_sa1 Bat (ix1 g) = 0 + ∑ i : Fin 50000, (if Bat (ix2 i (0 : Fin 1)) = BitVec.ofNat 32 g.val then (1 : EReal) else 0) * 1 := by
  refine (pool_scatterAdd_vec_apply Cert.ReferenceIdeal.Gen.scatter_S256_S50000x1_S50000_n_0_0_1_wf (by norm_num) _ Bat _ g).trans ?_
  have e0 : (broadcastInDim Cert.ReferenceIdeal.S256 ![] Cert.ReferenceIdeal.Gen.bcast_S_S256 (Cert.ReferenceIdeal.Spec.zero0 (F := Ideal))) (ix1 g) = (0 : EReal) := by
    show Ideal.ofBits .f32 0x00000000#32 = 0
    exact Ideal.ofBits_zero_f32
  rw [e0]
  refine congrArg (0 + ·) (Finset.sum_congr rfl fun i _ => ?_)
  refine congrArg (fun z : EReal => (if Bat (ix2 i (0 : Fin 1)) = BitVec.ofNat 32 g.val then (1 : EReal) else 0) * z) ?_
  show Ideal.ofBits .f32 0x3F800000#32 = 1
  exact Ideal.ofBits_one_f32

theorem pool_flushed13 (c : Dev nD) (t : Fin cfg13.N) (hf : (cfg13.win 4).flush t = true) :
    (dat13 V c).flushed 4 t = ((cfg13.win 4).blk t).view.read (Elt Ideal)
      (Cert.ReferenceIdeal.Spec.poolK (F := Ideal) (pool_h V c) (pool_b V c) (pool_w V c) (pool_c V c)) := by
  have hN : t.val < 10 := lt_of_lt_of_eq t.isLt N_13
  have ht9 : t.val = 9 := by have := (flush13_4 t).mp hf; omega
  show (cfg13.win 4).cut (grid13.coords t) ((dat13 V c).after 4 t) = _
  rw [after13_4_last V c t ht9]
  obtain ⟨-, -, -, -, -, -, -, -, e40, e41⟩ := pool_idx13 t
  refine funext fun (y : S256x10.Idx) => ?_
  obtain ⟨g, j, rfl⟩ : ∃ (g : Fin 256) (j : Fin 10), y = ix2 g j := ⟨y 0, y 1, eq_ix2 y⟩
  refine (pool_pay6 (sAt13 V c 9 (by rw [← ht9]; exact t.isLt)).1 (sAt13 V c 9 (by rw [← ht9]; exact t.isLt)).2 (iblk13 V c 2 t) (iblk13 V c 3 t) g j).trans ?_
  have hemb : ((cfg13.win 4).blk t).view.emb (ix2 g j) = ix2 g j := by
    funext a
    apply Fin.ext
    match a with
    | ⟨0, _⟩ => show win13_4.index t (0 : Fin 2) * 256 + 1 * g.val = g.val; rw [e40]; omega
    | ⟨1, _⟩ => show win13_4.index t (1 : Fin 2) * 10 + 1 * j.val = j.val; rw [e41]; omega
  show _ = Cert.ReferenceIdeal.Spec.poolK (F := Ideal) (pool_h V c) (pool_b V c) (pool_w V c) (pool_c V c) (((cfg13.win 4).blk t).view.emb (ix2 g j))
  rw [hemb, pool_ref_apply, pool_iblk13_3 V c t j]
  refine congrArg (· + pool_c V c (ix2 (0 : Fin 1) j)) (Finset.sum_congr rfl fun k _ => ?_)
  obtain ⟨h0, h1⟩ := pool_sAt_last V c g k (by rw [← ht9]; exact t.isLt)
  rw [h0, h1, pool_iblk13_2 V c t k j, pool_sa0_apply, pool_sa1_apply]
  rfl

theorem pool_mem_blk13 (t : Fin cfg13.N) (i : S256x10.Idx) :
    i ∈ ((cfg13.win 4).blk t).view.set ↔ ∀ a : Fin 2, win13_4.index t a * S256x10.size a ≤ (i a).val ∧ (i a).val < win13_4.index t a * S256x10.size a + S256x10.size a := by
  show i ∈ ((View.whole (Pipeline.arrRef spec13 4)).slice (win13_4.rect t)).set ↔ _
  rw [View.set_slice_whole, Rect.mem_set_unit]
  exact Iff.rfl

theorem pool_cover13 (i : S256x10.Idx) :
    ∃ t : Fin cfg13.N, (cfg13.win 4).flush t = true ∧ i ∈ ((cfg13.win 4).blk t).view.set := by
  have hi0 : (i 0).val < 256 := (i 0).isLt
  have hi1 : (i 1).val < 10 := (i 1).isLt
  let t : Fin cfg13.N := ⟨9, by rw [show cfg13.N = 10 from N_13]; omega⟩
  obtain ⟨-, -, -, -, -, -, -, -, e40, e41⟩ := pool_idx13 t
  refine ⟨t, (flush13_4 t).mpr rfl, ?_⟩
  rw [pool_mem_blk13]
  intro a
  match a with
  | ⟨0, _⟩ => show win13_4.index t (0 : Fin 2) * 256 ≤ (i 0).val ∧ (i 0).val < win13_4.index t (0 : Fin 2) * 256 + 256; rw [e40]; omega
  | ⟨1, _⟩ => show win13_4.index t (1 : Fin 2) * 10 ≤ (i 1).val ∧ (i 1).val < win13_4.index t (1 : Fin 2) * 10 + 10; rw [e41]; omega

theorem pool_arr13 (c : Dev nD) :
    (dat13 (F := Ideal) V c).arrAt 4 cfg13.N
      = Cert.ReferenceIdeal.Spec.poolK (F := Ideal) (pool_h V c) (pool_b V c) (pool_w V c) (pool_c V c) :=
  (dat13 V c).arrAt_eq_of_cover 4 (Cert.ReferenceIdeal.Spec.poolK (F := Ideal) (pool_h V c) (pool_b V c) (pool_w V c) (pool_c V c))
    (fun t hf => pool_flushed13 V c t hf) (pool_cover13)

theorem pool_final13 (c : Dev nD) (H : Vec Ideal S50000x128 .f32) (Bat : Vec Ideal S50000x1 .i32) (Wc : Vec Ideal S128x10 .f32) (B1 : Vec Ideal S1x10 .f32)
    (hH : (dat13 (F := Ideal) V c).A 0 = H) (hB : (dat13 (F := Ideal) V c).A 1 = Bat) (hW : (dat13 (F := Ideal) V c).A 2 = Wc) (hb : (dat13 (F := Ideal) V c).A 3 = B1) :
    (dat13 (F := Ideal) V c).arrAt 4 cfg13.N = Cert.ReferenceIdeal.Spec.poolK H Bat Wc B1 := by
  subst hH; subst hB; subst hW; subst hb
  exact pool_arr13 V c

end Cert.KernelIdeal.Val
end
-- ==== Proof.Val.KChain.lean ====
import proofs.«408439_j66932770341395_1_alg».proof.Proof.KI.Run
import proofs.«408439_j66932770341395_1_alg».proof.Proof.Val.Spec
import proofs.«408439_j66932770341395_1_alg».proof.Proof.Val.KTerms
import proofs.«408439_j66932770341395_1_alg».proof.Proof.Val.Layout
import proofs.«408439_j66932770341395_1_alg».proof.Proof.Val.HostK
import proofs.«408439_j66932770341395_1_alg».proof.Proof.Val.Lin00
import proofs.«408439_j66932770341395_1_alg».proof.Proof.Val.Lin01
import proofs.«408439_j66932770341395_1_alg».proof.Proof.Val.Lin04
import proofs.«408439_j66932770341395_1_alg».proof.Proof.Val.Lin07
import proofs.«408439_j66932770341395_1_alg».proof.Proof.Val.Lin10
import proofs.«408439_j66932770341395_1_alg».proof.Proof.Val.Stats02
import proofs.«408439_j66932770341395_1_alg».proof.Proof.Val.Stats05
import proofs.«408439_j66932770341395_1_alg».proof.Proof.Val.Stats08
import proofs.«408439_j66932770341395_1_alg».proof.Proof.Val.Stats11
import proofs.«408439_j66932770341395_1_alg».proof.Proof.Val.Bn03
import proofs.«408439_j66932770341395_1_alg».proof.Proof.Val.Bn06
import proofs.«408439_j66932770341395_1_alg».proof.Proof.Val.Bn09
import proofs.«408439_j66932770341395_1_alg».proof.Proof.Val.Bn12
import proofs.«408439_j66932770341395_1_alg».proof.Proof.Val.Pool13
import Idealize.ShloMosaic.Lib.StableHlo.Run

set_option maxRecDepth 16384

noncomputable section

namespace Cert.KernelIdeal.Val
open Cert.KernelIdeal Cert.KernelIdeal.Gen Cert.KernelIdeal.Reg
open Idealize.ShloMosaic Idealize.ShloMosaic.TcCoe Idealize.ShloMosaic.StableHlo
open Idealize.SL Idealize.SL.Sem
open Idealize.ShloMosaic.Pipeline (Dat Cfg Window)

section Chain
variable (m : (ℓ : Loc nD τ sig) → Buf (Elt Ideal) ℓ) (ρ : Dev nD → PrngReg)

abbrev nR (c : Dev nD) := Cert.ReferenceIdeal.Spec.normR (F := Ideal) (m ((c : Thread nD τ).loc main_arg1))
abbrev rR (c : Dev nD) := Cert.ReferenceIdeal.Spec.rowR (F := Ideal) (m ((c : Thread nD τ).loc main_arg1))
abbrev cR (c : Dev nD) := Cert.ReferenceIdeal.Spec.colR (F := Ideal) (m ((c : Thread nD τ).loc main_arg1))
abbrev wS1 (c : Dev nD) := Cert.ReferenceIdeal.Spec.wSl (F := Ideal) (m ((c : Thread nD τ).loc main_arg5)) ![0, 0, 0] Cert.ReferenceIdeal.Gen.slices_S4x128x128_S1x128x128_0_0_0
abbrev bS1 (c : Dev nD) := Cert.ReferenceIdeal.Spec.vSl (F := Ideal) (m ((c : Thread nD τ).loc main_arg6)) ![0, 0] Cert.ReferenceIdeal.Gen.slices_S4x128_S1x128_0_0
abbrev gS1 (c : Dev nD) := Cert.ReferenceIdeal.Spec.vSl (F := Ideal) (m ((c : Thread nD τ).loc main_arg7)) ![0, 0] Cert.ReferenceIdeal.Gen.slices_S4x128_S1x128_0_0
abbrev hS1 (c : Dev nD) := Cert.ReferenceIdeal.Spec.vSl (F := Ideal) (m ((c : Thread nD τ).loc main_arg8)) ![0, 0] Cert.ReferenceIdeal.Gen.slices_S4x128_S1x128_0_0
abbrev wS2 (c : Dev nD) := Cert.ReferenceIdeal.Spec.wSl (F := Ideal) (m ((c : Thread nD τ).loc main_arg5)) ![1, 0, 0] Cert.ReferenceIdeal.Gen.slices_S4x128x128_S1x128x128_1_0_0
abbrev bS2 (c : Dev nD) := Cert.ReferenceIdeal.Spec.vSl (F := Ideal) (m ((c : Thread nD τ).loc main_arg6)) ![1, 0] Cert.ReferenceIdeal.Gen.slices_S4x128_S1x128_1_0
abbrev gS2 (c : Dev nD) := Cert.ReferenceIdeal.Spec.vSl (F := Ideal) (m ((c : Thread nD τ).loc main_arg7)) ![1, 0] Cert.ReferenceIdeal.Gen.slices_S4x128_S1x128_1_0
abbrev hS2 (c : Dev nD) := Cert.ReferenceIdeal.Spec.vSl (F := Ideal) (m ((c : Thread nD τ).loc main_arg8)) ![1, 0] Cert.ReferenceIdeal.Gen.slices_S4x128_S1x128_1_0
abbrev wS3 (c : Dev nD) := Cert.ReferenceIdeal.Spec.wSl (F := Ideal) (m ((c : Thread nD τ).loc main_arg5)) ![2, 0, 0] Cert.ReferenceIdeal.Gen.slices_S4x128x128_S1x128x128_2_0_0
abbrev bS3 (c : Dev nD) := Cert.ReferenceIdeal.Spec.vSl (F := Ideal) (m ((c : Thread nD τ).loc main_arg6)) ![2, 0] Cert.ReferenceIdeal.Gen.slices_S4x128_S1x128_2_0
abbrev gS3 (c : Dev nD) := Cert.ReferenceIdeal.Spec.vSl (F := Ideal) (m ((c : Thread nD τ).loc main_arg7)) ![2, 0] Cert.ReferenceIdeal.Gen.slices_S4x128_S1x128_2_0
abbrev hS3 (c : Dev nD) := Cert.ReferenceIdeal.Spec.vSl (F := Ideal) (m ((c : Thread nD τ).loc main_arg8)) ![2, 0] Cert.ReferenceIdeal.Gen.slices_S4x128_S1x128_2_0
abbrev wS4 (c : Dev nD) := Cert.ReferenceIdeal.Spec.wSl (F := Ideal) (m ((c : Thread nD τ).loc main_arg5)) ![3, 0, 0] Cert.ReferenceIdeal.Gen.slices_S4x128x128_S1x128x128_3_0_0
abbrev bS4 (c : Dev nD) := Cert.ReferenceIdeal.Spec.vSl (F := Ideal) (m ((c : Thread nD τ).loc main_arg6)) ![3, 0] Cert.ReferenceIdeal.Gen.slices_S4x128_S1x128_3_0
abbrev gS4 (c : Dev nD) := Cert.ReferenceIdeal.Spec.vSl (F := Ideal) (m ((c : Thread nD τ).loc main_arg7)) ![3, 0] Cert.ReferenceIdeal.Gen.slices_S4x128_S1x128_3_0
abbrev hS4 (c : Dev nD) := Cert.ReferenceIdeal.Spec.vSl (F := Ideal) (m ((c : Thread nD τ).loc main_arg8)) ![3, 0] Cert.ReferenceIdeal.Gen.slices_S4x128_S1x128_3_0
abbrev pre1 (c : Dev nD) := Cert.ReferenceIdeal.Spec.preR (F := Ideal) (nR m c) (rR m c) (cR m c) (wS1 m c) (bS1 m c) (W4 (F := Ideal) m ρ c (Proc.devRef .tc main_v31))
abbrev pre2 (c : Dev nD) := Cert.ReferenceIdeal.Spec.preR (F := Ideal) (nR m c) (rR m c) (cR m c) (wS2 m c) (bS2 m c) (W10 (F := Ideal) m ρ c (Proc.devRef .tc main_v66))
abbrev pre3 (c : Dev nD) := Cert.ReferenceIdeal.Spec.preR (F := Ideal) (nR m c) (rR m c) (cR m c) (wS3 m c) (bS3 m c) (W16 (F := Ideal) m ρ c (Proc.devRef .tc main_v101))
abbrev pre4 (c : Dev nD) := Cert.ReferenceIdeal.Spec.preR (F := Ideal) (nR m c) (rR m c) (cR m c) (wS4 m c) (bS4 m c) (W22 (F := Ideal) m ρ c (Proc.devRef .tc main_v136))

theorem at4 (c : Dev nD) (b : Ref sig .tc) (h : b ∉ hostOps0_2_W ++ (hostOps0_1_W ++ hostOps0_W))
    (h3 : ∀ w, Pipeline.arrRef spec0 w ≠ b) : W4 (F := Ideal) m ρ c (Proc.devRef .tc b) = m ((c : Thread nD τ).loc b) :=
  (W4_of_ne m ρ c b h3).trans ((W3_keep m ρ c b h).trans rfl)

theorem arg2_at28 (c : Dev nD) : W28 (F := Ideal) m ρ c (Proc.devRef .tc main_arg2) = m ((c : Thread nD τ).loc main_arg2) :=
  (W28_keep m ρ c main_arg2 (by decide)).trans (at4 m ρ c main_arg2 (by decide) (by decide))
theorem arg5_at4 (c : Dev nD) : W4 (F := Ideal) m ρ c (Proc.devRef .tc main_arg5) = m ((c : Thread nD τ).loc main_arg5) :=
  at4 m ρ c main_arg5 (by decide) (by decide)
theorem arg5_at10 (c : Dev nD) : W10 (F := Ideal) m ρ c (Proc.devRef .tc main_arg5) = m ((c : Thread nD τ).loc main_arg5) :=
  (W10_keep m ρ c main_arg5 (by decide)).trans (at4 m ρ c main_arg5 (by decide) (by decide))
theorem arg5_at16 (c : Dev nD) : W16 (F := Ideal) m ρ c (Proc.devRef .tc main_arg5) = m ((c : Thread nD τ).loc main_arg5) :=
  (W16_keep m ρ c main_arg5 (by decide)).trans (at4 m ρ c main_arg5 (by decide) (by decide))
theorem arg5_at22 (c : Dev nD) : W22 (F := Ideal) m ρ c (Proc.devRef .tc main_arg5) = m ((c : Thread nD τ).loc main_arg5) :=
  (W22_keep m ρ c main_arg5 (by decide)).trans (at4 m ρ c main_arg5 (by decide) (by decide))
theorem arg6_at6 (c : Dev nD) : W6 (F := Ideal) m ρ c (Proc.devRef .tc main_arg6) = m ((c : Thread nD τ).loc main_arg6) :=
  (W6_keep m ρ c main_arg6 (by decide)).trans (at4 m ρ c main_arg6 (by decide) (by decide))
theorem arg6_at12 (c : Dev nD) : W12 (F := Ideal) m ρ c (Proc.devRef .tc main_arg6) = m ((c : Thread nD τ).loc main_arg6) :=
  (W12_keep m ρ c main_arg6 (by decide)).trans (at4 m ρ c main_arg6 (by decide) (by decide))
theorem arg6_at18 (c : Dev nD) : W18 (F := Ideal) m ρ c (Proc.devRef .tc main_arg6) = m ((c : Thread nD τ).loc main_arg6) :=
  (W18_keep m ρ c main_arg6 (by decide)).trans (at4 m ρ c main_arg6 (by decide) (by decide))
theorem arg6_at24 (c : Dev nD) : W24 (F := Ideal) m ρ c (Proc.devRef .tc main_arg6) = m ((c : Thread nD τ).loc main_arg6) :=
  (W24_keep m ρ c main_arg6 (by decide)).trans (at4 m ρ c main_arg6 (by decide) (by decide))
theorem arg7_at8 (c : Dev nD) : W8 (F := Ideal) m ρ c (Proc.devRef .tc main_arg7) = m ((c : Thread nD τ).loc main_arg7) :=
  (W8_keep m ρ c main_arg7 (by decide)).trans (at4 m ρ c main_arg7 (by decide) (by decide))
theorem arg7_at14 (c : Dev nD) : W14 (F := Ideal) m ρ c (Proc.devRef .tc main_arg7) = m ((c : Thread nD τ).loc main_arg7) :=
  (W14_keep m ρ c main_arg7 (by decide)).trans (at4 m ρ c main_arg7 (by decide) (by decide))
theorem arg7_at20 (c : Dev nD) : W20 (F := Ideal) m ρ c (Proc.devRef .tc main_arg7) = m ((c : Thread nD τ).loc main_arg7) :=
  (W20_keep m ρ c main_arg7 (by decide)).trans (at4 m ρ c main_arg7 (by decide) (by decide))
theorem arg7_at26 (c : Dev nD) : W26 (F := Ideal) m ρ c (Proc.devRef .tc main_arg7) = m ((c : Thread nD τ).loc main_arg7) :=
  (W26_keep m ρ c main_arg7 (by decide)).trans (at4 m ρ c main_arg7 (by decide) (by decide))
theorem arg8_at8 (c : Dev nD) : W8 (F := Ideal) m ρ c (Proc.devRef .tc main_arg8) = m ((c : Thread nD τ).loc main_arg8) :=
  (W8_keep m ρ c main_arg8 (by decide)).trans (at4 m ρ c main_arg8 (by decide) (by decide))
theorem arg8_at14 (c : Dev nD) : W14 (F := Ideal) m ρ c (Proc.devRef .tc main_arg8) = m ((c : Thread nD τ).loc main_arg8) :=
  (W14_keep m ρ c main_arg8 (by decide)).trans (at4 m ρ c main_arg8 (by decide) (by decide))
theorem arg8_at20 (c : Dev nD) : W20 (F := Ideal) m ρ c (Proc.devRef .tc main_arg8) = m ((c : Thread nD τ).loc main_arg8) :=
  (W20_keep m ρ c main_arg8 (by decide)).trans (at4 m ρ c main_arg8 (by decide) (by decide))
theorem arg8_at26 (c : Dev nD) : W26 (F := Ideal) m ρ c (Proc.devRef .tc main_arg8) = m ((c : Thread nD τ).loc main_arg8) :=
  (W26_keep m ρ c main_arg8 (by decide)).trans (at4 m ρ c main_arg8 (by decide) (by decide))
theorem arg9_at28 (c : Dev nD) : W28 (F := Ideal) m ρ c (Proc.devRef .tc main_arg9) = m ((c : Thread nD τ).loc main_arg9) :=
  (W28_keep m ρ c main_arg9 (by decide)).trans (at4 m ρ c main_arg9 (by decide) (by decide))
theorem arg10_at28 (c : Dev nD) : W28 (F := Ideal) m ρ c (Proc.devRef .tc main_arg10) = m ((c : Thread nD τ).loc main_arg10) :=
  (W28_keep m ρ c main_arg10 (by decide)).trans (at4 m ρ c main_arg10 (by decide) (by decide))

theorem v3_at3 (c : Dev nD) : W3 (F := Ideal) m ρ c (Proc.devRef .tc main_v3) = rR m c :=
  graph_v3 (W0 (F := Ideal) m ρ c)
theorem v3_at6 (c : Dev nD) : W6 (F := Ideal) m ρ c (Proc.devRef .tc main_v3) = rR m c :=
  (W6_keep m ρ c main_v3 (by decide)).trans ((W4_of_ne m ρ c main_v3 (by decide)).trans (v3_at3 m ρ c))
theorem v3_at12 (c : Dev nD) : W12 (F := Ideal) m ρ c (Proc.devRef .tc main_v3) = rR m c :=
  (W12_keep m ρ c main_v3 (by decide)).trans ((W4_of_ne m ρ c main_v3 (by decide)).trans (v3_at3 m ρ c))
theorem v3_at18 (c : Dev nD) : W18 (F := Ideal) m ρ c (Proc.devRef .tc main_v3) = rR m c :=
  (W18_keep m ρ c main_v3 (by decide)).trans ((W4_of_ne m ρ c main_v3 (by decide)).trans (v3_at3 m ρ c))
theorem v3_at24 (c : Dev nD) : W24 (F := Ideal) m ρ c (Proc.devRef .tc main_v3) = rR m c :=
  (W24_keep m ρ c main_v3 (by decide)).trans ((W4_of_ne m ρ c main_v3 (by decide)).trans (v3_at3 m ρ c))
theorem v6_at3 (c : Dev nD) : W3 (F := Ideal) m ρ c (Proc.devRef .tc main_v6) = cR m c :=
  graph_v6 (W0 (F := Ideal) m ρ c)
theorem v6_at6 (c : Dev nD) : W6 (F := Ideal) m ρ c (Proc.devRef .tc main_v6) = cR m c :=
  (W6_keep m ρ c main_v6 (by decide)).trans ((W4_of_ne m ρ c main_v6 (by decide)).trans (v6_at3 m ρ c))
theorem v6_at12 (c : Dev nD) : W12 (F := Ideal) m ρ c (Proc.devRef .tc main_v6) = cR m c :=
  (W12_keep m ρ c main_v6 (by decide)).trans ((W4_of_ne m ρ c main_v6 (by decide)).trans (v6_at3 m ρ c))
theorem v6_at18 (c : Dev nD) : W18 (F := Ideal) m ρ c (Proc.devRef .tc main_v6) = cR m c :=
  (W18_keep m ρ c main_v6 (by decide)).trans ((W4_of_ne m ρ c main_v6 (by decide)).trans (v6_at3 m ρ c))
theorem v6_at24 (c : Dev nD) : W24 (F := Ideal) m ρ c (Proc.devRef .tc main_v6) = cR m c :=
  (W24_keep m ρ c main_v6 (by decide)).trans ((W4_of_ne m ρ c main_v6 (by decide)).trans (v6_at3 m ρ c))
theorem v29_at3 (c : Dev nD) : W3 (F := Ideal) m ρ c (Proc.devRef .tc main_v29) = nR m c :=
  graph_v29 (W0 (F := Ideal) m ρ c)
theorem v29_at6 (c : Dev nD) : W6 (F := Ideal) m ρ c (Proc.devRef .tc main_v29) = nR m c :=
  (W6_keep m ρ c main_v29 (by decide)).trans ((W4_of_ne m ρ c main_v29 (by decide)).trans (v29_at3 m ρ c))
theorem v29_at12 (c : Dev nD) : W12 (F := Ideal) m ρ c (Proc.devRef .tc main_v29) = nR m c :=
  (W12_keep m ρ c main_v29 (by decide)).trans ((W4_of_ne m ρ c main_v29 (by decide)).trans (v29_at3 m ρ c))
theorem v29_at18 (c : Dev nD) : W18 (F := Ideal) m ρ c (Proc.devRef .tc main_v29) = nR m c :=
  (W18_keep m ρ c main_v29 (by decide)).trans ((W4_of_ne m ρ c main_v29 (by decide)).trans (v29_at3 m ρ c))
theorem v29_at24 (c : Dev nD) : W24 (F := Ideal) m ρ c (Proc.devRef .tc main_v29) = nR m c :=
  (W24_keep m ρ c main_v29 (by decide)).trans ((W4_of_ne m ρ c main_v29 (by decide)).trans (v29_at3 m ρ c))

theorem enc_out (c : Dev nD) :
    W4 (F := Ideal) m ρ c (Proc.devRef .tc main_v31) = Cert.ReferenceIdeal.Spec.encR (F := Ideal) (m ((c : Thread nD τ).loc main_arg0)) (m ((c : Thread nD τ).loc main_arg3)) (m ((c : Thread nD τ).loc main_arg4)) := by
  refine (W4_arr m ρ c 3).trans ?_
  refine (lin_final0 (V3 m ρ) c (m ((c : Thread nD τ).loc main_arg0)) (m ((c : Thread nD τ).loc main_arg3))
    (fun i => shapeCast S1x128 (m ((c : Thread nD τ).loc main_arg4)) shapeCasts_S128_S1x128 i)
    ((A_eq0 (V3 m ρ) c 0).trans (graph_keep_arg0 (W0 (F := Ideal) m ρ c)))
    ((A_eq0 (V3 m ρ) c 1).trans (graph_keep_arg3 (W0 (F := Ideal) m ρ c)))
    ((A_eq0 (V3 m ρ) c 2).trans (graph_v30 (W0 (F := Ideal) m ρ c)))).trans ?_
  rw [Cert.Val.reshape_row]
  rfl

theorem lin_out1 (c : Dev nD) :
    W6 (F := Ideal) m ρ c (Proc.devRef .tc main_v36) = Cert.ReferenceIdeal.Spec.matW (F := Ideal) (W4 (F := Ideal) m ρ c (Proc.devRef .tc main_v31)) (wS1 m c) := by
  refine (W6_arr m ρ c 3).trans ?_
  exact lin_final1_zero_bias (V5 m ρ) c (W4 (F := Ideal) m ρ c (Proc.devRef .tc main_v31)) (wS1 m c)
    ((A_eq1 (V5 m ρ) c 0).trans (hostOps1_keep_v31 (W4 (F := Ideal) m ρ c)))
    ((A_eq1 (V5 m ρ) c 1).trans ((hostOps1_v33 (W4 (F := Ideal) m ρ c)).trans
      (congrArg (fun a => (Cert.ReferenceIdeal.Spec.wSl (F := Ideal) a ![0, 0, 0] Cert.ReferenceIdeal.Gen.slices_S4x128x128_S1x128x128_0_0_0)) (arg5_at4 m ρ c))))
    ((A_eq1 (V5 m ρ) c 2).trans ((hostOps1_v35 (W4 (F := Ideal) m ρ c)).trans (Cert.Val.zero_row _ _)))

theorem agg_in1 (c : Dev nD) :
    W7 (F := Ideal) m ρ c (Proc.devRef .tc main_v49) = Cert.ReferenceIdeal.Spec.aggR (F := Ideal) (nR m c) (rR m c) (cR m c) (Cert.ReferenceIdeal.Spec.matW (F := Ideal) (W4 (F := Ideal) m ρ c (Proc.devRef .tc main_v31)) (wS1 m c)) := by
  refine (hostOps2_v49 (W6 (F := Ideal) m ρ c)).trans ?_
  rw [v29_at6 m ρ c, v3_at6 m ρ c, v6_at6 m ρ c, lin_out1 m ρ c]

theorem bias_in1 (c : Dev nD) :
    W7 (F := Ideal) m ρ c (Proc.devRef .tc main_v52) = Cert.ReferenceIdeal.Spec.row1 (F := Ideal) (bS1 m c) := by
  refine (hostOps2_v52 (W6 (F := Ideal) m ρ c)).trans ?_
  rw [arg6_at6 m ρ c]
  exact Cert.Val.reshape_row _ _

theorem pre_out1 (c : Dev nD) :
    W8 (F := Ideal) m ρ c (Proc.devRef .tc main_v53_0) = (pre1 m ρ c) := by
  refine (W8_arr m ρ c 2).trans ?_
  exact stats_agg2 (V7 m ρ) c _ _
    ((A_eq2 (V7 m ρ) c 0).trans (agg_in1 m ρ c))
    ((A_eq2 (V7 m ρ) c 1).trans (bias_in1 m ρ c))

theorem sum_out1 (c : Dev nD) :
    W8 (F := Ideal) m ρ c (Proc.devRef .tc main_v53_1) = Cert.ReferenceIdeal.Spec.row1 (F := Ideal) (Cert.ReferenceIdeal.Spec.colSum (F := Ideal) (pre1 m ρ c)) := by
  refine (W8_arr m ρ c 3).trans ?_
  exact stats_sum2 (V7 m ρ) c _ _
    ((A_eq2 (V7 m ρ) c 0).trans (agg_in1 m ρ c))
    ((A_eq2 (V7 m ρ) c 1).trans (bias_in1 m ρ c))

theorem sumsq_out1 (c : Dev nD) :
    W8 (F := Ideal) m ρ c (Proc.devRef .tc main_v53_2)
      = Cert.ReferenceIdeal.Spec.row1 (F := Ideal) (Cert.ReferenceIdeal.Spec.colSum (F := Ideal) (mulf (F := Ideal) (φ := .f32) (pre1 m ρ c) (pre1 m ρ c))) := by
  refine (W8_arr m ρ c 4).trans ?_
  exact stats_sumsq2 (V7 m ρ) c _ _
    ((A_eq2 (V7 m ρ) c 0).trans (agg_in1 m ρ c))
    ((A_eq2 (V7 m ρ) c 1).trans (bias_in1 m ρ c))

theorem mean_in1 (c : Dev nD) :
    W9 (F := Ideal) m ρ c (Proc.devRef .tc main_v55)
      = Host.divf (F := Ideal) (φ := .f32) (Cert.ReferenceIdeal.Spec.row1 (F := Ideal) (Cert.ReferenceIdeal.Spec.colSum (F := Ideal) (pre1 m ρ c))) (broadcastInDim Cert.ReferenceIdeal.S1x128 ![] Cert.ReferenceIdeal.Gen.bcast_S_S1x128 (Cert.ReferenceIdeal.Spec.nNodes (F := Ideal))) := by
  refine (hostOps3_v55 (W8 (F := Ideal) m ρ c)).trans ?_
  rw [sum_out1 m ρ c]

theorem var_in1 (c : Dev nD) :
    W9 (F := Ideal) m ρ c (Proc.devRef .tc main_v59)
      = subf (F := Ideal) (φ := .f32) (Host.divf (F := Ideal) (φ := .f32) (Cert.ReferenceIdeal.Spec.row1 (F := Ideal) (Cert.ReferenceIdeal.Spec.colSum (F := Ideal) (mulf (F := Ideal) (φ := .f32) (pre1 m ρ c) (pre1 m ρ c)))) (broadcastInDim Cert.ReferenceIdeal.S1x128 ![] Cert.ReferenceIdeal.Gen.bcast_S_S1x128 (Cert.ReferenceIdeal.Spec.nNodes (F := Ideal))))
          (mulf (F := Ideal) (φ := .f32) (Host.divf (F := Ideal) (φ := .f32) (Cert.ReferenceIdeal.Spec.row1 (F := Ideal) (Cert.ReferenceIdeal.Spec.colSum (F := Ideal) (pre1 m ρ c))) (broadcastInDim Cert.ReferenceIdeal.S1x128 ![] Cert.ReferenceIdeal.Gen.bcast_S_S1x128 (Cert.ReferenceIdeal.Spec.nNodes (F := Ideal))))
            (Host.divf (F := Ideal) (φ := .f32) (Cert.ReferenceIdeal.Spec.row1 (F := Ideal) (Cert.ReferenceIdeal.Spec.colSum (F := Ideal) (pre1 m ρ c))) (broadcastInDim Cert.ReferenceIdeal.S1x128 ![] Cert.ReferenceIdeal.Gen.bcast_S_S1x128 (Cert.ReferenceIdeal.Spec.nNodes (F := Ideal))))) := by
  refine (hostOps3_v59 (W8 (F := Ideal) m ρ c)).trans ?_
  have e := mean_in1 m ρ c
  rw [sumsq_out1 m ρ c]
  show subf (F := Ideal) (φ := .f32) _ (mulf (F := Ideal) (φ := .f32) (W9 (F := Ideal) m ρ c (Proc.devRef .tc main_v55)) (W9 (F := Ideal) m ρ c (Proc.devRef .tc main_v55))) = _
  rw [e]

theorem scale_in1 (c : Dev nD) :
    W9 (F := Ideal) m ρ c (Proc.devRef .tc main_v64) = Cert.ReferenceIdeal.Spec.row1 (F := Ideal) (gS1 m c) := by
  refine (hostOps3_v64 (W8 (F := Ideal) m ρ c)).trans ?_
  rw [arg7_at8 m ρ c]
  exact Cert.Val.reshape_row _ _

theorem shift_in1 (c : Dev nD) :
    W9 (F := Ideal) m ρ c (Proc.devRef .tc main_v65) = Cert.ReferenceIdeal.Spec.row1 (F := Ideal) (hS1 m c) := by
  refine (hostOps3_v65 (W8 (F := Ideal) m ρ c)).trans ?_
  rw [arg8_at8 m ρ c]
  exact Cert.Val.reshape_row _ _

theorem layer_out1 (c : Dev nD) :
    W10 (F := Ideal) m ρ c (Proc.devRef .tc main_v66) = kLayer (nR m c) (rR m c) (cR m c) (wS1 m c) (bS1 m c) (gS1 m c) (hS1 m c) (W4 (F := Ideal) m ρ c (Proc.devRef .tc main_v31)) := by
  refine (W10_arr m ρ c 5).trans ?_
  exact bn_final3 (V9 m ρ) c _ _ _ _ _
    ((A_eq3 (V9 m ρ) c 0).trans ((hostOps3_keep_v53_0 (W8 (F := Ideal) m ρ c)).trans (pre_out1 m ρ c)))
    ((A_eq3 (V9 m ρ) c 1).trans (mean_in1 m ρ c))
    ((A_eq3 (V9 m ρ) c 2).trans (var_in1 m ρ c))
    ((A_eq3 (V9 m ρ) c 3).trans (scale_in1 m ρ c))
    ((A_eq3 (V9 m ρ) c 4).trans (shift_in1 m ρ c))

theorem lin_out2 (c : Dev nD) :
    W12 (F := Ideal) m ρ c (Proc.devRef .tc main_v71) = Cert.ReferenceIdeal.Spec.matW (F := Ideal) (W10 (F := Ideal) m ρ c (Proc.devRef .tc main_v66)) (wS2 m c) := by
  refine (W12_arr m ρ c 3).trans ?_
  exact lin_final4_zero_bias (V11 m ρ) c (W10 (F := Ideal) m ρ c (Proc.devRef .tc main_v66)) (wS2 m c)
    ((A_eq4 (V11 m ρ) c 0).trans (hostOps4_keep_v66 (W10 (F := Ideal) m ρ c)))
    ((A_eq4 (V11 m ρ) c 1).trans ((hostOps4_v68 (W10 (F := Ideal) m ρ c)).trans
      (congrArg (fun a => (Cert.ReferenceIdeal.Spec.wSl (F := Ideal) a ![1, 0, 0] Cert.ReferenceIdeal.Gen.slices_S4x128x128_S1x128x128_1_0_0)) (arg5_at10 m ρ c))))
    ((A_eq4 (V11 m ρ) c 2).trans ((hostOps4_v70 (W10 (F := Ideal) m ρ c)).trans (Cert.Val.zero_row _ _)))

theorem agg_in2 (c : Dev nD) :
    W13 (F := Ideal) m ρ c (Proc.devRef .tc main_v84) = Cert.ReferenceIdeal.Spec.aggR (F := Ideal) (nR m c) (rR m c) (cR m c) (Cert.ReferenceIdeal.Spec.matW (F := Ideal) (W10 (F := Ideal) m ρ c (Proc.devRef .tc main_v66)) (wS2 m c)) := by
  refine (hostOps5_v84 (W12 (F := Ideal) m ρ c)).trans ?_
  rw [v29_at12 m ρ c, v3_at12 m ρ c, v6_at12 m ρ c, lin_out2 m ρ c]

theorem bias_in2 (c : Dev nD) :
    W13 (F := Ideal) m ρ c (Proc.devRef .tc main_v87) = Cert.ReferenceIdeal.Spec.row1 (F := Ideal) (bS2 m c) := by
  refine (hostOps5_v87 (W12 (F := Ideal) m ρ c)).trans ?_
  rw [arg6_at12 m ρ c]
  exact Cert.Val.reshape_row _ _

theorem pre_out2 (c : Dev nD) :
    W14 (F := Ideal) m ρ c (Proc.devRef .tc main_v88_0) = (pre2 m ρ c) := by
  refine (W14_arr m ρ c 2).trans ?_
  exact stats_agg5 (V13 m ρ) c _ _
    ((A_eq5 (V13 m ρ) c 0).trans (agg_in2 m ρ c))
    ((A_eq5 (V13 m ρ) c 1).trans (bias_in2 m ρ c))

theorem sum_out2 (c : Dev nD) :
    W14 (F := Ideal) m ρ c (Proc.devRef .tc main_v88_1) = Cert.ReferenceIdeal.Spec.row1 (F := Ideal) (Cert.ReferenceIdeal.Spec.colSum (F := Ideal) (pre2 m ρ c)) := by
  refine (W14_arr m ρ c 3).trans ?_
  exact stats_sum5 (V13 m ρ) c _ _
    ((A_eq5 (V13 m ρ) c 0).trans (agg_in2 m ρ c))
    ((A_eq5 (V13 m ρ) c 1).trans (bias_in2 m ρ c))

theorem sumsq_out2 (c : Dev nD) :
    W14 (F := Ideal) m ρ c (Proc.devRef .tc main_v88_2)
      = Cert.ReferenceIdeal.Spec.row1 (F := Ideal) (Cert.ReferenceIdeal.Spec.colSum (F := Ideal) (mulf (F := Ideal) (φ := .f32) (pre2 m ρ c) (pre2 m ρ c))) := by
  refine (W14_arr m ρ c 4).trans ?_
  exact stats_sumsq5 (V13 m ρ) c _ _
    ((A_eq5 (V13 m ρ) c 0).trans (agg_in2 m ρ c))
    ((A_eq5 (V13 m ρ) c 1).trans (bias_in2 m ρ c))

theorem mean_in2 (c : Dev nD) :
    W15 (F := Ideal) m ρ c (Proc.devRef .tc main_v90)
      = Host.divf (F := Ideal) (φ := .f32) (Cert.ReferenceIdeal.Spec.row1 (F := Ideal) (Cert.ReferenceIdeal.Spec.colSum (F := Ideal) (pre2 m ρ c))) (broadcastInDim Cert.ReferenceIdeal.S1x128 ![] Cert.ReferenceIdeal.Gen.bcast_S_S1x128 (Cert.ReferenceIdeal.Spec.nNodes (F := Ideal))) := by
  refine (hostOps6_v90 (W14 (F := Ideal) m ρ c)).trans ?_
  rw [sum_out2 m ρ c]

theorem var_in2 (c : Dev nD) :
    W15 (F := Ideal) m ρ c (Proc.devRef .tc main_v94)
      = subf (F := Ideal) (φ := .f32) (Host.divf (F := Ideal) (φ := .f32) (Cert.ReferenceIdeal.Spec.row1 (F := Ideal) (Cert.ReferenceIdeal.Spec.colSum (F := Ideal) (mulf (F := Ideal) (φ := .f32) (pre2 m ρ c) (pre2 m ρ c)))) (broadcastInDim Cert.ReferenceIdeal.S1x128 ![] Cert.ReferenceIdeal.Gen.bcast_S_S1x128 (Cert.ReferenceIdeal.Spec.nNodes (F := Ideal))))
          (mulf (F := Ideal) (φ := .f32) (Host.divf (F := Ideal) (φ := .f32) (Cert.ReferenceIdeal.Spec.row1 (F := Ideal) (Cert.ReferenceIdeal.Spec.colSum (F := Ideal) (pre2 m ρ c))) (broadcastInDim Cert.ReferenceIdeal.S1x128 ![] Cert.ReferenceIdeal.Gen.bcast_S_S1x128 (Cert.ReferenceIdeal.Spec.nNodes (F := Ideal))))
            (Host.divf (F := Ideal) (φ := .f32) (Cert.ReferenceIdeal.Spec.row1 (F := Ideal) (Cert.ReferenceIdeal.Spec.colSum (F := Ideal) (pre2 m ρ c))) (broadcastInDim Cert.ReferenceIdeal.S1x128 ![] Cert.ReferenceIdeal.Gen.bcast_S_S1x128 (Cert.ReferenceIdeal.Spec.nNodes (F := Ideal))))) := by
  refine (hostOps6_v94 (W14 (F := Ideal) m ρ c)).trans ?_
  have e := mean_in2 m ρ c
  rw [sumsq_out2 m ρ c]
  show subf (F := Ideal) (φ := .f32) _ (mulf (F := Ideal) (φ := .f32) (W15 (F := Ideal) m ρ c (Proc.devRef .tc main_v90)) (W15 (F := Ideal) m ρ c (Proc.devRef .tc main_v90))) = _
  rw [e]

theorem scale_in2 (c : Dev nD) :
    W15 (F := Ideal) m ρ c (Proc.devRef .tc main_v99) = Cert.ReferenceIdeal.Spec.row1 (F := Ideal) (gS2 m c) := by
  refine (hostOps6_v99 (W14 (F := Ideal) m ρ c)).trans ?_
  rw [arg7_at14 m ρ c]
  exact Cert.Val.reshape_row _ _

theorem shift_in2 (c : Dev nD) :
    W15 (F := Ideal) m ρ c (Proc.devRef .tc main_v100) = Cert.ReferenceIdeal.Spec.row1 (F := Ideal) (hS2 m c) := by
  refine (hostOps6_v100 (W14 (F := Ideal) m ρ c)).trans ?_
  rw [arg8_at14 m ρ c]
  exact Cert.Val.reshape_row _ _

theorem layer_out2 (c : Dev nD) :
    W16 (F := Ideal) m ρ c (Proc.devRef .tc main_v101) = kLayer (nR m c) (rR m c) (cR m c) (wS2 m c) (bS2 m c) (gS2 m c) (hS2 m c) (W10 (F := Ideal) m ρ c (Proc.devRef .tc main_v66)) := by
  refine (W16_arr m ρ c 5).trans ?_
  exact bn_final6 (V15 m ρ) c _ _ _ _ _
    ((A_eq6 (V15 m ρ) c 0).trans ((hostOps6_keep_v88_0 (W14 (F := Ideal) m ρ c)).trans (pre_out2 m ρ c)))
    ((A_eq6 (V15 m ρ) c 1).trans (mean_in2 m ρ c))
    ((A_eq6 (V15 m ρ) c 2).trans (var_in2 m ρ c))
    ((A_eq6 (V15 m ρ) c 3).trans (scale_in2 m ρ c))
    ((A_eq6 (V15 m ρ) c 4).trans (shift_in2 m ρ c))

theorem lin_out3 (c : Dev nD) :
    W18 (F := Ideal) m ρ c (Proc.devRef .tc main_v106) = Cert.ReferenceIdeal.Spec.matW (F := Ideal) (W16 (F := Ideal) m ρ c (Proc.devRef .tc main_v101)) (wS3 m c) := by
  refine (W18_arr m ρ c 3).trans ?_
  exact lin_final7_zero_bias (V17 m ρ) c (W16 (F := Ideal) m ρ c (Proc.devRef .tc main_v101)) (wS3 m c)
    ((A_eq7 (V17 m ρ) c 0).trans (hostOps7_keep_v101 (W16 (F := Ideal) m ρ c)))
    ((A_eq7 (V17 m ρ) c 1).trans ((hostOps7_v103 (W16 (F := Ideal) m ρ c)).trans
      (congrArg (fun a => (Cert.ReferenceIdeal.Spec.wSl (F := Ideal) a ![2, 0, 0] Cert.ReferenceIdeal.Gen.slices_S4x128x128_S1x128x128_2_0_0)) (arg5_at16 m ρ c))))
    ((A_eq7 (V17 m ρ) c 2).trans ((hostOps7_v105 (W16 (F := Ideal) m ρ c)).trans (Cert.Val.zero_row _ _)))

theorem agg_in3 (c : Dev nD) :
    W19 (F := Ideal) m ρ c (Proc.devRef .tc main_v119) = Cert.ReferenceIdeal.Spec.aggR (F := Ideal) (nR m c) (rR m c) (cR m c) (Cert.ReferenceIdeal.Spec.matW (F := Ideal) (W16 (F := Ideal) m ρ c (Proc.devRef .tc main_v101)) (wS3 m c)) := by
  refine (hostOps8_v119 (W18 (F := Ideal) m ρ c)).trans ?_
  rw [v29_at18 m ρ c, v3_at18 m ρ c, v6_at18 m ρ c, lin_out3 m ρ c]

theorem bias_in3 (c : Dev nD) :
    W19 (F := Ideal) m ρ c (Proc.devRef .tc main_v122) = Cert.ReferenceIdeal.Spec.row1 (F := Ideal) (bS3 m c) := by
  refine (hostOps8_v122 (W18 (F := Ideal) m ρ c)).trans ?_
  rw [arg6_at18 m ρ c]
  exact Cert.Val.reshape_row _ _

theorem pre_out3 (c : Dev nD) :
    W20 (F := Ideal) m ρ c (Proc.devRef .tc main_v123_0) = (pre3 m ρ c) := by
  refine (W20_arr m ρ c 2).trans ?_
  exact stats_agg8 (V19 m ρ) c _ _
    ((A_eq8 (V19 m ρ) c 0).trans (agg_in3 m ρ c))
    ((A_eq8 (V19 m ρ) c 1).trans (bias_in3 m ρ c))

theorem sum_out3 (c : Dev nD) :
    W20 (F := Ideal) m ρ c (Proc.devRef .tc main_v123_1) = Cert.ReferenceIdeal.Spec.row1 (F := Ideal) (Cert.ReferenceIdeal.Spec.colSum (F := Ideal) (pre3 m ρ c)) := by
  refine (W20_arr m ρ c 3).trans ?_
  exact stats_sum8 (V19 m ρ) c _ _
    ((A_eq8 (V19 m ρ) c 0).trans (agg_in3 m ρ c))
    ((A_eq8 (V19 m ρ) c 1).trans (bias_in3 m ρ c))

theorem sumsq_out3 (c : Dev nD) :
    W20 (F := Ideal) m ρ c (Proc.devRef .tc main_v123_2)
      = Cert.ReferenceIdeal.Spec.row1 (F := Ideal) (Cert.ReferenceIdeal.Spec.colSum (F := Ideal) (mulf (F := Ideal) (φ := .f32) (pre3 m ρ c) (pre3 m ρ c))) := by
  refine (W20_arr m ρ c 4).trans ?_
  exact stats_sumsq8 (V19 m ρ) c _ _
    ((A_eq8 (V19 m ρ) c 0).trans (agg_in3 m ρ c))
    ((A_eq8 (V19 m ρ) c 1).trans (bias_in3 m ρ c))

theorem mean_in3 (c : Dev nD) :
    W21 (F := Ideal) m ρ c (Proc.devRef .tc main_v125)
      = Host.divf (F := Ideal) (φ := .f32) (Cert.ReferenceIdeal.Spec.row1 (F := Ideal) (Cert.ReferenceIdeal.Spec.colSum (F := Ideal) (pre3 m ρ c))) (broadcastInDim Cert.ReferenceIdeal.S1x128 ![] Cert.ReferenceIdeal.Gen.bcast_S_S1x128 (Cert.ReferenceIdeal.Spec.nNodes (F := Ideal))) := by
  refine (hostOps9_v125 (W20 (F := Ideal) m ρ c)).trans ?_
  rw [sum_out3 m ρ c]

theorem var_in3 (c : Dev nD) :
    W21 (F := Ideal) m ρ c (Proc.devRef .tc main_v129)
      = subf (F := Ideal) (φ := .f32) (Host.divf (F := Ideal) (φ := .f32) (Cert.ReferenceIdeal.Spec.row1 (F := Ideal) (Cert.ReferenceIdeal.Spec.colSum (F := Ideal) (mulf (F := Ideal) (φ := .f32) (pre3 m ρ c) (pre3 m ρ c)))) (broadcastInDim Cert.ReferenceIdeal.S1x128 ![] Cert.ReferenceIdeal.Gen.bcast_S_S1x128 (Cert.ReferenceIdeal.Spec.nNodes (F := Ideal))))
          (mulf (F := Ideal) (φ := .f32) (Host.divf (F := Ideal) (φ := .f32) (Cert.ReferenceIdeal.Spec.row1 (F := Ideal) (Cert.ReferenceIdeal.Spec.colSum (F := Ideal) (pre3 m ρ c))) (broadcastInDim Cert.ReferenceIdeal.S1x128 ![] Cert.ReferenceIdeal.Gen.bcast_S_S1x128 (Cert.ReferenceIdeal.Spec.nNodes (F := Ideal))))
            (Host.divf (F := Ideal) (φ := .f32) (Cert.ReferenceIdeal.Spec.row1 (F := Ideal) (Cert.ReferenceIdeal.Spec.colSum (F := Ideal) (pre3 m ρ c))) (broadcastInDim Cert.ReferenceIdeal.S1x128 ![] Cert.ReferenceIdeal.Gen.bcast_S_S1x128 (Cert.ReferenceIdeal.Spec.nNodes (F := Ideal))))) := by
  refine (hostOps9_v129 (W20 (F := Ideal) m ρ c)).trans ?_
  have e := mean_in3 m ρ c
  rw [sumsq_out3 m ρ c]
  show subf (F := Ideal) (φ := .f32) _ (mulf (F := Ideal) (φ := .f32) (W21 (F := Ideal) m ρ c (Proc.devRef .tc main_v125)) (W21 (F := Ideal) m ρ c (Proc.devRef .tc main_v125))) = _
  rw [e]

theorem scale_in3 (c : Dev nD) :
    W21 (F := Ideal) m ρ c (Proc.devRef .tc main_v134) = Cert.ReferenceIdeal.Spec.row1 (F := Ideal) (gS3 m c) := by
  refine (hostOps9_v134 (W20 (F := Ideal) m ρ c)).trans ?_
  rw [arg7_at20 m ρ c]
  exact Cert.Val.reshape_row _ _

theorem shift_in3 (c : Dev nD) :
    W21 (F := Ideal) m ρ c (Proc.devRef .tc main_v135) = Cert.ReferenceIdeal.Spec.row1 (F := Ideal) (hS3 m c) := by
  refine (hostOps9_v135 (W20 (F := Ideal) m ρ c)).trans ?_
  rw [arg8_at20 m ρ c]
  exact Cert.Val.reshape_row _ _

theorem layer_out3 (c : Dev nD) :
    W22 (F := Ideal) m ρ c (Proc.devRef .tc main_v136) = kLayer (nR m c) (rR m c) (cR m c) (wS3 m c) (bS3 m c) (gS3 m c) (hS3 m c) (W16 (F := Ideal) m ρ c (Proc.devRef .tc main_v101)) := by
  refine (W22_arr m ρ c 5).trans ?_
  exact bn_final9 (V21 m ρ) c _ _ _ _ _
    ((A_eq9 (V21 m ρ) c 0).trans ((hostOps9_keep_v123_0 (W20 (F := Ideal) m ρ c)).trans (pre_out3 m ρ c)))
    ((A_eq9 (V21 m ρ) c 1).trans (mean_in3 m ρ c))
    ((A_eq9 (V21 m ρ) c 2).trans (var_in3 m ρ c))
    ((A_eq9 (V21 m ρ) c 3).trans (scale_in3 m ρ c))
    ((A_eq9 (V21 m ρ) c 4).trans (shift_in3 m ρ c))

theorem lin_out4 (c : Dev nD) :
    W24 (F := Ideal) m ρ c (Proc.devRef .tc main_v141) = Cert.ReferenceIdeal.Spec.matW (F := Ideal) (W22 (F := Ideal) m ρ c (Proc.devRef .tc main_v136)) (wS4 m c) := by
  refine (W24_arr m ρ c 3).trans ?_
  exact lin_final10_zero_bias (V23 m ρ) c (W22 (F := Ideal) m ρ c (Proc.devRef .tc main_v136)) (wS4 m c)
    ((A_eq10 (V23 m ρ) c 0).trans (hostOps10_keep_v136 (W22 (F := Ideal) m ρ c)))
    ((A_eq10 (V23 m ρ) c 1).trans ((hostOps10_v138 (W22 (F := Ideal) m ρ c)).trans
      (congrArg (fun a => (Cert.ReferenceIdeal.Spec.wSl (F := Ideal) a ![3, 0, 0] Cert.ReferenceIdeal.Gen.slices_S4x128x128_S1x128x128_3_0_0)) (arg5_at22 m ρ c))))
    ((A_eq10 (V23 m ρ) c 2).trans ((hostOps10_v140 (W22 (F := Ideal) m ρ c)).trans (Cert.Val.zero_row _ _)))

theorem agg_in4 (c : Dev nD) :
    W25 (F := Ideal) m ρ c (Proc.devRef .tc main_v154) = Cert.ReferenceIdeal.Spec.aggR (F := Ideal) (nR m c) (rR m c) (cR m c) (Cert.ReferenceIdeal.Spec.matW (F := Ideal) (W22 (F := Ideal) m ρ c (Proc.devRef .tc main_v136)) (wS4 m c)) := by
  refine (hostOps11_v154 (W24 (F := Ideal) m ρ c)).trans ?_
  rw [v29_at24 m ρ c, v3_at24 m ρ c, v6_at24 m ρ c, lin_out4 m ρ c]

theorem bias_in4 (c : Dev nD) :
    W25 (F := Ideal) m ρ c (Proc.devRef .tc main_v157) = Cert.ReferenceIdeal.Spec.row1 (F := Ideal) (bS4 m c) := by
  refine (hostOps11_v157 (W24 (F := Ideal) m ρ c)).trans ?_
  rw [arg6_at24 m ρ c]
  exact Cert.Val.reshape_row _ _

theorem pre_out4 (c : Dev nD) :
    W26 (F := Ideal) m ρ c (Proc.devRef .tc main_v158_0) = (pre4 m ρ c) := by
  refine (W26_arr m ρ c 2).trans ?_
  exact stats_agg11 (V25 m ρ) c _ _
    ((A_eq11 (V25 m ρ) c 0).trans (agg_in4 m ρ c))
    ((A_eq11 (V25 m ρ) c 1).trans (bias_in4 m ρ c))

theorem sum_out4 (c : Dev nD) :
    W26 (F := Ideal) m ρ c (Proc.devRef .tc main_v158_1) = Cert.ReferenceIdeal.Spec.row1 (F := Ideal) (Cert.ReferenceIdeal.Spec.colSum (F := Ideal) (pre4 m ρ c)) := by
  refine (W26_arr m ρ c 3).trans ?_
  exact stats_sum11 (V25 m ρ) c _ _
    ((A_eq11 (V25 m ρ) c 0).trans (agg_in4 m ρ c))
    ((A_eq11 (V25 m ρ) c 1).trans (bias_in4 m ρ c))

theorem sumsq_out4 (c : Dev nD) :
    W26 (F := Ideal) m ρ c (Proc.devRef .tc main_v158_2)
      = Cert.ReferenceIdeal.Spec.row1 (F := Ideal) (Cert.ReferenceIdeal.Spec.colSum (F := Ideal) (mulf (F := Ideal) (φ := .f32) (pre4 m ρ c) (pre4 m ρ c))) := by
  refine (W26_arr m ρ c 4).trans ?_
  exact stats_sumsq11 (V25 m ρ) c _ _
    ((A_eq11 (V25 m ρ) c 0).trans (agg_in4 m ρ c))
    ((A_eq11 (V25 m ρ) c 1).trans (bias_in4 m ρ c))

theorem mean_in4 (c : Dev nD) :
    W27 (F := Ideal) m ρ c (Proc.devRef .tc main_v160)
      = Host.divf (F := Ideal) (φ := .f32) (Cert.ReferenceIdeal.Spec.row1 (F := Ideal) (Cert.ReferenceIdeal.Spec.colSum (F := Ideal) (pre4 m ρ c))) (broadcastInDim Cert.ReferenceIdeal.S1x128 ![] Cert.ReferenceIdeal.Gen.bcast_S_S1x128 (Cert.ReferenceIdeal.Spec.nNodes (F := Ideal))) := by
  refine (hostOps12_v160 (W26 (F := Ideal) m ρ c)).trans ?_
  rw [sum_out4 m ρ c]

theorem var_in4 (c : Dev nD) :
    W27 (F := Ideal) m ρ c (Proc.devRef .tc main_v164)
      = subf (F := Ideal) (φ := .f32) (Host.divf (F := Ideal) (φ := .f32) (Cert.ReferenceIdeal.Spec.row1 (F := Ideal) (Cert.ReferenceIdeal.Spec.colSum (F := Ideal) (mulf (F := Ideal) (φ := .f32) (pre4 m ρ c) (pre4 m ρ c)))) (broadcastInDim Cert.ReferenceIdeal.S1x128 ![] Cert.ReferenceIdeal.Gen.bcast_S_S1x128 (Cert.ReferenceIdeal.Spec.nNodes (F := Ideal))))
          (mulf (F := Ideal) (φ := .f32) (Host.divf (F := Ideal) (φ := .f32) (Cert.ReferenceIdeal.Spec.row1 (F := Ideal) (Cert.ReferenceIdeal.Spec.colSum (F := Ideal) (pre4 m ρ c))) (broadcastInDim Cert.ReferenceIdeal.S1x128 ![] Cert.ReferenceIdeal.Gen.bcast_S_S1x128 (Cert.ReferenceIdeal.Spec.nNodes (F := Ideal))))
            (Host.divf (F := Ideal) (φ := .f32) (Cert.ReferenceIdeal.Spec.row1 (F := Ideal) (Cert.ReferenceIdeal.Spec.colSum (F := Ideal) (pre4 m ρ c))) (broadcastInDim Cert.ReferenceIdeal.S1x128 ![] Cert.ReferenceIdeal.Gen.bcast_S_S1x128 (Cert.ReferenceIdeal.Spec.nNodes (F := Ideal))))) := by
  refine (hostOps12_v164 (W26 (F := Ideal) m ρ c)).trans ?_
  have e := mean_in4 m ρ c
  rw [sumsq_out4 m ρ c]
  show subf (F := Ideal) (φ := .f32) _ (mulf (F := Ideal) (φ := .f32) (W27 (F := Ideal) m ρ c (Proc.devRef .tc main_v160)) (W27 (F := Ideal) m ρ c (Proc.devRef .tc main_v160))) = _
  rw [e]

theorem scale_in4 (c : Dev nD) :
    W27 (F := Ideal) m ρ c (Proc.devRef .tc main_v169) = Cert.ReferenceIdeal.Spec.row1 (F := Ideal) (gS4 m c) := by
  refine (hostOps12_v169 (W26 (F := Ideal) m ρ c)).trans ?_
  rw [arg7_at26 m ρ c]
  exact Cert.Val.reshape_row _ _

theorem shift_in4 (c : Dev nD) :
    W27 (F := Ideal) m ρ c (Proc.devRef .tc main_v170) = Cert.ReferenceIdeal.Spec.row1 (F := Ideal) (hS4 m c) := by
  refine (hostOps12_v170 (W26 (F := Ideal) m ρ c)).trans ?_
  rw [arg8_at26 m ρ c]
  exact Cert.Val.reshape_row _ _

theorem layer_out4 (c : Dev nD) :
    W28 (F := Ideal) m ρ c (Proc.devRef .tc main_v171) = kLayer (nR m c) (rR m c) (cR m c) (wS4 m c) (bS4 m c) (gS4 m c) (hS4 m c) (W22 (F := Ideal) m ρ c (Proc.devRef .tc main_v136)) := by
  refine (W28_arr m ρ c 5).trans ?_
  exact bn_final12 (V27 m ρ) c _ _ _ _ _
    ((A_eq12 (V27 m ρ) c 0).trans ((hostOps12_keep_v158_0 (W26 (F := Ideal) m ρ c)).trans (pre_out4 m ρ c)))
    ((A_eq12 (V27 m ρ) c 1).trans (mean_in4 m ρ c))
    ((A_eq12 (V27 m ρ) c 2).trans (var_in4 m ρ c))
    ((A_eq12 (V27 m ρ) c 3).trans (scale_in4 m ρ c))
    ((A_eq12 (V27 m ρ) c 4).trans (shift_in4 m ρ c))

theorem pool_out (c : Dev nD) :
    W30 (F := Ideal) m ρ c (Proc.devRef .tc main_v174)
      = Cert.ReferenceIdeal.Spec.poolK (F := Ideal) (W28 (F := Ideal) m ρ c (Proc.devRef .tc main_v171)) (fun i => shapeCast S50000x1 (m ((c : Thread nD τ).loc main_arg2)) shapeCasts_S50000_S50000x1 i) (m ((c : Thread nD τ).loc main_arg9))
          (fun i => shapeCast S1x10 (m ((c : Thread nD τ).loc main_arg10)) shapeCasts_S10_S1x10 i) := by
  refine (W30_arr m ρ c 4).trans ?_
  exact pool_final13 (V29 m ρ) c _ _ _ _
    ((A_eq13 (V29 m ρ) c 0).trans (hostOps13_keep_v171 (W28 (F := Ideal) m ρ c)))
    ((A_eq13 (V29 m ρ) c 1).trans ((hostOps13_v172 (W28 (F := Ideal) m ρ c)).trans
      (congrArg (fun a => (fun i => shapeCast S50000x1 a shapeCasts_S50000_S50000x1 i)) (arg2_at28 m ρ c))))
    ((A_eq13 (V29 m ρ) c 2).trans ((hostOps13_keep_arg9 (W28 (F := Ideal) m ρ c)).trans (arg9_at28 m ρ c)))
    ((A_eq13 (V29 m ρ) c 3).trans ((hostOps13_v173 (W28 (F := Ideal) m ρ c)).trans
      (congrArg (fun a => (fun i => shapeCast S1x10 a shapeCasts_S10_S1x10 i)) (arg10_at28 m ρ c))))

end Chain

theorem kernel_out (m : (ℓ : Loc nD τ sig) → Buf (Elt Ideal) ℓ) (ρ : Dev nD → PrngReg) (c : Dev nD) :
    Cert.KernelIdeal.Reg.W30 (F := Ideal) m ρ c (Proc.devRef .tc main_v174)
      = kOut (m ((c : Thread nD τ).loc main_arg0)) (m ((c : Thread nD τ).loc main_arg1)) (fun i => shapeCast S50000x1 (m ((c : Thread nD τ).loc main_arg2)) shapeCasts_S50000_S50000x1 i) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
          (fun i => shapeCast S1x10 (m ((c : Thread nD τ).loc main_arg10)) shapeCasts_S10_S1x10 i) := by
  rw [pool_out m ρ c, layer_out4 m ρ c, layer_out3 m ρ c, layer_out2 m ρ c, layer_out1 m ρ c, enc_out m ρ c]
  rfl

end Cert.KernelIdeal.Val
end
-- ==== Proof.Val.Real.lean ====
import proofs.«408439_j66932770341395_1_alg».proof.Proof.Val.Spec
import proofs.«408439_j66932770341395_1_alg».proof.Proof.LibRealArr
import proofs.«408439_j66932770341395_1_alg».proof.Proof.LibMoments

noncomputable section

namespace Cert.Val

open scoped BigOperators
open Idealize.ShloMosaic Cert.ReferenceIdeal Cert.ReferenceIdeal.Gen Cert.ReferenceIdeal.Spec
open Cert.LibRealArr Cert.LibMoments

section Bounds
variable {S : Shape} {φ : FTy}

theorem nonneg_mulf_self {d : FVec Ideal S φ} (hd : RealArr d) :
    ∀ i, ∃ v : ℝ, 0 ≤ v ∧ mulf d d i = ((v : ℝ) : EReal) := fun i => by
  obtain ⟨r, hr⟩ := hd i
  refine ⟨r * r, mul_self_nonneg r, ?_⟩
  show d i * d i = _
  rw [hr, EReal.coe_mul]

theorem nonneg_reduceAdd {s t u : Shape} {axes : List (Fin s.rank)} {x : FVec Ideal s φ}
    {init : u.Idx → Ideal φ} (hx : ∀ i, ∃ v : ℝ, 0 ≤ v ∧ x i = ((v : ℝ) : EReal))
    (hi : ∀ i, ∃ v : ℝ, 0 ≤ v ∧ init i = ((v : ℝ) : EReal)) (h : s.ReducesTo axes t)
    (hu : 0 < u.numel) :
    ∀ j, ∃ v : ℝ, 0 ≤ v ∧ Host.reduceAdd x init h hu j = ((v : ℝ) : EReal) := fun j => by
  choose r hr0 hr using hx
  obtain ⟨v, hv, e⟩ := hi (Shape.Idx.first hu)
  refine ⟨v + ∑ i ∈ Finset.univ.filter (fun i => h.drop i = j), r i,
    add_nonneg hv (Finset.sum_nonneg fun i _ => hr0 i), ?_⟩
  show init (Shape.Idx.first hu) + ∑ i ∈ Finset.univ.filter (fun i => h.drop i = j), x i = _
  rw [e, EReal.coe_add, coe_finset_sum]
  exact congrArg _ (Finset.sum_congr rfl fun i _ => hr i)

theorem nonneg_hostDivf {x y : FVec Ideal S φ} (hx : ∀ i, ∃ v : ℝ, 0 ≤ v ∧ x i = ((v : ℝ) : EReal))
    (hy : ∀ i, ∃ c : ℝ, 0 < c ∧ y i = ((c : ℝ) : EReal)) :
    ∀ i, ∃ v : ℝ, 0 ≤ v ∧ Host.divf x y i = ((v : ℝ) : EReal) := fun i => by
  obtain ⟨v, hv, ex⟩ := hx i
  obtain ⟨c, hc, ey⟩ := hy i
  refine ⟨v / c, div_nonneg hv hc.le, ?_⟩
  show Ideal.div (x i) (y i) = _
  rw [ex, ey, div_coe_coe v hc.ne']

end Bounds

theorem zero0_real : RealArr (zero0 (F := Ideal)) := realArr_constant_zero _

theorem one0_real : RealArr (one0 (F := Ideal)) := realArr_constant_one _

theorem zero0_apply (i : S_.Idx) : zero0 (F := Ideal) i = 0 := Ideal.ofBits_zero_f32

theorem row1_real {v : Arr (F := Ideal) S128 .f32} (hv : RealArr v) : RealArr (row1 v) :=
  hv.broadcastInDim _ _

theorem rows_real {v : Arr (F := Ideal) S1x128 .f32} (hv : RealArr v) : RealArr (rows v) :=
  hv.broadcastInDim _ _

theorem degR_real (col : Arr (F := Ideal) S650000 .i32) : RealArr (degR (F := Ideal) col) :=
  RealArr.scatterAdd (zero0_real.broadcastInDim _ _) (one0_real.broadcastInDim _ _) _ _

theorem dinvR_real {deg : Arr (F := Ideal) S50000 .f32} (hd : RealArr deg) : RealArr (dinvR deg) :=
  realArr_select_ogt_hostRsqrt (φ := .f32) hd (fun _ => Ideal.ofBits_zero_f32)
    ((show RealArr (id (zero0 (F := Ideal))) from zero0_real).broadcastInDim _ _)

theorem normR_real (ei : Arr (F := Ideal) S2x600000 .i32) : RealArr (normR (F := Ideal) ei) :=
  RealArr.mulf ((dinvR_real (degR_real _)).gather _ _) ((dinvR_real (degR_real _)).gather _ _)

theorem wSl_real {w : Arr (F := Ideal) S4x128x128 .f32} (hw : RealArr w) (off : Fin 3 → ℕ)
    (h : S4x128x128.Slices off S1x128x128) : RealArr (wSl w off h) :=
  (hw.extractStridedSlice off h).shapeCast _

theorem vSl_real {p : Arr (F := Ideal) S4x128 .f32} (hp : RealArr p) (off : Fin 2 → ℕ)
    (h : S4x128.Slices off S1x128) : RealArr (vSl p off h) :=
  (hp.extractStridedSlice off h).shapeCast _

theorem matW_real {h : Arr (F := Ideal) S50000x128 .f32} {w : Arr (F := Ideal) S128x128 .f32}
    (hh : RealArr h) (hw : RealArr w) : RealArr (matW h w) :=
  hh.dotGeneral hw _ _

theorem encR_real {x : Arr (F := Ideal) S50000x128 .f32} {w : Arr (F := Ideal) S128x128 .f32}
    {b : Arr (F := Ideal) S128 .f32} (hx : RealArr x) (hw : RealArr w) (hb : RealArr b) :
    RealArr (encR x w b) :=
  (matW_real hx hw).addf (rows_real (row1_real hb))

theorem aggR_real {nrm : Arr (F := Ideal) S650000 .f32} {t : Arr (F := Ideal) S50000x128 .f32}
    (hn : RealArr nrm) (ht : RealArr t) (row col : Arr (F := Ideal) S650000 .i32) :
    RealArr (aggR nrm row col t) :=
  RealArr.scatterAdd (zero0_real.broadcastInDim _ _)
    (((hn.broadcastInDim _ _).broadcastInDim _ _).mulf (ht.gather _ _)) _ _

theorem preR_real {nrm : Arr (F := Ideal) S650000 .f32} {w : Arr (F := Ideal) S128x128 .f32}
    {b : Arr (F := Ideal) S128 .f32} {h : Arr (F := Ideal) S50000x128 .f32} (hn : RealArr nrm)
    (hw : RealArr w) (hb : RealArr b) (hh : RealArr h) (row col : Arr (F := Ideal) S650000 .i32) :
    RealArr (preR nrm row col w b h) :=
  (aggR_real hn (matW_real hh hw) row col).addf (rows_real (row1_real hb))

theorem colSum_realArr {a : Arr (F := Ideal) S50000x128 .f32} (ha : RealArr a) : RealArr (colSum a) :=
  ha.reduceAdd zero0_real _ _

theorem meanR_realArr {a : Arr (F := Ideal) S50000x128 .f32} (ha : RealArr a) : RealArr (meanR a) :=
  (colSum_realArr ha).hostDivf_const (c := 50000) (by norm_num) fun _ => ofBits_50000

theorem count_apply (i : S_.Idx) :
    subf (F := Ideal) (φ := .f32) (nNodes (F := Ideal)) (sitofp .f32 (constantI S_ 32 0#32)) i
      = ((50000 : ℝ) : EReal) := by
  show Ideal.ofBits .f32 0x47435000#32 - ((((0#32 : BitVec 32).toInt : ℤ) : ℝ) : EReal) = _
  rw [ofBits_50000]
  simp

theorem varR_nonnegArr {a : Arr (F := Ideal) S50000x128 .f32} (ha : RealArr a) :
    ∀ j, ∃ v : ℝ, 0 ≤ v ∧ varR a j = ((v : ℝ) : EReal) := by
  intro j
  have hmu : RealArr (Host.divf (F := Ideal) (φ := .f32) (row1 (colSum a))
      (broadcastInDim S1x128 ![] bcast_S_S1x128 (nNodes (F := Ideal)))) :=
    RealArr.hostDivf_const (φ := .f32) (row1_real (colSum_realArr ha)) (c := 50000) (by norm_num)
      fun _ => ofBits_50000
  have hd := RealArr.subf (φ := .f32) ha (rows_real hmu)
  have hsum := nonneg_reduceAdd (φ := .f32) (nonneg_mulf_self (φ := .f32) hd) (init := zero0 (F := Ideal))
    (fun i => ⟨0, le_rfl, (zero0_apply i).trans EReal.coe_zero.symm⟩)
    reducesTo_S50000x128_S128_d0 h_S_
  have hq := nonneg_hostDivf (φ := .f32) hsum
    (y := broadcastInDim S128 ![] bcast_S_S128
      (subf (F := Ideal) (φ := .f32) (nNodes (F := Ideal)) (sitofp .f32 (constantI S_ 32 0#32))))
    (fun _ => ⟨50000, by norm_num, count_apply _⟩)
  have hc : broadcastInDim S128 ![] bcast_S_S128
      (cmpf (F := Ideal) (φ := .f32) .ogt (subf (F := Ideal) (φ := .f32) (nNodes (F := Ideal))
        (sitofp .f32 (constantI S_ 32 0#32))) (zero0 (F := Ideal))) j = 1 := by
    refine (cmpf_ogt_apply (φ := .f32) _ _ _).2 ?_
    rw [count_apply, zero0_apply]
    exact_mod_cast (by norm_num : (0 : ℝ) < 50000)
  obtain ⟨v, hv, e⟩ := hq j
  exact ⟨v, hv, (if_pos hc).trans e⟩

theorem bnR_realArr {a : Arr (F := Ideal) S50000x128 .f32} {mu var g bt : Arr (F := Ideal) S128 .f32}
    (ha : RealArr a) (hmu : RealArr mu) (hvar : ∀ j, ∃ v : ℝ, 0 ≤ v ∧ var j = ((v : ℝ) : EReal))
    (hg : RealArr g) (hbt : RealArr bt) : RealArr (bnR a mu var g bt) := by
  have hr : RealArr (Host.rsqrt (addf var
      (broadcastInDim S128 ![] bcast_S_S128 (constant (F := Ideal) S_ .f32 0x3727C5AC#32)))) :=
    realArr_hostRsqrt (φ := .f32) (pos_addf_const (φ := .f32) hvar eps_pos fun _ => ofBits_eps)
  exact ((((ha.subf (rows_real (row1_real hmu))).mulf (rows_real (row1_real hr))).mulf
    (rows_real (row1_real hg))).addf (rows_real (row1_real hbt))).maximumf
    (zero0_real.broadcastInDim _ _)

theorem layerR_real {nrm : Arr (F := Ideal) S650000 .f32} {w : Arr (F := Ideal) S128x128 .f32}
    {b g bt : Arr (F := Ideal) S128 .f32} {h : Arr (F := Ideal) S50000x128 .f32} (hn : RealArr nrm)
    (hw : RealArr w) (hb : RealArr b) (hg : RealArr g) (hbt : RealArr bt) (hh : RealArr h)
    (row col : Arr (F := Ideal) S650000 .i32) : RealArr (layerR nrm row col w b g bt h) :=
  bnR_realArr (preR_real hn hw hb hh row col) (meanR_realArr (preR_real hn hw hb hh row col))
    (varR_nonnegArr (preR_real hn hw hb hh row col)) hg hbt

end Cert.Val

end
-- ==== Proof.Val.Final.lean ====
import proofs.«408439_j66932770341395_1_alg».proof.Proof.Val.VarBridge
import proofs.«408439_j66932770341395_1_alg».proof.Proof.Val.Layout
import proofs.«408439_j66932770341395_1_alg».proof.Proof.Val.Real
import proofs.«408439_j66932770341395_1_alg».proof.Proof.Val.KTerms

noncomputable section

namespace Cert.Val

open Idealize.ShloMosaic Cert.ReferenceIdeal Cert.ReferenceIdeal.Gen Cert.LibMoments Cert.LibRealArr

theorem kLayer_eq (nrm : Vec Ideal S650000 .f32) (row col : Vec Ideal S650000 .i32)
    (w : Vec Ideal S128x128 .f32) (b g bt : Vec Ideal S128 .f32) (h : Vec Ideal S50000x128 .f32)
    (hpre : ∀ i, IsReal (Spec.preR (F := Ideal) nrm row col w b h i)) :
    Cert.KernelIdeal.Val.kLayer nrm row col w b g bt h = Spec.layerR (F := Ideal) nrm row col w b g bt h := by
  unfold Cert.KernelIdeal.Val.kLayer Spec.layerR
  dsimp only
  rw [var_bridge _ hpre, mean_bridge, bn_rows]

theorem kOut_eq (x : Vec Ideal S50000x128 .f32) (ei : Vec Ideal S2x600000 .i32) (batch : Vec Ideal S50000 .i32)
    (wenc : Vec Ideal S128x128 .f32) (benc : Vec Ideal S128 .f32) (w : Vec Ideal S4x128x128 .f32)
    (b g bt : Vec Ideal S4x128 .f32) (wc : Vec Ideal S128x10 .f32) (bcl : Vec Ideal S10 .f32)
    (hx : ∀ i, IsReal (x i)) (hwenc : ∀ i, IsReal (wenc i)) (hbenc : ∀ i, IsReal (benc i))
    (hw : ∀ i, IsReal (w i)) (hb : ∀ i, IsReal (b i)) (hg : ∀ i, IsReal (g i)) (hbt : ∀ i, IsReal (bt i)) :
    Cert.KernelIdeal.Val.kOut x ei (broadcastInDim S50000x1 ![0] bcast_S50000_S50000x1_0 batch) wenc benc w b g bt wc
        (broadcastInDim S1x10 ![1] bcast_S10_S1x10_1 bcl)
      = Spec.refOut (F := Ideal) x ei batch wenc benc w b g bt wc bcl := by
  have hx' : RealArr x := hx
  have hwenc' : RealArr wenc := hwenc
  have hbenc' : RealArr benc := hbenc
  have hw' : RealArr w := hw
  have hb' : RealArr b := hb
  have hg' : RealArr g := hg
  have hbt' : RealArr bt := hbt
  have hn : RealArr (Spec.normR (F := Ideal) ei) := normR_real ei

  have w0 := wSl_real hw' ![0, 0, 0] slices_S4x128x128_S1x128x128_0_0_0
  have w1 := wSl_real hw' ![1, 0, 0] slices_S4x128x128_S1x128x128_1_0_0
  have w2 := wSl_real hw' ![2, 0, 0] slices_S4x128x128_S1x128x128_2_0_0
  have w3 := wSl_real hw' ![3, 0, 0] slices_S4x128x128_S1x128x128_3_0_0
  have b0 := vSl_real hb' ![0, 0] slices_S4x128_S1x128_0_0
  have b1 := vSl_real hb' ![1, 0] slices_S4x128_S1x128_1_0
  have b2 := vSl_real hb' ![2, 0] slices_S4x128_S1x128_2_0
  have b3 := vSl_real hb' ![3, 0] slices_S4x128_S1x128_3_0
  have g0 := vSl_real hg' ![0, 0] slices_S4x128_S1x128_0_0
  have g1 := vSl_real hg' ![1, 0] slices_S4x128_S1x128_1_0
  have g2 := vSl_real hg' ![2, 0] slices_S4x128_S1x128_2_0
  have g3 := vSl_real hg' ![3, 0] slices_S4x128_S1x128_3_0
  have t0 := vSl_real hbt' ![0, 0] slices_S4x128_S1x128_0_0
  have t1 := vSl_real hbt' ![1, 0] slices_S4x128_S1x128_1_0
  have t2 := vSl_real hbt' ![2, 0] slices_S4x128_S1x128_2_0
  have t3 := vSl_real hbt' ![3, 0] slices_S4x128_S1x128_3_0

  have h0 := encR_real hx' hwenc' hbenc'
  have h1 := layerR_real hn w0 b0 g0 t0 h0 (Spec.rowR (F := Ideal) ei) (Spec.colR (F := Ideal) ei)
  have h2 := layerR_real hn w1 b1 g1 t1 h1 (Spec.rowR (F := Ideal) ei) (Spec.colR (F := Ideal) ei)
  have h3 := layerR_real hn w2 b2 g2 t2 h2 (Spec.rowR (F := Ideal) ei) (Spec.colR (F := Ideal) ei)

  have e0 := kLayer_eq _ _ _ _ _ (Spec.vSl (F := Ideal) g ![0, 0] slices_S4x128_S1x128_0_0)
    (Spec.vSl (F := Ideal) bt ![0, 0] slices_S4x128_S1x128_0_0) _
    (preR_real hn w0 b0 h0 (Spec.rowR (F := Ideal) ei) (Spec.colR (F := Ideal) ei))
  have e1 := kLayer_eq _ _ _ _ _ (Spec.vSl (F := Ideal) g ![1, 0] slices_S4x128_S1x128_1_0)
    (Spec.vSl (F := Ideal) bt ![1, 0] slices_S4x128_S1x128_1_0) _
    (preR_real hn w1 b1 h1 (Spec.rowR (F := Ideal) ei) (Spec.colR (F := Ideal) ei))
  have e2 := kLayer_eq _ _ _ _ _ (Spec.vSl (F := Ideal) g ![2, 0] slices_S4x128_S1x128_2_0)
    (Spec.vSl (F := Ideal) bt ![2, 0] slices_S4x128_S1x128_2_0) _
    (preR_real hn w2 b2 h2 (Spec.rowR (F := Ideal) ei) (Spec.colR (F := Ideal) ei))
  have e3 := kLayer_eq _ _ _ _ _ (Spec.vSl (F := Ideal) g ![3, 0] slices_S4x128_S1x128_3_0)
    (Spec.vSl (F := Ideal) bt ![3, 0] slices_S4x128_S1x128_3_0) _
    (preR_real hn w3 b3 h3 (Spec.rowR (F := Ideal) ei) (Spec.colR (F := Ideal) ei))
  unfold Cert.KernelIdeal.Val.kOut Spec.refOut Spec.poolR
  dsimp only
  rw [e0, e1, e2, e3]

end Cert.Val

end
-- ==== Proof.lean ====
import proofs.«408439_j66932770341395_1_alg».proof.Defs
import proofs.«408439_j66932770341395_1_alg».proof.Proof.Gen.Kernel
import proofs.«408439_j66932770341395_1_alg».proof.Proof.Gen.KernelIdeal
import proofs.«408439_j66932770341395_1_alg».proof.Proof.Gen.ReferenceIdeal
import proofs.«408439_j66932770341395_1_alg».proof.Proof.Gen.Pre_finite_inputs
import proofs.«408439_j66932770341395_1_alg».proof.Proof.K.Run
import proofs.«408439_j66932770341395_1_alg».proof.Proof.KI.Run
import proofs.«408439_j66932770341395_1_alg».proof.Proof.Ref.Claims
import proofs.«408439_j66932770341395_1_alg».proof.Proof.Val.Pre
import proofs.«408439_j66932770341395_1_alg».proof.Proof.Val.KChain
import proofs.«408439_j66932770341395_1_alg».proof.Proof.Val.Final
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Reg.frame (F := Bits) m ρ

theorem frame_ki : Cert.frame_KernelIdeal := fun m ρ _ => Cert.KernelIdeal.Reg.frame (F := Ideal) m ρ

theorem kernel_value (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Reg.W30 (F := Ideal) m ρ c (Proc.devRef .tc Cert.KernelIdeal.main_v174)
      = Cert.ReferenceIdeal.Spec.refOut (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10)) := by
  obtain ⟨h0, h3, h4, h5, h6, h7, h8, h9, h10⟩ := Cert.Val.real_of_pre m hpre c
  rw [Cert.KernelIdeal.Val.kernel_out m ρ c, Cert.Val.reshape_col, Cert.Val.reshape_row10]
  exact Cert.Val.kOut_eq _ _ _ _ _ _ _ _ _ _ _ h0 h3 h4 h5 h6 h7 h8

theorem algebraic : Cert.algebraic_KernelIdeal_ReferenceIdeal := by
  intro m ρ m' ρ' hpre hagree
  refine ⟨fun c => Cert.KernelIdeal.Reg.W30 (F := Ideal) m ρ c (Proc.devRef .tc Cert.KernelIdeal.main_v174), ?_, ?_⟩
  · exact (θ_run Cert.KernelIdeal.defs _ _).mono (fun r h c =>
      ⟨h c _ (Cert.KernelIdeal.Reg.mem_uc Cert.KernelIdeal.main_v174 (by decide)),
       (h c _ (Cert.KernelIdeal.Reg.mem_uc Cert.KernelIdeal.main_arg0 (by decide))).trans (Cert.KernelIdeal.Reg.W30_main_arg0 m ρ c),
       (h c _ (Cert.KernelIdeal.Reg.mem_uc Cert.KernelIdeal.main_arg1 (by decide))).trans (Cert.KernelIdeal.Reg.W30_main_arg1 m ρ c),
       (h c _ (Cert.KernelIdeal.Reg.mem_uc Cert.KernelIdeal.main_arg2 (by decide))).trans (Cert.KernelIdeal.Reg.W30_main_arg2 m ρ c),
       (h c _ (Cert.KernelIdeal.Reg.mem_uc Cert.KernelIdeal.main_arg3 (by decide))).trans (Cert.KernelIdeal.Reg.W30_main_arg3 m ρ c),
       (h c _ (Cert.KernelIdeal.Reg.mem_uc Cert.KernelIdeal.main_arg4 (by decide))).trans (Cert.KernelIdeal.Reg.W30_main_arg4 m ρ c),
       (h c _ (Cert.KernelIdeal.Reg.mem_uc Cert.KernelIdeal.main_arg5 (by decide))).trans (Cert.KernelIdeal.Reg.W30_main_arg5 m ρ c),
       (h c _ (Cert.KernelIdeal.Reg.mem_uc Cert.KernelIdeal.main_arg6 (by decide))).trans (Cert.KernelIdeal.Reg.W30_main_arg6 m ρ c),
       (h c _ (Cert.KernelIdeal.Reg.mem_uc Cert.KernelIdeal.main_arg7 (by decide))).trans (Cert.KernelIdeal.Reg.W30_main_arg7 m ρ c),
       (h c _ (Cert.KernelIdeal.Reg.mem_uc Cert.KernelIdeal.main_arg8 (by decide))).trans (Cert.KernelIdeal.Reg.W30_main_arg8 m ρ c),
       (h c _ (Cert.KernelIdeal.Reg.mem_uc Cert.KernelIdeal.main_arg9 (by decide))).trans (Cert.KernelIdeal.Reg.W30_main_arg9 m ρ c),
       (h c _ (Cert.KernelIdeal.Reg.mem_uc Cert.KernelIdeal.main_arg10 (by decide))).trans (Cert.KernelIdeal.Reg.W30_main_arg10 m ρ c)⟩)
      (Cert.KernelIdeal.Reg.run_all (F := Ideal) m ρ)
  · refine (θ_run Cert.ReferenceIdeal.defs _ _).mono (fun r h c => ?_) (Cert.ReferenceIdeal.Hand.ref_value m' ρ')
    obtain ⟨a0, a1, a2, a3, a4, a5, a6, a7, a8, a9, a10⟩ := hagree c
    obtain ⟨hv, hrest⟩ := h c
    have key : Cert.ReferenceIdeal.Spec.refOut (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
        = Cert.KernelIdeal.Reg.W30 (F := Ideal) m ρ c (Proc.devRef .tc Cert.KernelIdeal.main_v174) := by
      rw [a0, a1, a2, a3, a4, a5, a6, a7, a8, a9, a10]
      exact (kernel_value m ρ hpre c).symm
    exact ⟨hv.trans key, hrest⟩

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.Hand.frame_ri, trivial, algebraic⟩

end Cert.Proof

end
